-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v246)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v246) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v309) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1280 : Shape := ⟨2, ![100000, 1280]⟩
abbrev S2x200000 : Shape := ⟨2, ![2, 200000]⟩
abbrev S2x1000000 : Shape := ⟨2, ![2, 1000000]⟩
abbrev S2x1600000 : Shape := ⟨2, ![2, 1600000]⟩
abbrev S3x1280x128 : Shape := ⟨3, ![3, 1280, 128]⟩
abbrev S3x128 : Shape := ⟨2, ![3, 128]⟩
abbrev S128x128 : Shape := ⟨2, ![128, 128]⟩
abbrev S128 : Shape := ⟨1, ![128]⟩
abbrev S3x128x128 : Shape := ⟨3, ![3, 128, 128]⟩
abbrev S_ : Shape := ⟨0, ![]⟩

class Facts : Prop where
  bcast_S_S100000x1280 : S_.BroadcastsInDim S100000x1280 (![] : Fin 0 → Fin S100000x1280.rank)
  reducesTo_S100000x1280_S_d0_1 : S100000x1280.ReducesTo [0, 1] S_
  h_S_ : 0 < S_.numel
  bcast_S_S3x1280x128 : S_.BroadcastsInDim S3x1280x128 (![] : Fin 0 → Fin S3x1280x128.rank)
  reducesTo_S3x1280x128_S_d0_1_2 : S3x1280x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_

variable [Facts]

def fn_part3 {F : FTy → Type} [FloatOps F] (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg10 : FVec F S3x128x128 .f32) (main_arg11 : FVec F S3x128 .f32) (main_arg12 : FVec F S128x128 .f32) (main_arg13 : FVec F S128 .f32) (main_arg14 : FVec F S128 .f32) (main_arg15 : FVec F S128 .f32) (main_v33 : IVec S_ 1) : IVec S_ 1 :=
  let main_v34 : FVec F S3x128x128 .f32 := Host.absf main_arg10
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg11
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_v48 main_v49 main_v50

def fn_part1 {F : FTy → Type} [FloatOps F] (main_arg7 : FVec F S128 .f32) (main_arg8 : FVec F S128 .f32) (main_arg9 : FVec F S128 .f32) (main_arg10 : FVec F S3x128x128 .f32) (main_arg11 : FVec F S3x128 .f32) (main_arg12 : FVec F S128x128 .f32) (main_arg13 : FVec F S128 .f32) (main_arg14 : FVec F S128 .f32) (main_arg15 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S100000x1280 .f32) (main_arg1 : IVec S2x200000 32) (main_arg2 : IVec S2x1000000 32) (main_arg3 : IVec S2x1600000 32) (main_arg4 : FVec F S3x1280x128 .f32) (main_arg5 : FVec F S3x128 .f32) (main_arg6 : FVec F S128x128 .f32) (main_arg7 : FVec F S128 .f32) (main_arg8 : FVec F S128 .f32) (main_arg9 : FVec F S128 .f32) (main_arg10 : FVec F S3x128x128 .f32) (main_arg11 : FVec F S3x128 .f32) (main_arg12 : FVec F S128x128 .f32) (main_arg13 : FVec F S128 .f32) (main_arg14 : FVec F S128 .f32) (main_arg15 : FVec F S128 .f32) : IVec S_ 1 :=
  let main_v0 : FVec F S100000x1280 .f32 := Host.absf main_arg0
  let main_cst : FVec F S_ .f32 := constant S_ .f32 0x7F800000#32
  let main_v1 : FVec F S100000x1280 .f32 := broadcastInDim S100000x1280 ![] bcast_S_S100000x1280 main_cst
  let main_v2 : IVec S100000x1280 1 := cmpf .olt main_v0 main_v1
  let main_c : IVec S_ 1 := constantI S_ 1 1#1
  let main_v3 : IVec S_ 1 := (fun x v => Host.reduce IntOp.andi x v reducesTo_S100000x1280_S_d0_1 h_S_) main_v2 main_c
  let main_v4 : FVec F S3x1280x128 .f32 := Host.absf main_arg4
  let main_cst_0 : FVec F S_ .f32 := constant S_ .f32 0x7F800000#32
  let main_v5 : FVec F S3x1280x128 .f32 := broadcastInDim S3x1280x128 ![] bcast_S_S3x1280x128 main_cst_0
  let main_v6 : IVec S3x1280x128 1 := cmpf .olt main_v4 main_v5
  let main_c_1 : IVec S_ 1 := constantI S_ 1 1#1
  let main_v7 : IVec S_ 1 := (fun x v => Host.reduce IntOp.andi x v reducesTo_S3x1280x128_S_d0_1_2 h_S_) main_v6 main_c_1
  let main_v8 : IVec S_ 1 := andi main_v3 main_v7
  let main_v9 : FVec F S3x128 .f32 := Host.absf main_arg5
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_v13 main_v16
-- ==== Kernel.lean ====
abbrev S100000x1280 : Shape := ⟨2, ![100000, 1280]⟩
abbrev S2x200000 : Shape := ⟨2, ![2, 200000]⟩
abbrev S2x1000000 : Shape := ⟨2, ![2, 1000000]⟩
abbrev S2x1600000 : Shape := ⟨2, ![2, 1600000]⟩
abbrev S3x1280x128 : Shape := ⟨3, ![3, 1280, 128]⟩
abbrev S3x128 : Shape := ⟨2, ![3, 128]⟩
abbrev S128x128 : Shape := ⟨2, ![128, 128]⟩
abbrev S128 : Shape := ⟨1, ![128]⟩
abbrev S3x128x128 : Shape := ⟨3, ![3, 128, 128]⟩
abbrev S1x200000 : Shape := ⟨2, ![1, 200000]⟩
abbrev S200000 : Shape := ⟨1, ![200000]⟩
abbrev S_ : Shape := ⟨0, ![]⟩
abbrev S100000 : Shape := ⟨1, ![100000]⟩
abbrev S200000x1 : Shape := ⟨2, ![200000, 1]⟩
abbrev S1x1000000 : Shape := ⟨2, ![1, 1000000]⟩
abbrev S1000000 : Shape := ⟨1, ![1000000]⟩
abbrev S1000000x1 : Shape := ⟨2, ![1000000, 1]⟩
abbrev S1x1600000 : Shape := ⟨2, ![1, 1600000]⟩
abbrev S1600000 : Shape := ⟨1, ![1600000]⟩
abbrev S1600000x1 : Shape := ⟨2, ![1600000, 1]⟩
abbrev S100000x1 : Shape := ⟨2, ![100000, 1]⟩
abbrev S100000x3 : Shape := ⟨2, ![100000, 3]⟩
abbrev S1x1280x128 : Shape := ⟨3, ![1, 1280, 128]⟩
abbrev S1280x128 : Shape := ⟨2, ![1280, 128]⟩
abbrev S1280x384 : Shape := ⟨2, ![1280, 384]⟩
abbrev S100000x384 : Shape := ⟨2, ![100000, 384]⟩
abbrev S1000x1280 : Shape := ⟨2, ![1000, 1280]⟩
abbrev S1000x3 : Shape := ⟨2, ![1000, 3]⟩
abbrev S1000x384 : Shape := ⟨2, ![1000, 384]⟩
abbrev S1000x128 : Shape := ⟨2, ![1000, 128]⟩
abbrev S1000x1 : Shape := ⟨2, ![1000, 1]⟩
abbrev S100000x128 : Shape := ⟨2, ![100000, 128]⟩
abbrev S200000x128 : Shape := ⟨2, ![200000, 128]⟩
abbrev S1x128 : Shape := ⟨2, ![1, 128]⟩
abbrev S1000000x128 : Shape := ⟨2, ![1000000, 128]⟩
abbrev S1600000x128 : Shape := ⟨2, ![1600000, 128]⟩
abbrev S2000x128 : Shape := ⟨2, ![2000, 128]⟩
abbrev S1x128x128 : Shape := ⟨3, ![1, 128, 128]⟩
abbrev S128x384 : Shape := ⟨2, ![128, 384]⟩
abbrev S2000x3 : Shape := ⟨2, ![2000, 3]⟩
abbrev S2000x384 : Shape := ⟨2, ![2000, 384]⟩
abbrev S2000x1 : Shape := ⟨2, ![2000, 1]⟩

abbrev nBuf : Space → Nat
  | .hbm => 324
  | .vmem => 46
  | .smem => 0
  | _ => 0

abbrev hbmTy0_0 (i : Nat) : BufTy := match i % 128 with
  | 0 => ⟨S100000x1280, .f32⟩
  | 1 => ⟨S2x200000, .i32⟩
  | 2 => ⟨S2x1000000, .i32⟩
  | 3 => ⟨S2x1600000, .i32⟩
  | 4 => ⟨S3x1280x128, .f32⟩
  | 5 => ⟨S3x128, .f32⟩
  | 6 => ⟨S128x128, .f32⟩
  | 7 => ⟨S128, .f32⟩
  | 8 => ⟨S128, .f32⟩
  | 9 => ⟨S128, .f32⟩
  | 10 => ⟨S3x128x128, .f32⟩
  | 11 => ⟨S3x128, .f32⟩
  | 12 => ⟨S128x128, .f32⟩
  | 13 => ⟨S128, .f32⟩
  | 14 => ⟨S128, .f32⟩
  | 15 => ⟨S128, .f32⟩
  | 16 => ⟨S1x200000, .i32⟩
  | 17 => ⟨S200000, .i32⟩
  | 18 => ⟨S1x200000, .i32⟩
  | 19 => ⟨S200000, .i32⟩
  | 20 => ⟨S_, .f32⟩
  | 21 => ⟨S200000, .f32⟩
  | 22 => ⟨S_, .f32⟩
  | 23 => ⟨S100000, .f32⟩
  | 24 => ⟨S200000x1, .i32⟩
  | 25 => ⟨S100000, .f32⟩
  | 26 => ⟨S_, .f32⟩
  | 27 => ⟨S_, .f32⟩
  | 28 => ⟨S100000, .f32⟩
  | 29 => ⟨S100000, .f32⟩
  | 30 => ⟨S_, .f32⟩
  | 31 => ⟨S100000, .f32⟩
  | 32 => ⟨S200000x1, .i32⟩
  | 33 => ⟨S100000, .f32⟩
  | 34 => ⟨S_, .f32⟩
  | 35 => ⟨S_, .f32⟩
  | 36 => ⟨S100000, .f32⟩
  | 37 => ⟨S100000, .f32⟩
  | 38 => ⟨S_, .f32⟩
  | 39 => ⟨S100000, .f32⟩
  | 40 => ⟨S100000, .f32⟩
  | 41 => ⟨S_, .f32⟩
  | 42 => ⟨S100000, .f32⟩
  | 43 => ⟨S100000, .f32⟩
  | 44 => ⟨S1x1000000, .i32⟩
  | 45 => ⟨S1000000, .i32⟩
  | 46 => ⟨S1x1000000, .i32⟩
  | 47 => ⟨S1000000, .i32⟩
  | 48 => ⟨S_, .f32⟩
  | 49 => ⟨S1000000, .f32⟩
  | 50 => ⟨S_, .f32⟩
  | 51 => ⟨S100000, .f32⟩
  | 52 => ⟨S1000000x1, .i32⟩
  | 53 => ⟨S100000, .f32⟩
  | 54 => ⟨S_, .f32⟩
  | 55 => ⟨S_, .f32⟩
  | 56 => ⟨S100000, .f32⟩
  | 57 => ⟨S100000, .f32⟩
  | 58 => ⟨S_, .f32⟩
  | 59 => ⟨S100000, .f32⟩
  | 60 => ⟨S1000000x1, .i32⟩
  | 61 => ⟨S100000, .f32⟩
  | 62 => ⟨S_, .f32⟩
  | 63 => ⟨S_, .f32⟩
  | 64 => ⟨S100000, .f32⟩
  | 65 => ⟨S100000, .f32⟩
  | 66 => ⟨S_, .f32⟩
  | 67 => ⟨S100000, .f32⟩
  | 68 => ⟨S100000, .f32⟩
  | 69 => ⟨S_, .f32⟩
  | 70 => ⟨S100000, .f32⟩
  | 71 => ⟨S100000, .f32⟩
  | 72 => ⟨S1x1600000, .i32⟩
  | 73 => ⟨S1600000, .i32⟩
  | 74 => ⟨S1x1600000, .i32⟩
  | 75 => ⟨S1600000, .i32⟩
  | 76 => ⟨S_, .f32⟩
  | 77 => ⟨S1600000, .f32⟩
  | 78 => ⟨S_, .f32⟩
  | 79 => ⟨S100000, .f32⟩
  | 80 => ⟨S1600000x1, .i32⟩
  | 81 => ⟨S100000, .f32⟩
  | 82 => ⟨S_, .f32⟩
  | 83 => ⟨S_, .f32⟩
  | 84 => ⟨S100000, .f32⟩
  | 85 => ⟨S100000, .f32⟩
  | 86 => ⟨S_, .f32⟩
  | 87 => ⟨S100000, .f32⟩
  | 88 => ⟨S1600000x1, .i32⟩
  | 89 => ⟨S100000, .f32⟩
  | 90 => ⟨S_, .f32⟩
  | 91 => ⟨S_, .f32⟩
  | 92 => ⟨S100000, .f32⟩
  | 93 => ⟨S100000, .f32⟩
  | 94 => ⟨S_, .f32⟩
  | 95 => ⟨S100000, .f32⟩
  | 96 => ⟨S100000, .f32⟩
  | 97 => ⟨S_, .f32⟩
  | 98 => ⟨S100000, .f32⟩
  | 99 => ⟨S100000, .f32⟩
  | 100 => ⟨S100000x1, .f32⟩
  | 101 => ⟨S100000x1, .f32⟩
  | 102 => ⟨S100000x1, .f32⟩
  | 103 => ⟨S100000x3, .f32⟩
  | 104 => ⟨S1x1280x128, .f32⟩
  | 105 => ⟨S1280x128, .f32⟩
  | 106 => ⟨S1x1280x128, .f32⟩
  | 107 => ⟨S1280x128, .f32⟩
  | 108 => ⟨S1x1280x128, .f32⟩
  | 109 => ⟨S1280x128, .f32⟩
  | 110 => ⟨S1280x384, .f32⟩
  | 111 => ⟨S100000x384, .f32⟩
  | 112 => ⟨S_, .f32⟩
  | 113 => ⟨S100000x128, .f32⟩
  | 114 => ⟨S1x200000, .i32⟩
  | 115 => ⟨S200000, .i32⟩
  | 116 => ⟨S1x200000, .i32⟩
  | 117 => ⟨S200000, .i32⟩
  | 118 => ⟨S100000x128, .f32⟩
  | 119 => ⟨S_, .i32⟩
  | 120 => ⟨S200000, .i32⟩
  | 121 => ⟨S200000, .i1⟩
  | 122 => ⟨S_, .i32⟩
  | 123 => ⟨S200000, .i32⟩
  | 124 => ⟨S200000, .i32⟩
  | 125 => ⟨S200000, .i32⟩
  | 126 => ⟨S200000x1, .i32⟩
  | 127 => ⟨S200000x128, .f32⟩
  | _ => ⟨S100000x1280, .f32⟩

abbrev hbmTy0_1 (i : Nat) : BufTy := match i % 128 with
  | 0 => ⟨S_, .f32⟩
  | 1 => ⟨S100000x128, .f32⟩
  | 2 => ⟨S200000x1, .i32⟩
  | 3 => ⟨S100000x128, .f32⟩
  | 4 => ⟨S100000x1, .f32⟩
  | 5 => ⟨S100000x128, .f32⟩
  | 6 => ⟨S100000x128, .f32⟩
  | 7 => ⟨S1x128, .f32⟩
  | 8 => ⟨S128, .f32⟩
  | 9 => ⟨S1x128, .f32⟩
  | 10 => ⟨S100000x128, .f32⟩
  | 11 => ⟨S100000x128, .f32⟩
  | 12 => ⟨S100000x128, .f32⟩
  | 13 => ⟨S1x1000000, .i32⟩
  | 14 => ⟨S1000000, .i32⟩
  | 15 => ⟨S1x1000000, .i32⟩
  | 16 => ⟨S1000000, .i32⟩
  | 17 => ⟨S100000x128, .f32⟩
  | 18 => ⟨S_, .i32⟩
  | 19 => ⟨S1000000, .i32⟩
  | 20 => ⟨S1000000, .i1⟩
  | 21 => ⟨S_, .i32⟩
  | 22 => ⟨S1000000, .i32⟩
  | 23 => ⟨S1000000, .i32⟩
  | 24 => ⟨S1000000, .i32⟩
  | 25 => ⟨S1000000x1, .i32⟩
  | 26 => ⟨S1000000x128, .f32⟩
  | 27 => ⟨S_, .f32⟩
  | 28 => ⟨S100000x128, .f32⟩
  | 29 => ⟨S1000000x1, .i32⟩
  | 30 => ⟨S100000x128, .f32⟩
  | 31 => ⟨S100000x1, .f32⟩
  | 32 => ⟨S100000x128, .f32⟩
  | 33 => ⟨S100000x128, .f32⟩
  | 34 => ⟨S1x128, .f32⟩
  | 35 => ⟨S128, .f32⟩
  | 36 => ⟨S1x128, .f32⟩
  | 37 => ⟨S100000x128, .f32⟩
  | 38 => ⟨S100000x128, .f32⟩
  | 39 => ⟨S100000x128, .f32⟩
  | 40 => ⟨S1x1600000, .i32⟩
  | 41 => ⟨S1600000, .i32⟩
  | 42 => ⟨S1x1600000, .i32⟩
  | 43 => ⟨S1600000, .i32⟩
  | 44 => ⟨S100000x128, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000x1, .f32⟩
  | 59 => ⟨S100000x128, .f32⟩
  | 60 => ⟨S100000x128, .f32⟩
  | 61 => ⟨S1x128, .f32⟩
  | 62 => ⟨S128, .f32⟩
  | 63 => ⟨S1x128, .f32⟩
  | 64 => ⟨S100000x128, .f32⟩
  | 65 => ⟨S100000x128, .f32⟩
  | 66 => ⟨S100000x128, .f32⟩
  | 67 => ⟨S1x128, .f32⟩
  | 68 => ⟨S100000x128, .f32⟩
  | 69 => ⟨S1x128, .f32⟩
  | 70 => ⟨S1x128, .f32⟩
  | 71 => ⟨S128, .f32⟩
  | 72 => ⟨S_, .f32⟩
  | 73 => ⟨S128, .f32⟩
  | 74 => ⟨S128, .f32⟩
  | 75 => ⟨S128, .f32⟩
  | 76 => ⟨S_, .f32⟩
  | 77 => ⟨S128, .f32⟩
  | 78 => ⟨S128, .f32⟩
  | 79 => ⟨S128, .f32⟩
  | 80 => ⟨S128, .f32⟩
  | 81 => ⟨S1x128, .f32⟩
  | 82 => ⟨S1x128, .f32⟩
  | 83 => ⟨S1x128, .f32⟩
  | 84 => ⟨S1x128, .f32⟩
  | 85 => ⟨S100000x128, .f32⟩
  | 86 => ⟨S1x128x128, .f32⟩
  | 87 => ⟨S128x128, .f32⟩
  | 88 => ⟨S1x128x128, .f32⟩
  | 89 => ⟨S128x128, .f32⟩
  | 90 => ⟨S1x128x128, .f32⟩
  | 91 => ⟨S128x128, .f32⟩
  | 92 => ⟨S128x384, .f32⟩
  | 93 => ⟨S100000x384, .f32⟩
  | 94 => ⟨S_, .f32⟩
  | 95 => ⟨S100000x128, .f32⟩
  | 96 => ⟨S1x200000, .i32⟩
  | 97 => ⟨S200000, .i32⟩
  | 98 => ⟨S1x200000, .i32⟩
  | 99 => ⟨S200000, .i32⟩
  | 100 => ⟨S100000x128, .f32⟩
  | 101 => ⟨S_, .i32⟩
  | 102 => ⟨S200000, .i32⟩
  | 103 => ⟨S200000, .i1⟩
  | 104 => ⟨S_, .i32⟩
  | 105 => ⟨S200000, .i32⟩
  | 106 => ⟨S200000, .i32⟩
  | 107 => ⟨S200000, .i32⟩
  | 108 => ⟨S200000x1, .i32⟩
  | 109 => ⟨S200000x128, .f32⟩
  | 110 => ⟨S_, .f32⟩
  | 111 => ⟨S100000x128, .f32⟩
  | 112 => ⟨S200000x1, .i32⟩
  | 113 => ⟨S100000x128, .f32⟩
  | 114 => ⟨S100000x1, .f32⟩
  | 115 => ⟨S100000x128, .f32⟩
  | 116 => ⟨S100000x128, .f32⟩
  | 117 => ⟨S1x128, .f32⟩
  | 118 => ⟨S128, .f32⟩
  | 119 => ⟨S1x128, .f32⟩
  | 120 => ⟨S100000x128, .f32⟩
  | 121 => ⟨S100000x128, .f32⟩
  | 122 => ⟨S100000x128, .f32⟩
  | 123 => ⟨S1x1000000, .i32⟩
  | 124 => ⟨S1000000, .i32⟩
  | 125 => ⟨S1x1000000, .i32⟩
  | 126 => ⟨S1000000, .i32⟩
  | 127 => ⟨S100000x128, .f32⟩
  | _ => ⟨S100000x1280, .f32⟩

abbrev hbmTy0_2 (i : Nat) : BufTy := match i % 128 with
  | 0 => ⟨S_, .i32⟩
  | 1 => ⟨S1000000, .i32⟩
  | 2 => ⟨S1000000, .i1⟩
  | 3 => ⟨S_, .i32⟩
  | 4 => ⟨S1000000, .i32⟩
  | 5 => ⟨S1000000, .i32⟩
  | 6 => ⟨S1000000, .i32⟩
  | 7 => ⟨S1000000x1, .i32⟩
  | 8 => ⟨S1000000x128, .f32⟩
  | 9 => ⟨S_, .f32⟩
  | 10 => ⟨S100000x128, .f32⟩
  | 11 => ⟨S1000000x1, .i32⟩
  | 12 => ⟨S100000x128, .f32⟩
  | 13 => ⟨S100000x1, .f32⟩
  | 14 => ⟨S100000x128, .f32⟩
  | 15 => ⟨S100000x128, .f32⟩
  | 16 => ⟨S1x128, .f32⟩
  | 17 => ⟨S128, .f32⟩
  | 18 => ⟨S1x128, .f32⟩
  | 19 => ⟨S100000x128, .f32⟩
  | 20 => ⟨S100000x128, .f32⟩
  | 21 => ⟨S100000x128, .f32⟩
  | 22 => ⟨S1x1600000, .i32⟩
  | 23 => ⟨S1600000, .i32⟩
  | 24 => ⟨S1x1600000, .i32⟩
  | 25 => ⟨S1600000, .i32⟩
  | 26 => ⟨S100000x128, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x128, .f32⟩
  | 36 => ⟨S_, .f32⟩
  | 37 => ⟨S100000x128, .f32⟩
  | 38 => ⟨S1600000x1, .i32⟩
  | 39 => ⟨S100000x128, .f32⟩
  | 40 => ⟨S100000x1, .f32⟩
  | 41 => ⟨S100000x128, .f32⟩
  | 42 => ⟨S100000x128, .f32⟩
  | 43 => ⟨S1x128, .f32⟩
  | 44 => ⟨S128, .f32⟩
  | 45 => ⟨S1x128, .f32⟩
  | 46 => ⟨S100000x128, .f32⟩
  | 47 => ⟨S100000x128, .f32⟩
  | 48 => ⟨S100000x128, .f32⟩
  | 49 => ⟨S1x128, .f32⟩
  | 50 => ⟨S100000x128, .f32⟩
  | 51 => ⟨S1x128, .f32⟩
  | 52 => ⟨S1x128, .f32⟩
  | 53 => ⟨S128, .f32⟩
  | 54 => ⟨S_, .f32⟩
  | 55 => ⟨S128, .f32⟩
  | 56 => ⟨S128, .f32⟩
  | 57 => ⟨S128, .f32⟩
  | 58 => ⟨S_, .f32⟩
  | 59 => ⟨S128, .f32⟩
  | 60 => ⟨S128, .f32⟩
  | 61 => ⟨S128, .f32⟩
  | 62 => ⟨S128, .f32⟩
  | 63 => ⟨S1x128, .f32⟩
  | 64 => ⟨S1x128, .f32⟩
  | 65 => ⟨S1x128, .f32⟩
  | 66 => ⟨S1x128, .f32⟩
  | 67 => ⟨S100000x128, .f32⟩
  | _ => ⟨S100000x1280, .f32⟩

abbrev hbmTy (i : Nat) : BufTy := match i / 128 with
  | 0 => hbmTy0_0 i
  | 1 => hbmTy0_1 i
  | 2 => hbmTy0_2 i
  | _ => ⟨S100000x1280, .f32⟩

abbrev bufTy : (tb : Table) → Fin (tcTables nBuf tb) → BufTy
  | .hbm, ⟨i, _⟩ => hbmTy i
  | .local _ .vmem, ⟨0, _⟩ => ⟨S1000x1280, .f32⟩
  | .local _ .vmem, ⟨1, _⟩ => ⟨S1000x1280, .f32⟩
  | .local _ .vmem, ⟨2, _⟩ => ⟨S1280x384, .f32⟩
  | .local _ .vmem, ⟨3, _⟩ => ⟨S1000x3, .f32⟩
  | .local _ .vmem, ⟨4, _⟩ => ⟨S1000x3, .f32⟩
  | .local _ .vmem, ⟨5, _⟩ => ⟨S1000x384, .f32⟩
  | .local _ .vmem, ⟨6, _⟩ => ⟨S1000x384, .f32⟩
  | .local _ .vmem, ⟨7, _⟩ => ⟨S2000x128, .f32⟩
  | .local _ .vmem, ⟨8, _⟩ => ⟨S2000x128, .f32⟩
  | .local _ .vmem, ⟨9, _⟩ => ⟨S128x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S128x384, .f32⟩
  | .local _ .vmem, ⟨26, _⟩ => ⟨S2000x3, .f32⟩
  | .local _ .vmem, ⟨27, _⟩ => ⟨S2000x3, .f32⟩
  | .local _ .vmem, ⟨28, _⟩ => ⟨S2000x384, .f32⟩
  | .local _ .vmem, ⟨29, _⟩ => ⟨S2000x384, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S1x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S2000x128, .f32⟩
  | .local _ .vmem, ⟨45, _⟩ => ⟨S2000x128, .f32⟩
  | _, _ => ⟨S100000x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_v12 : Ref sig .tc := ⟨.hbm, 37, rfl⟩
abbrev main_cst_4 : Ref sig .tc := ⟨.hbm, 38, rfl⟩
abbrev main_v13 : Ref sig .tc := ⟨.hbm, 39, rfl⟩
abbrev main_v14 : Ref sig .tc := ⟨.hbm, 40, rfl⟩
abbrev main_cst_5 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_6 : Ref sig .tc := ⟨.hbm, 48, rfl⟩
abbrev main_v21 : Ref sig .tc := ⟨.hbm, 49, rfl⟩
abbrev main_cst_7 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_8 : Ref sig .tc := ⟨.hbm, 54, rfl⟩
abbrev main_call2_v0 : Ref sig .tc := ⟨.hbm, 55, rfl⟩
abbrev main_call2_v1 : Ref sig .tc := ⟨.hbm, 56, rfl⟩
abbrev main_v25 : Ref sig .tc := ⟨.hbm, 57, rfl⟩
abbrev main_cst_9 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_10 : Ref sig .tc := ⟨.hbm, 62, rfl⟩
abbrev main_call3_v0 : Ref sig .tc := ⟨.hbm, 63, rfl⟩
abbrev main_call3_v1 : Ref sig .tc := ⟨.hbm, 64, rfl⟩
abbrev main_v29 : Ref sig .tc := ⟨.hbm, 65, rfl⟩
abbrev main_cst_11 : Ref sig .tc := ⟨.hbm, 66, rfl⟩
abbrev main_v30 : Ref sig .tc := ⟨.hbm, 67, rfl⟩
abbrev main_v31 : Ref sig .tc := ⟨.hbm, 68, rfl⟩
abbrev main_cst_12 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_13 : Ref sig .tc := ⟨.hbm, 76, rfl⟩
abbrev main_v38 : Ref sig .tc := ⟨.hbm, 77, rfl⟩
abbrev main_cst_14 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_15 : Ref sig .tc := ⟨.hbm, 82, rfl⟩
abbrev main_call4_v0 : Ref sig .tc := ⟨.hbm, 83, rfl⟩
abbrev main_call4_v1 : Ref sig .tc := ⟨.hbm, 84, rfl⟩
abbrev main_v42 : Ref sig .tc := ⟨.hbm, 85, rfl⟩
abbrev main_cst_16 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_17 : Ref sig .tc := ⟨.hbm, 90, rfl⟩
abbrev main_call5_v0 : Ref sig .tc := ⟨.hbm, 91, rfl⟩
abbrev main_call5_v1 : Ref sig .tc := ⟨.hbm, 92, rfl⟩
abbrev main_v46 : Ref sig .tc := ⟨.hbm, 93, rfl⟩
abbrev main_cst_18 : Ref sig .tc := ⟨.hbm, 94, rfl⟩
abbrev main_v47 : Ref sig .tc := ⟨.hbm, 95, rfl⟩
abbrev main_v48 : Ref sig .tc := ⟨.hbm, 96, rfl⟩
abbrev main_cst_19 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_20 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_c : Ref sig .tc := ⟨.hbm, 119, rfl⟩
abbrev main_v69 : Ref sig .tc := ⟨.hbm, 120, rfl⟩
abbrev main_v70 : Ref sig .tc := ⟨.hbm, 121, rfl⟩
abbrev main_c_21 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_cst_22 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_c_23 : Ref sig .tc := ⟨.hbm, 146, rfl⟩
abbrev main_v93 : Ref sig .tc := ⟨.hbm, 147, rfl⟩
abbrev main_v94 : Ref sig .tc := ⟨.hbm, 148, rfl⟩
abbrev main_c_24 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_cst_25 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_c_26 : Ref sig .tc := ⟨.hbm, 173, rfl⟩
abbrev main_v117 : Ref sig .tc := ⟨.hbm, 174, rfl⟩
abbrev main_v118 : Ref sig .tc := ⟨.hbm, 175, rfl⟩
abbrev main_c_27 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_cst_28 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137_0 : Ref sig .tc := ⟨.hbm, 196, rfl⟩
abbrev main_v137_1 : Ref sig .tc := ⟨.hbm, 197, rfl⟩
abbrev main_v137_2 : Ref sig .tc := ⟨.hbm, 198, rfl⟩
abbrev main_v138 : Ref sig .tc := ⟨.hbm, 199, rfl⟩
abbrev main_cst_29 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_cst_30 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_cst_31 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_c_32 : Ref sig .tc := ⟨.hbm, 229, rfl⟩
abbrev main_v165 : Ref sig .tc := ⟨.hbm, 230, rfl⟩
abbrev main_v166 : Ref sig .tc := ⟨.hbm, 231, rfl⟩
abbrev main_c_33 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_cst_34 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_c_35 : Ref sig .tc := ⟨.hbm, 256, rfl⟩
abbrev main_v189 : Ref sig .tc := ⟨.hbm, 257, rfl⟩
abbrev main_v190 : Ref sig .tc := ⟨.hbm, 258, rfl⟩
abbrev main_c_36 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_cst_37 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_c_38 : Ref sig .tc := ⟨.hbm, 283, rfl⟩
abbrev main_v213 : Ref sig .tc := ⟨.hbm, 284, rfl⟩
abbrev main_v214 : Ref sig .tc := ⟨.hbm, 285, rfl⟩
abbrev main_c_39 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_cst_40 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233_0 : Ref sig .tc := ⟨.hbm, 306, rfl⟩
abbrev main_v233_1 : Ref sig .tc := ⟨.hbm, 307, rfl⟩
abbrev main_v233_2 : Ref sig .tc := ⟨.hbm, 308, rfl⟩
abbrev main_v234 : Ref sig .tc := ⟨.hbm, 309, rfl⟩
abbrev main_cst_41 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_cst_42 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg5_0 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg5_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem5_0 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc4_sem4_0 : DmaSem sig := 36
abbrev cc4_sem5_0 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem4_0 : DmaSem sig := 43
abbrev cc5_sem5_0 : DmaSem sig := 44
abbrev cc5_sem5_1 : DmaSem sig := 45

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x384 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x3 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x384 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S_S100000 : S_.BroadcastsInDim S100000 (![] : Fin 0 → Fin S100000.rank)
  bcast_S200000_S200000x1_0 : S200000.BroadcastsInDim S200000x1 (![0] : Fin 1 → Fin S200000x1.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  concatenates_S100000x1_S100000x1_S100000x1_S100000x3_d1 : Shape.Concatenates [S100000x1, S100000x1, S100000x1] S100000x3 1
  slices_S3x1280x128_S1x1280x128_0_0_0 : S3x1280x128.Slices ![0, 0, 0] S1x1280x128
  shapeCasts_S1x1280x128_S1280x128 : S1x1280x128.ShapeCasts S1280x128
  slices_S3x1280x128_S1x1280x128_1_0_0 : S3x1280x128.Slices ![1, 0, 0] S1x1280x128
  slices_S3x1280x128_S1x1280x128_2_0_0 : S3x1280x128.Slices ![2, 0, 0] S1x1280x128
  concatenates_S1280x128_S1280x128_S1280x128_S1280x384_d1 : Shape.Concatenates [S1280x128, S1280x128, S1280x128] S1280x384 1
  inb_S1000x1280_S1000x1280_0_0 : ∀ a, (![0, 0] : Fin 2 → Nat) a + S1000x1280.size a ≤ S1000x1280.size a
  h_S1000x1280 : 0 < S1000x1280.numel
  bitsLt_bf16_f32 : FTy.bits .bf16 < FTy.bits .f32
  inb_S1280x384_S1280x384_0_0 : ∀ a, (![0, 0] : Fin 2 → Nat) a + S1280x384.size a ≤ S1280x384.size a
  h_S1280x384 : 0 < S1280x384.numel
  shapeCasts_S1280x384_S1280x384 : S1280x384.ShapeCasts S1280x384
  inb_S1000x3_S1000x3_0_0 : ∀ a, (![0, 0] : Fin 2 → Nat) a + S1000x3.size a ≤ S1000x3.size a
  h_S1000x3 : 0 < S1000x3.numel
  shapeCasts_S1000x3_S1000x3 : S1000x3.ShapeCasts S1000x3
  slices_S1000x384_o0_0_S1000x128 : S1000x384.Slices ![0, 0] S1000x128
  slices_S1000x3_o0_0_S1000x1 : S1000x3.Slices ![0, 0] S1000x1
  broadcasts_S1000x1_S1000x128 : S1000x1.Broadcasts S1000x128
  inb_S1000x384_S1000x128_0_0 : ∀ a, (![0, 0] : Fin 2 → Nat) a + S1000x128.size a ≤ S1000x384.size a
  h_S1000x128 : 0 < S1000x128.numel
  slices_S1000x384_o0_128_S1000x128 : S1000x384.Slices ![0, 128] S1000x128
  slices_S1000x3_o0_1_S1000x1 : S1000x3.Slices ![0, 1] S1000x1
  inb_S1000x384_S1000x128_0_128 : ∀ a, (![0, 128] : Fin 2 → Nat) a + S1000x128.size a ≤ S1000x384.size a
  slices_S1000x384_o0_256_S1000x128 : S1000x384.Slices ![0, 256] S1000x128
  slices_S1000x3_o0_2_S1000x1 : S1000x3.Slices ![0, 2] S1000x1
  inb_S1000x384_S1000x128_0_256 : ∀ a, (![0, 256] : Fin 2 → Nat) a + S1000x128.size a ≤ S1000x384.size a
  bcast_S_S100000x128 : S_.BroadcastsInDim S100000x128 (![] : Fin 0 → Fin S100000x128.rank)
  slices_S100000x384_S100000x128_0_0 : S100000x384.Slices ![0, 0] S100000x128
  bcast_S100000x1_S100000x128_0_1 : S100000x1.BroadcastsInDim S100000x128 (![0, 1] : Fin 2 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S100000x384_S100000x128_0_128 : S100000x384.Slices ![0, 128] S100000x128
  slices_S3x128_S1x128_1_0 : S3x128.Slices ![1, 0] S1x128
  slices_S100000x384_S100000x128_0_256 : S100000x384.Slices ![0, 256] S100000x128
  slices_S3x128_S1x128_2_0 : S3x128.Slices ![2, 0] S1x128
  inb_S1x128_S1x128_0_0 : ∀ a, (![0, 0] : Fin 2 → Nat) a + S1x128.size a ≤ S1x128.size a
  h_S1x128 : 0 < S1x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S2000x128 : S1x128.Broadcasts S2000x128
  reduces_S2000x128_S128 : S2000x128.Reduces [0] S128
  shapeCasts_S128_S1x128 : S128.ShapeCasts S1x128
  bcast_S_S128 : S_.BroadcastsInDim S128 (![] : Fin 0 → Fin S128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  concatenates_S128x128_S128x128_S128x128_S128x384_d1 : Shape.Concatenates [S128x128, S128x128, S128x128] S128x384 1
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  slices_S2000x384_o0_0_S2000x128 : S2000x384.Slices ![0, 0] S2000x128
  slices_S2000x3_o0_0_S2000x1 : S2000x3.Slices ![0, 0] S2000x1
  broadcasts_S2000x1_S2000x128 : S2000x1.Broadcasts S2000x128
  inb_S2000x384_S2000x128_0_0 : ∀ a, (![0, 0] : Fin 2 → Nat) a + S2000x128.size a ≤ S2000x384.size a
  slices_S2000x384_o0_128_S2000x128 : S2000x384.Slices ![0, 128] S2000x128
  slices_S2000x3_o0_1_S2000x1 : S2000x3.Slices ![0, 1] S2000x1
  inb_S2000x384_S2000x128_0_128 : ∀ a, (![0, 128] : Fin 2 → Nat) a + S2000x128.size a ≤ S2000x384.size a
  slices_S2000x384_o0_256_S2000x128 : S2000x384.Slices ![0, 256] S2000x128
  slices_S2000x3_o0_2_S2000x1 : S2000x3.Slices ![0, 2] S2000x1
  inb_S2000x384_S2000x128_0_256 : ∀ a, (![0, 256] : Fin 2 → Nat) a + S2000x128.size a ≤ S2000x384.size a
  scatter_S100000_S200000x1_S200000_n_0_0_1_wf : ScatterDims.WF S100000 S200000x1 S200000 [] [0] [0] 1
  scatter_S100000_S1000000x1_S1000000_n_0_0_1_wf : ScatterDims.WF S100000 S1000000x1 S1000000 [] [0] [0] 1
  scatter_S100000_S1600000x1_S1600000_n_0_0_1_wf : ScatterDims.WF S100000 S1600000x1 S1600000 [] [0] [0] 1
  dot_S1000x1280_S1280x384_S1000x384_1_0_0_1_n_n_wf : DotDims.WF S1000x1280 S1280x384 S1000x384 [1] [0] [0] [1] [] []
  gather_S100000x128_S200000x1_S200000x128_1_0_n_n_0_1_1128_wf : GatherDims.WF S100000x128 S200000x1 S200000x128 [1] [0] [] [0] [] 1 ![1, 128]
  scatter_S100000x128_S200000x1_S200000x128_1_0_0_1_wf : ScatterDims.WF S100000x128 S200000x1 S200000x128 [1] [0] [0] 1
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1280.size a ≤ S100000x1280.size a
  hwx0_0 : ∀ i : grid0.Coords, EltTy.bits .f32 = 32 ∨ (Rect.block (s := S100000x1280) S1000x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x384.size a ≤ S1280x384.size a
  hwx0_1 : ∀ i : grid0.Coords, EltTy.bits .f32 = 32 ∨ (Rect.block (s := S1280x384) S1280x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x3.size a ≤ S100000x3.size a
  hwx0_2 : ∀ i : grid0.Coords, EltTy.bits .f32 = 32 ∨ (Rect.block (s := S100000x3) S1000x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x384.size a ≤ S100000x384.size a
  hwx0_3 : ∀ i : grid0.Coords, EltTy.bits .f32 = 32 ∨ (Rect.block (s := S100000x384) S1000x384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x384.size a ≤ S128x384.size a
  hwx3_1 : ∀ i : grid3.Coords, EltTy.bits .f32 = 32 ∨ (Rect.block (s := S128x384) S128x384.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x3.size a ≤ S100000x3.size a
  hwx3_2 : ∀ i : grid3.Coords, EltTy.bits .f32 = 32 ∨ (Rect.block (s := S100000x3) S2000x3.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x384.size a ≤ S100000x384.size a
  hwx3_3 : ∀ i : grid3.Coords, EltTy.bits .f32 = 32 ∨ (Rect.block (s := S100000x384) S2000x384.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S100000x128.size a
  hwx4_3 : ∀ i : grid4.Coords, EltTy.bits .f32 = 32 ∨ (Rect.block (s := S100000x128) S2000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S100000x128.size a
  hwx5_5 : ∀ i : grid5.Coords, EltTy.bits .f32 = 32 ∨ (Rect.block (s := S100000x128) S2000x128.size (cc5_transform_5 i) (hinb5_5 i)).WholeWords (EltTy.packing .f32)

variable [Facts₀]

def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S1000x1280_S1280x384_S1000x384_1_0_0_1_n_n : DotDims S1000x1280 S1280x384 S1000x384 where
  lhsContracting := [1]
  rhsContracting := [0]
  lhsNonContracting := [0]
  rhsNonContracting := [1]
  lhsBatch := []
  rhsBatch := []
  wf := dot_S1000x1280_S1280x384_S1000x384_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_arg0) S1000x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v61) S1280x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v54) S1000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v62) S1000x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v135) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v136) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v137_0) S2000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v137_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v137_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v137_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v146) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v147) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v148) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v149) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v150) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v150) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v157) S128x384.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S2000x3.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v158) S2000x384.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v231) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v232) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v233_0) S2000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v233_1) S1x128.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v233_2) S1x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v233_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v242) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v243) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v244) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v245) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v246) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x1280 : Shape := ⟨2, ![100000, 1280]⟩
abbrev S2x200000 : Shape := ⟨2, ![2, 200000]⟩
abbrev S2x1000000 : Shape := ⟨2, ![2, 1000000]⟩
abbrev S2x1600000 : Shape := ⟨2, ![2, 1600000]⟩
abbrev S3x1280x128 : Shape := ⟨3, ![3, 1280, 128]⟩
abbrev S3x128 : Shape := ⟨2, ![3, 128]⟩
abbrev S128x128 : Shape := ⟨2, ![128, 128]⟩
abbrev S128 : Shape := ⟨1, ![128]⟩
abbrev S3x128x128 : Shape := ⟨3, ![3, 128, 128]⟩
abbrev S1x200000 : Shape := ⟨2, ![1, 200000]⟩
abbrev S200000 : Shape := ⟨1, ![200000]⟩
abbrev S1x1280x128 : Shape := ⟨3, ![1, 1280, 128]⟩
abbrev S1280x128 : Shape := ⟨2, ![1280, 128]⟩
abbrev S1x128 : Shape := ⟨2, ![1, 128]⟩
abbrev S_ : Shape := ⟨0, ![]⟩
abbrev S100000 : Shape := ⟨1, ![100000]⟩
abbrev S200000x1 : Shape := ⟨2, ![200000, 1]⟩
abbrev S100000x1 : Shape := ⟨2, ![100000, 1]⟩
abbrev S100000x128 : Shape := ⟨2, ![100000, 128]⟩
abbrev S200000x128 : Shape := ⟨2, ![200000, 128]⟩
abbrev S1x1000000 : Shape := ⟨2, ![1, 1000000]⟩
abbrev S1000000 : Shape := ⟨1, ![1000000]⟩
abbrev S1000000x1 : Shape := ⟨2, ![1000000, 1]⟩
abbrev S1000000x128 : Shape := ⟨2, ![1000000, 128]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S1x128x128 : Shape := ⟨3, ![1, 128, 128]⟩

abbrev nBuf : Space → Nat
  | .hbm => 424
  | .vmem => 0
  | .smem => 0
  | _ => 0

abbrev hbmTy0_0 (i : Nat) : BufTy := match i % 128 with
  | 0 => ⟨S100000x1280, .f32⟩
  | 1 => ⟨S2x200000, .i32⟩
  | 2 => ⟨S2x1000000, .i32⟩
  | 3 => ⟨S2x1600000, .i32⟩
  | 4 => ⟨S3x1280x128, .f32⟩
  | 5 => ⟨S3x128, .f32⟩
  | 6 => ⟨S128x128, .f32⟩
  | 7 => ⟨S128, .f32⟩
  | 8 => ⟨S128, .f32⟩
  | 9 => ⟨S128, .f32⟩
  | 10 => ⟨S3x128x128, .f32⟩
  | 11 => ⟨S3x128, .f32⟩
  | 12 => ⟨S128x128, .f32⟩
  | 13 => ⟨S128, .f32⟩
  | 14 => ⟨S128, .f32⟩
  | 15 => ⟨S128, .f32⟩
  | 16 => ⟨S1x200000, .i32⟩
  | 17 => ⟨S200000, .i32⟩
  | 18 => ⟨S1x200000, .i32⟩
  | 19 => ⟨S200000, .i32⟩
  | 20 => ⟨S1x1280x128, .f32⟩
  | 21 => ⟨S1280x128, .f32⟩
  | 22 => ⟨S1x128, .f32⟩
  | 23 => ⟨S128, .f32⟩
  | 24 => ⟨S_, .f32⟩
  | 25 => ⟨S200000, .f32⟩
  | 26 => ⟨S_, .f32⟩
  | 27 => ⟨S100000, .f32⟩
  | 28 => ⟨S200000x1, .i32⟩
  | 29 => ⟨S100000, .f32⟩
  | 30 => ⟨S_, .f32⟩
  | 31 => ⟨S_, .f32⟩
  | 32 => ⟨S100000, .f32⟩
  | 33 => ⟨S100000, .f32⟩
  | 34 => ⟨S_, .f32⟩
  | 35 => ⟨S100000, .f32⟩
  | 36 => ⟨S200000x1, .i32⟩
  | 37 => ⟨S100000, .f32⟩
  | 38 => ⟨S_, .f32⟩
  | 39 => ⟨S_, .f32⟩
  | 40 => ⟨S100000, .f32⟩
  | 41 => ⟨S100000, .f32⟩
  | 42 => ⟨S_, .f32⟩
  | 43 => ⟨S100000, .f32⟩
  | 44 => ⟨S100000, .f32⟩
  | 45 => ⟨S100000x1, .f32⟩
  | 46 => ⟨S100000x1280, .f32⟩
  | 47 => ⟨S100000x1280, .f32⟩
  | 48 => ⟨S100000x128, .f32⟩
  | 49 => ⟨S_, .i32⟩
  | 50 => ⟨S200000, .i32⟩
  | 51 => ⟨S200000, .i1⟩
  | 52 => ⟨S_, .i32⟩
  | 53 => ⟨S200000, .i32⟩
  | 54 => ⟨S200000, .i32⟩
  | 55 => ⟨S200000, .i32⟩
  | 56 => ⟨S200000x1, .i32⟩
  | 57 => ⟨S200000x128, .f32⟩
  | 58 => ⟨S_, .f32⟩
  | 59 => ⟨S100000x128, .f32⟩
  | 60 => ⟨S200000x1, .i32⟩
  | 61 => ⟨S100000x128, .f32⟩
  | 62 => ⟨S_, .f32⟩
  | 63 => ⟨S100000, .f32⟩
  | 64 => ⟨S100000, .f32⟩
  | 65 => ⟨S100000x1, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S1x1000000, .i32⟩
  | 72 => ⟨S1000000, .i32⟩
  | 73 => ⟨S1x1000000, .i32⟩
  | 74 => ⟨S1000000, .i32⟩
  | 75 => ⟨S1x1280x128, .f32⟩
  | 76 => ⟨S1280x128, .f32⟩
  | 77 => ⟨S1x128, .f32⟩
  | 78 => ⟨S128, .f32⟩
  | 79 => ⟨S_, .f32⟩
  | 80 => ⟨S1000000, .f32⟩
  | 81 => ⟨S_, .f32⟩
  | 82 => ⟨S100000, .f32⟩
  | 83 => ⟨S1000000x1, .i32⟩
  | 84 => ⟨S100000, .f32⟩
  | 85 => ⟨S_, .f32⟩
  | 86 => ⟨S_, .f32⟩
  | 87 => ⟨S100000, .f32⟩
  | 88 => ⟨S100000, .f32⟩
  | 89 => ⟨S_, .f32⟩
  | 90 => ⟨S100000, .f32⟩
  | 91 => ⟨S1000000x1, .i32⟩
  | 92 => ⟨S100000, .f32⟩
  | 93 => ⟨S_, .f32⟩
  | 94 => ⟨S_, .f32⟩
  | 95 => ⟨S100000, .f32⟩
  | 96 => ⟨S100000, .f32⟩
  | 97 => ⟨S_, .f32⟩
  | 98 => ⟨S100000, .f32⟩
  | 99 => ⟨S100000, .f32⟩
  | 100 => ⟨S100000x1, .f32⟩
  | 101 => ⟨S100000x1280, .f32⟩
  | 102 => ⟨S100000x1280, .f32⟩
  | 103 => ⟨S100000x128, .f32⟩
  | 104 => ⟨S_, .i32⟩
  | 105 => ⟨S1000000, .i32⟩
  | 106 => ⟨S1000000, .i1⟩
  | 107 => ⟨S_, .i32⟩
  | 108 => ⟨S1000000, .i32⟩
  | 109 => ⟨S1000000, .i32⟩
  | 110 => ⟨S1000000, .i32⟩
  | 111 => ⟨S1000000x1, .i32⟩
  | 112 => ⟨S1000000x128, .f32⟩
  | 113 => ⟨S_, .f32⟩
  | 114 => ⟨S100000x128, .f32⟩
  | 115 => ⟨S1000000x1, .i32⟩
  | 116 => ⟨S100000x128, .f32⟩
  | 117 => ⟨S_, .f32⟩
  | 118 => ⟨S100000, .f32⟩
  | 119 => ⟨S100000, .f32⟩
  | 120 => ⟨S100000x1, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S100000x128, .f32⟩
  | 127 => ⟨S1x1600000, .i32⟩
  | _ => ⟨S100000x1280, .f32⟩

abbrev hbmTy0_1 (i : Nat) : BufTy := match i % 128 with
  | 0 => ⟨S1600000, .i32⟩
  | 1 => ⟨S1x1600000, .i32⟩
  | 2 => ⟨S1600000, .i32⟩
  | 3 => ⟨S1x1280x128, .f32⟩
  | 4 => ⟨S1280x128, .f32⟩
  | 5 => ⟨S1x128, .f32⟩
  | 6 => ⟨S128, .f32⟩
  | 7 => ⟨S_, .f32⟩
  | 8 => ⟨S1600000, .f32⟩
  | 9 => ⟨S_, .f32⟩
  | 10 => ⟨S100000, .f32⟩
  | 11 => ⟨S1600000x1, .i32⟩
  | 12 => ⟨S100000, .f32⟩
  | 13 => ⟨S_, .f32⟩
  | 14 => ⟨S_, .f32⟩
  | 15 => ⟨S100000, .f32⟩
  | 16 => ⟨S100000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S100000x1, .f32⟩
  | 29 => ⟨S100000x1280, .f32⟩
  | 30 => ⟨S100000x1280, .f32⟩
  | 31 => ⟨S100000x128, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x128, .f32⟩
  | 41 => ⟨S_, .f32⟩
  | 42 => ⟨S100000x128, .f32⟩
  | 43 => ⟨S1600000x1, .i32⟩
  | 44 => ⟨S100000x128, .f32⟩
  | 45 => ⟨S_, .f32⟩
  | 46 => ⟨S100000, .f32⟩
  | 47 => ⟨S100000, .f32⟩
  | 48 => ⟨S100000x1, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S_, .f32⟩
  | 63 => ⟨S128, .f32⟩
  | 64 => ⟨S_, .f32⟩
  | 65 => ⟨S128, .f32⟩
  | 66 => ⟨S128, .f32⟩
  | 67 => ⟨S1x128, .f32⟩
  | 68 => ⟨S100000x128, .f32⟩
  | 69 => ⟨S100000x128, .f32⟩
  | 70 => ⟨S100000x128, .f32⟩
  | 71 => ⟨S_, .f32⟩
  | 72 => ⟨S128, .f32⟩
  | 73 => ⟨S_, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S_, .f32⟩
  | 80 => ⟨S128, .f32⟩
  | 81 => ⟨S128, .f32⟩
  | 82 => ⟨S128, .f32⟩
  | 83 => ⟨S1x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S1x200000, .i32⟩
  | 93 => ⟨S200000, .i32⟩
  | 94 => ⟨S1x200000, .i32⟩
  | 95 => ⟨S200000, .i32⟩
  | 96 => ⟨S1x128x128, .f32⟩
  | 97 => ⟨S128x128, .f32⟩
  | 98 => ⟨S1x128, .f32⟩
  | 99 => ⟨S128, .f32⟩
  | 100 => ⟨S_, .f32⟩
  | 101 => ⟨S200000, .f32⟩
  | 102 => ⟨S_, .f32⟩
  | 103 => ⟨S100000, .f32⟩
  | 104 => ⟨S200000x1, .i32⟩
  | 105 => ⟨S100000, .f32⟩
  | 106 => ⟨S_, .f32⟩
  | 107 => ⟨S_, .f32⟩
  | 108 => ⟨S100000, .f32⟩
  | 109 => ⟨S100000, .f32⟩
  | 110 => ⟨S_, .f32⟩
  | 111 => ⟨S100000, .f32⟩
  | 112 => ⟨S200000x1, .i32⟩
  | 113 => ⟨S100000, .f32⟩
  | 114 => ⟨S_, .f32⟩
  | 115 => ⟨S_, .f32⟩
  | 116 => ⟨S100000, .f32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x128, .f32⟩
  | 123 => ⟨S100000x128, .f32⟩
  | 124 => ⟨S100000x128, .f32⟩
  | 125 => ⟨S_, .i32⟩
  | 126 => ⟨S200000, .i32⟩
  | 127 => ⟨S200000, .i1⟩
  | _ => ⟨S100000x1280, .f32⟩

abbrev hbmTy0_2 (i : Nat) : BufTy := match i % 128 with
  | 0 => ⟨S_, .i32⟩
  | 1 => ⟨S200000, .i32⟩
  | 2 => ⟨S200000, .i32⟩
  | 3 => ⟨S200000, .i32⟩
  | 4 => ⟨S200000x1, .i32⟩
  | 5 => ⟨S200000x128, .f32⟩
  | 6 => ⟨S_, .f32⟩
  | 7 => ⟨S100000x128, .f32⟩
  | 8 => ⟨S200000x1, .i32⟩
  | 9 => ⟨S100000x128, .f32⟩
  | 10 => ⟨S_, .f32⟩
  | 11 => ⟨S100000, .f32⟩
  | 12 => ⟨S100000, .f32⟩
  | 13 => ⟨S100000x1, .f32⟩
  | 14 => ⟨S100000x128, .f32⟩
  | 15 => ⟨S100000x128, .f32⟩
  | 16 => ⟨S1x128, .f32⟩
  | 17 => ⟨S100000x128, .f32⟩
  | 18 => ⟨S100000x128, .f32⟩
  | 19 => ⟨S1x1000000, .i32⟩
  | 20 => ⟨S1000000, .i32⟩
  | 21 => ⟨S1x1000000, .i32⟩
  | 22 => ⟨S1000000, .i32⟩
  | 23 => ⟨S1x128x128, .f32⟩
  | 24 => ⟨S128x128, .f32⟩
  | 25 => ⟨S1x128, .f32⟩
  | 26 => ⟨S128, .f32⟩
  | 27 => ⟨S_, .f32⟩
  | 28 => ⟨S1000000, .f32⟩
  | 29 => ⟨S_, .f32⟩
  | 30 => ⟨S100000, .f32⟩
  | 31 => ⟨S1000000x1, .i32⟩
  | 32 => ⟨S100000, .f32⟩
  | 33 => ⟨S_, .f32⟩
  | 34 => ⟨S_, .f32⟩
  | 35 => ⟨S100000, .f32⟩
  | 36 => ⟨S100000, .f32⟩
  | 37 => ⟨S_, .f32⟩
  | 38 => ⟨S100000, .f32⟩
  | 39 => ⟨S1000000x1, .i32⟩
  | 40 => ⟨S100000, .f32⟩
  | 41 => ⟨S_, .f32⟩
  | 42 => ⟨S_, .f32⟩
  | 43 => ⟨S100000, .f32⟩
  | 44 => ⟨S100000, .f32⟩
  | 45 => ⟨S_, .f32⟩
  | 46 => ⟨S100000, .f32⟩
  | 47 => ⟨S100000, .f32⟩
  | 48 => ⟨S100000x1, .f32⟩
  | 49 => ⟨S100000x128, .f32⟩
  | 50 => ⟨S100000x128, .f32⟩
  | 51 => ⟨S100000x128, .f32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x128, .f32⟩
  | 61 => ⟨S_, .f32⟩
  | 62 => ⟨S100000x128, .f32⟩
  | 63 => ⟨S1000000x1, .i32⟩
  | 64 => ⟨S100000x128, .f32⟩
  | 65 => ⟨S_, .f32⟩
  | 66 => ⟨S100000, .f32⟩
  | 67 => ⟨S100000, .f32⟩
  | 68 => ⟨S100000x1, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S100000x128, .f32⟩
  | 75 => ⟨S1x1600000, .i32⟩
  | 76 => ⟨S1600000, .i32⟩
  | 77 => ⟨S1x1600000, .i32⟩
  | 78 => ⟨S1600000, .i32⟩
  | 79 => ⟨S1x128x128, .f32⟩
  | 80 => ⟨S128x128, .f32⟩
  | 81 => ⟨S1x128, .f32⟩
  | 82 => ⟨S128, .f32⟩
  | 83 => ⟨S_, .f32⟩
  | 84 => ⟨S1600000, .f32⟩
  | 85 => ⟨S_, .f32⟩
  | 86 => ⟨S100000, .f32⟩
  | 87 => ⟨S1600000x1, .i32⟩
  | 88 => ⟨S100000, .f32⟩
  | 89 => ⟨S_, .f32⟩
  | 90 => ⟨S_, .f32⟩
  | 91 => ⟨S100000, .f32⟩
  | 92 => ⟨S100000, .f32⟩
  | 93 => ⟨S_, .f32⟩
  | 94 => ⟨S100000, .f32⟩
  | 95 => ⟨S1600000x1, .i32⟩
  | 96 => ⟨S100000, .f32⟩
  | 97 => ⟨S_, .f32⟩
  | 98 => ⟨S_, .f32⟩
  | 99 => ⟨S100000, .f32⟩
  | 100 => ⟨S100000, .f32⟩
  | 101 => ⟨S_, .f32⟩
  | 102 => ⟨S100000, .f32⟩
  | 103 => ⟨S100000, .f32⟩
  | 104 => ⟨S100000x1, .f32⟩
  | 105 => ⟨S100000x128, .f32⟩
  | 106 => ⟨S100000x128, .f32⟩
  | 107 => ⟨S100000x128, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x128, .f32⟩
  | 117 => ⟨S_, .f32⟩
  | 118 => ⟨S100000x128, .f32⟩
  | 119 => ⟨S1600000x1, .i32⟩
  | 120 => ⟨S100000x128, .f32⟩
  | 121 => ⟨S_, .f32⟩
  | 122 => ⟨S100000, .f32⟩
  | 123 => ⟨S100000, .f32⟩
  | 124 => ⟨S100000x1, .f32⟩
  | 125 => ⟨S100000x128, .f32⟩
  | 126 => ⟨S100000x128, .f32⟩
  | 127 => ⟨S1x128, .f32⟩
  | _ => ⟨S100000x1280, .f32⟩

abbrev hbmTy0_3 (i : Nat) : BufTy := match i % 128 with
  | 0 => ⟨S100000x128, .f32⟩
  | 1 => ⟨S100000x128, .f32⟩
  | 2 => ⟨S100000x128, .f32⟩
  | 3 => ⟨S100000x128, .f32⟩
  | 4 => ⟨S1x128, .f32⟩
  | 5 => ⟨S100000x128, .f32⟩
  | 6 => ⟨S100000x128, .f32⟩
  | 7 => ⟨S_, .f32⟩
  | 8 => ⟨S100000x128, .f32⟩
  | 9 => ⟨S100000x128, .f32⟩
  | 10 => ⟨S_, .f32⟩
  | 11 => ⟨S128, .f32⟩
  | 12 => ⟨S_, .f32⟩
  | 13 => ⟨S128, .f32⟩
  | 14 => ⟨S128, .f32⟩
  | 15 => ⟨S1x128, .f32⟩
  | 16 => ⟨S100000x128, .f32⟩
  | 17 => ⟨S100000x128, .f32⟩
  | 18 => ⟨S100000x128, .f32⟩
  | 19 => ⟨S_, .f32⟩
  | 20 => ⟨S128, .f32⟩
  | 21 => ⟨S_, .f32⟩
  | 22 => ⟨S128, .f32⟩
  | 23 => ⟨S128, .f32⟩
  | 24 => ⟨S1x128, .f32⟩
  | 25 => ⟨S100000x128, .f32⟩
  | 26 => ⟨S100000x128, .f32⟩
  | 27 => ⟨S_, .f32⟩
  | 28 => ⟨S128, .f32⟩
  | 29 => ⟨S128, .f32⟩
  | 30 => ⟨S128, .f32⟩
  | 31 => ⟨S1x128, .f32⟩
  | 32 => ⟨S100000x128, .f32⟩
  | 33 => ⟨S100000x128, .f32⟩
  | 34 => ⟨S1x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | _ => ⟨S100000x1280, .f32⟩

abbrev hbmTy (i : Nat) : BufTy := match i / 128 with
  | 0 => hbmTy0_0 i
  | 1 => hbmTy0_1 i
  | 2 => hbmTy0_2 i
  | 3 => hbmTy0_3 i
  | _ => ⟨S100000x1280, .f32⟩

abbrev bufTy : (tb : Table) → Fin (tcTables nBuf tb) → BufTy
  | .hbm, ⟨i, _⟩ => hbmTy i
  | _, _ => ⟨S100000x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_v16 : Ref sig .tc := ⟨.hbm, 41, rfl⟩
abbrev main_cst_4 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c : Ref sig .tc := ⟨.hbm, 49, rfl⟩
abbrev main_v23 : Ref sig .tc := ⟨.hbm, 50, rfl⟩
abbrev main_v24 : Ref sig .tc := ⟨.hbm, 51, rfl⟩
abbrev main_c_5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_6 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_7 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_10 : Ref sig .tc := ⟨.hbm, 85, rfl⟩
abbrev main_call2_v0 : Ref sig .tc := ⟨.hbm, 86, rfl⟩
abbrev main_call2_v1 : Ref sig .tc := ⟨.hbm, 87, rfl⟩
abbrev main_v53 : Ref sig .tc := ⟨.hbm, 88, rfl⟩
abbrev main_cst_11 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_12 : Ref sig .tc := ⟨.hbm, 93, rfl⟩
abbrev main_call3_v0 : Ref sig .tc := ⟨.hbm, 94, rfl⟩
abbrev main_call3_v1 : Ref sig .tc := ⟨.hbm, 95, rfl⟩
abbrev main_v57 : Ref sig .tc := ⟨.hbm, 96, rfl⟩
abbrev main_cst_13 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_c_14 : Ref sig .tc := ⟨.hbm, 104, rfl⟩
abbrev main_v64 : Ref sig .tc := ⟨.hbm, 105, rfl⟩
abbrev main_v65 : Ref sig .tc := ⟨.hbm, 106, rfl⟩
abbrev main_c_15 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_16 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_17 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_18 : Ref sig .tc := ⟨.hbm, 135, rfl⟩
abbrev main_v91 : Ref sig .tc := ⟨.hbm, 136, rfl⟩
abbrev main_cst_19 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_20 : Ref sig .tc := ⟨.hbm, 141, rfl⟩
abbrev main_call4_v0 : Ref sig .tc := ⟨.hbm, 142, rfl⟩
abbrev main_call4_v1 : Ref sig .tc := ⟨.hbm, 143, rfl⟩
abbrev main_v95 : Ref sig .tc := ⟨.hbm, 144, rfl⟩
abbrev main_cst_21 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_22 : Ref sig .tc := ⟨.hbm, 149, rfl⟩
abbrev main_call5_v0 : Ref sig .tc := ⟨.hbm, 150, rfl⟩
abbrev main_call5_v1 : Ref sig .tc := ⟨.hbm, 151, rfl⟩
abbrev main_v99 : Ref sig .tc := ⟨.hbm, 152, rfl⟩
abbrev main_cst_23 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_c_24 : Ref sig .tc := ⟨.hbm, 160, rfl⟩
abbrev main_v106 : Ref sig .tc := ⟨.hbm, 161, rfl⟩
abbrev main_v107 : Ref sig .tc := ⟨.hbm, 162, rfl⟩
abbrev main_c_25 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_cst_26 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_cst_27 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_call6_cst : Ref sig .tc := ⟨.hbm, 187, rfl⟩
abbrev main_call6_v0 : Ref sig .tc := ⟨.hbm, 188, rfl⟩
abbrev main_v129 : Ref sig .tc := ⟨.hbm, 189, rfl⟩
abbrev main_cst_28 : Ref sig .tc := ⟨.hbm, 190, rfl⟩
abbrev main_v130 : Ref sig .tc := ⟨.hbm, 191, rfl⟩
abbrev main_cst_29 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_cst_30 : Ref sig .tc := ⟨.hbm, 199, rfl⟩
abbrev main_v137 : Ref sig .tc := ⟨.hbm, 200, rfl⟩
abbrev main_cst_31 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_cst_32 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_cst_33 : Ref sig .tc := ⟨.hbm, 228, rfl⟩
abbrev main_v163 : Ref sig .tc := ⟨.hbm, 229, rfl⟩
abbrev main_cst_34 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_cst_35 : Ref sig .tc := ⟨.hbm, 234, rfl⟩
abbrev main_call7_v0 : Ref sig .tc := ⟨.hbm, 235, rfl⟩
abbrev main_call7_v1 : Ref sig .tc := ⟨.hbm, 236, rfl⟩
abbrev main_v167 : Ref sig .tc := ⟨.hbm, 237, rfl⟩
abbrev main_cst_36 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_cst_37 : Ref sig .tc := ⟨.hbm, 242, rfl⟩
abbrev main_call8_v0 : Ref sig .tc := ⟨.hbm, 243, rfl⟩
abbrev main_call8_v1 : Ref sig .tc := ⟨.hbm, 244, rfl⟩
abbrev main_v171 : Ref sig .tc := ⟨.hbm, 245, rfl⟩
abbrev main_cst_38 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_c_39 : Ref sig .tc := ⟨.hbm, 253, rfl⟩
abbrev main_v178 : Ref sig .tc := ⟨.hbm, 254, rfl⟩
abbrev main_v179 : Ref sig .tc := ⟨.hbm, 255, rfl⟩
abbrev main_c_40 : Ref sig .tc := ⟨.hbm, 256, rfl⟩
abbrev main_v180 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_cst_41 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_cst_42 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_cst_43 : Ref sig .tc := ⟨.hbm, 283, rfl⟩
abbrev main_v204 : Ref sig .tc := ⟨.hbm, 284, rfl⟩
abbrev main_cst_44 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_cst_45 : Ref sig .tc := ⟨.hbm, 289, rfl⟩
abbrev main_call9_v0 : Ref sig .tc := ⟨.hbm, 290, rfl⟩
abbrev main_call9_v1 : Ref sig .tc := ⟨.hbm, 291, rfl⟩
abbrev main_v208 : Ref sig .tc := ⟨.hbm, 292, rfl⟩
abbrev main_cst_46 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_cst_47 : Ref sig .tc := ⟨.hbm, 297, rfl⟩
abbrev main_call10_v0 : Ref sig .tc := ⟨.hbm, 298, rfl⟩
abbrev main_call10_v1 : Ref sig .tc := ⟨.hbm, 299, rfl⟩
abbrev main_v212 : Ref sig .tc := ⟨.hbm, 300, rfl⟩
abbrev main_cst_48 : Ref sig .tc := ⟨.hbm, 301, rfl⟩
abbrev main_v213 : Ref sig .tc := ⟨.hbm, 302, rfl⟩
abbrev main_v214 : Ref sig .tc := ⟨.hbm, 303, rfl⟩
abbrev main_v215 : Ref sig .tc := ⟨.hbm, 304, rfl⟩
abbrev main_v216 : Ref sig .tc := ⟨.hbm, 305, rfl⟩
abbrev main_v217 : Ref sig .tc := ⟨.hbm, 306, rfl⟩
abbrev main_v218 : Ref sig .tc := ⟨.hbm, 307, rfl⟩
abbrev main_c_49 : Ref sig .tc := ⟨.hbm, 308, rfl⟩
abbrev main_v219 : Ref sig .tc := ⟨.hbm, 309, rfl⟩
abbrev main_v220 : Ref sig .tc := ⟨.hbm, 310, rfl⟩
abbrev main_c_50 : Ref sig .tc := ⟨.hbm, 311, rfl⟩
abbrev main_v221 : Ref sig .tc := ⟨.hbm, 312, rfl⟩
abbrev main_v222 : Ref sig .tc := ⟨.hbm, 313, rfl⟩
abbrev main_v223 : Ref sig .tc := ⟨.hbm, 314, rfl⟩
abbrev main_v224 : Ref sig .tc := ⟨.hbm, 315, rfl⟩
abbrev main_v225 : Ref sig .tc := ⟨.hbm, 316, rfl⟩
abbrev main_cst_51 : Ref sig .tc := ⟨.hbm, 317, rfl⟩
abbrev main_v226 : Ref sig .tc := ⟨.hbm, 318, rfl⟩
abbrev main_v227 : Ref sig .tc := ⟨.hbm, 319, rfl⟩
abbrev main_v228 : Ref sig .tc := ⟨.hbm, 320, rfl⟩
abbrev main_cst_52 : Ref sig .tc := ⟨.hbm, 321, rfl⟩
abbrev main_v229 : Ref sig .tc := ⟨.hbm, 322, rfl⟩
abbrev main_v230 : Ref sig .tc := ⟨.hbm, 323, rfl⟩
abbrev main_v231 : Ref sig .tc := ⟨.hbm, 324, rfl⟩
abbrev main_v232 : Ref sig .tc := ⟨.hbm, 325, rfl⟩
abbrev main_v233 : Ref sig .tc := ⟨.hbm, 326, rfl⟩
abbrev main_v234 : Ref sig .tc := ⟨.hbm, 327, rfl⟩
abbrev main_v235 : Ref sig .tc := ⟨.hbm, 328, rfl⟩
abbrev main_v236 : Ref sig .tc := ⟨.hbm, 329, rfl⟩
abbrev main_v237 : Ref sig .tc := ⟨.hbm, 330, rfl⟩
abbrev main_v238 : Ref sig .tc := ⟨.hbm, 331, rfl⟩
abbrev main_v239 : Ref sig .tc := ⟨.hbm, 332, rfl⟩
abbrev main_v240 : Ref sig .tc := ⟨.hbm, 333, rfl⟩
abbrev main_v241 : Ref sig .tc := ⟨.hbm, 334, rfl⟩
abbrev main_v242 : Ref sig .tc := ⟨.hbm, 335, rfl⟩
abbrev main_v243 : Ref sig .tc := ⟨.hbm, 336, rfl⟩
abbrev main_v244 : Ref sig .tc := ⟨.hbm, 337, rfl⟩
abbrev main_v245 : Ref sig .tc := ⟨.hbm, 338, rfl⟩
abbrev main_cst_53 : Ref sig .tc := ⟨.hbm, 339, rfl⟩
abbrev main_v246 : Ref sig .tc := ⟨.hbm, 340, rfl⟩
abbrev main_cst_54 : Ref sig .tc := ⟨.hbm, 341, rfl⟩
abbrev main_v247 : Ref sig .tc := ⟨.hbm, 342, rfl⟩
abbrev main_v248 : Ref sig .tc := ⟨.hbm, 343, rfl⟩
abbrev main_v249 : Ref sig .tc := ⟨.hbm, 344, rfl⟩
abbrev main_cst_55 : Ref sig .tc := ⟨.hbm, 345, rfl⟩
abbrev main_call11_v0 : Ref sig .tc := ⟨.hbm, 346, rfl⟩
abbrev main_call11_v1 : Ref sig .tc := ⟨.hbm, 347, rfl⟩
abbrev main_v250 : Ref sig .tc := ⟨.hbm, 348, rfl⟩
abbrev main_cst_56 : Ref sig .tc := ⟨.hbm, 349, rfl⟩
abbrev main_v251 : Ref sig .tc := ⟨.hbm, 350, rfl⟩
abbrev main_v252 : Ref sig .tc := ⟨.hbm, 351, rfl⟩
abbrev main_v253 : Ref sig .tc := ⟨.hbm, 352, rfl⟩
abbrev main_cst_57 : Ref sig .tc := ⟨.hbm, 353, rfl⟩
abbrev main_call12_v0 : Ref sig .tc := ⟨.hbm, 354, rfl⟩
abbrev main_call12_v1 : Ref sig .tc := ⟨.hbm, 355, rfl⟩
abbrev main_v254 : Ref sig .tc := ⟨.hbm, 356, rfl⟩
abbrev main_cst_58 : Ref sig .tc := ⟨.hbm, 357, rfl⟩
abbrev main_v255 : Ref sig .tc := ⟨.hbm, 358, rfl⟩
abbrev main_v256 : Ref sig .tc := ⟨.hbm, 359, rfl⟩
abbrev main_v257 : Ref sig .tc := ⟨.hbm, 360, rfl⟩
abbrev main_v258 : Ref sig .tc := ⟨.hbm, 361, rfl⟩
abbrev main_v259 : Ref sig .tc := ⟨.hbm, 362, rfl⟩
abbrev main_v260 : Ref sig .tc := ⟨.hbm, 363, rfl⟩
abbrev main_c_59 : Ref sig .tc := ⟨.hbm, 364, rfl⟩
abbrev main_v261 : Ref sig .tc := ⟨.hbm, 365, rfl⟩
abbrev main_v262 : Ref sig .tc := ⟨.hbm, 366, rfl⟩
abbrev main_c_60 : Ref sig .tc := ⟨.hbm, 367, rfl⟩
abbrev main_v263 : Ref sig .tc := ⟨.hbm, 368, rfl⟩
abbrev main_v264 : Ref sig .tc := ⟨.hbm, 369, rfl⟩
abbrev main_v265 : Ref sig .tc := ⟨.hbm, 370, rfl⟩
abbrev main_v266 : Ref sig .tc := ⟨.hbm, 371, rfl⟩
abbrev main_v267 : Ref sig .tc := ⟨.hbm, 372, rfl⟩
abbrev main_cst_61 : Ref sig .tc := ⟨.hbm, 373, rfl⟩
abbrev main_v268 : Ref sig .tc := ⟨.hbm, 374, rfl⟩
abbrev main_v269 : Ref sig .tc := ⟨.hbm, 375, rfl⟩
abbrev main_v270 : Ref sig .tc := ⟨.hbm, 376, rfl⟩
abbrev main_cst_62 : Ref sig .tc := ⟨.hbm, 377, rfl⟩
abbrev main_v271 : Ref sig .tc := ⟨.hbm, 378, rfl⟩
abbrev main_v272 : Ref sig .tc := ⟨.hbm, 379, rfl⟩
abbrev main_v273 : Ref sig .tc := ⟨.hbm, 380, rfl⟩
abbrev main_v274 : Ref sig .tc := ⟨.hbm, 381, rfl⟩
abbrev main_v275 : Ref sig .tc := ⟨.hbm, 382, rfl⟩
abbrev main_v276 : Ref sig .tc := ⟨.hbm, 383, rfl⟩
abbrev main_v277 : Ref sig .tc := ⟨.hbm, 384, rfl⟩
abbrev main_v278 : Ref sig .tc := ⟨.hbm, 385, rfl⟩
abbrev main_v279 : Ref sig .tc := ⟨.hbm, 386, rfl⟩
abbrev main_v280 : Ref sig .tc := ⟨.hbm, 387, rfl⟩
abbrev main_v281 : Ref sig .tc := ⟨.hbm, 388, rfl⟩
abbrev main_v282 : Ref sig .tc := ⟨.hbm, 389, rfl⟩
abbrev main_v283 : Ref sig .tc := ⟨.hbm, 390, rfl⟩
abbrev main_call13_cst : Ref sig .tc := ⟨.hbm, 391, rfl⟩
abbrev main_call13_v0 : Ref sig .tc := ⟨.hbm, 392, rfl⟩
abbrev main_v284 : Ref sig .tc := ⟨.hbm, 393, rfl⟩
abbrev main_cst_63 : Ref sig .tc := ⟨.hbm, 394, rfl⟩
abbrev main_v285 : Ref sig .tc := ⟨.hbm, 395, rfl⟩
abbrev main_cst_64 : Ref sig .tc := ⟨.hbm, 396, rfl⟩
abbrev main_v286 : Ref sig .tc := ⟨.hbm, 397, rfl⟩
abbrev main_v287 : Ref sig .tc := ⟨.hbm, 398, rfl⟩
abbrev main_v288 : Ref sig .tc := ⟨.hbm, 399, rfl⟩
abbrev main_v289 : Ref sig .tc := ⟨.hbm, 400, rfl⟩
abbrev main_v290 : Ref sig .tc := ⟨.hbm, 401, rfl⟩
abbrev main_v291 : Ref sig .tc := ⟨.hbm, 402, rfl⟩
abbrev main_cst_65 : Ref sig .tc := ⟨.hbm, 403, rfl⟩
abbrev main_v292 : Ref sig .tc := ⟨.hbm, 404, rfl⟩
abbrev main_cst_66 : Ref sig .tc := ⟨.hbm, 405, rfl⟩
abbrev main_v293 : Ref sig .tc := ⟨.hbm, 406, rfl⟩
abbrev main_v294 : Ref sig .tc := ⟨.hbm, 407, rfl⟩
abbrev main_v295 : Ref sig .tc := ⟨.hbm, 408, rfl⟩
abbrev main_v296 : Ref sig .tc := ⟨.hbm, 409, rfl⟩
abbrev main_v297 : Ref sig .tc := ⟨.hbm, 410, rfl⟩
abbrev main_cst_67 : Ref sig .tc := ⟨.hbm, 411, rfl⟩
abbrev main_v298 : Ref sig .tc := ⟨.hbm, 412, rfl⟩
abbrev main_v299 : Ref sig .tc := ⟨.hbm, 413, rfl⟩
abbrev main_v300 : Ref sig .tc := ⟨.hbm, 414, rfl⟩
abbrev main_v301 : Ref sig .tc := ⟨.hbm, 415, rfl⟩
abbrev main_v302 : Ref sig .tc := ⟨.hbm, 416, rfl⟩
abbrev main_v303 : Ref sig .tc := ⟨.hbm, 417, rfl⟩
abbrev main_v304 : Ref sig .tc := ⟨.hbm, 418, rfl⟩
abbrev main_v305 : Ref sig .tc := ⟨.hbm, 419, rfl⟩
abbrev main_v306 : Ref sig .tc := ⟨.hbm, 420, rfl⟩
abbrev main_v307 : Ref sig .tc := ⟨.hbm, 421, rfl⟩
abbrev main_v308 : Ref sig .tc := ⟨.hbm, 422, rfl⟩
abbrev main_v309 : Ref sig .tc := ⟨.hbm, 423, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  slices_S3x1280x128_S1x1280x128_0_0_0 : S3x1280x128.Slices ![0, 0, 0] S1x1280x128
  shapeCasts_S1x1280x128_S1280x128 : S1x1280x128.ShapeCasts S1280x128
  slices_S3x128_S1x128_0_0 : S3x128.Slices ![0, 0] S1x128
  shapeCasts_S1x128_S128 : S1x128.ShapeCasts S128
  bcast_S_S200000 : S_.BroadcastsInDim S200000 (![] : Fin 0 → Fin S200000.rank)
  bcast_S_S100000 : S_.BroadcastsInDim S100000 (![] : Fin 0 → Fin S100000.rank)
  bcast_S200000_S200000x1_0 : S200000.BroadcastsInDim S200000x1 (![0] : Fin 1 → Fin S200000x1.rank)
  bcast_S100000_S100000x1_0 : S100000.BroadcastsInDim S100000x1 (![0] : Fin 1 → Fin S100000x1.rank)
  bcast_S100000x1_S100000x1280_0_1 : S100000x1.BroadcastsInDim S100000x1280 (![0, 1] : Fin 2 → Fin S100000x1280.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  slices_S3x1280x128_S1x1280x128_1_0_0 : S3x1280x128.Slices ![1, 0, 0] S1x1280x128
  slices_S3x128_S1x128_1_0 : S3x128.Slices ![1, 0] S1x128
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x1280x128_S1x1280x128_2_0_0 : S3x1280x128.Slices ![2, 0, 0] S1x1280x128
  slices_S3x128_S1x128_2_0 : S3x128.Slices ![2, 0] S1x128
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S100000x128_S128_d0 : S100000x128.ReducesTo [0] S128
  h_S_ : 0 < S_.numel
  bcast_S_S128 : S_.BroadcastsInDim S128 (![] : Fin 0 → Fin S128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  scatter_S100000_S200000x1_S200000_n_0_0_1_wf : ScatterDims.WF S100000 S200000x1 S200000 [] [0] [0] 1
  dot_S100000x1280_S1280x128_S100000x128_1_0_0_1_n_n_wf : DotDims.WF S100000x1280 S1280x128 S100000x128 [1] [0] [0] [1] [] []
  gather_S100000x128_S200000x1_S200000x128_1_0_n_n_0_1_1128_wf : GatherDims.WF S100000x128 S200000x1 S200000x128 [1] [0] [] [0] [] 1 ![1, 128]
  scatter_S100000x128_S200000x1_S200000x128_1_0_0_1_wf : ScatterDims.WF S100000x128 S200000x1 S200000x128 [1] [0] [0] 1
  scatter_S100000_S1000000x1_S1000000_n_0_0_1_wf : ScatterDims.WF S100000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def dot_S100000x1280_S1280x128_S100000x128_1_0_0_1_n_n : DotDims S100000x1280 S1280x128 S100000x128 where
  lhsContracting := [1]
  rhsContracting := [0]
  lhsNonContracting := [0]
  rhsNonContracting := [1]
  lhsBatch := []
  rhsBatch := []
  wf := dot_S100000x1280_S1280x128_S100000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.K.Reg0.lean ====
import proofs.«175263_j29738353557973_1_alg».proof.Proof.Gen.Kernel.Launch
import proofs.«175263_j29738353557973_1_alg».proof.Proof.Gen.Kernel.Skeleton
import proofs.«175263_j29738353557973_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1000x1280 := Rect.unit (s := S1000x1280) ![0, 0] S1000x1280.size inb_S1000x1280_S1000x1280_0_0
abbrev r0_1 : Rect S1280x384 := Rect.unit (s := S1280x384) ![0, 0] S1280x384.size inb_S1280x384_S1280x384_0_0
abbrev r0_2 : Rect S1000x3 := Rect.unit (s := S1000x3) ![0, 0] S1000x3.size inb_S1000x3_S1000x3_0_0

abbrev r0_3 : Rect S1000x384 := Rect.unit (s := S1000x384) ![0, 0] S1000x128.size inb_S1000x384_S1000x128_0_0
abbrev r0_4 : Rect S1000x384 := Rect.unit (s := S1000x384) ![0, 128] S1000x128.size inb_S1000x384_S1000x128_0_128
abbrev r0_5 : Rect S1000x384 := Rect.unit (s := S1000x384) ![0, 256] S1000x128.size inb_S1000x384_S1000x128_0_256

def out0_3 (x0 : Vec F S1000x1280 .f32) (x1 : Vec F S1280x384 .f32) (x2 : Vec F S1000x3 .f32) : Vec F S1000x384 .f32 :=
  View.canon [⟨r0_5, k0_pay5 (View.ld x0 r0_0) (View.ld x1 r0_1) (View.ld x2 r0_2)⟩,
    ⟨r0_4, k0_pay4 (View.ld x0 r0_0) (View.ld x1 r0_1) (View.ld x2 r0_2)⟩,
    ⟨r0_3, k0_pay3 (View.ld x0 r0_0) (View.ld x1 r0_1) (View.ld x2 r0_2)⟩]

theorem cover0_3 (p0 : Vec F S1000x128 .f32) (p1 : Vec F S1000x128 .f32) (p2 : Vec F S1000x128 .f32) (y : S1000x384.Idx) :
    ∃ pc ∈ ([⟨r0_5, p0⟩, ⟨r0_4, p1⟩, ⟨r0_3, p2⟩] : List (View.Piece (Elt F) S1000x384 .f32)), y ∈ pc.1.set :=
  View.cover_of_tiled [⟨r0_5, p0⟩, ⟨r0_4, p1⟩, ⟨r0_3, p2⟩] S1000x128.size (by rfl) y

set_option maxHeartbeats 1000000 in

theorem sound_kernel0 (c : Dev nD) (E : Set ℕ) (i : grid0.Coords) (arg1 : Memref sig .tc .vmem S1000x1280 .f32) (harg1 : arg1.IsWhole) (arg2 : Memref sig .tc .vmem S1280x384 .f32) (harg2 : arg2.IsWhole) (arg3 : Memref sig .tc .vmem S1000x3 .f32) (harg3 : arg3.IsWhole) (arg4 : Memref sig .tc .vmem S1000x384 .f32) (harg4 : arg4.IsWhole)
    (x0 : Vec F S1000x1280 .f32) (x1 : Vec F S1280x384 .f32) (x2 : Vec F S1000x3 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _ _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«175263_j29738353557973_1_alg».proof.Proof.Gen.Kernel.Launch
import proofs.«175263_j29738353557973_1_alg».proof.Proof.Gen.Kernel.Skeleton
import proofs.«175263_j29738353557973_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 50 = 0 :=
  (by decide +kernel : ∀ t : Fin grid1.N, cond1_0 (grid1.coords t) ↔ t.val % 50 = 0)

theorem hz1 : (![0, 0] : Fin 2 → Nat) = fun _ => 0 := funext fun a => by fin_cases a <;> rfl

theorem read_writes_whole1 {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

def out1_3 (x0 : Vec F S2000x128 .f32) (x1 : Vec F S128x128 .f32) (x2 : Vec F S1x128 .f32) : Vec F S2000x128 .f32 :=
  k1_pay3 x0 x1 x2

def step1_4 (x0 : Vec F S2000x128 .f32) (x1 : Vec F S128x128 .f32) (x2 : Vec F S1x128 .f32) (p : Vec F S1x128 .f32) : Vec F S1x128 .f32 :=
  k1_pay4 x0 x1 x2 p

def step1_5 (x0 : Vec F S2000x128 .f32) (x1 : Vec F S128x128 .f32) (x2 : Vec F S1x128 .f32) (p : Vec F S1x128 .f32) : Vec F S1x128 .f32 :=
  k1_pay5 x0 x1 x2 p

set_option maxHeartbeats 1000000 in

theorem sound_kernel1_A (c : Dev nD) (E : Set ℕ) (i : grid1.Coords) (hc0 : cond1_0 i)
    (arg1 : Memref sig .tc .vmem S2000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S2000x128 .f32) (harg4 : arg4.IsWhole)
    (arg5 : Memref sig .tc .vmem S1x128 .f32) (harg5 : arg5.IsWhole)
    (arg6 : Memref sig .tc .vmem S1x128 .f32) (harg6 : arg6.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)
            ∗ owns (c : Thread nD τ) arg5 fullShare (step1_4 x0 x1 x2 k1_pay1)
            ∗ owns (c : Thread nD τ) arg6 fullShare (step1_5 x0 x1 x2 k1_pay2)) -∗ K ⟨⟩))
      ⊢ wp frame (wpE (defs₀ (F := F)) Variants.none c none) E (cc1__fc_relu_stats_kernel i arg1 harg1 arg2 harg2 arg3 harg3 arg4 harg4 arg5 harg5 arg6 harg6) K := by
  simp only [cc1__fc_relu_stats_kernel_eq_skeleton]; unfold cc1__fc_relu_stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_writes_whole1 _ _ hz1]
    simp only [View.readAt_eq_ld, View.ld_unit_zero (S := S2000x128) hz1, View.ld_unit_zero (S := S128x128) hz1, View.ld_unit_zero (S := S1x128) hz1]
    rfl
  isplitl [H4]
  · iexists _; isplitr
    swap; · iexact H4
    ipureintro
    rw [read_writes_whole1 _ _ hz1]
    sl_unfold_run_names
    rw [View.readCov_unit_zero _ hz1]
    simp only [View.readAt_eq_ld, View.ld_unit_zero (S := S2000x128) hz1, View.ld_unit_zero (S := S128x128) hz1, View.ld_unit_zero (S := S1x128) hz1]
    rfl
  · iexists _; isplitr
    swap; · iexact H5
    ipureintro
    rw [read_writes_whole1 _ _ hz1]
    sl_unfold_run_names
    rw [View.readCov_unit_zero _ hz1]
    simp only [View.readAt_eq_ld, View.ld_unit_zero (S := S2000x128) hz1, View.ld_unit_zero (S := S128x128) hz1, View.ld_unit_zero (S := S1x128) hz1]
    rfl

set_option maxHeartbeats 1000000 in

theorem sound_kernel1_B (c : Dev nD) (E : Set ℕ) (i : grid1.Coords) (hc0 : ¬cond1_0 i)
    (arg1 : Memref sig .tc .vmem S2000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S2000x128 .f32) (harg4 : arg4.IsWhole)
    (arg5 : Memref sig .tc .vmem S1x128 .f32) (harg5 : arg5.IsWhole)
    (arg6 : Memref sig .tc .vmem S1x128 .f32) (harg6 : arg6.IsWhole)
    (x0 : Vec F S2000x128 .f32) (x1 : Vec F S128x128 .f32) (x2 : Vec F S1x128 .f32) (p4 p5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare p4 ∗ owns (c : Thread nD τ) arg6 fullShare p5
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)
            ∗ owns (c : Thread nD τ) arg5 fullShare (step1_4 x0 x1 x2 p4)
            ∗ owns (c : Thread nD τ) arg6 fullShare (step1_5 x0 x1 x2 p5)) -∗ K ⟨⟩))
      ⊢ wp frame (wpE (defs₀ (F := F)) Variants.none c none) E (cc1__fc_relu_stats_kernel i arg1 harg1 arg2 harg2 arg3 harg3 arg4 harg4 arg5 harg5 arg6 harg6) K := by
  simp only [cc1__fc_relu_stats_kernel_eq_skeleton]; unfold cc1__fc_relu_stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0; subst hf1; subst hf2; subst hf4; subst hf5
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_writes_whole1 _ _ hz1]
    simp only [View.readAt_eq_ld, View.ld_unit_zero (S := S2000x128) hz1, View.ld_unit_zero (S := S128x128) hz1, View.ld_unit_zero (S := S1x128) hz1]
    rfl
  isplitl [H4]
  · iexists _; isplitr
    swap; · iexact H4
    ipureintro
    rw [read_writes_whole1 _ _ hz1]
    simp only [View.readAt_eq_ld, View.ld_unit_zero (S := S2000x128) hz1, View.ld_unit_zero (S := S128x128) hz1, View.ld_unit_zero (S := S1x128) hz1]
    rfl
  · iexists _; isplitr
    swap; · iexact H5
    ipureintro
    rw [read_writes_whole1 _ _ hz1]
    simp only [View.readAt_eq_ld, View.ld_unit_zero (S := S2000x128) hz1, View.ld_unit_zero (S := S128x128) hz1, View.ld_unit_zero (S := S1x128) hz1]
    rfl

def acc1_4 (c : Dev nD) : (n : ℕ) → n < cfg1.N → Vec F S1x128 .f32
  | 0, hn => step1_4 (iblk1 V c 0 ⟨0, hn⟩) (iblk1 V c 1 ⟨0, hn⟩) (iblk1 V c 2 ⟨0, hn⟩) k1_pay1
  | n + 1, hn => step1_4 (iblk1 V c 0 ⟨n + 1, hn⟩) (iblk1 V c 1 ⟨n + 1, hn⟩) (iblk1 V c 2 ⟨n + 1, hn⟩) (acc1_4 c n (Nat.lt_of_succ_lt hn))

def acc1_5 (c : Dev nD) : (n : ℕ) → n < cfg1.N → Vec F S1x128 .f32
  | 0, hn => step1_5 (iblk1 V c 0 ⟨0, hn⟩) (iblk1 V c 1 ⟨0, hn⟩) (iblk1 V c 2 ⟨0, hn⟩) k1_pay2
  | n + 1, hn => step1_5 (iblk1 V c 0 ⟨n + 1, hn⟩) (iblk1 V c 1 ⟨n + 1, hn⟩) (iblk1 V c 2 ⟨n + 1, hn⟩) (acc1_5 c n (Nat.lt_of_succ_lt hn))

theorem acc1_4_A (c : Dev nD) (t : Fin cfg1.N) (h0 : t.val % 50 = 0) :
    acc1_4 V c t.val t.isLt = step1_4 (iblk1 V c 0 t) (iblk1 V c 1 t) (iblk1 V c 2 t) k1_pay1 := by
  obtain ⟨n, hn⟩ := t
  cases n with
  | zero => exact rfl
  | succ n => exact absurd h0 (by have := lt_of_lt_of_eq hn (show cfg1.N = 50 from N_1); dsimp only; omega)

theorem acc1_4_B (c : Dev nD) (t : Fin cfg1.N) (h0 : ¬t.val % 50 = 0) :
    acc1_4 V c t.val t.isLt = step1_4 (iblk1 V c 0 t) (iblk1 V c 1 t) (iblk1 V c 2 t)
      (acc1_4 V c (t.val - 1) (Nat.lt_of_le_of_lt (Nat.sub_le _ _) t.isLt)) := by
  obtain ⟨n, hn⟩ := t
  cases n with
  | zero => exact absurd (Nat.zero_mod _) h0
  | succ n => exact rfl

theorem acc1_5_A (c : Dev nD) (t : Fin cfg1.N) (h0 : t.val % 50 = 0) :
    acc1_5 V c t.val t.isLt = step1_5 (iblk1 V c 0 t) (iblk1 V c 1 t) (iblk1 V c 2 t) k1_pay2 := by
  obtain ⟨n, hn⟩ := t
  cases n with
  | zero => exact rfl
  | succ n => exact absurd h0 (by have := lt_of_lt_of_eq hn (show cfg1.N = 50 from N_1); dsimp only; omega)

theorem acc1_5_B (c : Dev nD) (t : Fin cfg1.N) (h0 : ¬t.val % 50 = 0) :
    acc1_5 V c t.val t.isLt = step1_5 (iblk1 V c 0 t) (iblk1 V c 1 t) (iblk1 V c 2 t)
      (acc1_5 V c (t.val - 1) (Nat.lt_of_le_of_lt (Nat.sub_le _ _) t.isLt)) := by
  obtain ⟨n, hn⟩ := t
  cases n with
  | zero => exact absurd (Nat.zero_mod _) h0
  | succ n => exact rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => acc1_4 V c t.val t.isLt
    | ⟨5, _⟩ => acc1_5 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = acc1_4 V c t.val t.isLt := by dsimp only [dat1]
theorem after1_5 (c : Dev nD) (t : Fin cfg1.N) : (dat1 V c).after 5 t = acc1_5 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem before1_4_B (c : Dev nD) (t : Fin cfg1.N) (h0 : ¬t.val % 50 = 0) (d) :
    (dat1 V c).before 4 t d = acc1_4 V c (t.val - 1) (Nat.lt_of_le_of_lt (Nat.sub_le _ _) t.isLt) := by
  have hN : t.val < 50 := lt_of_lt_of_eq t.isLt (show cfg1.N = 50 from N_1)
  rw [Dat.before_out_kept _ 4 rfl t (by omega) (Bool.eq_false_iff.mpr fun h => by have := (flush1_4 _).mp h; dsimp only at this; omega)
    (fun _ => rfl) (fun _ _ => rfl)]
  dsimp only [dat1]

theorem before1_5_B (c : Dev nD) (t : Fin cfg1.N) (h0 : ¬t.val % 50 = 0) (d) :
    (dat1 V c).before 5 t d = acc1_5 V c (t.val - 1) (Nat.lt_of_le_of_lt (Nat.sub_le _ _) t.isLt) := by
  have hN : t.val < 50 := lt_of_lt_of_eq t.isLt (show cfg1.N = 50 from N_1)
  rw [Dat.before_out_kept _ 5 rfl t (by omega) (Bool.eq_false_iff.mpr fun h => by have := (flush1_5 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val % 50 = 0
  · rw [acc1_4_A V c t h0, acc1_5_A V c t h0]
    iintro ⟨HΦ, Ho, ⟨%d0, H0⟩, ⟨%d1, H1⟩, ⟨%d2, H2⟩, ⟨%d3, H3⟩, ⟨%d4, H4⟩, ⟨%d5, H5⟩⟩
    iapply (sound_kernel1_A c Set.univ (grid1.coords t) ((hcond1_0 t).mpr h0) _ _ _ _ _ _ _ _ _ _ _ _ (iblk1 V c 0 t) (iblk1 V c 1 t) (iblk1 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_4_B V c t h0, acc1_5_B V c t h0]
    simp only [before1_4_B V c t h0, before1_5_B V c t h0]
    iintro ⟨HΦ, Ho, ⟨%d0, H0⟩, ⟨%d1, H1⟩, ⟨%d2, H2⟩, ⟨%d3, H3⟩, ⟨%d4, H4⟩, ⟨%d5, H5⟩⟩
    iapply (sound_kernel1_B c Set.univ (grid1.coords t) (fun h => h0 ((hcond1_0 t).mp h)) _ _ _ _ _ _ _ _ _ _ _ _ (iblk1 V c 0 t) (iblk1 V c 1 t) (iblk1 V c 2 t) _ _ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«175263_j29738353557973_1_alg».proof.Proof.Gen.Kernel.Launch
import proofs.«175263_j29738353557973_1_alg».proof.Proof.Gen.Kernel.Skeleton
import proofs.«175263_j29738353557973_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2000x128 := Rect.unit (s := S2000x128) ![0, 0] S2000x128.size inb_S2000x128_S2000x128_0_0

abbrev r2_1 : Rect S1x128 := Rect.unit (s := S1x128) ![0, 0] S1x128.size inb_S1x128_S1x128_0_0

def out2_5 (x0 : Vec F S2000x128 .f32) (x1 : Vec F S1x128 .f32) (x2 : Vec F S1x128 .f32) (x3 : Vec F S1x128 .f32) (x4 : Vec F S1x128 .f32) : Vec F S2000x128 .f32 :=
  View.canon [⟨r2_0, k2_pay1 (View.ld x2 r2_1) (View.ld x0 r2_0) (View.ld x1 r2_1) (View.ld x3 r2_1) (View.ld x4 r2_1)⟩]

theorem cover2_5 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

set_option maxHeartbeats 1000000 in

theorem sound_kernel2 (c : Dev nD) (E : Set ℕ) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_kernel i arg1 harg1 arg2 harg2 arg3 harg3 arg4 harg4 arg5 harg5 arg6 harg6) K := by
  simp only [cc2__bn_kernel_eq_skeleton]; unfold cc2__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
import proofs.«175263_j29738353557973_1_alg».proof.Proof.Gen.Kernel.Launch
import proofs.«175263_j29738353557973_1_alg».proof.Proof.Gen.Kernel.Skeleton
import proofs.«175263_j29738353557973_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S2000x128 := Rect.unit (s := S2000x128) ![0, 0] S2000x128.size inb_S2000x128_S2000x128_0_0
abbrev r3_1 : Rect S128x384 := Rect.unit (s := S128x384) ![0, 0] S128x384.size inb_S128x384_S128x384_0_0
abbrev r3_2 : Rect S2000x3 := Rect.unit (s := S2000x3) ![0, 0] S2000x3.size inb_S2000x3_S2000x3_0_0

abbrev r3_3 : Rect S2000x384 := Rect.unit (s := S2000x384) ![0, 0] S2000x128.size inb_S2000x384_S2000x128_0_0
abbrev r3_4 : Rect S2000x384 := Rect.unit (s := S2000x384) ![0, 128] S2000x128.size inb_S2000x384_S2000x128_0_128
abbrev r3_5 : Rect S2000x384 := Rect.unit (s := S2000x384) ![0, 256] S2000x128.size inb_S2000x384_S2000x128_0_256

def out3_3 (x0 : Vec F S2000x128 .f32) (x1 : Vec F S128x384 .f32) (x2 : Vec F S2000x3 .f32) : Vec F S2000x384 .f32 :=
  View.canon [⟨r3_5, k3_pay5 (View.ld x0 r3_0) (View.ld x1 r3_1) (View.ld x2 r3_2)⟩,
    ⟨r3_4, k3_pay4 (View.ld x0 r3_0) (View.ld x1 r3_1) (View.ld x2 r3_2)⟩,
    ⟨r3_3, k3_pay3 (View.ld x0 r3_0) (View.ld x1 r3_1) (View.ld x2 r3_2)⟩]

theorem cover3_3 (p0 : Vec F S2000x128 .f32) (p1 : Vec F S2000x128 .f32) (p2 : Vec F S2000x128 .f32) (y : S2000x384.Idx) :
    ∃ pc ∈ ([⟨r3_5, p0⟩, ⟨r3_4, p1⟩, ⟨r3_3, p2⟩] : List (View.Piece (Elt F) S2000x384 .f32)), y ∈ pc.1.set :=
  View.cover_of_tiled [⟨r3_5, p0⟩, ⟨r3_4, p1⟩, ⟨r3_3, p2⟩] S2000x128.size (by rfl) y

set_option maxHeartbeats 1000000 in

theorem sound_kernel3 (c : Dev nD) (E : Set ℕ) (i : grid3.Coords) (arg1 : Memref sig .tc .vmem S2000x128 .f32) (harg1 : arg1.IsWhole) (arg2 : Memref sig .tc .vmem S128x384 .f32) (harg2 : arg2.IsWhole) (arg3 : Memref sig .tc .vmem S2000x3 .f32) (harg3 : arg3.IsWhole) (arg4 : Memref sig .tc .vmem S2000x384 .f32) (harg4 : arg4.IsWhole)
    (x0 : Vec F S2000x128 .f32) (x1 : Vec F S128x384 .f32) (x2 : Vec F S2000x3 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__proj_kernel i arg1 harg1 arg2 harg2 arg3 harg3 arg4 harg4) K := by
  simp only [cc3__proj_kernel_eq_skeleton]; unfold cc3__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _ _ _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
import proofs.«175263_j29738353557973_1_alg».proof.Proof.Gen.Kernel.Launch
import proofs.«175263_j29738353557973_1_alg».proof.Proof.Gen.Kernel.Skeleton
import proofs.«175263_j29738353557973_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val % 50 = 0 :=
  (by decide +kernel : ∀ t : Fin grid4.N, cond4_0 (grid4.coords t) ↔ t.val % 50 = 0)

theorem hz4 : (![0, 0] : Fin 2 → Nat) = fun _ => 0 := funext fun a => by fin_cases a <;> rfl

theorem read_writes_whole4 {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

def out4_3 (x0 : Vec F S2000x128 .f32) (x1 : Vec F S128x128 .f32) (x2 : Vec F S1x128 .f32) : Vec F S2000x128 .f32 :=
  k4_pay3 x0 x1 x2

def step4_4 (x0 : Vec F S2000x128 .f32) (x1 : Vec F S128x128 .f32) (x2 : Vec F S1x128 .f32) (p : Vec F S1x128 .f32) : Vec F S1x128 .f32 :=
  k4_pay4 x0 x1 x2 p

def step4_5 (x0 : Vec F S2000x128 .f32) (x1 : Vec F S128x128 .f32) (x2 : Vec F S1x128 .f32) (p : Vec F S1x128 .f32) : Vec F S1x128 .f32 :=
  k4_pay5 x0 x1 x2 p

set_option maxHeartbeats 1000000 in

theorem sound_kernel4_A (c : Dev nD) (E : Set ℕ) (i : grid4.Coords) (hc0 : cond4_0 i)
    (arg1 : Memref sig .tc .vmem S2000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S2000x128 .f32) (harg4 : arg4.IsWhole)
    (arg5 : Memref sig .tc .vmem S1x128 .f32) (harg5 : arg5.IsWhole)
    (arg6 : Memref sig .tc .vmem S1x128 .f32) (harg6 : arg6.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)
            ∗ owns (c : Thread nD τ) arg5 fullShare (step4_4 x0 x1 x2 k4_pay1)
            ∗ owns (c : Thread nD τ) arg6 fullShare (step4_5 x0 x1 x2 k4_pay2)) -∗ K ⟨⟩))
      ⊢ wp frame (wpE (defs₀ (F := F)) Variants.none c none) E (cc4__fc_relu_stats_kernel i arg1 harg1 arg2 harg2 arg3 harg3 arg4 harg4 arg5 harg5 arg6 harg6) K := by
  simp only [cc4__fc_relu_stats_kernel_eq_skeleton]; unfold cc4__fc_relu_stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_writes_whole4 _ _ hz4]
    simp only [View.readAt_eq_ld, View.ld_unit_zero (S := S2000x128) hz4, View.ld_unit_zero (S := S128x128) hz4, View.ld_unit_zero (S := S1x128) hz4]
    rfl
  isplitl [H4]
  · iexists _; isplitr
    swap; · iexact H4
    ipureintro
    rw [read_writes_whole4 _ _ hz4]
    sl_unfold_run_names
    rw [View.readCov_unit_zero _ hz4]
    simp only [View.readAt_eq_ld, View.ld_unit_zero (S := S2000x128) hz4, View.ld_unit_zero (S := S128x128) hz4, View.ld_unit_zero (S := S1x128) hz4]
    rfl
  · iexists _; isplitr
    swap; · iexact H5
    ipureintro
    rw [read_writes_whole4 _ _ hz4]
    sl_unfold_run_names
    rw [View.readCov_unit_zero _ hz4]
    simp only [View.readAt_eq_ld, View.ld_unit_zero (S := S2000x128) hz4, View.ld_unit_zero (S := S128x128) hz4, View.ld_unit_zero (S := S1x128) hz4]
    rfl

set_option maxHeartbeats 1000000 in

theorem sound_kernel4_B (c : Dev nD) (E : Set ℕ) (i : grid4.Coords) (hc0 : ¬cond4_0 i)
    (arg1 : Memref sig .tc .vmem S2000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S2000x128 .f32) (harg4 : arg4.IsWhole)
    (arg5 : Memref sig .tc .vmem S1x128 .f32) (harg5 : arg5.IsWhole)
    (arg6 : Memref sig .tc .vmem S1x128 .f32) (harg6 : arg6.IsWhole)
    (x0 : Vec F S2000x128 .f32) (x1 : Vec F S128x128 .f32) (x2 : Vec F S1x128 .f32) (p4 p5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare p4 ∗ owns (c : Thread nD τ) arg6 fullShare p5
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)
            ∗ owns (c : Thread nD τ) arg5 fullShare (step4_4 x0 x1 x2 p4)
            ∗ owns (c : Thread nD τ) arg6 fullShare (step4_5 x0 x1 x2 p5)) -∗ K ⟨⟩))
      ⊢ wp frame (wpE (defs₀ (F := F)) Variants.none c none) E (cc4__fc_relu_stats_kernel i arg1 harg1 arg2 harg2 arg3 harg3 arg4 harg4 arg5 harg5 arg6 harg6) K := by
  simp only [cc4__fc_relu_stats_kernel_eq_skeleton]; unfold cc4__fc_relu_stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0; subst hf1; subst hf2; subst hf4; subst hf5
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_writes_whole4 _ _ hz4]
    simp only [View.readAt_eq_ld, View.ld_unit_zero (S := S2000x128) hz4, View.ld_unit_zero (S := S128x128) hz4, View.ld_unit_zero (S := S1x128) hz4]
    rfl
  isplitl [H4]
  · iexists _; isplitr
    swap; · iexact H4
    ipureintro
    rw [read_writes_whole4 _ _ hz4]
    simp only [View.readAt_eq_ld, View.ld_unit_zero (S := S2000x128) hz4, View.ld_unit_zero (S := S128x128) hz4, View.ld_unit_zero (S := S1x128) hz4]
    rfl
  · iexists _; isplitr
    swap; · iexact H5
    ipureintro
    rw [read_writes_whole4 _ _ hz4]
    simp only [View.readAt_eq_ld, View.ld_unit_zero (S := S2000x128) hz4, View.ld_unit_zero (S := S128x128) hz4, View.ld_unit_zero (S := S1x128) hz4]
    rfl

def acc4_4 (c : Dev nD) : (n : ℕ) → n < cfg4.N → Vec F S1x128 .f32
  | 0, hn => step4_4 (iblk4 V c 0 ⟨0, hn⟩) (iblk4 V c 1 ⟨0, hn⟩) (iblk4 V c 2 ⟨0, hn⟩) k4_pay1
  | n + 1, hn => step4_4 (iblk4 V c 0 ⟨n + 1, hn⟩) (iblk4 V c 1 ⟨n + 1, hn⟩) (iblk4 V c 2 ⟨n + 1, hn⟩) (acc4_4 c n (Nat.lt_of_succ_lt hn))

def acc4_5 (c : Dev nD) : (n : ℕ) → n < cfg4.N → Vec F S1x128 .f32
  | 0, hn => step4_5 (iblk4 V c 0 ⟨0, hn⟩) (iblk4 V c 1 ⟨0, hn⟩) (iblk4 V c 2 ⟨0, hn⟩) k4_pay2
  | n + 1, hn => step4_5 (iblk4 V c 0 ⟨n + 1, hn⟩) (iblk4 V c 1 ⟨n + 1, hn⟩) (iblk4 V c 2 ⟨n + 1, hn⟩) (acc4_5 c n (Nat.lt_of_succ_lt hn))

theorem acc4_4_A (c : Dev nD) (t : Fin cfg4.N) (h0 : t.val % 50 = 0) :
    acc4_4 V c t.val t.isLt = step4_4 (iblk4 V c 0 t) (iblk4 V c 1 t) (iblk4 V c 2 t) k4_pay1 := by
  obtain ⟨n, hn⟩ := t
  cases n with
  | zero => exact rfl
  | succ n => exact absurd h0 (by have := lt_of_lt_of_eq hn (show cfg4.N = 50 from N_4); dsimp only; omega)

theorem acc4_4_B (c : Dev nD) (t : Fin cfg4.N) (h0 : ¬t.val % 50 = 0) :
    acc4_4 V c t.val t.isLt = step4_4 (iblk4 V c 0 t) (iblk4 V c 1 t) (iblk4 V c 2 t)
      (acc4_4 V c (t.val - 1) (Nat.lt_of_le_of_lt (Nat.sub_le _ _) t.isLt)) := by
  obtain ⟨n, hn⟩ := t
  cases n with
  | zero => exact absurd (Nat.zero_mod _) h0
  | succ n => exact rfl

theorem acc4_5_A (c : Dev nD) (t : Fin cfg4.N) (h0 : t.val % 50 = 0) :
    acc4_5 V c t.val t.isLt = step4_5 (iblk4 V c 0 t) (iblk4 V c 1 t) (iblk4 V c 2 t) k4_pay2 := by
  obtain ⟨n, hn⟩ := t
  cases n with
  | zero => exact rfl
  | succ n => exact absurd h0 (by have := lt_of_lt_of_eq hn (show cfg4.N = 50 from N_4); dsimp only; omega)

theorem acc4_5_B (c : Dev nD) (t : Fin cfg4.N) (h0 : ¬t.val % 50 = 0) :
    acc4_5 V c t.val t.isLt = step4_5 (iblk4 V c 0 t) (iblk4 V c 1 t) (iblk4 V c 2 t)
      (acc4_5 V c (t.val - 1) (Nat.lt_of_le_of_lt (Nat.sub_le _ _) t.isLt)) := by
  obtain ⟨n, hn⟩ := t
  cases n with
  | zero => exact absurd (Nat.zero_mod _) h0
  | succ n => exact rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
    | ⟨4, _⟩ => acc4_4 V c t.val t.isLt
    | ⟨5, _⟩ => acc4_5 V c t.val t.isLt
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]
theorem after4_4 (c : Dev nD) (t : Fin cfg4.N) : (dat4 V c).after 4 t = acc4_4 V c t.val t.isLt := by dsimp only [dat4]
theorem after4_5 (c : Dev nD) (t : Fin cfg4.N) : (dat4 V c).after 5 t = acc4_5 V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

theorem before4_4_B (c : Dev nD) (t : Fin cfg4.N) (h0 : ¬t.val % 50 = 0) (d) :
    (dat4 V c).before 4 t d = acc4_4 V c (t.val - 1) (Nat.lt_of_le_of_lt (Nat.sub_le _ _) t.isLt) := by
  have hN : t.val < 50 := lt_of_lt_of_eq t.isLt (show cfg4.N = 50 from N_4)
  rw [Dat.before_out_kept _ 4 rfl t (by omega) (Bool.eq_false_iff.mpr fun h => by have := (flush4_4 _).mp h; dsimp only at this; omega)
    (fun _ => rfl) (fun _ _ => rfl)]
  dsimp only [dat4]

theorem before4_5_B (c : Dev nD) (t : Fin cfg4.N) (h0 : ¬t.val % 50 = 0) (d) :
    (dat4 V c).before 5 t d = acc4_5 V c (t.val - 1) (Nat.lt_of_le_of_lt (Nat.sub_le _ _) t.isLt) := by
  have hN : t.val < 50 := lt_of_lt_of_eq t.isLt (show cfg4.N = 50 from N_4)
  rw [Dat.before_out_kept _ 5 rfl t (by omega) (Bool.eq_false_iff.mpr fun h => by have := (flush4_5 _).mp h; dsimp only at this; omega)
    (fun _ => rfl) (fun _ _ => rfl)]
  dsimp only [dat4]

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

set_option maxHeartbeats 800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4, after4_5]
  by_cases h0 : t.val % 50 = 0
  · rw [acc4_4_A V c t h0, acc4_5_A V c t h0]
    iintro ⟨HΦ, Ho, ⟨%d0, H0⟩, ⟨%d1, H1⟩, ⟨%d2, H2⟩, ⟨%d3, H3⟩, ⟨%d4, H4⟩, ⟨%d5, H5⟩⟩
    iapply (sound_kernel4_A c Set.univ (grid4.coords t) ((hcond4_0 t).mpr h0) _ _ _ _ _ _ _ _ _ _ _ _ (iblk4 V c 0 t) (iblk4 V c 1 t) (iblk4 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc4_4_B V c t h0, acc4_5_B V c t h0]
    simp only [before4_4_B V c t h0, before4_5_B V c t h0]
    iintro ⟨HΦ, Ho, ⟨%d0, H0⟩, ⟨%d1, H1⟩, ⟨%d2, H2⟩, ⟨%d3, H3⟩, ⟨%d4, H4⟩, ⟨%d5, H5⟩⟩
    iapply (sound_kernel4_B c Set.univ (grid4.coords t) (fun h => h0 ((hcond4_0 t).mp h)) _ _ _ _ _ _ _ _ _ _ _ _ (iblk4 V c 0 t) (iblk4 V c 1 t) (iblk4 V c 2 t) _ _ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
import proofs.«175263_j29738353557973_1_alg».proof.Proof.Gen.Kernel.Launch
import proofs.«175263_j29738353557973_1_alg».proof.Proof.Gen.Kernel.Skeleton
import proofs.«175263_j29738353557973_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S2000x128 := Rect.unit (s := S2000x128) ![0, 0] S2000x128.size inb_S2000x128_S2000x128_0_0

abbrev r5_1 : Rect S1x128 := Rect.unit (s := S1x128) ![0, 0] S1x128.size inb_S1x128_S1x128_0_0

def out5_5 (x0 : Vec F S2000x128 .f32) (x1 : Vec F S1x128 .f32) (x2 : Vec F S1x128 .f32) (x3 : Vec F S1x128 .f32) (x4 : Vec F S1x128 .f32) : Vec F S2000x128 .f32 :=
  View.canon [⟨r5_0, k5_pay1 (View.ld x2 r5_1) (View.ld x0 r5_0) (View.ld x1 r5_1) (View.ld x3 r5_1) (View.ld x4 r5_1)⟩]

theorem cover5_5 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

set_option maxHeartbeats 1000000 in

theorem sound_kernel5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_kernel i arg1 harg1 arg2 harg2 arg3 harg3 arg4 harg4 arg5 harg5 arg6 harg6) K := by
  simp only [cc5__bn_kernel_eq_skeleton]; unfold cc5__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Run.lean ====
import proofs.«175263_j29738353557973_1_alg».proof.Proof.K.Reg0
import proofs.«175263_j29738353557973_1_alg».proof.Proof.K.Reg1
import proofs.«175263_j29738353557973_1_alg».proof.Proof.K.Reg2
import proofs.«175263_j29738353557973_1_alg».proof.Proof.K.Reg3
import proofs.«175263_j29738353557973_1_alg».proof.Proof.K.Reg4
import proofs.«175263_j29738353557973_1_alg».proof.Proof.K.Reg5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No operation of the list allocates a buffer. -/
abbrev NoFresh (ops : List (HloOp τ sig (Elt F))) : Prop := ops.Forall fun op => op.fresh = ∅
/-- Every operation of the list writes inside `W`. -/
abbrev WritesIn (ops : List (HloOp τ sig (Elt F))) (W : List (Ref sig .tc)) : Prop :=
  ops.Forall fun op => op.writes ⊆ (W.map (Proc.devRef (τ := τ) .tc)).toFinset

local macro "stretch_writes" : tactic => `(tactic| (
  simp only [WritesIn, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.singleton_subset_iff, List.mem_toFinset]
  repeat' apply And.intro
  all_goals exact List.mem_map_of_mem (by decide)))

theorem hostOps0_fresh : NoFresh (F := F) hostOps0 := by
  simp only [NoFresh, List.Forall]; repeat' constructor
abbrev hostOps0_W : List (Ref sig .tc) :=
  [main_v0, main_v1, main_v2, main_v3, main_cst, main_v4, main_cst_0, main_v5, main_v6, main_v7, main_cst_1]
theorem hostOps0_writes : WritesIn (F := F) hostOps0 hostOps0_W := by
  stretch_writes

theorem hostOps0_1_fresh : NoFresh (F := F) hostOps0_1 := by
  simp only [NoFresh, List.Forall]; repeat' constructor
abbrev hostOps0_1_W : List (Ref sig .tc) := [main_call0_v0, main_call0_v1, main_v8]
theorem hostOps0_1_writes : WritesIn (F := F) hostOps0_1 hostOps0_1_W := by
  stretch_writes

theorem hostOps0_2_fresh : NoFresh (F := F) hostOps0_2 := by
  simp only [NoFresh, List.Forall]; repeat' constructor
abbrev hostOps0_2_W : List (Ref sig .tc) := [main_cst_2, main_v9, main_v10, main_v11, main_cst_3]
theorem hostOps0_2_writes : WritesIn (F := F) hostOps0_2 hostOps0_2_W := by
  stretch_writes

theorem hostOps0_3_fresh : NoFresh (F := F) hostOps0_3 := by
  simp only [NoFresh, List.Forall]; repeat' constructor
abbrev hostOps0_3_W : List (Ref sig .tc) := [main_call1_v0, main_call1_v1, main_v12]
theorem hostOps0_3_writes : WritesIn (F := F) hostOps0_3 hostOps0_3_W := by
  stretch_writes

theorem hostOps0_4_fresh : NoFresh (F := F) hostOps0_4 := by
  simp only [NoFresh, List.Forall]; repeat' constructor
abbrev hostOps0_4_W : List (Ref sig .tc) :=
  [main_cst_4, main_v13, main_v14, main_cst_5, main_v15, main_v16, main_v17, main_v18, main_v19, main_v20, main_cst_6,
   main_v21, main_cst_7, main_v22, main_v23, main_v24, main_cst_8]
theorem hostOps0_4_writes : WritesIn (F := F) hostOps0_4 hostOps0_4_W := by
  stretch_writes

theorem hostOps0_5_fresh : NoFresh (F := F) hostOps0_5 := by
  simp only [NoFresh, List.Forall]; repeat' constructor
abbrev hostOps0_5_W : List (Ref sig .tc) := [main_call2_v0, main_call2_v1, main_v25]
theorem hostOps0_5_writes : WritesIn (F := F) hostOps0_5 hostOps0_5_W := by
  stretch_writes

theorem hostOps0_6_fresh : NoFresh (F := F) hostOps0_6 := by
  simp only [NoFresh, List.Forall]; repeat' constructor
abbrev hostOps0_6_W : List (Ref sig .tc) := [main_cst_9, main_v26, main_v27, main_v28, main_cst_10]
theorem hostOps0_6_writes : WritesIn (F := F) hostOps0_6 hostOps0_6_W := by
  stretch_writes

theorem hostOps0_7_fresh : NoFresh (F := F) hostOps0_7 := by
  simp only [NoFresh, List.Forall]; repeat' constructor
abbrev hostOps0_7_W : List (Ref sig .tc) := [main_call3_v0, main_call3_v1, main_v29]
theorem hostOps0_7_writes : WritesIn (F := F) hostOps0_7 hostOps0_7_W := by
  stretch_writes

theorem hostOps0_8_fresh : NoFresh (F := F) hostOps0_8 := by
  simp only [NoFresh, List.Forall]; repeat' constructor
abbrev hostOps0_8_W : List (Ref sig .tc) :=
  [main_cst_11, main_v30, main_v31, main_cst_12, main_v32, main_v33, main_v34, main_v35, main_v36, main_v37, main_cst_13,
   main_v38, main_cst_14, main_v39, main_v40, main_v41, main_cst_15]
theorem hostOps0_8_writes : WritesIn (F := F) hostOps0_8 hostOps0_8_W := by
  stretch_writes

theorem hostOps0_9_fresh : NoFresh (F := F) hostOps0_9 := by
  simp only [NoFresh, List.Forall]; repeat' constructor
abbrev hostOps0_9_W : List (Ref sig .tc) := [main_call4_v0, main_call4_v1, main_v42]
theorem hostOps0_9_writes : WritesIn (F := F) hostOps0_9 hostOps0_9_W := by
  stretch_writes

theorem hostOps0_10_fresh : NoFresh (F := F) hostOps0_10 := by
  simp only [NoFresh, List.Forall]; repeat' constructor
abbrev hostOps0_10_W : List (Ref sig .tc) := [main_cst_16, main_v43, main_v44, main_v45, main_cst_17]
theorem hostOps0_10_writes : WritesIn (F := F) hostOps0_10 hostOps0_10_W := by
  stretch_writes

theorem hostOps0_11_fresh : NoFresh (F := F) hostOps0_11 := by
  simp only [NoFresh, List.Forall]; repeat' constructor
abbrev hostOps0_11_W : List (Ref sig .tc) := [main_call5_v0, main_call5_v1, main_v46]
theorem hostOps0_11_writes : WritesIn (F := F) hostOps0_11 hostOps0_11_W := by
  stretch_writes

theorem hostOps0_12_fresh : NoFresh (F := F) hostOps0_12 := by
  simp only [NoFresh, List.Forall]; repeat' constructor
abbrev hostOps0_12_W : List (Ref sig .tc) :=
  [main_cst_18, main_v47, main_v48, main_cst_19, main_v49, main_v50, main_v51, main_v52, main_v53, main_v54, main_v55,
   main_v56, main_v57, main_v58, main_v59, main_v60, main_v61]
theorem hostOps0_12_writes : WritesIn (F := F) hostOps0_12 hostOps0_12_W := by
  stretch_writes

set_option maxHeartbeats 40000000 in
theorem hostOps1_fresh : NoFresh (F := F) hostOps1 := by
  simp only [NoFresh, List.Forall]; repeat' constructor
abbrev hostOps1_W : List (Ref sig .tc) :=
  [main_cst_20, main_v63, main_v64, main_v65, main_v66, main_v67, main_v68, main_c, main_v69, main_v70, main_c_21,
   main_v71, main_v72, main_v73, main_v74, main_v75, main_cst_22, main_v76, main_v77, main_v78, main_v79, main_v80,
   main_v81, main_v82, main_v83, main_v84, main_v85, main_v86, main_v87, main_v88, main_v89, main_v90, main_v91,
   main_v92, main_c_23, main_v93, main_v94, main_c_24, main_v95, main_v96, main_v97, main_v98, main_v99, main_cst_25,
   main_v100, main_v101, main_v102, main_v103, main_v104, main_v105, main_v106, main_v107, main_v108, main_v109,
   main_v110, main_v111, main_v112, main_v113, main_v114, main_v115, main_v116, main_c_26, main_v117, main_v118,
   main_c_27, main_v119, main_v120, main_v121, main_v122, main_v123, main_cst_28, main_v124, main_v125, main_v126,
   main_v127, main_v128, main_v129, main_v130, main_v131, main_v132, main_v133, main_v134, main_v135, main_v136]
set_option maxHeartbeats 40000000 in
theorem hostOps1_writes : WritesIn (F := F) hostOps1 hostOps1_W := by
  stretch_writes

theorem hostOps2_fresh : NoFresh (F := F) hostOps2 := by
  simp only [NoFresh, List.Forall]; repeat' constructor
abbrev hostOps2_W : List (Ref sig .tc) :=
  [main_v138, main_cst_29, main_v139, main_v140, main_v141, main_cst_30, main_v142, main_v143, main_v144, main_v145,
   main_v146, main_v147, main_v148, main_v149]
theorem hostOps2_writes : WritesIn (F := F) hostOps2 hostOps2_W := by
  stretch_writes

theorem hostOps3_fresh : NoFresh (F := F) hostOps3 := by
  simp only [NoFresh, List.Forall]; repeat' constructor
abbrev hostOps3_W : List (Ref sig .tc) := [main_v151, main_v152, main_v153, main_v154, main_v155, main_v156, main_v157]
theorem hostOps3_writes : WritesIn (F := F) hostOps3 hostOps3_W := by
  stretch_writes

set_option maxHeartbeats 40000000 in
theorem hostOps4_fresh : NoFresh (F := F) hostOps4 := by
  simp only [NoFresh, List.Forall]; repeat' constructor
abbrev hostOps4_W : List (Ref sig .tc) :=
  [main_cst_31, main_v159, main_v160, main_v161, main_v162, main_v163, main_v164, main_c_32, main_v165, main_v166,
   main_c_33, main_v167, main_v168, main_v169, main_v170, main_v171, main_cst_34, main_v172, main_v173, main_v174,
   main_v175, main_v176, main_v177, main_v178, main_v179, main_v180, main_v181, main_v182, main_v183, main_v184,
   main_v185, main_v186, main_v187, main_v188, main_c_35, main_v189, main_v190, main_c_36, main_v191, main_v192,
   main_v193, main_v194, main_v195, main_cst_37, main_v196, main_v197, main_v198, main_v199, main_v200, main_v201,
   main_v202, main_v203, main_v204, main_v205, main_v206, main_v207, main_v208, main_v209, main_v210, main_v211,
   main_v212, main_c_38, main_v213, main_v214, main_c_39, main_v215, main_v216, main_v217, main_v218, main_v219,
   main_cst_40, main_v220, main_v221, main_v222, main_v223, main_v224, main_v225, main_v226, main_v227, main_v228,
   main_v229, main_v230, main_v231, main_v232]
set_option maxHeartbeats 40000000 in
theorem hostOps4_writes : WritesIn (F := F) hostOps4 hostOps4_W := by
  stretch_writes

theorem hostOps5_fresh : NoFresh (F := F) hostOps5 := by
  simp only [NoFresh, List.Forall]; repeat' constructor
abbrev hostOps5_W : List (Ref sig .tc) :=
  [main_v234, main_cst_41, main_v235, main_v236, main_v237, main_cst_42, main_v238, main_v239, main_v240, main_v241,
   main_v242, main_v243, main_v244, main_v245]
theorem hostOps5_writes : WritesIn (F := F) hostOps5 hostOps5_W := by
  stretch_writes

abbrev W0 : Dev nD → Valuation τ sig (Elt F) := fun c b => (s₀ m ρ).mem ((c : Dev nD), b)

abbrev W1 : Dev nD → Valuation τ sig (Elt F) := fun c => StableHlo.after hostOps0 (W0 m ρ c)
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

abbrev W2 : Dev nD → Valuation τ sig (Elt F) := fun c => StableHlo.after hostOps0_1 (W1 m ρ c)
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

abbrev W3 : Dev nD → Valuation τ sig (Elt F) := fun c => StableHlo.after hostOps0_2 (W2 m ρ c)
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

abbrev W4 : Dev nD → Valuation τ sig (Elt F) := fun c => StableHlo.after hostOps0_3 (W3 m ρ c)
theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h

abbrev W5 : Dev nD → Valuation τ sig (Elt F) := fun c => StableHlo.after hostOps0_4 (W4 m ρ c)
theorem W5_of (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h

abbrev W6 : Dev nD → Valuation τ sig (Elt F) := fun c => StableHlo.after hostOps0_5 (W5 m ρ c)
theorem W6_of (c : Dev nD) (r : Ref sig .tc) (h : r ∉ hostOps0_5_W) :
    W6 m ρ c (Proc.devRef .tc r) = W5 m ρ c (Proc.devRef .tc r) :=
  StableHlo.after_of_writes_sub hostOps0_5 _ hostOps0_5_writes h

abbrev W7 : Dev nD → Valuation τ sig (Elt F) := fun c => StableHlo.after hostOps0_6 (W6 m ρ c)
theorem W7_of (c : Dev nD) (r : Ref sig .tc) (h : r ∉ hostOps0_6_W) :
    W7 m ρ c (Proc.devRef .tc r) = W6 m ρ c (Proc.devRef .tc r) :=
  StableHlo.after_of_writes_sub hostOps0_6 _ hostOps0_6_writes h

abbrev W8 : Dev nD → Valuation τ sig (Elt F) := fun c => StableHlo.after hostOps0_7 (W7 m ρ c)
theorem W8_of (c : Dev nD) (r : Ref sig .tc) (h : r ∉ hostOps0_7_W) :
    W8 m ρ c (Proc.devRef .tc r) = W7 m ρ c (Proc.devRef .tc r) :=
  StableHlo.after_of_writes_sub hostOps0_7 _ hostOps0_7_writes h

abbrev W9 : Dev nD → Valuation τ sig (Elt F) := fun c => StableHlo.after hostOps0_8 (W8 m ρ c)
theorem W9_of (c : Dev nD) (r : Ref sig .tc) (h : r ∉ hostOps0_8_W) :
    W9 m ρ c (Proc.devRef .tc r) = W8 m ρ c (Proc.devRef .tc r) :=
  StableHlo.after_of_writes_sub hostOps0_8 _ hostOps0_8_writes h

abbrev W10 : Dev nD → Valuation τ sig (Elt F) := fun c => StableHlo.after hostOps0_9 (W9 m ρ c)
theorem W10_of (c : Dev nD) (r : Ref sig .tc) (h : r ∉ hostOps0_9_W) :
    W10 m ρ c (Proc.devRef .tc r) = W9 m ρ c (Proc.devRef .tc r) :=
  StableHlo.after_of_writes_sub hostOps0_9 _ hostOps0_9_writes h

abbrev W11 : Dev nD → Valuation τ sig (Elt F) := fun c => StableHlo.after hostOps0_10 (W10 m ρ c)
theorem W11_of (c : Dev nD) (r : Ref sig .tc) (h : r ∉ hostOps0_10_W) :
    W11 m ρ c (Proc.devRef .tc r) = W10 m ρ c (Proc.devRef .tc r) :=
  StableHlo.after_of_writes_sub hostOps0_10 _ hostOps0_10_writes h

abbrev W12 : Dev nD → Valuation τ sig (Elt F) := fun c => StableHlo.after hostOps0_11 (W11 m ρ c)
theorem W12_of (c : Dev nD) (r : Ref sig .tc) (h : r ∉ hostOps0_11_W) :
    W12 m ρ c (Proc.devRef .tc r) = W11 m ρ c (Proc.devRef .tc r) :=
  StableHlo.after_of_writes_sub hostOps0_11 _ hostOps0_11_writes h

abbrev W13 : Dev nD → Valuation τ sig (Elt F) := fun c => StableHlo.after hostOps0_12 (W12 m ρ c)
theorem W13_of (c : Dev nD) (r : Ref sig .tc) (h : r ∉ hostOps0_12_W) :
    W13 m ρ c (Proc.devRef .tc r) = W12 m ρ c (Proc.devRef .tc r) :=
  StableHlo.after_of_writes_sub hostOps0_12 _ hostOps0_12_writes h

abbrev V13 : (c : Dev nD) → (b : Ref sig .tc) → Buf (Elt F) ((c : Thread nD τ).loc b) := fun c b => W13 m ρ c b

/-- A valuation updated at a family of arrays keeps what it held at a reference that is none of them, or one whose new value is the old. -/
theorem withArrays_kept {gr Wn : ℕ} (win : Fin Wn → Pipeline.WinSpec sig gr) (hinj : Function.Injective (Pipeline.arrRef win))
    (c : Dev nD) (W : Valuation τ sig (Elt F)) (A : (w : Fin Wn) → Buf (Elt F) ((win w).arr.view.loc (c.tc : Thread nD τ)))
    (r : Ref sig .tc) (h : ∀ w, Pipeline.arrRef win w = r → A w = W (Proc.devRef .tc (Pipeline.arrRef win w))) :
    Pipeline.withArrays win c W A (Proc.devRef .tc r) = W (Proc.devRef .tc r) := by
  by_cases hr : ∃ w, Pipeline.arrRef win w = r
  · obtain ⟨w, rfl⟩ := hr; exact (Pipeline.withArrays_arr win hinj c W A w).trans (h w rfl)
  · exact Pipeline.withArrays_of_ne win c W A r fun w e => hr ⟨w, e⟩

def W14 (c : Dev nD) : Valuation τ sig (Elt F) :=
  Pipeline.withArrays spec0 c (W13 m ρ c) fun w => (dat0 (V13 m ρ) c).arrAt w cfg0.N
theorem W14_arr (c : Dev nD) (w : Fin cfg0.W) :
    W14 m ρ c (Proc.devRef .tc (Pipeline.arrRef spec0 w)) = (dat0 (V13 m ρ) c).arrAt w cfg0.N := by
  unfold W14; exact Pipeline.withArrays_arr spec0 launch0.win.arr_inj c _ _ w
theorem W14_of (c : Dev nD) (r : Ref sig .tc) (h : ∀ w : Fin cfg0.W, Pipeline.arrRef spec0 w = r → (cfg0.win w).isOut = false) :
    W14 m ρ c (Proc.devRef .tc r) = W13 m ρ c (Proc.devRef .tc r) := by
  unfold W14; exact withArrays_kept spec0 launch0.win.arr_inj c _ _ r fun w e =>
    ((dat0 (V13 m ρ) c).arrAt_in w (h w e) _).trans (A_eq0 (V13 m ρ) c w)
abbrev V14 : (c : Dev nD) → (b : Ref sig .tc) → Buf (Elt F) ((c : Thread nD τ).loc b) := fun c b => W14 m ρ c b
theorem hF0 (c : Dev nD) (w : Fin cfg0.W) : (dat0 (V13 m ρ) c).arrAt w cfg0.N = V14 m ρ c (Pipeline.arrRef spec0 w) :=
  (W14_arr m ρ c w).symm
theorem hrest0 (c : Dev nD) : ∀ b, b ∉ Finset.univ.image (Pipeline.arrRef spec0) → V14 m ρ c b = V13 m ρ c b :=
  fun b hb => W14_of m ρ c b fun w e => absurd (Finset.mem_image.mpr ⟨w, Finset.mem_univ _, e⟩) hb

abbrev W15 : Dev nD → Valuation τ sig (Elt F) := fun c => StableHlo.after hostOps1 (W14 m ρ c)
theorem W15_of (c : Dev nD) (r : Ref sig .tc) (h : r ∉ hostOps1_W) :
    W15 m ρ c (Proc.devRef .tc r) = W14 m ρ c (Proc.devRef .tc r) :=
  StableHlo.after_of_writes_sub hostOps1 _ hostOps1_writes h
abbrev V15 : (c : Dev nD) → (b : Ref sig .tc) → Buf (Elt F) ((c : Thread nD τ).loc b) := fun c b => W15 m ρ c b

def W16 (c : Dev nD) : Valuation τ sig (Elt F) :=
  Pipeline.withArrays spec1 c (W15 m ρ c) fun w => (dat1 (V15 m ρ) c).arrAt w cfg1.N
theorem W16_arr (c : Dev nD) (w : Fin cfg1.W) :
    W16 m ρ c (Proc.devRef .tc (Pipeline.arrRef spec1 w)) = (dat1 (V15 m ρ) c).arrAt w cfg1.N := by
  unfold W16; exact Pipeline.withArrays_arr spec1 launch1.win.arr_inj c _ _ w
theorem W16_of (c : Dev nD) (r : Ref sig .tc) (h : ∀ w : Fin cfg1.W, Pipeline.arrRef spec1 w = r → (cfg1.win w).isOut = false) :
    W16 m ρ c (Proc.devRef .tc r) = W15 m ρ c (Proc.devRef .tc r) := by
  unfold W16; exact withArrays_kept spec1 launch1.win.arr_inj c _ _ r fun w e =>
    ((dat1 (V15 m ρ) c).arrAt_in w (h w e) _).trans (A_eq1 (V15 m ρ) c w)
abbrev V16 : (c : Dev nD) → (b : Ref sig .tc) → Buf (Elt F) ((c : Thread nD τ).loc b) := fun c b => W16 m ρ c b
theorem hF1 (c : Dev nD) (w : Fin cfg1.W) : (dat1 (V15 m ρ) c).arrAt w cfg1.N = V16 m ρ c (Pipeline.arrRef spec1 w) :=
  (W16_arr m ρ c w).symm
theorem hrest1 (c : Dev nD) : ∀ b, b ∉ Finset.univ.image (Pipeline.arrRef spec1) → V16 m ρ c b = V15 m ρ c b :=
  fun b hb => W16_of m ρ c b fun w e => absurd (Finset.mem_image.mpr ⟨w, Finset.mem_univ _, e⟩) hb

abbrev W17 : Dev nD → Valuation τ sig (Elt F) := fun c => StableHlo.after hostOps2 (W16 m ρ c)
theorem W17_of (c : Dev nD) (r : Ref sig .tc) (h : r ∉ hostOps2_W) :
    W17 m ρ c (Proc.devRef .tc r) = W16 m ρ c (Proc.devRef .tc r) :=
  StableHlo.after_of_writes_sub hostOps2 _ hostOps2_writes h
abbrev V17 : (c : Dev nD) → (b : Ref sig .tc) → Buf (Elt F) ((c : Thread nD τ).loc b) := fun c b => W17 m ρ c b

def W18 (c : Dev nD) : Valuation τ sig (Elt F) :=
  Pipeline.withArrays spec2 c (W17 m ρ c) fun w => (dat2 (V17 m ρ) c).arrAt w cfg2.N
theorem W18_arr (c : Dev nD) (w : Fin cfg2.W) :
    W18 m ρ c (Proc.devRef .tc (Pipeline.arrRef spec2 w)) = (dat2 (V17 m ρ) c).arrAt w cfg2.N := by
  unfold W18; exact Pipeline.withArrays_arr spec2 launch2.win.arr_inj c _ _ w
theorem W18_of (c : Dev nD) (r : Ref sig .tc) (h : ∀ w : Fin cfg2.W, Pipeline.arrRef spec2 w = r → (cfg2.win w).isOut = false) :
    W18 m ρ c (Proc.devRef .tc r) = W17 m ρ c (Proc.devRef .tc r) := by
  unfold W18; exact withArrays_kept spec2 launch2.win.arr_inj c _ _ r fun w e =>
    ((dat2 (V17 m ρ) c).arrAt_in w (h w e) _).trans (A_eq2 (V17 m ρ) c w)
abbrev V18 : (c : Dev nD) → (b : Ref sig .tc) → Buf (Elt F) ((c : Thread nD τ).loc b) := fun c b => W18 m ρ c b
theorem hF2 (c : Dev nD) (w : Fin cfg2.W) : (dat2 (V17 m ρ) c).arrAt w cfg2.N = V18 m ρ c (Pipeline.arrRef spec2 w) :=
  (W18_arr m ρ c w).symm
theorem hrest2 (c : Dev nD) : ∀ b, b ∉ Finset.univ.image (Pipeline.arrRef spec2) → V18 m ρ c b = V17 m ρ c b :=
  fun b hb => W18_of m ρ c b fun w e => absurd (Finset.mem_image.mpr ⟨w, Finset.mem_univ _, e⟩) hb

abbrev W19 : Dev nD → Valuation τ sig (Elt F) := fun c => StableHlo.after hostOps3 (W18 m ρ c)
theorem W19_of (c : Dev nD) (r : Ref sig .tc) (h : r ∉ hostOps3_W) :
    W19 m ρ c (Proc.devRef .tc r) = W18 m ρ c (Proc.devRef .tc r) :=
  StableHlo.after_of_writes_sub hostOps3 _ hostOps3_writes h
abbrev V19 : (c : Dev nD) → (b : Ref sig .tc) → Buf (Elt F) ((c : Thread nD τ).loc b) := fun c b => W19 m ρ c b

def W20 (c : Dev nD) : Valuation τ sig (Elt F) :=
  Pipeline.withArrays spec3 c (W19 m ρ c) fun w => (dat3 (V19 m ρ) c).arrAt w cfg3.N
theorem W20_arr (c : Dev nD) (w : Fin cfg3.W) :
    W20 m ρ c (Proc.devRef .tc (Pipeline.arrRef spec3 w)) = (dat3 (V19 m ρ) c).arrAt w cfg3.N := by
  unfold W20; exact Pipeline.withArrays_arr spec3 launch3.win.arr_inj c _ _ w
theorem W20_of (c : Dev nD) (r : Ref sig .tc) (h : ∀ w : Fin cfg3.W, Pipeline.arrRef spec3 w = r → (cfg3.win w).isOut = false) :
    W20 m ρ c (Proc.devRef .tc r) = W19 m ρ c (Proc.devRef .tc r) := by
  unfold W20; exact withArrays_kept spec3 launch3.win.arr_inj c _ _ r fun w e =>
    ((dat3 (V19 m ρ) c).arrAt_in w (h w e) _).trans (A_eq3 (V19 m ρ) c w)
abbrev V20 : (c : Dev nD) → (b : Ref sig .tc) → Buf (Elt F) ((c : Thread nD τ).loc b) := fun c b => W20 m ρ c b
theorem hF3 (c : Dev nD) (w : Fin cfg3.W) : (dat3 (V19 m ρ) c).arrAt w cfg3.N = V20 m ρ c (Pipeline.arrRef spec3 w) :=
  (W20_arr m ρ c w).symm
theorem hrest3 (c : Dev nD) : ∀ b, b ∉ Finset.univ.image (Pipeline.arrRef spec3) → V20 m ρ c b = V19 m ρ c b :=
  fun b hb => W20_of m ρ c b fun w e => absurd (Finset.mem_image.mpr ⟨w, Finset.mem_univ _, e⟩) hb

abbrev W21 : Dev nD → Valuation τ sig (Elt F) := fun c => StableHlo.after hostOps4 (W20 m ρ c)
theorem W21_of (c : Dev nD) (r : Ref sig .tc) (h : r ∉ hostOps4_W) :
    W21 m ρ c (Proc.devRef .tc r) = W20 m ρ c (Proc.devRef .tc r) :=
  StableHlo.after_of_writes_sub hostOps4 _ hostOps4_writes h
abbrev V21 : (c : Dev nD) → (b : Ref sig .tc) → Buf (Elt F) ((c : Thread nD τ).loc b) := fun c b => W21 m ρ c b

def W22 (c : Dev nD) : Valuation τ sig (Elt F) :=
  Pipeline.withArrays spec4 c (W21 m ρ c) fun w => (dat4 (V21 m ρ) c).arrAt w cfg4.N
theorem W22_arr (c : Dev nD) (w : Fin cfg4.W) :
    W22 m ρ c (Proc.devRef .tc (Pipeline.arrRef spec4 w)) = (dat4 (V21 m ρ) c).arrAt w cfg4.N := by
  unfold W22; exact Pipeline.withArrays_arr spec4 launch4.win.arr_inj c _ _ w
theorem W22_of (c : Dev nD) (r : Ref sig .tc) (h : ∀ w : Fin cfg4.W, Pipeline.arrRef spec4 w = r → (cfg4.win w).isOut = false) :
    W22 m ρ c (Proc.devRef .tc r) = W21 m ρ c (Proc.devRef .tc r) := by
  unfold W22; exact withArrays_kept spec4 launch4.win.arr_inj c _ _ r fun w e =>
    ((dat4 (V21 m ρ) c).arrAt_in w (h w e) _).trans (A_eq4 (V21 m ρ) c w)
abbrev V22 : (c : Dev nD) → (b : Ref sig .tc) → Buf (Elt F) ((c : Thread nD τ).loc b) := fun c b => W22 m ρ c b
theorem hF4 (c : Dev nD) (w : Fin cfg4.W) : (dat4 (V21 m ρ) c).arrAt w cfg4.N = V22 m ρ c (Pipeline.arrRef spec4 w) :=
  (W22_arr m ρ c w).symm
theorem hrest4 (c : Dev nD) : ∀ b, b ∉ Finset.univ.image (Pipeline.arrRef spec4) → V22 m ρ c b = V21 m ρ c b :=
  fun b hb => W22_of m ρ c b fun w e => absurd (Finset.mem_image.mpr ⟨w, Finset.mem_univ _, e⟩) hb

abbrev W23 : Dev nD → Valuation τ sig (Elt F) := fun c => StableHlo.after hostOps5 (W22 m ρ c)
theorem W23_of (c : Dev nD) (r : Ref sig .tc) (h : r ∉ hostOps5_W) :
    W23 m ρ c (Proc.devRef .tc r) = W22 m ρ c (Proc.devRef .tc r) :=
  StableHlo.after_of_writes_sub hostOps5 _ hostOps5_writes h
abbrev V23 : (c : Dev nD) → (b : Ref sig .tc) → Buf (Elt F) ((c : Thread nD τ).loc b) := fun c b => W23 m ρ c b

def W24 (c : Dev nD) : Valuation τ sig (Elt F) :=
  Pipeline.withArrays spec5 c (W23 m ρ c) fun w => (dat5 (V23 m ρ) c).arrAt w cfg5.N
theorem W24_arr (c : Dev nD) (w : Fin cfg5.W) :
    W24 m ρ c (Proc.devRef .tc (Pipeline.arrRef spec5 w)) = (dat5 (V23 m ρ) c).arrAt w cfg5.N := by
  unfold W24; exact Pipeline.withArrays_arr spec5 launch5.win.arr_inj c _ _ w
theorem W24_of (c : Dev nD) (r : Ref sig .tc) (h : ∀ w : Fin cfg5.W, Pipeline.arrRef spec5 w = r → (cfg5.win w).isOut = false) :
    W24 m ρ c (Proc.devRef .tc r) = W23 m ρ c (Proc.devRef .tc r) := by
  unfold W24; exact withArrays_kept spec5 launch5.win.arr_inj c _ _ r fun w e =>
    ((dat5 (V23 m ρ) c).arrAt_in w (h w e) _).trans (A_eq5 (V23 m ρ) c w)
abbrev V24 : (c : Dev nD) → (b : Ref sig .tc) → Buf (Elt F) ((c : Thread nD τ).loc b) := fun c b => W24 m ρ c b
theorem hF5 (c : Dev nD) (w : Fin cfg5.W) : (dat5 (V23 m ρ) c).arrAt w cfg5.N = V24 m ρ c (Pipeline.arrRef spec5 w) :=
  (W24_arr m ρ c w).symm
theorem hrest5 (c : Dev nD) : ∀ b, b ∉ Finset.univ.image (Pipeline.arrRef spec5) → V24 m ρ c b = V23 m ρ c b :=
  fun b hb => W24_of m ρ c b fun w e => absurd (Finset.mem_image.mpr ⟨w, Finset.mem_univ _, e⟩) hb

/-- No host stretch of @main has `r` among its results. -/
abbrev NoStretchWrites (r : Ref sig .tc) : Prop :=
  r ∉ hostOps0_W ∧ r ∉ hostOps0_1_W ∧ r ∉ hostOps0_2_W ∧ r ∉ hostOps0_3_W ∧ r ∉ hostOps0_4_W ∧ r ∉ hostOps0_5_W ∧ r ∉ hostOps0_6_W ∧ r ∉ hostOps0_7_W ∧ r ∉ hostOps0_8_W ∧ r ∉ hostOps0_9_W ∧ r ∉ hostOps0_10_W ∧ r ∉ hostOps0_11_W ∧ r ∉ hostOps0_12_W ∧ r ∉ hostOps1_W ∧ r ∉ hostOps2_W ∧ r ∉ hostOps3_W ∧ r ∉ hostOps4_W ∧ r ∉ hostOps5_W

/-- No kernel region of @main has `r` as an output window's array. -/
abbrev NoRegionWrites (r : Ref sig .tc) : Prop :=
  (∀ w : Fin cfg0.W, Pipeline.arrRef spec0 w = r → (cfg0.win w).isOut = false) ∧ (∀ w : Fin cfg1.W, Pipeline.arrRef spec1 w = r → (cfg1.win w).isOut = false) ∧ (∀ w : Fin cfg2.W, Pipeline.arrRef spec2 w = r → (cfg2.win w).isOut = false) ∧ (∀ w : Fin cfg3.W, Pipeline.arrRef spec3 w = r → (cfg3.win w).isOut = false) ∧ (∀ w : Fin cfg4.W, Pipeline.arrRef spec4 w = r → (cfg4.win w).isOut = false) ∧ (∀ w : Fin cfg5.W, Pipeline.arrRef spec5 w = r → (cfg5.win w).isOut = false)

/-- A reference no item writes holds at the last boundary what the launch memory holds. -/
theorem W24_of_launch (c : Dev nD) (r : Ref sig .tc) (hh : NoStretchWrites r) (hr : NoRegionWrites r) :
    W24 m ρ c (Proc.devRef .tc r) = m ((c : Thread nD τ).loc r) := by
  obtain ⟨h1, h2, h3, h4, h5, h6, h7, h8, h9, h10, h11, h12, h13, h15, h17, h19, h21, h23⟩ := hh
  obtain ⟨h14, h16, h18, h20, h22, h24⟩ := hr
  exact (W24_of m ρ c r h24).trans <| (W23_of m ρ c r h23).trans <| (W22_of m ρ c r h22).trans <| (W21_of m ρ c r h21).trans <| (W20_of m ρ c r h20).trans <| (W19_of m ρ c r h19).trans <| (W18_of m ρ c r h18).trans <| (W17_of m ρ c r h17).trans <| (W16_of m ρ c r h16).trans <| (W15_of m ρ c r h15).trans <| (W14_of m ρ c r h14).trans <| (W13_of m ρ c r h13).trans <| (W12_of m ρ c r h12).trans <| (W11_of m ρ c r h11).trans <| (W10_of m ρ c r h10).trans <| (W9_of m ρ c r h9).trans <| (W8_of m ρ c r h8).trans <| (W7_of m ρ c r h7).trans <| (W6_of m ρ c r h6).trans <| (W5_of m ρ c r h5).trans <| (W4_of m ρ c r h4).trans <| (W3_of m ρ c r h3).trans <| (W2_of m ρ c r h2).trans <| (W1_of m ρ c r h1).trans rfl

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => dat0 (V13 m ρ) c
  | ⟨1, _⟩ => fun c => dat1 (V15 m ρ) c
  | ⟨2, _⟩ => fun c => dat2 (V17 m ρ) c
  | ⟨3, _⟩ => fun c => dat3 (V19 m ρ) c
  | ⟨4, _⟩ => fun c => dat4 (V21 m ρ) c
  | ⟨5, _⟩ => fun c => dat5 (V23 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W24 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V13 m ρ) c).loose
  hwaits := Pipeline.hwaits_of_owed_zero _ _ _ _ L lv 0 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec0 c (V13 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V13 m ρ c) (V14 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V15 m ρ) c).loose
  hwaits := Pipeline.hwaits_of_owed_zero _ _ _ _ L lv 1 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec1 c (V15 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V15 m ρ c) (V16 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V17 m ρ) c).loose
  hwaits := Pipeline.hwaits_of_owed_zero _ _ _ _ L lv 2 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec2 c (V17 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V17 m ρ c) (V18 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V19 m ρ) c).loose
  hwaits := Pipeline.hwaits_of_owed_zero _ _ _ _ L lv 3 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec3 c (V19 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V19 m ρ c) (V20 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V21 m ρ) c).loose
  hwaits := Pipeline.hwaits_of_owed_zero _ _ _ _ L lv 4 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec4 c (V21 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V21 m ρ c) (V22 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V23 m ρ) c).loose
  hwaits := Pipeline.hwaits_of_owed_zero _ _ _ _ L lv 5 fun _ _ => rfl
  pre c := iprop(StableHlo.held (c : Thread nD τ) (Pipeline.ucRefs τ sig) (W23 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V23 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V23 m ρ c) (V24 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .region (reg0 m ρ),
    .host (hseg hostOps1 hostOps1_sub hostOps1_fresh (W14 m ρ)),
    .region (reg1 m ρ),
    .host (hseg hostOps2 hostOps2_sub hostOps2_fresh (W16 m ρ)),
    .region (reg2 m ρ),
    .host (hseg hostOps3 hostOps3_sub hostOps3_fresh (W18 m ρ)),
    .region (reg3 m ρ),
    .host (hseg hostOps4 hostOps4_sub hostOps4_fresh (W20 m ρ)),
    .region (reg4 m ρ),
    .host (hseg hostOps5 hostOps5_sub hostOps5_fresh (W22 m ρ)),
    .region (reg5 m ρ) ]

theorem main_run (c : Dev nD) : main (F := F) c = Pipeline.Seg.run (segs m ρ) := (main_chain c).trans (by chain_rfl)

set_option backward.isDefEq.respectTransparency.types false in

theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W24 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := hQ)

theorem run_all : θ_run defs (onTc (τ := τ) (main (F := F))) ⟨m, fun _ => 0, ρ⟩ (fun r => ∀ c : Dev nD,
      ∀ b ∈ Pipeline.ucRefs τ sig, r.2.mem (((c : Thread nD τ)).1, b) = W24 m ρ c b) :=
  run_of m ρ fun _ h => h

/-- The sixteen argument arrays hold in `s`, on core `c`, what the launch memory holds. -/
abbrev ArgsKept (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13)
    ∧ s.mem ((c.tc : Thread nD τ).loc main_arg14) = m ((c.tc : Thread nD τ).loc main_arg14)
    ∧ s.mem ((c.tc : Thread nD τ).loc main_arg15) = m ((c.tc : Thread nD τ).loc main_arg15)

/-- An unscoped reference no item writes ends as launched: the last boundary's contents of it are the launch memory's. -/
theorem arg_kept (c : Dev nD) (s : MemSt nD τ sig (Elt F))
    (h : ∀ b ∈ Pipeline.ucRefs τ sig, s.mem (((c : Thread nD τ)).1, b) = W24 m ρ c b) (r : Ref sig .tc)
    (hs : ¬ (Proc.devRef .tc r : DevRef τ sig).isScoped) (hh : NoStretchWrites r) (hr : NoRegionWrites r) :
    s.mem ((c.tc : Thread nD τ).loc r) = m ((c.tc : Thread nD τ).loc r) :=
  (h _ (mem_uc r hs)).trans (W24_of_launch m ρ c r hh hr)

theorem args_kept (c : Dev nD) (s : MemSt nD τ sig (Elt F))
    (h : ∀ b ∈ Pipeline.ucRefs τ sig, s.mem (((c : Thread nD τ)).1, b) = W24 m ρ c b) : ArgsKept m s c :=
  ⟨arg_kept m ρ c s h main_arg0 (by decide) (by decide) (by decide),
   arg_kept m ρ c s h main_arg1 (by decide) (by decide) (by decide),
   arg_kept m ρ c s h main_arg2 (by decide) (by decide) (by decide),
   arg_kept m ρ c s h main_arg3 (by decide) (by decide) (by decide),
   arg_kept m ρ c s h main_arg4 (by decide) (by decide) (by decide),
   arg_kept m ρ c s h main_arg5 (by decide) (by decide) (by decide),
   arg_kept m ρ c s h main_arg6 (by decide) (by decide) (by decide),
   arg_kept m ρ c s h main_arg7 (by decide) (by decide) (by decide),
   arg_kept m ρ c s h main_arg8 (by decide) (by decide) (by decide),
   arg_kept m ρ c s h main_arg9 (by decide) (by decide) (by decide),
   arg_kept m ρ c s h main_arg10 (by decide) (by decide) (by decide),
   arg_kept m ρ c s h main_arg11 (by decide) (by decide) (by decide),
   arg_kept m ρ c s h main_arg12 (by decide) (by decide) (by decide),
   arg_kept m ρ c s h main_arg13 (by decide) (by decide) (by decide),
   arg_kept m ρ c s h main_arg14 (by decide) (by decide) (by decide),
   arg_kept m ρ c s h main_arg15 (by decide) (by decide) (by decide)⟩

/-- Every execution terminates, nothing faulting, and every final memory has the sixteen argument arrays as launched. -/
theorem frame : θ_run defs (onTc (τ := τ) (main (F := F))) ⟨m, fun _ => 0, ρ⟩ (fun r => ∀ c : Dev nD, ArgsKept m r.2 c) :=
  run_of m ρ fun s h c => args_kept m ρ c s (h c)

end Cert.Kernel.Hand

end
-- ==== Proof.KI.Reg0.lean ====
import proofs.«175263_j29738353557973_1_alg».proof.Proof.Gen.KernelIdeal.Launch
import proofs.«175263_j29738353557973_1_alg».proof.Proof.Gen.KernelIdeal.Skeleton
import proofs.«175263_j29738353557973_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1000x1280 := Rect.unit (s := S1000x1280) ![0, 0] S1000x1280.size inb_S1000x1280_S1000x1280_0_0
abbrev r0_1 : Rect S1280x384 := Rect.unit (s := S1280x384) ![0, 0] S1280x384.size inb_S1280x384_S1280x384_0_0
abbrev r0_2 : Rect S1000x3 := Rect.unit (s := S1000x3) ![0, 0] S1000x3.size inb_S1000x3_S1000x3_0_0

abbrev r0_3 : Rect S1000x384 := Rect.unit (s := S1000x384) ![0, 0] S1000x128.size inb_S1000x384_S1000x128_0_0
abbrev r0_4 : Rect S1000x384 := Rect.unit (s := S1000x384) ![0, 128] S1000x128.size inb_S1000x384_S1000x128_0_128
abbrev r0_5 : Rect S1000x384 := Rect.unit (s := S1000x384) ![0, 256] S1000x128.size inb_S1000x384_S1000x128_0_256

def out0_3 (x0 : Vec F S1000x1280 .f32) (x1 : Vec F S1280x384 .f32) (x2 : Vec F S1000x3 .f32) : Vec F S1000x384 .f32 :=
  View.canon [⟨r0_5, k0_pay5 (View.ld x0 r0_0) (View.ld x1 r0_1) (View.ld x2 r0_2)⟩,
    ⟨r0_4, k0_pay4 (View.ld x0 r0_0) (View.ld x1 r0_1) (View.ld x2 r0_2)⟩,
    ⟨r0_3, k0_pay3 (View.ld x0 r0_0) (View.ld x1 r0_1) (View.ld x2 r0_2)⟩]

theorem cover0_3 (p0 : Vec F S1000x128 .f32) (p1 : Vec F S1000x128 .f32) (p2 : Vec F S1000x128 .f32) (y : S1000x384.Idx) :
    ∃ pc ∈ ([⟨r0_5, p0⟩, ⟨r0_4, p1⟩, ⟨r0_3, p2⟩] : List (View.Piece (Elt F) S1000x384 .f32)), y ∈ pc.1.set :=
  View.cover_of_tiled [⟨r0_5, p0⟩, ⟨r0_4, p1⟩, ⟨r0_3, p2⟩] S1000x128.size (by rfl) y

set_option maxHeartbeats 1000000 in

theorem sound_kernel0 (c : Dev nD) (E : Set ℕ) (i : grid0.Coords) (arg1 : Memref sig .tc .vmem S1000x1280 .f32) (harg1 : arg1.IsWhole) (arg2 : Memref sig .tc .vmem S1280x384 .f32) (harg2 : arg2.IsWhole) (arg3 : Memref sig .tc .vmem S1000x3 .f32) (harg3 : arg3.IsWhole) (arg4 : Memref sig .tc .vmem S1000x384 .f32) (harg4 : arg4.IsWhole)
    (x0 : Vec F S1000x1280 .f32) (x1 : Vec F S1280x384 .f32) (x2 : Vec F S1000x3 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _ _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«175263_j29738353557973_1_alg».proof.Proof.Gen.KernelIdeal.Launch
import proofs.«175263_j29738353557973_1_alg».proof.Proof.Gen.KernelIdeal.Skeleton
import proofs.«175263_j29738353557973_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 50 = 0 :=
  (by decide +kernel : ∀ t : Fin grid1.N, cond1_0 (grid1.coords t) ↔ t.val % 50 = 0)

theorem hz1 : (![0, 0] : Fin 2 → Nat) = fun _ => 0 := funext fun a => by fin_cases a <;> rfl

theorem read_writes_whole1 {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

def out1_3 (x0 : Vec F S2000x128 .f32) (x1 : Vec F S128x128 .f32) (x2 : Vec F S1x128 .f32) : Vec F S2000x128 .f32 :=
  k1_pay3 x0 x1 x2

def step1_4 (x0 : Vec F S2000x128 .f32) (x1 : Vec F S128x128 .f32) (x2 : Vec F S1x128 .f32) (p : Vec F S1x128 .f32) : Vec F S1x128 .f32 :=
  k1_pay4 x0 x1 x2 p

def step1_5 (x0 : Vec F S2000x128 .f32) (x1 : Vec F S128x128 .f32) (x2 : Vec F S1x128 .f32) (p : Vec F S1x128 .f32) : Vec F S1x128 .f32 :=
  k1_pay5 x0 x1 x2 p

set_option maxHeartbeats 1000000 in

theorem sound_kernel1_A (c : Dev nD) (E : Set ℕ) (i : grid1.Coords) (hc0 : cond1_0 i)
    (arg1 : Memref sig .tc .vmem S2000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S2000x128 .f32) (harg4 : arg4.IsWhole)
    (arg5 : Memref sig .tc .vmem S1x128 .f32) (harg5 : arg5.IsWhole)
    (arg6 : Memref sig .tc .vmem S1x128 .f32) (harg6 : arg6.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)
            ∗ owns (c : Thread nD τ) arg5 fullShare (step1_4 x0 x1 x2 k1_pay1)
            ∗ owns (c : Thread nD τ) arg6 fullShare (step1_5 x0 x1 x2 k1_pay2)) -∗ K ⟨⟩))
      ⊢ wp frame (wpE (defs₀ (F := F)) Variants.none c none) E (cc1__fc_relu_stats_kernel i arg1 harg1 arg2 harg2 arg3 harg3 arg4 harg4 arg5 harg5 arg6 harg6) K := by
  simp only [cc1__fc_relu_stats_kernel_eq_skeleton]; unfold cc1__fc_relu_stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_writes_whole1 _ _ hz1]
    simp only [View.readAt_eq_ld, View.ld_unit_zero (S := S2000x128) hz1, View.ld_unit_zero (S := S128x128) hz1, View.ld_unit_zero (S := S1x128) hz1]
    rfl
  isplitl [H4]
  · iexists _; isplitr
    swap; · iexact H4
    ipureintro
    rw [read_writes_whole1 _ _ hz1]
    sl_unfold_run_names
    rw [View.readCov_unit_zero _ hz1]
    simp only [View.readAt_eq_ld, View.ld_unit_zero (S := S2000x128) hz1, View.ld_unit_zero (S := S128x128) hz1, View.ld_unit_zero (S := S1x128) hz1]
    rfl
  · iexists _; isplitr
    swap; · iexact H5
    ipureintro
    rw [read_writes_whole1 _ _ hz1]
    sl_unfold_run_names
    rw [View.readCov_unit_zero _ hz1]
    simp only [View.readAt_eq_ld, View.ld_unit_zero (S := S2000x128) hz1, View.ld_unit_zero (S := S128x128) hz1, View.ld_unit_zero (S := S1x128) hz1]
    rfl

set_option maxHeartbeats 1000000 in

theorem sound_kernel1_B (c : Dev nD) (E : Set ℕ) (i : grid1.Coords) (hc0 : ¬cond1_0 i)
    (arg1 : Memref sig .tc .vmem S2000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S2000x128 .f32) (harg4 : arg4.IsWhole)
    (arg5 : Memref sig .tc .vmem S1x128 .f32) (harg5 : arg5.IsWhole)
    (arg6 : Memref sig .tc .vmem S1x128 .f32) (harg6 : arg6.IsWhole)
    (x0 : Vec F S2000x128 .f32) (x1 : Vec F S128x128 .f32) (x2 : Vec F S1x128 .f32) (p4 p5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare p4 ∗ owns (c : Thread nD τ) arg6 fullShare p5
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)
            ∗ owns (c : Thread nD τ) arg5 fullShare (step1_4 x0 x1 x2 p4)
            ∗ owns (c : Thread nD τ) arg6 fullShare (step1_5 x0 x1 x2 p5)) -∗ K ⟨⟩))
      ⊢ wp frame (wpE (defs₀ (F := F)) Variants.none c none) E (cc1__fc_relu_stats_kernel i arg1 harg1 arg2 harg2 arg3 harg3 arg4 harg4 arg5 harg5 arg6 harg6) K := by
  simp only [cc1__fc_relu_stats_kernel_eq_skeleton]; unfold cc1__fc_relu_stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0; subst hf1; subst hf2; subst hf4; subst hf5
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_writes_whole1 _ _ hz1]
    simp only [View.readAt_eq_ld, View.ld_unit_zero (S := S2000x128) hz1, View.ld_unit_zero (S := S128x128) hz1, View.ld_unit_zero (S := S1x128) hz1]
    rfl
  isplitl [H4]
  · iexists _; isplitr
    swap; · iexact H4
    ipureintro
    rw [read_writes_whole1 _ _ hz1]
    simp only [View.readAt_eq_ld, View.ld_unit_zero (S := S2000x128) hz1, View.ld_unit_zero (S := S128x128) hz1, View.ld_unit_zero (S := S1x128) hz1]
    rfl
  · iexists _; isplitr
    swap; · iexact H5
    ipureintro
    rw [read_writes_whole1 _ _ hz1]
    simp only [View.readAt_eq_ld, View.ld_unit_zero (S := S2000x128) hz1, View.ld_unit_zero (S := S128x128) hz1, View.ld_unit_zero (S := S1x128) hz1]
    rfl

def acc1_4 (c : Dev nD) : (n : ℕ) → n < cfg1.N → Vec F S1x128 .f32
  | 0, hn => step1_4 (iblk1 V c 0 ⟨0, hn⟩) (iblk1 V c 1 ⟨0, hn⟩) (iblk1 V c 2 ⟨0, hn⟩) k1_pay1
  | n + 1, hn => step1_4 (iblk1 V c 0 ⟨n + 1, hn⟩) (iblk1 V c 1 ⟨n + 1, hn⟩) (iblk1 V c 2 ⟨n + 1, hn⟩) (acc1_4 c n (Nat.lt_of_succ_lt hn))

def acc1_5 (c : Dev nD) : (n : ℕ) → n < cfg1.N → Vec F S1x128 .f32
  | 0, hn => step1_5 (iblk1 V c 0 ⟨0, hn⟩) (iblk1 V c 1 ⟨0, hn⟩) (iblk1 V c 2 ⟨0, hn⟩) k1_pay2
  | n + 1, hn => step1_5 (iblk1 V c 0 ⟨n + 1, hn⟩) (iblk1 V c 1 ⟨n + 1, hn⟩) (iblk1 V c 2 ⟨n + 1, hn⟩) (acc1_5 c n (Nat.lt_of_succ_lt hn))

theorem acc1_4_A (c : Dev nD) (t : Fin cfg1.N) (h0 : t.val % 50 = 0) :
    acc1_4 V c t.val t.isLt = step1_4 (iblk1 V c 0 t) (iblk1 V c 1 t) (iblk1 V c 2 t) k1_pay1 := by
  obtain ⟨n, hn⟩ := t
  cases n with
  | zero => exact rfl
  | succ n => exact absurd h0 (by have := lt_of_lt_of_eq hn (show cfg1.N = 50 from N_1); dsimp only; omega)

theorem acc1_4_B (c : Dev nD) (t : Fin cfg1.N) (h0 : ¬t.val % 50 = 0) :
    acc1_4 V c t.val t.isLt = step1_4 (iblk1 V c 0 t) (iblk1 V c 1 t) (iblk1 V c 2 t)
      (acc1_4 V c (t.val - 1) (Nat.lt_of_le_of_lt (Nat.sub_le _ _) t.isLt)) := by
  obtain ⟨n, hn⟩ := t
  cases n with
  | zero => exact absurd (Nat.zero_mod _) h0
  | succ n => exact rfl

theorem acc1_5_A (c : Dev nD) (t : Fin cfg1.N) (h0 : t.val % 50 = 0) :
    acc1_5 V c t.val t.isLt = step1_5 (iblk1 V c 0 t) (iblk1 V c 1 t) (iblk1 V c 2 t) k1_pay2 := by
  obtain ⟨n, hn⟩ := t
  cases n with
  | zero => exact rfl
  | succ n => exact absurd h0 (by have := lt_of_lt_of_eq hn (show cfg1.N = 50 from N_1); dsimp only; omega)

theorem acc1_5_B (c : Dev nD) (t : Fin cfg1.N) (h0 : ¬t.val % 50 = 0) :
    acc1_5 V c t.val t.isLt = step1_5 (iblk1 V c 0 t) (iblk1 V c 1 t) (iblk1 V c 2 t)
      (acc1_5 V c (t.val - 1) (Nat.lt_of_le_of_lt (Nat.sub_le _ _) t.isLt)) := by
  obtain ⟨n, hn⟩ := t
  cases n with
  | zero => exact absurd (Nat.zero_mod _) h0
  | succ n => exact rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => acc1_4 V c t.val t.isLt
    | ⟨5, _⟩ => acc1_5 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = acc1_4 V c t.val t.isLt := by dsimp only [dat1]
theorem after1_5 (c : Dev nD) (t : Fin cfg1.N) : (dat1 V c).after 5 t = acc1_5 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem before1_4_B (c : Dev nD) (t : Fin cfg1.N) (h0 : ¬t.val % 50 = 0) (d) :
    (dat1 V c).before 4 t d = acc1_4 V c (t.val - 1) (Nat.lt_of_le_of_lt (Nat.sub_le _ _) t.isLt) := by
  have hN : t.val < 50 := lt_of_lt_of_eq t.isLt (show cfg1.N = 50 from N_1)
  rw [Dat.before_out_kept _ 4 rfl t (by omega) (Bool.eq_false_iff.mpr fun h => by have := (flush1_4 _).mp h; dsimp only at this; omega)
    (fun _ => rfl) (fun _ _ => rfl)]
  dsimp only [dat1]

theorem before1_5_B (c : Dev nD) (t : Fin cfg1.N) (h0 : ¬t.val % 50 = 0) (d) :
    (dat1 V c).before 5 t d = acc1_5 V c (t.val - 1) (Nat.lt_of_le_of_lt (Nat.sub_le _ _) t.isLt) := by
  have hN : t.val < 50 := lt_of_lt_of_eq t.isLt (show cfg1.N = 50 from N_1)
  rw [Dat.before_out_kept _ 5 rfl t (by omega) (Bool.eq_false_iff.mpr fun h => by have := (flush1_5 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val % 50 = 0
  · rw [acc1_4_A V c t h0, acc1_5_A V c t h0]
    iintro ⟨HΦ, Ho, ⟨%d0, H0⟩, ⟨%d1, H1⟩, ⟨%d2, H2⟩, ⟨%d3, H3⟩, ⟨%d4, H4⟩, ⟨%d5, H5⟩⟩
    iapply (sound_kernel1_A c Set.univ (grid1.coords t) ((hcond1_0 t).mpr h0) _ _ _ _ _ _ _ _ _ _ _ _ (iblk1 V c 0 t) (iblk1 V c 1 t) (iblk1 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_4_B V c t h0, acc1_5_B V c t h0]
    simp only [before1_4_B V c t h0, before1_5_B V c t h0]
    iintro ⟨HΦ, Ho, ⟨%d0, H0⟩, ⟨%d1, H1⟩, ⟨%d2, H2⟩, ⟨%d3, H3⟩, ⟨%d4, H4⟩, ⟨%d5, H5⟩⟩
    iapply (sound_kernel1_B c Set.univ (grid1.coords t) (fun h => h0 ((hcond1_0 t).mp h)) _ _ _ _ _ _ _ _ _ _ _ _ (iblk1 V c 0 t) (iblk1 V c 1 t) (iblk1 V c 2 t) _ _ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«175263_j29738353557973_1_alg».proof.Proof.Gen.KernelIdeal.Launch
import proofs.«175263_j29738353557973_1_alg».proof.Proof.Gen.KernelIdeal.Skeleton
import proofs.«175263_j29738353557973_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2000x128 := Rect.unit (s := S2000x128) ![0, 0] S2000x128.size inb_S2000x128_S2000x128_0_0

abbrev r2_1 : Rect S1x128 := Rect.unit (s := S1x128) ![0, 0] S1x128.size inb_S1x128_S1x128_0_0

def out2_5 (x0 : Vec F S2000x128 .f32) (x1 : Vec F S1x128 .f32) (x2 : Vec F S1x128 .f32) (x3 : Vec F S1x128 .f32) (x4 : Vec F S1x128 .f32) : Vec F S2000x128 .f32 :=
  View.canon [⟨r2_0, k2_pay1 (View.ld x2 r2_1) (View.ld x0 r2_0) (View.ld x1 r2_1) (View.ld x3 r2_1) (View.ld x4 r2_1)⟩]

theorem cover2_5 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

set_option maxHeartbeats 1000000 in

theorem sound_kernel2 (c : Dev nD) (E : Set ℕ) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_kernel i arg1 harg1 arg2 harg2 arg3 harg3 arg4 harg4 arg5 harg5 arg6 harg6) K := by
  simp only [cc2__bn_kernel_eq_skeleton]; unfold cc2__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«175263_j29738353557973_1_alg».proof.Proof.Gen.KernelIdeal.Launch
import proofs.«175263_j29738353557973_1_alg».proof.Proof.Gen.KernelIdeal.Skeleton
import proofs.«175263_j29738353557973_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S2000x128 := Rect.unit (s := S2000x128) ![0, 0] S2000x128.size inb_S2000x128_S2000x128_0_0
abbrev r3_1 : Rect S128x384 := Rect.unit (s := S128x384) ![0, 0] S128x384.size inb_S128x384_S128x384_0_0
abbrev r3_2 : Rect S2000x3 := Rect.unit (s := S2000x3) ![0, 0] S2000x3.size inb_S2000x3_S2000x3_0_0

abbrev r3_3 : Rect S2000x384 := Rect.unit (s := S2000x384) ![0, 0] S2000x128.size inb_S2000x384_S2000x128_0_0
abbrev r3_4 : Rect S2000x384 := Rect.unit (s := S2000x384) ![0, 128] S2000x128.size inb_S2000x384_S2000x128_0_128
abbrev r3_5 : Rect S2000x384 := Rect.unit (s := S2000x384) ![0, 256] S2000x128.size inb_S2000x384_S2000x128_0_256

def out3_3 (x0 : Vec F S2000x128 .f32) (x1 : Vec F S128x384 .f32) (x2 : Vec F S2000x3 .f32) : Vec F S2000x384 .f32 :=
  View.canon [⟨r3_5, k3_pay5 (View.ld x0 r3_0) (View.ld x1 r3_1) (View.ld x2 r3_2)⟩,
    ⟨r3_4, k3_pay4 (View.ld x0 r3_0) (View.ld x1 r3_1) (View.ld x2 r3_2)⟩,
    ⟨r3_3, k3_pay3 (View.ld x0 r3_0) (View.ld x1 r3_1) (View.ld x2 r3_2)⟩]

theorem cover3_3 (p0 : Vec F S2000x128 .f32) (p1 : Vec F S2000x128 .f32) (p2 : Vec F S2000x128 .f32) (y : S2000x384.Idx) :
    ∃ pc ∈ ([⟨r3_5, p0⟩, ⟨r3_4, p1⟩, ⟨r3_3, p2⟩] : List (View.Piece (Elt F) S2000x384 .f32)), y ∈ pc.1.set :=
  View.cover_of_tiled [⟨r3_5, p0⟩, ⟨r3_4, p1⟩, ⟨r3_3, p2⟩] S2000x128.size (by rfl) y

set_option maxHeartbeats 1000000 in

theorem sound_kernel3 (c : Dev nD) (E : Set ℕ) (i : grid3.Coords) (arg1 : Memref sig .tc .vmem S2000x128 .f32) (harg1 : arg1.IsWhole) (arg2 : Memref sig .tc .vmem S128x384 .f32) (harg2 : arg2.IsWhole) (arg3 : Memref sig .tc .vmem S2000x3 .f32) (harg3 : arg3.IsWhole) (arg4 : Memref sig .tc .vmem S2000x384 .f32) (harg4 : arg4.IsWhole)
    (x0 : Vec F S2000x128 .f32) (x1 : Vec F S128x384 .f32) (x2 : Vec F S2000x3 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__proj_kernel i arg1 harg1 arg2 harg2 arg3 harg3 arg4 harg4) K := by
  simp only [cc3__proj_kernel_eq_skeleton]; unfold cc3__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _ _ _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
import proofs.«175263_j29738353557973_1_alg».proof.Proof.Gen.KernelIdeal.Launch
import proofs.«175263_j29738353557973_1_alg».proof.Proof.Gen.KernelIdeal.Skeleton
import proofs.«175263_j29738353557973_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val % 50 = 0 :=
  (by decide +kernel : ∀ t : Fin grid4.N, cond4_0 (grid4.coords t) ↔ t.val % 50 = 0)

theorem hz4 : (![0, 0] : Fin 2 → Nat) = fun _ => 0 := funext fun a => by fin_cases a <;> rfl

theorem read_writes_whole4 {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

def out4_3 (x0 : Vec F S2000x128 .f32) (x1 : Vec F S128x128 .f32) (x2 : Vec F S1x128 .f32) : Vec F S2000x128 .f32 :=
  k4_pay3 x0 x1 x2

def step4_4 (x0 : Vec F S2000x128 .f32) (x1 : Vec F S128x128 .f32) (x2 : Vec F S1x128 .f32) (p : Vec F S1x128 .f32) : Vec F S1x128 .f32 :=
  k4_pay4 x0 x1 x2 p

def step4_5 (x0 : Vec F S2000x128 .f32) (x1 : Vec F S128x128 .f32) (x2 : Vec F S1x128 .f32) (p : Vec F S1x128 .f32) : Vec F S1x128 .f32 :=
  k4_pay5 x0 x1 x2 p

set_option maxHeartbeats 1000000 in

theorem sound_kernel4_A (c : Dev nD) (E : Set ℕ) (i : grid4.Coords) (hc0 : cond4_0 i)
    (arg1 : Memref sig .tc .vmem S2000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S2000x128 .f32) (harg4 : arg4.IsWhole)
    (arg5 : Memref sig .tc .vmem S1x128 .f32) (harg5 : arg5.IsWhole)
    (arg6 : Memref sig .tc .vmem S1x128 .f32) (harg6 : arg6.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)
            ∗ owns (c : Thread nD τ) arg5 fullShare (step4_4 x0 x1 x2 k4_pay1)
            ∗ owns (c : Thread nD τ) arg6 fullShare (step4_5 x0 x1 x2 k4_pay2)) -∗ K ⟨⟩))
      ⊢ wp frame (wpE (defs₀ (F := F)) Variants.none c none) E (cc4__fc_relu_stats_kernel i arg1 harg1 arg2 harg2 arg3 harg3 arg4 harg4 arg5 harg5 arg6 harg6) K := by
  simp only [cc4__fc_relu_stats_kernel_eq_skeleton]; unfold cc4__fc_relu_stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_writes_whole4 _ _ hz4]
    simp only [View.readAt_eq_ld, View.ld_unit_zero (S := S2000x128) hz4, View.ld_unit_zero (S := S128x128) hz4, View.ld_unit_zero (S := S1x128) hz4]
    rfl
  isplitl [H4]
  · iexists _; isplitr
    swap; · iexact H4
    ipureintro
    rw [read_writes_whole4 _ _ hz4]
    sl_unfold_run_names
    rw [View.readCov_unit_zero _ hz4]
    simp only [View.readAt_eq_ld, View.ld_unit_zero (S := S2000x128) hz4, View.ld_unit_zero (S := S128x128) hz4, View.ld_unit_zero (S := S1x128) hz4]
    rfl
  · iexists _; isplitr
    swap; · iexact H5
    ipureintro
    rw [read_writes_whole4 _ _ hz4]
    sl_unfold_run_names
    rw [View.readCov_unit_zero _ hz4]
    simp only [View.readAt_eq_ld, View.ld_unit_zero (S := S2000x128) hz4, View.ld_unit_zero (S := S128x128) hz4, View.ld_unit_zero (S := S1x128) hz4]
    rfl

set_option maxHeartbeats 1000000 in

theorem sound_kernel4_B (c : Dev nD) (E : Set ℕ) (i : grid4.Coords) (hc0 : ¬cond4_0 i)
    (arg1 : Memref sig .tc .vmem S2000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S2000x128 .f32) (harg4 : arg4.IsWhole)
    (arg5 : Memref sig .tc .vmem S1x128 .f32) (harg5 : arg5.IsWhole)
    (arg6 : Memref sig .tc .vmem S1x128 .f32) (harg6 : arg6.IsWhole)
    (x0 : Vec F S2000x128 .f32) (x1 : Vec F S128x128 .f32) (x2 : Vec F S1x128 .f32) (p4 p5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare p4 ∗ owns (c : Thread nD τ) arg6 fullShare p5
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)
            ∗ owns (c : Thread nD τ) arg5 fullShare (step4_4 x0 x1 x2 p4)
            ∗ owns (c : Thread nD τ) arg6 fullShare (step4_5 x0 x1 x2 p5)) -∗ K ⟨⟩))
      ⊢ wp frame (wpE (defs₀ (F := F)) Variants.none c none) E (cc4__fc_relu_stats_kernel i arg1 harg1 arg2 harg2 arg3 harg3 arg4 harg4 arg5 harg5 arg6 harg6) K := by
  simp only [cc4__fc_relu_stats_kernel_eq_skeleton]; unfold cc4__fc_relu_stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0; subst hf1; subst hf2; subst hf4; subst hf5
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_writes_whole4 _ _ hz4]
    simp only [View.readAt_eq_ld, View.ld_unit_zero (S := S2000x128) hz4, View.ld_unit_zero (S := S128x128) hz4, View.ld_unit_zero (S := S1x128) hz4]
    rfl
  isplitl [H4]
  · iexists _; isplitr
    swap; · iexact H4
    ipureintro
    rw [read_writes_whole4 _ _ hz4]
    simp only [View.readAt_eq_ld, View.ld_unit_zero (S := S2000x128) hz4, View.ld_unit_zero (S := S128x128) hz4, View.ld_unit_zero (S := S1x128) hz4]
    rfl
  · iexists _; isplitr
    swap; · iexact H5
    ipureintro
    rw [read_writes_whole4 _ _ hz4]
    simp only [View.readAt_eq_ld, View.ld_unit_zero (S := S2000x128) hz4, View.ld_unit_zero (S := S128x128) hz4, View.ld_unit_zero (S := S1x128) hz4]
    rfl

def acc4_4 (c : Dev nD) : (n : ℕ) → n < cfg4.N → Vec F S1x128 .f32
  | 0, hn => step4_4 (iblk4 V c 0 ⟨0, hn⟩) (iblk4 V c 1 ⟨0, hn⟩) (iblk4 V c 2 ⟨0, hn⟩) k4_pay1
  | n + 1, hn => step4_4 (iblk4 V c 0 ⟨n + 1, hn⟩) (iblk4 V c 1 ⟨n + 1, hn⟩) (iblk4 V c 2 ⟨n + 1, hn⟩) (acc4_4 c n (Nat.lt_of_succ_lt hn))

def acc4_5 (c : Dev nD) : (n : ℕ) → n < cfg4.N → Vec F S1x128 .f32
  | 0, hn => step4_5 (iblk4 V c 0 ⟨0, hn⟩) (iblk4 V c 1 ⟨0, hn⟩) (iblk4 V c 2 ⟨0, hn⟩) k4_pay2
  | n + 1, hn => step4_5 (iblk4 V c 0 ⟨n + 1, hn⟩) (iblk4 V c 1 ⟨n + 1, hn⟩) (iblk4 V c 2 ⟨n + 1, hn⟩) (acc4_5 c n (Nat.lt_of_succ_lt hn))

theorem acc4_4_A (c : Dev nD) (t : Fin cfg4.N) (h0 : t.val % 50 = 0) :
    acc4_4 V c t.val t.isLt = step4_4 (iblk4 V c 0 t) (iblk4 V c 1 t) (iblk4 V c 2 t) k4_pay1 := by
  obtain ⟨n, hn⟩ := t
  cases n with
  | zero => exact rfl
  | succ n => exact absurd h0 (by have := lt_of_lt_of_eq hn (show cfg4.N = 50 from N_4); dsimp only; omega)

theorem acc4_4_B (c : Dev nD) (t : Fin cfg4.N) (h0 : ¬t.val % 50 = 0) :
    acc4_4 V c t.val t.isLt = step4_4 (iblk4 V c 0 t) (iblk4 V c 1 t) (iblk4 V c 2 t)
      (acc4_4 V c (t.val - 1) (Nat.lt_of_le_of_lt (Nat.sub_le _ _) t.isLt)) := by
  obtain ⟨n, hn⟩ := t
  cases n with
  | zero => exact absurd (Nat.zero_mod _) h0
  | succ n => exact rfl

theorem acc4_5_A (c : Dev nD) (t : Fin cfg4.N) (h0 : t.val % 50 = 0) :
    acc4_5 V c t.val t.isLt = step4_5 (iblk4 V c 0 t) (iblk4 V c 1 t) (iblk4 V c 2 t) k4_pay2 := by
  obtain ⟨n, hn⟩ := t
  cases n with
  | zero => exact rfl
  | succ n => exact absurd h0 (by have := lt_of_lt_of_eq hn (show cfg4.N = 50 from N_4); dsimp only; omega)

theorem acc4_5_B (c : Dev nD) (t : Fin cfg4.N) (h0 : ¬t.val % 50 = 0) :
    acc4_5 V c t.val t.isLt = step4_5 (iblk4 V c 0 t) (iblk4 V c 1 t) (iblk4 V c 2 t)
      (acc4_5 V c (t.val - 1) (Nat.lt_of_le_of_lt (Nat.sub_le _ _) t.isLt)) := by
  obtain ⟨n, hn⟩ := t
  cases n with
  | zero => exact absurd (Nat.zero_mod _) h0
  | succ n => exact rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
    | ⟨4, _⟩ => acc4_4 V c t.val t.isLt
    | ⟨5, _⟩ => acc4_5 V c t.val t.isLt
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]
theorem after4_4 (c : Dev nD) (t : Fin cfg4.N) : (dat4 V c).after 4 t = acc4_4 V c t.val t.isLt := by dsimp only [dat4]
theorem after4_5 (c : Dev nD) (t : Fin cfg4.N) : (dat4 V c).after 5 t = acc4_5 V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

theorem before4_4_B (c : Dev nD) (t : Fin cfg4.N) (h0 : ¬t.val % 50 = 0) (d) :
    (dat4 V c).before 4 t d = acc4_4 V c (t.val - 1) (Nat.lt_of_le_of_lt (Nat.sub_le _ _) t.isLt) := by
  have hN : t.val < 50 := lt_of_lt_of_eq t.isLt (show cfg4.N = 50 from N_4)
  rw [Dat.before_out_kept _ 4 rfl t (by omega) (Bool.eq_false_iff.mpr fun h => by have := (flush4_4 _).mp h; dsimp only at this; omega)
    (fun _ => rfl) (fun _ _ => rfl)]
  dsimp only [dat4]

theorem before4_5_B (c : Dev nD) (t : Fin cfg4.N) (h0 : ¬t.val % 50 = 0) (d) :
    (dat4 V c).before 5 t d = acc4_5 V c (t.val - 1) (Nat.lt_of_le_of_lt (Nat.sub_le _ _) t.isLt) := by
  have hN : t.val < 50 := lt_of_lt_of_eq t.isLt (show cfg4.N = 50 from N_4)
  rw [Dat.before_out_kept _ 5 rfl t (by omega) (Bool.eq_false_iff.mpr fun h => by have := (flush4_5 _).mp h; dsimp only at this; omega)
    (fun _ => rfl) (fun _ _ => rfl)]
  dsimp only [dat4]

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

set_option maxHeartbeats 800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4, after4_5]
  by_cases h0 : t.val % 50 = 0
  · rw [acc4_4_A V c t h0, acc4_5_A V c t h0]
    iintro ⟨HΦ, Ho, ⟨%d0, H0⟩, ⟨%d1, H1⟩, ⟨%d2, H2⟩, ⟨%d3, H3⟩, ⟨%d4, H4⟩, ⟨%d5, H5⟩⟩
    iapply (sound_kernel4_A c Set.univ (grid4.coords t) ((hcond4_0 t).mpr h0) _ _ _ _ _ _ _ _ _ _ _ _ (iblk4 V c 0 t) (iblk4 V c 1 t) (iblk4 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc4_4_B V c t h0, acc4_5_B V c t h0]
    simp only [before4_4_B V c t h0, before4_5_B V c t h0]
    iintro ⟨HΦ, Ho, ⟨%d0, H0⟩, ⟨%d1, H1⟩, ⟨%d2, H2⟩, ⟨%d3, H3⟩, ⟨%d4, H4⟩, ⟨%d5, H5⟩⟩
    iapply (sound_kernel4_B c Set.univ (grid4.coords t) (fun h => h0 ((hcond4_0 t).mp h)) _ _ _ _ _ _ _ _ _ _ _ _ (iblk4 V c 0 t) (iblk4 V c 1 t) (iblk4 V c 2 t) _ _ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
import proofs.«175263_j29738353557973_1_alg».proof.Proof.Gen.KernelIdeal.Launch
import proofs.«175263_j29738353557973_1_alg».proof.Proof.Gen.KernelIdeal.Skeleton
import proofs.«175263_j29738353557973_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S2000x128 := Rect.unit (s := S2000x128) ![0, 0] S2000x128.size inb_S2000x128_S2000x128_0_0

abbrev r5_1 : Rect S1x128 := Rect.unit (s := S1x128) ![0, 0] S1x128.size inb_S1x128_S1x128_0_0

def out5_5 (x0 : Vec F S2000x128 .f32) (x1 : Vec F S1x128 .f32) (x2 : Vec F S1x128 .f32) (x3 : Vec F S1x128 .f32) (x4 : Vec F S1x128 .f32) : Vec F S2000x128 .f32 :=
  View.canon [⟨r5_0, k5_pay1 (View.ld x2 r5_1) (View.ld x0 r5_0) (View.ld x1 r5_1) (View.ld x3 r5_1) (View.ld x4 r5_1)⟩]

theorem cover5_5 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

set_option maxHeartbeats 1000000 in

theorem sound_kernel5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_kernel i arg1 harg1 arg2 harg2 arg3 harg3 arg4 harg4 arg5 harg5 arg6 harg6) K := by
  simp only [cc5__bn_kernel_eq_skeleton]; unfold cc5__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Run.lean ====
import proofs.«175263_j29738353557973_1_alg».proof.Proof.KI.Reg0
import proofs.«175263_j29738353557973_1_alg».proof.Proof.KI.Reg1
import proofs.«175263_j29738353557973_1_alg».proof.Proof.KI.Reg2
import proofs.«175263_j29738353557973_1_alg».proof.Proof.KI.Reg3
import proofs.«175263_j29738353557973_1_alg».proof.Proof.KI.Reg4
import proofs.«175263_j29738353557973_1_alg».proof.Proof.KI.Reg5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No operation of the list allocates a buffer. -/
abbrev NoFresh (ops : List (HloOp τ sig (Elt F))) : Prop := ops.Forall fun op => op.fresh = ∅
/-- Every operation of the list writes inside `W`. -/
abbrev WritesIn (ops : List (HloOp τ sig (Elt F))) (W : List (Ref sig .tc)) : Prop :=
  ops.Forall fun op => op.writes ⊆ (W.map (Proc.devRef (τ := τ) .tc)).toFinset

local macro "stretch_writes" : tactic => `(tactic| (
  simp only [WritesIn, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.singleton_subset_iff, List.mem_toFinset]
  repeat' apply And.intro
  all_goals exact List.mem_map_of_mem (by decide)))

theorem hostOps0_fresh : NoFresh (F := F) hostOps0 := by
  simp only [NoFresh, List.Forall]; repeat' constructor
abbrev hostOps0_W : List (Ref sig .tc) :=
  [main_v0, main_v1, main_v2, main_v3, main_cst, main_v4, main_cst_0, main_v5, main_v6, main_v7, main_cst_1]
theorem hostOps0_writes : WritesIn (F := F) hostOps0 hostOps0_W := by
  stretch_writes

theorem hostOps0_1_fresh : NoFresh (F := F) hostOps0_1 := by
  simp only [NoFresh, List.Forall]; repeat' constructor
abbrev hostOps0_1_W : List (Ref sig .tc) := [main_call0_v0, main_call0_v1, main_v8]
theorem hostOps0_1_writes : WritesIn (F := F) hostOps0_1 hostOps0_1_W := by
  stretch_writes

theorem hostOps0_2_fresh : NoFresh (F := F) hostOps0_2 := by
  simp only [NoFresh, List.Forall]; repeat' constructor
abbrev hostOps0_2_W : List (Ref sig .tc) := [main_cst_2, main_v9, main_v10, main_v11, main_cst_3]
theorem hostOps0_2_writes : WritesIn (F := F) hostOps0_2 hostOps0_2_W := by
  stretch_writes

theorem hostOps0_3_fresh : NoFresh (F := F) hostOps0_3 := by
  simp only [NoFresh, List.Forall]; repeat' constructor
abbrev hostOps0_3_W : List (Ref sig .tc) := [main_call1_v0, main_call1_v1, main_v12]
theorem hostOps0_3_writes : WritesIn (F := F) hostOps0_3 hostOps0_3_W := by
  stretch_writes

theorem hostOps0_4_fresh : NoFresh (F := F) hostOps0_4 := by
  simp only [NoFresh, List.Forall]; repeat' constructor
abbrev hostOps0_4_W : List (Ref sig .tc) :=
  [main_cst_4, main_v13, main_v14, main_cst_5, main_v15, main_v16, main_v17, main_v18, main_v19, main_v20, main_cst_6,
   main_v21, main_cst_7, main_v22, main_v23, main_v24, main_cst_8]
theorem hostOps0_4_writes : WritesIn (F := F) hostOps0_4 hostOps0_4_W := by
  stretch_writes

theorem hostOps0_5_fresh : NoFresh (F := F) hostOps0_5 := by
  simp only [NoFresh, List.Forall]; repeat' constructor
abbrev hostOps0_5_W : List (Ref sig .tc) := [main_call2_v0, main_call2_v1, main_v25]
theorem hostOps0_5_writes : WritesIn (F := F) hostOps0_5 hostOps0_5_W := by
  stretch_writes

theorem hostOps0_6_fresh : NoFresh (F := F) hostOps0_6 := by
  simp only [NoFresh, List.Forall]; repeat' constructor
abbrev hostOps0_6_W : List (Ref sig .tc) := [main_cst_9, main_v26, main_v27, main_v28, main_cst_10]
theorem hostOps0_6_writes : WritesIn (F := F) hostOps0_6 hostOps0_6_W := by
  stretch_writes

theorem hostOps0_7_fresh : NoFresh (F := F) hostOps0_7 := by
  simp only [NoFresh, List.Forall]; repeat' constructor
abbrev hostOps0_7_W : List (Ref sig .tc) := [main_call3_v0, main_call3_v1, main_v29]
theorem hostOps0_7_writes : WritesIn (F := F) hostOps0_7 hostOps0_7_W := by
  stretch_writes

theorem hostOps0_8_fresh : NoFresh (F := F) hostOps0_8 := by
  simp only [NoFresh, List.Forall]; repeat' constructor
abbrev hostOps0_8_W : List (Ref sig .tc) :=
  [main_cst_11, main_v30, main_v31, main_cst_12, main_v32, main_v33, main_v34, main_v35, main_v36, main_v37, main_cst_13,
   main_v38, main_cst_14, main_v39, main_v40, main_v41, main_cst_15]
theorem hostOps0_8_writes : WritesIn (F := F) hostOps0_8 hostOps0_8_W := by
  stretch_writes

theorem hostOps0_9_fresh : NoFresh (F := F) hostOps0_9 := by
  simp only [NoFresh, List.Forall]; repeat' constructor
abbrev hostOps0_9_W : List (Ref sig .tc) := [main_call4_v0, main_call4_v1, main_v42]
theorem hostOps0_9_writes : WritesIn (F := F) hostOps0_9 hostOps0_9_W := by
  stretch_writes

theorem hostOps0_10_fresh : NoFresh (F := F) hostOps0_10 := by
  simp only [NoFresh, List.Forall]; repeat' constructor
abbrev hostOps0_10_W : List (Ref sig .tc) := [main_cst_16, main_v43, main_v44, main_v45, main_cst_17]
theorem hostOps0_10_writes : WritesIn (F := F) hostOps0_10 hostOps0_10_W := by
  stretch_writes

theorem hostOps0_11_fresh : NoFresh (F := F) hostOps0_11 := by
  simp only [NoFresh, List.Forall]; repeat' constructor
abbrev hostOps0_11_W : List (Ref sig .tc) := [main_call5_v0, main_call5_v1, main_v46]
theorem hostOps0_11_writes : WritesIn (F := F) hostOps0_11 hostOps0_11_W := by
  stretch_writes

theorem hostOps0_12_fresh : NoFresh (F := F) hostOps0_12 := by
  simp only [NoFresh, List.Forall]; repeat' constructor
abbrev hostOps0_12_W : List (Ref sig .tc) :=
  [main_cst_18, main_v47, main_v48, main_cst_19, main_v49, main_v50, main_v51, main_v52, main_v53, main_v54, main_v55,
   main_v56, main_v57, main_v58, main_v59, main_v60, main_v61]
theorem hostOps0_12_writes : WritesIn (F := F) hostOps0_12 hostOps0_12_W := by
  stretch_writes

set_option maxHeartbeats 40000000 in
theorem hostOps1_fresh : NoFresh (F := F) hostOps1 := by
  simp only [NoFresh, List.Forall]; repeat' constructor
abbrev hostOps1_W : List (Ref sig .tc) :=
  [main_cst_20, main_v63, main_v64, main_v65, main_v66, main_v67, main_v68, main_c, main_v69, main_v70, main_c_21,
   main_v71, main_v72, main_v73, main_v74, main_v75, main_cst_22, main_v76, main_v77, main_v78, main_v79, main_v80,
   main_v81, main_v82, main_v83, main_v84, main_v85, main_v86, main_v87, main_v88, main_v89, main_v90, main_v91,
   main_v92, main_c_23, main_v93, main_v94, main_c_24, main_v95, main_v96, main_v97, main_v98, main_v99, main_cst_25,
   main_v100, main_v101, main_v102, main_v103, main_v104, main_v105, main_v106, main_v107, main_v108, main_v109,
   main_v110, main_v111, main_v112, main_v113, main_v114, main_v115, main_v116, main_c_26, main_v117, main_v118,
   main_c_27, main_v119, main_v120, main_v121, main_v122, main_v123, main_cst_28, main_v124, main_v125, main_v126,
   main_v127, main_v128, main_v129, main_v130, main_v131, main_v132, main_v133, main_v134, main_v135, main_v136]
set_option maxHeartbeats 40000000 in
theorem hostOps1_writes : WritesIn (F := F) hostOps1 hostOps1_W := by
  stretch_writes

theorem hostOps2_fresh : NoFresh (F := F) hostOps2 := by
  simp only [NoFresh, List.Forall]; repeat' constructor
abbrev hostOps2_W : List (Ref sig .tc) :=
  [main_v138, main_cst_29, main_v139, main_v140, main_v141, main_cst_30, main_v142, main_v143, main_v144, main_v145,
   main_v146, main_v147, main_v148, main_v149]
theorem hostOps2_writes : WritesIn (F := F) hostOps2 hostOps2_W := by
  stretch_writes

theorem hostOps3_fresh : NoFresh (F := F) hostOps3 := by
  simp only [NoFresh, List.Forall]; repeat' constructor
abbrev hostOps3_W : List (Ref sig .tc) := [main_v151, main_v152, main_v153, main_v154, main_v155, main_v156, main_v157]
theorem hostOps3_writes : WritesIn (F := F) hostOps3 hostOps3_W := by
  stretch_writes

set_option maxHeartbeats 40000000 in
theorem hostOps4_fresh : NoFresh (F := F) hostOps4 := by
  simp only [NoFresh, List.Forall]; repeat' constructor
abbrev hostOps4_W : List (Ref sig .tc) :=
  [main_cst_31, main_v159, main_v160, main_v161, main_v162, main_v163, main_v164, main_c_32, main_v165, main_v166,
   main_c_33, main_v167, main_v168, main_v169, main_v170, main_v171, main_cst_34, main_v172, main_v173, main_v174,
   main_v175, main_v176, main_v177, main_v178, main_v179, main_v180, main_v181, main_v182, main_v183, main_v184,
   main_v185, main_v186, main_v187, main_v188, main_c_35, main_v189, main_v190, main_c_36, main_v191, main_v192,
   main_v193, main_v194, main_v195, main_cst_37, main_v196, main_v197, main_v198, main_v199, main_v200, main_v201,
   main_v202, main_v203, main_v204, main_v205, main_v206, main_v207, main_v208, main_v209, main_v210, main_v211,
   main_v212, main_c_38, main_v213, main_v214, main_c_39, main_v215, main_v216, main_v217, main_v218, main_v219,
   main_cst_40, main_v220, main_v221, main_v222, main_v223, main_v224, main_v225, main_v226, main_v227, main_v228,
   main_v229, main_v230, main_v231, main_v232]
set_option maxHeartbeats 40000000 in
theorem hostOps4_writes : WritesIn (F := F) hostOps4 hostOps4_W := by
  stretch_writes

theorem hostOps5_fresh : NoFresh (F := F) hostOps5 := by
  simp only [NoFresh, List.Forall]; repeat' constructor
abbrev hostOps5_W : List (Ref sig .tc) :=
  [main_v234, main_cst_41, main_v235, main_v236, main_v237, main_cst_42, main_v238, main_v239, main_v240, main_v241,
   main_v242, main_v243, main_v244, main_v245]
theorem hostOps5_writes : WritesIn (F := F) hostOps5 hostOps5_W := by
  stretch_writes

abbrev W0 : Dev nD → Valuation τ sig (Elt F) := fun c b => (s₀ m ρ).mem ((c : Dev nD), b)

abbrev W1 : Dev nD → Valuation τ sig (Elt F) := fun c => StableHlo.after hostOps0 (W0 m ρ c)
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

abbrev W2 : Dev nD → Valuation τ sig (Elt F) := fun c => StableHlo.after hostOps0_1 (W1 m ρ c)
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

abbrev W3 : Dev nD → Valuation τ sig (Elt F) := fun c => StableHlo.after hostOps0_2 (W2 m ρ c)
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

abbrev W4 : Dev nD → Valuation τ sig (Elt F) := fun c => StableHlo.after hostOps0_3 (W3 m ρ c)
theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h

abbrev W5 : Dev nD → Valuation τ sig (Elt F) := fun c => StableHlo.after hostOps0_4 (W4 m ρ c)
theorem W5_of (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h

abbrev W6 : Dev nD → Valuation τ sig (Elt F) := fun c => StableHlo.after hostOps0_5 (W5 m ρ c)
theorem W6_of (c : Dev nD) (r : Ref sig .tc) (h : r ∉ hostOps0_5_W) :
    W6 m ρ c (Proc.devRef .tc r) = W5 m ρ c (Proc.devRef .tc r) :=
  StableHlo.after_of_writes_sub hostOps0_5 _ hostOps0_5_writes h

abbrev W7 : Dev nD → Valuation τ sig (Elt F) := fun c => StableHlo.after hostOps0_6 (W6 m ρ c)
theorem W7_of (c : Dev nD) (r : Ref sig .tc) (h : r ∉ hostOps0_6_W) :
    W7 m ρ c (Proc.devRef .tc r) = W6 m ρ c (Proc.devRef .tc r) :=
  StableHlo.after_of_writes_sub hostOps0_6 _ hostOps0_6_writes h

abbrev W8 : Dev nD → Valuation τ sig (Elt F) := fun c => StableHlo.after hostOps0_7 (W7 m ρ c)
theorem W8_of (c : Dev nD) (r : Ref sig .tc) (h : r ∉ hostOps0_7_W) :
    W8 m ρ c (Proc.devRef .tc r) = W7 m ρ c (Proc.devRef .tc r) :=
  StableHlo.after_of_writes_sub hostOps0_7 _ hostOps0_7_writes h

abbrev W9 : Dev nD → Valuation τ sig (Elt F) := fun c => StableHlo.after hostOps0_8 (W8 m ρ c)
theorem W9_of (c : Dev nD) (r : Ref sig .tc) (h : r ∉ hostOps0_8_W) :
    W9 m ρ c (Proc.devRef .tc r) = W8 m ρ c (Proc.devRef .tc r) :=
  StableHlo.after_of_writes_sub hostOps0_8 _ hostOps0_8_writes h

abbrev W10 : Dev nD → Valuation τ sig (Elt F) := fun c => StableHlo.after hostOps0_9 (W9 m ρ c)
theorem W10_of (c : Dev nD) (r : Ref sig .tc) (h : r ∉ hostOps0_9_W) :
    W10 m ρ c (Proc.devRef .tc r) = W9 m ρ c (Proc.devRef .tc r) :=
  StableHlo.after_of_writes_sub hostOps0_9 _ hostOps0_9_writes h

abbrev W11 : Dev nD → Valuation τ sig (Elt F) := fun c => StableHlo.after hostOps0_10 (W10 m ρ c)
theorem W11_of (c : Dev nD) (r : Ref sig .tc) (h : r ∉ hostOps0_10_W) :
    W11 m ρ c (Proc.devRef .tc r) = W10 m ρ c (Proc.devRef .tc r) :=
  StableHlo.after_of_writes_sub hostOps0_10 _ hostOps0_10_writes h

abbrev W12 : Dev nD → Valuation τ sig (Elt F) := fun c => StableHlo.after hostOps0_11 (W11 m ρ c)
theorem W12_of (c : Dev nD) (r : Ref sig .tc) (h : r ∉ hostOps0_11_W) :
    W12 m ρ c (Proc.devRef .tc r) = W11 m ρ c (Proc.devRef .tc r) :=
  StableHlo.after_of_writes_sub hostOps0_11 _ hostOps0_11_writes h

abbrev W13 : Dev nD → Valuation τ sig (Elt F) := fun c => StableHlo.after hostOps0_12 (W12 m ρ c)
theorem W13_of (c : Dev nD) (r : Ref sig .tc) (h : r ∉ hostOps0_12_W) :
    W13 m ρ c (Proc.devRef .tc r) = W12 m ρ c (Proc.devRef .tc r) :=
  StableHlo.after_of_writes_sub hostOps0_12 _ hostOps0_12_writes h

abbrev V13 : (c : Dev nD) → (b : Ref sig .tc) → Buf (Elt F) ((c : Thread nD τ).loc b) := fun c b => W13 m ρ c b

/-- A valuation updated at a family of arrays keeps what it held at a reference that is none of them, or one whose new value is the old. -/
theorem withArrays_kept {gr Wn : ℕ} (win : Fin Wn → Pipeline.WinSpec sig gr) (hinj : Function.Injective (Pipeline.arrRef win))
    (c : Dev nD) (W : Valuation τ sig (Elt F)) (A : (w : Fin Wn) → Buf (Elt F) ((win w).arr.view.loc (c.tc : Thread nD τ)))
    (r : Ref sig .tc) (h : ∀ w, Pipeline.arrRef win w = r → A w = W (Proc.devRef .tc (Pipeline.arrRef win w))) :
    Pipeline.withArrays win c W A (Proc.devRef .tc r) = W (Proc.devRef .tc r) := by
  by_cases hr : ∃ w, Pipeline.arrRef win w = r
  · obtain ⟨w, rfl⟩ := hr; exact (Pipeline.withArrays_arr win hinj c W A w).trans (h w rfl)
  · exact Pipeline.withArrays_of_ne win c W A r fun w e => hr ⟨w, e⟩

def W14 (c : Dev nD) : Valuation τ sig (Elt F) :=
  Pipeline.withArrays spec0 c (W13 m ρ c) fun w => (dat0 (V13 m ρ) c).arrAt w cfg0.N
theorem W14_arr (c : Dev nD) (w : Fin cfg0.W) :
    W14 m ρ c (Proc.devRef .tc (Pipeline.arrRef spec0 w)) = (dat0 (V13 m ρ) c).arrAt w cfg0.N := by
  unfold W14; exact Pipeline.withArrays_arr spec0 launch0.win.arr_inj c _ _ w
theorem W14_of (c : Dev nD) (r : Ref sig .tc) (h : ∀ w : Fin cfg0.W, Pipeline.arrRef spec0 w = r → (cfg0.win w).isOut = false) :
    W14 m ρ c (Proc.devRef .tc r) = W13 m ρ c (Proc.devRef .tc r) := by
  unfold W14; exact withArrays_kept spec0 launch0.win.arr_inj c _ _ r fun w e =>
    ((dat0 (V13 m ρ) c).arrAt_in w (h w e) _).trans (A_eq0 (V13 m ρ) c w)
abbrev V14 : (c : Dev nD) → (b : Ref sig .tc) → Buf (Elt F) ((c : Thread nD τ).loc b) := fun c b => W14 m ρ c b
theorem hF0 (c : Dev nD) (w : Fin cfg0.W) : (dat0 (V13 m ρ) c).arrAt w cfg0.N = V14 m ρ c (Pipeline.arrRef spec0 w) :=
  (W14_arr m ρ c w).symm
theorem hrest0 (c : Dev nD) : ∀ b, b ∉ Finset.univ.image (Pipeline.arrRef spec0) → V14 m ρ c b = V13 m ρ c b :=
  fun b hb => W14_of m ρ c b fun w e => absurd (Finset.mem_image.mpr ⟨w, Finset.mem_univ _, e⟩) hb

abbrev W15 : Dev nD → Valuation τ sig (Elt F) := fun c => StableHlo.after hostOps1 (W14 m ρ c)
theorem W15_of (c : Dev nD) (r : Ref sig .tc) (h : r ∉ hostOps1_W) :
    W15 m ρ c (Proc.devRef .tc r) = W14 m ρ c (Proc.devRef .tc r) :=
  StableHlo.after_of_writes_sub hostOps1 _ hostOps1_writes h
abbrev V15 : (c : Dev nD) → (b : Ref sig .tc) → Buf (Elt F) ((c : Thread nD τ).loc b) := fun c b => W15 m ρ c b

def W16 (c : Dev nD) : Valuation τ sig (Elt F) :=
  Pipeline.withArrays spec1 c (W15 m ρ c) fun w => (dat1 (V15 m ρ) c).arrAt w cfg1.N
theorem W16_arr (c : Dev nD) (w : Fin cfg1.W) :
    W16 m ρ c (Proc.devRef .tc (Pipeline.arrRef spec1 w)) = (dat1 (V15 m ρ) c).arrAt w cfg1.N := by
  unfold W16; exact Pipeline.withArrays_arr spec1 launch1.win.arr_inj c _ _ w
theorem W16_of (c : Dev nD) (r : Ref sig .tc) (h : ∀ w : Fin cfg1.W, Pipeline.arrRef spec1 w = r → (cfg1.win w).isOut = false) :
    W16 m ρ c (Proc.devRef .tc r) = W15 m ρ c (Proc.devRef .tc r) := by
  unfold W16; exact withArrays_kept spec1 launch1.win.arr_inj c _ _ r fun w e =>
    ((dat1 (V15 m ρ) c).arrAt_in w (h w e) _).trans (A_eq1 (V15 m ρ) c w)
abbrev V16 : (c : Dev nD) → (b : Ref sig .tc) → Buf (Elt F) ((c : Thread nD τ).loc b) := fun c b => W16 m ρ c b
theorem hF1 (c : Dev nD) (w : Fin cfg1.W) : (dat1 (V15 m ρ) c).arrAt w cfg1.N = V16 m ρ c (Pipeline.arrRef spec1 w) :=
  (W16_arr m ρ c w).symm
theorem hrest1 (c : Dev nD) : ∀ b, b ∉ Finset.univ.image (Pipeline.arrRef spec1) → V16 m ρ c b = V15 m ρ c b :=
  fun b hb => W16_of m ρ c b fun w e => absurd (Finset.mem_image.mpr ⟨w, Finset.mem_univ _, e⟩) hb

abbrev W17 : Dev nD → Valuation τ sig (Elt F) := fun c => StableHlo.after hostOps2 (W16 m ρ c)
theorem W17_of (c : Dev nD) (r : Ref sig .tc) (h : r ∉ hostOps2_W) :
    W17 m ρ c (Proc.devRef .tc r) = W16 m ρ c (Proc.devRef .tc r) :=
  StableHlo.after_of_writes_sub hostOps2 _ hostOps2_writes h
abbrev V17 : (c : Dev nD) → (b : Ref sig .tc) → Buf (Elt F) ((c : Thread nD τ).loc b) := fun c b => W17 m ρ c b

def W18 (c : Dev nD) : Valuation τ sig (Elt F) :=
  Pipeline.withArrays spec2 c (W17 m ρ c) fun w => (dat2 (V17 m ρ) c).arrAt w cfg2.N
theorem W18_arr (c : Dev nD) (w : Fin cfg2.W) :
    W18 m ρ c (Proc.devRef .tc (Pipeline.arrRef spec2 w)) = (dat2 (V17 m ρ) c).arrAt w cfg2.N := by
  unfold W18; exact Pipeline.withArrays_arr spec2 launch2.win.arr_inj c _ _ w
theorem W18_of (c : Dev nD) (r : Ref sig .tc) (h : ∀ w : Fin cfg2.W, Pipeline.arrRef spec2 w = r → (cfg2.win w).isOut = false) :
    W18 m ρ c (Proc.devRef .tc r) = W17 m ρ c (Proc.devRef .tc r) := by
  unfold W18; exact withArrays_kept spec2 launch2.win.arr_inj c _ _ r fun w e =>
    ((dat2 (V17 m ρ) c).arrAt_in w (h w e) _).trans (A_eq2 (V17 m ρ) c w)
abbrev V18 : (c : Dev nD) → (b : Ref sig .tc) → Buf (Elt F) ((c : Thread nD τ).loc b) := fun c b => W18 m ρ c b
theorem hF2 (c : Dev nD) (w : Fin cfg2.W) : (dat2 (V17 m ρ) c).arrAt w cfg2.N = V18 m ρ c (Pipeline.arrRef spec2 w) :=
  (W18_arr m ρ c w).symm
theorem hrest2 (c : Dev nD) : ∀ b, b ∉ Finset.univ.image (Pipeline.arrRef spec2) → V18 m ρ c b = V17 m ρ c b :=
  fun b hb => W18_of m ρ c b fun w e => absurd (Finset.mem_image.mpr ⟨w, Finset.mem_univ _, e⟩) hb

abbrev W19 : Dev nD → Valuation τ sig (Elt F) := fun c => StableHlo.after hostOps3 (W18 m ρ c)
theorem W19_of (c : Dev nD) (r : Ref sig .tc) (h : r ∉ hostOps3_W) :
    W19 m ρ c (Proc.devRef .tc r) = W18 m ρ c (Proc.devRef .tc r) :=
  StableHlo.after_of_writes_sub hostOps3 _ hostOps3_writes h
abbrev V19 : (c : Dev nD) → (b : Ref sig .tc) → Buf (Elt F) ((c : Thread nD τ).loc b) := fun c b => W19 m ρ c b

def W20 (c : Dev nD) : Valuation τ sig (Elt F) :=
  Pipeline.withArrays spec3 c (W19 m ρ c) fun w => (dat3 (V19 m ρ) c).arrAt w cfg3.N
theorem W20_arr (c : Dev nD) (w : Fin cfg3.W) :
    W20 m ρ c (Proc.devRef .tc (Pipeline.arrRef spec3 w)) = (dat3 (V19 m ρ) c).arrAt w cfg3.N := by
  unfold W20; exact Pipeline.withArrays_arr spec3 launch3.win.arr_inj c _ _ w
theorem W20_of (c : Dev nD) (r : Ref sig .tc) (h : ∀ w : Fin cfg3.W, Pipeline.arrRef spec3 w = r → (cfg3.win w).isOut = false) :
    W20 m ρ c (Proc.devRef .tc r) = W19 m ρ c (Proc.devRef .tc r) := by
  unfold W20; exact withArrays_kept spec3 launch3.win.arr_inj c _ _ r fun w e =>
    ((dat3 (V19 m ρ) c).arrAt_in w (h w e) _).trans (A_eq3 (V19 m ρ) c w)
abbrev V20 : (c : Dev nD) → (b : Ref sig .tc) → Buf (Elt F) ((c : Thread nD τ).loc b) := fun c b => W20 m ρ c b
theorem hF3 (c : Dev nD) (w : Fin cfg3.W) : (dat3 (V19 m ρ) c).arrAt w cfg3.N = V20 m ρ c (Pipeline.arrRef spec3 w) :=
  (W20_arr m ρ c w).symm
theorem hrest3 (c : Dev nD) : ∀ b, b ∉ Finset.univ.image (Pipeline.arrRef spec3) → V20 m ρ c b = V19 m ρ c b :=
  fun b hb => W20_of m ρ c b fun w e => absurd (Finset.mem_image.mpr ⟨w, Finset.mem_univ _, e⟩) hb

abbrev W21 : Dev nD → Valuation τ sig (Elt F) := fun c => StableHlo.after hostOps4 (W20 m ρ c)
theorem W21_of (c : Dev nD) (r : Ref sig .tc) (h : r ∉ hostOps4_W) :
    W21 m ρ c (Proc.devRef .tc r) = W20 m ρ c (Proc.devRef .tc r) :=
  StableHlo.after_of_writes_sub hostOps4 _ hostOps4_writes h
abbrev V21 : (c : Dev nD) → (b : Ref sig .tc) → Buf (Elt F) ((c : Thread nD τ).loc b) := fun c b => W21 m ρ c b

def W22 (c : Dev nD) : Valuation τ sig (Elt F) :=
  Pipeline.withArrays spec4 c (W21 m ρ c) fun w => (dat4 (V21 m ρ) c).arrAt w cfg4.N
theorem W22_arr (c : Dev nD) (w : Fin cfg4.W) :
    W22 m ρ c (Proc.devRef .tc (Pipeline.arrRef spec4 w)) = (dat4 (V21 m ρ) c).arrAt w cfg4.N := by
  unfold W22; exact Pipeline.withArrays_arr spec4 launch4.win.arr_inj c _ _ w
theorem W22_of (c : Dev nD) (r : Ref sig .tc) (h : ∀ w : Fin cfg4.W, Pipeline.arrRef spec4 w = r → (cfg4.win w).isOut = false) :
    W22 m ρ c (Proc.devRef .tc r) = W21 m ρ c (Proc.devRef .tc r) := by
  unfold W22; exact withArrays_kept spec4 launch4.win.arr_inj c _ _ r fun w e =>
    ((dat4 (V21 m ρ) c).arrAt_in w (h w e) _).trans (A_eq4 (V21 m ρ) c w)
abbrev V22 : (c : Dev nD) → (b : Ref sig .tc) → Buf (Elt F) ((c : Thread nD τ).loc b) := fun c b => W22 m ρ c b
theorem hF4 (c : Dev nD) (w : Fin cfg4.W) : (dat4 (V21 m ρ) c).arrAt w cfg4.N = V22 m ρ c (Pipeline.arrRef spec4 w) :=
  (W22_arr m ρ c w).symm
theorem hrest4 (c : Dev nD) : ∀ b, b ∉ Finset.univ.image (Pipeline.arrRef spec4) → V22 m ρ c b = V21 m ρ c b :=
  fun b hb => W22_of m ρ c b fun w e => absurd (Finset.mem_image.mpr ⟨w, Finset.mem_univ _, e⟩) hb

abbrev W23 : Dev nD → Valuation τ sig (Elt F) := fun c => StableHlo.after hostOps5 (W22 m ρ c)
theorem W23_of (c : Dev nD) (r : Ref sig .tc) (h : r ∉ hostOps5_W) :
    W23 m ρ c (Proc.devRef .tc r) = W22 m ρ c (Proc.devRef .tc r) :=
  StableHlo.after_of_writes_sub hostOps5 _ hostOps5_writes h
abbrev V23 : (c : Dev nD) → (b : Ref sig .tc) → Buf (Elt F) ((c : Thread nD τ).loc b) := fun c b => W23 m ρ c b

def W24 (c : Dev nD) : Valuation τ sig (Elt F) :=
  Pipeline.withArrays spec5 c (W23 m ρ c) fun w => (dat5 (V23 m ρ) c).arrAt w cfg5.N
theorem W24_arr (c : Dev nD) (w : Fin cfg5.W) :
    W24 m ρ c (Proc.devRef .tc (Pipeline.arrRef spec5 w)) = (dat5 (V23 m ρ) c).arrAt w cfg5.N := by
  unfold W24; exact Pipeline.withArrays_arr spec5 launch5.win.arr_inj c _ _ w
theorem W24_of (c : Dev nD) (r : Ref sig .tc) (h : ∀ w : Fin cfg5.W, Pipeline.arrRef spec5 w = r → (cfg5.win w).isOut = false) :
    W24 m ρ c (Proc.devRef .tc r) = W23 m ρ c (Proc.devRef .tc r) := by
  unfold W24; exact withArrays_kept spec5 launch5.win.arr_inj c _ _ r fun w e =>
    ((dat5 (V23 m ρ) c).arrAt_in w (h w e) _).trans (A_eq5 (V23 m ρ) c w)
abbrev V24 : (c : Dev nD) → (b : Ref sig .tc) → Buf (Elt F) ((c : Thread nD τ).loc b) := fun c b => W24 m ρ c b
theorem hF5 (c : Dev nD) (w : Fin cfg5.W) : (dat5 (V23 m ρ) c).arrAt w cfg5.N = V24 m ρ c (Pipeline.arrRef spec5 w) :=
  (W24_arr m ρ c w).symm
theorem hrest5 (c : Dev nD) : ∀ b, b ∉ Finset.univ.image (Pipeline.arrRef spec5) → V24 m ρ c b = V23 m ρ c b :=
  fun b hb => W24_of m ρ c b fun w e => absurd (Finset.mem_image.mpr ⟨w, Finset.mem_univ _, e⟩) hb

/-- No host stretch of @main has `r` among its results. -/
abbrev NoStretchWrites (r : Ref sig .tc) : Prop :=
  r ∉ hostOps0_W ∧ r ∉ hostOps0_1_W ∧ r ∉ hostOps0_2_W ∧ r ∉ hostOps0_3_W ∧ r ∉ hostOps0_4_W ∧ r ∉ hostOps0_5_W ∧ r ∉ hostOps0_6_W ∧ r ∉ hostOps0_7_W ∧ r ∉ hostOps0_8_W ∧ r ∉ hostOps0_9_W ∧ r ∉ hostOps0_10_W ∧ r ∉ hostOps0_11_W ∧ r ∉ hostOps0_12_W ∧ r ∉ hostOps1_W ∧ r ∉ hostOps2_W ∧ r ∉ hostOps3_W ∧ r ∉ hostOps4_W ∧ r ∉ hostOps5_W

/-- No kernel region of @main has `r` as an output window's array. -/
abbrev NoRegionWrites (r : Ref sig .tc) : Prop :=
  (∀ w : Fin cfg0.W, Pipeline.arrRef spec0 w = r → (cfg0.win w).isOut = false) ∧ (∀ w : Fin cfg1.W, Pipeline.arrRef spec1 w = r → (cfg1.win w).isOut = false) ∧ (∀ w : Fin cfg2.W, Pipeline.arrRef spec2 w = r → (cfg2.win w).isOut = false) ∧ (∀ w : Fin cfg3.W, Pipeline.arrRef spec3 w = r → (cfg3.win w).isOut = false) ∧ (∀ w : Fin cfg4.W, Pipeline.arrRef spec4 w = r → (cfg4.win w).isOut = false) ∧ (∀ w : Fin cfg5.W, Pipeline.arrRef spec5 w = r → (cfg5.win w).isOut = false)

/-- A reference no item writes holds at the last boundary what the launch memory holds. -/
theorem W24_of_launch (c : Dev nD) (r : Ref sig .tc) (hh : NoStretchWrites r) (hr : NoRegionWrites r) :
    W24 m ρ c (Proc.devRef .tc r) = m ((c : Thread nD τ).loc r) := by
  obtain ⟨h1, h2, h3, h4, h5, h6, h7, h8, h9, h10, h11, h12, h13, h15, h17, h19, h21, h23⟩ := hh
  obtain ⟨h14, h16, h18, h20, h22, h24⟩ := hr
  exact (W24_of m ρ c r h24).trans <| (W23_of m ρ c r h23).trans <| (W22_of m ρ c r h22).trans <| (W21_of m ρ c r h21).trans <| (W20_of m ρ c r h20).trans <| (W19_of m ρ c r h19).trans <| (W18_of m ρ c r h18).trans <| (W17_of m ρ c r h17).trans <| (W16_of m ρ c r h16).trans <| (W15_of m ρ c r h15).trans <| (W14_of m ρ c r h14).trans <| (W13_of m ρ c r h13).trans <| (W12_of m ρ c r h12).trans <| (W11_of m ρ c r h11).trans <| (W10_of m ρ c r h10).trans <| (W9_of m ρ c r h9).trans <| (W8_of m ρ c r h8).trans <| (W7_of m ρ c r h7).trans <| (W6_of m ρ c r h6).trans <| (W5_of m ρ c r h5).trans <| (W4_of m ρ c r h4).trans <| (W3_of m ρ c r h3).trans <| (W2_of m ρ c r h2).trans <| (W1_of m ρ c r h1).trans rfl

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => dat0 (V13 m ρ) c
  | ⟨1, _⟩ => fun c => dat1 (V15 m ρ) c
  | ⟨2, _⟩ => fun c => dat2 (V17 m ρ) c
  | ⟨3, _⟩ => fun c => dat3 (V19 m ρ) c
  | ⟨4, _⟩ => fun c => dat4 (V21 m ρ) c
  | ⟨5, _⟩ => fun c => dat5 (V23 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W24 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V13 m ρ) c).loose
  hwaits := Pipeline.hwaits_of_owed_zero _ _ _ _ L lv 0 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec0 c (V13 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V13 m ρ c) (V14 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V15 m ρ) c).loose
  hwaits := Pipeline.hwaits_of_owed_zero _ _ _ _ L lv 1 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec1 c (V15 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V15 m ρ c) (V16 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V17 m ρ) c).loose
  hwaits := Pipeline.hwaits_of_owed_zero _ _ _ _ L lv 2 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec2 c (V17 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V17 m ρ c) (V18 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V19 m ρ) c).loose
  hwaits := Pipeline.hwaits_of_owed_zero _ _ _ _ L lv 3 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec3 c (V19 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V19 m ρ c) (V20 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V21 m ρ) c).loose
  hwaits := Pipeline.hwaits_of_owed_zero _ _ _ _ L lv 4 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec4 c (V21 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V21 m ρ c) (V22 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V23 m ρ) c).loose
  hwaits := Pipeline.hwaits_of_owed_zero _ _ _ _ L lv 5 fun _ _ => rfl
  pre c := iprop(StableHlo.held (c : Thread nD τ) (Pipeline.ucRefs τ sig) (W23 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V23 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V23 m ρ c) (V24 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .region (reg0 m ρ),
    .host (hseg hostOps1 hostOps1_sub hostOps1_fresh (W14 m ρ)),
    .region (reg1 m ρ),
    .host (hseg hostOps2 hostOps2_sub hostOps2_fresh (W16 m ρ)),
    .region (reg2 m ρ),
    .host (hseg hostOps3 hostOps3_sub hostOps3_fresh (W18 m ρ)),
    .region (reg3 m ρ),
    .host (hseg hostOps4 hostOps4_sub hostOps4_fresh (W20 m ρ)),
    .region (reg4 m ρ),
    .host (hseg hostOps5 hostOps5_sub hostOps5_fresh (W22 m ρ)),
    .region (reg5 m ρ) ]

theorem main_run (c : Dev nD) : main (F := F) c = Pipeline.Seg.run (segs m ρ) := (main_chain c).trans (by chain_rfl)

set_option backward.isDefEq.respectTransparency.types false in

theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W24 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := hQ)

theorem run_all : θ_run defs (onTc (τ := τ) (main (F := F))) ⟨m, fun _ => 0, ρ⟩ (fun r => ∀ c : Dev nD,
      ∀ b ∈ Pipeline.ucRefs τ sig, r.2.mem (((c : Thread nD τ)).1, b) = W24 m ρ c b) :=
  run_of m ρ fun _ h => h

/-- The sixteen argument arrays hold in `s`, on core `c`, what the launch memory holds. -/
abbrev ArgsKept (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13)
    ∧ s.mem ((c.tc : Thread nD τ).loc main_arg14) = m ((c.tc : Thread nD τ).loc main_arg14)
    ∧ s.mem ((c.tc : Thread nD τ).loc main_arg15) = m ((c.tc : Thread nD τ).loc main_arg15)

/-- An unscoped reference no item writes ends as launched: the last boundary's contents of it are the launch memory's. -/
theorem arg_kept (c : Dev nD) (s : MemSt nD τ sig (Elt F))
    (h : ∀ b ∈ Pipeline.ucRefs τ sig, s.mem (((c : Thread nD τ)).1, b) = W24 m ρ c b) (r : Ref sig .tc)
    (hs : ¬ (Proc.devRef .tc r : DevRef τ sig).isScoped) (hh : NoStretchWrites r) (hr : NoRegionWrites r) :
    s.mem ((c.tc : Thread nD τ).loc r) = m ((c.tc : Thread nD τ).loc r) :=
  (h _ (mem_uc r hs)).trans (W24_of_launch m ρ c r hh hr)

theorem args_kept (c : Dev nD) (s : MemSt nD τ sig (Elt F))
    (h : ∀ b ∈ Pipeline.ucRefs τ sig, s.mem (((c : Thread nD τ)).1, b) = W24 m ρ c b) : ArgsKept m s c :=
  ⟨arg_kept m ρ c s h main_arg0 (by decide) (by decide) (by decide),
   arg_kept m ρ c s h main_arg1 (by decide) (by decide) (by decide),
   arg_kept m ρ c s h main_arg2 (by decide) (by decide) (by decide),
   arg_kept m ρ c s h main_arg3 (by decide) (by decide) (by decide),
   arg_kept m ρ c s h main_arg4 (by decide) (by decide) (by decide),
   arg_kept m ρ c s h main_arg5 (by decide) (by decide) (by decide),
   arg_kept m ρ c s h main_arg6 (by decide) (by decide) (by decide),
   arg_kept m ρ c s h main_arg7 (by decide) (by decide) (by decide),
   arg_kept m ρ c s h main_arg8 (by decide) (by decide) (by decide),
   arg_kept m ρ c s h main_arg9 (by decide) (by decide) (by decide),
   arg_kept m ρ c s h main_arg10 (by decide) (by decide) (by decide),
   arg_kept m ρ c s h main_arg11 (by decide) (by decide) (by decide),
   arg_kept m ρ c s h main_arg12 (by decide) (by decide) (by decide),
   arg_kept m ρ c s h main_arg13 (by decide) (by decide) (by decide),
   arg_kept m ρ c s h main_arg14 (by decide) (by decide) (by decide),
   arg_kept m ρ c s h main_arg15 (by decide) (by decide) (by decide)⟩

/-- Every execution terminates, nothing faulting, and every final memory has the sixteen argument arrays as launched. -/
theorem frame : θ_run defs (onTc (τ := τ) (main (F := F))) ⟨m, fun _ => 0, ρ⟩ (fun r => ∀ c : Dev nD, ArgsKept m r.2 c) :=
  run_of m ρ fun s h c => args_kept m ρ c s (h c)

end Cert.KernelIdeal.Hand

end
-- ==== Proof.RefRead.lean ====
import proofs.«175263_j29738353557973_1_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S100000x1280, .f32⟩ : BufTy).Contents (Elt F)) (x1 : (⟨S2x200000, .i32⟩ : BufTy).Contents (Elt F)) (x2 : (⟨S2x1000000, .i32⟩ : BufTy).Contents (Elt F)) (x3 : (⟨S2x1600000, .i32⟩ : BufTy).Contents (Elt F)) (x4 : (⟨S3x1280x128, .f32⟩ : BufTy).Contents (Elt F)) (x5 : (⟨S3x128, .f32⟩ : BufTy).Contents (Elt F)) (x6 : (⟨S128x128, .f32⟩ : BufTy).Contents (Elt F)) (x7 : (⟨S128, .f32⟩ : BufTy).Contents (Elt F)) (x8 : (⟨S128, .f32⟩ : BufTy).Contents (Elt F)) (x9 : (⟨S128, .f32⟩ : BufTy).Contents (Elt F)) (x10 : (⟨S3x128x128, .f32⟩ : BufTy).Contents (Elt F)) (x11 : (⟨S3x128, .f32⟩ : BufTy).Contents (Elt F)) (x12 : (⟨S128x128, .f32⟩ : BufTy).Contents (Elt F)) (x13 : (⟨S128, .f32⟩ : BufTy).Contents (Elt F)) (x14 : (⟨S128, .f32⟩ : BufTy).Contents (Elt F)) (x15 : (⟨S128, .f32⟩ : BufTy).Contents (Elt F))
variable (z0 : (⟨S100000x1280, .f32⟩ : BufTy).Contents (Elt Ideal)) (z1 : (⟨S2x200000, .i32⟩ : BufTy).Contents (Elt Ideal)) (z2 : (⟨S2x1000000, .i32⟩ : BufTy).Contents (Elt Ideal)) (z3 : (⟨S2x1600000, .i32⟩ : BufTy).Contents (Elt Ideal)) (z4 : (⟨S3x1280x128, .f32⟩ : BufTy).Contents (Elt Ideal)) (z5 : (⟨S3x128, .f32⟩ : BufTy).Contents (Elt Ideal)) (z6 : (⟨S128x128, .f32⟩ : BufTy).Contents (Elt Ideal)) (z7 : (⟨S128, .f32⟩ : BufTy).Contents (Elt Ideal)) (z8 : (⟨S128, .f32⟩ : BufTy).Contents (Elt Ideal)) (z9 : (⟨S128, .f32⟩ : BufTy).Contents (Elt Ideal)) (z10 : (⟨S3x128x128, .f32⟩ : BufTy).Contents (Elt Ideal)) (z11 : (⟨S3x128, .f32⟩ : BufTy).Contents (Elt Ideal)) (z12 : (⟨S128x128, .f32⟩ : BufTy).Contents (Elt Ideal)) (z13 : (⟨S128, .f32⟩ : BufTy).Contents (Elt Ideal)) (z14 : (⟨S128, .f32⟩ : BufTy).Contents (Elt Ideal)) (z15 : (⟨S128, .f32⟩ : BufTy).Contents (Elt Ideal))

def val_main_v0 : (⟨S1x200000, .i32⟩ : BufTy).Contents (Elt F) :=
  extractStridedSlice S1x200000 ![0, 0] (x1) slices_S2x200000_S1x200000_0_0

def val_main_v1 : (⟨S200000, .i32⟩ : BufTy).Contents (Elt F) :=
  shapeCast _ (val_main_v0 (F := F) x1) shapeCasts_S1x200000_S200000

def val_main_v2 : (⟨S1x200000, .i32⟩ : BufTy).Contents (Elt F) :=
  extractStridedSlice S1x200000 ![1, 0] (x1) slices_S2x200000_S1x200000_1_0

def val_main_v3 : (⟨S200000, .i32⟩ : BufTy).Contents (Elt F) :=
  shapeCast _ (val_main_v2 (F := F) x1) shapeCasts_S1x200000_S200000

def val_main_v4 : (⟨S1x1280x128, .f32⟩ : BufTy).Contents (Elt F) :=
  extractStridedSlice S1x1280x128 ![0, 0, 0] (x4) slices_S3x1280x128_S1x1280x128_0_0_0
abbrev idx_main_v4 (i : S1x1280x128.Idx) : S3x1280x128.Idx := fun a => match a with
  | ⟨0, _⟩ => ⟨(i 0).val, by have h0 : (i 0).val < 1 := (i 0).isLt; show (i 0).val < 3; omega⟩
  | ⟨1, _⟩ => ⟨(i 1).val, (i 1).isLt⟩
  | ⟨2, _⟩ => ⟨(i 2).val, (i 2).isLt⟩
theorem val_main_v4_apply (i : S1x1280x128.Idx) :
    val_main_v4 (F := F) x4 i = x4 (idx_main_v4 i) := by
  unfold val_main_v4
  exact extractStridedSlice_apply ![0, 0, 0] x4 slices_S3x1280x128_S1x1280x128_0_0_0 i (idx_main_v4 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v5 : (⟨S1280x128, .f32⟩ : BufTy).Contents (Elt F) :=
  shapeCast _ (val_main_v4 (F := F) x4) shapeCasts_S1x1280x128_S1280x128
abbrev idx_shapeCasts_S1x1280x128_S1280x128 (i : S1280x128.Idx) : S1x1280x128.Idx := fun a => match a with
  | ⟨0, _⟩ => ⟨0, Nat.one_pos⟩
  | ⟨1, _⟩ => ⟨((i 0).val * 128 + (i 1).val) / 128 % 1280, by have h0 : (i 0).val < 1280 := (i 0).isLt; have h1 : (i 1).val < 128 := (i 1).isLt; show ((i 0).val * 128 + (i 1).val) / 128 % 1280 < 1280; omega⟩
  | ⟨2, _⟩ => ⟨((i 0).val * 128 + (i 1).val) % 128, by have h0 : (i 0).val < 1280 := (i 0).isLt; have h1 : (i 1).val < 128 := (i 1).isLt; show ((i 0).val * 128 + (i 1).val) % 128 < 128; omega⟩
/-- A reshape read at an index is its operand at the index of the same row-major position. -/
theorem shapeCasts_S1x1280x128_S1280x128_apply (y : (⟨S1x1280x128, .f32⟩ : BufTy).Contents (Elt F)) (i : S1280x128.Idx) :
    (shapeCast _ y shapeCasts_S1x1280x128_S1280x128 : (⟨S1280x128, .f32⟩ : BufTy).Contents (Elt F)) i = y (idx_shapeCasts_S1x1280x128_S1280x128 i) := by
  exact shapeCast_apply y shapeCasts_S1x1280x128_S1280x128 i (idx_shapeCasts_S1x1280x128_S1280x128 i)
    (by rewrite [Shape.rowMajor_val_three, Shape.rowMajor_val_two]; have h0 : (i 0).val < 1280 := (i 0).isLt; have h1 : (i 1).val < 128 := (i 1).isLt; show (0 * 1280 + ((i 0).val * 128 + (i 1).val) / 128 % 1280) * 128 + ((i 0).val * 128 + (i 1).val) % 128 = (i 0).val * 128 + (i 1).val; omega)

theorem val_main_v5_apply (i : S1280x128.Idx) :
    val_main_v5 (F := F) x4 i = val_main_v4 (F := F) x4 (idx_shapeCasts_S1x1280x128_S1280x128 i) := by
  unfold val_main_v5
  exact shapeCasts_S1x1280x128_S1280x128_apply _ i

def val_main_v6 : (⟨S1x128, .f32⟩ : BufTy).Contents (Elt F) :=
  extractStridedSlice S1x128 ![0, 0] (x5) slices_S3x128_S1x128_0_0
abbrev idx_main_v6 (i : S1x128.Idx) : S3x128.Idx := fun a => match a with
  | ⟨0, _⟩ => ⟨(i 0).val, by have h0 : (i 0).val < 1 := (i 0).isLt; show (i 0).val < 3; omega⟩
  | ⟨1, _⟩ => ⟨(i 1).val, (i 1).isLt⟩
theorem val_main_v6_apply (i : S1x128.Idx) :
    val_main_v6 (F := F) x5 i = x5 (idx_main_v6 i) := by
  unfold val_main_v6
  exact extractStridedSlice_apply ![0, 0] x5 slices_S3x128_S1x128_0_0 i (idx_main_v6 i) (fun a => match a with
    | ⟨0, _⟩ => by show (i 0).val = 0 + (i 0).val; omega
    | ⟨1, _⟩ => by show (i 1).val = 0 + (i 1).val; omega)

def val_main_v7 : (⟨S128, .f32⟩ : BufTy).Contents (Elt F) :=
  shapeCast _ (val_main_v6 (F := F) x5) shapeCasts_S1x128_S128
abbrev idx_shapeCasts_S1x128_S128 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
/-- A reshape read at an index is its operand at the index of the same row-major position. -/
theorem shapeCasts_S1x128_S128_apply (y : (⟨S1x128, .f32⟩ : BufTy).Contents (Elt F)) (i : S128.Idx) :
    (shapeCast _ y shapeCasts_S1x128_S128 : (⟨S128, .f32⟩ : BufTy).Contents (Elt F)) i = y (idx_shapeCasts_S1x128_S128 i) := by
  exact shapeCast_apply y shapeCasts_S1x128_S128 i (idx_shapeCasts_S1x128_S128 i)
    (by rewrite [Shape.rowMajor_val_two, Shape.rowMajor_val_one]; have h0 : (i 0).val < 128 := (i 0).isLt; show 0 * 128 + ((i 0).val) % 128 = (i 0).val; omega)

theorem val_main_v7_apply (i : S128.Idx) :
    val_main_v7 (F := F) x5 i = val_main_v6 (F := F) x5 (idx_shapeCasts_S1x128_S128 i) := by
  unfold val_main_v7
  exact shapeCasts_S1x128_S128_apply _ i

def val_main_cst : (⟨S_, .f32⟩ : BufTy).Contents (Elt F) :=
  constant S_ .f32 0x3F800000#32

def val_main_v8 : (⟨S200000, .f32⟩ : BufTy).Contents (Elt F) :=
  broadcastInDim S200000 ![] bcast_S_S200000 (val_main_cst (F := F))

def val_main_cst_0 : (⟨S_, .f32⟩ : BufTy).Contents (Elt F) :=
  constant S_ .f32 0x00000000#32

def val_main_v9 : (⟨S100000, .f32⟩ : BufTy).Contents (Elt F) :=
  broadcastInDim S100000 ![] bcast_S_S100000 (val_main_cst_0 (F := F))

def val_main_v10 : (⟨S200000x1, .i32⟩ : BufTy).Contents (Elt F) :=
  broadcastInDim S200000x1 ![0] bcast_S200000_S200000x1_0 (val_main_v1 (F := F) x1)

def val_main_v11 : (⟨S100000, .f32⟩ : BufTy).Contents (Elt F) :=
  Host.scatterAdd scatter_S100000_S200000x1_S200000_n_0_0_1 (val_main_v9 (F := F)) (val_main_v10 (F := F) x1) (val_main_v8 (F := F))

def val_main_cst_1 : (⟨S_, .f32⟩ : BufTy).Contents (Elt F) :=
  constant S_ .f32 0x3F800000#32

def val_main_call0_v0 : (⟨S_, .f32⟩ : BufTy).Contents (Elt F) :=
  id (val_main_cst_1 (F := F))

def val_main_call0_v1 : (⟨S100000, .f32⟩ : BufTy).Contents (Elt F) :=
  broadcastInDim S100000 ![] bcast_S_S100000 (val_main_call0_v0 (F := F))

def val_main_v12 : (⟨S100000, .f32⟩ : BufTy).Contents (Elt F) :=
  maximumf (val_main_call0_v1 (F := F)) (val_main_v11 (F := F) x1)

def val_main_cst_2 : (⟨S_, .f32⟩ : BufTy).Contents (Elt F) :=
  constant S_ .f32 0x00000000#32

def val_main_v13 : (⟨S100000, .f32⟩ : BufTy).Contents (Elt F) :=
  broadcastInDim S100000 ![] bcast_S_S100000 (val_main_cst_2 (F := F))

def val_main_v14 : (⟨S200000x1, .i32⟩ : BufTy).Contents (Elt F) :=
  broadcastInDim S200000x1 ![0] bcast_S200000_S200000x1_0 (val_main_v3 (F := F) x1)

def val_main_v15 : (⟨S100000, .f32⟩ : BufTy).Contents (Elt F) :=
  Host.scatterAdd scatter_S100000_S200000x1_S200000_n_0_0_1 (val_main_v13 (F := F)) (val_main_v14 (F := F) x1) (val_main_v8 (F := F))

def val_main_cst_3 : (⟨S_, .f32⟩ : BufTy).Contents (Elt F) :=
  constant S_ .f32 0x3F800000#32

def val_main_call1_v0 : (⟨S_, .f32⟩ : BufTy).Contents (Elt F) :=
  id (val_main_cst_3 (F := F))

def val_main_call1_v1 : (⟨S100000, .f32⟩ : BufTy).Contents (Elt F) :=
  broadcastInDim S100000 ![] bcast_S_S100000 (val_main_call1_v0 (F := F))

def val_main_v16 : (⟨S100000, .f32⟩ : BufTy).Contents (Elt F) :=
  maximumf (val_main_call1_v1 (F := F)) (val_main_v15 (F := F) x1)

def val_main_cst_4 : (⟨S_, .f32⟩ : BufTy).Contents (Elt F) :=
  constant S_ .f32 0xBF000000#32

def val_main_v17 : (⟨S100000, .f32⟩ : BufTy).Contents (Elt F) :=
  broadcastInDim S100000 ![] bcast_S_S100000 (val_main_cst_4 (F := F))

def val_main_v18 : (⟨S100000, .f32⟩ : BufTy).Contents (Elt F) :=
  Host.powf (val_main_v12 (F := F) x1) (val_main_v17 (F := F))

def val_main_v19 : (⟨S100000x1, .f32⟩ : BufTy).Contents (Elt F) :=
  broadcastInDim S100000x1 ![0] bcast_S100000_S100000x1_0 (val_main_v18 (F := F) x1)
abbrev idx_bcast_S100000_S100000x1_0 (i : S100000x1.Idx) : S100000.Idx := fun a => match a with
  | ⟨0, _⟩ => ⟨(i 0).val, (i 0).isLt⟩
/-- A broadcast read at an index is its operand at that index with the added axes dropped. -/
theorem bcast_S100000_S100000x1_0_apply (y : (⟨S100000, .f32⟩ : BufTy).Contents (Elt F)) (i : S100000x1.Idx) :
    (broadcastInDim S100000x1 ![0] bcast_S100000_S100000x1_0 y : (⟨S100000x1, .f32⟩ : BufTy).Contents (Elt F)) i = y (idx_bcast_S100000_S100000x1_0 i) := by
  exact broadcastInDim_apply _ bcast_S100000_S100000x1_0 y i (idx_bcast_S100000_S100000x1_0 i) (fun a => match a with
    | ⟨0, _⟩ => by show (i 0).val = if (100000 : Nat) = 1 then 0 else (i 0).val; rw [if_neg (by decide)])

theorem val_main_v19_apply (i : S100000x1.Idx) :
    val_main_v19 (F := F) x1 i = val_main_v18 (F := F) x1 (idx_bcast_S100000_S100000x1_0 i) := by
  unfold val_main_v19
  exact bcast_S100000_S100000x1_0_apply _ i

def val_main_v20 : (⟨S100000x1280, .f32⟩ : BufTy).Contents (Elt F) :=
  broadcastInDim S100000x1280 ![0, 1] bcast_S100000x1_S100000x1280_0_1 (val_main_v19 (F := F) x1)
abbrev idx_bcast_S100000x1_S100000x1280_0_1 (i : S100000x1280.Idx) : S100000x1.Idx := fun a => match a with
  | ⟨0, _⟩ => ⟨(i 0).val, (i 0).isLt⟩
  | ⟨1, _⟩ => ⟨0, Nat.one_pos⟩
/-- A broadcast read at an index is its operand at that index with the added axes dropped. -/
theorem bcast_S100000x1_S100000x1280_0_1_apply (y : (⟨S100000x1, .f32⟩ : BufTy).Contents (Elt F)) (i : S100000x1280.Idx) :
    (broadcastInDim S100000x1280 ![0, 1] bcast_S100000x1_S100000x1280_0_1 y : (⟨S100000x1280, .f32⟩ : BufTy).Contents (Elt F)) i = y (idx_bcast_S100000x1_S100000x1280_0_1 i) := by
  exact broadcastInDim_apply _ bcast_S100000x1_S100000x1280_0_1 y i (idx_bcast_S100000x1_S100000x1280_0_1 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

theorem val_main_v20_apply (i : S100000x1280.Idx) :
    val_main_v20 (F := F) x1 i = val_main_v19 (F := F) x1 (idx_bcast_S100000x1_S100000x1280_0_1 i) := by
  unfold val_main_v20
  exact bcast_S100000x1_S100000x1280_0_1_apply _ i

def val_main_v21 : (⟨S100000x1280, .f32⟩ : BufTy).Contents (Elt F) :=
  mulf (x0) (val_main_v20 (F := F) x1)
theorem val_main_v21_apply (i : S100000x1280.Idx) :
    val_main_v21 (F := F) x0 x1 i = FloatOps.mulf (x0 i) (val_main_v20 (F := F) x1 i) := rfl

def val_main_v22 : (⟨S100000x128, .f32⟩ : BufTy).Contents (Elt F) :=
  Host.dotGeneral dot_S100000x1280_S1280x128_S100000x128_1_0_0_1_n_n none (val_main_v21 (F := F) x0 x1) (val_main_v5 (F := F) x4)
theorem lhs_d1280_0 (i : S100000x128.Idx) (q : dot_S100000x1280_S1280x128_S100000x128_1_0_0_1_n_n.contr.Idx) :
    (dot_S100000x1280_S1280x128_S100000x128_1_0_0_1_n_n.lhsIdx i q 0).val = (i 0).val := by
  unfold DotDims.lhsIdx
  rw [dif_neg (show ¬(0 : Fin S100000x1280.rank) ∈ dot_S100000x1280_S1280x128_S100000x128_1_0_0_1_n_n.lhsBatch by decide), dif_pos (show (0 : Fin S100000x1280.rank) ∈ dot_S100000x1280_S1280x128_S100000x128_1_0_0_1_n_n.lhsNonContracting by decide)]
  rfl
theorem lhs_d1280_1 (i : S100000x128.Idx) (q : dot_S100000x1280_S1280x128_S100000x128_1_0_0_1_n_n.contr.Idx) :
    (dot_S100000x1280_S1280x128_S100000x128_1_0_0_1_n_n.lhsIdx i q 1).val = (q ⟨0, by decide⟩).val :=
  dot_S100000x1280_S1280x128_S100000x128_1_0_0_1_n_n.lhsIdx_val_of_single rfl i q
theorem rhs_d1280_0 (i : S100000x128.Idx) (q : dot_S100000x1280_S1280x128_S100000x128_1_0_0_1_n_n.contr.Idx) :
    (dot_S100000x1280_S1280x128_S100000x128_1_0_0_1_n_n.rhsIdx i q 0).val = (q ⟨0, by decide⟩).val :=
  dot_S100000x1280_S1280x128_S100000x128_1_0_0_1_n_n.rhsIdx_val_of_single rfl i q
theorem rhs_d1280_1 (i : S100000x128.Idx) (q : dot_S100000x1280_S1280x128_S100000x128_1_0_0_1_n_n.contr.Idx) :
    (dot_S100000x1280_S1280x128_S100000x128_1_0_0_1_n_n.rhsIdx i q 1).val = (i 1).val := by
  unfold DotDims.rhsIdx
  rw [dif_neg (show ¬(1 : Fin S1280x128.rank) ∈ dot_S100000x1280_S1280x128_S100000x128_1_0_0_1_n_n.rhsBatch by decide), dif_pos (show (1 : Fin S1280x128.rank) ∈ dot_S100000x1280_S1280x128_S100000x128_1_0_0_1_n_n.rhsNonContracting by decide)]
  rfl
abbrev lidx_d1280 (i : S100000x128.Idx) (k : Fin 1280) : S100000x1280.Idx := fun a => match a with
  | ⟨0, _⟩ => ⟨(i 0).val, (i 0).isLt⟩
  | ⟨1, _⟩ => ⟨k.val, k.isLt⟩
abbrev ridx_d1280 (i : S100000x128.Idx) (k : Fin 1280) : S1280x128.Idx := fun a => match a with
  | ⟨0, _⟩ => ⟨k.val, k.isLt⟩
  | ⟨1, _⟩ => ⟨(i 1).val, (i 1).isLt⟩

/-- A contraction over one axis, read at an index, is the sum over that axis of the products. -/
theorem dot_d1280_apply (y0 : FVec Ideal S100000x1280 .f32) (y1 : FVec Ideal S1280x128 .f32) (i : S100000x128.Idx) :
    Host.dotGeneral dot_S100000x1280_S1280x128_S100000x128_1_0_0_1_n_n none y0 y1 i = ∑ k : Fin 1280, y0 (lidx_d1280 i k) * y1 (ridx_d1280 i k) := by
  simp only [Host.dotGeneral]
  rw [Ideal.dotGeneral_apply, ← Equiv.sum_comp (ValueIdx.contrEquiv1 dot_S100000x1280_S1280x128_S100000x128_1_0_0_1_n_n 1280 rfl rfl).symm]
  refine Finset.sum_congr rfl fun k _ => ?_
  have hk := ValueIdx.contrEquiv1_symm_val dot_S100000x1280_S1280x128_S100000x128_1_0_0_1_n_n 1280 rfl rfl k
  have el : dot_S100000x1280_S1280x128_S100000x128_1_0_0_1_n_n.lhsIdx i ((ValueIdx.contrEquiv1 dot_S100000x1280_S1280x128_S100000x128_1_0_0_1_n_n 1280 rfl rfl).symm k) = lidx_d1280 i k := funext fun a => Fin.ext (by
    match a with
    | ⟨0, _⟩ => exact lhs_d1280_0 _ _
    | ⟨1, _⟩ => exact (lhs_d1280_1 _ _).trans hk)
  have er : dot_S100000x1280_S1280x128_S100000x128_1_0_0_1_n_n.rhsIdx i ((ValueIdx.contrEquiv1 dot_S100000x1280_S1280x128_S100000x128_1_0_0_1_n_n 1280 rfl rfl).symm k) = ridx_d1280 i k := funext fun a => Fin.ext (by
    match a with
    | ⟨0, _⟩ => exact (rhs_d1280_0 _ _).trans hk
    | ⟨1, _⟩ => exact rhs_d1280_1 _ _)
  rw [el, er]

theorem val_main_v22_apply (i : S100000x128.Idx) :
    val_main_v22 (F := Ideal) z0 z1 z4 i = ∑ k : Fin 1280, (val_main_v21 (F := Ideal) z0 z1) (lidx_d1280 i k) * (val_main_v5 (F := Ideal) z4) (ridx_d1280 i k) := by
  unfold val_main_v22
  exact dot_d1280_apply _ _ i

def val_main_c : (⟨S_, .i32⟩ : BufTy).Contents (Elt F) :=
  constantI S_ 32 0#32

def val_main_v23 : (⟨S200000, .i32⟩ : BufTy).Contents (Elt F) :=
  broadcastInDim S200000 ![] bcast_S_S200000 (val_main_c (F := F))

def val_main_v24 : (⟨S200000, .i1⟩ : BufTy).Contents (Elt F) :=
  cmpi .slt (val_main_v1 (F := F) x1) (val_main_v23 (F := F))

def val_main_c_5 : (⟨S_, .i32⟩ : BufTy).Contents (Elt F) :=
  constantI S_ 32 100000#32

def val_main_v25 : (⟨S200000, .i32⟩ : BufTy).Contents (Elt F) :=
  broadcastInDim S200000 ![] bcast_S_S200000 (val_main_c_5 (F := F))

def val_main_v26 : (⟨S200000, .i32⟩ : BufTy).Contents (Elt F) :=
  addi (val_main_v1 (F := F) x1) (val_main_v25 (F := F))

def val_main_v27 : (⟨S200000, .i32⟩ : BufTy).Contents (Elt F) :=
  select (val_main_v24 (F := F) x1) (val_main_v26 (F := F) x1) (val_main_v1 (F := F) x1)

def val_main_v28 : (⟨S200000x1, .i32⟩ : BufTy).Contents (Elt F) :=
  broadcastInDim S200000x1 ![0] bcast_S200000_S200000x1_0 (val_main_v27 (F := F) x1)

def val_main_v29 : (⟨S200000x128, .f32⟩ : BufTy).Contents (Elt F) :=
  Host.gather gather_S100000x128_S200000x1_S200000x128_1_0_n_n_0_1_1128 (val_main_v22 (F := F) x0 x1 x4) (val_main_v28 (F := F) x1)

def val_main_cst_6 : (⟨S_, .f32⟩ : BufTy).Contents (Elt F) :=
  constant S_ .f32 0x00000000#32

def val_main_v30 : (⟨S100000x128, .f32⟩ : BufTy).Contents (Elt F) :=
  broadcastInDim S100000x128 ![] bcast_S_S100000x128 (val_main_cst_6 (F := F))

def val_main_v31 : (⟨S200000x1, .i32⟩ : BufTy).Contents (Elt F) :=
  broadcastInDim S200000x1 ![0] bcast_S200000_S200000x1_0 (val_main_v3 (F := F) x1)

def val_main_v32 : (⟨S100000x128, .f32⟩ : BufTy).Contents (Elt F) :=
  Host.scatterAdd scatter_S100000x128_S200000x1_S200000x128_1_0_0_1 (val_main_v30 (F := F)) (val_main_v31 (F := F) x1) (val_main_v29 (F := F) x0 x1 x4)

def val_main_cst_7 : (⟨S_, .f32⟩ : BufTy).Contents (Elt F) :=
  constant S_ .f32 0xBF000000#32

def val_main_v33 : (⟨S100000, .f32⟩ : BufTy).Contents (Elt F) :=
  broadcastInDim S100000 ![] bcast_S_S100000 (val_main_cst_7 (F := F))

def val_main_v34 : (⟨S100000, .f32⟩ : BufTy).Contents (Elt F) :=
  Host.powf (val_main_v16 (F := F) x1) (val_main_v33 (F := F))

def val_main_v35 : (⟨S100000x1, .f32⟩ : BufTy).Contents (Elt F) :=
  broadcastInDim S100000x1 ![0] bcast_S100000_S100000x1_0 (val_main_v34 (F := F) x1)
theorem val_main_v35_apply (i : S100000x1.Idx) :
    val_main_v35 (F := F) x1 i = val_main_v34 (F := F) x1 (idx_bcast_S100000_S100000x1_0 i) := by
  unfold val_main_v35
  exact bcast_S100000_S100000x1_0_apply _ i

def val_main_v36 : (⟨S100000x128, .f32⟩ : BufTy).Contents (Elt F) :=
  broadcastInDim S100000x128 ![0, 1] bcast_S100000x1_S100000x128_0_1 (val_main_v35 (F := F) x1)
abbrev idx_bcast_S100000x1_S100000x128_0_1 (i : S100000x128.Idx) : S100000x1.Idx := fun a => match a with
  | ⟨0, _⟩ => ⟨(i 0).val, (i 0).isLt⟩
  | ⟨1, _⟩ => ⟨0, Nat.one_pos⟩
/-- A broadcast read at an index is its operand at that index with the added axes dropped. -/
theorem bcast_S100000x1_S100000x128_0_1_apply (y : (⟨S100000x1, .f32⟩ : BufTy).Contents (Elt F)) (i : S100000x128.Idx) :
    (broadcastInDim S100000x128 ![0, 1] bcast_S100000x1_S100000x128_0_1 y : (⟨S100000x128, .f32⟩ : BufTy).Contents (Elt F)) i = y (idx_bcast_S100000x1_S100000x128_0_1 i) := by
  exact broadcastInDim_apply _ bcast_S100000x1_S100000x128_0_1 y i (idx_bcast_S100000x1_S100000x128_0_1 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

theorem val_main_v36_apply (i : S100000x128.Idx) :
    val_main_v36 (F := F) x1 i = val_main_v35 (F := F) x1 (idx_bcast_S100000x1_S100000x128_0_1 i) := by
  unfold val_main_v36
  exact bcast_S100000x1_S100000x128_0_1_apply _ i

def val_main_v37 : (⟨S100000x128, .f32⟩ : BufTy).Contents (Elt F) :=
  mulf (val_main_v32 (F := F) x0 x1 x4) (val_main_v36 (F := F) x1)
theorem val_main_v37_apply (i : S100000x128.Idx) :
    val_main_v37 (F := F) x0 x1 x4 i = FloatOps.mulf (val_main_v32 (F := F) x0 x1 x4 i) (val_main_v36 (F := F) x1 i) := rfl

def val_main_v38 : (⟨S1x128, .f32⟩ : BufTy).Contents (Elt F) :=
  broadcastInDim S1x128 ![1] bcast_S128_S1x128_1 (val_main_v7 (F := F) x5)
abbrev idx_bcast_S128_S1x128_1 (i : S1x128.Idx) : S128.Idx := fun a => match a with
  | ⟨0, _⟩ => ⟨(i 1).val, (i 1).isLt⟩
/-- A broadcast read at an index is its operand at that index with the added axes dropped. -/
theorem bcast_S128_S1x128_1_apply (y : (⟨S128, .f32⟩ : BufTy).Contents (Elt F)) (i : S1x128.Idx) :
    (broadcastInDim S1x128 ![1] bcast_S128_S1x128_1 y : (⟨S1x128, .f32⟩ : BufTy).Contents (Elt F)) i = y (idx_bcast_S128_S1x128_1 i) := by
  exact broadcastInDim_apply _ bcast_S128_S1x128_1 y i (idx_bcast_S128_S1x128_1 i) (fun a => match a with
    | ⟨0, _⟩ => by show (i 1).val = if (128 : Nat) = 1 then 0 else (i 1).val; rw [if_neg (by decide)])

theorem val_main_v38_apply (i : S1x128.Idx) :
    val_main_v38 (F := F) x5 i = val_main_v7 (F := F) x5 (idx_bcast_S128_S1x128_1 i) := by
  unfold val_main_v38
  exact bcast_S128_S1x128_1_apply _ i

def val_main_v39 : (⟨S100000x128, .f32⟩ : BufTy).Contents (Elt F) :=
  broadcastInDim S100000x128 ![0, 1] bcast_S1x128_S100000x128_0_1 (val_main_v38 (F := F) x5)
abbrev idx_bcast_S1x128_S100000x128_0_1 (i : S100000x128.Idx) : S1x128.Idx := fun a => match a with
  | ⟨0, _⟩ => ⟨0, Nat.one_pos⟩
  | ⟨1, _⟩ => ⟨(i 1).val, (i 1).isLt⟩
/-- A broadcast read at an index is its operand at that index with the added axes dropped. -/
theorem bcast_S1x128_S100000x128_0_1_apply (y : (⟨S1x128, .f32⟩ : BufTy).Contents (Elt F)) (i : S100000x128.Idx) :
    (broadcastInDim S100000x128 ![0, 1] bcast_S1x128_S100000x128_0_1 y : (⟨S100000x128, .f32⟩ : BufTy).Contents (Elt F)) i = y (idx_bcast_S1x128_S100000x128_0_1 i) := by
  exact broadcastInDim_apply _ bcast_S1x128_S100000x128_0_1 y i (idx_bcast_S1x128_S100000x128_0_1 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

theorem val_main_v39_apply (i : S100000x128.Idx) :
    val_main_v39 (F := F) x5 i = val_main_v38 (F := F) x5 (idx_bcast_S1x128_S100000x128_0_1 i) := by
  unfold val_main_v39
  exact bcast_S1x128_S100000x128_0_1_apply _ i

def val_main_v40 : (⟨S100000x128, .f32⟩ : BufTy).Contents (Elt F) :=
  addf (val_main_v37 (F := F) x0 x1 x4) (val_main_v39 (F := F) x5)
theorem val_main_v40_apply (i : S100000x128.Idx) :
    val_main_v40 (F := F) x0 x1 x4 x5 i = FloatOps.addf (val_main_v37 (F := F) x0 x1 x4 i) (val_main_v39 (F := F) x5 i) := rfl

def val_main_v41 : (⟨S1x1000000, .i32⟩ : BufTy).Contents (Elt F) :=
  extractStridedSlice S1x1000000 ![0, 0] (x2) slices_S2x1000000_S1x1000000_0_0

def val_main_v42 : (⟨S1000000, .i32⟩ : BufTy).Contents (Elt F) :=
  shapeCast _ (val_main_v41 (F := F) x2) shapeCasts_S1x1000000_S1000000

def val_main_v43 : (⟨S1x1000000, .i32⟩ : BufTy).Contents (Elt F) :=
  extractStridedSlice S1x1000000 ![1, 0] (x2) slices_S2x1000000_S1x1000000_1_0

def val_main_v44 : (⟨S1000000, .i32⟩ : BufTy).Contents (Elt F) :=
  shapeCast _ (val_main_v43 (F := F) x2) shapeCasts_S1x1000000_S1000000

def val_main_v45 : (⟨S1x1280x128, .f32⟩ : BufTy).Contents (Elt F) :=
  extractStridedSlice S1x1280x128 ![1, 0, 0] (x4) slices_S3x1280x128_S1x1280x128_1_0_0
abbrev idx_main_v45 (i : S1x1280x128.Idx) : S3x1280x128.Idx := fun a => match a with
  | ⟨0, _⟩ => ⟨1 + (i 0).val, by have h0 : (i 0).val < 1 := (i 0).isLt; show 1 + (i 0).val < 3; omega⟩
  | ⟨1, _⟩ => ⟨(i 1).val, (i 1).isLt⟩
  | ⟨2, _⟩ => ⟨(i 2).val, (i 2).isLt⟩
theorem val_main_v45_apply (i : S1x1280x128.Idx) :
    val_main_v45 (F := F) x4 i = x4 (idx_main_v45 i) := by
  unfold val_main_v45
  exact extractStridedSlice_apply ![1, 0, 0] x4 slices_S3x1280x128_S1x1280x128_1_0_0 i (idx_main_v45 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

def val_main_v46 : (⟨S1280x128, .f32⟩ : BufTy).Contents (Elt F) :=
  shapeCast _ (val_main_v45 (F := F) x4) shapeCasts_S1x1280x128_S1280x128
theorem val_main_v46_apply (i : S1280x128.Idx) :
    val_main_v46 (F := F) x4 i = val_main_v45 (F := F) x4 (idx_shapeCasts_S1x1280x128_S1280x128 i) := by
  unfold val_main_v46
  exact shapeCasts_S1x1280x128_S1280x128_apply _ i

def val_main_v47 : (⟨S1x128, .f32⟩ : BufTy).Contents (Elt F) :=
  extractStridedSlice S1x128 ![1, 0] (x5) slices_S3x128_S1x128_1_0
abbrev idx_main_v47 (i : S1x128.Idx) : S3x128.Idx := fun a => match a with
  | ⟨0, _⟩ => ⟨1 + (i 0).val, by have h0 : (i 0).val < 1 := (i 0).isLt; show 1 + (i 0).val < 3; omega⟩
  | ⟨1, _⟩ => ⟨(i 1).val, (i 1).isLt⟩
theorem val_main_v47_apply (i : S1x128.Idx) :
    val_main_v47 (F := F) x5 i = x5 (idx_main_v47 i) := by
  unfold val_main_v47
  exact extractStridedSlice_apply ![1, 0] x5 slices_S3x128_S1x128_1_0 i (idx_main_v47 i) (fun a => match a with
    | ⟨0, _⟩ => by show 1 + (i 0).val = 1 + (i 0).val; omega
    | ⟨1, _⟩ => by show (i 1).val = 0 + (i 1).val; omega)

def val_main_v48 : (⟨S128, .f32⟩ : BufTy).Contents (Elt F) :=
  shapeCast _ (val_main_v47 (F := F) x5) shapeCasts_S1x128_S128
theorem val_main_v48_apply (i : S128.Idx) :
    val_main_v48 (F := F) x5 i = val_main_v47 (F := F) x5 (idx_shapeCasts_S1x128_S128 i) := by
  unfold val_main_v48
  exact shapeCasts_S1x128_S128_apply _ i

def val_main_cst_8 : (⟨S_, .f32⟩ : BufTy).Contents (Elt F) :=
  constant S_ .f32 0x3F800000#32

def val_main_v49 : (⟨S1000000, .f32⟩ : BufTy).Contents (Elt F) :=
  broadcastInDim S1000000 ![] bcast_S_S1000000 (val_main_cst_8 (F := F))

def val_main_cst_9 : (⟨S_, .f32⟩ : BufTy).Contents (Elt F) :=
  constant S_ .f32 0x00000000#32

def val_main_v50 : (⟨S100000, .f32⟩ : BufTy).Contents (Elt F) :=
  broadcastInDim S100000 ![] bcast_S_S100000 (val_main_cst_9 (F := F))

def val_main_v51 : (⟨S1000000x1, .i32⟩ : BufTy).Contents (Elt F) :=
  broadcastInDim S1000000x1 ![0] bcast_S1000000_S1000000x1_0 (val_main_v42 (F := F) x2)

def val_main_v52 : (⟨S100000, .f32⟩ : BufTy).Contents (Elt F) :=
  Host.scatterAdd scatter_S100000_S1000000x1_S1000000_n_0_0_1 (val_main_v50 (F := F)) (val_main_v51 (F := F) x2) (val_main_v49 (F := F))

def val_main_cst_10 : (⟨S_, .f32⟩ : BufTy).Contents (Elt F) :=
  constant S_ .f32 0x3F800000#32

def val_main_call2_v0 : (⟨S_, .f32⟩ : BufTy).Contents (Elt F) :=
  id (val_main_cst_10 (F := F))

def val_main_call2_v1 : (⟨S100000, .f32⟩ : BufTy).Contents (Elt F) :=
  broadcastInDim S100000 ![] bcast_S_S100000 (val_main_call2_v0 (F := F))

def val_main_v53 : (⟨S100000, .f32⟩ : BufTy).Contents (Elt F) :=
  maximumf (val_main_call2_v1 (F := F)) (val_main_v52 (F := F) x2)

def val_main_cst_11 : (⟨S_, .f32⟩ : BufTy).Contents (Elt F) :=
  constant S_ .f32 0x00000000#32

def val_main_v54 : (⟨S100000, .f32⟩ : BufTy).Contents (Elt F) :=
  broadcastInDim S100000 ![] bcast_S_S100000 (val_main_cst_11 (F := F))

def val_main_v55 : (⟨S1000000x1, .i32⟩ : BufTy).Contents (Elt F) :=
  broadcastInDim S1000000x1 ![0] bcast_S1000000_S1000000x1_0 (val_main_v44 (F := F) x2)

def val_main_v56 : (⟨S100000, .f32⟩ : BufTy).Contents (Elt F) :=
  Host.scatterAdd scatter_S100000_S1000000x1_S1000000_n_0_0_1 (val_main_v54 (F := F)) (val_main_v55 (F := F) x2) (val_main_v49 (F := F))

def val_main_cst_12 : (⟨S_, .f32⟩ : BufTy).Contents (Elt F) :=
  constant S_ .f32 0x3F800000#32

def val_main_call3_v0 : (⟨S_, .f32⟩ : BufTy).Contents (Elt F) :=
  id (val_main_cst_12 (F := F))

def val_main_call3_v1 : (⟨S100000, .f32⟩ : BufTy).Contents (Elt F) :=
  broadcastInDim S100000 ![] bcast_S_S100000 (val_main_call3_v0 (F := F))

def val_main_v57 : (⟨S100000, .f32⟩ : BufTy).Contents (Elt F) :=
  maximumf (val_main_call3_v1 (F := F)) (val_main_v56 (F := F) x2)

def val_main_cst_13 : (⟨S_, .f32⟩ : BufTy).Contents (Elt F) :=
  constant S_ .f32 0xBF000000#32

def val_main_v58 : (⟨S100000, .f32⟩ : BufTy).Contents (Elt F) :=
  broadcastInDim S100000 ![] bcast_S_S100000 (val_main_cst_13 (F := F))

def val_main_v59 : (⟨S100000, .f32⟩ : BufTy).Contents (Elt F) :=
  Host.powf (val_main_v53 (F := F) x2) (val_main_v58 (F := F))

def val_main_v60 : (⟨S100000x1, .f32⟩ : BufTy).Contents (Elt F) :=
  broadcastInDim S100000x1 ![0] bcast_S100000_S100000x1_0 (val_main_v59 (F := F) x2)
theorem val_main_v60_apply (i : S100000x1.Idx) :
    val_main_v60 (F := F) x2 i = val_main_v59 (F := F) x2 (idx_bcast_S100000_S100000x1_0 i) := by
  unfold val_main_v60
  exact bcast_S100000_S100000x1_0_apply _ i

def val_main_v61 : (⟨S100000x1280, .f32⟩ : BufTy).Contents (Elt F) :=
  broadcastInDim S100000x1280 ![0, 1] bcast_S100000x1_S100000x1280_0_1 (val_main_v60 (F := F) x2)
theorem val_main_v61_apply (i : S100000x1280.Idx) :
    val_main_v61 (F := F) x2 i = val_main_v60 (F := F) x2 (idx_bcast_S100000x1_S100000x1280_0_1 i) := by
  unfold val_main_v61
  exact bcast_S100000x1_S100000x1280_0_1_apply _ i

def val_main_v62 : (⟨S100000x1280, .f32⟩ : BufTy).Contents (Elt F) :=
  mulf (x0) (val_main_v61 (F := F) x2)
theorem val_main_v62_apply (i : S100000x1280.Idx) :
    val_main_v62 (F := F) x0 x2 i = FloatOps.mulf (x0 i) (val_main_v61 (F := F) x2 i) := rfl

def val_main_v63 : (⟨S100000x128, .f32⟩ : BufTy).Contents (Elt F) :=
  Host.dotGeneral dot_S100000x1280_S1280x128_S100000x128_1_0_0_1_n_n none (val_main_v62 (F := F) x0 x2) (val_main_v46 (F := F) x4)
theorem val_main_v63_apply (i : S100000x128.Idx) :
    val_main_v63 (F := Ideal) z0 z2 z4 i = ∑ k : Fin 1280, (val_main_v62 (F := Ideal) z0 z2) (lidx_d1280 i k) * (val_main_v46 (F := Ideal) z4) (ridx_d1280 i k) := by
  unfold val_main_v63
  exact dot_d1280_apply _ _ i

def val_main_c_14 : (⟨S_, .i32⟩ : BufTy).Contents (Elt F) :=
  constantI S_ 32 0#32

def val_main_v64 : (⟨S1000000, .i32⟩ : BufTy).Contents (Elt F) :=
  broadcastInDim S1000000 ![] bcast_S_S1000000 (val_main_c_14 (F := F))

def val_main_v65 : (⟨S1000000, .i1⟩ : BufTy).Contents (Elt F) :=
  cmpi .slt (val_main_v42 (F := F) x2) (val_main_v64 (F := F))

def val_main_c_15 : (⟨S_, .i32⟩ : BufTy).Contents (Elt F) :=
  constantI S_ 32 100000#32

def val_main_v66 : (⟨S1000000, .i32⟩ : BufTy).Contents (Elt F) :=
  broadcastInDim S1000000 ![] bcast_S_S1000000 (val_main_c_15 (F := F))

def val_main_v67 : (⟨S1000000, .i32⟩ : BufTy).Contents (Elt F) :=
  addi (val_main_v42 (F := F) x2) (val_main_v66 (F := F))

def val_main_v68 : (⟨S1000000, .i32⟩ : BufTy).Contents (Elt F) :=
  select (val_main_v65 (F := F) x2) (val_main_v67 (F := F) x2) (val_main_v42 (F := F) x2)

def val_main_v69 : (⟨S1000000x1, .i32⟩ : BufTy).Contents (Elt F) :=
  broadcastInDim S1000000x1 ![0] bcast_S1000000_S1000000x1_0 (val_main_v68 (F := F) x2)

def val_main_v70 : (⟨S1000000x128, .f32⟩ : BufTy).Contents (Elt F) :=
  Host.gather gather_S100000x128_S1000000x1_S1000000x128_1_0_n_n_0_1_1128 (val_main_v63 (F := F) x0 x2 x4) (val_main_v69 (F := F) x2)

def val_main_cst_16 : (⟨S_, .f32⟩ : BufTy).Contents (Elt F) :=
  constant S_ .f32 0x00000000#32

def val_main_v71 : (⟨S100000x128, .f32⟩ : BufTy).Contents (Elt F) :=
  broadcastInDim S100000x128 ![] bcast_S_S100000x128 (val_main_cst_16 (F := F))

def val_main_v72 : (⟨S1000000x1, .i32⟩ : BufTy).Contents (Elt F) :=
  broadcastInDim S1000000x1 ![0] bcast_S1000000_S1000000x1_0 (val_main_v44 (F := F) x2)

def val_main_v73 : (⟨S100000x128, .f32⟩ : BufTy).Contents (Elt F) :=
  Host.scatterAdd scatter_S100000x128_S1000000x1_S1000000x128_1_0_0_1 (val_main_v71 (F := F)) (val_main_v72 (F := F) x2) (val_main_v70 (F := F) x0 x2 x4)

def val_main_cst_17 : (⟨S_, .f32⟩ : BufTy).Contents (Elt F) :=
  constant S_ .f32 0xBF000000#32

def val_main_v74 : (⟨S100000, .f32⟩ : BufTy).Contents (Elt F) :=
  broadcastInDim S100000 ![] bcast_S_S100000 (val_main_cst_17 (F := F))

def val_main_v75 : (⟨S100000, .f32⟩ : BufTy).Contents (Elt F) :=
  Host.powf (val_main_v57 (F := F) x2) (val_main_v74 (F := F))

def val_main_v76 : (⟨S100000x1, .f32⟩ : BufTy).Contents (Elt F) :=
  broadcastInDim S100000x1 ![0] bcast_S100000_S100000x1_0 (val_main_v75 (F := F) x2)
theorem val_main_v76_apply (i : S100000x1.Idx) :
    val_main_v76 (F := F) x2 i = val_main_v75 (F := F) x2 (idx_bcast_S100000_S100000x1_0 i) := by
  unfold val_main_v76
  exact bcast_S100000_S100000x1_0_apply _ i

def val_main_v77 : (⟨S100000x128, .f32⟩ : BufTy).Contents (Elt F) :=
  broadcastInDim S100000x128 ![0, 1] bcast_S100000x1_S100000x128_0_1 (val_main_v76 (F := F) x2)
theorem val_main_v77_apply (i : S100000x128.Idx) :
    val_main_v77 (F := F) x2 i = val_main_v76 (F := F) x2 (idx_bcast_S100000x1_S100000x128_0_1 i) := by
  unfold val_main_v77
  exact bcast_S100000x1_S100000x128_0_1_apply _ i

def val_main_v78 : (⟨S100000x128, .f32⟩ : BufTy).Contents (Elt F) :=
  mulf (val_main_v73 (F := F) x0 x2 x4) (val_main_v77 (F := F) x2)
theorem val_main_v78_apply (i : S100000x128.Idx) :
    val_main_v78 (F := F) x0 x2 x4 i = FloatOps.mulf (val_main_v73 (F := F) x0 x2 x4 i) (val_main_v77 (F := F) x2 i) := rfl

def val_main_v79 : (⟨S1x128, .f32⟩ : BufTy).Contents (Elt F) :=
  broadcastInDim S1x128 ![1] bcast_S128_S1x128_1 (val_main_v48 (F := F) x5)
theorem val_main_v79_apply (i : S1x128.Idx) :
    val_main_v79 (F := F) x5 i = val_main_v48 (F := F) x5 (idx_bcast_S128_S1x128_1 i) := by
  unfold val_main_v79
  exact bcast_S128_S1x128_1_apply _ i

def val_main_v80 : (⟨S100000x128, .f32⟩ : BufTy).Contents (Elt F) :=
  broadcastInDim S100000x128 ![0, 1] bcast_S1x128_S100000x128_0_1 (val_main_v79 (F := F) x5)
theorem val_main_v80_apply (i : S100000x128.Idx) :
    val_main_v80 (F := F) x5 i = val_main_v79 (F := F) x5 (idx_bcast_S1x128_S100000x128_0_1 i) := by
  unfold val_main_v80
  exact bcast_S1x128_S100000x128_0_1_apply _ i

def val_main_v81 : (⟨S100000x128, .f32⟩ : BufTy).Contents (Elt F) :=
  addf (val_main_v78 (F := F) x0 x2 x4) (val_main_v80 (F := F) x5)
theorem val_main_v81_apply (i : S100000x128.Idx) :
    val_main_v81 (F := F) x0 x2 x4 x5 i = FloatOps.addf (val_main_v78 (F := F) x0 x2 x4 i) (val_main_v80 (F := F) x5 i) := rfl

def val_main_v82 : (⟨S100000x128, .f32⟩ : BufTy).Contents (Elt F) :=
  addf (val_main_v40 (F := F) x0 x1 x4 x5) (val_main_v81 (F := F) x0 x2 x4 x5)
theorem val_main_v82_apply (i : S100000x128.Idx) :
    val_main_v82 (F := F) x0 x1 x2 x4 x5 i = FloatOps.addf (val_main_v40 (F := F) x0 x1 x4 x5 i) (val_main_v81 (F := F) x0 x2 x4 x5 i) := rfl

def val_main_v83 : (⟨S1x1600000, .i32⟩ : BufTy).Contents (Elt F) :=
  extractStridedSlice S1x1600000 ![0, 0] (x3) slices_S2x1600000_S1x1600000_0_0

def val_main_v84 : (⟨S1600000, .i32⟩ : BufTy).Contents (Elt F) :=
  shapeCast _ (val_main_v83 (F := F) x3) shapeCasts_S1x1600000_S1600000

def val_main_v85 : (⟨S1x1600000, .i32⟩ : BufTy).Contents (Elt F) :=
  extractStridedSlice S1x1600000 ![1, 0] (x3) slices_S2x1600000_S1x1600000_1_0

def val_main_v86 : (⟨S1600000, .i32⟩ : BufTy).Contents (Elt F) :=
  shapeCast _ (val_main_v85 (F := F) x3) shapeCasts_S1x1600000_S1600000

def val_main_v87 : (⟨S1x1280x128, .f32⟩ : BufTy).Contents (Elt F) :=
  extractStridedSlice S1x1280x128 ![2, 0, 0] (x4) slices_S3x1280x128_S1x1280x128_2_0_0
abbrev idx_main_v87 (i : S1x1280x128.Idx) : S3x1280x128.Idx := fun a => match a with
  | ⟨0, _⟩ => ⟨2 + (i 0).val, by have h0 : (i 0).val < 1 := (i 0).isLt; show 2 + (i 0).val < 3; omega⟩
  | ⟨1, _⟩ => ⟨(i 1).val, (i 1).isLt⟩
  | ⟨2, _⟩ => ⟨(i 2).val, (i 2).isLt⟩
theorem val_main_v87_apply (i : S1x1280x128.Idx) :
    val_main_v87 (F := F) x4 i = x4 (idx_main_v87 i) := by
  unfold val_main_v87
  exact extractStridedSlice_apply ![2, 0, 0] x4 slices_S3x1280x128_S1x1280x128_2_0_0 i (idx_main_v87 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)

def val_main_v88 : (⟨S1280x128, .f32⟩ : BufTy).Contents (Elt F) :=
  shapeCast _ (val_main_v87 (F := F) x4) shapeCasts_S1x1280x128_S1280x128
theorem val_main_v88_apply (i : S1280x128.Idx) :
    val_main_v88 (F := F) x4 i = val_main_v87 (F := F) x4 (idx_shapeCasts_S1x1280x128_S1280x128 i) := by
  unfold val_main_v88
  exact shapeCasts_S1x1280x128_S1280x128_apply _ i

def val_main_v89 : (⟨S1x128, .f32⟩ : BufTy).Contents (Elt F) :=
  extractStridedSlice S1x128 ![2, 0] (x5) slices_S3x128_S1x128_2_0
abbrev idx_main_v89 (i : S1x128.Idx) : S3x128.Idx := fun a => match a with
  | ⟨0, _⟩ => ⟨2 + (i 0).val, by have h0 : (i 0).val < 1 := (i 0).isLt; show 2 + (i 0).val < 3; omega⟩
  | ⟨1, _⟩ => ⟨(i 1).val, (i 1).isLt⟩
theorem val_main_v89_apply (i : S1x128.Idx) :
    val_main_v89 (F := F) x5 i = x5 (idx_main_v89 i) := by
  unfold val_main_v89
  exact extractStridedSlice_apply ![2, 0] x5 slices_S3x128_S1x128_2_0 i (idx_main_v89 i) (fun a => match a with
    | ⟨0, _⟩ => by show 2 + (i 0).val = 2 + (i 0).val; omega
    | ⟨1, _⟩ => by show (i 1).val = 0 + (i 1).val; omega)

def val_main_v90 : (⟨S128, .f32⟩ : BufTy).Contents (Elt F) :=
  shapeCast _ (val_main_v89 (F := F) x5) shapeCasts_S1x128_S128
theorem val_main_v90_apply (i : S128.Idx) :
    val_main_v90 (F := F) x5 i = val_main_v89 (F := F) x5 (idx_shapeCasts_S1x128_S128 i) := by
  unfold val_main_v90
  exact shapeCasts_S1x128_S128_apply _ i

def val_main_cst_18 : (⟨S_, .f32⟩ : BufTy).Contents (Elt F) :=
  constant S_ .f32 0x3F800000#32

def val_main_v91 : (⟨S1600000, .f32⟩ : BufTy).Contents (Elt F) :=
  broadcastInDim S1600000 ![] bcast_S_S1600000 (val_main_cst_18 (F := F))

def val_main_cst_19 : (⟨S_, .f32⟩ : BufTy).Contents (Elt F) :=
  constant S_ .f32 0x00000000#32

def val_main_v92 : (⟨S100000, .f32⟩ : BufTy).Contents (Elt F) :=
  broadcastInDim S100000 ![] bcast_S_S100000 (val_main_cst_19 (F := F))

def val_main_v93 : (⟨S1600000x1, .i32⟩ : BufTy).Contents (Elt F) :=
  broadcastInDim S1600000x1 ![0] bcast_S1600000_S1600000x1_0 (val_main_v84 (F := F) x3)

def val_main_v94 : (⟨S100000, .f32⟩ : BufTy).Contents (Elt F) :=
  Host.scatterAdd scatter_S100000_S1600000x1_S1600000_n_0_0_1 (val_main_v92 (F := F)) (val_main_v93 (F := F) x3) (val_main_v91 (F := F))

def val_main_cst_20 : (⟨S_, .f32⟩ : BufTy).Contents (Elt F) :=
  constant S_ .f32 0x3F800000#32

def val_main_call4_v0 : (⟨S_, .f32⟩ : BufTy).Contents (Elt F) :=
  id (val_main_cst_20 (F := F))

def val_main_call4_v1 : (⟨S100000, .f32⟩ : BufTy).Contents (Elt F) :=
  broadcastInDim S100000 ![] bcast_S_S100000 (val_main_call4_v0 (F := F))

def val_main_v95 : (⟨S100000, .f32⟩ : BufTy).Contents (Elt F) :=
  maximumf (val_main_call4_v1 (F := F)) (val_main_v94 (F := F) x3)

def val_main_cst_21 : (⟨S_, .f32⟩ : BufTy).Contents (Elt F) :=
  constant S_ .f32 0x00000000#32

def val_main_v96 : (⟨S100000, .f32⟩ : BufTy).Contents (Elt F) :=
  broadcastInDim S100000 ![] bcast_S_S100000 (val_main_cst_21 (F := F))

def val_main_v97 : (⟨S1600000x1, .i32⟩ : BufTy).Contents (Elt F) :=
  broadcastInDim S1600000x1 ![0] bcast_S1600000_S1600000x1_0 (val_main_v86 (F := F) x3)

def val_main_v98 : (⟨S100000, .f32⟩ : BufTy).Contents (Elt F) :=
  Host.scatterAdd scatter_S100000_S1600000x1_S1600000_n_0_0_1 (val_main_v96 (F := F)) (val_main_v97 (F := F) x3) (val_main_v91 (F := F))

def val_main_cst_22 : (⟨S_, .f32⟩ : BufTy).Contents (Elt F) :=
  constant S_ .f32 0x3F800000#32

def val_main_call5_v0 : (⟨S_, .f32⟩ : BufTy).Contents (Elt F) :=
  id (val_main_cst_22 (F := F))

def val_main_call5_v1 : (⟨S100000, .f32⟩ : BufTy).Contents (Elt F) :=
  broadcastInDim S100000 ![] bcast_S_S100000 (val_main_call5_v0 (F := F))

def val_main_v99 : (⟨S100000, .f32⟩ : BufTy).Contents (Elt F) :=
  maximumf (val_main_call5_v1 (F := F)) (val_main_v98 (F := F) x3)

def val_main_cst_23 : (⟨S_, .f32⟩ : BufTy).Contents (Elt F) :=
  constant S_ .f32 0xBF000000#32

def val_main_v100 : (⟨S100000, .f32⟩ : BufTy).Contents (Elt F) :=
  broadcastInDim S100000 ![] bcast_S_S100000 (val_main_cst_23 (F := F))

def val_main_v101 : (⟨S100000, .f32⟩ : BufTy).Contents (Elt F) :=
  Host.powf (val_main_v95 (F := F) x3) (val_main_v100 (F := F))

def val_main_v102 : (⟨S100000x1, .f32⟩ : BufTy).Contents (Elt F) :=
  broadcastInDim S100000x1 ![0] bcast_S100000_S100000x1_0 (val_main_v101 (F := F) x3)
theorem val_main_v102_apply (i : S100000x1.Idx) :
    val_main_v102 (F := F) x3 i = val_main_v101 (F := F) x3 (idx_bcast_S100000_S100000x1_0 i) := by
  unfold val_main_v102
  exact bcast_S100000_S100000x1_0_apply _ i

def val_main_v103 : (⟨S100000x1280, .f32⟩ : BufTy).Contents (Elt F) :=
  broadcastInDim S100000x1280 ![0, 1] bcast_S100000x1_S100000x1280_0_1 (val_main_v102 (F := F) x3)
theorem val_main_v103_apply (i : S100000x1280.Idx) :
    val_main_v103 (F := F) x3 i = val_main_v102 (F := F) x3 (idx_bcast_S100000x1_S100000x1280_0_1 i) := by
  unfold val_main_v103
  exact bcast_S100000x1_S100000x1280_0_1_apply _ i

def val_main_v104 : (⟨S100000x1280, .f32⟩ : BufTy).Contents (Elt F) :=
  mulf (x0) (val_main_v103 (F := F) x3)
theorem val_main_v104_apply (i : S100000x1280.Idx) :
    val_main_v104 (F := F) x0 x3 i = FloatOps.mulf (x0 i) (val_main_v103 (F := F) x3 i) := rfl

def val_main_v105 : (⟨S100000x128, .f32⟩ : BufTy).Contents (Elt F) :=
  Host.dotGeneral dot_S100000x1280_S1280x128_S100000x128_1_0_0_1_n_n none (val_main_v104 (F := F) x0 x3) (val_main_v88 (F := F) x4)
theorem val_main_v105_apply (i : S100000x128.Idx) :
    val_main_v105 (F := Ideal) z0 z3 z4 i = ∑ k : Fin 1280, (val_main_v104 (F := Ideal) z0 z3) (lidx_d1280 i k) * (val_main_v88 (F := Ideal) z4) (ridx_d1280 i k) := by
  unfold val_main_v105
  exact dot_d1280_apply _ _ i

def val_main_c_24 : (⟨S_, .i32⟩ : BufTy).Contents (Elt F) :=
  constantI S_ 32 0#32

def val_main_v106 : (⟨S1600000, .i32⟩ : BufTy).Contents (Elt F) :=
  broadcastInDim S1600000 ![] bcast_S_S1600000 (val_main_c_24 (F := F))

def val_main_v107 : (⟨S1600000, .i1⟩ : BufTy).Contents (Elt F) :=
  cmpi .slt (val_main_v84 (F := F) x3) (val_main_v106 (F := F))

def val_main_c_25 : (⟨S_, .i32⟩ : BufTy).Contents (Elt F) :=
  constantI S_ 32 100000#32

def val_main_v108 : (⟨S1600000, .i32⟩ : BufTy).Contents (Elt F) :=
  broadcastInDim S1600000 ![] bcast_S_S1600000 (val_main_c_25 (F := F))

def val_main_v109 : (⟨S1600000, .i32⟩ : BufTy).Contents (Elt F) :=
  addi (val_main_v84 (F := F) x3) (val_main_v108 (F := F))

def val_main_v110 : (⟨S1600000, .i32⟩ : BufTy).Contents (Elt F) :=
  select (val_main_v107 (F := F) x3) (val_main_v109 (F := F) x3) (val_main_v84 (F := F) x3)

def val_main_v111 : (⟨S1600000x1, .i32⟩ : BufTy).Contents (Elt F) :=
  broadcastInDim S1600000x1 ![0] bcast_S1600000_S1600000x1_0 (val_main_v110 (F := F) x3)

def val_main_v112 : (⟨S1600000x128, .f32⟩ : BufTy).Contents (Elt F) :=
  Host.gather gather_S100000x128_S1600000x1_S1600000x128_1_0_n_n_0_1_1128 (val_main_v105 (F := F) x0 x3 x4) (val_main_v111 (F := F) x3)

def val_main_cst_26 : (⟨S_, .f32⟩ : BufTy).Contents (Elt F) :=
  constant S_ .f32 0x00000000#32

def val_main_v113 : (⟨S100000x128, .f32⟩ : BufTy).Contents (Elt F) :=
  broadcastInDim S100000x128 ![] bcast_S_S100000x128 (val_main_cst_26 (F := F))

def val_main_v114 : (⟨S1600000x1, .i32⟩ : BufTy).Contents (Elt F) :=
  broadcastInDim S1600000x1 ![0] bcast_S1600000_S1600000x1_0 (val_main_v86 (F := F) x3)

def val_main_v115 : (⟨S100000x128, .f32⟩ : BufTy).Contents (Elt F) :=
  Host.scatterAdd scatter_S100000x128_S1600000x1_S1600000x128_1_0_0_1 (val_main_v113 (F := F)) (val_main_v114 (F := F) x3) (val_main_v112 (F := F) x0 x3 x4)

def val_main_cst_27 : (⟨S_, .f32⟩ : BufTy).Contents (Elt F) :=
  constant S_ .f32 0xBF000000#32

def val_main_v116 : (⟨S100000, .f32⟩ : BufTy).Contents (Elt F) :=
  broadcastInDim S100000 ![] bcast_S_S100000 (val_main_cst_27 (F := F))

def val_main_v117 : (⟨S100000, .f32⟩ : BufTy).Contents (Elt F) :=
  Host.powf (val_main_v99 (F := F) x3) (val_main_v116 (F := F))

def val_main_v118 : (⟨S100000x1, .f32⟩ : BufTy).Contents (Elt F) :=
  broadcastInDim S100000x1 ![0] bcast_S100000_S100000x1_0 (val_main_v117 (F := F) x3)
theorem val_main_v118_apply (i : S100000x1.Idx) :
    val_main_v118 (F := F) x3 i = val_main_v117 (F := F) x3 (idx_bcast_S100000_S100000x1_0 i) := by
  unfold val_main_v118
  exact bcast_S100000_S100000x1_0_apply _ i

def val_main_v119 : (⟨S100000x128, .f32⟩ : BufTy).Contents (Elt F) :=
  broadcastInDim S100000x128 ![0, 1] bcast_S100000x1_S100000x128_0_1 (val_main_v118 (F := F) x3)
theorem val_main_v119_apply (i : S100000x128.Idx) :
    val_main_v119 (F := F) x3 i = val_main_v118 (F := F) x3 (idx_bcast_S100000x1_S100000x128_0_1 i) := by
  unfold val_main_v119
  exact bcast_S100000x1_S100000x128_0_1_apply _ i

def val_main_v120 : (⟨S100000x128, .f32⟩ : BufTy).Contents (Elt F) :=
  mulf (val_main_v115 (F := F) x0 x3 x4) (val_main_v119 (F := F) x3)
theorem val_main_v120_apply (i : S100000x128.Idx) :
    val_main_v120 (F := F) x0 x3 x4 i = FloatOps.mulf (val_main_v115 (F := F) x0 x3 x4 i) (val_main_v119 (F := F) x3 i) := rfl

def val_main_v121 : (⟨S1x128, .f32⟩ : BufTy).Contents (Elt F) :=
  broadcastInDim S1x128 ![1] bcast_S128_S1x128_1 (val_main_v90 (F := F) x5)
theorem val_main_v121_apply (i : S1x128.Idx) :
    val_main_v121 (F := F) x5 i = val_main_v90 (F := F) x5 (idx_bcast_S128_S1x128_1 i) := by
  unfold val_main_v121
  exact bcast_S128_S1x128_1_apply _ i

def val_main_v122 : (⟨S100000x128, .f32⟩ : BufTy).Contents (Elt F) :=
  broadcastInDim S100000x128 ![0, 1] bcast_S1x128_S100000x128_0_1 (val_main_v121 (F := F) x5)
theorem val_main_v122_apply (i : S100000x128.Idx) :
    val_main_v122 (F := F) x5 i = val_main_v121 (F := F) x5 (idx_bcast_S1x128_S100000x128_0_1 i) := by
  unfold val_main_v122
  exact bcast_S1x128_S100000x128_0_1_apply _ i

def val_main_v123 : (⟨S100000x128, .f32⟩ : BufTy).Contents (Elt F) :=
  addf (val_main_v120 (F := F) x0 x3 x4) (val_main_v122 (F := F) x5)
theorem val_main_v123_apply (i : S100000x128.Idx) :
    val_main_v123 (F := F) x0 x3 x4 x5 i = FloatOps.addf (val_main_v120 (F := F) x0 x3 x4 i) (val_main_v122 (F := F) x5 i) := rfl

def val_main_v124 : (⟨S100000x128, .f32⟩ : BufTy).Contents (Elt F) :=
  addf (val_main_v82 (F := F) x0 x1 x2 x4 x5) (val_main_v123 (F := F) x0 x3 x4 x5)
theorem val_main_v124_apply (i : S100000x128.Idx) :
    val_main_v124 (F := F) x0 x1 x2 x3 x4 x5 i = FloatOps.addf (val_main_v82 (F := F) x0 x1 x2 x4 x5 i) (val_main_v123 (F := F) x0 x3 x4 x5 i) := rfl

def val_main_v125 : (⟨S100000x128, .f32⟩ : BufTy).Contents (Elt F) :=
  Host.dotGeneral dot_S100000x128_S128x128_S100000x128_1_0_0_1_n_n none (val_main_v124 (F := F) x0 x1 x2 x3 x4 x5) (x6)
theorem lhs_d128_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_d128_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_d128_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_d128_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl
abbrev lidx_d128 (i : S100000x128.Idx) (k : Fin 128) : S100000x128.Idx := fun a => match a with
  | ⟨0, _⟩ => ⟨(i 0).val, (i 0).isLt⟩
  | ⟨1, _⟩ => ⟨k.val, k.isLt⟩
abbrev ridx_d128 (i : S100000x128.Idx) (k : Fin 128) : S128x128.Idx := fun a => match a with
  | ⟨0, _⟩ => ⟨k.val, k.isLt⟩
  | ⟨1, _⟩ => ⟨(i 1).val, (i 1).isLt⟩

/-- A contraction over one axis, read at an index, is the sum over that axis of the products. -/
theorem dot_d128_apply (y0 : FVec Ideal S100000x128 .f32) (y1 : FVec Ideal S128x128 .f32) (i : S100000x128.Idx) :
    Host.dotGeneral dot_S100000x128_S128x128_S100000x128_1_0_0_1_n_n none y0 y1 i = ∑ k : Fin 128, y0 (lidx_d128 i k) * y1 (ridx_d128 i k) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lidx_d128 i k := funext fun a => Fin.ext (by
    match a with
    | ⟨0, _⟩ => exact lhs_d128_0 _ _
    | ⟨1, _⟩ => exact (lhs_d128_1 _ _).trans hk)
  have er : dot_S100000x128_S128x128_S100000x128_1_0_0_1_n_n.rhsIdx i ((ValueIdx.contrEquiv1 dot_S100000x128_S128x128_S100000x128_1_0_0_1_n_n 128 rfl rfl).symm k) = ridx_d128 i k := funext fun a => Fin.ext (by
    match a with
    | ⟨0, _⟩ => exact (rhs_d128_0 _ _).trans hk
    | ⟨1, _⟩ => exact rhs_d128_1 _ _)
  rw [el, er]

theorem val_main_v125_apply (i : S100000x128.Idx) :
    val_main_v125 (F := Ideal) z0 z1 z2 z3 z4 z5 z6 i = ∑ k : Fin 128, (val_main_v124 (F := Ideal) z0 z1 z2 z3 z4 z5) (lidx_d128 i k) * z6 (ridx_d128 i k) := by
  unfold val_main_v125
  exact dot_d128_apply _ _ i

def val_main_v126 : (⟨S1x128, .f32⟩ : BufTy).Contents (Elt F) :=
  broadcastInDim S1x128 ![1] bcast_S128_S1x128_1 (x7)
theorem val_main_v126_apply (i : S1x128.Idx) :
    val_main_v126 (F := F) x7 i = x7 (idx_bcast_S128_S1x128_1 i) := by
  unfold val_main_v126
  exact bcast_S128_S1x128_1_apply _ i

def val_main_v127 : (⟨S100000x128, .f32⟩ : BufTy).Contents (Elt F) :=
  broadcastInDim S100000x128 ![0, 1] bcast_S1x128_S100000x128_0_1 (val_main_v126 (F := F) x7)
theorem val_main_v127_apply (i : S100000x128.Idx) :
    val_main_v127 (F := F) x7 i = val_main_v126 (F := F) x7 (idx_bcast_S1x128_S100000x128_0_1 i) := by
  unfold val_main_v127
  exact bcast_S1x128_S100000x128_0_1_apply _ i

def val_main_v128 : (⟨S100000x128, .f32⟩ : BufTy).Contents (Elt F) :=
  addf (val_main_v125 (F := F) x0 x1 x2 x3 x4 x5 x6) (val_main_v127 (F := F) x7)
theorem val_main_v128_apply (i : S100000x128.Idx) :
    val_main_v128 (F := F) x0 x1 x2 x3 x4 x5 x6 x7 i = FloatOps.addf (val_main_v125 (F := F) x0 x1 x2 x3 x4 x5 x6 i) (val_main_v127 (F := F) x7 i) := rfl

def val_main_call6_cst : (⟨S_, .f32⟩ : BufTy).Contents (Elt F) :=
  constant S_ .f32 0x00000000#32
theorem val_main_call6_cst_apply (i : S_.Idx) :
    val_main_call6_cst (F := F) i = FloatOps.ofBits .f32 0x00000000#32 := rfl

def val_main_call6_v0 : (⟨S100000x128, .f32⟩ : BufTy).Contents (Elt F) :=
  broadcastInDim S100000x128 ![] bcast_S_S100000x128 (val_main_call6_cst (F := F))
abbrev idx_bcast_S_S100000x128 (i : S100000x128.Idx) : S_.Idx := fun a => a.elim0
/-- A broadcast read at an index is its operand at that index with the added axes dropped. -/
theorem bcast_S_S100000x128_apply (y : (⟨S_, .f32⟩ : BufTy).Contents (Elt F)) (i : S100000x128.Idx) :
    (broadcastInDim S100000x128 ![] bcast_S_S100000x128 y : (⟨S100000x128, .f32⟩ : BufTy).Contents (Elt F)) i = y (idx_bcast_S_S100000x128 i) := by
  exact broadcastInDim_apply _ bcast_S_S100000x128 y i (idx_bcast_S_S100000x128 i) (fun a => a.elim0)

theorem val_main_call6_v0_apply (i : S100000x128.Idx) :
    val_main_call6_v0 (F := F) i = val_main_call6_cst (F := F) (idx_bcast_S_S100000x128 i) := by
  unfold val_main_call6_v0
  exact bcast_S_S100000x128_apply _ i

def val_main_v129 : (⟨S100000x128, .f32⟩ : BufTy).Contents (Elt F) :=
  maximumf (val_main_v128 (F := F) x0 x1 x2 x3 x4 x5 x6 x7) (val_main_call6_v0 (F := F))
theorem val_main_v129_apply (i : S100000x128.Idx) :
    val_main_v129 (F := F) x0 x1 x2 x3 x4 x5 x6 x7 i = FloatOps.maximumf (val_main_v128 (F := F) x0 x1 x2 x3 x4 x5 x6 x7 i) (val_main_call6_v0 (F := F) i) := rfl

def val_main_cst_28 : (⟨S_, .f32⟩ : BufTy).Contents (Elt F) :=
  constant S_ .f32 0x00000000#32
theorem val_main_cst_28_apply (i : S_.Idx) :
    val_main_cst_28 (F := F) i = FloatOps.ofBits .f32 0x00000000#32 := rfl

def val_main_v130 : (⟨S128, .f32⟩ : BufTy).Contents (Elt F) :=
  Host.reduceAdd (val_main_v129 (F := F) x0 x1 x2 x3 x4 x5 x6 x7) (val_main_cst_28 (F := F)) reducesTo_S100000x128_S128_d0 h_S_
abbrev idx_reducesTo_S100000x128_S128_d0 (i : S128.Idx) (k : Fin 100000) : S100000x128.Idx := fun a => match a with
  | ⟨0, _⟩ => ⟨k.val, k.isLt⟩
  | ⟨1, _⟩ => ⟨(i 0).val, (i 0).isLt⟩

/-- A sum over one axis, read at an index, is the initial value plus the sum over that axis. -/
theorem reducesTo_S100000x128_S128_d0_apply (y : FVec Ideal S100000x128 .f32) (c : FVec Ideal S_ .f32) (i : S128.Idx) :
    (Host.reduceAdd y c reducesTo_S100000x128_S128_d0 h_S_ : FVec Ideal S128 .f32) i = c (Shape.Idx.first h_S_) + ∑ k : Fin 100000, y (idx_reducesTo_S100000x128_S128_d0 i k) := by
  simp only [Host.reduceAdd, Ideal.hostReduceAdd_def]
  rw [Ideal.hostReduceAdd_single reducesTo_S100000x128_S128_d0 (by decide)]
  refine congrArg (_ + ·) (Finset.sum_congr rfl fun k _ => ?_)
  exact congrArg y (funext fun a => Fin.ext (by match a with | ⟨0, _⟩ => rfl | ⟨1, _⟩ => rfl))

theorem val_main_v130_apply (i : S128.Idx) :
    val_main_v130 (F := Ideal) z0 z1 z2 z3 z4 z5 z6 z7 i = (val_main_cst_28 (F := Ideal)) (Shape.Idx.first h_S_) + ∑ k : Fin 100000, (val_main_v129 (F := Ideal) z0 z1 z2 z3 z4 z5 z6 z7) (idx_reducesTo_S100000x128_S128_d0 i k) := by
  unfold val_main_v130
  exact reducesTo_S100000x128_S128_d0_apply _ _ i

def val_main_cst_29 : (⟨S_, .f32⟩ : BufTy).Contents (Elt F) :=
  constant S_ .f32 0x47C35000#32
theorem val_main_cst_29_apply (i : S_.Idx) :
    val_main_cst_29 (F := F) i = FloatOps.ofBits .f32 0x47C35000#32 := rfl

def val_main_v131 : (⟨S128, .f32⟩ : BufTy).Contents (Elt F) :=
  broadcastInDim S128 ![] bcast_S_S128 (val_main_cst_29 (F := F))
abbrev idx_bcast_S_S128 (i : S128.Idx) : S_.Idx := fun a => a.elim0
/-- A broadcast read at an index is its operand at that index with the added axes dropped. -/
theorem bcast_S_S128_apply (y : (⟨S_, .f32⟩ : BufTy).Contents (Elt F)) (i : S128.Idx) :
    (broadcastInDim S128 ![] bcast_S_S128 y : (⟨S128, .f32⟩ : BufTy).Contents (Elt F)) i = y (idx_bcast_S_S128 i) := by
  exact broadcastInDim_apply _ bcast_S_S128 y i (idx_bcast_S_S128 i) (fun a => a.elim0)

theorem val_main_v131_apply (i : S128.Idx) :
    val_main_v131 (F := F) i = val_main_cst_29 (F := F) (idx_bcast_S_S128 i) := by
  unfold val_main_v131
  exact bcast_S_S128_apply _ i

def val_main_v132 : (⟨S128, .f32⟩ : BufTy).Contents (Elt F) :=
  Host.divf (val_main_v130 (F := F) x0 x1 x2 x3 x4 x5 x6 x7) (val_main_v131 (F := F))
theorem val_main_v132_apply (i : S128.Idx) :
    val_main_v132 (F := F) x0 x1 x2 x3 x4 x5 x6 x7 i = FloatOps.hostDivf (val_main_v130 (F := F) x0 x1 x2 x3 x4 x5 x6 x7 i) (val_main_v131 (F := F) i) := rfl

def val_main_v133 : (⟨S1x128, .f32⟩ : BufTy).Contents (Elt F) :=
  broadcastInDim S1x128 ![1] bcast_S128_S1x128_1 (val_main_v132 (F := F) x0 x1 x2 x3 x4 x5 x6 x7)
theorem val_main_v133_apply (i : S1x128.Idx) :
    val_main_v133 (F := F) x0 x1 x2 x3 x4 x5 x6 x7 i = val_main_v132 (F := F) x0 x1 x2 x3 x4 x5 x6 x7 (idx_bcast_S128_S1x128_1 i) := by
  unfold val_main_v133
  exact bcast_S128_S1x128_1_apply _ i

def val_main_v134 : (⟨S100000x128, .f32⟩ : BufTy).Contents (Elt F) :=
  broadcastInDim S100000x128 ![0, 1] bcast_S1x128_S100000x128_0_1 (val_main_v133 (F := F) x0 x1 x2 x3 x4 x5 x6 x7)
theorem val_main_v134_apply (i : S100000x128.Idx) :
    val_main_v134 (F := F) x0 x1 x2 x3 x4 x5 x6 x7 i = val_main_v133 (F := F) x0 x1 x2 x3 x4 x5 x6 x7 (idx_bcast_S1x128_S100000x128_0_1 i) := by
  unfold val_main_v134
  exact bcast_S1x128_S100000x128_0_1_apply _ i

def val_main_v135 : (⟨S100000x128, .f32⟩ : BufTy).Contents (Elt F) :=
  subf (val_main_v129 (F := F) x0 x1 x2 x3 x4 x5 x6 x7) (val_main_v134 (F := F) x0 x1 x2 x3 x4 x5 x6 x7)
theorem val_main_v135_apply (i : S100000x128.Idx) :
    val_main_v135 (F := F) x0 x1 x2 x3 x4 x5 x6 x7 i = FloatOps.subf (val_main_v129 (F := F) x0 x1 x2 x3 x4 x5 x6 x7 i) (val_main_v134 (F := F) x0 x1 x2 x3 x4 x5 x6 x7 i) := rfl

def val_main_v136 : (⟨S100000x128, .f32⟩ : BufTy).Contents (Elt F) :=
  mulf (val_main_v135 (F := F) x0 x1 x2 x3 x4 x5 x6 x7) (val_main_v135 (F := F) x0 x1 x2 x3 x4 x5 x6 x7)
theorem val_main_v136_apply (i : S100000x128.Idx) :
    val_main_v136 (F := F) x0 x1 x2 x3 x4 x5 x6 x7 i = FloatOps.mulf (val_main_v135 (F := F) x0 x1 x2 x3 x4 x5 x6 x7 i) (val_main_v135 (F := F) x0 x1 x2 x3 x4 x5 x6 x7 i) := rfl

def val_main_cst_30 : (⟨S_, .f32⟩ : BufTy).Contents (Elt F) :=
  constant S_ .f32 0x00000000#32
theorem val_main_cst_30_apply (i : S_.Idx) :
    val_main_cst_30 (F := F) i = FloatOps.ofBits .f32 0x00000000#32 := rfl

def val_main_v137 : (⟨S128, .f32⟩ : BufTy).Contents (Elt F) :=
  Host.reduceAdd (val_main_v136 (F := F) x0 x1 x2 x3 x4 x5 x6 x7) (val_main_cst_30 (F := F)) reducesTo_S100000x128_S128_d0 h_S_
theorem val_main_v137_apply (i : S128.Idx) :
    val_main_v137 (F := Ideal) z0 z1 z2 z3 z4 z5 z6 z7 i = (val_main_cst_30 (F := Ideal)) (Shape.Idx.first h_S_) + ∑ k : Fin 100000, (val_main_v136 (F := Ideal) z0 z1 z2 z3 z4 z5 z6 z7) (idx_reducesTo_S100000x128_S128_d0 i k) := by
  unfold val_main_v137
  exact reducesTo_S100000x128_S128_d0_apply _ _ i

def val_main_cst_31 : (⟨S_, .f32⟩ : BufTy).Contents (Elt F) :=
  constant S_ .f32 0x47C35000#32
theorem val_main_cst_31_apply (i : S_.Idx) :
    val_main_cst_31 (F := F) i = FloatOps.ofBits .f32 0x47C35000#32 := rfl

def val_main_v138 : (⟨S128, .f32⟩ : BufTy).Contents (Elt F) :=
  broadcastInDim S128 ![] bcast_S_S128 (val_main_cst_31 (F := F))
theorem val_main_v138_apply (i : S128.Idx) :
    val_main_v138 (F := F) i = val_main_cst_31 (F := F) (idx_bcast_S_S128 i) := by
  unfold val_main_v138
  exact bcast_S_S128_apply _ i

def val_main_v139 : (⟨S128, .f32⟩ : BufTy).Contents (Elt F) :=
  Host.divf (val_main_v137 (F := F) x0 x1 x2 x3 x4 x5 x6 x7) (val_main_v138 (F := F))
theorem val_main_v139_apply (i : S128.Idx) :
    val_main_v139 (F := F) x0 x1 x2 x3 x4 x5 x6 x7 i = FloatOps.hostDivf (val_main_v137 (F := F) x0 x1 x2 x3 x4 x5 x6 x7 i) (val_main_v138 (F := F) i) := rfl

def val_main_v140 : (⟨S1x128, .f32⟩ : BufTy).Contents (Elt F) :=
  broadcastInDim S1x128 ![1] bcast_S128_S1x128_1 (val_main_v132 (F := F) x0 x1 x2 x3 x4 x5 x6 x7)
theorem val_main_v140_apply (i : S1x128.Idx) :
    val_main_v140 (F := F) x0 x1 x2 x3 x4 x5 x6 x7 i = val_main_v132 (F := F) x0 x1 x2 x3 x4 x5 x6 x7 (idx_bcast_S128_S1x128_1 i) := by
  unfold val_main_v140
  exact bcast_S128_S1x128_1_apply _ i

def val_main_v141 : (⟨S100000x128, .f32⟩ : BufTy).Contents (Elt F) :=
  broadcastInDim S100000x128 ![0, 1] bcast_S1x128_S100000x128_0_1 (val_main_v140 (F := F) x0 x1 x2 x3 x4 x5 x6 x7)
theorem val_main_v141_apply (i : S100000x128.Idx) :
    val_main_v141 (F := F) x0 x1 x2 x3 x4 x5 x6 x7 i = val_main_v140 (F := F) x0 x1 x2 x3 x4 x5 x6 x7 (idx_bcast_S1x128_S100000x128_0_1 i) := by
  unfold val_main_v141
  exact bcast_S1x128_S100000x128_0_1_apply _ i

def val_main_v142 : (⟨S100000x128, .f32⟩ : BufTy).Contents (Elt F) :=
  subf (val_main_v129 (F := F) x0 x1 x2 x3 x4 x5 x6 x7) (val_main_v141 (F := F) x0 x1 x2 x3 x4 x5 x6 x7)
theorem val_main_v142_apply (i : S100000x128.Idx) :
    val_main_v142 (F := F) x0 x1 x2 x3 x4 x5 x6 x7 i = FloatOps.subf (val_main_v129 (F := F) x0 x1 x2 x3 x4 x5 x6 x7 i) (val_main_v141 (F := F) x0 x1 x2 x3 x4 x5 x6 x7 i) := rfl

def val_main_cst_32 : (⟨S_, .f32⟩ : BufTy).Contents (Elt F) :=
  constant S_ .f32 0x3727C5AC#32
theorem val_main_cst_32_apply (i : S_.Idx) :
    val_main_cst_32 (F := F) i = FloatOps.ofBits .f32 0x3727C5AC#32 := rfl

def val_main_v143 : (⟨S128, .f32⟩ : BufTy).Contents (Elt F) :=
  broadcastInDim S128 ![] bcast_S_S128 (val_main_cst_32 (F := F))
theorem val_main_v143_apply (i : S128.Idx) :
    val_main_v143 (F := F) i = val_main_cst_32 (F := F) (idx_bcast_S_S128 i) := by
  unfold val_main_v143
  exact bcast_S_S128_apply _ i

def val_main_v144 : (⟨S128, .f32⟩ : BufTy).Contents (Elt F) :=
  addf (val_main_v139 (F := F) x0 x1 x2 x3 x4 x5 x6 x7) (val_main_v143 (F := F))
theorem val_main_v144_apply (i : S128.Idx) :
    val_main_v144 (F := F) x0 x1 x2 x3 x4 x5 x6 x7 i = FloatOps.addf (val_main_v139 (F := F) x0 x1 x2 x3 x4 x5 x6 x7 i) (val_main_v143 (F := F) i) := rfl

def val_main_v145 : (⟨S128, .f32⟩ : BufTy).Contents (Elt F) :=
  Host.rsqrt (val_main_v144 (F := F) x0 x1 x2 x3 x4 x5 x6 x7)
theorem val_main_v145_apply (i : S128.Idx) :
    val_main_v145 (F := F) x0 x1 x2 x3 x4 x5 x6 x7 i = FloatOps.hostUnary .rsqrt (val_main_v144 (F := F) x0 x1 x2 x3 x4 x5 x6 x7 i) := rfl

def val_main_v146 : (⟨S1x128, .f32⟩ : BufTy).Contents (Elt F) :=
  broadcastInDim S1x128 ![1] bcast_S128_S1x128_1 (val_main_v145 (F := F) x0 x1 x2 x3 x4 x5 x6 x7)
theorem val_main_v146_apply (i : S1x128.Idx) :
    val_main_v146 (F := F) x0 x1 x2 x3 x4 x5 x6 x7 i = val_main_v145 (F := F) x0 x1 x2 x3 x4 x5 x6 x7 (idx_bcast_S128_S1x128_1 i) := by
  unfold val_main_v146
  exact bcast_S128_S1x128_1_apply _ i

def val_main_v147 : (⟨S100000x128, .f32⟩ : BufTy).Contents (Elt F) :=
  broadcastInDim S100000x128 ![0, 1] bcast_S1x128_S100000x128_0_1 (val_main_v146 (F := F) x0 x1 x2 x3 x4 x5 x6 x7)
theorem val_main_v147_apply (i : S100000x128.Idx) :
    val_main_v147 (F := F) x0 x1 x2 x3 x4 x5 x6 x7 i = val_main_v146 (F := F) x0 x1 x2 x3 x4 x5 x6 x7 (idx_bcast_S1x128_S100000x128_0_1 i) := by
  unfold val_main_v147
  exact bcast_S1x128_S100000x128_0_1_apply _ i

def val_main_v148 : (⟨S100000x128, .f32⟩ : BufTy).Contents (Elt F) :=
  mulf (val_main_v142 (F := F) x0 x1 x2 x3 x4 x5 x6 x7) (val_main_v147 (F := F) x0 x1 x2 x3 x4 x5 x6 x7)
theorem val_main_v148_apply (i : S100000x128.Idx) :
    val_main_v148 (F := F) x0 x1 x2 x3 x4 x5 x6 x7 i = FloatOps.mulf (val_main_v142 (F := F) x0 x1 x2 x3 x4 x5 x6 x7 i) (val_main_v147 (F := F) x0 x1 x2 x3 x4 x5 x6 x7 i) := rfl

def val_main_v149 : (⟨S1x128, .f32⟩ : BufTy).Contents (Elt F) :=
  broadcastInDim S1x128 ![1] bcast_S128_S1x128_1 (x8)
theorem val_main_v149_apply (i : S1x128.Idx) :
    val_main_v149 (F := F) x8 i = x8 (idx_bcast_S128_S1x128_1 i) := by
  unfold val_main_v149
  exact bcast_S128_S1x128_1_apply _ i

def val_main_v150 : (⟨S100000x128, .f32⟩ : BufTy).Contents (Elt F) :=
  broadcastInDim S100000x128 ![0, 1] bcast_S1x128_S100000x128_0_1 (val_main_v149 (F := F) x8)
theorem val_main_v150_apply (i : S100000x128.Idx) :
    val_main_v150 (F := F) x8 i = val_main_v149 (F := F) x8 (idx_bcast_S1x128_S100000x128_0_1 i) := by
  unfold val_main_v150
  exact bcast_S1x128_S100000x128_0_1_apply _ i

def val_main_v151 : (⟨S100000x128, .f32⟩ : BufTy).Contents (Elt F) :=
  mulf (val_main_v148 (F := F) x0 x1 x2 x3 x4 x5 x6 x7) (val_main_v150 (F := F) x8)
theorem val_main_v151_apply (i : S100000x128.Idx) :
    val_main_v151 (F := F) x0 x1 x2 x3 x4 x5 x6 x7 x8 i = FloatOps.mulf (val_main_v148 (F := F) x0 x1 x2 x3 x4 x5 x6 x7 i) (val_main_v150 (F := F) x8 i) := rfl

def val_main_v152 : (⟨S1x128, .f32⟩ : BufTy).Contents (Elt F) :=
  broadcastInDim S1x128 ![1] bcast_S128_S1x128_1 (x9)
theorem val_main_v152_apply (i : S1x128.Idx) :
    val_main_v152 (F := F) x9 i = x9 (idx_bcast_S128_S1x128_1 i) := by
  unfold val_main_v152
  exact bcast_S128_S1x128_1_apply _ i

def val_main_v153 : (⟨S100000x128, .f32⟩ : BufTy).Contents (Elt F) :=
  broadcastInDim S100000x128 ![0, 1] bcast_S1x128_S100000x128_0_1 (val_main_v152 (F := F) x9)
theorem val_main_v153_apply (i : S100000x128.Idx) :
    val_main_v153 (F := F) x9 i = val_main_v152 (F := F) x9 (idx_bcast_S1x128_S100000x128_0_1 i) := by
  unfold val_main_v153
  exact bcast_S1x128_S100000x128_0_1_apply _ i

def val_main_v154 : (⟨S100000x128, .f32⟩ : BufTy).Contents (Elt F) :=
  addf (val_main_v151 (F := F) x0 x1 x2 x3 x4 x5 x6 x7 x8) (val_main_v153 (F := F) x9)
theorem val_main_v154_apply (i : S100000x128.Idx) :
    val_main_v154 (F := F) x0 x1 x2 x3 x4 x5 x6 x7 x8 x9 i = FloatOps.addf (val_main_v151 (F := F) x0 x1 x2 x3 x4 x5 x6 x7 x8 i) (val_main_v153 (F := F) x9 i) := rfl

def val_main_v155 : (⟨S1x200000, .i32⟩ : BufTy).Contents (Elt F) :=
  extractStridedSlice S1x200000 ![0, 0] (x1) slices_S2x200000_S1x200000_0_0

def val_main_v156 : (⟨S200000, .i32⟩ : BufTy).Contents (Elt F) :=
  shapeCast _ (val_main_v155 (F := F) x1) shapeCasts_S1x200000_S200000

def val_main_v157 : (⟨S1x200000, .i32⟩ : BufTy).Contents (Elt F) :=
  extractStridedSlice S1x200000 ![1, 0] (x1) slices_S2x200000_S1x200000_1_0

def val_main_v158 : (⟨S200000, .i32⟩ : BufTy).Contents (Elt F) :=
  shapeCast _ (val_main_v157 (F := F) x1) shapeCasts_S1x200000_S200000

def val_main_v159 : (⟨S1x128x128, .f32⟩ : BufTy).Contents (Elt F) :=
  extractStridedSlice S1x128x128 ![0, 0, 0] (x10) slices_S3x128x128_S1x128x128_0_0_0
abbrev idx_main_v159 (i : S1x128x128.Idx) : S3x128x128.Idx := fun a => match a with
  | ⟨0, _⟩ => ⟨(i 0).val, by have h0 : (i 0).val < 1 := (i 0).isLt; show (i 0).val < 3; omega⟩
  | ⟨1, _⟩ => ⟨(i 1).val, (i 1).isLt⟩
  | ⟨2, _⟩ => ⟨(i 2).val, (i 2).isLt⟩
theorem val_main_v159_apply (i : S1x128x128.Idx) :
    val_main_v159 (F := F) x10 i = x10 (idx_main_v159 i) := by
  unfold val_main_v159
  exact extractStridedSlice_apply ![0, 0, 0] x10 slices_S3x128x128_S1x128x128_0_0_0 i (idx_main_v159 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v160 : (⟨S128x128, .f32⟩ : BufTy).Contents (Elt F) :=
  shapeCast _ (val_main_v159 (F := F) x10) shapeCasts_S1x128x128_S128x128
abbrev idx_shapeCasts_S1x128x128_S128x128 (i : S128x128.Idx) : S1x128x128.Idx := fun a => match a with
  | ⟨0, _⟩ => ⟨0, Nat.one_pos⟩
  | ⟨1, _⟩ => ⟨((i 0).val * 128 + (i 1).val) / 128 % 128, by have h0 : (i 0).val < 128 := (i 0).isLt; have h1 : (i 1).val < 128 := (i 1).isLt; show ((i 0).val * 128 + (i 1).val) / 128 % 128 < 128; omega⟩
  | ⟨2, _⟩ => ⟨((i 0).val * 128 + (i 1).val) % 128, by have h0 : (i 0).val < 128 := (i 0).isLt; have h1 : (i 1).val < 128 := (i 1).isLt; show ((i 0).val * 128 + (i 1).val) % 128 < 128; omega⟩
/-- A reshape read at an index is its operand at the index of the same row-major position. -/
theorem shapeCasts_S1x128x128_S128x128_apply (y : (⟨S1x128x128, .f32⟩ : BufTy).Contents (Elt F)) (i : S128x128.Idx) :
    (shapeCast _ y shapeCasts_S1x128x128_S128x128 : (⟨S128x128, .f32⟩ : BufTy).Contents (Elt F)) i = y (idx_shapeCasts_S1x128x128_S128x128 i) := by
  exact shapeCast_apply y shapeCasts_S1x128x128_S128x128 i (idx_shapeCasts_S1x128x128_S128x128 i)
    (by rewrite [Shape.rowMajor_val_three, Shape.rowMajor_val_two]; have h0 : (i 0).val < 128 := (i 0).isLt; have h1 : (i 1).val < 128 := (i 1).isLt; show (0 * 128 + ((i 0).val * 128 + (i 1).val) / 128 % 128) * 128 + ((i 0).val * 128 + (i 1).val) % 128 = (i 0).val * 128 + (i 1).val; omega)

theorem val_main_v160_apply (i : S128x128.Idx) :
    val_main_v160 (F := F) x10 i = val_main_v159 (F := F) x10 (idx_shapeCasts_S1x128x128_S128x128 i) := by
  unfold val_main_v160
  exact shapeCasts_S1x128x128_S128x128_apply _ i

def val_main_v161 : (⟨S1x128, .f32⟩ : BufTy).Contents (Elt F) :=
  extractStridedSlice S1x128 ![0, 0] (x11) slices_S3x128_S1x128_0_0
abbrev idx_main_v161 (i : S1x128.Idx) : S3x128.Idx := fun a => match a with
  | ⟨0, _⟩ => ⟨(i 0).val, by have h0 : (i 0).val < 1 := (i 0).isLt; show (i 0).val < 3; omega⟩
  | ⟨1, _⟩ => ⟨(i 1).val, (i 1).isLt⟩
theorem val_main_v161_apply (i : S1x128.Idx) :
    val_main_v161 (F := F) x11 i = x11 (idx_main_v161 i) := by
  unfold val_main_v161
  exact extractStridedSlice_apply ![0, 0] x11 slices_S3x128_S1x128_0_0 i (idx_main_v161 i) (fun a => match a with
    | ⟨0, _⟩ => by show (i 0).val = 0 + (i 0).val; omega
    | ⟨1, _⟩ => by show (i 1).val = 0 + (i 1).val; omega)

def val_main_v162 : (⟨S128, .f32⟩ : BufTy).Contents (Elt F) :=
  shapeCast _ (val_main_v161 (F := F) x11) shapeCasts_S1x128_S128
theorem val_main_v162_apply (i : S128.Idx) :
    val_main_v162 (F := F) x11 i = val_main_v161 (F := F) x11 (idx_shapeCasts_S1x128_S128 i) := by
  unfold val_main_v162
  exact shapeCasts_S1x128_S128_apply _ i

def val_main_cst_33 : (⟨S_, .f32⟩ : BufTy).Contents (Elt F) :=
  constant S_ .f32 0x3F800000#32

def val_main_v163 : (⟨S200000, .f32⟩ : BufTy).Contents (Elt F) :=
  broadcastInDim S200000 ![] bcast_S_S200000 (val_main_cst_33 (F := F))

def val_main_cst_34 : (⟨S_, .f32⟩ : BufTy).Contents (Elt F) :=
  constant S_ .f32 0x00000000#32

def val_main_v164 : (⟨S100000, .f32⟩ : BufTy).Contents (Elt F) :=
  broadcastInDim S100000 ![] bcast_S_S100000 (val_main_cst_34 (F := F))

def val_main_v165 : (⟨S200000x1, .i32⟩ : BufTy).Contents (Elt F) :=
  broadcastInDim S200000x1 ![0] bcast_S200000_S200000x1_0 (val_main_v156 (F := F) x1)

def val_main_v166 : (⟨S100000, .f32⟩ : BufTy).Contents (Elt F) :=
  Host.scatterAdd scatter_S100000_S200000x1_S200000_n_0_0_1 (val_main_v164 (F := F)) (val_main_v165 (F := F) x1) (val_main_v163 (F := F))

def val_main_cst_35 : (⟨S_, .f32⟩ : BufTy).Contents (Elt F) :=
  constant S_ .f32 0x3F800000#32

def val_main_call7_v0 : (⟨S_, .f32⟩ : BufTy).Contents (Elt F) :=
  id (val_main_cst_35 (F := F))

def val_main_call7_v1 : (⟨S100000, .f32⟩ : BufTy).Contents (Elt F) :=
  broadcastInDim S100000 ![] bcast_S_S100000 (val_main_call7_v0 (F := F))

def val_main_v167 : (⟨S100000, .f32⟩ : BufTy).Contents (Elt F) :=
  maximumf (val_main_call7_v1 (F := F)) (val_main_v166 (F := F) x1)

def val_main_cst_36 : (⟨S_, .f32⟩ : BufTy).Contents (Elt F) :=
  constant S_ .f32 0x00000000#32

def val_main_v168 : (⟨S100000, .f32⟩ : BufTy).Contents (Elt F) :=
  broadcastInDim S100000 ![] bcast_S_S100000 (val_main_cst_36 (F := F))

def val_main_v169 : (⟨S200000x1, .i32⟩ : BufTy).Contents (Elt F) :=
  broadcastInDim S200000x1 ![0] bcast_S200000_S200000x1_0 (val_main_v158 (F := F) x1)

def val_main_v170 : (⟨S100000, .f32⟩ : BufTy).Contents (Elt F) :=
  Host.scatterAdd scatter_S100000_S200000x1_S200000_n_0_0_1 (val_main_v168 (F := F)) (val_main_v169 (F := F) x1) (val_main_v163 (F := F))

def val_main_cst_37 : (⟨S_, .f32⟩ : BufTy).Contents (Elt F) :=
  constant S_ .f32 0x3F800000#32

def val_main_call8_v0 : (⟨S_, .f32⟩ : BufTy).Contents (Elt F) :=
  id (val_main_cst_37 (F := F))

def val_main_call8_v1 : (⟨S100000, .f32⟩ : BufTy).Contents (Elt F) :=
  broadcastInDim S100000 ![] bcast_S_S100000 (val_main_call8_v0 (F := F))

def val_main_v171 : (⟨S100000, .f32⟩ : BufTy).Contents (Elt F) :=
  maximumf (val_main_call8_v1 (F := F)) (val_main_v170 (F := F) x1)

def val_main_cst_38 : (⟨S_, .f32⟩ : BufTy).Contents (Elt F) :=
  constant S_ .f32 0xBF000000#32

def val_main_v172 : (⟨S100000, .f32⟩ : BufTy).Contents (Elt F) :=
  broadcastInDim S100000 ![] bcast_S_S100000 (val_main_cst_38 (F := F))

def val_main_v173 : (⟨S100000, .f32⟩ : BufTy).Contents (Elt F) :=
  Host.powf (val_main_v167 (F := F) x1) (val_main_v172 (F := F))

def val_main_v174 : (⟨S100000x1, .f32⟩ : BufTy).Contents (Elt F) :=
  broadcastInDim S100000x1 ![0] bcast_S100000_S100000x1_0 (val_main_v173 (F := F) x1)
theorem val_main_v174_apply (i : S100000x1.Idx) :
    val_main_v174 (F := F) x1 i = val_main_v173 (F := F) x1 (idx_bcast_S100000_S100000x1_0 i) := by
  unfold val_main_v174
  exact bcast_S100000_S100000x1_0_apply _ i

def val_main_v175 : (⟨S100000x128, .f32⟩ : BufTy).Contents (Elt F) :=
  broadcastInDim S100000x128 ![0, 1] bcast_S100000x1_S100000x128_0_1 (val_main_v174 (F := F) x1)
theorem val_main_v175_apply (i : S100000x128.Idx) :
    val_main_v175 (F := F) x1 i = val_main_v174 (F := F) x1 (idx_bcast_S100000x1_S100000x128_0_1 i) := by
  unfold val_main_v175
  exact bcast_S100000x1_S100000x128_0_1_apply _ i

def val_main_v176 : (⟨S100000x128, .f32⟩ : BufTy).Contents (Elt F) :=
  mulf (val_main_v154 (F := F) x0 x1 x2 x3 x4 x5 x6 x7 x8 x9) (val_main_v175 (F := F) x1)
theorem val_main_v176_apply (i : S100000x128.Idx) :
    val_main_v176 (F := F) x0 x1 x2 x3 x4 x5 x6 x7 x8 x9 i = FloatOps.mulf (val_main_v154 (F := F) x0 x1 x2 x3 x4 x5 x6 x7 x8 x9 i) (val_main_v175 (F := F) x1 i) := rfl

def val_main_v177 : (⟨S100000x128, .f32⟩ : BufTy).Contents (Elt F) :=
  Host.dotGeneral dot_S100000x128_S128x128_S100000x128_1_0_0_1_n_n none (val_main_v176 (F := F) x0 x1 x2 x3 x4 x5 x6 x7 x8 x9) (val_main_v160 (F := F) x10)
theorem val_main_v177_apply (i : S100000x128.Idx) :
    val_main_v177 (F := Ideal) z0 z1 z2 z3 z4 z5 z6 z7 z8 z9 z10 i = ∑ k : Fin 128, (val_main_v176 (F := Ideal) z0 z1 z2 z3 z4 z5 z6 z7 z8 z9) (lidx_d128 i k) * (val_main_v160 (F := Ideal) z10) (ridx_d128 i k) := by
  unfold val_main_v177
  exact dot_d128_apply _ _ i

def val_main_c_39 : (⟨S_, .i32⟩ : BufTy).Contents (Elt F) :=
  constantI S_ 32 0#32

def val_main_v178 : (⟨S200000, .i32⟩ : BufTy).Contents (Elt F) :=
  broadcastInDim S200000 ![] bcast_S_S200000 (val_main_c_39 (F := F))

def val_main_v179 : (⟨S200000, .i1⟩ : BufTy).Contents (Elt F) :=
  cmpi .slt (val_main_v156 (F := F) x1) (val_main_v178 (F := F))

def val_main_c_40 : (⟨S_, .i32⟩ : BufTy).Contents (Elt F) :=
  constantI S_ 32 100000#32

def val_main_v180 : (⟨S200000, .i32⟩ : BufTy).Contents (Elt F) :=
  broadcastInDim S200000 ![] bcast_S_S200000 (val_main_c_40 (F := F))

def val_main_v181 : (⟨S200000, .i32⟩ : BufTy).Contents (Elt F) :=
  addi (val_main_v156 (F := F) x1) (val_main_v180 (F := F))

def val_main_v182 : (⟨S200000, .i32⟩ : BufTy).Contents (Elt F) :=
  select (val_main_v179 (F := F) x1) (val_main_v181 (F := F) x1) (val_main_v156 (F := F) x1)

def val_main_v183 : (⟨S200000x1, .i32⟩ : BufTy).Contents (Elt F) :=
  broadcastInDim S200000x1 ![0] bcast_S200000_S200000x1_0 (val_main_v182 (F := F) x1)

def val_main_v184 : (⟨S200000x128, .f32⟩ : BufTy).Contents (Elt F) :=
  Host.gather gather_S100000x128_S200000x1_S200000x128_1_0_n_n_0_1_1128 (val_main_v177 (F := F) x0 x1 x2 x3 x4 x5 x6 x7 x8 x9 x10) (val_main_v183 (F := F) x1)

def val_main_cst_41 : (⟨S_, .f32⟩ : BufTy).Contents (Elt F) :=
  constant S_ .f32 0x00000000#32

def val_main_v185 : (⟨S100000x128, .f32⟩ : BufTy).Contents (Elt F) :=
  broadcastInDim S100000x128 ![] bcast_S_S100000x128 (val_main_cst_41 (F := F))

def val_main_v186 : (⟨S200000x1, .i32⟩ : BufTy).Contents (Elt F) :=
  broadcastInDim S200000x1 ![0] bcast_S200000_S200000x1_0 (val_main_v158 (F := F) x1)

def val_main_v187 : (⟨S100000x128, .f32⟩ : BufTy).Contents (Elt F) :=
  Host.scatterAdd scatter_S100000x128_S200000x1_S200000x128_1_0_0_1 (val_main_v185 (F := F)) (val_main_v186 (F := F) x1) (val_main_v184 (F := F) x0 x1 x2 x3 x4 x5 x6 x7 x8 x9 x10)

def val_main_cst_42 : (⟨S_, .f32⟩ : BufTy).Contents (Elt F) :=
  constant S_ .f32 0xBF000000#32

def val_main_v188 : (⟨S100000, .f32⟩ : BufTy).Contents (Elt F) :=
  broadcastInDim S100000 ![] bcast_S_S100000 (val_main_cst_42 (F := F))

def val_main_v189 : (⟨S100000, .f32⟩ : BufTy).Contents (Elt F) :=
  Host.powf (val_main_v171 (F := F) x1) (val_main_v188 (F := F))

def val_main_v190 : (⟨S100000x1, .f32⟩ : BufTy).Contents (Elt F) :=
  broadcastInDim S100000x1 ![0] bcast_S100000_S100000x1_0 (val_main_v189 (F := F) x1)
theorem val_main_v190_apply (i : S100000x1.Idx) :
    val_main_v190 (F := F) x1 i = val_main_v189 (F := F) x1 (idx_bcast_S100000_S100000x1_0 i) := by
  unfold val_main_v190
  exact bcast_S100000_S100000x1_0_apply _ i

def val_main_v191 : (⟨S100000x128, .f32⟩ : BufTy).Contents (Elt F) :=
  broadcastInDim S100000x128 ![0, 1] bcast_S100000x1_S100000x128_0_1 (val_main_v190 (F := F) x1)
theorem val_main_v191_apply (i : S100000x128.Idx) :
    val_main_v191 (F := F) x1 i = val_main_v190 (F := F) x1 (idx_bcast_S100000x1_S100000x128_0_1 i) := by
  unfold val_main_v191
  exact bcast_S100000x1_S100000x128_0_1_apply _ i

def val_main_v192 : (⟨S100000x128, .f32⟩ : BufTy).Contents (Elt F) :=
  mulf (val_main_v187 (F := F) x0 x1 x2 x3 x4 x5 x6 x7 x8 x9 x10) (val_main_v191 (F := F) x1)
theorem val_main_v192_apply (i : S100000x128.Idx) :
    val_main_v192 (F := F) x0 x1 x2 x3 x4 x5 x6 x7 x8 x9 x10 i = FloatOps.mulf (val_main_v187 (F := F) x0 x1 x2 x3 x4 x5 x6 x7 x8 x9 x10 i) (val_main_v191 (F := F) x1 i) := rfl

def val_main_v193 : (⟨S1x128, .f32⟩ : BufTy).Contents (Elt F) :=
  broadcastInDim S1x128 ![1] bcast_S128_S1x128_1 (val_main_v162 (F := F) x11)
theorem val_main_v193_apply (i : S1x128.Idx) :
    val_main_v193 (F := F) x11 i = val_main_v162 (F := F) x11 (idx_bcast_S128_S1x128_1 i) := by
  unfold val_main_v193
  exact bcast_S128_S1x128_1_apply _ i

def val_main_v194 : (⟨S100000x128, .f32⟩ : BufTy).Contents (Elt F) :=
  broadcastInDim S100000x128 ![0, 1] bcast_S1x128_S100000x128_0_1 (val_main_v193 (F := F) x11)
theorem val_main_v194_apply (i : S100000x128.Idx) :
    val_main_v194 (F := F) x11 i = val_main_v193 (F := F) x11 (idx_bcast_S1x128_S100000x128_0_1 i) := by
  unfold val_main_v194
  exact bcast_S1x128_S100000x128_0_1_apply _ i

def val_main_v195 : (⟨S100000x128, .f32⟩ : BufTy).Contents (Elt F) :=
  addf (val_main_v192 (F := F) x0 x1 x2 x3 x4 x5 x6 x7 x8 x9 x10) (val_main_v194 (F := F) x11)
theorem val_main_v195_apply (i : S100000x128.Idx) :
    val_main_v195 (F := F) x0 x1 x2 x3 x4 x5 x6 x7 x8 x9 x10 x11 i = FloatOps.addf (val_main_v192 (F := F) x0 x1 x2 x3 x4 x5 x6 x7 x8 x9 x10 i) (val_main_v194 (F := F) x11 i) := rfl

def val_main_v196 : (⟨S1x1000000, .i32⟩ : BufTy).Contents (Elt F) :=
  extractStridedSlice S1x1000000 ![0, 0] (x2) slices_S2x1000000_S1x1000000_0_0

def val_main_v197 : (⟨S1000000, .i32⟩ : BufTy).Contents (Elt F) :=
  shapeCast _ (val_main_v196 (F := F) x2) shapeCasts_S1x1000000_S1000000

def val_main_v198 : (⟨S1x1000000, .i32⟩ : BufTy).Contents (Elt F) :=
  extractStridedSlice S1x1000000 ![1, 0] (x2) slices_S2x1000000_S1x1000000_1_0

def val_main_v199 : (⟨S1000000, .i32⟩ : BufTy).Contents (Elt F) :=
  shapeCast _ (val_main_v198 (F := F) x2) shapeCasts_S1x1000000_S1000000

def val_main_v200 : (⟨S1x128x128, .f32⟩ : BufTy).Contents (Elt F) :=
  extractStridedSlice S1x128x128 ![1, 0, 0] (x10) slices_S3x128x128_S1x128x128_1_0_0
abbrev idx_main_v200 (i : S1x128x128.Idx) : S3x128x128.Idx := fun a => match a with
  | ⟨0, _⟩ => ⟨1 + (i 0).val, by have h0 : (i 0).val < 1 := (i 0).isLt; show 1 + (i 0).val < 3; omega⟩
  | ⟨1, _⟩ => ⟨(i 1).val, (i 1).isLt⟩
  | ⟨2, _⟩ => ⟨(i 2).val, (i 2).isLt⟩
theorem val_main_v200_apply (i : S1x128x128.Idx) :
    val_main_v200 (F := F) x10 i = x10 (idx_main_v200 i) := by
  unfold val_main_v200
  exact extractStridedSlice_apply ![1, 0, 0] x10 slices_S3x128x128_S1x128x128_1_0_0 i (idx_main_v200 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

def val_main_v201 : (⟨S128x128, .f32⟩ : BufTy).Contents (Elt F) :=
  shapeCast _ (val_main_v200 (F := F) x10) shapeCasts_S1x128x128_S128x128
theorem val_main_v201_apply (i : S128x128.Idx) :
    val_main_v201 (F := F) x10 i = val_main_v200 (F := F) x10 (idx_shapeCasts_S1x128x128_S128x128 i) := by
  unfold val_main_v201
  exact shapeCasts_S1x128x128_S128x128_apply _ i

def val_main_v202 : (⟨S1x128, .f32⟩ : BufTy).Contents (Elt F) :=
  extractStridedSlice S1x128 ![1, 0] (x11) slices_S3x128_S1x128_1_0
abbrev idx_main_v202 (i : S1x128.Idx) : S3x128.Idx := fun a => match a with
  | ⟨0, _⟩ => ⟨1 + (i 0).val, by have h0 : (i 0).val < 1 := (i 0).isLt; show 1 + (i 0).val < 3; omega⟩
  | ⟨1, _⟩ => ⟨(i 1).val, (i 1).isLt⟩
theorem val_main_v202_apply (i : S1x128.Idx) :
    val_main_v202 (F := F) x11 i = x11 (idx_main_v202 i) := by
  unfold val_main_v202
  exact extractStridedSlice_apply ![1, 0] x11 slices_S3x128_S1x128_1_0 i (idx_main_v202 i) (fun a => match a with
    | ⟨0, _⟩ => by show 1 + (i 0).val = 1 + (i 0).val; omega
    | ⟨1, _⟩ => by show (i 1).val = 0 + (i 1).val; omega)

def val_main_v203 : (⟨S128, .f32⟩ : BufTy).Contents (Elt F) :=
  shapeCast _ (val_main_v202 (F := F) x11) shapeCasts_S1x128_S128
theorem val_main_v203_apply (i : S128.Idx) :
    val_main_v203 (F := F) x11 i = val_main_v202 (F := F) x11 (idx_shapeCasts_S1x128_S128 i) := by
  unfold val_main_v203
  exact shapeCasts_S1x128_S128_apply _ i

def val_main_cst_43 : (⟨S_, .f32⟩ : BufTy).Contents (Elt F) :=
  constant S_ .f32 0x3F800000#32

def val_main_v204 : (⟨S1000000, .f32⟩ : BufTy).Contents (Elt F) :=
  broadcastInDim S1000000 ![] bcast_S_S1000000 (val_main_cst_43 (F := F))

def val_main_cst_44 : (⟨S_, .f32⟩ : BufTy).Contents (Elt F) :=
  constant S_ .f32 0x00000000#32

def val_main_v205 : (⟨S100000, .f32⟩ : BufTy).Contents (Elt F) :=
  broadcastInDim S100000 ![] bcast_S_S100000 (val_main_cst_44 (F := F))

def val_main_v206 : (⟨S1000000x1, .i32⟩ : BufTy).Contents (Elt F) :=
  broadcastInDim S1000000x1 ![0] bcast_S1000000_S1000000x1_0 (val_main_v197 (F := F) x2)

def val_main_v207 : (⟨S100000, .f32⟩ : BufTy).Contents (Elt F) :=
  Host.scatterAdd scatter_S100000_S1000000x1_S1000000_n_0_0_1 (val_main_v205 (F := F)) (val_main_v206 (F := F) x2) (val_main_v204 (F := F))

def val_main_cst_45 : (⟨S_, .f32⟩ : BufTy).Contents (Elt F) :=
  constant S_ .f32 0x3F800000#32

def val_main_call9_v0 : (⟨S_, .f32⟩ : BufTy).Contents (Elt F) :=
  id (val_main_cst_45 (F := F))

def val_main_call9_v1 : (⟨S100000, .f32⟩ : BufTy).Contents (Elt F) :=
  broadcastInDim S100000 ![] bcast_S_S100000 (val_main_call9_v0 (F := F))

def val_main_v208 : (⟨S100000, .f32⟩ : BufTy).Contents (Elt F) :=
  maximumf (val_main_call9_v1 (F := F)) (val_main_v207 (F := F) x2)

def val_main_cst_46 : (⟨S_, .f32⟩ : BufTy).Contents (Elt F) :=
  constant S_ .f32 0x00000000#32

def val_main_v209 : (⟨S100000, .f32⟩ : BufTy).Contents (Elt F) :=
  broadcastInDim S100000 ![] bcast_S_S100000 (val_main_cst_46 (F := F))

def val_main_v210 : (⟨S1000000x1, .i32⟩ : BufTy).Contents (Elt F) :=
  broadcastInDim S1000000x1 ![0] bcast_S1000000_S1000000x1_0 (val_main_v199 (F := F) x2)

def val_main_v211 : (⟨S100000, .f32⟩ : BufTy).Contents (Elt F) :=
  Host.scatterAdd scatter_S100000_S1000000x1_S1000000_n_0_0_1 (val_main_v209 (F := F)) (val_main_v210 (F := F) x2) (val_main_v204 (F := F))

def val_main_cst_47 : (⟨S_, .f32⟩ : BufTy).Contents (Elt F) :=
  constant S_ .f32 0x3F800000#32

def val_main_call10_v0 : (⟨S_, .f32⟩ : BufTy).Contents (Elt F) :=
  id (val_main_cst_47 (F := F))

def val_main_call10_v1 : (⟨S100000, .f32⟩ : BufTy).Contents (Elt F) :=
  broadcastInDim S100000 ![] bcast_S_S100000 (val_main_call10_v0 (F := F))

def val_main_v212 : (⟨S100000, .f32⟩ : BufTy).Contents (Elt F) :=
  maximumf (val_main_call10_v1 (F := F)) (val_main_v211 (F := F) x2)

def val_main_cst_48 : (⟨S_, .f32⟩ : BufTy).Contents (Elt F) :=
  constant S_ .f32 0xBF000000#32

def val_main_v213 : (⟨S100000, .f32⟩ : BufTy).Contents (Elt F) :=
  broadcastInDim S100000 ![] bcast_S_S100000 (val_main_cst_48 (F := F))

def val_main_v214 : (⟨S100000, .f32⟩ : BufTy).Contents (Elt F) :=
  Host.powf (val_main_v208 (F := F) x2) (val_main_v213 (F := F))

def val_main_v215 : (⟨S100000x1, .f32⟩ : BufTy).Contents (Elt F) :=
  broadcastInDim S100000x1 ![0] bcast_S100000_S100000x1_0 (val_main_v214 (F := F) x2)
theorem val_main_v215_apply (i : S100000x1.Idx) :
    val_main_v215 (F := F) x2 i = val_main_v214 (F := F) x2 (idx_bcast_S100000_S100000x1_0 i) := by
  unfold val_main_v215
  exact bcast_S100000_S100000x1_0_apply _ i

def val_main_v216 : (⟨S100000x128, .f32⟩ : BufTy).Contents (Elt F) :=
  broadcastInDim S100000x128 ![0, 1] bcast_S100000x1_S100000x128_0_1 (val_main_v215 (F := F) x2)
theorem val_main_v216_apply (i : S100000x128.Idx) :
    val_main_v216 (F := F) x2 i = val_main_v215 (F := F) x2 (idx_bcast_S100000x1_S100000x128_0_1 i) := by
  unfold val_main_v216
  exact bcast_S100000x1_S100000x128_0_1_apply _ i

def val_main_v217 : (⟨S100000x128, .f32⟩ : BufTy).Contents (Elt F) :=
  mulf (val_main_v154 (F := F) x0 x1 x2 x3 x4 x5 x6 x7 x8 x9) (val_main_v216 (F := F) x2)
theorem val_main_v217_apply (i : S100000x128.Idx) :
    val_main_v217 (F := F) x0 x1 x2 x3 x4 x5 x6 x7 x8 x9 i = FloatOps.mulf (val_main_v154 (F := F) x0 x1 x2 x3 x4 x5 x6 x7 x8 x9 i) (val_main_v216 (F := F) x2 i) := rfl

def val_main_v218 : (⟨S100000x128, .f32⟩ : BufTy).Contents (Elt F) :=
  Host.dotGeneral dot_S100000x128_S128x128_S100000x128_1_0_0_1_n_n none (val_main_v217 (F := F) x0 x1 x2 x3 x4 x5 x6 x7 x8 x9) (val_main_v201 (F := F) x10)
theorem val_main_v218_apply (i : S100000x128.Idx) :
    val_main_v218 (F := Ideal) z0 z1 z2 z3 z4 z5 z6 z7 z8 z9 z10 i = ∑ k : Fin 128, (val_main_v217 (F := Ideal) z0 z1 z2 z3 z4 z5 z6 z7 z8 z9) (lidx_d128 i k) * (val_main_v201 (F := Ideal) z10) (ridx_d128 i k) := by
  unfold val_main_v218
  exact dot_d128_apply _ _ i

def val_main_c_49 : (⟨S_, .i32⟩ : BufTy).Contents (Elt F) :=
  constantI S_ 32 0#32

def val_main_v219 : (⟨S1000000, .i32⟩ : BufTy).Contents (Elt F) :=
  broadcastInDim S1000000 ![] bcast_S_S1000000 (val_main_c_49 (F := F))

def val_main_v220 : (⟨S1000000, .i1⟩ : BufTy).Contents (Elt F) :=
  cmpi .slt (val_main_v197 (F := F) x2) (val_main_v219 (F := F))

def val_main_c_50 : (⟨S_, .i32⟩ : BufTy).Contents (Elt F) :=
  constantI S_ 32 100000#32

def val_main_v221 : (⟨S1000000, .i32⟩ : BufTy).Contents (Elt F) :=
  broadcastInDim S1000000 ![] bcast_S_S1000000 (val_main_c_50 (F := F))

def val_main_v222 : (⟨S1000000, .i32⟩ : BufTy).Contents (Elt F) :=
  addi (val_main_v197 (F := F) x2) (val_main_v221 (F := F))

def val_main_v223 : (⟨S1000000, .i32⟩ : BufTy).Contents (Elt F) :=
  select (val_main_v220 (F := F) x2) (val_main_v222 (F := F) x2) (val_main_v197 (F := F) x2)

def val_main_v224 : (⟨S1000000x1, .i32⟩ : BufTy).Contents (Elt F) :=
  broadcastInDim S1000000x1 ![0] bcast_S1000000_S1000000x1_0 (val_main_v223 (F := F) x2)

def val_main_v225 : (⟨S1000000x128, .f32⟩ : BufTy).Contents (Elt F) :=
  Host.gather gather_S100000x128_S1000000x1_S1000000x128_1_0_n_n_0_1_1128 (val_main_v218 (F := F) x0 x1 x2 x3 x4 x5 x6 x7 x8 x9 x10) (val_main_v224 (F := F) x2)

def val_main_cst_51 : (⟨S_, .f32⟩ : BufTy).Contents (Elt F) :=
  constant S_ .f32 0x00000000#32

def val_main_v226 : (⟨S100000x128, .f32⟩ : BufTy).Contents (Elt F) :=
  broadcastInDim S100000x128 ![] bcast_S_S100000x128 (val_main_cst_51 (F := F))

def val_main_v227 : (⟨S1000000x1, .i32⟩ : BufTy).Contents (Elt F) :=
  broadcastInDim S1000000x1 ![0] bcast_S1000000_S1000000x1_0 (val_main_v199 (F := F) x2)

def val_main_v228 : (⟨S100000x128, .f32⟩ : BufTy).Contents (Elt F) :=
  Host.scatterAdd scatter_S100000x128_S1000000x1_S1000000x128_1_0_0_1 (val_main_v226 (F := F)) (val_main_v227 (F := F) x2) (val_main_v225 (F := F) x0 x1 x2 x3 x4 x5 x6 x7 x8 x9 x10)

def val_main_cst_52 : (⟨S_, .f32⟩ : BufTy).Contents (Elt F) :=
  constant S_ .f32 0xBF000000#32

def val_main_v229 : (⟨S100000, .f32⟩ : BufTy).Contents (Elt F) :=
  broadcastInDim S100000 ![] bcast_S_S100000 (val_main_cst_52 (F := F))

def val_main_v230 : (⟨S100000, .f32⟩ : BufTy).Contents (Elt F) :=
  Host.powf (val_main_v212 (F := F) x2) (val_main_v229 (F := F))

def val_main_v231 : (⟨S100000x1, .f32⟩ : BufTy).Contents (Elt F) :=
  broadcastInDim S100000x1 ![0] bcast_S100000_S100000x1_0 (val_main_v230 (F := F) x2)
theorem val_main_v231_apply (i : S100000x1.Idx) :
    val_main_v231 (F := F) x2 i = val_main_v230 (F := F) x2 (idx_bcast_S100000_S100000x1_0 i) := by
  unfold val_main_v231
  exact bcast_S100000_S100000x1_0_apply _ i

def val_main_v232 : (⟨S100000x128, .f32⟩ : BufTy).Contents (Elt F) :=
  broadcastInDim S100000x128 ![0, 1] bcast_S100000x1_S100000x128_0_1 (val_main_v231 (F := F) x2)
theorem val_main_v232_apply (i : S100000x128.Idx) :
    val_main_v232 (F := F) x2 i = val_main_v231 (F := F) x2 (idx_bcast_S100000x1_S100000x128_0_1 i) := by
  unfold val_main_v232
  exact bcast_S100000x1_S100000x128_0_1_apply _ i

def val_main_v233 : (⟨S100000x128, .f32⟩ : BufTy).Contents (Elt F) :=
  mulf (val_main_v228 (F := F) x0 x1 x2 x3 x4 x5 x6 x7 x8 x9 x10) (val_main_v232 (F := F) x2)
theorem val_main_v233_apply (i : S100000x128.Idx) :
    val_main_v233 (F := F) x0 x1 x2 x3 x4 x5 x6 x7 x8 x9 x10 i = FloatOps.mulf (val_main_v228 (F := F) x0 x1 x2 x3 x4 x5 x6 x7 x8 x9 x10 i) (val_main_v232 (F := F) x2 i) := rfl

def val_main_v234 : (⟨S1x128, .f32⟩ : BufTy).Contents (Elt F) :=
  broadcastInDim S1x128 ![1] bcast_S128_S1x128_1 (val_main_v203 (F := F) x11)
theorem val_main_v234_apply (i : S1x128.Idx) :
    val_main_v234 (F := F) x11 i = val_main_v203 (F := F) x11 (idx_bcast_S128_S1x128_1 i) := by
  unfold val_main_v234
  exact bcast_S128_S1x128_1_apply _ i

def val_main_v235 : (⟨S100000x128, .f32⟩ : BufTy).Contents (Elt F) :=
  broadcastInDim S100000x128 ![0, 1] bcast_S1x128_S100000x128_0_1 (val_main_v234 (F := F) x11)
theorem val_main_v235_apply (i : S100000x128.Idx) :
    val_main_v235 (F := F) x11 i = val_main_v234 (F := F) x11 (idx_bcast_S1x128_S100000x128_0_1 i) := by
  unfold val_main_v235
  exact bcast_S1x128_S100000x128_0_1_apply _ i

def val_main_v236 : (⟨S100000x128, .f32⟩ : BufTy).Contents (Elt F) :=
  addf (val_main_v233 (F := F) x0 x1 x2 x3 x4 x5 x6 x7 x8 x9 x10) (val_main_v235 (F := F) x11)
theorem val_main_v236_apply (i : S100000x128.Idx) :
    val_main_v236 (F := F) x0 x1 x2 x3 x4 x5 x6 x7 x8 x9 x10 x11 i = FloatOps.addf (val_main_v233 (F := F) x0 x1 x2 x3 x4 x5 x6 x7 x8 x9 x10 i) (val_main_v235 (F := F) x11 i) := rfl

def val_main_v237 : (⟨S100000x128, .f32⟩ : BufTy).Contents (Elt F) :=
  addf (val_main_v195 (F := F) x0 x1 x2 x3 x4 x5 x6 x7 x8 x9 x10 x11) (val_main_v236 (F := F) x0 x1 x2 x3 x4 x5 x6 x7 x8 x9 x10 x11)
theorem val_main_v237_apply (i : S100000x128.Idx) :
    val_main_v237 (F := F) x0 x1 x2 x3 x4 x5 x6 x7 x8 x9 x10 x11 i = FloatOps.addf (val_main_v195 (F := F) x0 x1 x2 x3 x4 x5 x6 x7 x8 x9 x10 x11 i) (val_main_v236 (F := F) x0 x1 x2 x3 x4 x5 x6 x7 x8 x9 x10 x11 i) := rfl

def val_main_v238 : (⟨S1x1600000, .i32⟩ : BufTy).Contents (Elt F) :=
  extractStridedSlice S1x1600000 ![0, 0] (x3) slices_S2x1600000_S1x1600000_0_0

def val_main_v239 : (⟨S1600000, .i32⟩ : BufTy).Contents (Elt F) :=
  shapeCast _ (val_main_v238 (F := F) x3) shapeCasts_S1x1600000_S1600000

def val_main_v240 : (⟨S1x1600000, .i32⟩ : BufTy).Contents (Elt F) :=
  extractStridedSlice S1x1600000 ![1, 0] (x3) slices_S2x1600000_S1x1600000_1_0

def val_main_v241 : (⟨S1600000, .i32⟩ : BufTy).Contents (Elt F) :=
  shapeCast _ (val_main_v240 (F := F) x3) shapeCasts_S1x1600000_S1600000

def val_main_v242 : (⟨S1x128x128, .f32⟩ : BufTy).Contents (Elt F) :=
  extractStridedSlice S1x128x128 ![2, 0, 0] (x10) slices_S3x128x128_S1x128x128_2_0_0
abbrev idx_main_v242 (i : S1x128x128.Idx) : S3x128x128.Idx := fun a => match a with
  | ⟨0, _⟩ => ⟨2 + (i 0).val, by have h0 : (i 0).val < 1 := (i 0).isLt; show 2 + (i 0).val < 3; omega⟩
  | ⟨1, _⟩ => ⟨(i 1).val, (i 1).isLt⟩
  | ⟨2, _⟩ => ⟨(i 2).val, (i 2).isLt⟩
theorem val_main_v242_apply (i : S1x128x128.Idx) :
    val_main_v242 (F := F) x10 i = x10 (idx_main_v242 i) := by
  unfold val_main_v242
  exact extractStridedSlice_apply ![2, 0, 0] x10 slices_S3x128x128_S1x128x128_2_0_0 i (idx_main_v242 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)

def val_main_v243 : (⟨S128x128, .f32⟩ : BufTy).Contents (Elt F) :=
  shapeCast _ (val_main_v242 (F := F) x10) shapeCasts_S1x128x128_S128x128
theorem val_main_v243_apply (i : S128x128.Idx) :
    val_main_v243 (F := F) x10 i = val_main_v242 (F := F) x10 (idx_shapeCasts_S1x128x128_S128x128 i) := by
  unfold val_main_v243
  exact shapeCasts_S1x128x128_S128x128_apply _ i

def val_main_v244 : (⟨S1x128, .f32⟩ : BufTy).Contents (Elt F) :=
  extractStridedSlice S1x128 ![2, 0] (x11) slices_S3x128_S1x128_2_0
abbrev idx_main_v244 (i : S1x128.Idx) : S3x128.Idx := fun a => match a with
  | ⟨0, _⟩ => ⟨2 + (i 0).val, by have h0 : (i 0).val < 1 := (i 0).isLt; show 2 + (i 0).val < 3; omega⟩
  | ⟨1, _⟩ => ⟨(i 1).val, (i 1).isLt⟩
theorem val_main_v244_apply (i : S1x128.Idx) :
    val_main_v244 (F := F) x11 i = x11 (idx_main_v244 i) := by
  unfold val_main_v244
  exact extractStridedSlice_apply ![2, 0] x11 slices_S3x128_S1x128_2_0 i (idx_main_v244 i) (fun a => match a with
    | ⟨0, _⟩ => by show 2 + (i 0).val = 2 + (i 0).val; omega
    | ⟨1, _⟩ => by show (i 1).val = 0 + (i 1).val; omega)

def val_main_v245 : (⟨S128, .f32⟩ : BufTy).Contents (Elt F) :=
  shapeCast _ (val_main_v244 (F := F) x11) shapeCasts_S1x128_S128
theorem val_main_v245_apply (i : S128.Idx) :
    val_main_v245 (F := F) x11 i = val_main_v244 (F := F) x11 (idx_shapeCasts_S1x128_S128 i) := by
  unfold val_main_v245
  exact shapeCasts_S1x128_S128_apply _ i

def val_main_cst_53 : (⟨S_, .f32⟩ : BufTy).Contents (Elt F) :=
  constant S_ .f32 0x3F800000#32

def val_main_v246 : (⟨S1600000, .f32⟩ : BufTy).Contents (Elt F) :=
  broadcastInDim S1600000 ![] bcast_S_S1600000 (val_main_cst_53 (F := F))

def val_main_cst_54 : (⟨S_, .f32⟩ : BufTy).Contents (Elt F) :=
  constant S_ .f32 0x00000000#32

def val_main_v247 : (⟨S100000, .f32⟩ : BufTy).Contents (Elt F) :=
  broadcastInDim S100000 ![] bcast_S_S100000 (val_main_cst_54 (F := F))

def val_main_v248 : (⟨S1600000x1, .i32⟩ : BufTy).Contents (Elt F) :=
  broadcastInDim S1600000x1 ![0] bcast_S1600000_S1600000x1_0 (val_main_v239 (F := F) x3)

def val_main_v249 : (⟨S100000, .f32⟩ : BufTy).Contents (Elt F) :=
  Host.scatterAdd scatter_S100000_S1600000x1_S1600000_n_0_0_1 (val_main_v247 (F := F)) (val_main_v248 (F := F) x3) (val_main_v246 (F := F))

def val_main_cst_55 : (⟨S_, .f32⟩ : BufTy).Contents (Elt F) :=
  constant S_ .f32 0x3F800000#32

def val_main_call11_v0 : (⟨S_, .f32⟩ : BufTy).Contents (Elt F) :=
  id (val_main_cst_55 (F := F))

def val_main_call11_v1 : (⟨S100000, .f32⟩ : BufTy).Contents (Elt F) :=
  broadcastInDim S100000 ![] bcast_S_S100000 (val_main_call11_v0 (F := F))

def val_main_v250 : (⟨S100000, .f32⟩ : BufTy).Contents (Elt F) :=
  maximumf (val_main_call11_v1 (F := F)) (val_main_v249 (F := F) x3)

def val_main_cst_56 : (⟨S_, .f32⟩ : BufTy).Contents (Elt F) :=
  constant S_ .f32 0x00000000#32

def val_main_v251 : (⟨S100000, .f32⟩ : BufTy).Contents (Elt F) :=
  broadcastInDim S100000 ![] bcast_S_S100000 (val_main_cst_56 (F := F))

def val_main_v252 : (⟨S1600000x1, .i32⟩ : BufTy).Contents (Elt F) :=
  broadcastInDim S1600000x1 ![0] bcast_S1600000_S1600000x1_0 (val_main_v241 (F := F) x3)

def val_main_v253 : (⟨S100000, .f32⟩ : BufTy).Contents (Elt F) :=
  Host.scatterAdd scatter_S100000_S1600000x1_S1600000_n_0_0_1 (val_main_v251 (F := F)) (val_main_v252 (F := F) x3) (val_main_v246 (F := F))

def val_main_cst_57 : (⟨S_, .f32⟩ : BufTy).Contents (Elt F) :=
  constant S_ .f32 0x3F800000#32

def val_main_call12_v0 : (⟨S_, .f32⟩ : BufTy).Contents (Elt F) :=
  id (val_main_cst_57 (F := F))

def val_main_call12_v1 : (⟨S100000, .f32⟩ : BufTy).Contents (Elt F) :=
  broadcastInDim S100000 ![] bcast_S_S100000 (val_main_call12_v0 (F := F))

def val_main_v254 : (⟨S100000, .f32⟩ : BufTy).Contents (Elt F) :=
  maximumf (val_main_call12_v1 (F := F)) (val_main_v253 (F := F) x3)

def val_main_cst_58 : (⟨S_, .f32⟩ : BufTy).Contents (Elt F) :=
  constant S_ .f32 0xBF000000#32

def val_main_v255 : (⟨S100000, .f32⟩ : BufTy).Contents (Elt F) :=
  broadcastInDim S100000 ![] bcast_S_S100000 (val_main_cst_58 (F := F))

def val_main_v256 : (⟨S100000, .f32⟩ : BufTy).Contents (Elt F) :=
  Host.powf (val_main_v250 (F := F) x3) (val_main_v255 (F := F))

def val_main_v257 : (⟨S100000x1, .f32⟩ : BufTy).Contents (Elt F) :=
  broadcastInDim S100000x1 ![0] bcast_S100000_S100000x1_0 (val_main_v256 (F := F) x3)
theorem val_main_v257_apply (i : S100000x1.Idx) :
    val_main_v257 (F := F) x3 i = val_main_v256 (F := F) x3 (idx_bcast_S100000_S100000x1_0 i) := by
  unfold val_main_v257
  exact bcast_S100000_S100000x1_0_apply _ i

def val_main_v258 : (⟨S100000x128, .f32⟩ : BufTy).Contents (Elt F) :=
  broadcastInDim S100000x128 ![0, 1] bcast_S100000x1_S100000x128_0_1 (val_main_v257 (F := F) x3)
theorem val_main_v258_apply (i : S100000x128.Idx) :
    val_main_v258 (F := F) x3 i = val_main_v257 (F := F) x3 (idx_bcast_S100000x1_S100000x128_0_1 i) := by
  unfold val_main_v258
  exact bcast_S100000x1_S100000x128_0_1_apply _ i

def val_main_v259 : (⟨S100000x128, .f32⟩ : BufTy).Contents (Elt F) :=
  mulf (val_main_v154 (F := F) x0 x1 x2 x3 x4 x5 x6 x7 x8 x9) (val_main_v258 (F := F) x3)
theorem val_main_v259_apply (i : S100000x128.Idx) :
    val_main_v259 (F := F) x0 x1 x2 x3 x4 x5 x6 x7 x8 x9 i = FloatOps.mulf (val_main_v154 (F := F) x0 x1 x2 x3 x4 x5 x6 x7 x8 x9 i) (val_main_v258 (F := F) x3 i) := rfl

def val_main_v260 : (⟨S100000x128, .f32⟩ : BufTy).Contents (Elt F) :=
  Host.dotGeneral dot_S100000x128_S128x128_S100000x128_1_0_0_1_n_n none (val_main_v259 (F := F) x0 x1 x2 x3 x4 x5 x6 x7 x8 x9) (val_main_v243 (F := F) x10)
theorem val_main_v260_apply (i : S100000x128.Idx) :
    val_main_v260 (F := Ideal) z0 z1 z2 z3 z4 z5 z6 z7 z8 z9 z10 i = ∑ k : Fin 128, (val_main_v259 (F := Ideal) z0 z1 z2 z3 z4 z5 z6 z7 z8 z9) (lidx_d128 i k) * (val_main_v243 (F := Ideal) z10) (ridx_d128 i k) := by
  unfold val_main_v260
  exact dot_d128_apply _ _ i

def val_main_c_59 : (⟨S_, .i32⟩ : BufTy).Contents (Elt F) :=
  constantI S_ 32 0#32

def val_main_v261 : (⟨S1600000, .i32⟩ : BufTy).Contents (Elt F) :=
  broadcastInDim S1600000 ![] bcast_S_S1600000 (val_main_c_59 (F := F))

def val_main_v262 : (⟨S1600000, .i1⟩ : BufTy).Contents (Elt F) :=
  cmpi .slt (val_main_v239 (F := F) x3) (val_main_v261 (F := F))

def val_main_c_60 : (⟨S_, .i32⟩ : BufTy).Contents (Elt F) :=
  constantI S_ 32 100000#32

def val_main_v263 : (⟨S1600000, .i32⟩ : BufTy).Contents (Elt F) :=
  broadcastInDim S1600000 ![] bcast_S_S1600000 (val_main_c_60 (F := F))

def val_main_v264 : (⟨S1600000, .i32⟩ : BufTy).Contents (Elt F) :=
  addi (val_main_v239 (F := F) x3) (val_main_v263 (F := F))

def val_main_v265 : (⟨S1600000, .i32⟩ : BufTy).Contents (Elt F) :=
  select (val_main_v262 (F := F) x3) (val_main_v264 (F := F) x3) (val_main_v239 (F := F) x3)

def val_main_v266 : (⟨S1600000x1, .i32⟩ : BufTy).Contents (Elt F) :=
  broadcastInDim S1600000x1 ![0] bcast_S1600000_S1600000x1_0 (val_main_v265 (F := F) x3)

def val_main_v267 : (⟨S1600000x128, .f32⟩ : BufTy).Contents (Elt F) :=
  Host.gather gather_S100000x128_S1600000x1_S1600000x128_1_0_n_n_0_1_1128 (val_main_v260 (F := F) x0 x1 x2 x3 x4 x5 x6 x7 x8 x9 x10) (val_main_v266 (F := F) x3)

def val_main_cst_61 : (⟨S_, .f32⟩ : BufTy).Contents (Elt F) :=
  constant S_ .f32 0x00000000#32

def val_main_v268 : (⟨S100000x128, .f32⟩ : BufTy).Contents (Elt F) :=
  broadcastInDim S100000x128 ![] bcast_S_S100000x128 (val_main_cst_61 (F := F))

def val_main_v269 : (⟨S1600000x1, .i32⟩ : BufTy).Contents (Elt F) :=
  broadcastInDim S1600000x1 ![0] bcast_S1600000_S1600000x1_0 (val_main_v241 (F := F) x3)

def val_main_v270 : (⟨S100000x128, .f32⟩ : BufTy).Contents (Elt F) :=
  Host.scatterAdd scatter_S100000x128_S1600000x1_S1600000x128_1_0_0_1 (val_main_v268 (F := F)) (val_main_v269 (F := F) x3) (val_main_v267 (F := F) x0 x1 x2 x3 x4 x5 x6 x7 x8 x9 x10)

def val_main_cst_62 : (⟨S_, .f32⟩ : BufTy).Contents (Elt F) :=
  constant S_ .f32 0xBF000000#32

def val_main_v271 : (⟨S100000, .f32⟩ : BufTy).Contents (Elt F) :=
  broadcastInDim S100000 ![] bcast_S_S100000 (val_main_cst_62 (F := F))

def val_main_v272 : (⟨S100000, .f32⟩ : BufTy).Contents (Elt F) :=
  Host.powf (val_main_v254 (F := F) x3) (val_main_v271 (F := F))

def val_main_v273 : (⟨S100000x1, .f32⟩ : BufTy).Contents (Elt F) :=
  broadcastInDim S100000x1 ![0] bcast_S100000_S100000x1_0 (val_main_v272 (F := F) x3)
theorem val_main_v273_apply (i : S100000x1.Idx) :
    val_main_v273 (F := F) x3 i = val_main_v272 (F := F) x3 (idx_bcast_S100000_S100000x1_0 i) := by
  unfold val_main_v273
  exact bcast_S100000_S100000x1_0_apply _ i

def val_main_v274 : (⟨S100000x128, .f32⟩ : BufTy).Contents (Elt F) :=
  broadcastInDim S100000x128 ![0, 1] bcast_S100000x1_S100000x128_0_1 (val_main_v273 (F := F) x3)
theorem val_main_v274_apply (i : S100000x128.Idx) :
    val_main_v274 (F := F) x3 i = val_main_v273 (F := F) x3 (idx_bcast_S100000x1_S100000x128_0_1 i) := by
  unfold val_main_v274
  exact bcast_S100000x1_S100000x128_0_1_apply _ i

def val_main_v275 : (⟨S100000x128, .f32⟩ : BufTy).Contents (Elt F) :=
  mulf (val_main_v270 (F := F) x0 x1 x2 x3 x4 x5 x6 x7 x8 x9 x10) (val_main_v274 (F := F) x3)
theorem val_main_v275_apply (i : S100000x128.Idx) :
    val_main_v275 (F := F) x0 x1 x2 x3 x4 x5 x6 x7 x8 x9 x10 i = FloatOps.mulf (val_main_v270 (F := F) x0 x1 x2 x3 x4 x5 x6 x7 x8 x9 x10 i) (val_main_v274 (F := F) x3 i) := rfl

def val_main_v276 : (⟨S1x128, .f32⟩ : BufTy).Contents (Elt F) :=
  broadcastInDim S1x128 ![1] bcast_S128_S1x128_1 (val_main_v245 (F := F) x11)
theorem val_main_v276_apply (i : S1x128.Idx) :
    val_main_v276 (F := F) x11 i = val_main_v245 (F := F) x11 (idx_bcast_S128_S1x128_1 i) := by
  unfold val_main_v276
  exact bcast_S128_S1x128_1_apply _ i

def val_main_v277 : (⟨S100000x128, .f32⟩ : BufTy).Contents (Elt F) :=
  broadcastInDim S100000x128 ![0, 1] bcast_S1x128_S100000x128_0_1 (val_main_v276 (F := F) x11)
theorem val_main_v277_apply (i : S100000x128.Idx) :
    val_main_v277 (F := F) x11 i = val_main_v276 (F := F) x11 (idx_bcast_S1x128_S100000x128_0_1 i) := by
  unfold val_main_v277
  exact bcast_S1x128_S100000x128_0_1_apply _ i

def val_main_v278 : (⟨S100000x128, .f32⟩ : BufTy).Contents (Elt F) :=
  addf (val_main_v275 (F := F) x0 x1 x2 x3 x4 x5 x6 x7 x8 x9 x10) (val_main_v277 (F := F) x11)
theorem val_main_v278_apply (i : S100000x128.Idx) :
    val_main_v278 (F := F) x0 x1 x2 x3 x4 x5 x6 x7 x8 x9 x10 x11 i = FloatOps.addf (val_main_v275 (F := F) x0 x1 x2 x3 x4 x5 x6 x7 x8 x9 x10 i) (val_main_v277 (F := F) x11 i) := rfl

def val_main_v279 : (⟨S100000x128, .f32⟩ : BufTy).Contents (Elt F) :=
  addf (val_main_v237 (F := F) x0 x1 x2 x3 x4 x5 x6 x7 x8 x9 x10 x11) (val_main_v278 (F := F) x0 x1 x2 x3 x4 x5 x6 x7 x8 x9 x10 x11)
theorem val_main_v279_apply (i : S100000x128.Idx) :
    val_main_v279 (F := F) x0 x1 x2 x3 x4 x5 x6 x7 x8 x9 x10 x11 i = FloatOps.addf (val_main_v237 (F := F) x0 x1 x2 x3 x4 x5 x6 x7 x8 x9 x10 x11 i) (val_main_v278 (F := F) x0 x1 x2 x3 x4 x5 x6 x7 x8 x9 x10 x11 i) := rfl

def val_main_v280 : (⟨S100000x128, .f32⟩ : BufTy).Contents (Elt F) :=
  Host.dotGeneral dot_S100000x128_S128x128_S100000x128_1_0_0_1_n_n none (val_main_v279 (F := F) x0 x1 x2 x3 x4 x5 x6 x7 x8 x9 x10 x11) (x12)
theorem val_main_v280_apply (i : S100000x128.Idx) :
    val_main_v280 (F := Ideal) z0 z1 z2 z3 z4 z5 z6 z7 z8 z9 z10 z11 z12 i = ∑ k : Fin 128, (val_main_v279 (F := Ideal) z0 z1 z2 z3 z4 z5 z6 z7 z8 z9 z10 z11) (lidx_d128 i k) * z12 (ridx_d128 i k) := by
  unfold val_main_v280
  exact dot_d128_apply _ _ i

def val_main_v281 : (⟨S1x128, .f32⟩ : BufTy).Contents (Elt F) :=
  broadcastInDim S1x128 ![1] bcast_S128_S1x128_1 (x13)
theorem val_main_v281_apply (i : S1x128.Idx) :
    val_main_v281 (F := F) x13 i = x13 (idx_bcast_S128_S1x128_1 i) := by
  unfold val_main_v281
  exact bcast_S128_S1x128_1_apply _ i

def val_main_v282 : (⟨S100000x128, .f32⟩ : BufTy).Contents (Elt F) :=
  broadcastInDim S100000x128 ![0, 1] bcast_S1x128_S100000x128_0_1 (val_main_v281 (F := F) x13)
theorem val_main_v282_apply (i : S100000x128.Idx) :
    val_main_v282 (F := F) x13 i = val_main_v281 (F := F) x13 (idx_bcast_S1x128_S100000x128_0_1 i) := by
  unfold val_main_v282
  exact bcast_S1x128_S100000x128_0_1_apply _ i

def val_main_v283 : (⟨S100000x128, .f32⟩ : BufTy).Contents (Elt F) :=
  addf (val_main_v280 (F := F) x0 x1 x2 x3 x4 x5 x6 x7 x8 x9 x10 x11 x12) (val_main_v282 (F := F) x13)
theorem val_main_v283_apply (i : S100000x128.Idx) :
    val_main_v283 (F := F) x0 x1 x2 x3 x4 x5 x6 x7 x8 x9 x10 x11 x12 x13 i = FloatOps.addf (val_main_v280 (F := F) x0 x1 x2 x3 x4 x5 x6 x7 x8 x9 x10 x11 x12 i) (val_main_v282 (F := F) x13 i) := rfl

def val_main_call13_cst : (⟨S_, .f32⟩ : BufTy).Contents (Elt F) :=
  constant S_ .f32 0x00000000#32
theorem val_main_call13_cst_apply (i : S_.Idx) :
    val_main_call13_cst (F := F) i = FloatOps.ofBits .f32 0x00000000#32 := rfl

def val_main_call13_v0 : (⟨S100000x128, .f32⟩ : BufTy).Contents (Elt F) :=
  broadcastInDim S100000x128 ![] bcast_S_S100000x128 (val_main_call13_cst (F := F))
theorem val_main_call13_v0_apply (i : S100000x128.Idx) :
    val_main_call13_v0 (F := F) i = val_main_call13_cst (F := F) (idx_bcast_S_S100000x128 i) := by
  unfold val_main_call13_v0
  exact bcast_S_S100000x128_apply _ i

def val_main_v284 : (⟨S100000x128, .f32⟩ : BufTy).Contents (Elt F) :=
  maximumf (val_main_v283 (F := F) x0 x1 x2 x3 x4 x5 x6 x7 x8 x9 x10 x11 x12 x13) (val_main_call13_v0 (F := F))
theorem val_main_v284_apply (i : S100000x128.Idx) :
    val_main_v284 (F := F) x0 x1 x2 x3 x4 x5 x6 x7 x8 x9 x10 x11 x12 x13 i = FloatOps.maximumf (val_main_v283 (F := F) x0 x1 x2 x3 x4 x5 x6 x7 x8 x9 x10 x11 x12 x13 i) (val_main_call13_v0 (F := F) i) := rfl

def val_main_cst_63 : (⟨S_, .f32⟩ : BufTy).Contents (Elt F) :=
  constant S_ .f32 0x00000000#32
theorem val_main_cst_63_apply (i : S_.Idx) :
    val_main_cst_63 (F := F) i = FloatOps.ofBits .f32 0x00000000#32 := rfl

def val_main_v285 : (⟨S128, .f32⟩ : BufTy).Contents (Elt F) :=
  Host.reduceAdd (val_main_v284 (F := F) x0 x1 x2 x3 x4 x5 x6 x7 x8 x9 x10 x11 x12 x13) (val_main_cst_63 (F := F)) reducesTo_S100000x128_S128_d0 h_S_
theorem val_main_v285_apply (i : S128.Idx) :
    val_main_v285 (F := Ideal) z0 z1 z2 z3 z4 z5 z6 z7 z8 z9 z10 z11 z12 z13 i = (val_main_cst_63 (F := Ideal)) (Shape.Idx.first h_S_) + ∑ k : Fin 100000, (val_main_v284 (F := Ideal) z0 z1 z2 z3 z4 z5 z6 z7 z8 z9 z10 z11 z12 z13) (idx_reducesTo_S100000x128_S128_d0 i k) := by
  unfold val_main_v285
  exact reducesTo_S100000x128_S128_d0_apply _ _ i

def val_main_cst_64 : (⟨S_, .f32⟩ : BufTy).Contents (Elt F) :=
  constant S_ .f32 0x47C35000#32
theorem val_main_cst_64_apply (i : S_.Idx) :
    val_main_cst_64 (F := F) i = FloatOps.ofBits .f32 0x47C35000#32 := rfl

def val_main_v286 : (⟨S128, .f32⟩ : BufTy).Contents (Elt F) :=
  broadcastInDim S128 ![] bcast_S_S128 (val_main_cst_64 (F := F))
theorem val_main_v286_apply (i : S128.Idx) :
    val_main_v286 (F := F) i = val_main_cst_64 (F := F) (idx_bcast_S_S128 i) := by
  unfold val_main_v286
  exact bcast_S_S128_apply _ i

def val_main_v287 : (⟨S128, .f32⟩ : BufTy).Contents (Elt F) :=
  Host.divf (val_main_v285 (F := F) x0 x1 x2 x3 x4 x5 x6 x7 x8 x9 x10 x11 x12 x13) (val_main_v286 (F := F))
theorem val_main_v287_apply (i : S128.Idx) :
    val_main_v287 (F := F) x0 x1 x2 x3 x4 x5 x6 x7 x8 x9 x10 x11 x12 x13 i = FloatOps.hostDivf (val_main_v285 (F := F) x0 x1 x2 x3 x4 x5 x6 x7 x8 x9 x10 x11 x12 x13 i) (val_main_v286 (F := F) i) := rfl

def val_main_v288 : (⟨S1x128, .f32⟩ : BufTy).Contents (Elt F) :=
  broadcastInDim S1x128 ![1] bcast_S128_S1x128_1 (val_main_v287 (F := F) x0 x1 x2 x3 x4 x5 x6 x7 x8 x9 x10 x11 x12 x13)
theorem val_main_v288_apply (i : S1x128.Idx) :
    val_main_v288 (F := F) x0 x1 x2 x3 x4 x5 x6 x7 x8 x9 x10 x11 x12 x13 i = val_main_v287 (F := F) x0 x1 x2 x3 x4 x5 x6 x7 x8 x9 x10 x11 x12 x13 (idx_bcast_S128_S1x128_1 i) := by
  unfold val_main_v288
  exact bcast_S128_S1x128_1_apply _ i

def val_main_v289 : (⟨S100000x128, .f32⟩ : BufTy).Contents (Elt F) :=
  broadcastInDim S100000x128 ![0, 1] bcast_S1x128_S100000x128_0_1 (val_main_v288 (F := F) x0 x1 x2 x3 x4 x5 x6 x7 x8 x9 x10 x11 x12 x13)
theorem val_main_v289_apply (i : S100000x128.Idx) :
    val_main_v289 (F := F) x0 x1 x2 x3 x4 x5 x6 x7 x8 x9 x10 x11 x12 x13 i = val_main_v288 (F := F) x0 x1 x2 x3 x4 x5 x6 x7 x8 x9 x10 x11 x12 x13 (idx_bcast_S1x128_S100000x128_0_1 i) := by
  unfold val_main_v289
  exact bcast_S1x128_S100000x128_0_1_apply _ i

def val_main_v290 : (⟨S100000x128, .f32⟩ : BufTy).Contents (Elt F) :=
  subf (val_main_v284 (F := F) x0 x1 x2 x3 x4 x5 x6 x7 x8 x9 x10 x11 x12 x13) (val_main_v289 (F := F) x0 x1 x2 x3 x4 x5 x6 x7 x8 x9 x10 x11 x12 x13)
theorem val_main_v290_apply (i : S100000x128.Idx) :
    val_main_v290 (F := F) x0 x1 x2 x3 x4 x5 x6 x7 x8 x9 x10 x11 x12 x13 i = FloatOps.subf (val_main_v284 (F := F) x0 x1 x2 x3 x4 x5 x6 x7 x8 x9 x10 x11 x12 x13 i) (val_main_v289 (F := F) x0 x1 x2 x3 x4 x5 x6 x7 x8 x9 x10 x11 x12 x13 i) := rfl

def val_main_v291 : (⟨S100000x128, .f32⟩ : BufTy).Contents (Elt F) :=
  mulf (val_main_v290 (F := F) x0 x1 x2 x3 x4 x5 x6 x7 x8 x9 x10 x11 x12 x13) (val_main_v290 (F := F) x0 x1 x2 x3 x4 x5 x6 x7 x8 x9 x10 x11 x12 x13)
theorem val_main_v291_apply (i : S100000x128.Idx) :
    val_main_v291 (F := F) x0 x1 x2 x3 x4 x5 x6 x7 x8 x9 x10 x11 x12 x13 i = FloatOps.mulf (val_main_v290 (F := F) x0 x1 x2 x3 x4 x5 x6 x7 x8 x9 x10 x11 x12 x13 i) (val_main_v290 (F := F) x0 x1 x2 x3 x4 x5 x6 x7 x8 x9 x10 x11 x12 x13 i) := rfl

def val_main_cst_65 : (⟨S_, .f32⟩ : BufTy).Contents (Elt F) :=
  constant S_ .f32 0x00000000#32
theorem val_main_cst_65_apply (i : S_.Idx) :
    val_main_cst_65 (F := F) i = FloatOps.ofBits .f32 0x00000000#32 := rfl

def val_main_v292 : (⟨S128, .f32⟩ : BufTy).Contents (Elt F) :=
  Host.reduceAdd (val_main_v291 (F := F) x0 x1 x2 x3 x4 x5 x6 x7 x8 x9 x10 x11 x12 x13) (val_main_cst_65 (F := F)) reducesTo_S100000x128_S128_d0 h_S_
theorem val_main_v292_apply (i : S128.Idx) :
    val_main_v292 (F := Ideal) z0 z1 z2 z3 z4 z5 z6 z7 z8 z9 z10 z11 z12 z13 i = (val_main_cst_65 (F := Ideal)) (Shape.Idx.first h_S_) + ∑ k : Fin 100000, (val_main_v291 (F := Ideal) z0 z1 z2 z3 z4 z5 z6 z7 z8 z9 z10 z11 z12 z13) (idx_reducesTo_S100000x128_S128_d0 i k) := by
  unfold val_main_v292
  exact reducesTo_S100000x128_S128_d0_apply _ _ i

def val_main_cst_66 : (⟨S_, .f32⟩ : BufTy).Contents (Elt F) :=
  constant S_ .f32 0x47C35000#32
theorem val_main_cst_66_apply (i : S_.Idx) :
    val_main_cst_66 (F := F) i = FloatOps.ofBits .f32 0x47C35000#32 := rfl

def val_main_v293 : (⟨S128, .f32⟩ : BufTy).Contents (Elt F) :=
  broadcastInDim S128 ![] bcast_S_S128 (val_main_cst_66 (F := F))
theorem val_main_v293_apply (i : S128.Idx) :
    val_main_v293 (F := F) i = val_main_cst_66 (F := F) (idx_bcast_S_S128 i) := by
  unfold val_main_v293
  exact bcast_S_S128_apply _ i

def val_main_v294 : (⟨S128, .f32⟩ : BufTy).Contents (Elt F) :=
  Host.divf (val_main_v292 (F := F) x0 x1 x2 x3 x4 x5 x6 x7 x8 x9 x10 x11 x12 x13) (val_main_v293 (F := F))
theorem val_main_v294_apply (i : S128.Idx) :
    val_main_v294 (F := F) x0 x1 x2 x3 x4 x5 x6 x7 x8 x9 x10 x11 x12 x13 i = FloatOps.hostDivf (val_main_v292 (F := F) x0 x1 x2 x3 x4 x5 x6 x7 x8 x9 x10 x11 x12 x13 i) (val_main_v293 (F := F) i) := rfl

def val_main_v295 : (⟨S1x128, .f32⟩ : BufTy).Contents (Elt F) :=
  broadcastInDim S1x128 ![1] bcast_S128_S1x128_1 (val_main_v287 (F := F) x0 x1 x2 x3 x4 x5 x6 x7 x8 x9 x10 x11 x12 x13)
theorem val_main_v295_apply (i : S1x128.Idx) :
    val_main_v295 (F := F) x0 x1 x2 x3 x4 x5 x6 x7 x8 x9 x10 x11 x12 x13 i = val_main_v287 (F := F) x0 x1 x2 x3 x4 x5 x6 x7 x8 x9 x10 x11 x12 x13 (idx_bcast_S128_S1x128_1 i) := by
  unfold val_main_v295
  exact bcast_S128_S1x128_1_apply _ i

def val_main_v296 : (⟨S100000x128, .f32⟩ : BufTy).Contents (Elt F) :=
  broadcastInDim S100000x128 ![0, 1] bcast_S1x128_S100000x128_0_1 (val_main_v295 (F := F) x0 x1 x2 x3 x4 x5 x6 x7 x8 x9 x10 x11 x12 x13)
theorem val_main_v296_apply (i : S100000x128.Idx) :
    val_main_v296 (F := F) x0 x1 x2 x3 x4 x5 x6 x7 x8 x9 x10 x11 x12 x13 i = val_main_v295 (F := F) x0 x1 x2 x3 x4 x5 x6 x7 x8 x9 x10 x11 x12 x13 (idx_bcast_S1x128_S100000x128_0_1 i) := by
  unfold val_main_v296
  exact bcast_S1x128_S100000x128_0_1_apply _ i

def val_main_v297 : (⟨S100000x128, .f32⟩ : BufTy).Contents (Elt F) :=
  subf (val_main_v284 (F := F) x0 x1 x2 x3 x4 x5 x6 x7 x8 x9 x10 x11 x12 x13) (val_main_v296 (F := F) x0 x1 x2 x3 x4 x5 x6 x7 x8 x9 x10 x11 x12 x13)
theorem val_main_v297_apply (i : S100000x128.Idx) :
    val_main_v297 (F := F) x0 x1 x2 x3 x4 x5 x6 x7 x8 x9 x10 x11 x12 x13 i = FloatOps.subf (val_main_v284 (F := F) x0 x1 x2 x3 x4 x5 x6 x7 x8 x9 x10 x11 x12 x13 i) (val_main_v296 (F := F) x0 x1 x2 x3 x4 x5 x6 x7 x8 x9 x10 x11 x12 x13 i) := rfl

def val_main_cst_67 : (⟨S_, .f32⟩ : BufTy).Contents (Elt F) :=
  constant S_ .f32 0x3727C5AC#32
theorem val_main_cst_67_apply (i : S_.Idx) :
    val_main_cst_67 (F := F) i = FloatOps.ofBits .f32 0x3727C5AC#32 := rfl

def val_main_v298 : (⟨S128, .f32⟩ : BufTy).Contents (Elt F) :=
  broadcastInDim S128 ![] bcast_S_S128 (val_main_cst_67 (F := F))
theorem val_main_v298_apply (i : S128.Idx) :
    val_main_v298 (F := F) i = val_main_cst_67 (F := F) (idx_bcast_S_S128 i) := by
  unfold val_main_v298
  exact bcast_S_S128_apply _ i

def val_main_v299 : (⟨S128, .f32⟩ : BufTy).Contents (Elt F) :=
  addf (val_main_v294 (F := F) x0 x1 x2 x3 x4 x5 x6 x7 x8 x9 x10 x11 x12 x13) (val_main_v298 (F := F))
theorem val_main_v299_apply (i : S128.Idx) :
    val_main_v299 (F := F) x0 x1 x2 x3 x4 x5 x6 x7 x8 x9 x10 x11 x12 x13 i = FloatOps.addf (val_main_v294 (F := F) x0 x1 x2 x3 x4 x5 x6 x7 x8 x9 x10 x11 x12 x13 i) (val_main_v298 (F := F) i) := rfl

def val_main_v300 : (⟨S128, .f32⟩ : BufTy).Contents (Elt F) :=
  Host.rsqrt (val_main_v299 (F := F) x0 x1 x2 x3 x4 x5 x6 x7 x8 x9 x10 x11 x12 x13)
theorem val_main_v300_apply (i : S128.Idx) :
    val_main_v300 (F := F) x0 x1 x2 x3 x4 x5 x6 x7 x8 x9 x10 x11 x12 x13 i = FloatOps.hostUnary .rsqrt (val_main_v299 (F := F) x0 x1 x2 x3 x4 x5 x6 x7 x8 x9 x10 x11 x12 x13 i) := rfl

def val_main_v301 : (⟨S1x128, .f32⟩ : BufTy).Contents (Elt F) :=
  broadcastInDim S1x128 ![1] bcast_S128_S1x128_1 (val_main_v300 (F := F) x0 x1 x2 x3 x4 x5 x6 x7 x8 x9 x10 x11 x12 x13)
theorem val_main_v301_apply (i : S1x128.Idx) :
    val_main_v301 (F := F) x0 x1 x2 x3 x4 x5 x6 x7 x8 x9 x10 x11 x12 x13 i = val_main_v300 (F := F) x0 x1 x2 x3 x4 x5 x6 x7 x8 x9 x10 x11 x12 x13 (idx_bcast_S128_S1x128_1 i) := by
  unfold val_main_v301
  exact bcast_S128_S1x128_1_apply _ i

def val_main_v302 : (⟨S100000x128, .f32⟩ : BufTy).Contents (Elt F) :=
  broadcastInDim S100000x128 ![0, 1] bcast_S1x128_S100000x128_0_1 (val_main_v301 (F := F) x0 x1 x2 x3 x4 x5 x6 x7 x8 x9 x10 x11 x12 x13)
theorem val_main_v302_apply (i : S100000x128.Idx) :
    val_main_v302 (F := F) x0 x1 x2 x3 x4 x5 x6 x7 x8 x9 x10 x11 x12 x13 i = val_main_v301 (F := F) x0 x1 x2 x3 x4 x5 x6 x7 x8 x9 x10 x11 x12 x13 (idx_bcast_S1x128_S100000x128_0_1 i) := by
  unfold val_main_v302
  exact bcast_S1x128_S100000x128_0_1_apply _ i

def val_main_v303 : (⟨S100000x128, .f32⟩ : BufTy).Contents (Elt F) :=
  mulf (val_main_v297 (F := F) x0 x1 x2 x3 x4 x5 x6 x7 x8 x9 x10 x11 x12 x13) (val_main_v302 (F := F) x0 x1 x2 x3 x4 x5 x6 x7 x8 x9 x10 x11 x12 x13)
theorem val_main_v303_apply (i : S100000x128.Idx) :
    val_main_v303 (F := F) x0 x1 x2 x3 x4 x5 x6 x7 x8 x9 x10 x11 x12 x13 i = FloatOps.mulf (val_main_v297 (F := F) x0 x1 x2 x3 x4 x5 x6 x7 x8 x9 x10 x11 x12 x13 i) (val_main_v302 (F := F) x0 x1 x2 x3 x4 x5 x6 x7 x8 x9 x10 x11 x12 x13 i) := rfl

def val_main_v304 : (⟨S1x128, .f32⟩ : BufTy).Contents (Elt F) :=
  broadcastInDim S1x128 ![1] bcast_S128_S1x128_1 (x14)
theorem val_main_v304_apply (i : S1x128.Idx) :
    val_main_v304 (F := F) x14 i = x14 (idx_bcast_S128_S1x128_1 i) := by
  unfold val_main_v304
  exact bcast_S128_S1x128_1_apply _ i

def val_main_v305 : (⟨S100000x128, .f32⟩ : BufTy).Contents (Elt F) :=
  broadcastInDim S100000x128 ![0, 1] bcast_S1x128_S100000x128_0_1 (val_main_v304 (F := F) x14)
theorem val_main_v305_apply (i : S100000x128.Idx) :
    val_main_v305 (F := F) x14 i = val_main_v304 (F := F) x14 (idx_bcast_S1x128_S100000x128_0_1 i) := by
  unfold val_main_v305
  exact bcast_S1x128_S100000x128_0_1_apply _ i

def val_main_v306 : (⟨S100000x128, .f32⟩ : BufTy).Contents (Elt F) :=
  mulf (val_main_v303 (F := F) x0 x1 x2 x3 x4 x5 x6 x7 x8 x9 x10 x11 x12 x13) (val_main_v305 (F := F) x14)
theorem val_main_v306_apply (i : S100000x128.Idx) :
    val_main_v306 (F := F) x0 x1 x2 x3 x4 x5 x6 x7 x8 x9 x10 x11 x12 x13 x14 i = FloatOps.mulf (val_main_v303 (F := F) x0 x1 x2 x3 x4 x5 x6 x7 x8 x9 x10 x11 x12 x13 i) (val_main_v305 (F := F) x14 i) := rfl

def val_main_v307 : (⟨S1x128, .f32⟩ : BufTy).Contents (Elt F) :=
  broadcastInDim S1x128 ![1] bcast_S128_S1x128_1 (x15)
theorem val_main_v307_apply (i : S1x128.Idx) :
    val_main_v307 (F := F) x15 i = x15 (idx_bcast_S128_S1x128_1 i) := by
  unfold val_main_v307
  exact bcast_S128_S1x128_1_apply _ i

def val_main_v308 : (⟨S100000x128, .f32⟩ : BufTy).Contents (Elt F) :=
  broadcastInDim S100000x128 ![0, 1] bcast_S1x128_S100000x128_0_1 (val_main_v307 (F := F) x15)
theorem val_main_v308_apply (i : S100000x128.Idx) :
    val_main_v308 (F := F) x15 i = val_main_v307 (F := F) x15 (idx_bcast_S1x128_S100000x128_0_1 i) := by
  unfold val_main_v308
  exact bcast_S1x128_S100000x128_0_1_apply _ i

def val_main_v309 : (⟨S100000x128, .f32⟩ : BufTy).Contents (Elt F) :=
  addf (val_main_v306 (F := F) x0 x1 x2 x3 x4 x5 x6 x7 x8 x9 x10 x11 x12 x13 x14) (val_main_v308 (F := F) x15)
theorem val_main_v309_apply (i : S100000x128.Idx) :
    val_main_v309 (F := F) x0 x1 x2 x3 x4 x5 x6 x7 x8 x9 x10 x11 x12 x13 x14 x15 i = FloatOps.addf (val_main_v306 (F := F) x0 x1 x2 x3 x4 x5 x6 x7 x8 x9 x10 x11 x12 x13 x14 i) (val_main_v308 (F := F) x15 i) := rfl

end Cert.ReferenceIdeal.ReadP

end
-- ==== Proof.RefRun.lean ====
import proofs.«175263_j29738353557973_1_alg».proof.Proof.RefRead

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

def ops0 : List (HloOp τ sig (Elt F)) :=
  [ unary main_arg1 main_v0 ((extractStridedSlice S1x200000 ![0, 0] · slices_S2x200000_S1x200000_0_0) : (⟨S2x200000, .i32⟩ : BufTy).Contents (Elt F) → (⟨S1x200000, .i32⟩ : BufTy).Contents (Elt F)),
    reshape main_v0 main_v1 rfl shapeCasts_S1x200000_S200000,
    unary main_arg1 main_v2 ((extractStridedSlice S1x200000 ![1, 0] · slices_S2x200000_S1x200000_1_0) : (⟨S2x200000, .i32⟩ : BufTy).Contents (Elt F) → (⟨S1x200000, .i32⟩ : BufTy).Contents (Elt F)),
    reshape main_v2 main_v3 rfl shapeCasts_S1x200000_S200000,
    unary main_arg4 main_v4 ((extractStridedSlice S1x1280x128 ![0, 0, 0] · slices_S3x1280x128_S1x1280x128_0_0_0) : (⟨S3x1280x128, .f32⟩ : BufTy).Contents (Elt F) → (⟨S1x1280x128, .f32⟩ : BufTy).Contents (Elt F)),
    reshape main_v4 main_v5 rfl shapeCasts_S1x1280x128_S1280x128,
    unary main_arg5 main_v6 ((extractStridedSlice S1x128 ![0, 0] · slices_S3x128_S1x128_0_0) : (⟨S3x128, .f32⟩ : BufTy).Contents (Elt F) → (⟨S1x128, .f32⟩ : BufTy).Contents (Elt F)),
    reshape main_v6 main_v7 rfl shapeCasts_S1x128_S128,
    nullary main_cst (constant S_ .f32 0x3F800000#32),
    unary main_cst main_v8 (broadcastInDim S200000 ![] bcast_S_S200000 : (⟨S_, .f32⟩ : BufTy).Contents (Elt F) → (⟨S200000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v1 main_v10 (broadcastInDim S200000x1 ![0] bcast_S200000_S200000x1_0 : (⟨S200000, .i32⟩ : BufTy).Contents (Elt F) → (⟨S200000x1, .i32⟩ : BufTy).Contents (Elt F)),
    ternary main_v9 main_v10 main_v8 main_v11 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)),
    nullary main_cst_1 (constant S_ .f32 0x3F800000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.binary (TRef.of (T := ⟨S100000, .f32⟩) main_call0_v1) (TRef.of (T := ⟨S100000, .f32⟩) main_v11) (TRef.of (T := ⟨S100000, .f32⟩) main_v12) maximumf,
    nullary main_cst_2 (constant S_ .f32 0x00000000#32),
    unary main_cst_2 main_v13 (broadcastInDim S100000 ![] bcast_S_S100000 : (⟨S_, .f32⟩ : BufTy).Contents (Elt F) → (⟨S100000, .f32⟩ : BufTy).Contents (Elt F)),
    unary main_v3 main_v14 (broadcastInDim S200000x1 ![0] bcast_S200000_S200000x1_0 : (⟨S200000, .i32⟩ : BufTy).Contents (Elt F) → (⟨S200000x1, .i32⟩ : BufTy).Contents (Elt F)),
    ternary main_v13 main_v14 main_v8 main_v15 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)),
    nullary main_cst_3 (constant S_ .f32 0x3F800000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_v15) (TRef.of (T := ⟨S100000, .f32⟩) main_v16) maximumf,
    nullary main_cst_4 (constant S_ .f32 0xBF000000#32),
    unary main_cst_4 main_v17 (broadcastInDim S100000 ![] bcast_S_S100000 : (⟨S_, .f32⟩ : BufTy).Contents (Elt F) → (⟨S100000, .f32⟩ : BufTy).Contents (Elt F)),
    binary main_v12 main_v17 main_v18 (Host.powf : (⟨S100000, .f32⟩ : BufTy).Contents (Elt F) → (⟨S100000, .f32⟩ : BufTy).Contents (Elt F) → (⟨S100000, .f32⟩ : BufTy).Contents (Elt F)),
    unary main_v18 main_v19 (broadcastInDim S100000x1 ![0] bcast_S100000_S100000x1_0 : (⟨S100000, .f32⟩ : BufTy).Contents (Elt F) → (⟨S100000x1, .f32⟩ : BufTy).Contents (Elt F)),
    unary main_v19 main_v20 (broadcastInDim S100000x1280 ![0, 1] bcast_S100000x1_S100000x1280_0_1 : (⟨S100000x1, .f32⟩ : BufTy).Contents (Elt F) → (⟨S100000x1280, .f32⟩ : BufTy).Contents (Elt F)),
    binary main_arg0 main_v20 main_v21 (mulf : (⟨S100000x1280, .f32⟩ : BufTy).Contents (Elt F) → (⟨S100000x1280, .f32⟩ : BufTy).Contents (Elt F) → (⟨S100000x1280, .f32⟩ : BufTy).Contents (Elt F)),
    binary main_v21 main_v5 main_v22 ((fun l r => Host.dotGeneral dot_S100000x1280_S1280x128_S100000x128_1_0_0_1_n_n none l r) : (⟨S100000x1280, .f32⟩ : BufTy).Contents (Elt F) → (⟨S1280x128, .f32⟩ : BufTy).Contents (Elt F) → (⟨S100000x128, .f32⟩ : BufTy).Contents (Elt F)),
    nullary main_c (constantI S_ 32 0#32),
    unary main_c main_v23 (broadcastInDim S200000 ![] bcast_S_S200000 : (⟨S_, .i32⟩ : BufTy).Contents (Elt F) → (⟨S200000, .i32⟩ : BufTy).Contents (Elt F)),
    binary main_v1 main_v23 main_v24 (cmpi .slt : (⟨S200000, .i32⟩ : BufTy).Contents (Elt F) → (⟨S200000, .i32⟩ : BufTy).Contents (Elt F) → (⟨S200000, .i1⟩ : BufTy).Contents (Elt F)),
    nullary main_c_5 (constantI S_ 32 100000#32),
    unary main_c_5 main_v25 (broadcastInDim S200000 ![] bcast_S_S200000 : (⟨S_, .i32⟩ : BufTy).Contents (Elt F) → (⟨S200000, .i32⟩ : BufTy).Contents (Elt F)),
    binary main_v1 main_v25 main_v26 (addi : (⟨S200000, .i32⟩ : BufTy).Contents (Elt F) → (⟨S200000, .i32⟩ : BufTy).Contents (Elt F) → (⟨S200000, .i32⟩ : BufTy).Contents (Elt F)),
    ternary main_v24 main_v26 main_v1 main_v27 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v27 main_v28 (broadcastInDim S200000x1 ![0] bcast_S200000_S200000x1_0 : (⟨S200000, .i32⟩ : BufTy).Contents (Elt F) → (⟨S200000x1, .i32⟩ : BufTy).Contents (Elt F)),
    binary main_v22 main_v28 main_v29 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)),
    nullary main_cst_6 (constant S_ .f32 0x00000000#32),
    unary main_cst_6 main_v30 (broadcastInDim S100000x128 ![] bcast_S_S100000x128 : (⟨S_, .f32⟩ : BufTy).Contents (Elt F) → (⟨S100000x128, .f32⟩ : BufTy).Contents (Elt F)),
    unary main_v3 main_v31 (broadcastInDim S200000x1 ![0] bcast_S200000_S200000x1_0 : (⟨S200000, .i32⟩ : BufTy).Contents (Elt F) → (⟨S200000x1, .i32⟩ : BufTy).Contents (Elt F)),
    ternary main_v30 main_v31 main_v29 main_v32 ((fun x i u => Host.scatterAdd scatter_S100000x128_S200000x1_S200000x128_1_0_0_1 x i u) : (⟨S100000x128, .f32⟩ : BufTy).Contents (Elt F) → (⟨S200000x1, .i32⟩ : BufTy).Contents (Elt F) → (⟨S200000x128, .f32⟩ : BufTy).Contents (Elt F) → (⟨S100000x128, .f32⟩ : BufTy).Contents (Elt F)),
    nullary main_cst_7 (constant S_ .f32 0xBF000000#32),
    unary main_cst_7 main_v33 (broadcastInDim S100000 ![] bcast_S_S100000 : (⟨S_, .f32⟩ : BufTy).Contents (Elt F) → (⟨S100000, .f32⟩ : BufTy).Contents (Elt F)),
    binary main_v16 main_v33 main_v34 (Host.powf : (⟨S100000, .f32⟩ : BufTy).Contents (Elt F) → (⟨S100000, .f32⟩ : BufTy).Contents (Elt F) → (⟨S100000, .f32⟩ : BufTy).Contents (Elt F)),
    unary main_v34 main_v35 (broadcastInDim S100000x1 ![0] bcast_S100000_S100000x1_0 : (⟨S100000, .f32⟩ : BufTy).Contents (Elt F) → (⟨S100000x1, .f32⟩ : BufTy).Contents (Elt F)),
    unary main_v35 main_v36 (broadcastInDim S100000x128 ![0, 1] bcast_S100000x1_S100000x128_0_1 : (⟨S100000x1, .f32⟩ : BufTy).Contents (Elt F) → (⟨S100000x128, .f32⟩ : BufTy).Contents (Elt F)),
    binary main_v32 main_v36 main_v37 (mulf : (⟨S100000x128, .f32⟩ : BufTy).Contents (Elt F) → (⟨S100000x128, .f32⟩ : BufTy).Contents (Elt F) → (⟨S100000x128, .f32⟩ : BufTy).Contents (Elt F)),
    unary main_v7 main_v38 (broadcastInDim S1x128 ![1] bcast_S128_S1x128_1 : (⟨S128, .f32⟩ : BufTy).Contents (Elt F) → (⟨S1x128, .f32⟩ : BufTy).Contents (Elt F)),
    unary main_v38 main_v39 (broadcastInDim S100000x128 ![0, 1] bcast_S1x128_S100000x128_0_1 : (⟨S1x128, .f32⟩ : BufTy).Contents (Elt F) → (⟨S100000x128, .f32⟩ : BufTy).Contents (Elt F)),
    binary main_v37 main_v39 main_v40 (addf : (⟨S100000x128, .f32⟩ : BufTy).Contents (Elt F) → (⟨S100000x128, .f32⟩ : BufTy).Contents (Elt F) → (⟨S100000x128, .f32⟩ : BufTy).Contents (Elt F)),
    unary main_arg2 main_v41 ((extractStridedSlice S1x1000000 ![0, 0] · slices_S2x1000000_S1x1000000_0_0) : (⟨S2x1000000, .i32⟩ : BufTy).Contents (Elt F) → (⟨S1x1000000, .i32⟩ : BufTy).Contents (Elt F)),
    reshape main_v41 main_v42 rfl shapeCasts_S1x1000000_S1000000,
    unary main_arg2 main_v43 ((extractStridedSlice S1x1000000 ![1, 0] · slices_S2x1000000_S1x1000000_1_0) : (⟨S2x1000000, .i32⟩ : BufTy).Contents (Elt F) → (⟨S1x1000000, .i32⟩ : BufTy).Contents (Elt F)),
    reshape main_v43 main_v44 rfl shapeCasts_S1x1000000_S1000000,
    unary main_arg4 main_v45 ((extractStridedSlice S1x1280x128 ![1, 0, 0] · slices_S3x1280x128_S1x1280x128_1_0_0) : (⟨S3x1280x128, .f32⟩ : BufTy).Contents (Elt F) → (⟨S1x1280x128, .f32⟩ : BufTy).Contents (Elt F)),
    reshape main_v45 main_v46 rfl shapeCasts_S1x1280x128_S1280x128,
    unary main_arg5 main_v47 ((extractStridedSlice S1x128 ![1, 0] · slices_S3x128_S1x128_1_0) : (⟨S3x128, .f32⟩ : BufTy).Contents (Elt F) → (⟨S1x128, .f32⟩ : BufTy).Contents (Elt F)),
    reshape main_v47 main_v48 rfl shapeCasts_S1x128_S128,
    nullary main_cst_8 (constant S_ .f32 0x3F800000#32) ]

def ops0_W : List (Ref sig .tc) :=
  [main_v0, main_v1, main_v2, main_v3, main_v4, main_v5, main_v6, main_v7, main_cst, main_v8, main_cst_0, main_v9, main_v10, main_v11, main_cst_1, main_call0_v0, main_call0_v1, main_v12, main_cst_2, main_v13, main_v14, main_v15, main_cst_3, main_call1_v0, main_call1_v1, main_v16, main_cst_4, main_v17, main_v18, main_v19, main_v20, main_v21, main_v22, main_c, main_v23, main_v24, main_c_5, main_v25, main_v26, main_v27, main_v28, main_v29, main_cst_6, main_v30, main_v31, main_v32, main_cst_7, main_v33, main_v34, main_v35, main_v36, main_v37, main_v38, main_v39, main_v40, main_v41, main_v42, main_v43, main_v44, main_v45, main_v46, main_v47, main_v48, main_cst_8]

def ops1 : List (HloOp τ sig (Elt F)) :=
  [ unary main_cst_8 main_v49 (broadcastInDim S1000000 ![] bcast_S_S1000000 : (⟨S_, .f32⟩ : BufTy).Contents (Elt F) → (⟨S1000000, .f32⟩ : BufTy).Contents (Elt F)),
    nullary main_cst_9 (constant S_ .f32 0x00000000#32),
    unary main_cst_9 main_v50 (broadcastInDim S100000 ![] bcast_S_S100000 : (⟨S_, .f32⟩ : BufTy).Contents (Elt F) → (⟨S100000, .f32⟩ : BufTy).Contents (Elt F)),
    unary main_v42 main_v51 (broadcastInDim S1000000x1 ![0] bcast_S1000000_S1000000x1_0 : (⟨S1000000, .i32⟩ : BufTy).Contents (Elt F) → (⟨S1000000x1, .i32⟩ : BufTy).Contents (Elt F)),
    ternary main_v50 main_v51 main_v49 main_v52 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_10 (constant S_ .f32 0x3F800000#32),
    TRef.unary (TRef.of (T := ⟨S_, .f32⟩) main_cst_10) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_v52) (TRef.of (T := ⟨S100000, .f32⟩) main_v53) maximumf,
    nullary main_cst_11 (constant S_ .f32 0x00000000#32),
    unary main_cst_11 main_v54 (broadcastInDim S100000 ![] bcast_S_S100000 : (⟨S_, .f32⟩ : BufTy).Contents (Elt F) → (⟨S100000, .f32⟩ : BufTy).Contents (Elt F)),
    unary main_v44 main_v55 (broadcastInDim S1000000x1 ![0] bcast_S1000000_S1000000x1_0 : (⟨S1000000, .i32⟩ : BufTy).Contents (Elt F) → (⟨S1000000x1, .i32⟩ : BufTy).Contents (Elt F)),
    ternary main_v54 main_v55 main_v49 main_v56 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_12 (constant S_ .f32 0x3F800000#32),
    TRef.unary (TRef.of (T := ⟨S_, .f32⟩) main_cst_12) (TRef.of (T := ⟨S_, .f32⟩) main_call3_v0) id,
    TRef.unary (TRef.of (T := ⟨S_, .f32⟩) main_call3_v0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_v56) (TRef.of (T := ⟨S100000, .f32⟩) main_v57) maximumf,
    nullary main_cst_13 (constant S_ .f32 0xBF000000#32),
    unary main_cst_13 main_v58 (broadcastInDim S100000 ![] bcast_S_S100000 : (⟨S_, .f32⟩ : BufTy).Contents (Elt F) → (⟨S100000, .f32⟩ : BufTy).Contents (Elt F)),
    binary main_v53 main_v58 main_v59 (Host.powf : (⟨S100000, .f32⟩ : BufTy).Contents (Elt F) → (⟨S100000, .f32⟩ : BufTy).Contents (Elt F) → (⟨S100000, .f32⟩ : BufTy).Contents (Elt F)),
    unary main_v59 main_v60 (broadcastInDim S100000x1 ![0] bcast_S100000_S100000x1_0 : (⟨S100000, .f32⟩ : BufTy).Contents (Elt F) → (⟨S100000x1, .f32⟩ : BufTy).Contents (Elt F)),
    unary main_v60 main_v61 (broadcastInDim S100000x1280 ![0, 1] bcast_S100000x1_S100000x1280_0_1 : (⟨S100000x1, .f32⟩ : BufTy).Contents (Elt F) → (⟨S100000x1280, .f32⟩ : BufTy).Contents (Elt F)),
    binary main_arg0 main_v61 main_v62 (mulf : (⟨S100000x1280, .f32⟩ : BufTy).Contents (Elt F) → (⟨S100000x1280, .f32⟩ : BufTy).Contents (Elt F) → (⟨S100000x1280, .f32⟩ : BufTy).Contents (Elt F)),
    binary main_v62 main_v46 main_v63 ((fun l r => Host.dotGeneral dot_S100000x1280_S1280x128_S100000x128_1_0_0_1_n_n none l r) : (⟨S100000x1280, .f32⟩ : BufTy).Contents (Elt F) → (⟨S1280x128, .f32⟩ : BufTy).Contents (Elt F) → (⟨S100000x128, .f32⟩ : BufTy).Contents (Elt F)),
    nullary main_c_14 (constantI S_ 32 0#32),
    unary main_c_14 main_v64 (broadcastInDim S1000000 ![] bcast_S_S1000000 : (⟨S_, .i32⟩ : BufTy).Contents (Elt F) → (⟨S1000000, .i32⟩ : BufTy).Contents (Elt F)),
    binary main_v42 main_v64 main_v65 (cmpi .slt : (⟨S1000000, .i32⟩ : BufTy).Contents (Elt F) → (⟨S1000000, .i32⟩ : BufTy).Contents (Elt F) → (⟨S1000000, .i1⟩ : BufTy).Contents (Elt F)),
    nullary main_c_15 (constantI S_ 32 100000#32),
    unary main_c_15 main_v66 (broadcastInDim S1000000 ![] bcast_S_S1000000 : (⟨S_, .i32⟩ : BufTy).Contents (Elt F) → (⟨S1000000, .i32⟩ : BufTy).Contents (Elt F)),
    binary main_v42 main_v66 main_v67 (addi : (⟨S1000000, .i32⟩ : BufTy).Contents (Elt F) → (⟨S1000000, .i32⟩ : BufTy).Contents (Elt F) → (⟨S1000000, .i32⟩ : BufTy).Contents (Elt F)),
    ternary main_v65 main_v67 main_v42 main_v68 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v68 main_v69 (broadcastInDim S1000000x1 ![0] bcast_S1000000_S1000000x1_0 : (⟨S1000000, .i32⟩ : BufTy).Contents (Elt F) → (⟨S1000000x1, .i32⟩ : BufTy).Contents (Elt F)),
    binary main_v63 main_v69 main_v70 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst_16 (constant S_ .f32 0x00000000#32),
    unary main_cst_16 main_v71 (broadcastInDim S100000x128 ![] bcast_S_S100000x128 : (⟨S_, .f32⟩ : BufTy).Contents (Elt F) → (⟨S100000x128, .f32⟩ : BufTy).Contents (Elt F)),
    unary main_v44 main_v72 (broadcastInDim S1000000x1 ![0] bcast_S1000000_S1000000x1_0 : (⟨S1000000, .i32⟩ : BufTy).Contents (Elt F) → (⟨S1000000x1, .i32⟩ : BufTy).Contents (Elt F)),
    ternary main_v71 main_v72 main_v70 main_v73 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_cst_17 (constant S_ .f32 0xBF000000#32),
    unary main_cst_17 main_v74 (broadcastInDim S100000 ![] bcast_S_S100000 : (⟨S_, .f32⟩ : BufTy).Contents (Elt F) → (⟨S100000, .f32⟩ : BufTy).Contents (Elt F)),
    binary main_v57 main_v74 main_v75 (Host.powf : (⟨S100000, .f32⟩ : BufTy).Contents (Elt F) → (⟨S100000, .f32⟩ : BufTy).Contents (Elt F) → (⟨S100000, .f32⟩ : BufTy).Contents (Elt F)),
    unary main_v75 main_v76 (broadcastInDim S100000x1 ![0] bcast_S100000_S100000x1_0 : (⟨S100000, .f32⟩ : BufTy).Contents (Elt F) → (⟨S100000x1, .f32⟩ : BufTy).Contents (Elt F)),
    unary main_v76 main_v77 (broadcastInDim S100000x128 ![0, 1] bcast_S100000x1_S100000x128_0_1 : (⟨S100000x1, .f32⟩ : BufTy).Contents (Elt F) → (⟨S100000x128, .f32⟩ : BufTy).Contents (Elt F)),
    binary main_v73 main_v77 main_v78 (mulf : (⟨S100000x128, .f32⟩ : BufTy).Contents (Elt F) → (⟨S100000x128, .f32⟩ : BufTy).Contents (Elt F) → (⟨S100000x128, .f32⟩ : BufTy).Contents (Elt F)),
    unary main_v48 main_v79 (broadcastInDim S1x128 ![1] bcast_S128_S1x128_1 : (⟨S128, .f32⟩ : BufTy).Contents (Elt F) → (⟨S1x128, .f32⟩ : BufTy).Contents (Elt F)),
    unary main_v79 main_v80 (broadcastInDim S100000x128 ![0, 1] bcast_S1x128_S100000x128_0_1 : (⟨S1x128, .f32⟩ : BufTy).Contents (Elt F) → (⟨S100000x128, .f32⟩ : BufTy).Contents (Elt F)),
    binary main_v78 main_v80 main_v81 (addf : (⟨S100000x128, .f32⟩ : BufTy).Contents (Elt F) → (⟨S100000x128, .f32⟩ : BufTy).Contents (Elt F) → (⟨S100000x128, .f32⟩ : BufTy).Contents (Elt F)),
    binary main_v40 main_v81 main_v82 (addf : (⟨S100000x128, .f32⟩ : BufTy).Contents (Elt F) → (⟨S100000x128, .f32⟩ : BufTy).Contents (Elt F) → (⟨S100000x128, .f32⟩ : BufTy).Contents (Elt F)),
    unary main_arg3 main_v83 ((extractStridedSlice S1x1600000 ![0, 0] · slices_S2x1600000_S1x1600000_0_0) : (⟨S2x1600000, .i32⟩ : BufTy).Contents (Elt F) → (⟨S1x1600000, .i32⟩ : BufTy).Contents (Elt F)),
    reshape main_v83 main_v84 rfl shapeCasts_S1x1600000_S1600000,
    unary main_arg3 main_v85 ((extractStridedSlice S1x1600000 ![1, 0] · slices_S2x1600000_S1x1600000_1_0) : (⟨S2x1600000, .i32⟩ : BufTy).Contents (Elt F) → (⟨S1x1600000, .i32⟩ : BufTy).Contents (Elt F)),
    reshape main_v85 main_v86 rfl shapeCasts_S1x1600000_S1600000,
    unary main_arg4 main_v87 ((extractStridedSlice S1x1280x128 ![2, 0, 0] · slices_S3x1280x128_S1x1280x128_2_0_0) : (⟨S3x1280x128, .f32⟩ : BufTy).Contents (Elt F) → (⟨S1x1280x128, .f32⟩ : BufTy).Contents (Elt F)),
    reshape main_v87 main_v88 rfl shapeCasts_S1x1280x128_S1280x128,
    unary main_arg5 main_v89 ((extractStridedSlice S1x128 ![2, 0] · slices_S3x128_S1x128_2_0) : (⟨S3x128, .f32⟩ : BufTy).Contents (Elt F) → (⟨S1x128, .f32⟩ : BufTy).Contents (Elt F)),
    reshape main_v89 main_v90 rfl shapeCasts_S1x128_S128,
    nullary main_cst_18 (constant S_ .f32 0x3F800000#32),
    unary main_cst_18 main_v91 (broadcastInDim S1600000 ![] bcast_S_S1600000 : (⟨S_, .f32⟩ : BufTy).Contents (Elt F) → (⟨S1600000, .f32⟩ : BufTy).Contents (Elt F)),
    nullary main_cst_19 (constant S_ .f32 0x00000000#32),
    unary main_cst_19 main_v92 (broadcastInDim S100000 ![] bcast_S_S100000 : (⟨S_, .f32⟩ : BufTy).Contents (Elt F) → (⟨S100000, .f32⟩ : BufTy).Contents (Elt F)),
    unary main_v84 main_v93 (broadcastInDim S1600000x1 ![0] bcast_S1600000_S1600000x1_0 : (⟨S1600000, .i32⟩ : BufTy).Contents (Elt F) → (⟨S1600000x1, .i32⟩ : BufTy).Contents (Elt F)),
    ternary main_v92 main_v93 main_v91 main_v94 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_20 (constant S_ .f32 0x3F800000#32),
    TRef.unary (TRef.of (T := ⟨S_, .f32⟩) main_cst_20) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_v94) (TRef.of (T := ⟨S100000, .f32⟩) main_v95) maximumf,
    nullary main_cst_21 (constant S_ .f32 0x00000000#32) ]

def ops1_W : List (Ref sig .tc) :=
  [main_v49, main_cst_9, main_v50, main_v51, main_v52, main_cst_10, main_call2_v0, main_call2_v1, main_v53, main_cst_11, main_v54, main_v55, main_v56, main_cst_12, main_call3_v0, main_call3_v1, main_v57, main_cst_13, main_v58, main_v59, main_v60, main_v61, main_v62, main_v63, main_c_14, main_v64, main_v65, main_c_15, main_v66, main_v67, main_v68, main_v69, main_v70, main_cst_16, main_v71, main_v72, main_v73, main_cst_17, main_v74, main_v75, main_v76, main_v77, main_v78, main_v79, main_v80, main_v81, main_v82, main_v83, main_v84, main_v85, main_v86, main_v87, main_v88, main_v89, main_v90, main_cst_18, main_v91, main_cst_19, main_v92, main_v93, main_v94, main_cst_20, main_call4_v0, main_call4_v1, main_v95, main_cst_21]

def ops2 : List (HloOp τ sig (Elt F)) :=
  [ unary main_cst_21 main_v96 (broadcastInDim S100000 ![] bcast_S_S100000 : (⟨S_, .f32⟩ : BufTy).Contents (Elt F) → (⟨S100000, .f32⟩ : BufTy).Contents (Elt F)),
    unary main_v86 main_v97 (broadcastInDim S1600000x1 ![0] bcast_S1600000_S1600000x1_0 : (⟨S1600000, .i32⟩ : BufTy).Contents (Elt F) → (⟨S1600000x1, .i32⟩ : BufTy).Contents (Elt F)),
    ternary main_v96 main_v97 main_v91 main_v98 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_22 (constant S_ .f32 0x3F800000#32),
    TRef.unary (TRef.of (T := ⟨S_, .f32⟩) main_cst_22) (TRef.of (T := ⟨S_, .f32⟩) main_call5_v0) id,
    TRef.unary (TRef.of (T := ⟨S_, .f32⟩) main_call5_v0) (TRef.of (T := ⟨S100000, .f32⟩) main_call5_v1) (broadcastInDim S100000 ![] bcast_S_S100000),
    TRef.binary (TRef.of (T := ⟨S100000, .f32⟩) main_call5_v1) (TRef.of (T := ⟨S100000, .f32⟩) main_v98) (TRef.of (T := ⟨S100000, .f32⟩) main_v99) maximumf,
    nullary main_cst_23 (constant S_ .f32 0xBF000000#32),
    unary main_cst_23 main_v100 (broadcastInDim S100000 ![] bcast_S_S100000 : (⟨S_, .f32⟩ : BufTy).Contents (Elt F) → (⟨S100000, .f32⟩ : BufTy).Contents (Elt F)),
    binary main_v95 main_v100 main_v101 (Host.powf : (⟨S100000, .f32⟩ : BufTy).Contents (Elt F) → (⟨S100000, .f32⟩ : BufTy).Contents (Elt F) → (⟨S100000, .f32⟩ : BufTy).Contents (Elt F)),
    unary main_v101 main_v102 (broadcastInDim S100000x1 ![0] bcast_S100000_S100000x1_0 : (⟨S100000, .f32⟩ : BufTy).Contents (Elt F) → (⟨S100000x1, .f32⟩ : BufTy).Contents (Elt F)),
    unary main_v102 main_v103 (broadcastInDim S100000x1280 ![0, 1] bcast_S100000x1_S100000x1280_0_1 : (⟨S100000x1, .f32⟩ : BufTy).Contents (Elt F) → (⟨S100000x1280, .f32⟩ : BufTy).Contents (Elt F)),
    binary main_arg0 main_v103 main_v104 (mulf : (⟨S100000x1280, .f32⟩ : BufTy).Contents (Elt F) → (⟨S100000x1280, .f32⟩ : BufTy).Contents (Elt F) → (⟨S100000x1280, .f32⟩ : BufTy).Contents (Elt F)),
    binary main_v104 main_v88 main_v105 ((fun l r => Host.dotGeneral dot_S100000x1280_S1280x128_S100000x128_1_0_0_1_n_n none l r) : (⟨S100000x1280, .f32⟩ : BufTy).Contents (Elt F) → (⟨S1280x128, .f32⟩ : BufTy).Contents (Elt F) → (⟨S100000x128, .f32⟩ : BufTy).Contents (Elt F)),
    nullary main_c_24 (constantI S_ 32 0#32),
    unary main_c_24 main_v106 (broadcastInDim S1600000 ![] bcast_S_S1600000 : (⟨S_, .i32⟩ : BufTy).Contents (Elt F) → (⟨S1600000, .i32⟩ : BufTy).Contents (Elt F)),
    binary main_v84 main_v106 main_v107 (cmpi .slt : (⟨S1600000, .i32⟩ : BufTy).Contents (Elt F) → (⟨S1600000, .i32⟩ : BufTy).Contents (Elt F) → (⟨S1600000, .i1⟩ : BufTy).Contents (Elt F)),
    nullary main_c_25 (constantI S_ 32 100000#32),
    unary main_c_25 main_v108 (broadcastInDim S1600000 ![] bcast_S_S1600000 : (⟨S_, .i32⟩ : BufTy).Contents (Elt F) → (⟨S1600000, .i32⟩ : BufTy).Contents (Elt F)),
    binary main_v84 main_v108 main_v109 (addi : (⟨S1600000, .i32⟩ : BufTy).Contents (Elt F) → (⟨S1600000, .i32⟩ : BufTy).Contents (Elt F) → (⟨S1600000, .i32⟩ : BufTy).Contents (Elt F)),
    ternary main_v107 main_v109 main_v84 main_v110 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v110 main_v111 (broadcastInDim S1600000x1 ![0] bcast_S1600000_S1600000x1_0 : (⟨S1600000, .i32⟩ : BufTy).Contents (Elt F) → (⟨S1600000x1, .i32⟩ : BufTy).Contents (Elt F)),
    binary main_v105 main_v111 main_v112 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_26 (constant S_ .f32 0x00000000#32),
    unary main_cst_26 main_v113 (broadcastInDim S100000x128 ![] bcast_S_S100000x128 : (⟨S_, .f32⟩ : BufTy).Contents (Elt F) → (⟨S100000x128, .f32⟩ : BufTy).Contents (Elt F)),
    unary main_v86 main_v114 (broadcastInDim S1600000x1 ![0] bcast_S1600000_S1600000x1_0 : (⟨S1600000, .i32⟩ : BufTy).Contents (Elt F) → (⟨S1600000x1, .i32⟩ : BufTy).Contents (Elt F)),
    ternary main_v113 main_v114 main_v112 main_v115 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_27 (constant S_ .f32 0xBF000000#32),
    unary main_cst_27 main_v116 (broadcastInDim S100000 ![] bcast_S_S100000 : (⟨S_, .f32⟩ : BufTy).Contents (Elt F) → (⟨S100000, .f32⟩ : BufTy).Contents (Elt F)),
    binary main_v99 main_v116 main_v117 (Host.powf : (⟨S100000, .f32⟩ : BufTy).Contents (Elt F) → (⟨S100000, .f32⟩ : BufTy).Contents (Elt F) → (⟨S100000, .f32⟩ : BufTy).Contents (Elt F)),
    unary main_v117 main_v118 (broadcastInDim S100000x1 ![0] bcast_S100000_S100000x1_0 : (⟨S100000, .f32⟩ : BufTy).Contents (Elt F) → (⟨S100000x1, .f32⟩ : BufTy).Contents (Elt F)),
    unary main_v118 main_v119 (broadcastInDim S100000x128 ![0, 1] bcast_S100000x1_S100000x128_0_1 : (⟨S100000x1, .f32⟩ : BufTy).Contents (Elt F) → (⟨S100000x128, .f32⟩ : BufTy).Contents (Elt F)),
    binary main_v115 main_v119 main_v120 (mulf : (⟨S100000x128, .f32⟩ : BufTy).Contents (Elt F) → (⟨S100000x128, .f32⟩ : BufTy).Contents (Elt F) → (⟨S100000x128, .f32⟩ : BufTy).Contents (Elt F)),
    unary main_v90 main_v121 (broadcastInDim S1x128 ![1] bcast_S128_S1x128_1 : (⟨S128, .f32⟩ : BufTy).Contents (Elt F) → (⟨S1x128, .f32⟩ : BufTy).Contents (Elt F)),
    unary main_v121 main_v122 (broadcastInDim S100000x128 ![0, 1] bcast_S1x128_S100000x128_0_1 : (⟨S1x128, .f32⟩ : BufTy).Contents (Elt F) → (⟨S100000x128, .f32⟩ : BufTy).Contents (Elt F)),
    binary main_v120 main_v122 main_v123 (addf : (⟨S100000x128, .f32⟩ : BufTy).Contents (Elt F) → (⟨S100000x128, .f32⟩ : BufTy).Contents (Elt F) → (⟨S100000x128, .f32⟩ : BufTy).Contents (Elt F)),
    binary main_v82 main_v123 main_v124 (addf : (⟨S100000x128, .f32⟩ : BufTy).Contents (Elt F) → (⟨S100000x128, .f32⟩ : BufTy).Contents (Elt F) → (⟨S100000x128, .f32⟩ : BufTy).Contents (Elt F)),
    binary main_v124 main_arg6 main_v125 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v126 (broadcastInDim S1x128 ![1] bcast_S128_S1x128_1 : (⟨S128, .f32⟩ : BufTy).Contents (Elt F) → (⟨S1x128, .f32⟩ : BufTy).Contents (Elt F)),
    unary main_v126 main_v127 (broadcastInDim S100000x128 ![0, 1] bcast_S1x128_S100000x128_0_1 : (⟨S1x128, .f32⟩ : BufTy).Contents (Elt F) → (⟨S100000x128, .f32⟩ : BufTy).Contents (Elt F)),
    binary main_v125 main_v127 main_v128 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x128, .f32⟩) main_call6_v0) (broadcastInDim S100000x128 ![] bcast_S_S100000x128),
    TRef.binary (TRef.of (T := ⟨S100000x128, .f32⟩) main_v128) (TRef.of (T := ⟨S100000x128, .f32⟩) main_call6_v0) (TRef.of (T := ⟨S100000x128, .f32⟩) main_v129) maximumf,
    nullary main_cst_28 (constant S_ .f32 0x00000000#32),
    binary main_v129 main_cst_28 main_v130 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_29 (constant S_ .f32 0x47C35000#32),
    unary main_cst_29 main_v131 (broadcastInDim S128 ![] bcast_S_S128 : (⟨S_, .f32⟩ : BufTy).Contents (Elt F) → (⟨S128, .f32⟩ : BufTy).Contents (Elt F)),
    binary main_v130 main_v131 main_v132 (Host.divf : (⟨S128, .f32⟩ : BufTy).Contents (Elt F) → (⟨S128, .f32⟩ : BufTy).Contents (Elt F) → (⟨S128, .f32⟩ : BufTy).Contents (Elt F)),
    unary main_v132 main_v133 (broadcastInDim S1x128 ![1] bcast_S128_S1x128_1 : (⟨S128, .f32⟩ : BufTy).Contents (Elt F) → (⟨S1x128, .f32⟩ : BufTy).Contents (Elt F)),
    unary main_v133 main_v134 (broadcastInDim S100000x128 ![0, 1] bcast_S1x128_S100000x128_0_1 : (⟨S1x128, .f32⟩ : BufTy).Contents (Elt F) → (⟨S100000x128, .f32⟩ : BufTy).Contents (Elt F)),
    binary main_v129 main_v134 main_v135 (subf : (⟨S100000x128, .f32⟩ : BufTy).Contents (Elt F) → (⟨S100000x128, .f32⟩ : BufTy).Contents (Elt F) → (⟨S100000x128, .f32⟩ : BufTy).Contents (Elt F)),
    binary main_v135 main_v135 main_v136 (mulf : (⟨S100000x128, .f32⟩ : BufTy).Contents (Elt F) → (⟨S100000x128, .f32⟩ : BufTy).Contents (Elt F) → (⟨S100000x128, .f32⟩ : BufTy).Contents (Elt F)),
    nullary main_cst_30 (constant S_ .f32 0x00000000#32),
    binary main_v136 main_cst_30 main_v137 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_31 (constant S_ .f32 0x47C35000#32),
    unary main_cst_31 main_v138 (broadcastInDim S128 ![] bcast_S_S128 : (⟨S_, .f32⟩ : BufTy).Contents (Elt F) → (⟨S128, .f32⟩ : BufTy).Contents (Elt F)),
    binary main_v137 main_v138 main_v139 (Host.divf : (⟨S128, .f32⟩ : BufTy).Contents (Elt F) → (⟨S128, .f32⟩ : BufTy).Contents (Elt F) → (⟨S128, .f32⟩ : BufTy).Contents (Elt F)),
    unary main_v132 main_v140 (broadcastInDim S1x128 ![1] bcast_S128_S1x128_1 : (⟨S128, .f32⟩ : BufTy).Contents (Elt F) → (⟨S1x128, .f32⟩ : BufTy).Contents (Elt F)),
    unary main_v140 main_v141 (broadcastInDim S100000x128 ![0, 1] bcast_S1x128_S100000x128_0_1 : (⟨S1x128, .f32⟩ : BufTy).Contents (Elt F) → (⟨S100000x128, .f32⟩ : BufTy).Contents (Elt F)),
    binary main_v129 main_v141 main_v142 (subf : (⟨S100000x128, .f32⟩ : BufTy).Contents (Elt F) → (⟨S100000x128, .f32⟩ : BufTy).Contents (Elt F) → (⟨S100000x128, .f32⟩ : BufTy).Contents (Elt F)),
    nullary main_cst_32 (constant S_ .f32 0x3727C5AC#32),
    unary main_cst_32 main_v143 (broadcastInDim S128 ![] bcast_S_S128 : (⟨S_, .f32⟩ : BufTy).Contents (Elt F) → (⟨S128, .f32⟩ : BufTy).Contents (Elt F)),
    binary main_v139 main_v143 main_v144 (addf : (⟨S128, .f32⟩ : BufTy).Contents (Elt F) → (⟨S128, .f32⟩ : BufTy).Contents (Elt F) → (⟨S128, .f32⟩ : BufTy).Contents (Elt F)) ]

def ops2_W : List (Ref sig .tc) :=
  [main_v96, main_v97, main_v98, main_cst_22, main_call5_v0, main_call5_v1, main_v99, main_cst_23, main_v100, main_v101, main_v102, main_v103, main_v104, main_v105, main_c_24, main_v106, main_v107, main_c_25, main_v108, main_v109, main_v110, main_v111, main_v112, main_cst_26, main_v113, main_v114, main_v115, main_cst_27, main_v116, main_v117, main_v118, main_v119, main_v120, main_v121, main_v122, main_v123, main_v124, main_v125, main_v126, main_v127, main_v128, main_call6_cst, main_call6_v0, main_v129, main_cst_28, main_v130, main_cst_29, main_v131, main_v132, main_v133, main_v134, main_v135, main_v136, main_cst_30, main_v137, main_cst_31, main_v138, main_v139, main_v140, main_v141, main_v142, main_cst_32, main_v143, main_v144]

def ops3 : List (HloOp τ sig (Elt F)) :=
  [ unary main_v144 main_v145 (Host.rsqrt : (⟨S128, .f32⟩ : BufTy).Contents (Elt F) → (⟨S128, .f32⟩ : BufTy).Contents (Elt F)),
    unary main_v145 main_v146 (broadcastInDim S1x128 ![1] bcast_S128_S1x128_1 : (⟨S128, .f32⟩ : BufTy).Contents (Elt F) → (⟨S1x128, .f32⟩ : BufTy).Contents (Elt F)),
    unary main_v146 main_v147 (broadcastInDim S100000x128 ![0, 1] bcast_S1x128_S100000x128_0_1 : (⟨S1x128, .f32⟩ : BufTy).Contents (Elt F) → (⟨S100000x128, .f32⟩ : BufTy).Contents (Elt F)),
    binary main_v142 main_v147 main_v148 (mulf : (⟨S100000x128, .f32⟩ : BufTy).Contents (Elt F) → (⟨S100000x128, .f32⟩ : BufTy).Contents (Elt F) → (⟨S100000x128, .f32⟩ : BufTy).Contents (Elt F)),
    unary main_arg8 main_v149 (broadcastInDim S1x128 ![1] bcast_S128_S1x128_1 : (⟨S128, .f32⟩ : BufTy).Contents (Elt F) → (⟨S1x128, .f32⟩ : BufTy).Contents (Elt F)),
    unary main_v149 main_v150 (broadcastInDim S100000x128 ![0, 1] bcast_S1x128_S100000x128_0_1 : (⟨S1x128, .f32⟩ : BufTy).Contents (Elt F) → (⟨S100000x128, .f32⟩ : BufTy).Contents (Elt F)),
    binary main_v148 main_v150 main_v151 (mulf : (⟨S100000x128, .f32⟩ : BufTy).Contents (Elt F) → (⟨S100000x128, .f32⟩ : BufTy).Contents (Elt F) → (⟨S100000x128, .f32⟩ : BufTy).Contents (Elt F)),
    unary main_arg9 main_v152 (broadcastInDim S1x128 ![1] bcast_S128_S1x128_1 : (⟨S128, .f32⟩ : BufTy).Contents (Elt F) → (⟨S1x128, .f32⟩ : BufTy).Contents (Elt F)),
    unary main_v152 main_v153 (broadcastInDim S100000x128 ![0, 1] bcast_S1x128_S100000x128_0_1 : (⟨S1x128, .f32⟩ : BufTy).Contents (Elt F) → (⟨S100000x128, .f32⟩ : BufTy).Contents (Elt F)),
    binary main_v151 main_v153 main_v154 (addf : (⟨S100000x128, .f32⟩ : BufTy).Contents (Elt F) → (⟨S100000x128, .f32⟩ : BufTy).Contents (Elt F) → (⟨S100000x128, .f32⟩ : BufTy).Contents (Elt F)),
    unary main_arg1 main_v155 ((extractStridedSlice S1x200000 ![0, 0] · slices_S2x200000_S1x200000_0_0) : (⟨S2x200000, .i32⟩ : BufTy).Contents (Elt F) → (⟨S1x200000, .i32⟩ : BufTy).Contents (Elt F)),
    reshape main_v155 main_v156 rfl shapeCasts_S1x200000_S200000,
    unary main_arg1 main_v157 ((extractStridedSlice S1x200000 ![1, 0] · slices_S2x200000_S1x200000_1_0) : (⟨S2x200000, .i32⟩ : BufTy).Contents (Elt F) → (⟨S1x200000, .i32⟩ : BufTy).Contents (Elt F)),
    reshape main_v157 main_v158 rfl shapeCasts_S1x200000_S200000,
    unary main_arg10 main_v159 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v159 main_v160 rfl shapeCasts_S1x128x128_S128x128,
    unary main_arg11 main_v161 ((extractStridedSlice S1x128 ![0, 0] · slices_S3x128_S1x128_0_0) : (⟨S3x128, .f32⟩ : BufTy).Contents (Elt F) → (⟨S1x128, .f32⟩ : BufTy).Contents (Elt F)),
    reshape main_v161 main_v162 rfl shapeCasts_S1x128_S128,
    nullary main_cst_33 (constant S_ .f32 0x3F800000#32),
    unary main_cst_33 main_v163 (broadcastInDim S200000 ![] bcast_S_S200000 : (⟨S_, .f32⟩ : BufTy).Contents (Elt F) → (⟨S200000, .f32⟩ : BufTy).Contents (Elt F)),
    nullary main_cst_34 (constant S_ .f32 0x00000000#32),
    unary main_cst_34 main_v164 (broadcastInDim S100000 ![] bcast_S_S100000 : (⟨S_, .f32⟩ : BufTy).Contents (Elt F) → (⟨S100000, .f32⟩ : BufTy).Contents (Elt F)),
    unary main_v156 main_v165 (broadcastInDim S200000x1 ![0] bcast_S200000_S200000x1_0 : (⟨S200000, .i32⟩ : BufTy).Contents (Elt F) → (⟨S200000x1, .i32⟩ : BufTy).Contents (Elt F)),
    ternary main_v164 main_v165 main_v163 main_v166 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)),
    nullary main_cst_35 (constant S_ .f32 0x3F800000#32),
    TRef.unary (TRef.of (T := ⟨S_, .f32⟩) main_cst_35) (TRef.of (T := ⟨S_, .f32⟩) main_call7_v0) id,
    TRef.unary (TRef.of (T := ⟨S_, .f32⟩) main_call7_v0) (TRef.of (T := ⟨S100000, .f32⟩) main_call7_v1) (broadcastInDim S100000 ![] bcast_S_S100000),
    TRef.binary (TRef.of (T := ⟨S100000, .f32⟩) main_call7_v1) (TRef.of (T := ⟨S100000, .f32⟩) main_v166) (TRef.of (T := ⟨S100000, .f32⟩) main_v167) maximumf,
    nullary main_cst_36 (constant S_ .f32 0x00000000#32),
    unary main_cst_36 main_v168 (broadcastInDim S100000 ![] bcast_S_S100000 : (⟨S_, .f32⟩ : BufTy).Contents (Elt F) → (⟨S100000, .f32⟩ : BufTy).Contents (Elt F)),
    unary main_v158 main_v169 (broadcastInDim S200000x1 ![0] bcast_S200000_S200000x1_0 : (⟨S200000, .i32⟩ : BufTy).Contents (Elt F) → (⟨S200000x1, .i32⟩ : BufTy).Contents (Elt F)),
    ternary main_v168 main_v169 main_v163 main_v170 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)),
    nullary main_cst_37 (constant S_ .f32 0x3F800000#32),
    TRef.unary (TRef.of (T := ⟨S_, .f32⟩) main_cst_37) (TRef.of (T := ⟨S_, .f32⟩) main_call8_v0) id,
    TRef.unary (TRef.of (T := ⟨S_, .f32⟩) main_call8_v0) (TRef.of (T := ⟨S100000, .f32⟩) main_call8_v1) (broadcastInDim S100000 ![] bcast_S_S100000),
    TRef.binary (TRef.of (T := ⟨S100000, .f32⟩) main_call8_v1) (TRef.of (T := ⟨S100000, .f32⟩) main_v170) (TRef.of (T := ⟨S100000, .f32⟩) main_v171) maximumf,
    nullary main_cst_38 (constant S_ .f32 0xBF000000#32),
    unary main_cst_38 main_v172 (broadcastInDim S100000 ![] bcast_S_S100000 : (⟨S_, .f32⟩ : BufTy).Contents (Elt F) → (⟨S100000, .f32⟩ : BufTy).Contents (Elt F)),
    binary main_v167 main_v172 main_v173 (Host.powf : (⟨S100000, .f32⟩ : BufTy).Contents (Elt F) → (⟨S100000, .f32⟩ : BufTy).Contents (Elt F) → (⟨S100000, .f32⟩ : BufTy).Contents (Elt F)),
    unary main_v173 main_v174 (broadcastInDim S100000x1 ![0] bcast_S100000_S100000x1_0 : (⟨S100000, .f32⟩ : BufTy).Contents (Elt F) → (⟨S100000x1, .f32⟩ : BufTy).Contents (Elt F)),
    unary main_v174 main_v175 (broadcastInDim S100000x128 ![0, 1] bcast_S100000x1_S100000x128_0_1 : (⟨S100000x1, .f32⟩ : BufTy).Contents (Elt F) → (⟨S100000x128, .f32⟩ : BufTy).Contents (Elt F)),
    binary main_v154 main_v175 main_v176 (mulf : (⟨S100000x128, .f32⟩ : BufTy).Contents (Elt F) → (⟨S100000x128, .f32⟩ : BufTy).Contents (Elt F) → (⟨S100000x128, .f32⟩ : BufTy).Contents (Elt F)),
    binary main_v176 main_v160 main_v177 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_39 (constantI S_ 32 0#32),
    unary main_c_39 main_v178 (broadcastInDim S200000 ![] bcast_S_S200000 : (⟨S_, .i32⟩ : BufTy).Contents (Elt F) → (⟨S200000, .i32⟩ : BufTy).Contents (Elt F)),
    binary main_v156 main_v178 main_v179 (cmpi .slt : (⟨S200000, .i32⟩ : BufTy).Contents (Elt F) → (⟨S200000, .i32⟩ : BufTy).Contents (Elt F) → (⟨S200000, .i1⟩ : BufTy).Contents (Elt F)),
    nullary main_c_40 (constantI S_ 32 100000#32),
    unary main_c_40 main_v180 (broadcastInDim S200000 ![] bcast_S_S200000 : (⟨S_, .i32⟩ : BufTy).Contents (Elt F) → (⟨S200000, .i32⟩ : BufTy).Contents (Elt F)),
    binary main_v156 main_v180 main_v181 (addi : (⟨S200000, .i32⟩ : BufTy).Contents (Elt F) → (⟨S200000, .i32⟩ : BufTy).Contents (Elt F) → (⟨S200000, .i32⟩ : BufTy).Contents (Elt F)),
    ternary main_v179 main_v181 main_v156 main_v182 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v182 main_v183 (broadcastInDim S200000x1 ![0] bcast_S200000_S200000x1_0 : (⟨S200000, .i32⟩ : BufTy).Contents (Elt F) → (⟨S200000x1, .i32⟩ : BufTy).Contents (Elt F)),
    binary main_v177 main_v183 main_v184 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)),
    nullary main_cst_41 (constant S_ .f32 0x00000000#32),
    unary main_cst_41 main_v185 (broadcastInDim S100000x128 ![] bcast_S_S100000x128 : (⟨S_, .f32⟩ : BufTy).Contents (Elt F) → (⟨S100000x128, .f32⟩ : BufTy).Contents (Elt F)),
    unary main_v158 main_v186 (broadcastInDim S200000x1 ![0] bcast_S200000_S200000x1_0 : (⟨S200000, .i32⟩ : BufTy).Contents (Elt F) → (⟨S200000x1, .i32⟩ : BufTy).Contents (Elt F)),
    ternary main_v185 main_v186 main_v184 main_v187 ((fun x i u => Host.scatterAdd scatter_S100000x128_S200000x1_S200000x128_1_0_0_1 x i u) : (⟨S100000x128, .f32⟩ : BufTy).Contents (Elt F) → (⟨S200000x1, .i32⟩ : BufTy).Contents (Elt F) → (⟨S200000x128, .f32⟩ : BufTy).Contents (Elt F) → (⟨S100000x128, .f32⟩ : BufTy).Contents (Elt F)),
    nullary main_cst_42 (constant S_ .f32 0xBF000000#32),
    unary main_cst_42 main_v188 (broadcastInDim S100000 ![] bcast_S_S100000 : (⟨S_, .f32⟩ : BufTy).Contents (Elt F) → (⟨S100000, .f32⟩ : BufTy).Contents (Elt F)),
    binary main_v171 main_v188 main_v189 (Host.powf : (⟨S100000, .f32⟩ : BufTy).Contents (Elt F) → (⟨S100000, .f32⟩ : BufTy).Contents (Elt F) → (⟨S100000, .f32⟩ : BufTy).Contents (Elt F)),
    unary main_v189 main_v190 (broadcastInDim S100000x1 ![0] bcast_S100000_S100000x1_0 : (⟨S100000, .f32⟩ : BufTy).Contents (Elt F) → (⟨S100000x1, .f32⟩ : BufTy).Contents (Elt F)),
    unary main_v190 main_v191 (broadcastInDim S100000x128 ![0, 1] bcast_S100000x1_S100000x128_0_1 : (⟨S100000x1, .f32⟩ : BufTy).Contents (Elt F) → (⟨S100000x128, .f32⟩ : BufTy).Contents (Elt F)),
    binary main_v187 main_v191 main_v192 (mulf : (⟨S100000x128, .f32⟩ : BufTy).Contents (Elt F) → (⟨S100000x128, .f32⟩ : BufTy).Contents (Elt F) → (⟨S100000x128, .f32⟩ : BufTy).Contents (Elt F)),
    unary main_v162 main_v193 (broadcastInDim S1x128 ![1] bcast_S128_S1x128_1 : (⟨S128, .f32⟩ : BufTy).Contents (Elt F) → (⟨S1x128, .f32⟩ : BufTy).Contents (Elt F)),
    unary main_v193 main_v194 (broadcastInDim S100000x128 ![0, 1] bcast_S1x128_S100000x128_0_1 : (⟨S1x128, .f32⟩ : BufTy).Contents (Elt F) → (⟨S100000x128, .f32⟩ : BufTy).Contents (Elt F)) ]

def ops3_W : List (Ref sig .tc) :=
  [main_v145, main_v146, main_v147, main_v148, main_v149, main_v150, main_v151, main_v152, main_v153, main_v154, main_v155, main_v156, main_v157, main_v158, main_v159, main_v160, main_v161, main_v162, main_cst_33, main_v163, main_cst_34, main_v164, main_v165, main_v166, main_cst_35, main_call7_v0, main_call7_v1, main_v167, main_cst_36, main_v168, main_v169, main_v170, main_cst_37, main_call8_v0, main_call8_v1, main_v171, main_cst_38, main_v172, main_v173, main_v174, main_v175, main_v176, main_v177, main_c_39, main_v178, main_v179, main_c_40, main_v180, main_v181, main_v182, main_v183, main_v184, main_cst_41, main_v185, main_v186, main_v187, main_cst_42, main_v188, main_v189, main_v190, main_v191, main_v192, main_v193, main_v194]

def ops4 : List (HloOp τ sig (Elt F)) :=
  [ binary main_v192 main_v194 main_v195 (addf : (⟨S100000x128, .f32⟩ : BufTy).Contents (Elt F) → (⟨S100000x128, .f32⟩ : BufTy).Contents (Elt F) → (⟨S100000x128, .f32⟩ : BufTy).Contents (Elt F)),
    unary main_arg2 main_v196 ((extractStridedSlice S1x1000000 ![0, 0] · slices_S2x1000000_S1x1000000_0_0) : (⟨S2x1000000, .i32⟩ : BufTy).Contents (Elt F) → (⟨S1x1000000, .i32⟩ : BufTy).Contents (Elt F)),
    reshape main_v196 main_v197 rfl shapeCasts_S1x1000000_S1000000,
    unary main_arg2 main_v198 ((extractStridedSlice S1x1000000 ![1, 0] · slices_S2x1000000_S1x1000000_1_0) : (⟨S2x1000000, .i32⟩ : BufTy).Contents (Elt F) → (⟨S1x1000000, .i32⟩ : BufTy).Contents (Elt F)),
    reshape main_v198 main_v199 rfl shapeCasts_S1x1000000_S1000000,
    unary main_arg10 main_v200 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v200 main_v201 rfl shapeCasts_S1x128x128_S128x128,
    unary main_arg11 main_v202 ((extractStridedSlice S1x128 ![1, 0] · slices_S3x128_S1x128_1_0) : (⟨S3x128, .f32⟩ : BufTy).Contents (Elt F) → (⟨S1x128, .f32⟩ : BufTy).Contents (Elt F)),
    reshape main_v202 main_v203 rfl shapeCasts_S1x128_S128,
    nullary main_cst_43 (constant S_ .f32 0x3F800000#32),
    unary main_cst_43 main_v204 (broadcastInDim S1000000 ![] bcast_S_S1000000 : (⟨S_, .f32⟩ : BufTy).Contents (Elt F) → (⟨S1000000, .f32⟩ : BufTy).Contents (Elt F)),
    nullary main_cst_44 (constant S_ .f32 0x00000000#32),
    unary main_cst_44 main_v205 (broadcastInDim S100000 ![] bcast_S_S100000 : (⟨S_, .f32⟩ : BufTy).Contents (Elt F) → (⟨S100000, .f32⟩ : BufTy).Contents (Elt F)),
    unary main_v197 main_v206 (broadcastInDim S1000000x1 ![0] bcast_S1000000_S1000000x1_0 : (⟨S1000000, .i32⟩ : BufTy).Contents (Elt F) → (⟨S1000000x1, .i32⟩ : BufTy).Contents (Elt F)),
    ternary main_v205 main_v206 main_v204 main_v207 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_45 (constant S_ .f32 0x3F800000#32),
    TRef.unary (TRef.of (T := ⟨S_, .f32⟩) main_cst_45) (TRef.of (T := ⟨S_, .f32⟩) main_call9_v0) id,
    TRef.unary (TRef.of (T := ⟨S_, .f32⟩) main_call9_v0) (TRef.of (T := ⟨S100000, .f32⟩) main_call9_v1) (broadcastInDim S100000 ![] bcast_S_S100000),
    TRef.binary (TRef.of (T := ⟨S100000, .f32⟩) main_call9_v1) (TRef.of (T := ⟨S100000, .f32⟩) main_v207) (TRef.of (T := ⟨S100000, .f32⟩) main_v208) maximumf,
    nullary main_cst_46 (constant S_ .f32 0x00000000#32),
    unary main_cst_46 main_v209 (broadcastInDim S100000 ![] bcast_S_S100000 : (⟨S_, .f32⟩ : BufTy).Contents (Elt F) → (⟨S100000, .f32⟩ : BufTy).Contents (Elt F)),
    unary main_v199 main_v210 (broadcastInDim S1000000x1 ![0] bcast_S1000000_S1000000x1_0 : (⟨S1000000, .i32⟩ : BufTy).Contents (Elt F) → (⟨S1000000x1, .i32⟩ : BufTy).Contents (Elt F)),
    ternary main_v209 main_v210 main_v204 main_v211 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_47 (constant S_ .f32 0x3F800000#32),
    TRef.unary (TRef.of (T := ⟨S_, .f32⟩) main_cst_47) (TRef.of (T := ⟨S_, .f32⟩) main_call10_v0) id,
    TRef.unary (TRef.of (T := ⟨S_, .f32⟩) main_call10_v0) (TRef.of (T := ⟨S100000, .f32⟩) main_call10_v1) (broadcastInDim S100000 ![] bcast_S_S100000),
    TRef.binary (TRef.of (T := ⟨S100000, .f32⟩) main_call10_v1) (TRef.of (T := ⟨S100000, .f32⟩) main_v211) (TRef.of (T := ⟨S100000, .f32⟩) main_v212) maximumf,
    nullary main_cst_48 (constant S_ .f32 0xBF000000#32),
    unary main_cst_48 main_v213 (broadcastInDim S100000 ![] bcast_S_S100000 : (⟨S_, .f32⟩ : BufTy).Contents (Elt F) → (⟨S100000, .f32⟩ : BufTy).Contents (Elt F)),
    binary main_v208 main_v213 main_v214 (Host.powf : (⟨S100000, .f32⟩ : BufTy).Contents (Elt F) → (⟨S100000, .f32⟩ : BufTy).Contents (Elt F) → (⟨S100000, .f32⟩ : BufTy).Contents (Elt F)),
    unary main_v214 main_v215 (broadcastInDim S100000x1 ![0] bcast_S100000_S100000x1_0 : (⟨S100000, .f32⟩ : BufTy).Contents (Elt F) → (⟨S100000x1, .f32⟩ : BufTy).Contents (Elt F)),
    unary main_v215 main_v216 (broadcastInDim S100000x128 ![0, 1] bcast_S100000x1_S100000x128_0_1 : (⟨S100000x1, .f32⟩ : BufTy).Contents (Elt F) → (⟨S100000x128, .f32⟩ : BufTy).Contents (Elt F)),
    binary main_v154 main_v216 main_v217 (mulf : (⟨S100000x128, .f32⟩ : BufTy).Contents (Elt F) → (⟨S100000x128, .f32⟩ : BufTy).Contents (Elt F) → (⟨S100000x128, .f32⟩ : BufTy).Contents (Elt F)),
    binary main_v217 main_v201 main_v218 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_49 (constantI S_ 32 0#32),
    unary main_c_49 main_v219 (broadcastInDim S1000000 ![] bcast_S_S1000000 : (⟨S_, .i32⟩ : BufTy).Contents (Elt F) → (⟨S1000000, .i32⟩ : BufTy).Contents (Elt F)),
    binary main_v197 main_v219 main_v220 (cmpi .slt : (⟨S1000000, .i32⟩ : BufTy).Contents (Elt F) → (⟨S1000000, .i32⟩ : BufTy).Contents (Elt F) → (⟨S1000000, .i1⟩ : BufTy).Contents (Elt F)),
    nullary main_c_50 (constantI S_ 32 100000#32),
    unary main_c_50 main_v221 (broadcastInDim S1000000 ![] bcast_S_S1000000 : (⟨S_, .i32⟩ : BufTy).Contents (Elt F) → (⟨S1000000, .i32⟩ : BufTy).Contents (Elt F)),
    binary main_v197 main_v221 main_v222 (addi : (⟨S1000000, .i32⟩ : BufTy).Contents (Elt F) → (⟨S1000000, .i32⟩ : BufTy).Contents (Elt F) → (⟨S1000000, .i32⟩ : BufTy).Contents (Elt F)),
    ternary main_v220 main_v222 main_v197 main_v223 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v223 main_v224 (broadcastInDim S1000000x1 ![0] bcast_S1000000_S1000000x1_0 : (⟨S1000000, .i32⟩ : BufTy).Contents (Elt F) → (⟨S1000000x1, .i32⟩ : BufTy).Contents (Elt F)),
    binary main_v218 main_v224 main_v225 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst_51 (constant S_ .f32 0x00000000#32),
    unary main_cst_51 main_v226 (broadcastInDim S100000x128 ![] bcast_S_S100000x128 : (⟨S_, .f32⟩ : BufTy).Contents (Elt F) → (⟨S100000x128, .f32⟩ : BufTy).Contents (Elt F)),
    unary main_v199 main_v227 (broadcastInDim S1000000x1 ![0] bcast_S1000000_S1000000x1_0 : (⟨S1000000, .i32⟩ : BufTy).Contents (Elt F) → (⟨S1000000x1, .i32⟩ : BufTy).Contents (Elt F)),
    ternary main_v226 main_v227 main_v225 main_v228 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_cst_52 (constant S_ .f32 0xBF000000#32),
    unary main_cst_52 main_v229 (broadcastInDim S100000 ![] bcast_S_S100000 : (⟨S_, .f32⟩ : BufTy).Contents (Elt F) → (⟨S100000, .f32⟩ : BufTy).Contents (Elt F)),
    binary main_v212 main_v229 main_v230 (Host.powf : (⟨S100000, .f32⟩ : BufTy).Contents (Elt F) → (⟨S100000, .f32⟩ : BufTy).Contents (Elt F) → (⟨S100000, .f32⟩ : BufTy).Contents (Elt F)),
    unary main_v230 main_v231 (broadcastInDim S100000x1 ![0] bcast_S100000_S100000x1_0 : (⟨S100000, .f32⟩ : BufTy).Contents (Elt F) → (⟨S100000x1, .f32⟩ : BufTy).Contents (Elt F)),
    unary main_v231 main_v232 (broadcastInDim S100000x128 ![0, 1] bcast_S100000x1_S100000x128_0_1 : (⟨S100000x1, .f32⟩ : BufTy).Contents (Elt F) → (⟨S100000x128, .f32⟩ : BufTy).Contents (Elt F)),
    binary main_v228 main_v232 main_v233 (mulf : (⟨S100000x128, .f32⟩ : BufTy).Contents (Elt F) → (⟨S100000x128, .f32⟩ : BufTy).Contents (Elt F) → (⟨S100000x128, .f32⟩ : BufTy).Contents (Elt F)),
    unary main_v203 main_v234 (broadcastInDim S1x128 ![1] bcast_S128_S1x128_1 : (⟨S128, .f32⟩ : BufTy).Contents (Elt F) → (⟨S1x128, .f32⟩ : BufTy).Contents (Elt F)),
    unary main_v234 main_v235 (broadcastInDim S100000x128 ![0, 1] bcast_S1x128_S100000x128_0_1 : (⟨S1x128, .f32⟩ : BufTy).Contents (Elt F) → (⟨S100000x128, .f32⟩ : BufTy).Contents (Elt F)),
    binary main_v233 main_v235 main_v236 (addf : (⟨S100000x128, .f32⟩ : BufTy).Contents (Elt F) → (⟨S100000x128, .f32⟩ : BufTy).Contents (Elt F) → (⟨S100000x128, .f32⟩ : BufTy).Contents (Elt F)),
    binary main_v195 main_v236 main_v237 (addf : (⟨S100000x128, .f32⟩ : BufTy).Contents (Elt F) → (⟨S100000x128, .f32⟩ : BufTy).Contents (Elt F) → (⟨S100000x128, .f32⟩ : BufTy).Contents (Elt F)),
    unary main_arg3 main_v238 ((extractStridedSlice S1x1600000 ![0, 0] · slices_S2x1600000_S1x1600000_0_0) : (⟨S2x1600000, .i32⟩ : BufTy).Contents (Elt F) → (⟨S1x1600000, .i32⟩ : BufTy).Contents (Elt F)),
    reshape main_v238 main_v239 rfl shapeCasts_S1x1600000_S1600000,
    unary main_arg3 main_v240 ((extractStridedSlice S1x1600000 ![1, 0] · slices_S2x1600000_S1x1600000_1_0) : (⟨S2x1600000, .i32⟩ : BufTy).Contents (Elt F) → (⟨S1x1600000, .i32⟩ : BufTy).Contents (Elt F)),
    reshape main_v240 main_v241 rfl shapeCasts_S1x1600000_S1600000,
    unary main_arg10 main_v242 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v242 main_v243 rfl shapeCasts_S1x128x128_S128x128,
    unary main_arg11 main_v244 ((extractStridedSlice S1x128 ![2, 0] · slices_S3x128_S1x128_2_0) : (⟨S3x128, .f32⟩ : BufTy).Contents (Elt F) → (⟨S1x128, .f32⟩ : BufTy).Contents (Elt F)) ]

def ops4_W : List (Ref sig .tc) :=
  [main_v195, main_v196, main_v197, main_v198, main_v199, main_v200, main_v201, main_v202, main_v203, main_cst_43, main_v204, main_cst_44, main_v205, main_v206, main_v207, main_cst_45, main_call9_v0, main_call9_v1, main_v208, main_cst_46, main_v209, main_v210, main_v211, main_cst_47, main_call10_v0, main_call10_v1, main_v212, main_cst_48, main_v213, main_v214, main_v215, main_v216, main_v217, main_v218, main_c_49, main_v219, main_v220, main_c_50, main_v221, main_v222, main_v223, main_v224, main_v225, main_cst_51, main_v226, main_v227, main_v228, main_cst_52, main_v229, main_v230, main_v231, main_v232, main_v233, main_v234, main_v235, main_v236, main_v237, main_v238, main_v239, main_v240, main_v241, main_v242, main_v243, main_v244]

def ops5 : List (HloOp τ sig (Elt F)) :=
  [ reshape main_v244 main_v245 rfl shapeCasts_S1x128_S128,
    nullary main_cst_53 (constant S_ .f32 0x3F800000#32),
    unary main_cst_53 main_v246 (broadcastInDim S1600000 ![] bcast_S_S1600000 : (⟨S_, .f32⟩ : BufTy).Contents (Elt F) → (⟨S1600000, .f32⟩ : BufTy).Contents (Elt F)),
    nullary main_cst_54 (constant S_ .f32 0x00000000#32),
    unary main_cst_54 main_v247 (broadcastInDim S100000 ![] bcast_S_S100000 : (⟨S_, .f32⟩ : BufTy).Contents (Elt F) → (⟨S100000, .f32⟩ : BufTy).Contents (Elt F)),
    unary main_v239 main_v248 (broadcastInDim S1600000x1 ![0] bcast_S1600000_S1600000x1_0 : (⟨S1600000, .i32⟩ : BufTy).Contents (Elt F) → (⟨S1600000x1, .i32⟩ : BufTy).Contents (Elt F)),
    ternary main_v247 main_v248 main_v246 main_v249 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_55 (constant S_ .f32 0x3F800000#32),
    TRef.unary (TRef.of (T := ⟨S_, .f32⟩) main_cst_55) (TRef.of (T := ⟨S_, .f32⟩) main_call11_v0) id,
    TRef.unary (TRef.of (T := ⟨S_, .f32⟩) main_call11_v0) (TRef.of (T := ⟨S100000, .f32⟩) main_call11_v1) (broadcastInDim S100000 ![] bcast_S_S100000),
    TRef.binary (TRef.of (T := ⟨S100000, .f32⟩) main_call11_v1) (TRef.of (T := ⟨S100000, .f32⟩) main_v249) (TRef.of (T := ⟨S100000, .f32⟩) main_v250) maximumf,
    nullary main_cst_56 (constant S_ .f32 0x00000000#32),
    unary main_cst_56 main_v251 (broadcastInDim S100000 ![] bcast_S_S100000 : (⟨S_, .f32⟩ : BufTy).Contents (Elt F) → (⟨S100000, .f32⟩ : BufTy).Contents (Elt F)),
    unary main_v241 main_v252 (broadcastInDim S1600000x1 ![0] bcast_S1600000_S1600000x1_0 : (⟨S1600000, .i32⟩ : BufTy).Contents (Elt F) → (⟨S1600000x1, .i32⟩ : BufTy).Contents (Elt F)),
    ternary main_v251 main_v252 main_v246 main_v253 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_57 (constant S_ .f32 0x3F800000#32),
    TRef.unary (TRef.of (T := ⟨S_, .f32⟩) main_cst_57) (TRef.of (T := ⟨S_, .f32⟩) main_call12_v0) id,
    TRef.unary (TRef.of (T := ⟨S_, .f32⟩) main_call12_v0) (TRef.of (T := ⟨S100000, .f32⟩) main_call12_v1) (broadcastInDim S100000 ![] bcast_S_S100000),
    TRef.binary (TRef.of (T := ⟨S100000, .f32⟩) main_call12_v1) (TRef.of (T := ⟨S100000, .f32⟩) main_v253) (TRef.of (T := ⟨S100000, .f32⟩) main_v254) maximumf,
    nullary main_cst_58 (constant S_ .f32 0xBF000000#32),
    unary main_cst_58 main_v255 (broadcastInDim S100000 ![] bcast_S_S100000 : (⟨S_, .f32⟩ : BufTy).Contents (Elt F) → (⟨S100000, .f32⟩ : BufTy).Contents (Elt F)),
    binary main_v250 main_v255 main_v256 (Host.powf : (⟨S100000, .f32⟩ : BufTy).Contents (Elt F) → (⟨S100000, .f32⟩ : BufTy).Contents (Elt F) → (⟨S100000, .f32⟩ : BufTy).Contents (Elt F)),
    unary main_v256 main_v257 (broadcastInDim S100000x1 ![0] bcast_S100000_S100000x1_0 : (⟨S100000, .f32⟩ : BufTy).Contents (Elt F) → (⟨S100000x1, .f32⟩ : BufTy).Contents (Elt F)),
    unary main_v257 main_v258 (broadcastInDim S100000x128 ![0, 1] bcast_S100000x1_S100000x128_0_1 : (⟨S100000x1, .f32⟩ : BufTy).Contents (Elt F) → (⟨S100000x128, .f32⟩ : BufTy).Contents (Elt F)),
    binary main_v154 main_v258 main_v259 (mulf : (⟨S100000x128, .f32⟩ : BufTy).Contents (Elt F) → (⟨S100000x128, .f32⟩ : BufTy).Contents (Elt F) → (⟨S100000x128, .f32⟩ : BufTy).Contents (Elt F)),
    binary main_v259 main_v243 main_v260 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_59 (constantI S_ 32 0#32),
    unary main_c_59 main_v261 (broadcastInDim S1600000 ![] bcast_S_S1600000 : (⟨S_, .i32⟩ : BufTy).Contents (Elt F) → (⟨S1600000, .i32⟩ : BufTy).Contents (Elt F)),
    binary main_v239 main_v261 main_v262 (cmpi .slt : (⟨S1600000, .i32⟩ : BufTy).Contents (Elt F) → (⟨S1600000, .i32⟩ : BufTy).Contents (Elt F) → (⟨S1600000, .i1⟩ : BufTy).Contents (Elt F)),
    nullary main_c_60 (constantI S_ 32 100000#32),
    unary main_c_60 main_v263 (broadcastInDim S1600000 ![] bcast_S_S1600000 : (⟨S_, .i32⟩ : BufTy).Contents (Elt F) → (⟨S1600000, .i32⟩ : BufTy).Contents (Elt F)),
    binary main_v239 main_v263 main_v264 (addi : (⟨S1600000, .i32⟩ : BufTy).Contents (Elt F) → (⟨S1600000, .i32⟩ : BufTy).Contents (Elt F) → (⟨S1600000, .i32⟩ : BufTy).Contents (Elt F)),
    ternary main_v262 main_v264 main_v239 main_v265 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v265 main_v266 (broadcastInDim S1600000x1 ![0] bcast_S1600000_S1600000x1_0 : (⟨S1600000, .i32⟩ : BufTy).Contents (Elt F) → (⟨S1600000x1, .i32⟩ : BufTy).Contents (Elt F)),
    binary main_v260 main_v266 main_v267 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_61 (constant S_ .f32 0x00000000#32),
    unary main_cst_61 main_v268 (broadcastInDim S100000x128 ![] bcast_S_S100000x128 : (⟨S_, .f32⟩ : BufTy).Contents (Elt F) → (⟨S100000x128, .f32⟩ : BufTy).Contents (Elt F)),
    unary main_v241 main_v269 (broadcastInDim S1600000x1 ![0] bcast_S1600000_S1600000x1_0 : (⟨S1600000, .i32⟩ : BufTy).Contents (Elt F) → (⟨S1600000x1, .i32⟩ : BufTy).Contents (Elt F)),
    ternary main_v268 main_v269 main_v267 main_v270 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_62 (constant S_ .f32 0xBF000000#32),
    unary main_cst_62 main_v271 (broadcastInDim S100000 ![] bcast_S_S100000 : (⟨S_, .f32⟩ : BufTy).Contents (Elt F) → (⟨S100000, .f32⟩ : BufTy).Contents (Elt F)),
    binary main_v254 main_v271 main_v272 (Host.powf : (⟨S100000, .f32⟩ : BufTy).Contents (Elt F) → (⟨S100000, .f32⟩ : BufTy).Contents (Elt F) → (⟨S100000, .f32⟩ : BufTy).Contents (Elt F)),
    unary main_v272 main_v273 (broadcastInDim S100000x1 ![0] bcast_S100000_S100000x1_0 : (⟨S100000, .f32⟩ : BufTy).Contents (Elt F) → (⟨S100000x1, .f32⟩ : BufTy).Contents (Elt F)),
    unary main_v273 main_v274 (broadcastInDim S100000x128 ![0, 1] bcast_S100000x1_S100000x128_0_1 : (⟨S100000x1, .f32⟩ : BufTy).Contents (Elt F) → (⟨S100000x128, .f32⟩ : BufTy).Contents (Elt F)),
    binary main_v270 main_v274 main_v275 (mulf : (⟨S100000x128, .f32⟩ : BufTy).Contents (Elt F) → (⟨S100000x128, .f32⟩ : BufTy).Contents (Elt F) → (⟨S100000x128, .f32⟩ : BufTy).Contents (Elt F)),
    unary main_v245 main_v276 (broadcastInDim S1x128 ![1] bcast_S128_S1x128_1 : (⟨S128, .f32⟩ : BufTy).Contents (Elt F) → (⟨S1x128, .f32⟩ : BufTy).Contents (Elt F)),
    unary main_v276 main_v277 (broadcastInDim S100000x128 ![0, 1] bcast_S1x128_S100000x128_0_1 : (⟨S1x128, .f32⟩ : BufTy).Contents (Elt F) → (⟨S100000x128, .f32⟩ : BufTy).Contents (Elt F)),
    binary main_v275 main_v277 main_v278 (addf : (⟨S100000x128, .f32⟩ : BufTy).Contents (Elt F) → (⟨S100000x128, .f32⟩ : BufTy).Contents (Elt F) → (⟨S100000x128, .f32⟩ : BufTy).Contents (Elt F)),
    binary main_v237 main_v278 main_v279 (addf : (⟨S100000x128, .f32⟩ : BufTy).Contents (Elt F) → (⟨S100000x128, .f32⟩ : BufTy).Contents (Elt F) → (⟨S100000x128, .f32⟩ : BufTy).Contents (Elt F)),
    binary main_v279 main_arg12 main_v280 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg13 main_v281 (broadcastInDim S1x128 ![1] bcast_S128_S1x128_1 : (⟨S128, .f32⟩ : BufTy).Contents (Elt F) → (⟨S1x128, .f32⟩ : BufTy).Contents (Elt F)),
    unary main_v281 main_v282 (broadcastInDim S100000x128 ![0, 1] bcast_S1x128_S100000x128_0_1 : (⟨S1x128, .f32⟩ : BufTy).Contents (Elt F) → (⟨S100000x128, .f32⟩ : BufTy).Contents (Elt F)),
    binary main_v280 main_v282 main_v283 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S100000x128, .f32⟩) main_call13_v0) (broadcastInDim S100000x128 ![] bcast_S_S100000x128),
    TRef.binary (TRef.of (T := ⟨S100000x128, .f32⟩) main_v283) (TRef.of (T := ⟨S100000x128, .f32⟩) main_call13_v0) (TRef.of (T := ⟨S100000x128, .f32⟩) main_v284) maximumf,
    nullary main_cst_63 (constant S_ .f32 0x00000000#32),
    binary main_v284 main_cst_63 main_v285 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_64 (constant S_ .f32 0x47C35000#32),
    unary main_cst_64 main_v286 (broadcastInDim S128 ![] bcast_S_S128 : (⟨S_, .f32⟩ : BufTy).Contents (Elt F) → (⟨S128, .f32⟩ : BufTy).Contents (Elt F)),
    binary main_v285 main_v286 main_v287 (Host.divf : (⟨S128, .f32⟩ : BufTy).Contents (Elt F) → (⟨S128, .f32⟩ : BufTy).Contents (Elt F) → (⟨S128, .f32⟩ : BufTy).Contents (Elt F)),
    unary main_v287 main_v288 (broadcastInDim S1x128 ![1] bcast_S128_S1x128_1 : (⟨S128, .f32⟩ : BufTy).Contents (Elt F) → (⟨S1x128, .f32⟩ : BufTy).Contents (Elt F)),
    unary main_v288 main_v289 (broadcastInDim S100000x128 ![0, 1] bcast_S1x128_S100000x128_0_1 : (⟨S1x128, .f32⟩ : BufTy).Contents (Elt F) → (⟨S100000x128, .f32⟩ : BufTy).Contents (Elt F)),
    binary main_v284 main_v289 main_v290 (subf : (⟨S100000x128, .f32⟩ : BufTy).Contents (Elt F) → (⟨S100000x128, .f32⟩ : BufTy).Contents (Elt F) → (⟨S100000x128, .f32⟩ : BufTy).Contents (Elt F)),
    binary main_v290 main_v290 main_v291 (mulf : (⟨S100000x128, .f32⟩ : BufTy).Contents (Elt F) → (⟨S100000x128, .f32⟩ : BufTy).Contents (Elt F) → (⟨S100000x128, .f32⟩ : BufTy).Contents (Elt F)),
    nullary main_cst_65 (constant S_ .f32 0x00000000#32) ]

def ops5_W : List (Ref sig .tc) :=
  [main_v245, main_cst_53, main_v246, main_cst_54, main_v247, main_v248, main_v249, main_cst_55, main_call11_v0, main_call11_v1, main_v250, main_cst_56, main_v251, main_v252, main_v253, main_cst_57, main_call12_v0, main_call12_v1, main_v254, main_cst_58, main_v255, main_v256, main_v257, main_v258, main_v259, main_v260, main_c_59, main_v261, main_v262, main_c_60, main_v263, main_v264, main_v265, main_v266, main_v267, main_cst_61, main_v268, main_v269, main_v270, main_cst_62, main_v271, main_v272, main_v273, main_v274, main_v275, main_v276, main_v277, main_v278, main_v279, main_v280, main_v281, main_v282, main_v283, main_call13_cst, main_call13_v0, main_v284, main_cst_63, main_v285, main_cst_64, main_v286, main_v287, main_v288, main_v289, main_v290, main_v291, main_cst_65]

def ops6 : List (HloOp τ sig (Elt F)) :=
  [ binary main_v291 main_cst_65 main_v292 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_66 (constant S_ .f32 0x47C35000#32),
    unary main_cst_66 main_v293 (broadcastInDim S128 ![] bcast_S_S128 : (⟨S_, .f32⟩ : BufTy).Contents (Elt F) → (⟨S128, .f32⟩ : BufTy).Contents (Elt F)),
    binary main_v292 main_v293 main_v294 (Host.divf : (⟨S128, .f32⟩ : BufTy).Contents (Elt F) → (⟨S128, .f32⟩ : BufTy).Contents (Elt F) → (⟨S128, .f32⟩ : BufTy).Contents (Elt F)),
    unary main_v287 main_v295 (broadcastInDim S1x128 ![1] bcast_S128_S1x128_1 : (⟨S128, .f32⟩ : BufTy).Contents (Elt F) → (⟨S1x128, .f32⟩ : BufTy).Contents (Elt F)),
    unary main_v295 main_v296 (broadcastInDim S100000x128 ![0, 1] bcast_S1x128_S100000x128_0_1 : (⟨S1x128, .f32⟩ : BufTy).Contents (Elt F) → (⟨S100000x128, .f32⟩ : BufTy).Contents (Elt F)),
    binary main_v284 main_v296 main_v297 (subf : (⟨S100000x128, .f32⟩ : BufTy).Contents (Elt F) → (⟨S100000x128, .f32⟩ : BufTy).Contents (Elt F) → (⟨S100000x128, .f32⟩ : BufTy).Contents (Elt F)),
    nullary main_cst_67 (constant S_ .f32 0x3727C5AC#32),
    unary main_cst_67 main_v298 (broadcastInDim S128 ![] bcast_S_S128 : (⟨S_, .f32⟩ : BufTy).Contents (Elt F) → (⟨S128, .f32⟩ : BufTy).Contents (Elt F)),
    binary main_v294 main_v298 main_v299 (addf : (⟨S128, .f32⟩ : BufTy).Contents (Elt F) → (⟨S128, .f32⟩ : BufTy).Contents (Elt F) → (⟨S128, .f32⟩ : BufTy).Contents (Elt F)),
    unary main_v299 main_v300 (Host.rsqrt : (⟨S128, .f32⟩ : BufTy).Contents (Elt F) → (⟨S128, .f32⟩ : BufTy).Contents (Elt F)),
    unary main_v300 main_v301 (broadcastInDim S1x128 ![1] bcast_S128_S1x128_1 : (⟨S128, .f32⟩ : BufTy).Contents (Elt F) → (⟨S1x128, .f32⟩ : BufTy).Contents (Elt F)),
    unary main_v301 main_v302 (broadcastInDim S100000x128 ![0, 1] bcast_S1x128_S100000x128_0_1 : (⟨S1x128, .f32⟩ : BufTy).Contents (Elt F) → (⟨S100000x128, .f32⟩ : BufTy).Contents (Elt F)),
    binary main_v297 main_v302 main_v303 (mulf : (⟨S100000x128, .f32⟩ : BufTy).Contents (Elt F) → (⟨S100000x128, .f32⟩ : BufTy).Contents (Elt F) → (⟨S100000x128, .f32⟩ : BufTy).Contents (Elt F)),
    unary main_arg14 main_v304 (broadcastInDim S1x128 ![1] bcast_S128_S1x128_1 : (⟨S128, .f32⟩ : BufTy).Contents (Elt F) → (⟨S1x128, .f32⟩ : BufTy).Contents (Elt F)),
    unary main_v304 main_v305 (broadcastInDim S100000x128 ![0, 1] bcast_S1x128_S100000x128_0_1 : (⟨S1x128, .f32⟩ : BufTy).Contents (Elt F) → (⟨S100000x128, .f32⟩ : BufTy).Contents (Elt F)),
    binary main_v303 main_v305 main_v306 (mulf : (⟨S100000x128, .f32⟩ : BufTy).Contents (Elt F) → (⟨S100000x128, .f32⟩ : BufTy).Contents (Elt F) → (⟨S100000x128, .f32⟩ : BufTy).Contents (Elt F)),
    unary main_arg15 main_v307 (broadcastInDim S1x128 ![1] bcast_S128_S1x128_1 : (⟨S128, .f32⟩ : BufTy).Contents (Elt F) → (⟨S1x128, .f32⟩ : BufTy).Contents (Elt F)),
    unary main_v307 main_v308 (broadcastInDim S100000x128 ![0, 1] bcast_S1x128_S100000x128_0_1 : (⟨S1x128, .f32⟩ : BufTy).Contents (Elt F) → (⟨S100000x128, .f32⟩ : BufTy).Contents (Elt F)),
    binary main_v306 main_v308 main_v309 (addf : (⟨S100000x128, .f32⟩ : BufTy).Contents (Elt F) → (⟨S100000x128, .f32⟩ : BufTy).Contents (Elt F) → (⟨S100000x128, .f32⟩ : BufTy).Contents (Elt F)) ]

def ops6_W : List (Ref sig .tc) :=
  [main_v292, main_cst_66, main_v293, main_v294, main_v295, main_v296, main_v297, main_cst_67, main_v298, main_v299, main_v300, main_v301, main_v302, main_v303, main_v304, main_v305, main_v306, main_v307, main_v308, main_v309]

theorem part0_eq (c : Dev nD) : main_part0 (F := F) c = seq ops0 := rfl
theorem part1_eq (c : Dev nD) : main_part1 (F := F) c = seq ops1 := rfl
theorem part2_eq (c : Dev nD) : main_part2 (F := F) c = seq ops2 := rfl
theorem part3_eq (c : Dev nD) : main_part3 (F := F) c = seq ops3 := rfl
theorem part4_eq (c : Dev nD) : main_part4 (F := F) c = seq ops4 := rfl
theorem part5_eq (c : Dev nD) : main_part5 (F := F) c = seq ops5 := rfl
theorem part6_eq (c : Dev nD) : main_part6 (F := F) c = seq ops6 := rfl

def ops : List (HloOp τ sig (Elt F)) := ops0 ++ (ops1 ++ (ops2 ++ (ops3 ++ (ops4 ++ (ops5 ++ ops6)))))

theorem main_eq (c : Dev nD) : main (F := F) c = seq ops := by
  simp only [ops, seq_append, ← part0_eq c, ← part1_eq c, ← part2_eq c, ← part3_eq c, ← part4_eq c, ← part5_eq c, ← part6_eq c]
  rfl

theorem scopedRefs_eq : (Finset.univ.filter fun b : Ref sig .tc => b.isScoped) = ∅ := by decide
theorem scopedSems_eq : (Finset.univ.filter fun sm : SemLoc sig => sm.isScoped .tc) = ∅ := by decide

-- An operation that writes the one reference `y` writes inside any list of references that holds `y`.
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem ops_sub : (ops : List (HloOp τ sig (Elt F))).Forall fun op => op.bufs ⊆ tcRefs τ sig := by
  simp only [ops, List.forall_append]
  repeat' apply And.intro
  all_goals try unfold List.Forall
  all_goals with_reducible first | exact nullary_bufs_sub .. | exact unary_bufs_sub .. | exact binary_bufs_sub .. | exact ternary_bufs_sub .. | exact reshape_bufs_sub ..

theorem ops_fresh : ∀ op ∈ (ops : List (HloOp τ sig (Elt F))), op.fresh = ∅ := by
  refine List.forall_iff_forall_mem.mp ?_
  simp only [ops, List.forall_append]
  repeat' apply And.intro
  all_goals rfl

-- Every operation of a line writes one reference of the line's list.
theorem writes : ((ops0 : List (HloOp τ sig (Elt F))).Forall fun op => op.writes ⊆ (ops0_W.map (Proc.devRef (τ := τ) .tc)).toFinset) ∧
    ((ops1 : List (HloOp τ sig (Elt F))).Forall fun op => op.writes ⊆ (ops1_W.map (Proc.devRef (τ := τ) .tc)).toFinset) ∧
    ((ops2 : List (HloOp τ sig (Elt F))).Forall fun op => op.writes ⊆ (ops2_W.map (Proc.devRef (τ := τ) .tc)).toFinset) ∧
    ((ops3 : List (HloOp τ sig (Elt F))).Forall fun op => op.writes ⊆ (ops3_W.map (Proc.devRef (τ := τ) .tc)).toFinset) ∧
    ((ops4 : List (HloOp τ sig (Elt F))).Forall fun op => op.writes ⊆ (ops4_W.map (Proc.devRef (τ := τ) .tc)).toFinset) ∧
    ((ops5 : List (HloOp τ sig (Elt F))).Forall fun op => op.writes ⊆ (ops5_W.map (Proc.devRef (τ := τ) .tc)).toFinset) ∧
    ((ops6 : List (HloOp τ sig (Elt F))).Forall fun op => op.writes ⊆ (ops6_W.map (Proc.devRef (τ := τ) .tc)).toFinset) := by
  repeat' apply And.intro
  all_goals exact sub_of_mem (by decide)

variable (V : Valuation τ sig (Elt F)) (x0 : (⟨S100000x1280, .f32⟩ : BufTy).Contents (Elt F)) (x1 : (⟨S2x200000, .i32⟩ : BufTy).Contents (Elt F)) (x2 : (⟨S2x1000000, .i32⟩ : BufTy).Contents (Elt F)) (x3 : (⟨S2x1600000, .i32⟩ : BufTy).Contents (Elt F)) (x4 : (⟨S3x1280x128, .f32⟩ : BufTy).Contents (Elt F)) (x5 : (⟨S3x128, .f32⟩ : BufTy).Contents (Elt F)) (x6 : (⟨S128x128, .f32⟩ : BufTy).Contents (Elt F)) (x7 : (⟨S128, .f32⟩ : BufTy).Contents (Elt F)) (x8 : (⟨S128, .f32⟩ : BufTy).Contents (Elt F)) (x9 : (⟨S128, .f32⟩ : BufTy).Contents (Elt F)) (x10 : (⟨S3x128x128, .f32⟩ : BufTy).Contents (Elt F)) (x11 : (⟨S3x128, .f32⟩ : BufTy).Contents (Elt F)) (x12 : (⟨S128x128, .f32⟩ : BufTy).Contents (Elt F)) (x13 : (⟨S128, .f32⟩ : BufTy).Contents (Elt F)) (x14 : (⟨S128, .f32⟩ : BufTy).Contents (Elt F)) (x15 : (⟨S128, .f32⟩ : BufTy).Contents (Elt F))

-- Each argument's buffer holds the argument.
structure Args : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  arg13 : V (Proc.devRef .tc main_arg13) = x13
  arg14 : V (Proc.devRef .tc main_arg14) = x14
  arg15 : V (Proc.devRef .tc main_arg15) = x15

structure At1 : Prop extends Args V x0 x1 x2 x3 x4 x5 x6 x7 x8 x9 x10 x11 x12 x13 x14 x15 where
  v40 : V (Proc.devRef .tc main_v40) = ReadP.val_main_v40 (F := F) x0 x1 x4 x5
  v42 : V (Proc.devRef .tc main_v42) = ReadP.val_main_v42 (F := F) x2
  v44 : V (Proc.devRef .tc main_v44) = ReadP.val_main_v44 (F := F) x2
  v46 : V (Proc.devRef .tc main_v46) = ReadP.val_main_v46 (F := F) x4
  v48 : V (Proc.devRef .tc main_v48) = ReadP.val_main_v48 (F := F) x5
  cst_8 : V (Proc.devRef .tc main_cst_8) = ReadP.val_main_cst_8 (F := F)

structure At2 : Prop extends Args V x0 x1 x2 x3 x4 x5 x6 x7 x8 x9 x10 x11 x12 x13 x14 x15 where
  v82 : V (Proc.devRef .tc main_v82) = ReadP.val_main_v82 (F := F) x0 x1 x2 x4 x5
  v84 : V (Proc.devRef .tc main_v84) = ReadP.val_main_v84 (F := F) x3
  v86 : V (Proc.devRef .tc main_v86) = ReadP.val_main_v86 (F := F) x3
  v88 : V (Proc.devRef .tc main_v88) = ReadP.val_main_v88 (F := F) x4
  v90 : V (Proc.devRef .tc main_v90) = ReadP.val_main_v90 (F := F) x5
  v91 : V (Proc.devRef .tc main_v91) = ReadP.val_main_v91 (F := F)
  v95 : V (Proc.devRef .tc main_v95) = ReadP.val_main_v95 (F := F) x3
  cst_21 : V (Proc.devRef .tc main_cst_21) = ReadP.val_main_cst_21 (F := F)

structure At3 : Prop extends Args V x0 x1 x2 x3 x4 x5 x6 x7 x8 x9 x10 x11 x12 x13 x14 x15 where
  v142 : V (Proc.devRef .tc main_v142) = ReadP.val_main_v142 (F := F) x0 x1 x2 x3 x4 x5 x6 x7
  v144 : V (Proc.devRef .tc main_v144) = ReadP.val_main_v144 (F := F) x0 x1 x2 x3 x4 x5 x6 x7

structure At4 : Prop extends Args V x0 x1 x2 x3 x4 x5 x6 x7 x8 x9 x10 x11 x12 x13 x14 x15 where
  v154 : V (Proc.devRef .tc main_v154) = ReadP.val_main_v154 (F := F) x0 x1 x2 x3 x4 x5 x6 x7 x8 x9
  v192 : V (Proc.devRef .tc main_v192) = ReadP.val_main_v192 (F := F) x0 x1 x2 x3 x4 x5 x6 x7 x8 x9 x10
  v194 : V (Proc.devRef .tc main_v194) = ReadP.val_main_v194 (F := F) x11

structure At5 : Prop extends Args V x0 x1 x2 x3 x4 x5 x6 x7 x8 x9 x10 x11 x12 x13 x14 x15 where
  v154 : V (Proc.devRef .tc main_v154) = ReadP.val_main_v154 (F := F) x0 x1 x2 x3 x4 x5 x6 x7 x8 x9
  v237 : V (Proc.devRef .tc main_v237) = ReadP.val_main_v237 (F := F) x0 x1 x2 x3 x4 x5 x6 x7 x8 x9 x10 x11
  v239 : V (Proc.devRef .tc main_v239) = ReadP.val_main_v239 (F := F) x3
  v241 : V (Proc.devRef .tc main_v241) = ReadP.val_main_v241 (F := F) x3
  v243 : V (Proc.devRef .tc main_v243) = ReadP.val_main_v243 (F := F) x10
  v244 : V (Proc.devRef .tc main_v244) = ReadP.val_main_v244 (F := F) x11

structure At6 : Prop extends Args V x0 x1 x2 x3 x4 x5 x6 x7 x8 x9 x10 x11 x12 x13 x14 x15 where
  v284 : V (Proc.devRef .tc main_v284) = ReadP.val_main_v284 (F := F) x0 x1 x2 x3 x4 x5 x6 x7 x8 x9 x10 x11 x12 x13
  v287 : V (Proc.devRef .tc main_v287) = ReadP.val_main_v287 (F := F) x0 x1 x2 x3 x4 x5 x6 x7 x8 x9 x10 x11 x12 x13
  v291 : V (Proc.devRef .tc main_v291) = ReadP.val_main_v291 (F := F) x0 x1 x2 x3 x4 x5 x6 x7 x8 x9 x10 x11 x12 x13
  cst_65 : V (Proc.devRef .tc main_cst_65) = ReadP.val_main_cst_65 (F := F)

structure At7 : Prop extends Args V x0 x1 x2 x3 x4 x5 x6 x7 x8 x9 x10 x11 x12 x13 x14 x15 where
  v309 : V (Proc.devRef .tc main_v309) = ReadP.val_main_v309 (F := F) x0 x1 x2 x3 x4 x5 x6 x7 x8 x9 x10 x11 x12 x13 x14 x15

variable {V x0 x1 x2 x3 x4 x5 x6 x7 x8 x9 x10 x11 x12 x13 x14 x15}

-- A buffer the line does not write keeps its contents; one it writes holds the composition of the line's operations over the facts found, which is its stage by definition.
theorem step0 (h : Args V x0 x1 x2 x3 x4 x5 x6 x7 x8 x9 x10 x11 x12 x13 x14 x15) : At1 (after ops0 V) x0 x1 x2 x3 x4 x5 x6 x7 x8 x9 x10 x11 x12 x13 x14 x15 := by
  cases h
  constructor
  constructor
  all_goals first
    | exact (after_of_writes_sub _ V writes.1 (by decide)).trans ‹_›
    | (unfold ops0; after_results_simp; (try simp only [TRef.ofBuf, TRef.toBuf, cast_eq]); (try simp only [*]); rfl)

set_option maxHeartbeats 1000000 in
theorem step1 (h : At1 V x0 x1 x2 x3 x4 x5 x6 x7 x8 x9 x10 x11 x12 x13 x14 x15) : At2 (after ops1 V) x0 x1 x2 x3 x4 x5 x6 x7 x8 x9 x10 x11 x12 x13 x14 x15 := by
  have a := h.toArgs
  cases a
  cases h
  constructor
  constructor
  all_goals first
    | exact (after_of_writes_sub _ V writes.2.1 (by decide)).trans ‹_›
    | (unfold ops1; after_results_simp; (try simp only [TRef.ofBuf, TRef.toBuf, cast_eq]); (try simp only [*]); rfl)

theorem step2 (h : At2 V x0 x1 x2 x3 x4 x5 x6 x7 x8 x9 x10 x11 x12 x13 x14 x15) : At3 (after ops2 V) x0 x1 x2 x3 x4 x5 x6 x7 x8 x9 x10 x11 x12 x13 x14 x15 := by
  have a := h.toArgs
  cases a
  cases h
  constructor
  constructor
  all_goals first
    | exact (after_of_writes_sub _ V writes.2.2.1 (by decide)).trans ‹_›
    | (unfold ops2; after_results_simp; (try simp only [TRef.ofBuf, TRef.toBuf, cast_eq]); (try simp only [*]); rfl)

theorem step3 (h : At3 V x0 x1 x2 x3 x4 x5 x6 x7 x8 x9 x10 x11 x12 x13 x14 x15) : At4 (after ops3 V) x0 x1 x2 x3 x4 x5 x6 x7 x8 x9 x10 x11 x12 x13 x14 x15 := by
  have a := h.toArgs
  cases a
  cases h
  constructor
  constructor
  all_goals first
    | exact (after_of_writes_sub _ V writes.2.2.2.1 (by decide)).trans ‹_›
    | (unfold ops3; after_results_simp; (try simp only [TRef.ofBuf, TRef.toBuf, cast_eq]); (try simp only [*]); rfl)

theorem step4 (h : At4 V x0 x1 x2 x3 x4 x5 x6 x7 x8 x9 x10 x11 x12 x13 x14 x15) : At5 (after ops4 V) x0 x1 x2 x3 x4 x5 x6 x7 x8 x9 x10 x11 x12 x13 x14 x15 := by
  have a := h.toArgs
  cases a
  cases h
  constructor
  constructor
  all_goals first
    | exact (after_of_writes_sub _ V writes.2.2.2.2.1 (by decide)).trans ‹_›
    | (unfold ops4; after_results_simp; (try simp only [TRef.ofBuf, TRef.toBuf, cast_eq]); (try simp only [*]); rfl)

set_option maxHeartbeats 1000000 in
theorem step5 (h : At5 V x0 x1 x2 x3 x4 x5 x6 x7 x8 x9 x10 x11 x12 x13 x14 x15) : At6 (after ops5 V) x0 x1 x2 x3 x4 x5 x6 x7 x8 x9 x10 x11 x12 x13 x14 x15 := by
  have a := h.toArgs
  cases a
  cases h
  constructor
  constructor
  all_goals first
    | exact (after_of_writes_sub _ V writes.2.2.2.2.2.1 (by decide)).trans ‹_›
    | (unfold ops5; after_results_simp; (try simp only [TRef.ofBuf, TRef.toBuf, cast_eq]); (try simp only [*]); rfl)

theorem step6 (h : At6 V x0 x1 x2 x3 x4 x5 x6 x7 x8 x9 x10 x11 x12 x13 x14 x15) : At7 (after ops6 V) x0 x1 x2 x3 x4 x5 x6 x7 x8 x9 x10 x11 x12 x13 x14 x15 := by
  have a := h.toArgs
  cases a
  cases h
  constructor
  constructor
  all_goals first
    | exact (after_of_writes_sub _ V writes.2.2.2.2.2.2 (by decide)).trans ‹_›
    | (unfold ops6; after_results_simp; (try simp only [TRef.ofBuf, TRef.toBuf, cast_eq]); (try simp only [*]); rfl)

theorem at_end (h : Args V x0 x1 x2 x3 x4 x5 x6 x7 x8 x9 x10 x11 x12 x13 x14 x15) : At7 (after ops V) x0 x1 x2 x3 x4 x5 x6 x7 x8 x9 x10 x11 x12 x13 x14 x15 := by
  simp only [ops, after_append]
  exact step6 (step5 (step4 (step3 (step2 (step1 (step0 h))))))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v309) = ReadP.val_main_v309 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => by
      have e := at_end (V := launchContents m c) (h := ⟨rfl, rfl, rfl, rfl, rfl, rfl, rfl, rfl, rfl, rfl, rfl, rfl, rfl, rfl, rfl, rfl⟩)
      exact ⟨(h c _).trans e.v309, (h c _).trans e.arg0, (h c _).trans e.arg1, (h c _).trans e.arg2, (h c _).trans e.arg3, (h c _).trans e.arg4, (h c _).trans e.arg5, (h c _).trans e.arg6, (h c _).trans e.arg7, (h c _).trans e.arg8, (h c _).trans e.arg9, (h c _).trans e.arg10, (h c _).trans e.arg11, (h c _).trans e.arg12, (h c _).trans e.arg13, (h c _).trans e.arg14, (h c _).trans e.arg15⟩)
    (run_seq scopedRefs_eq scopedSems_eq defs main (fun _ => ops) main_eq (fun _ => ops_sub) m ρ (fun _ => ops_fresh))

end Cert.ReferenceIdeal.HandRun

end
-- ==== Proof.LibNary3.lean ====
import Idealize.ShloMosaic.Lib.StableHlo.Run

noncomputable section

namespace Idealize.ShloMosaic.StableHlo

variable {τ : Topo} {sig : RefSig} {Val : EltTy → Type}
variable {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

macro "after_results3" : tactic =>
  `(tactic| (simp only [after_cons, after_nil]
             repeat (first
               | rw [nullary_result] | rw [unary_result] | rw [binary_result] | rw [ternary_result] | rw [quaternary_result]
               | rw [reshape_result] | rw [nary3_result] | rw [nary4_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Idealize.ShloMosaic.StableHlo

end
-- ==== Proof.KI.HostVal.lean ====
import proofs.«175263_j29738353557973_1_alg».proof.Proof.Gen.KernelIdeal.Launch
import proofs.«175263_j29738353557973_1_alg».proof.Proof.LibNary3

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

def srcIdx0 (e : Vec F S2x200000 .i32) : Vec F S200000 .i32 :=
  shapeCast S200000 (extractStridedSlice S1x200000 ![0, 0] e slices_S2x200000_S1x200000_0_0) shapeCasts_S1x200000_S200000

def dstIdx0 (e : Vec F S2x200000 .i32) : Vec F S200000 .i32 :=
  shapeCast S200000 (extractStridedSlice S1x200000 ![1, 0] e slices_S2x200000_S1x200000_1_0) shapeCasts_S1x200000_S200000

def srcIdx1 (e : Vec F S2x1000000 .i32) : Vec F S1000000 .i32 :=
  shapeCast S1000000 (extractStridedSlice S1x1000000 ![0, 0] e slices_S2x1000000_S1x1000000_0_0) shapeCasts_S1x1000000_S1000000

def dstIdx1 (e : Vec F S2x1000000 .i32) : Vec F S1000000 .i32 :=
  shapeCast S1000000 (extractStridedSlice S1x1000000 ![1, 0] e slices_S2x1000000_S1x1000000_1_0) shapeCasts_S1x1000000_S1000000

def srcIdx2 (e : Vec F S2x1600000 .i32) : Vec F S1600000 .i32 :=
  shapeCast S1600000 (extractStridedSlice S1x1600000 ![0, 0] e slices_S2x1600000_S1x1600000_0_0) shapeCasts_S1x1600000_S1600000

def dstIdx2 (e : Vec F S2x1600000 .i32) : Vec F S1600000 .i32 :=
  shapeCast S1600000 (extractStridedSlice S1x1600000 ![1, 0] e slices_S2x1600000_S1x1600000_1_0) shapeCasts_S1x1600000_S1600000

def ones0 : Vec F S200000 .f32 := broadcastInDim S200000 ![] bcast_S_S200000 (constant (F := F) S_ .f32 0x3F800000#32)

def ones1 : Vec F S1000000 .f32 := broadcastInDim S1000000 ![] bcast_S_S1000000 (constant (F := F) S_ .f32 0x3F800000#32)

def ones2 : Vec F S1600000 .f32 := broadcastInDim S1600000 ![] bcast_S_S1600000 (constant (F := F) S_ .f32 0x3F800000#32)

def zerosN : Vec F S100000 .f32 := broadcastInDim S100000 ![] bcast_S_S100000 (constant (F := F) S_ .f32 0x00000000#32)

def degOf0 (idx : Vec F S200000 .i32) (u : Vec F S200000 .f32) : Vec F S100000 .f32 :=
  Host.scatterAdd scatter_S100000_S200000x1_S200000_n_0_0_1 (zerosN (F := F)) (broadcastInDim S200000x1 ![0] bcast_S200000_S200000x1_0 idx) u

def degOf1 (idx : Vec F S1000000 .i32) (u : Vec F S1000000 .f32) : Vec F S100000 .f32 :=
  Host.scatterAdd scatter_S100000_S1000000x1_S1000000_n_0_0_1 (zerosN (F := F)) (broadcastInDim S1000000x1 ![0] bcast_S1000000_S1000000x1_0 idx) u

def degOf2 (idx : Vec F S1600000 .i32) (u : Vec F S1600000 .f32) : Vec F S100000 .f32 :=
  Host.scatterAdd scatter_S100000_S1600000x1_S1600000_n_0_0_1 (zerosN (F := F)) (broadcastInDim S1600000x1 ![0] bcast_S1600000_S1600000x1_0 idx) u

def clampOne (one : Vec F S_ .f32) (d : Vec F S100000 .f32) : Vec F S100000 .f32 :=
  maximumf (broadcastInDim S100000 ![] bcast_S_S100000 one) d

def invSqrt (d : Vec F S100000 .f32) : Vec F S100000 .f32 :=
  Host.powf d (broadcastInDim S100000 ![] bcast_S_S100000 (constant (F := F) S_ .f32 0xBF000000#32))

def oneS : Vec F S_ .f32 := constant (F := F) S_ .f32 0x3F800000#32

def dinvArr0_src (e : Vec F S2x200000 .i32) : Vec F S100000 .f32 := invSqrt (clampOne (oneS (F := F)) (degOf0 (srcIdx0 e) (ones0 (F := F))))

def dinvArr0_dst (e : Vec F S2x200000 .i32) : Vec F S100000 .f32 := invSqrt (clampOne (oneS (F := F)) (degOf0 (dstIdx0 e) (ones0 (F := F))))

def dinvArr1_src (e : Vec F S2x1000000 .i32) : Vec F S100000 .f32 := invSqrt (clampOne (oneS (F := F)) (degOf1 (srcIdx1 e) (ones1 (F := F))))

def dinvArr1_dst (e : Vec F S2x1000000 .i32) : Vec F S100000 .f32 := invSqrt (clampOne (oneS (F := F)) (degOf1 (dstIdx1 e) (ones1 (F := F))))

def dinvArr2_src (e : Vec F S2x1600000 .i32) : Vec F S100000 .f32 := invSqrt (clampOne (oneS (F := F)) (degOf2 (srcIdx2 e) (ones2 (F := F))))

def dinvArr2_dst (e : Vec F S2x1600000 .i32) : Vec F S100000 .f32 := invSqrt (clampOne (oneS (F := F)) (degOf2 (dstIdx2 e) (ones2 (F := F))))

def asCol (d : Vec F S100000 .f32) : Vec F S100000x1 .f32 := broadcastInDim S100000x1 ![0] bcast_S100000_S100000x1_0 d

def scaleCols (a b c : Vec F S100000 .f32) : Vec F S100000x3 .f32 :=
  concatenate S100000x3 1 [⟨S100000x1, asCol a⟩, ⟨S100000x1, asCol b⟩, ⟨S100000x1, asCol c⟩] concatenates_S100000x1_S100000x1_S100000x1_S100000x3_d1

def catW0 (w : Vec F S3x1280x128 .f32) : Vec F S1280x384 .f32 :=
  concatenate S1280x384 1
    [⟨S1280x128, shapeCast S1280x128 (extractStridedSlice S1x1280x128 ![0, 0, 0] w slices_S3x1280x128_S1x1280x128_0_0_0) shapeCasts_S1x1280x128_S1280x128⟩,
     ⟨S1280x128, shapeCast S1280x128 (extractStridedSlice S1x1280x128 ![1, 0, 0] w slices_S3x1280x128_S1x1280x128_1_0_0) shapeCasts_S1x1280x128_S1280x128⟩,
     ⟨S1280x128, shapeCast S1280x128 (extractStridedSlice S1x1280x128 ![2, 0, 0] w slices_S3x1280x128_S1x1280x128_2_0_0) shapeCasts_S1x1280x128_S1280x128⟩]
    concatenates_S1280x128_S1280x128_S1280x128_S1280x384_d1

def catW1 (w : Vec F S3x128x128 .f32) : Vec F S128x384 .f32 :=
  concatenate S128x384 1
    [⟨S128x128, shapeCast S128x128 (extractStridedSlice S1x128x128 ![0, 0, 0] w slices_S3x128x128_S1x128x128_0_0_0) shapeCasts_S1x128x128_S128x128⟩,
     ⟨S128x128, shapeCast S128x128 (extractStridedSlice S1x128x128 ![1, 0, 0] w slices_S3x128x128_S1x128x128_1_0_0) shapeCasts_S1x128x128_S128x128⟩,
     ⟨S128x128, shapeCast S128x128 (extractStridedSlice S1x128x128 ![2, 0, 0] w slices_S3x128x128_S1x128x128_2_0_0) shapeCasts_S1x128x128_S128x128⟩]
    concatenates_S128x128_S128x128_S128x128_S128x384_d1

def zerosNH : Vec F S100000x128 .f32 := broadcastInDim S100000x128 ![] bcast_S_S100000x128 (constant (F := F) S_ .f32 0x00000000#32)

def wrapIdx0 (idx : Vec F S200000 .i32) : Vec F S200000 .i32 :=
  select (cmpi .slt idx (broadcastInDim S200000 ![] bcast_S_S200000 (constantI S_ 32 0#32)))
    (addi idx (broadcastInDim S200000 ![] bcast_S_S200000 (constantI S_ 32 100000#32))) idx

def wrapIdx1 (idx : Vec F S1000000 .i32) : Vec F S1000000 .i32 :=
  select (cmpi .slt idx (broadcastInDim S1000000 ![] bcast_S_S1000000 (constantI S_ 32 0#32)))
    (addi idx (broadcastInDim S1000000 ![] bcast_S_S1000000 (constantI S_ 32 100000#32))) idx

def wrapIdx2 (idx : Vec F S1600000 .i32) : Vec F S1600000 .i32 :=
  select (cmpi .slt idx (broadcastInDim S1600000 ![] bcast_S_S1600000 (constantI S_ 32 0#32)))
    (addi idx (broadcastInDim S1600000 ![] bcast_S_S1600000 (constantI S_ 32 100000#32))) idx

def aggArr0 (e : Vec F S2x200000 .i32) (h : Vec F S100000x128 .f32) : Vec F S100000x128 .f32 :=
  Host.scatterAdd scatter_S100000x128_S200000x1_S200000x128_1_0_0_1 (zerosNH (F := F))
    (broadcastInDim S200000x1 ![0] bcast_S200000_S200000x1_0 (dstIdx0 e))
    (Host.gather gather_S100000x128_S200000x1_S200000x128_1_0_n_n_0_1_1128 h
      (broadcastInDim S200000x1 ![0] bcast_S200000_S200000x1_0 (wrapIdx0 (srcIdx0 e))))

def aggArr1 (e : Vec F S2x1000000 .i32) (h : Vec F S100000x128 .f32) : Vec F S100000x128 .f32 :=
  Host.scatterAdd scatter_S100000x128_S1000000x1_S1000000x128_1_0_0_1 (zerosNH (F := F))
    (broadcastInDim S1000000x1 ![0] bcast_S1000000_S1000000x1_0 (dstIdx1 e))
    (Host.gather gather_S100000x128_S1000000x1_S1000000x128_1_0_n_n_0_1_1128 h
      (broadcastInDim S1000000x1 ![0] bcast_S1000000_S1000000x1_0 (wrapIdx1 (srcIdx1 e))))

def aggArr2 (e : Vec F S2x1600000 .i32) (h : Vec F S100000x128 .f32) : Vec F S100000x128 .f32 :=
  Host.scatterAdd scatter_S100000x128_S1600000x1_S1600000x128_1_0_0_1 (zerosNH (F := F))
    (broadcastInDim S1600000x1 ![0] bcast_S1600000_S1600000x1_0 (dstIdx2 e))
    (Host.gather gather_S100000x128_S1600000x1_S1600000x128_1_0_n_n_0_1_1128 h
      (broadcastInDim S1600000x1 ![0] bcast_S1600000_S1600000x1_0 (wrapIdx2 (srcIdx2 e))))

def projSlice0 (p : Vec F S100000x384 .f32) : Vec F S100000x128 .f32 := extractStridedSlice S100000x128 ![0, 0] p slices_S100000x384_S100000x128_0_0
def projSlice1 (p : Vec F S100000x384 .f32) : Vec F S100000x128 .f32 := extractStridedSlice S100000x128 ![0, 128] p slices_S100000x384_S100000x128_0_128
def projSlice2 (p : Vec F S100000x384 .f32) : Vec F S100000x128 .f32 := extractStridedSlice S100000x128 ![0, 256] p slices_S100000x384_S100000x128_0_256

def rowScale (d : Vec F S100000 .f32) : Vec F S100000x128 .f32 := broadcastInDim S100000x128 ![0, 1] bcast_S100000x1_S100000x128_0_1 (asCol d)

def asRow (v : Vec F S128 .f32) : Vec F S1x128 .f32 := broadcastInDim S1x128 ![1] bcast_S128_S1x128_1 v

def overNodes (v : Vec F S128 .f32) : Vec F S100000x128 .f32 := broadcastInDim S100000x128 ![0, 1] bcast_S1x128_S100000x128_0_1 (asRow v)

def biasVec0 (b : Vec F S3x128 .f32) : Vec F S128 .f32 := shapeCast S128 (extractStridedSlice S1x128 ![0, 0] b slices_S3x128_S1x128_0_0) shapeCasts_S1x128_S128
def biasVec1 (b : Vec F S3x128 .f32) : Vec F S128 .f32 := shapeCast S128 (extractStridedSlice S1x128 ![1, 0] b slices_S3x128_S1x128_1_0) shapeCasts_S1x128_S128
def biasVec2 (b : Vec F S3x128 .f32) : Vec F S128 .f32 := shapeCast S128 (extractStridedSlice S1x128 ![2, 0] b slices_S3x128_S1x128_2_0) shapeCasts_S1x128_S128

def relTerm (a : Vec F S100000x128 .f32) (d : Vec F S100000 .f32) (b : Vec F S128 .f32) : Vec F S100000x128 .f32 :=
  addf (mulf a (rowScale d)) (overNodes b)

def sumRel (p : Vec F S100000x384 .f32) (e0 : Vec F S2x200000 .i32) (e1 : Vec F S2x1000000 .i32) (e2 : Vec F S2x1600000 .i32)
    (d0 d1 d2 : Vec F S100000 .f32) (b : Vec F S3x128 .f32) : Vec F S100000x128 .f32 :=
  addf (addf (addf (zerosNH (F := F)) (relTerm (aggArr0 e0 (projSlice0 p)) d0 (biasVec0 b)))
      (relTerm (aggArr1 e1 (projSlice1 p)) d1 (biasVec1 b)))
    (relTerm (aggArr2 e2 (projSlice2 p)) d2 (biasVec2 b))

def meanOf (s : Vec F S1x128 .f32) : Vec F S128 .f32 :=
  Host.divf (shapeCast S128 s shapeCasts_S1x128_S128) (broadcastInDim S128 ![] bcast_S_S128 (constant (F := F) S_ .f32 0x47C35000#32))

def varOf (s q : Vec F S1x128 .f32) : Vec F S128 .f32 := subf (meanOf q) (mulf (meanOf s) (meanOf s))

variable (W : Valuation τ sig (Elt F))

theorem host0_main_v3 : after hostOps0 W (Proc.devRef .tc main_v3) = dstIdx0 (W (Proc.devRef .tc main_arg1)) := by
  after_results; rfl
theorem host0_main_v4 : after hostOps0 W (Proc.devRef .tc main_v4) = ones0 (F := F) := by
  after_results; rfl
theorem host0_main_v7 : after hostOps0 W (Proc.devRef .tc main_v7) = degOf0 (srcIdx0 (W (Proc.devRef .tc main_arg1))) (ones0 (F := F)) := by
  after_results; rfl
theorem host0_main_cst_1 : after hostOps0 W (Proc.devRef .tc main_cst_1) = oneS (F := F) := by
  after_results; rfl

theorem host0_1_main_v8 : after hostOps0_1 W (Proc.devRef .tc main_v8) = clampOne (W (Proc.devRef .tc main_cst_1)) (W (Proc.devRef .tc main_v7)) := by
  after_results; rfl

theorem host0_2_main_v11 : after hostOps0_2 W (Proc.devRef .tc main_v11) = degOf0 (W (Proc.devRef .tc main_v3)) (W (Proc.devRef .tc main_v4)) := by
  after_results; rfl
theorem host0_2_main_cst_3 : after hostOps0_2 W (Proc.devRef .tc main_cst_3) = oneS (F := F) := by
  after_results; rfl

theorem host0_3_main_v12 : after hostOps0_3 W (Proc.devRef .tc main_v12) = clampOne (W (Proc.devRef .tc main_cst_3)) (W (Proc.devRef .tc main_v11)) := by
  after_results; rfl

theorem host0_4_main_v14 : after hostOps0_4 W (Proc.devRef .tc main_v14) = invSqrt (W (Proc.devRef .tc main_v8)) := by
  after_results; rfl
theorem host0_4_main_v16 : after hostOps0_4 W (Proc.devRef .tc main_v16) = invSqrt (W (Proc.devRef .tc main_v12)) := by
  after_results; rfl
theorem host0_4_main_v20 : after hostOps0_4 W (Proc.devRef .tc main_v20) = dstIdx1 (W (Proc.devRef .tc main_arg2)) := by
  after_results; rfl
theorem host0_4_main_v21 : after hostOps0_4 W (Proc.devRef .tc main_v21) = ones1 (F := F) := by
  after_results; rfl
theorem host0_4_main_v24 : after hostOps0_4 W (Proc.devRef .tc main_v24) = degOf1 (srcIdx1 (W (Proc.devRef .tc main_arg2))) (ones1 (F := F)) := by
  after_results; rfl
theorem host0_4_main_cst_8 : after hostOps0_4 W (Proc.devRef .tc main_cst_8) = oneS (F := F) := by
  after_results; rfl

theorem host0_5_main_v25 : after hostOps0_5 W (Proc.devRef .tc main_v25) = clampOne (W (Proc.devRef .tc main_cst_8)) (W (Proc.devRef .tc main_v24)) := by
  after_results; rfl

theorem host0_6_main_v28 : after hostOps0_6 W (Proc.devRef .tc main_v28) = degOf1 (W (Proc.devRef .tc main_v20)) (W (Proc.devRef .tc main_v21)) := by
  after_results; rfl
theorem host0_6_main_cst_10 : after hostOps0_6 W (Proc.devRef .tc main_cst_10) = oneS (F := F) := by
  after_results; rfl

theorem host0_7_main_v29 : after hostOps0_7 W (Proc.devRef .tc main_v29) = clampOne (W (Proc.devRef .tc main_cst_10)) (W (Proc.devRef .tc main_v28)) := by
  after_results; rfl

theorem host0_8_main_v31 : after hostOps0_8 W (Proc.devRef .tc main_v31) = invSqrt (W (Proc.devRef .tc main_v25)) := by
  after_results; rfl
theorem host0_8_main_v33 : after hostOps0_8 W (Proc.devRef .tc main_v33) = invSqrt (W (Proc.devRef .tc main_v29)) := by
  after_results; rfl
theorem host0_8_main_v37 : after hostOps0_8 W (Proc.devRef .tc main_v37) = dstIdx2 (W (Proc.devRef .tc main_arg3)) := by
  after_results; rfl
theorem host0_8_main_v38 : after hostOps0_8 W (Proc.devRef .tc main_v38) = ones2 (F := F) := by
  after_results; rfl
theorem host0_8_main_v41 : after hostOps0_8 W (Proc.devRef .tc main_v41) = degOf2 (srcIdx2 (W (Proc.devRef .tc main_arg3))) (ones2 (F := F)) := by
  after_results; rfl
theorem host0_8_main_cst_15 : after hostOps0_8 W (Proc.devRef .tc main_cst_15) = oneS (F := F) := by
  after_results; rfl

theorem host0_9_main_v42 : after hostOps0_9 W (Proc.devRef .tc main_v42) = clampOne (W (Proc.devRef .tc main_cst_15)) (W (Proc.devRef .tc main_v41)) := by
  after_results; rfl

theorem host0_10_main_v45 : after hostOps0_10 W (Proc.devRef .tc main_v45) = degOf2 (W (Proc.devRef .tc main_v37)) (W (Proc.devRef .tc main_v38)) := by
  after_results; rfl
theorem host0_10_main_cst_17 : after hostOps0_10 W (Proc.devRef .tc main_cst_17) = oneS (F := F) := by
  after_results; rfl

theorem host0_11_main_v46 : after hostOps0_11 W (Proc.devRef .tc main_v46) = clampOne (W (Proc.devRef .tc main_cst_17)) (W (Proc.devRef .tc main_v45)) := by
  after_results; rfl

set_option maxHeartbeats 2000000 in
theorem host0_12_main_v50 : after hostOps0_12 W (Proc.devRef .tc main_v50) = invSqrt (W (Proc.devRef .tc main_v46)) := by
  after_results3; rfl
set_option maxHeartbeats 2000000 in
theorem host0_12_main_v54 : after hostOps0_12 W (Proc.devRef .tc main_v54)
    = scaleCols (W (Proc.devRef .tc main_v14)) (W (Proc.devRef .tc main_v31)) (invSqrt (W (Proc.devRef .tc main_v42))) := by
  after_results3; rfl
set_option maxHeartbeats 2000000 in
theorem host0_12_main_v61 : after hostOps0_12 W (Proc.devRef .tc main_v61) = catW0 (W (Proc.devRef .tc main_arg4)) := by
  after_results3; rfl

theorem host3_main_v157 : after hostOps3 W (Proc.devRef .tc main_v157) = catW1 (W (Proc.devRef .tc main_arg10)) := by
  after_results3; rfl

set_option maxHeartbeats 4000000 in
theorem host1_main_v135 : after hostOps1 W (Proc.devRef .tc main_v135)
    = sumRel (W (Proc.devRef .tc main_v62)) (W (Proc.devRef .tc main_arg1)) (W (Proc.devRef .tc main_arg2)) (W (Proc.devRef .tc main_arg3))
        (W (Proc.devRef .tc main_v16)) (W (Proc.devRef .tc main_v33)) (W (Proc.devRef .tc main_v50)) (W (Proc.devRef .tc main_arg5)) := by
  after_results_simp; rfl
set_option maxHeartbeats 4000000 in
theorem host1_main_v136 : after hostOps1 W (Proc.devRef .tc main_v136) = asRow (W (Proc.devRef .tc main_arg7)) := by
  after_results_simp; rfl

theorem host2_main_v146 : after hostOps2 W (Proc.devRef .tc main_v146) = asRow (meanOf (W (Proc.devRef .tc main_v137_1))) := by
  after_results; rfl
theorem host2_main_v147 : after hostOps2 W (Proc.devRef .tc main_v147)
    = asRow (varOf (W (Proc.devRef .tc main_v137_1)) (W (Proc.devRef .tc main_v137_2))) := by
  after_results; rfl
theorem host2_main_v148 : after hostOps2 W (Proc.devRef .tc main_v148) = asRow (W (Proc.devRef .tc main_arg8)) := by
  after_results; rfl
theorem host2_main_v149 : after hostOps2 W (Proc.devRef .tc main_v149) = asRow (W (Proc.devRef .tc main_arg9)) := by
  after_results; rfl

set_option maxHeartbeats 4000000 in
theorem host4_main_v231 : after hostOps4 W (Proc.devRef .tc main_v231)
    = sumRel (W (Proc.devRef .tc main_v158)) (W (Proc.devRef .tc main_arg1)) (W (Proc.devRef .tc main_arg2)) (W (Proc.devRef .tc main_arg3))
        (W (Proc.devRef .tc main_v16)) (W (Proc.devRef .tc main_v33)) (W (Proc.devRef .tc main_v50)) (W (Proc.devRef .tc main_arg11)) := by
  after_results_simp; rfl
set_option maxHeartbeats 4000000 in
theorem host4_main_v232 : after hostOps4 W (Proc.devRef .tc main_v232) = asRow (W (Proc.devRef .tc main_arg13)) := by
  after_results_simp; rfl

theorem host5_main_v242 : after hostOps5 W (Proc.devRef .tc main_v242) = asRow (meanOf (W (Proc.devRef .tc main_v233_1))) := by
  after_results; rfl
theorem host5_main_v243 : after hostOps5 W (Proc.devRef .tc main_v243)
    = asRow (varOf (W (Proc.devRef .tc main_v233_1)) (W (Proc.devRef .tc main_v233_2))) := by
  after_results; rfl
theorem host5_main_v244 : after hostOps5 W (Proc.devRef .tc main_v244) = asRow (W (Proc.devRef .tc main_arg14)) := by
  after_results; rfl
theorem host5_main_v245 : after hostOps5 W (Proc.devRef .tc main_v245) = asRow (W (Proc.devRef .tc main_arg15)) := by
  after_results; rfl

end Cert.KernelIdeal.Hand

end
-- ==== Proof.KI.KerArr.lean ====
import proofs.«175263_j29738353557973_1_alg».proof.Proof.KI.HostVal
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

def projArr0 (x : S100000x1280.Idx → EReal) (w : S1280x384.Idx → EReal) (s : S100000x3.Idx → EReal) : S100000x384.Idx → EReal :=
  fun i => (∑ k : Fin 1280, x (ix2 (i 0) k) * w (ix2 k (i 1))) * s (ix2 (i 0) ⟨(i 1).val / 128, by have := idx2_lt1 i; omega⟩)

def projArr1 (x : S100000x128.Idx → EReal) (w : S128x384.Idx → EReal) (s : S100000x3.Idx → EReal) : S100000x384.Idx → EReal :=
  fun i => (∑ k : Fin 128, x (ix2 (i 0) k) * w (ix2 k (i 1))) * s (ix2 (i 0) ⟨(i 1).val / 128, by have := idx2_lt1 i; omega⟩)

def fcArr (h : S100000x128.Idx → EReal) (w : S128x128.Idx → EReal) (b : S1x128.Idx → EReal) : S100000x128.Idx → EReal :=
  fun i => max ((∑ k : Fin 128, h (ix2 (i 0) k) * w (ix2 k (i 1))) + b (ix2 0 (i 1))) 0

def colSumArr (y : S100000x128.Idx → EReal) : S1x128.Idx → EReal := fun j => ∑ r : Fin 100000, y (ix2 r (j 1))

def bnArr (y : S100000x128.Idx → EReal) (mean var g beta : S1x128.Idx → EReal) : S100000x128.Idx → EReal :=
  fun i => (y i - mean (ix2 0 (i 1))) * Ideal.rsqrt (var (ix2 0 (i 1)) + Ideal.ofBits .f32 0x3727C5AC#32) * g (ix2 0 (i 1)) + beta (ix2 0 (i 1))

def layerTail (p : Vec Ideal S100000x384 .f32) (e1 : Vec Ideal S2x200000 .i32) (e2 : Vec Ideal S2x1000000 .i32) (e3 : Vec Ideal S2x1600000 .i32)
    (b : Vec Ideal S3x128 .f32) (fcw : Vec Ideal S128x128 .f32) (fcb g beta : Vec Ideal S128 .f32) : S100000x128.Idx → EReal :=
  let y := fcArr (sumRel p e1 e2 e3 (dinvArr0_dst e1) (dinvArr1_dst e2) (dinvArr2_dst e3) b) fcw (asRow fcb)
  bnArr y (asRow (F := Ideal) (meanOf (F := Ideal) (colSumArr y)))
    (asRow (F := Ideal) (varOf (F := Ideal) (colSumArr y) (colSumArr fun i => y i * y i))) (asRow g) (asRow beta)

def srcScales (e1 : Vec Ideal S2x200000 .i32) (e2 : Vec Ideal S2x1000000 .i32) (e3 : Vec Ideal S2x1600000 .i32) : Vec Ideal S100000x3 .f32 :=
  scaleCols (dinvArr0_src e1) (dinvArr1_src e2) (dinvArr2_src e3)

def kerArr0 (x : Vec Ideal S100000x1280 .f32) (e1 : Vec Ideal S2x200000 .i32) (e2 : Vec Ideal S2x1000000 .i32) (e3 : Vec Ideal S2x1600000 .i32)
    (w : Vec Ideal S3x1280x128 .f32) (b : Vec Ideal S3x128 .f32) (fcw : Vec Ideal S128x128 .f32) (fcb g beta : Vec Ideal S128 .f32) :
    S100000x128.Idx → EReal :=
  layerTail (projArr0 x (catW0 w) (srcScales e1 e2 e3)) e1 e2 e3 b fcw fcb g beta

def kerArr1 (x : Vec Ideal S100000x128 .f32) (e1 : Vec Ideal S2x200000 .i32) (e2 : Vec Ideal S2x1000000 .i32) (e3 : Vec Ideal S2x1600000 .i32)
    (w : Vec Ideal S3x128x128 .f32) (b : Vec Ideal S3x128 .f32) (fcw : Vec Ideal S128x128 .f32) (fcb g beta : Vec Ideal S128 .f32) :
    S100000x128.Idx → EReal :=
  layerTail (projArr1 x (catW1 w) (srcScales e1 e2 e3)) e1 e2 e3 b fcw fcb g beta

end Cert.KernelIdeal.Hand

end
-- ==== Proof.KI.Val0.lean ====
import proofs.«175263_j29738353557973_1_alg».proof.Proof.KI.Reg0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

def projFull (x : S100000x1280.Idx → EReal) (w : S1280x384.Idx → EReal) (s : S100000x3.Idx → EReal) : S100000x384.Idx → EReal :=
  fun i => (∑ k : Fin 1280, x (ix2 (i 0) k) * w (ix2 k (i 1))) * s (ix2 (i 0) ⟨(i 1).val / 128, by have := idx2_lt1 i; omega⟩)

def projBlk (x0 : S1000x1280.Idx → EReal) (x1 : S1280x384.Idx → EReal) (x2 : S1000x3.Idx → EReal) : S1000x384.Idx → EReal :=
  fun y => (∑ k : Fin 1280, x0 (ix2 (y 0) k) * x1 (ix2 k (y 1))) * x2 (ix2 (y 0) ⟨(y 1).val / 128, by have := idx2_lt1 y; omega⟩)

theorem projBlk_ix2 (x0 : S1000x1280.Idx → EReal) (x1 : S1280x384.Idx → EReal) (x2 : S1000x3.Idx → EReal)
    (a : Fin 1000) (b : Fin 384) (g : Fin 3) (hg : b.val / 128 = g.val) :
    projBlk x0 x1 x2 (ix2 a b) = (∑ k : Fin 1280, x0 (ix2 a k) * x1 (ix2 k b)) * x2 (ix2 a g) := by
  obtain ⟨gv, hgv⟩ := g
  have e : gv = b.val / 128 := hg.symm
  subst e
  rfl

theorem hz0 : (![0, 0] : Fin 2 → Nat) = fun _ => 0 := funext fun a => by fin_cases a <;> rfl

theorem lhs_dot0_0 (i : S1000x384.Idx) (q : dot_S1000x1280_S1280x384_S1000x384_1_0_0_1_n_n.contr.Idx) :
    (dot_S1000x1280_S1280x384_S1000x384_1_0_0_1_n_n.lhsIdx i q 0).val = (i 0).val := by
  unfold DotDims.lhsIdx
  rw [dif_neg (show ¬(0 : Fin S1000x1280.rank) ∈ dot_S1000x1280_S1280x384_S1000x384_1_0_0_1_n_n.lhsBatch by decide), dif_pos (show (0 : Fin S1000x1280.rank) ∈ dot_S1000x1280_S1280x384_S1000x384_1_0_0_1_n_n.lhsNonContracting by decide)]
  rfl
theorem lhs_dot0_1 (i : S1000x384.Idx) (q : dot_S1000x1280_S1280x384_S1000x384_1_0_0_1_n_n.contr.Idx) :
    (dot_S1000x1280_S1280x384_S1000x384_1_0_0_1_n_n.lhsIdx i q 1).val = (q ⟨0, by decide⟩).val :=
  dot_S1000x1280_S1280x384_S1000x384_1_0_0_1_n_n.lhsIdx_val_of_single rfl i q
theorem rhs_dot0_0 (i : S1000x384.Idx) (q : dot_S1000x1280_S1280x384_S1000x384_1_0_0_1_n_n.contr.Idx) :
    (dot_S1000x1280_S1280x384_S1000x384_1_0_0_1_n_n.rhsIdx i q 0).val = (q ⟨0, by decide⟩).val :=
  dot_S1000x1280_S1280x384_S1000x384_1_0_0_1_n_n.rhsIdx_val_of_single rfl i q
theorem rhs_dot0_1 (i : S1000x384.Idx) (q : dot_S1000x1280_S1280x384_S1000x384_1_0_0_1_n_n.contr.Idx) :
    (dot_S1000x1280_S1280x384_S1000x384_1_0_0_1_n_n.rhsIdx i q 1).val = (i 1).val := by
  unfold DotDims.rhsIdx
  rw [dif_neg (show ¬(1 : Fin S1280x384.rank) ∈ dot_S1000x1280_S1280x384_S1000x384_1_0_0_1_n_n.rhsBatch by decide), dif_pos (show (1 : Fin S1280x384.rank) ∈ dot_S1000x1280_S1280x384_S1000x384_1_0_0_1_n_n.rhsNonContracting by decide)]
  rfl

theorem prod0_apply (x0 : Vec Ideal S1000x1280 .f32) (x1 : Vec Ideal S1280x384 .f32) (p : Fin 1000) (j : Fin 384) :
    k0_pay1 (F := Ideal) x0 x1 (ix2 p j) = ∑ k : Fin 1280, x0 (ix2 p k) * x1 (ix2 k j) := by
  show matmul dot_S1000x1280_S1280x384_S1000x384_1_0_0_1_n_n none (truncf .bf16 x0 bitsLt_bf16_f32) (truncf .bf16 (shapeCast S1280x384 x1 shapeCasts_S1280x384_S1280x384) bitsLt_bf16_f32) (constant (F := Ideal) S1000x384 .f32 0x00000000#32) (ix2 p j) = _
  simp only [matmul]
  rw [Ideal.matmul_constant_zero_apply, ← Equiv.sum_comp (contrEquiv1 dot_S1000x1280_S1280x384_S1000x384_1_0_0_1_n_n 1280 rfl rfl).symm]
  refine Finset.sum_congr rfl fun k _ => ?_
  have hk := contrEquiv1_symm_val dot_S1000x1280_S1280x384_S1000x384_1_0_0_1_n_n 1280 rfl rfl k
  have el : dot_S1000x1280_S1280x384_S1000x384_1_0_0_1_n_n.lhsIdx (ix2 p j) ((contrEquiv1 dot_S1000x1280_S1280x384_S1000x384_1_0_0_1_n_n 1280 rfl rfl).symm k) = ix2 p k := funext fun a => Fin.ext (by
    match a with
    | ⟨0, _⟩ => exact lhs_dot0_0 _ _
    | ⟨1, _⟩ => exact (lhs_dot0_1 _ _).trans hk)
  have er : dot_S1000x1280_S1280x384_S1000x384_1_0_0_1_n_n.rhsIdx (ix2 p j) ((contrEquiv1 dot_S1000x1280_S1280x384_S1000x384_1_0_0_1_n_n 1280 rfl rfl).symm k) = ix2 k j := funext fun a => Fin.ext (by
    match a with
    | ⟨0, _⟩ => exact (rhs_dot0_0 _ _).trans hk
    | ⟨1, _⟩ => exact rhs_dot0_1 _ _)
  rw [el, er, truncf_apply, truncf_apply, shapeCast_self]

theorem slice0_cols (off : ℕ) (hoff : off + 128 ≤ 384) (h : S1000x384.Slices ![0, off] S1000x128) (y : FVec Ideal S1000x384 .f32)
    (p : Fin 1000) (q : Fin 128) :
    extractStridedSlice S1000x128 ![0, off] y h (ix2 p q) = y (ix2 p ⟨off + q.val, by omega⟩) :=
  extractStridedSlice_apply _ _ _ _ _ fun a => by
    match a with
    | ⟨0, _⟩ => show (p : ℕ) = 0 + (p : ℕ); omega
    | ⟨1, _⟩ => rfl

theorem slice0_scale (g : ℕ) (hg : g < 3) (h : S1000x3.Slices ![0, g] S1000x1) (y : FVec Ideal S1000x3 .f32)
    (p : Fin 1000) (z : Fin 1) :
    extractStridedSlice S1000x1 ![0, g] y h (ix2 p z) = y (ix2 p ⟨g, hg⟩) :=
  extractStridedSlice_apply _ _ _ _ _ fun a => by
    match a with
    | ⟨0, _⟩ => show (p : ℕ) = 0 + (p : ℕ); omega
    | ⟨1, _⟩ => show g = g + (z : ℕ); omega

theorem bcast0_col (y : FVec Ideal S1000x1 .f32) (p : Fin 1000) (q : Fin 128) :
    broadcastTo S1000x128 y broadcasts_S1000x1_S1000x128 (ix2 p q) = y (ix2 p ⟨0, by decide⟩) :=
  broadcastTo_apply _ _ _ _ fun a => by
    match a with
    | ⟨0, _⟩ => rfl
    | ⟨1, _⟩ => rfl

theorem pay0_3_apply (x0 : Vec Ideal S1000x1280 .f32) (x1 : Vec Ideal S1280x384 .f32) (x2 : Vec Ideal S1000x3 .f32) (p : Fin 1000) (q : Fin 128) :
    k0_pay3 (F := Ideal) x0 x1 x2 (ix2 p q)
      = (∑ k : Fin 1280, x0 (ix2 p k) * x1 (ix2 k ⟨0 + q.val, by omega⟩)) * x2 (ix2 p ⟨0, by decide⟩) := by
  show mulf (extractStridedSlice S1000x128 ![0, 0] (k0_pay1 (F := Ideal) x0 x1) slices_S1000x384_o0_0_S1000x128)
      (broadcastTo S1000x128 (extractStridedSlice S1000x1 ![0, 0] (shapeCast S1000x3 x2 shapeCasts_S1000x3_S1000x3) slices_S1000x3_o0_0_S1000x1) broadcasts_S1000x1_S1000x128) (ix2 p q) = _
  rw [mulf_apply, slice0_cols 0 (by omega), bcast0_col, slice0_scale 0 (by decide), prod0_apply, shapeCast_self]

theorem pay0_4_apply (x0 : Vec Ideal S1000x1280 .f32) (x1 : Vec Ideal S1280x384 .f32) (x2 : Vec Ideal S1000x3 .f32) (p : Fin 1000) (q : Fin 128) :
    k0_pay4 (F := Ideal) x0 x1 x2 (ix2 p q)
      = (∑ k : Fin 1280, x0 (ix2 p k) * x1 (ix2 k ⟨128 + q.val, by omega⟩)) * x2 (ix2 p ⟨1, by decide⟩) := by
  show mulf (extractStridedSlice S1000x128 ![0, 128] (k0_pay1 (F := Ideal) x0 x1) slices_S1000x384_o0_128_S1000x128)
      (broadcastTo S1000x128 (extractStridedSlice S1000x1 ![0, 1] (shapeCast S1000x3 x2 shapeCasts_S1000x3_S1000x3) slices_S1000x3_o0_1_S1000x1) broadcasts_S1000x1_S1000x128) (ix2 p q) = _
  rw [mulf_apply, slice0_cols 128 (by omega), bcast0_col, slice0_scale 1 (by decide), prod0_apply, shapeCast_self]

theorem pay0_5_apply (x0 : Vec Ideal S1000x1280 .f32) (x1 : Vec Ideal S1280x384 .f32) (x2 : Vec Ideal S1000x3 .f32) (p : Fin 1000) (q : Fin 128) :
    k0_pay5 (F := Ideal) x0 x1 x2 (ix2 p q)
      = (∑ k : Fin 1280, x0 (ix2 p k) * x1 (ix2 k ⟨256 + q.val, by omega⟩)) * x2 (ix2 p ⟨2, by decide⟩) := by
  show mulf (extractStridedSlice S1000x128 ![0, 256] (k0_pay1 (F := Ideal) x0 x1) slices_S1000x384_o0_256_S1000x128)
      (broadcastTo S1000x128 (extractStridedSlice S1000x1 ![0, 2] (shapeCast S1000x3 x2 shapeCasts_S1000x3_S1000x3) slices_S1000x3_o0_2_S1000x1) broadcasts_S1000x1_S1000x128) (ix2 p q) = _
  rw [mulf_apply, slice0_cols 256 (by omega), bcast0_col, slice0_scale 2 (by decide), prod0_apply, shapeCast_self]

theorem piece0_3 (x0 : Vec Ideal S1000x1280 .f32) (x1 : Vec Ideal S1280x384 .f32) (x2 : Vec Ideal S1000x3 .f32) (x : S1000x128.Idx) :
    k0_pay3 (F := Ideal) x0 x1 x2 x = projBlk x0 x1 x2 (r0_3.emb x) := by
  obtain ⟨p, q, rfl⟩ : ∃ (p : Fin 1000) (q : Fin 128), x = ix2 p q := ⟨x 0, x 1, eq_ix2 x⟩
  have he : r0_3.emb (ix2 p q) = ix2 p ⟨0 + q.val, by omega⟩ := funext fun a => Fin.ext (by
    match a with
    | ⟨0, _⟩ => show 0 + 1 * (p : ℕ) = (p : ℕ); omega
    | ⟨1, _⟩ => show 0 + 1 * (q : ℕ) = 0 + (q : ℕ); omega)
  rw [pay0_3_apply, he, projBlk_ix2 x0 x1 x2 p ⟨0 + q.val, by omega⟩ ⟨0, by decide⟩ (by show (0 + q.val) / 128 = 0; omega)]

theorem piece0_4 (x0 : Vec Ideal S1000x1280 .f32) (x1 : Vec Ideal S1280x384 .f32) (x2 : Vec Ideal S1000x3 .f32) (x : S1000x128.Idx) :
    k0_pay4 (F := Ideal) x0 x1 x2 x = projBlk x0 x1 x2 (r0_4.emb x) := by
  obtain ⟨p, q, rfl⟩ : ∃ (p : Fin 1000) (q : Fin 128), x = ix2 p q := ⟨x 0, x 1, eq_ix2 x⟩
  have he : r0_4.emb (ix2 p q) = ix2 p ⟨128 + q.val, by omega⟩ := funext fun a => Fin.ext (by
    match a with
    | ⟨0, _⟩ => show 0 + 1 * (p : ℕ) = (p : ℕ); omega
    | ⟨1, _⟩ => show 128 + 1 * (q : ℕ) = 128 + (q : ℕ); omega)
  rw [pay0_4_apply, he, projBlk_ix2 x0 x1 x2 p ⟨128 + q.val, by omega⟩ ⟨1, by decide⟩ (by show (128 + q.val) / 128 = 1; omega)]

theorem piece0_5 (x0 : Vec Ideal S1000x1280 .f32) (x1 : Vec Ideal S1280x384 .f32) (x2 : Vec Ideal S1000x3 .f32) (x : S1000x128.Idx) :
    k0_pay5 (F := Ideal) x0 x1 x2 x = projBlk x0 x1 x2 (r0_5.emb x) := by
  obtain ⟨p, q, rfl⟩ : ∃ (p : Fin 1000) (q : Fin 128), x = ix2 p q := ⟨x 0, x 1, eq_ix2 x⟩
  have he : r0_5.emb (ix2 p q) = ix2 p ⟨256 + q.val, by omega⟩ := funext fun a => Fin.ext (by
    match a with
    | ⟨0, _⟩ => show 0 + 1 * (p : ℕ) = (p : ℕ); omega
    | ⟨1, _⟩ => show 256 + 1 * (q : ℕ) = 256 + (q : ℕ); omega)
  rw [pay0_5_apply, he, projBlk_ix2 x0 x1 x2 p ⟨256 + q.val, by omega⟩ ⟨2, by decide⟩ (by show (256 + q.val) / 128 = 2; omega)]

theorem out0_3_eq (x0 : Vec Ideal S1000x1280 .f32) (x1 : Vec Ideal S1280x384 .f32) (x2 : Vec Ideal S1000x3 .f32) :
    out0_3 (F := Ideal) x0 x1 x2 = projBlk x0 x1 x2 := by
  funext y
  unfold out0_3
  simp only [View.ld_unit_zero (S := S1000x1280) hz0, View.ld_unit_zero (S := S1280x384) hz0, View.ld_unit_zero (S := S1000x3) hz0]
  refine View.canon_apply_of_pieces (Val := Elt Ideal) (e := .f32) (projBlk x0 x1 x2) _ ?_ y (cover0_3 _ _ _ y)
  intro pc hpc
  simp only [List.mem_cons, List.mem_nil_iff, or_false] at hpc
  rcases hpc with rfl | rfl | rfl
  · exact fun x => piece0_5 x0 x1 x2 x
  · exact fun x => piece0_4 x0 x1 x2 x
  · exact fun x => piece0_3 x0 x1 x2 x

theorem projBlk_eq_projFull_ix (X : S100000x1280.Idx → EReal) (W : S1280x384.Idx → EReal) (S : S100000x3.Idx → EReal)
    (x0 : S1000x1280.Idx → EReal) (x1 : S1280x384.Idx → EReal) (x2 : S1000x3.Idx → EReal) (n : ℕ)
    (h0 : ∀ (p : Fin 1000) (k : Fin 1280) (r : Fin 100000), r.val = n * 1000 + p.val → x0 (ix2 p k) = X (ix2 r k))
    (h1 : ∀ (k : Fin 1280) (j : Fin 384), x1 (ix2 k j) = W (ix2 k j))
    (h2 : ∀ (p : Fin 1000) (g : Fin 3) (r : Fin 100000), r.val = n * 1000 + p.val → x2 (ix2 p g) = S (ix2 r g))
    (p : Fin 1000) (q : Fin 384) (r : Fin 100000) (hr : r.val = n * 1000 + p.val) :
    projBlk x0 x1 x2 (ix2 p q) = projFull X W S (ix2 r q) := by
  have hb : q.val / 128 < 3 := by have := q.isLt; omega
  show (∑ k : Fin 1280, x0 (ix2 p k) * x1 (ix2 k q)) * x2 (ix2 p ⟨q.val / 128, hb⟩)
      = (∑ k : Fin 1280, X (ix2 r k) * W (ix2 k q)) * S (ix2 r ⟨q.val / 128, hb⟩)
  rw [h2 p ⟨q.val / 128, hb⟩ r hr]
  exact congrArg (fun z => z * S (ix2 r ⟨q.val / 128, hb⟩)) (Finset.sum_congr rfl fun k _ => by rw [h0 p k r hr, h1 k q])

theorem projBlk_eq_projFull (X : S100000x1280.Idx → EReal) (W : S1280x384.Idx → EReal) (S : S100000x3.Idx → EReal)
    (x0 : S1000x1280.Idx → EReal) (x1 : S1280x384.Idx → EReal) (x2 : S1000x3.Idx → EReal) (n : ℕ)
    (h0 : ∀ (p : Fin 1000) (k : Fin 1280) (r : Fin 100000), r.val = n * 1000 + p.val → x0 (ix2 p k) = X (ix2 r k))
    (h1 : ∀ (k : Fin 1280) (j : Fin 384), x1 (ix2 k j) = W (ix2 k j))
    (h2 : ∀ (p : Fin 1000) (g : Fin 3) (r : Fin 100000), r.val = n * 1000 + p.val → x2 (ix2 p g) = S (ix2 r g))
    (j : S1000x384.Idx) (i : S100000x384.Idx) (hi0 : (i 0).val = n * 1000 + (j 0).val) (hi1 : (i 1).val = (j 1).val) :
    projBlk x0 x1 x2 j = projFull X W S i := by
  obtain ⟨p, q, rfl⟩ : ∃ (p : Fin 1000) (q : Fin 384), j = ix2 p q := ⟨j 0, j 1, eq_ix2 j⟩
  obtain ⟨r, b, rfl⟩ : ∃ (r : Fin 100000) (b : Fin 384), i = ix2 r b := ⟨i 0, i 1, eq_ix2 i⟩
  have hbq : b = q := Fin.ext hi1
  rw [hbq]
  exact projBlk_eq_projFull_ix X W S x0 x1 x2 n h0 h1 h2 p q r hi0

variable (V : (c : Dev nD) → (b : Ref sig .tc) → Buf (Elt Ideal) ((c : Thread nD τ).loc b))

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem iblk0_0_apply (c : Dev nD) (t : Fin cfg0.N) (p : Fin 1000) (k : Fin 1280) (r : Fin 100000) (hr : r.val = t.val * 1000 + p.val) :
    (iblk0 V c 0 t : S1000x1280.Idx → EReal) (ix2 p k) = (V c main_arg0 : S100000x1280.Idx → EReal) (ix2 r k) := by
  obtain ⟨e00, e01, -⟩ := idx_facts0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 1000 + 1 * (p : ℕ) = (r : ℕ); rw [e00, hr]; omega
  | ⟨1, _⟩ => show win0_0.index t (1 : Fin 2) * 1280 + 1 * (k : ℕ) = (k : ℕ); rw [e01]; omega

theorem iblk0_1_apply (c : Dev nD) (t : Fin cfg0.N) (k : Fin 1280) (j : Fin 384) :
    (iblk0 V c 1 t : S1280x384.Idx → EReal) (ix2 k j) = (V c main_v61 : S1280x384.Idx → EReal) (ix2 k j) := by
  obtain ⟨-, -, e10, e11, -⟩ := idx_facts0 t
  show V c main_v61 (((cfg0.win 1).blk t).view.emb (ix2 k j)) = V c main_v61 (ix2 k j)
  refine congrArg (V c main_v61) (funext fun a => Fin.ext ?_)
  match a with
  | ⟨0, _⟩ => show win0_1.index t (0 : Fin 2) * 1280 + 1 * (k : ℕ) = (k : ℕ); rw [e10]; omega
  | ⟨1, _⟩ => show win0_1.index t (1 : Fin 2) * 384 + 1 * (j : ℕ) = (j : ℕ); rw [e11]; omega

theorem iblk0_2_apply (c : Dev nD) (t : Fin cfg0.N) (p : Fin 1000) (g : Fin 3) (r : Fin 100000) (hr : r.val = t.val * 1000 + p.val) :
    (iblk0 V c 2 t : S1000x3.Idx → EReal) (ix2 p g) = (V c main_v54 : S100000x3.Idx → EReal) (ix2 r g) := by
  obtain ⟨-, -, -, -, e20, e21, -⟩ := idx_facts0 t
  show V c main_v54 (((cfg0.win 2).blk t).view.emb (ix2 p g)) = V c main_v54 (ix2 r g)
  refine congrArg (V c main_v54) (funext fun a => Fin.ext ?_)
  match a with
  | ⟨0, _⟩ => show win0_2.index t (0 : Fin 2) * 1000 + 1 * (p : ℕ) = (r : ℕ); rw [e20, hr]; omega
  | ⟨1, _⟩ => show win0_2.index t (1 : Fin 2) * 3 + 1 * (g : ℕ) = (g : ℕ); rw [e21]; omega

theorem flushed0_3_eq (c : Dev nD) (t : Fin cfg0.N) :
    (dat0 (F := Ideal) V c).flushed 3 t
      = ((cfg0.win 3).blk t).view.read (Elt Ideal) (projFull (V c main_arg0) (V c main_v61) (V c main_v54)) := by
  show (cfg0.win 3).cut (grid0.coords t) ((dat0 V c).after 3 t) = _
  rw [after0_3, out0_3_eq (iblk0 V c 0 t) (iblk0 V c 1 t) (iblk0 V c 2 t)]
  obtain ⟨-, -, -, -, -, -, e30, e31⟩ := idx_facts0 t
  funext j
  show projBlk (iblk0 V c 0 t) (iblk0 V c 1 t) (iblk0 V c 2 t) j
      = projFull (V c main_arg0) (V c main_v61) (V c main_v54) (((cfg0.win 3).blk t).view.emb j)
  refine projBlk_eq_projFull (V c main_arg0) (V c main_v61) (V c main_v54) (iblk0 V c 0 t) (iblk0 V c 1 t) (iblk0 V c 2 t) t.val
    (fun p k r hr => iblk0_0_apply V c t p k r hr) (fun k j => iblk0_1_apply V c t k j)
    (fun p g r hr => iblk0_2_apply V c t p g r hr) j _ ?_ ?_
  · show win0_3.index t (0 : Fin 2) * 1000 + 1 * (j 0).val = t.val * 1000 + (j 0).val
    rw [e30]; omega
  · show win0_3.index t (1 : Fin 2) * 384 + 1 * (j 1).val = (j 1).val
    rw [e31]; omega

theorem mem_blk0_3 (t : Fin cfg0.N) (i : S100000x384.Idx) :
    i ∈ ((cfg0.win 3).blk t).view.set ↔ ∀ a : Fin 2, win0_3.index t a * S1000x384.size a ≤ (i a).val
      ∧ (i a).val < win0_3.index t a * S1000x384.size a + S1000x384.size a := by
  show i ∈ ((View.whole main_v62).slice (win0_3.rect t)).set ↔ _
  rw [View.set_slice_whole, Rect.mem_set_unit]
  exact Iff.rfl

theorem cover_arr0_3 (i : S100000x384.Idx) :
    ∃ t : Fin cfg0.N, (cfg0.win 3).flush t = true ∧ i ∈ ((cfg0.win 3).blk t).view.set := by
  have hi0 : (i 0).val < 100000 := idx2_lt0 i
  have hi1 : (i 1).val < 384 := idx2_lt1 i
  have hN : grid0.N = 100 := N_0
  obtain ⟨t, ht⟩ : ∃ t : Fin cfg0.N, t.val = (i 0).val / 1000 :=
    ⟨⟨(i 0).val / 1000, by show (i 0).val / 1000 < grid0.N; rw [hN]; omega⟩, rfl⟩
  obtain ⟨-, -, -, -, -, -, e30, e31⟩ := idx_facts0 t
  refine ⟨t, flush0_3 t, ?_⟩
  rw [mem_blk0_3]
  intro a
  match a with
  | ⟨0, _⟩ =>
    show win0_3.index t (0 : Fin 2) * 1000 ≤ (i 0).val ∧ (i 0).val < win0_3.index t (0 : Fin 2) * 1000 + 1000
    rw [e30, ht]; omega
  | ⟨1, _⟩ =>
    show win0_3.index t (1 : Fin 2) * 384 ≤ (i 1).val ∧ (i 1).val < win0_3.index t (1 : Fin 2) * 384 + 384
    rw [e31]; omega

theorem arrAt0_3 (c : Dev nD) :
    (dat0 (F := Ideal) V c).arrAt 3 cfg0.N = projFull (V c main_arg0) (V c main_v61) (V c main_v54) :=
  (dat0 V c).arrAt_eq_of_cover 3 (projFull (V c main_arg0) (V c main_v61) (V c main_v54))
    (fun t _ => flushed0_3_eq V c t) cover_arr0_3

end Cert.KernelIdeal.Hand

end
-- ==== Proof.KI.Val1.lean ====
import proofs.«175263_j29738353557973_1_alg».proof.Proof.KI.Reg1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

def fcY (h : S100000x128.Idx → EReal) (w : S128x128.Idx → EReal) (b : S1x128.Idx → EReal) : S100000x128.Idx → EReal :=
  fun i => max ((∑ k : Fin 128, h (ix2 (i 0) k) * w (ix2 k (i 1))) + b (ix2 0 (i 1))) 0

def colSum (y : S100000x128.Idx → EReal) : S1x128.Idx → EReal := fun j => ∑ r : Fin 100000, y (ix2 r (j 1))

theorem lhs_mm1_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mm1_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_mm1_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mm1_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem mm1_apply {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  show FloatOps.matmul dot_S2000x128_S128x128_S2000x128_1_0_0_1_n_n none l r (constant (F := Ideal) S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_mm1_0 _ _
    | ⟨1, _⟩ => exact (lhs_mm1_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_mm1_0 _ _).trans hk
    | ⟨1, _⟩ => exact rhs_mm1_1 _ _)
  rw [el, er]

theorem pay1_1_apply (j : S1x128.Idx) : k1_pay1 (F := Ideal) j = 0 := Ideal.ofBits_zero_f32
theorem pay1_2_apply (j : S1x128.Idx) : k1_pay2 (F := Ideal) j = 0 := Ideal.ofBits_zero_f32

theorem pay1_3_apply (x0 : Vec Ideal S2000x128 .f32) (x1 : Vec Ideal S128x128 .f32) (x2 : Vec Ideal S1x128 .f32)
    (p : Fin 2000) (q : Fin 128) :
    k1_pay3 (F := Ideal) x0 x1 x2 (ix2 p q) = max ((∑ k : Fin 128, x0 (ix2 p k) * x1 (ix2 k q)) + x2 (ix2 0 q)) 0 := by
  have hmm : matmul dot_S2000x128_S128x128_S2000x128_1_0_0_1_n_n none
        (truncf .bf16 (shapeCast S2000x128 x0 shapeCasts_S2000x128_S2000x128) bitsLt_bf16_f32) (truncf .bf16 x1 bitsLt_bf16_f32)
        (constant (F := Ideal) S2000x128 .f32 0x00000000#32) (ix2 p q)
      = ∑ k : Fin 128, x0 (ix2 p k) * x1 (ix2 k q) := by
    refine (mm1_apply _ _ p q).trans ?_
    refine Finset.sum_congr rfl fun k _ => ?_
    show shapeCast S2000x128 x0 shapeCasts_S2000x128_S2000x128 (ix2 p k) * x1 (ix2 k q) = _
    rw [shapeCast_self]
  have hb : broadcastTo S2000x128 (shapeCast S1x128 x2 shapeCasts_S1x128_S1x128) broadcasts_S1x128_S2000x128 (ix2 p q) = x2 (ix2 0 q) :=
    (broadcastTo_1b_ab_apply (shapeCast S1x128 x2 shapeCasts_S1x128_S1x128) broadcasts_S1x128_S2000x128 p q).trans
      (congrFun (shapeCast_self x2 shapeCasts_S1x128_S1x128) (ix2 0 q))
  have hzero : (Scalar.ofBits (F := Ideal) .f32 0x00000000#32 : Ideal .f32) = 0 := Ideal.ofBits_zero_f32
  calc k1_pay3 (F := Ideal) x0 x1 x2 (ix2 p q)
      = max (matmul dot_S2000x128_S128x128_S2000x128_1_0_0_1_n_n none
              (truncf .bf16 (shapeCast S2000x128 x0 shapeCasts_S2000x128_S2000x128) bitsLt_bf16_f32) (truncf .bf16 x1 bitsLt_bf16_f32)
              (constant (F := Ideal) S2000x128 .f32 0x00000000#32) (ix2 p q)
            + broadcastTo S2000x128 (shapeCast S1x128 x2 shapeCasts_S1x128_S1x128) broadcasts_S1x128_S2000x128 (ix2 p q))
          (Scalar.ofBits (F := Ideal) .f32 0x00000000#32) := rfl
    _ = _ := by rw [hmm, hb, hzero]

theorem pay1_3_eq_fcY (H : S100000x128.Idx → EReal) (W : S128x128.Idx → EReal) (Bv : S1x128.Idx → EReal)
    (x0 : Vec Ideal S2000x128 .f32) (x1 : Vec Ideal S128x128 .f32) (x2 : Vec Ideal S1x128 .f32)
    (j : S2000x128.Idx) (i : S100000x128.Idx)
    (h0 : ∀ k : Fin 128, x0 (ix2 (j 0) k) = H (ix2 (i 0) k)) (hq : (j 1).val = (i 1).val) (h1 : x1 = W) (h2 : x2 = Bv) :
    k1_pay3 (F := Ideal) x0 x1 x2 j = fcY H W Bv i := by
  subst h1 h2
  obtain ⟨p, q, rfl⟩ : ∃ (p : Fin 2000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q = q' := Fin.ext hq
  refine (pay1_3_apply x0 x1 x2 p q).trans ?_
  have hs : (∑ k : Fin 128, x0 (ix2 p k) * x1 (ix2 k q)) = ∑ k : Fin 128, H (ix2 r k) * x1 (ix2 k q) :=
    Finset.sum_congr rfl fun k _ => congrArg (· * x1 (ix2 k q)) (h0 k)
  rw [hs]
  rfl

section Region

variable (V : (c : Dev nD) → (b : Ref sig .tc) → Buf (Elt Ideal) ((c : Thread nD τ).loc b))

theorem hzz1 : (![0, 0] : Fin 2 → Nat) = fun _ => 0 := funext fun a => by fin_cases a <;> rfl

theorem idx_facts1 : ∀ t : Fin cfg1.N, win1_0.index t (0 : Fin 2) = t.val ∧ win1_0.index t (1 : Fin 2) = 0
    ∧ win1_3.index t (0 : Fin 2) = t.val ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

theorem iblk1_0_apply (c : Dev nD) (t : Fin cfg1.N) (x : S2000x128.Idx) (k : S100000x128.Idx)
    (hk0 : (k 0).val = 2000 * t.val + (x 0).val) (hk1 : (k 1).val = (x 1).val) :
    (iblk1 V c 0 t : Vec Ideal S2000x128 .f32) x = (V c main_v135 : S100000x128.Idx → EReal) k := by
  obtain ⟨h0, h1, -⟩ := idx_facts1 t
  unfold iblk1
  rw [View.read_apply]
  show V c main_v135 _ = V c main_v135 _
  refine congrArg (V c main_v135) ?_
  funext a
  apply Fin.ext
  match a with
  | ⟨0, _⟩ => show win1_0.index t (0 : Fin 2) * 2000 + 1 * (x 0).val = (k 0).val; rw [h0, hk0]; omega
  | ⟨1, _⟩ => show win1_0.index t (1 : Fin 2) * 128 + 1 * (x 1).val = (k 1).val; rw [h1, hk1]; omega

theorem iblk1_1_eq (c : Dev nD) (t : Fin cfg1.N) :
    (iblk1 V c 1 t : Vec Ideal S128x128 .f32) = (V c main_arg6 : S128x128.Idx → EReal) := by
  obtain ⟨-, -, -, -, h0, h1, -⟩ := idx_facts1 t
  funext x
  unfold iblk1
  rw [View.read_apply]
  show V c main_arg6 _ = V c main_arg6 _
  refine congrArg (V c main_arg6) ?_
  funext a
  apply Fin.ext
  match a with
  | ⟨0, _⟩ => show win1_1.index t (0 : Fin 2) * 128 + 1 * (x 0).val = (x 0).val; rw [h0]; omega
  | ⟨1, _⟩ => show win1_1.index t (1 : Fin 2) * 128 + 1 * (x 1).val = (x 1).val; rw [h1]; omega

theorem iblk1_2_eq (c : Dev nD) (t : Fin cfg1.N) :
    (iblk1 V c 2 t : Vec Ideal S1x128 .f32) = (V c main_v136 : S1x128.Idx → EReal) := by
  obtain ⟨-, -, -, -, -, -, h0, h1⟩ := idx_facts1 t
  funext x
  unfold iblk1
  rw [View.read_apply]
  show V c main_v136 _ = V c main_v136 _
  refine congrArg (V c main_v136) ?_
  funext a
  apply Fin.ext
  match a with
  | ⟨0, _⟩ => show win1_2.index t (0 : Fin 2) * 1 + 1 * (x 0).val = (x 0).val; rw [h0]; omega
  | ⟨1, _⟩ => show win1_2.index t (1 : Fin 2) * 128 + 1 * (x 1).val = (x 1).val; rw [h1]; omega

theorem out1_3_blk_apply (c : Dev nD) (t : Fin cfg1.N) (j : S2000x128.Idx) (i : S100000x128.Idx)
    (hi0 : (i 0).val = 2000 * t.val + (j 0).val) (hi1 : (i 1).val = (j 1).val) :
    out1_3 (F := Ideal) (iblk1 V c 0 t) (iblk1 V c 1 t) (iblk1 V c 2 t) j
      = fcY (V c main_v135) (V c main_arg6) (V c main_v136) i :=
  pay1_3_eq_fcY (V c main_v135) (V c main_arg6) (V c main_v136) (iblk1 V c 0 t) (iblk1 V c 1 t) (iblk1 V c 2 t) j i
    (fun k => iblk1_0_apply V c t (ix2 (j 0) k) (ix2 (i 0) k) hi0 rfl) hi1.symm (iblk1_1_eq V c t) (iblk1_2_eq V c t)

theorem out1_3_apply (c : Dev nD) (t : Fin cfg1.N) (r : Fin 2000) (q : Fin 128) (i : S100000x128.Idx)
    (hi0 : (i 0).val = 2000 * t.val + r.val) (hi1 : (i 1).val = q.val) :
    out1_3 (iblk1 (F := Ideal) V c 0 t) (iblk1 V c 1 t) (iblk1 V c 2 t) (ValueIdx.ix2 r q)
      = fcY (V c main_v135) (V c main_arg6) (V c main_v136) i :=
  out1_3_blk_apply V c t (ix2 r q) i hi0 hi1

theorem flushed1_3_eq (c : Dev nD) (t : Fin cfg1.N) :
    (dat1 (F := Ideal) V c).flushed 3 t = ((cfg1.win 3).blk t).view.read (Elt Ideal)
      (fcY (V c main_v135) (V c main_arg6) (V c main_v136)) := by
  show (cfg1.win 3).cut (grid1.coords t) ((dat1 V c).after 3 t) = _
  rw [after1_3]
  obtain ⟨-, -, e0, e1, -⟩ := idx_facts1 t
  funext j
  show out1_3 (F := Ideal) (iblk1 V c 0 t) (iblk1 V c 1 t) (iblk1 V c 2 t) j
    = fcY (V c main_v135) (V c main_arg6) (V c main_v136) (((cfg1.win 3).blk t).view.emb j)
  have hj0 : (j 0).val < 2000 := (j 0).isLt
  have hj1 : (j 1).val < 128 := (j 1).isLt
  have r0 : ((((cfg1.win 3).blk t).view.emb j) 0).val = 2000 * t.val + (j 0).val := by
    show win1_3.index t (0 : Fin 2) * 2000 + 1 * (j 0).val = _; rw [e0]; omega
  have r1 : ((((cfg1.win 3).blk t).view.emb j) 1).val = (j 1).val := by
    show win1_3.index t (1 : Fin 2) * 128 + 1 * (j 1).val = _; rw [e1]; omega
  exact out1_3_blk_apply V c t j (((cfg1.win 3).blk t).view.emb j) r0 r1

theorem mem_blk1_3 (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v137_0).slice (win1_3.rect t)).set ↔ _
  rw [View.set_slice_whole, Rect.mem_set_unit]
  exact Iff.rfl

theorem covered1_3 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have ht : (i 0).val / 2000 < cfg1.N := by rw [show cfg1.N = 50 from N_1]; omega
  obtain ⟨-, -, e0, e1, -⟩ := idx_facts1 ⟨(i 0).val / 2000, ht⟩
  have e0' : win1_3.index ⟨(i 0).val / 2000, ht⟩ (0 : Fin 2) = (i 0).val / 2000 := e0
  refine ⟨⟨(i 0).val / 2000, ht⟩, flush1_3 _, ?_⟩
  rw [mem_blk1_3]
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    rw [e0']; omega
  | ⟨1, _⟩ =>
    show win1_3.index ⟨(i 0).val / 2000, ht⟩ (1 : Fin 2) * 128 ≤ (i 1).val ∧ (i 1).val < win1_3.index ⟨(i 0).val / 2000, ht⟩ (1 : Fin 2) * 128 + 128
    rw [e1]; omega

theorem arrAt1_3 (c : Dev nD) : (dat1 (F := Ideal) V c).arrAt 3 cfg1.N
    = fcY (V c main_v135) (V c main_arg6) (V c main_v136) :=
  (dat1 (F := Ideal) V c).arrAt_eq_of_cover 3 (fcY (V c main_v135) (V c main_arg6) (V c main_v136))
    (fun t _ => flushed1_3_eq V c t) covered1_3

end Region

end Cert.KernelIdeal.Hand

end
-- ==== Proof.KI.Val1Acc.lean ====
import proofs.«175263_j29738353557973_1_alg».proof.Proof.KI.Val1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

theorem colsum2000_apply (y : FVec Ideal S2000x128 .f32) (q : Fin 128) :
    multiReduction .add [0] S128 y 0x00000000#32 reduces_S2000x128_S128 (.inl rfl) rfl (ix1 q) = ∑ r : Fin 2000, y (ix2 r q) :=
  (Ideal.multiReduction_add_single y 0x00000000#32 reduces_S2000x128_S128 (.inl rfl) rfl (ix1 q)).trans
    (Finset.sum_congr rfl fun r _ => congrArg y (funext fun a => by
      match a with
      | ⟨0, _⟩ => rfl
      | ⟨1, _⟩ => rfl))

theorem pay1_4_apply (x0 : Vec Ideal S2000x128 .f32) (x1 : Vec Ideal S128x128 .f32) (x2 : Vec Ideal S1x128 .f32) (p : Vec Ideal S1x128 .f32)
    (u : Fin 1) (q : Fin 128) :
    k1_pay4 (F := Ideal) x0 x1 x2 p (ix2 u q) = p (ix2 u q) + ∑ r : Fin 2000, k1_pay3 (F := Ideal) x0 x1 x2 (ix2 r q) := by
  have hp : shapeCast S1x128 p shapeCasts_S1x128_S1x128 (ix2 u q) = p (ix2 u q) :=
    congrFun (shapeCast_self p shapeCasts_S1x128_S1x128) (ix2 u q)
  have hs : shapeCast S1x128 (multiReduction .add [0] S128 (k1_pay3 (F := Ideal) x0 x1 x2) 0x00000000#32 reduces_S2000x128_S128 (.inl rfl) rfl) shapeCasts_S128_S1x128 (ix2 u q)
      = ∑ r : Fin 2000, k1_pay3 (F := Ideal) x0 x1 x2 (ix2 r q) :=
    (shapeCast_a_1a_apply _ shapeCasts_S128_S1x128 u q).trans (colsum2000_apply _ q)
  calc k1_pay4 (F := Ideal) x0 x1 x2 p (ix2 u q)
      = shapeCast S1x128 p shapeCasts_S1x128_S1x128 (ix2 u q)
          + shapeCast S1x128 (multiReduction .add [0] S128 (k1_pay3 (F := Ideal) x0 x1 x2) 0x00000000#32 reduces_S2000x128_S128 (.inl rfl) rfl) shapeCasts_S128_S1x128 (ix2 u q) := rfl
    _ = _ := by rw [hp, hs]

theorem pay1_5_apply (x0 : Vec Ideal S2000x128 .f32) (x1 : Vec Ideal S128x128 .f32) (x2 : Vec Ideal S1x128 .f32) (p : Vec Ideal S1x128 .f32)
    (u : Fin 1) (q : Fin 128) :
    k1_pay5 (F := Ideal) x0 x1 x2 p (ix2 u q)
      = p (ix2 u q) + ∑ r : Fin 2000, k1_pay3 (F := Ideal) x0 x1 x2 (ix2 r q) * k1_pay3 (F := Ideal) x0 x1 x2 (ix2 r q) := by
  have hp : shapeCast S1x128 p shapeCasts_S1x128_S1x128 (ix2 u q) = p (ix2 u q) :=
    congrFun (shapeCast_self p shapeCasts_S1x128_S1x128) (ix2 u q)
  have hs : shapeCast S1x128 (multiReduction .add [0] S128 (mulf (k1_pay3 (F := Ideal) x0 x1 x2) (k1_pay3 (F := Ideal) x0 x1 x2)) 0x00000000#32 reduces_S2000x128_S128 (.inl rfl) rfl) shapeCasts_S128_S1x128 (ix2 u q)
      = ∑ r : Fin 2000, k1_pay3 (F := Ideal) x0 x1 x2 (ix2 r q) * k1_pay3 (F := Ideal) x0 x1 x2 (ix2 r q) :=
    (shapeCast_a_1a_apply _ shapeCasts_S128_S1x128 u q).trans (colsum2000_apply _ q)
  calc k1_pay5 (F := Ideal) x0 x1 x2 p (ix2 u q)
      = shapeCast S1x128 p shapeCasts_S1x128_S1x128 (ix2 u q)
          + shapeCast S1x128 (multiReduction .add [0] S128 (mulf (k1_pay3 (F := Ideal) x0 x1 x2) (k1_pay3 (F := Ideal) x0 x1 x2)) 0x00000000#32 reduces_S2000x128_S128 (.inl rfl) rfl) shapeCasts_S128_S1x128 (ix2 u q) := rfl
    _ = _ := by rw [hp, hs]

def colSeq (Z : S100000x128.Idx → EReal) (q : Fin 128) (x : ℕ) : EReal :=
  if hx : x < 100000 then Z (ix2 ⟨x, hx⟩ q) else 0

theorem sum_block_eq (Z : S100000x128.Idx → EReal) (q : Fin 128) (b : ℕ) (f : Fin 2000 → EReal)
    (hf : ∀ r : Fin 2000, f r = colSeq Z q (b + r.val)) :
    ∑ r : Fin 2000, f r = ∑ x ∈ Finset.range 2000, colSeq Z q (b + x) := by
  rw [Finset.sum_range]
  exact Finset.sum_congr rfl fun r _ => hf r

theorem colSeq_mul (Z : S100000x128.Idx → EReal) (q : Fin 128) (x : ℕ) :
    colSeq Z q x * colSeq Z q x = colSeq (fun i => Z i * Z i) q x := by
  unfold colSeq
  by_cases hx : x < 100000 <;> simp [hx]

theorem sum_all_eq (Z : S100000x128.Idx → EReal) (q : Fin 128) :
    ∑ x ∈ Finset.range 100000, colSeq Z q x = ∑ r : Fin 100000, Z (ix2 r q) := by
  rw [Finset.sum_range]
  exact Finset.sum_congr rfl fun r _ => by unfold colSeq; rw [dif_pos r.isLt]

section Region

variable (V : (c : Dev nD) → (b : Ref sig .tc) → Buf (Elt Ideal) ((c : Thread nD τ).loc b))

abbrev Y1 (c : Dev nD) : S100000x128.Idx → EReal := fcY (V c main_v135) (V c main_arg6) (V c main_v136)

theorem out1_3_seq (c : Dev nD) (t : Fin cfg1.N) (r : Fin 2000) (q : Fin 128) :
    k1_pay3 (F := Ideal) (iblk1 V c 0 t) (iblk1 V c 1 t) (iblk1 V c 2 t) (ix2 r q) = colSeq (Y1 V c) q (2000 * t.val + r.val) := by
  have hlt : 2000 * t.val + r.val < 100000 := by
    have := lt_of_lt_of_eq t.isLt (show cfg1.N = 50 from N_1); have := r.isLt; omega
  unfold colSeq
  rw [dif_pos hlt]
  exact out1_3_apply V c t r q (ix2 ⟨2000 * t.val + r.val, hlt⟩ q) rfl rfl

theorem acc1_4_eq (c : Dev nD) : ∀ (n : ℕ) (h : n < cfg1.N) (u : Fin 1) (q : Fin 128),
    acc1_4 (F := Ideal) V c n h (ix2 u q) = ∑ x ∈ Finset.range (2000 * (n + 1)), colSeq (Y1 V c) q x
  | 0, h, u, q => by
    refine (pay1_4_apply _ _ _ _ u q).trans ?_
    rw [pay1_1_apply, zero_add]
    refine (sum_block_eq (Y1 V c) q (2000 * 0) _ fun r => ?_).trans ?_
    · exact out1_3_seq V c ⟨0, h⟩ r q
    · exact Finset.sum_congr rfl fun x _ => by rw [Nat.mul_zero, Nat.zero_add]
  | n + 1, h, u, q => by
    refine (pay1_4_apply _ _ _ _ u q).trans ?_
    rw [acc1_4_eq c n (Nat.lt_of_succ_lt h) u q, show 2000 * (n + 1 + 1) = 2000 * (n + 1) + 2000 from by omega, Finset.sum_range_add]
    refine congrArg (_ + ·) ?_
    exact sum_block_eq (Y1 V c) q (2000 * (n + 1)) _ fun r => out1_3_seq V c ⟨n + 1, h⟩ r q

theorem acc1_5_eq (c : Dev nD) : ∀ (n : ℕ) (h : n < cfg1.N) (u : Fin 1) (q : Fin 128),
    acc1_5 (F := Ideal) V c n h (ix2 u q) = ∑ x ∈ Finset.range (2000 * (n + 1)), colSeq (fun i => Y1 V c i * Y1 V c i) q x
  | 0, h, u, q => by
    refine (pay1_5_apply _ _ _ _ u q).trans ?_
    rw [pay1_2_apply, zero_add]
    refine (sum_block_eq (fun i => Y1 V c i * Y1 V c i) q (2000 * 0) _ fun r => ?_).trans ?_
    · rw [out1_3_seq V c ⟨0, h⟩ r q]; exact colSeq_mul (Y1 V c) q _
    · exact Finset.sum_congr rfl fun x _ => by rw [Nat.mul_zero, Nat.zero_add]
  | n + 1, h, u, q => by
    refine (pay1_5_apply _ _ _ _ u q).trans ?_
    rw [acc1_5_eq c n (Nat.lt_of_succ_lt h) u q, show 2000 * (n + 1 + 1) = 2000 * (n + 1) + 2000 from by omega, Finset.sum_range_add]
    refine congrArg (_ + ·) ?_
    refine sum_block_eq (fun i => Y1 V c i * Y1 V c i) q (2000 * (n + 1)) _ fun r => ?_
    rw [out1_3_seq V c ⟨n + 1, h⟩ r q]; exact colSeq_mul (Y1 V c) q _

abbrev t1_last : Fin cfg1.N := ⟨49, by rw [show cfg1.N = 50 from N_1]; decide⟩

theorem acc1_4_last (c : Dev nD) : acc1_4 (F := Ideal) V c t1_last.val t1_last.isLt = colSum (Y1 V c) := by
  funext j
  obtain ⟨u, q, rfl⟩ : ∃ (u : Fin 1) (q : Fin 128), j = ix2 u q := ⟨j 0, j 1, eq_ix2 j⟩
  rw [acc1_4_eq V c 49 _ u q]
  exact sum_all_eq (Y1 V c) q

theorem acc1_5_last (c : Dev nD) : acc1_5 (F := Ideal) V c t1_last.val t1_last.isLt = colSum (fun i => Y1 V c i * Y1 V c i) := by
  funext j
  obtain ⟨u, q, rfl⟩ : ∃ (u : Fin 1) (q : Fin 128), j = ix2 u q := ⟨j 0, j 1, eq_ix2 j⟩
  rw [acc1_5_eq V c 49 _ u q]
  exact sum_all_eq (fun i => Y1 V c i * Y1 V c i) q

theorem flushed1_4_eq (c : Dev nD) (t : Fin cfg1.N) (hf : (cfg1.win 4).flush t = true) :
    (dat1 (F := Ideal) V c).flushed 4 t = ((cfg1.win 4).blk t).view.read (Elt Ideal) (colSum (Y1 V c)) := by
  have hN : cfg1.N = 50 := N_1
  have h49 : t.val = 49 := by have := (flush1_4 t).mp hf; have := t.isLt; omega
  obtain rfl : t = t1_last := Fin.ext h49
  show (cfg1.win 4).cut (grid1.coords t1_last) ((dat1 V c).after 4 t1_last) = _
  rw [after1_4, acc1_4_last]
  have hz' : (fun a => win1_4.index t1_last a * main_v137_1.ty.shape.size a) = fun _ => 0 := funext fun a => by fin_cases a <;> decide +kernel
  exact (Memref.read_access_unit_zero (Elt Ideal) main_v137_1 hz' (fun a => by rw [congrFun hz' a]; simp) (colSum (Y1 V c))).symm

theorem flushed1_5_eq (c : Dev nD) (t : Fin cfg1.N) (hf : (cfg1.win 5).flush t = true) :
    (dat1 (F := Ideal) V c).flushed 5 t = ((cfg1.win 5).blk t).view.read (Elt Ideal) (colSum (fun i => Y1 V c i * Y1 V c i)) := by
  have hN : cfg1.N = 50 := N_1
  have h49 : t.val = 49 := by have := (flush1_5 t).mp hf; have := t.isLt; omega
  obtain rfl : t = t1_last := Fin.ext h49
  show (cfg1.win 5).cut (grid1.coords t1_last) ((dat1 V c).after 5 t1_last) = _
  rw [after1_5, acc1_5_last]
  have hz' : (fun a => win1_5.index t1_last a * main_v137_2.ty.shape.size a) = fun _ => 0 := funext fun a => by fin_cases a <;> decide +kernel
  exact (Memref.read_access_unit_zero (Elt Ideal) main_v137_2 hz' (fun a => by rw [congrFun hz' a]; simp) (colSum (fun i => Y1 V c i * Y1 V c i))).symm

theorem arrAt1_4 (c : Dev nD) : (dat1 (F := Ideal) V c).arrAt 4 cfg1.N = colSum (fcY (V c main_v135) (V c main_arg6) (V c main_v136)) :=
  (dat1 (F := Ideal) V c).arrAt_eq_of_cover 4 (colSum (Y1 V c)) (flushed1_4_eq V c) fun i =>
    ⟨t1_last, (flush1_4 t1_last).mpr rfl, by
      show i ∈ ((View.whole main_v137_1).slice (win1_4.rect t1_last)).set
      rw [View.set_slice_whole, Rect.mem_set_unit]
      intro a
      have h0 : (i 0 : Nat) < 1 := (i 0).isLt
      have h1 : (i 1 : Nat) < 128 := (i 1).isLt
      match a with
      | ⟨0, _⟩ => show win1_4.index t1_last 0 * win1_4.size 0 ≤ (i 0 : Nat) ∧ (i 0 : Nat) < win1_4.index t1_last 0 * win1_4.size 0 + win1_4.xsize (grid1.coords t1_last) 0
                  rw [show win1_4.index t1_last 0 * win1_4.size 0 = 0 from by decide +kernel, show win1_4.xsize (grid1.coords t1_last) 0 = 1 from by decide +kernel]; omega
      | ⟨1, _⟩ => show win1_4.index t1_last 1 * win1_4.size 1 ≤ (i 1 : Nat) ∧ (i 1 : Nat) < win1_4.index t1_last 1 * win1_4.size 1 + win1_4.xsize (grid1.coords t1_last) 1
                  rw [show win1_4.index t1_last 1 * win1_4.size 1 = 0 from by decide +kernel, show win1_4.xsize (grid1.coords t1_last) 1 = 128 from by decide +kernel]; omega⟩

theorem arrAt1_5 (c : Dev nD) : (dat1 (F := Ideal) V c).arrAt 5 cfg1.N
    = colSum (fun i => fcY (V c main_v135) (V c main_arg6) (V c main_v136) i * fcY (V c main_v135) (V c main_arg6) (V c main_v136) i) :=
  (dat1 (F := Ideal) V c).arrAt_eq_of_cover 5 (colSum (fun i => Y1 V c i * Y1 V c i)) (flushed1_5_eq V c) fun i =>
    ⟨t1_last, (flush1_5 t1_last).mpr rfl, by
      show i ∈ ((View.whole main_v137_2).slice (win1_5.rect t1_last)).set
      rw [View.set_slice_whole, Rect.mem_set_unit]
      intro a
      have h0 : (i 0 : Nat) < 1 := (i 0).isLt
      have h1 : (i 1 : Nat) < 128 := (i 1).isLt
      match a with
      | ⟨0, _⟩ => show win1_5.index t1_last 0 * win1_5.size 0 ≤ (i 0 : Nat) ∧ (i 0 : Nat) < win1_5.index t1_last 0 * win1_5.size 0 + win1_5.xsize (grid1.coords t1_last) 0
                  rw [show win1_5.index t1_last 0 * win1_5.size 0 = 0 from by decide +kernel, show win1_5.xsize (grid1.coords t1_last) 0 = 1 from by decide +kernel]; omega
      | ⟨1, _⟩ => show win1_5.index t1_last 1 * win1_5.size 1 ≤ (i 1 : Nat) ∧ (i 1 : Nat) < win1_5.index t1_last 1 * win1_5.size 1 + win1_5.xsize (grid1.coords t1_last) 1
                  rw [show win1_5.index t1_last 1 * win1_5.size 1 = 0 from by decide +kernel, show win1_5.xsize (grid1.coords t1_last) 1 = 128 from by decide +kernel]; omega⟩

end Region

end Cert.KernelIdeal.Hand

end
-- ==== Proof.KI.Val2.lean ====
import proofs.«175263_j29738353557973_1_alg».proof.Proof.KI.Reg2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

def bnOut (y : S100000x128.Idx → EReal) (mean var g beta : S1x128.Idx → EReal) : S100000x128.Idx → EReal :=
  fun i => (y i - mean (ix2 0 (i 1))) * Ideal.rsqrt (var (ix2 0 (i 1)) + Ideal.ofBits .f32 0x3727C5AC#32) * g (ix2 0 (i 1)) + beta (ix2 0 (i 1))

theorem pay2_apply (v0 : Vec Ideal S1x128 .f32) (v5 : Vec Ideal S2000x128 .f32) (v7 v13 v17 : Vec Ideal S1x128 .f32)
    (p : Fin 2000) (q : Fin 128) :
    k2_pay1 (F := Ideal) v0 v5 v7 v13 v17 (ix2 p q)
      = (v5 (ix2 p q) - v7 (ix2 0 q)) * Ideal.rsqrt (v0 (ix2 0 q) + Ideal.ofBits .f32 0x3727C5AC#32) * v13 (ix2 0 q) + v17 (ix2 0 q) := by
  have hy : shapeCast S2000x128 v5 shapeCasts_S2000x128_S2000x128 (ix2 p q) = v5 (ix2 p q) :=
    congrFun (shapeCast_self v5 shapeCasts_S2000x128_S2000x128) (ix2 p q)
  have hrow : ∀ (v : Vec Ideal S1x128 .f32),
      broadcastTo S2000x128 (shapeCast S1x128 v shapeCasts_S1x128_S1x128) broadcasts_S1x128_S2000x128 (ix2 p q) = v (ix2 0 q) := fun v =>
    (broadcastTo_1b_ab_apply (shapeCast S1x128 v shapeCasts_S1x128_S1x128) broadcasts_S1x128_S2000x128 p q).trans
      (congrFun (shapeCast_self v shapeCasts_S1x128_S1x128) (ix2 0 q))
  have hinv : broadcastTo S2000x128 (rsqrt (addf (shapeCast S1x128 v0 shapeCasts_S1x128_S1x128) (broadcast S1x128 (Scalar.ofBits (F := Ideal) .f32 0x3727C5AC#32)))) broadcasts_S1x128_S2000x128 (ix2 p q)
      = Ideal.rsqrt (v0 (ix2 0 q) + Ideal.ofBits .f32 0x3727C5AC#32) :=
    (broadcastTo_1b_ab_apply _ broadcasts_S1x128_S2000x128 p q).trans
      (congrArg (fun z : EReal => Ideal.rsqrt (z + Ideal.ofBits .f32 0x3727C5AC#32)) (congrFun (shapeCast_self v0 shapeCasts_S1x128_S1x128) (ix2 0 q)))
  calc k2_pay1 (F := Ideal) v0 v5 v7 v13 v17 (ix2 p q)
      = (shapeCast S2000x128 v5 shapeCasts_S2000x128_S2000x128 (ix2 p q)
            - broadcastTo S2000x128 (shapeCast S1x128 v7 shapeCasts_S1x128_S1x128) broadcasts_S1x128_S2000x128 (ix2 p q))
          * broadcastTo S2000x128 (rsqrt (addf (shapeCast S1x128 v0 shapeCasts_S1x128_S1x128) (broadcast S1x128 (Scalar.ofBits (F := Ideal) .f32 0x3727C5AC#32)))) broadcasts_S1x128_S2000x128 (ix2 p q)
          * broadcastTo S2000x128 (shapeCast S1x128 v13 shapeCasts_S1x128_S1x128) broadcasts_S1x128_S2000x128 (ix2 p q)
          + broadcastTo S2000x128 (shapeCast S1x128 v17 shapeCasts_S1x128_S1x128) broadcasts_S1x128_S2000x128 (ix2 p q) := rfl
    _ = _ := by rw [hy, hrow v7, hinv, hrow v13, hrow v17]

theorem pay2_eq_bnOut (Y : S100000x128.Idx → EReal) (M Vr G B : S1x128.Idx → EReal)
    (x0 : Vec Ideal S2000x128 .f32) (x1 x2 x3 x4 : Vec Ideal S1x128 .f32)
    (j : S2000x128.Idx) (i : S100000x128.Idx)
    (h0 : x0 j = Y i) (hq : (j 1).val = (i 1).val)
    (h1 : x1 = M) (h2 : x2 = Vr) (h3 : x3 = G) (h4 : x4 = B) :
    k2_pay1 (F := Ideal) x2 x0 x1 x3 x4 j = bnOut Y M Vr G B i := by
  subst h1 h2 h3 h4
  obtain ⟨p, q, rfl⟩ : ∃ (p : Fin 2000) (q : Fin 128), j = ix2 p q := ⟨j 0, j 1, eq_ix2 j⟩
  have e : (ix2 (0 : Fin 1) q : S1x128.Idx) = ix2 (0 : Fin 1) (i 1) := by
    funext a
    match a with
    | ⟨0, _⟩ => rfl
    | ⟨1, _⟩ => exact Fin.ext hq
  refine (pay2_apply x2 x0 x1 x3 x4 p q).trans ?_
  unfold bnOut
  rw [h0, e]
  rfl

section Region

variable (V : (c : Dev nD) → (b : Ref sig .tc) → Buf (Elt Ideal) ((c : Thread nD τ).loc b))

theorem hz2 : (![0, 0] : Fin 2 → Nat) = fun _ => 0 := funext fun a => by fin_cases a <;> rfl

theorem idx_facts2 : ∀ t : Fin cfg2.N, win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem iblk2_0_apply (c : Dev nD) (t : Fin cfg2.N) (x : S2000x128.Idx) (k : S100000x128.Idx)
    (hk0 : (k 0).val = 2000 * t.val + (x 0).val) (hk1 : (k 1).val = (x 1).val) :
    (iblk2 V c 0 t : Vec Ideal S2000x128 .f32) x = (V c main_v137_0 : S100000x128.Idx → EReal) k := by
  obtain ⟨h0, h1, -⟩ := idx_facts2 t
  unfold iblk2
  rw [View.read_apply]
  show V c main_v137_0 _ = V c main_v137_0 _
  refine congrArg (V c main_v137_0) ?_
  funext a
  apply Fin.ext
  match a with
  | ⟨0, _⟩ => show win2_0.index t (0 : Fin 2) * 2000 + 1 * (x 0).val = (k 0).val; rw [h0, hk0]; omega
  | ⟨1, _⟩ => show win2_0.index t (1 : Fin 2) * 128 + 1 * (x 1).val = (k 1).val; rw [h1, hk1]; omega

theorem iblk2_1_eq (c : Dev nD) (t : Fin cfg2.N) :
    (iblk2 V c 1 t : Vec Ideal S1x128 .f32) = (V c main_v146 : S1x128.Idx → EReal) := by
  obtain ⟨-, -, -, -, h0, h1, -⟩ := idx_facts2 t
  funext x
  unfold iblk2
  rw [View.read_apply]
  show V c main_v146 _ = V c main_v146 _
  refine congrArg (V c main_v146) ?_
  funext a
  apply Fin.ext
  match a with
  | ⟨0, _⟩ => show win2_1.index t (0 : Fin 2) * 1 + 1 * (x 0).val = (x 0).val; rw [h0]; omega
  | ⟨1, _⟩ => show win2_1.index t (1 : Fin 2) * 128 + 1 * (x 1).val = (x 1).val; rw [h1]; omega
theorem iblk2_2_eq (c : Dev nD) (t : Fin cfg2.N) :
    (iblk2 V c 2 t : Vec Ideal S1x128 .f32) = (V c main_v147 : S1x128.Idx → EReal) := by
  obtain ⟨-, -, -, -, -, -, h0, h1, -⟩ := idx_facts2 t
  funext x
  unfold iblk2
  rw [View.read_apply]
  show V c main_v147 _ = V c main_v147 _
  refine congrArg (V c main_v147) ?_
  funext a
  apply Fin.ext
  match a with
  | ⟨0, _⟩ => show win2_2.index t (0 : Fin 2) * 1 + 1 * (x 0).val = (x 0).val; rw [h0]; omega
  | ⟨1, _⟩ => show win2_2.index t (1 : Fin 2) * 128 + 1 * (x 1).val = (x 1).val; rw [h1]; omega
theorem iblk2_3_eq (c : Dev nD) (t : Fin cfg2.N) :
    (iblk2 V c 3 t : Vec Ideal S1x128 .f32) = (V c main_v148 : S1x128.Idx → EReal) := by
  obtain ⟨-, -, -, -, -, -, -, -, h0, h1, -⟩ := idx_facts2 t
  funext x
  unfold iblk2
  rw [View.read_apply]
  show V c main_v148 _ = V c main_v148 _
  refine congrArg (V c main_v148) ?_
  funext a
  apply Fin.ext
  match a with
  | ⟨0, _⟩ => show win2_3.index t (0 : Fin 2) * 1 + 1 * (x 0).val = (x 0).val; rw [h0]; omega
  | ⟨1, _⟩ => show win2_3.index t (1 : Fin 2) * 128 + 1 * (x 1).val = (x 1).val; rw [h1]; omega
theorem iblk2_4_eq (c : Dev nD) (t : Fin cfg2.N) :
    (iblk2 V c 4 t : Vec Ideal S1x128 .f32) = (V c main_v149 : S1x128.Idx → EReal) := by
  obtain ⟨-, -, -, -, -, -, -, -, -, -, h0, h1⟩ := idx_facts2 t
  funext x
  unfold iblk2
  rw [View.read_apply]
  show V c main_v149 _ = V c main_v149 _
  refine congrArg (V c main_v149) ?_
  funext a
  apply Fin.ext
  match a with
  | ⟨0, _⟩ => show win2_4.index t (0 : Fin 2) * 1 + 1 * (x 0).val = (x 0).val; rw [h0]; omega
  | ⟨1, _⟩ => show win2_4.index t (1 : Fin 2) * 128 + 1 * (x 1).val = (x 1).val; rw [h1]; omega

theorem flushed2_5_eq (c : Dev nD) (t : Fin cfg2.N) :
    (dat2 (F := Ideal) V c).flushed 5 t = ((cfg2.win 5).blk t).view.read (Elt Ideal)
      (bnOut (V c main_v137_0) (V c main_v146) (V c main_v147) (V c main_v148) (V c main_v149)) := by
  show (cfg2.win 5).cut (grid2.coords t) ((dat2 V c).after 5 t) = _
  rw [after2_5]
  unfold out2_5
  rw [View.canon_unit_zero hz2]
  simp only [View.ld_unit_zero (S := S2000x128) hz2, View.ld_unit_zero (S := S1x128) hz2]
  obtain ⟨-, -, e0, e1, -⟩ := idx_facts2 t
  funext j
  show k2_pay1 (F := Ideal) (iblk2 V c 2 t) (iblk2 V c 0 t) (iblk2 V c 1 t) (iblk2 V c 3 t) (iblk2 V c 4 t) j
    = bnOut (V c main_v137_0) (V c main_v146) (V c main_v147) (V c main_v148) (V c main_v149) (((cfg2.win 5).blk t).view.emb j)
  have hj0 : (j 0).val < 2000 := (j 0).isLt
  have hj1 : (j 1).val < 128 := (j 1).isLt
  have r0 : ((((cfg2.win 5).blk t).view.emb j) 0).val = 2000 * t.val + (j 0).val := by
    show win2_5.index t (0 : Fin 2) * 2000 + 1 * (j 0).val = _; rw [e0]; omega
  have r1 : ((((cfg2.win 5).blk t).view.emb j) 1).val = (j 1).val := by
    show win2_5.index t (1 : Fin 2) * 128 + 1 * (j 1).val = _; rw [e1]; omega
  exact pay2_eq_bnOut (V c main_v137_0) (V c main_v146) (V c main_v147) (V c main_v148) (V c main_v149)
    (iblk2 V c 0 t) (iblk2 V c 1 t) (iblk2 V c 2 t) (iblk2 V c 3 t) (iblk2 V c 4 t) j (((cfg2.win 5).blk t).view.emb j)
    (iblk2_0_apply V c t j _ r0 r1) r1.symm (iblk2_1_eq V c t) (iblk2_2_eq V c t) (iblk2_3_eq V c t) (iblk2_4_eq V c t)

theorem mem_blk2_5 (t : Fin cfg2.N) (i : S100000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v150).slice (win2_5.rect t)).set ↔ _
  rw [View.set_slice_whole, Rect.mem_set_unit]
  exact Iff.rfl

theorem covered2_5 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have ht : (i 0).val / 2000 < cfg2.N := by rw [show cfg2.N = 50 from N_2]; omega
  obtain ⟨-, -, e0, e1, -⟩ := idx_facts2 ⟨(i 0).val / 2000, ht⟩
  have e0' : win2_5.index ⟨(i 0).val / 2000, ht⟩ (0 : Fin 2) = (i 0).val / 2000 := e0
  refine ⟨⟨(i 0).val / 2000, ht⟩, flush2_5 _, ?_⟩
  rw [mem_blk2_5]
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [e0']; omega
  | ⟨1, _⟩ =>
    show win2_5.index ⟨(i 0).val / 2000, ht⟩ (1 : Fin 2) * 128 ≤ (i 1).val ∧ (i 1).val < win2_5.index ⟨(i 0).val / 2000, ht⟩ (1 : Fin 2) * 128 + 128
    rw [e1]; omega

theorem arrAt2_5 (c : Dev nD) : (dat2 (F := Ideal) V c).arrAt 5 cfg2.N
    = bnOut (V c main_v137_0) (V c main_v146) (V c main_v147) (V c main_v148) (V c main_v149) :=
  (dat2 (F := Ideal) V c).arrAt_eq_of_cover 5 (bnOut (V c main_v137_0) (V c main_v146) (V c main_v147) (V c main_v148) (V c main_v149))
    (fun t _ => flushed2_5_eq V c t) covered2_5

end Region

end Cert.KernelIdeal.Hand

end
-- ==== Proof.KI.Val3.lean ====
import proofs.«175263_j29738353557973_1_alg».proof.Proof.KI.Reg3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

def projFull3 (x : S100000x128.Idx → EReal) (w : S128x384.Idx → EReal) (s : S100000x3.Idx → EReal) : S100000x384.Idx → EReal :=
  fun i => (∑ k : Fin 128, x (ix2 (i 0) k) * w (ix2 k (i 1))) * s (ix2 (i 0) ⟨(i 1).val / 128, by have := idx2_lt1 i; omega⟩)

def projBlk3 (x0 : S2000x128.Idx → EReal) (x1 : S128x384.Idx → EReal) (x2 : S2000x3.Idx → EReal) : S2000x384.Idx → EReal :=
  fun y => (∑ k : Fin 128, x0 (ix2 (y 0) k) * x1 (ix2 k (y 1))) * x2 (ix2 (y 0) ⟨(y 1).val / 128, by have := idx2_lt1 y; omega⟩)

theorem projBlk_ix23 (x0 : S2000x128.Idx → EReal) (x1 : S128x384.Idx → EReal) (x2 : S2000x3.Idx → EReal)
    (a : Fin 2000) (b : Fin 384) (g : Fin 3) (hg : b.val / 128 = g.val) :
    projBlk3 x0 x1 x2 (ix2 a b) = (∑ k : Fin 128, x0 (ix2 a k) * x1 (ix2 k b)) * x2 (ix2 a g) := by
  obtain ⟨gv, hgv⟩ := g
  have e : gv = b.val / 128 := hg.symm
  subst e
  rfl

theorem hz3 : (![0, 0] : Fin 2 → Nat) = fun _ => 0 := funext fun a => by fin_cases a <;> rfl

theorem lhs_dot3_0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl
theorem lhs_dot3_1 (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q
theorem rhs_dot3_0 (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q
theorem rhs_dot3_1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

theorem prod3_apply (x0 : Vec Ideal S2000x128 .f32) (x1 : Vec Ideal S128x384 .f32) (p : Fin 2000) (j : Fin 384) :
    k3_pay1 (F := Ideal) x0 x1 (ix2 p j) = ∑ k : Fin 128, x0 (ix2 p k) * x1 (ix2 k j) := by
  show matmul dot_S2000x128_S128x384_S2000x384_1_0_0_1_n_n none (truncf .bf16 (shapeCast S2000x128 x0 shapeCasts_S2000x128_S2000x128) bitsLt_bf16_f32) (truncf .bf16 (shapeCast S128x384 x1 shapeCasts_S128x384_S128x384) bitsLt_bf16_f32) (constant (F := Ideal) S2000x384 .f32 0x00000000#32) (ix2 p j) = _
  simp only [matmul]
  rw [Ideal.matmul_constant_zero_apply, ← Equiv.sum_comp (contrEquiv1 dot_S2000x128_S128x384_S2000x384_1_0_0_1_n_n 128 rfl rfl).symm]
  refine Finset.sum_congr rfl fun k _ => ?_
  have hk := contrEquiv1_symm_val dot_S2000x128_S128x384_S2000x384_1_0_0_1_n_n 128 rfl rfl k
  have el : dot_S2000x128_S128x384_S2000x384_1_0_0_1_n_n.lhsIdx (ix2 p j) ((contrEquiv1 dot_S2000x128_S128x384_S2000x384_1_0_0_1_n_n 128 rfl rfl).symm k) = ix2 p k := funext fun a => Fin.ext (by
    match a with
    | ⟨0, _⟩ => exact lhs_dot3_0 _ _
    | ⟨1, _⟩ => exact (lhs_dot3_1 _ _).trans hk)
  have er : dot_S2000x128_S128x384_S2000x384_1_0_0_1_n_n.rhsIdx (ix2 p j) ((contrEquiv1 dot_S2000x128_S128x384_S2000x384_1_0_0_1_n_n 128 rfl rfl).symm k) = ix2 k j := funext fun a => Fin.ext (by
    match a with
    | ⟨0, _⟩ => exact (rhs_dot3_0 _ _).trans hk
    | ⟨1, _⟩ => exact rhs_dot3_1 _ _)
  rw [el, er, truncf_apply, truncf_apply, shapeCast_self, shapeCast_self]

theorem slice3_cols (off : ℕ) (hoff : off + 128 ≤ 384) (h : S2000x384.Slices ![0, off] S2000x128) (y : FVec Ideal S2000x384 .f32)
    (p : Fin 2000) (q : Fin 128) :
    extractStridedSlice S2000x128 ![0, off] y h (ix2 p q) = y (ix2 p ⟨off + q.val, by omega⟩) :=
  extractStridedSlice_apply _ _ _ _ _ fun a => by
    match a with
    | ⟨0, _⟩ => show (p : ℕ) = 0 + (p : ℕ); omega
    | ⟨1, _⟩ => rfl

theorem slice3_scale (g : ℕ) (hg : g < 3) (h : S2000x3.Slices ![0, g] S2000x1) (y : FVec Ideal S2000x3 .f32)
    (p : Fin 2000) (z : Fin 1) :
    extractStridedSlice S2000x1 ![0, g] y h (ix2 p z) = y (ix2 p ⟨g, hg⟩) :=
  extractStridedSlice_apply _ _ _ _ _ fun a => by
    match a with
    | ⟨0, _⟩ => show (p : ℕ) = 0 + (p : ℕ); omega
    | ⟨1, _⟩ => show g = g + (z : ℕ); omega

theorem bcast3_col (y : FVec Ideal S2000x1 .f32) (p : Fin 2000) (q : Fin 128) :
    broadcastTo S2000x128 y broadcasts_S2000x1_S2000x128 (ix2 p q) = y (ix2 p ⟨0, by decide⟩) :=
  broadcastTo_apply _ _ _ _ fun a => by
    match a with
    | ⟨0, _⟩ => rfl
    | ⟨1, _⟩ => rfl

theorem pay3_3_apply (x0 : Vec Ideal S2000x128 .f32) (x1 : Vec Ideal S128x384 .f32) (x2 : Vec Ideal S2000x3 .f32) (p : Fin 2000) (q : Fin 128) :
    k3_pay3 (F := Ideal) x0 x1 x2 (ix2 p q)
      = (∑ k : Fin 128, x0 (ix2 p k) * x1 (ix2 k ⟨0 + q.val, by omega⟩)) * x2 (ix2 p ⟨0, by decide⟩) := by
  show mulf (extractStridedSlice S2000x128 ![0, 0] (k3_pay1 (F := Ideal) x0 x1) slices_S2000x384_o0_0_S2000x128)
      (broadcastTo S2000x128 (extractStridedSlice S2000x1 ![0, 0] (shapeCast S2000x3 x2 shapeCasts_S2000x3_S2000x3) slices_S2000x3_o0_0_S2000x1) broadcasts_S2000x1_S2000x128) (ix2 p q) = _
  rw [mulf_apply, slice3_cols 0 (by omega), bcast3_col, slice3_scale 0 (by decide), prod3_apply, shapeCast_self]

theorem pay3_4_apply (x0 : Vec Ideal S2000x128 .f32) (x1 : Vec Ideal S128x384 .f32) (x2 : Vec Ideal S2000x3 .f32) (p : Fin 2000) (q : Fin 128) :
    k3_pay4 (F := Ideal) x0 x1 x2 (ix2 p q)
      = (∑ k : Fin 128, x0 (ix2 p k) * x1 (ix2 k ⟨128 + q.val, by omega⟩)) * x2 (ix2 p ⟨1, by decide⟩) := by
  show mulf (extractStridedSlice S2000x128 ![0, 128] (k3_pay1 (F := Ideal) x0 x1) slices_S2000x384_o0_128_S2000x128)
      (broadcastTo S2000x128 (extractStridedSlice S2000x1 ![0, 1] (shapeCast S2000x3 x2 shapeCasts_S2000x3_S2000x3) slices_S2000x3_o0_1_S2000x1) broadcasts_S2000x1_S2000x128) (ix2 p q) = _
  rw [mulf_apply, slice3_cols 128 (by omega), bcast3_col, slice3_scale 1 (by decide), prod3_apply, shapeCast_self]

theorem pay3_5_apply (x0 : Vec Ideal S2000x128 .f32) (x1 : Vec Ideal S128x384 .f32) (x2 : Vec Ideal S2000x3 .f32) (p : Fin 2000) (q : Fin 128) :
    k3_pay5 (F := Ideal) x0 x1 x2 (ix2 p q)
      = (∑ k : Fin 128, x0 (ix2 p k) * x1 (ix2 k ⟨256 + q.val, by omega⟩)) * x2 (ix2 p ⟨2, by decide⟩) := by
  show mulf (extractStridedSlice S2000x128 ![0, 256] (k3_pay1 (F := Ideal) x0 x1) slices_S2000x384_o0_256_S2000x128)
      (broadcastTo S2000x128 (extractStridedSlice S2000x1 ![0, 2] (shapeCast S2000x3 x2 shapeCasts_S2000x3_S2000x3) slices_S2000x3_o0_2_S2000x1) broadcasts_S2000x1_S2000x128) (ix2 p q) = _
  rw [mulf_apply, slice3_cols 256 (by omega), bcast3_col, slice3_scale 2 (by decide), prod3_apply, shapeCast_self]

theorem piece3_3 (x0 : Vec Ideal S2000x128 .f32) (x1 : Vec Ideal S128x384 .f32) (x2 : Vec Ideal S2000x3 .f32) (x : S2000x128.Idx) :
    k3_pay3 (F := Ideal) x0 x1 x2 x = projBlk3 x0 x1 x2 (r3_3.emb x) := by
  obtain ⟨p, q, rfl⟩ : ∃ (p : Fin 2000) (q : Fin 128), x = ix2 p q := ⟨x 0, x 1, eq_ix2 x⟩
  have he : r3_3.emb (ix2 p q) = ix2 p ⟨0 + q.val, by omega⟩ := funext fun a => Fin.ext (by
    match a with
    | ⟨0, _⟩ => show 0 + 1 * (p : ℕ) = (p : ℕ); omega
    | ⟨1, _⟩ => show 0 + 1 * (q : ℕ) = 0 + (q : ℕ); omega)
  rw [pay3_3_apply, he, projBlk_ix23 x0 x1 x2 p ⟨0 + q.val, by omega⟩ ⟨0, by decide⟩ (by show (0 + q.val) / 128 = 0; omega)]

theorem piece3_4 (x0 : Vec Ideal S2000x128 .f32) (x1 : Vec Ideal S128x384 .f32) (x2 : Vec Ideal S2000x3 .f32) (x : S2000x128.Idx) :
    k3_pay4 (F := Ideal) x0 x1 x2 x = projBlk3 x0 x1 x2 (r3_4.emb x) := by
  obtain ⟨p, q, rfl⟩ : ∃ (p : Fin 2000) (q : Fin 128), x = ix2 p q := ⟨x 0, x 1, eq_ix2 x⟩
  have he : r3_4.emb (ix2 p q) = ix2 p ⟨128 + q.val, by omega⟩ := funext fun a => Fin.ext (by
    match a with
    | ⟨0, _⟩ => show 0 + 1 * (p : ℕ) = (p : ℕ); omega
    | ⟨1, _⟩ => show 128 + 1 * (q : ℕ) = 128 + (q : ℕ); omega)
  rw [pay3_4_apply, he, projBlk_ix23 x0 x1 x2 p ⟨128 + q.val, by omega⟩ ⟨1, by decide⟩ (by show (128 + q.val) / 128 = 1; omega)]

theorem piece3_5 (x0 : Vec Ideal S2000x128 .f32) (x1 : Vec Ideal S128x384 .f32) (x2 : Vec Ideal S2000x3 .f32) (x : S2000x128.Idx) :
    k3_pay5 (F := Ideal) x0 x1 x2 x = projBlk3 x0 x1 x2 (r3_5.emb x) := by
  obtain ⟨p, q, rfl⟩ : ∃ (p : Fin 2000) (q : Fin 128), x = ix2 p q := ⟨x 0, x 1, eq_ix2 x⟩
  have he : r3_5.emb (ix2 p q) = ix2 p ⟨256 + q.val, by omega⟩ := funext fun a => Fin.ext (by
    match a with
    | ⟨0, _⟩ => show 0 + 1 * (p : ℕ) = (p : ℕ); omega
    | ⟨1, _⟩ => show 256 + 1 * (q : ℕ) = 256 + (q : ℕ); omega)
  rw [pay3_5_apply, he, projBlk_ix23 x0 x1 x2 p ⟨256 + q.val, by omega⟩ ⟨2, by decide⟩ (by show (256 + q.val) / 128 = 2; omega)]

theorem out3_3_eq (x0 : Vec Ideal S2000x128 .f32) (x1 : Vec Ideal S128x384 .f32) (x2 : Vec Ideal S2000x3 .f32) :
    out3_3 (F := Ideal) x0 x1 x2 = projBlk3 x0 x1 x2 := by
  funext y
  unfold out3_3
  simp only [View.ld_unit_zero (S := S2000x128) hz3, View.ld_unit_zero (S := S128x384) hz3, View.ld_unit_zero (S := S2000x3) hz3]
  refine View.canon_apply_of_pieces (Val := Elt Ideal) (e := .f32) (projBlk3 x0 x1 x2) _ ?_ y (cover3_3 _ _ _ y)
  intro pc hpc
  simp only [List.mem_cons, List.mem_nil_iff, or_false] at hpc
  rcases hpc with rfl | rfl | rfl
  · exact fun x => piece3_5 x0 x1 x2 x
  · exact fun x => piece3_4 x0 x1 x2 x
  · exact fun x => piece3_3 x0 x1 x2 x

theorem projBlk_eq_projFull_ix3 (X : S100000x128.Idx → EReal) (W : S128x384.Idx → EReal) (S : S100000x3.Idx → EReal)
    (x0 : S2000x128.Idx → EReal) (x1 : S128x384.Idx → EReal) (x2 : S2000x3.Idx → EReal) (n : ℕ)
    (h0 : ∀ (p : Fin 2000) (k : Fin 128) (r : Fin 100000), r.val = n * 2000 + p.val → x0 (ix2 p k) = X (ix2 r k))
    (h1 : ∀ (k : Fin 128) (j : Fin 384), x1 (ix2 k j) = W (ix2 k j))
    (h2 : ∀ (p : Fin 2000) (g : Fin 3) (r : Fin 100000), r.val = n * 2000 + p.val → x2 (ix2 p g) = S (ix2 r g))
    (p : Fin 2000) (q : Fin 384) (r : Fin 100000) (hr : r.val = n * 2000 + p.val) :
    projBlk3 x0 x1 x2 (ix2 p q) = projFull3 X W S (ix2 r q) := by
  have hb : q.val / 128 < 3 := by have := q.isLt; omega
  show (∑ k : Fin 128, x0 (ix2 p k) * x1 (ix2 k q)) * x2 (ix2 p ⟨q.val / 128, hb⟩)
      = (∑ k : Fin 128, X (ix2 r k) * W (ix2 k q)) * S (ix2 r ⟨q.val / 128, hb⟩)
  rw [h2 p ⟨q.val / 128, hb⟩ r hr]
  exact congrArg (fun z => z * S (ix2 r ⟨q.val / 128, hb⟩)) (Finset.sum_congr rfl fun k _ => by rw [h0 p k r hr, h1 k q])

theorem projBlk_eq_projFull3 (X : S100000x128.Idx → EReal) (W : S128x384.Idx → EReal) (S : S100000x3.Idx → EReal)
    (x0 : S2000x128.Idx → EReal) (x1 : S128x384.Idx → EReal) (x2 : S2000x3.Idx → EReal) (n : ℕ)
    (h0 : ∀ (p : Fin 2000) (k : Fin 128) (r : Fin 100000), r.val = n * 2000 + p.val → x0 (ix2 p k) = X (ix2 r k))
    (h1 : ∀ (k : Fin 128) (j : Fin 384), x1 (ix2 k j) = W (ix2 k j))
    (h2 : ∀ (p : Fin 2000) (g : Fin 3) (r : Fin 100000), r.val = n * 2000 + p.val → x2 (ix2 p g) = S (ix2 r g))
    (j : S2000x384.Idx) (i : S100000x384.Idx) (hi0 : (i 0).val = n * 2000 + (j 0).val) (hi1 : (i 1).val = (j 1).val) :
    projBlk3 x0 x1 x2 j = projFull3 X W S i := by
  obtain ⟨p, q, rfl⟩ : ∃ (p : Fin 2000) (q : Fin 384), j = ix2 p q := ⟨j 0, j 1, eq_ix2 j⟩
  obtain ⟨r, b, rfl⟩ : ∃ (r : Fin 100000) (b : Fin 384), i = ix2 r b := ⟨i 0, i 1, eq_ix2 i⟩
  have hbq : b = q := Fin.ext hi1
  rw [hbq]
  exact projBlk_eq_projFull_ix3 X W S x0 x1 x2 n h0 h1 h2 p q r hi0

variable (V : (c : Dev nD) → (b : Ref sig .tc) → Buf (Elt Ideal) ((c : Thread nD τ).loc b))

theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

theorem iblk3_0_apply (c : Dev nD) (t : Fin cfg3.N) (p : Fin 2000) (k : Fin 128) (r : Fin 100000) (hr : r.val = t.val * 2000 + p.val) :
    (iblk3 V c 0 t : S2000x128.Idx → EReal) (ix2 p k) = (V c main_v150 : S100000x128.Idx → EReal) (ix2 r k) := by
  obtain ⟨e00, e01, -⟩ := idx_facts3 t
  show V c main_v150 (((cfg3.win 0).blk t).view.emb (ix2 p k)) = V c main_v150 (ix2 r k)
  refine congrArg (V c main_v150) (funext fun a => Fin.ext ?_)
  match a with
  | ⟨0, _⟩ => show win3_0.index t (0 : Fin 2) * 2000 + 1 * (p : ℕ) = (r : ℕ); rw [e00, hr]; omega
  | ⟨1, _⟩ => show win3_0.index t (1 : Fin 2) * 128 + 1 * (k : ℕ) = (k : ℕ); rw [e01]; omega

theorem iblk3_1_apply (c : Dev nD) (t : Fin cfg3.N) (k : Fin 128) (j : Fin 384) :
    (iblk3 V c 1 t : S128x384.Idx → EReal) (ix2 k j) = (V c main_v157 : S128x384.Idx → EReal) (ix2 k j) := by
  obtain ⟨-, -, e10, e11, -⟩ := idx_facts3 t
  show V c main_v157 (((cfg3.win 1).blk t).view.emb (ix2 k j)) = V c main_v157 (ix2 k j)
  refine congrArg (V c main_v157) (funext fun a => Fin.ext ?_)
  match a with
  | ⟨0, _⟩ => show win3_1.index t (0 : Fin 2) * 128 + 1 * (k : ℕ) = (k : ℕ); rw [e10]; omega
  | ⟨1, _⟩ => show win3_1.index t (1 : Fin 2) * 384 + 1 * (j : ℕ) = (j : ℕ); rw [e11]; omega

theorem iblk3_2_apply (c : Dev nD) (t : Fin cfg3.N) (p : Fin 2000) (g : Fin 3) (r : Fin 100000) (hr : r.val = t.val * 2000 + p.val) :
    (iblk3 V c 2 t : S2000x3.Idx → EReal) (ix2 p g) = (V c main_v54 : S100000x3.Idx → EReal) (ix2 r g) := by
  obtain ⟨-, -, -, -, e20, e21, -⟩ := idx_facts3 t
  show V c main_v54 (((cfg3.win 2).blk t).view.emb (ix2 p g)) = V c main_v54 (ix2 r g)
  refine congrArg (V c main_v54) (funext fun a => Fin.ext ?_)
  match a with
  | ⟨0, _⟩ => show win3_2.index t (0 : Fin 2) * 2000 + 1 * (p : ℕ) = (r : ℕ); rw [e20, hr]; omega
  | ⟨1, _⟩ => show win3_2.index t (1 : Fin 2) * 3 + 1 * (g : ℕ) = (g : ℕ); rw [e21]; omega

theorem flushed3_3_eq (c : Dev nD) (t : Fin cfg3.N) :
    (dat3 (F := Ideal) V c).flushed 3 t
      = ((cfg3.win 3).blk t).view.read (Elt Ideal) (projFull3 (V c main_v150) (V c main_v157) (V c main_v54)) := by
  show (cfg3.win 3).cut (grid3.coords t) ((dat3 V c).after 3 t) = _
  rw [after3_3, out3_3_eq (iblk3 V c 0 t) (iblk3 V c 1 t) (iblk3 V c 2 t)]
  obtain ⟨-, -, -, -, -, -, e30, e31⟩ := idx_facts3 t
  funext j
  show projBlk3 (iblk3 V c 0 t) (iblk3 V c 1 t) (iblk3 V c 2 t) j
      = projFull3 (V c main_v150) (V c main_v157) (V c main_v54) (((cfg3.win 3).blk t).view.emb j)
  refine projBlk_eq_projFull3 (V c main_v150) (V c main_v157) (V c main_v54) (iblk3 V c 0 t) (iblk3 V c 1 t) (iblk3 V c 2 t) t.val
    (fun p k r hr => iblk3_0_apply V c t p k r hr) (fun k j => iblk3_1_apply V c t k j)
    (fun p g r hr => iblk3_2_apply V c t p g r hr) j _ ?_ ?_
  · show win3_3.index t (0 : Fin 2) * 2000 + 1 * (j 0).val = t.val * 2000 + (j 0).val
    rw [e30]; omega
  · show win3_3.index t (1 : Fin 2) * 384 + 1 * (j 1).val = (j 1).val
    rw [e31]; omega

theorem mem_blk3_3 (t : Fin cfg3.N) (i : S100000x384.Idx) :
    i ∈ ((cfg3.win 3).blk t).view.set ↔ ∀ a : Fin 2, win3_3.index t a * S2000x384.size a ≤ (i a).val
      ∧ (i a).val < win3_3.index t a * S2000x384.size a + S2000x384.size a := by
  show i ∈ ((View.whole main_v158).slice (win3_3.rect t)).set ↔ _
  rw [View.set_slice_whole, Rect.mem_set_unit]
  exact Iff.rfl

theorem cover_arr3_3 (i : S100000x384.Idx) :
    ∃ t : Fin cfg3.N, (cfg3.win 3).flush t = true ∧ i ∈ ((cfg3.win 3).blk t).view.set := by
  have hi0 : (i 0).val < 100000 := idx2_lt0 i
  have hi1 : (i 1).val < 384 := idx2_lt1 i
  have hN : grid3.N = 50 := N_3
  obtain ⟨t, ht⟩ : ∃ t : Fin cfg3.N, t.val = (i 0).val / 2000 :=
    ⟨⟨(i 0).val / 2000, by show (i 0).val / 2000 < grid3.N; rw [hN]; omega⟩, rfl⟩
  obtain ⟨-, -, -, -, -, -, e30, e31⟩ := idx_facts3 t
  refine ⟨t, flush3_3 t, ?_⟩
  rw [mem_blk3_3]
  intro a
  match a with
  | ⟨0, _⟩ =>
    show win3_3.index t (0 : Fin 2) * 2000 ≤ (i 0).val ∧ (i 0).val < win3_3.index t (0 : Fin 2) * 2000 + 2000
    rw [e30, ht]; omega
  | ⟨1, _⟩ =>
    show win3_3.index t (1 : Fin 2) * 384 ≤ (i 1).val ∧ (i 1).val < win3_3.index t (1 : Fin 2) * 384 + 384
    rw [e31]; omega

theorem arrAt3_3 (c : Dev nD) :
    (dat3 (F := Ideal) V c).arrAt 3 cfg3.N = projFull3 (V c main_v150) (V c main_v157) (V c main_v54) :=
  (dat3 V c).arrAt_eq_of_cover 3 (projFull3 (V c main_v150) (V c main_v157) (V c main_v54))
    (fun t _ => flushed3_3_eq V c t) cover_arr3_3

end Cert.KernelIdeal.Hand

end
-- ==== Proof.KI.Val4.lean ====
import proofs.«175263_j29738353557973_1_alg».proof.Proof.KI.Reg4
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

def fcY4 (h : S100000x128.Idx → EReal) (w : S128x128.Idx → EReal) (b : S1x128.Idx → EReal) : S100000x128.Idx → EReal :=
  fun i => max ((∑ k : Fin 128, h (ix2 (i 0) k) * w (ix2 k (i 1))) + b (ix2 0 (i 1))) 0

def colSum4 (y : S100000x128.Idx → EReal) : S1x128.Idx → EReal := fun j => ∑ r : Fin 100000, y (ix2 r (j 1))

theorem lhs_mm4_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mm4_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_mm4_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mm4_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem mm4_apply {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  show FloatOps.matmul dot_S2000x128_S128x128_S2000x128_1_0_0_1_n_n none l r (constant (F := Ideal) S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_mm4_0 _ _
    | ⟨1, _⟩ => exact (lhs_mm4_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_mm4_0 _ _).trans hk
    | ⟨1, _⟩ => exact rhs_mm4_1 _ _)
  rw [el, er]

theorem pay4_1_apply (j : S1x128.Idx) : k4_pay1 (F := Ideal) j = 0 := Ideal.ofBits_zero_f32
theorem pay4_2_apply (j : S1x128.Idx) : k4_pay2 (F := Ideal) j = 0 := Ideal.ofBits_zero_f32

theorem pay4_3_apply (x0 : Vec Ideal S2000x128 .f32) (x1 : Vec Ideal S128x128 .f32) (x2 : Vec Ideal S1x128 .f32)
    (p : Fin 2000) (q : Fin 128) :
    k4_pay3 (F := Ideal) x0 x1 x2 (ix2 p q) = max ((∑ k : Fin 128, x0 (ix2 p k) * x1 (ix2 k q)) + x2 (ix2 0 q)) 0 := by
  have hmm : matmul dot_S2000x128_S128x128_S2000x128_1_0_0_1_n_n none
        (truncf .bf16 (shapeCast S2000x128 x0 shapeCasts_S2000x128_S2000x128) bitsLt_bf16_f32) (truncf .bf16 x1 bitsLt_bf16_f32)
        (constant (F := Ideal) S2000x128 .f32 0x00000000#32) (ix2 p q)
      = ∑ k : Fin 128, x0 (ix2 p k) * x1 (ix2 k q) := by
    refine (mm4_apply _ _ p q).trans ?_
    refine Finset.sum_congr rfl fun k _ => ?_
    show shapeCast S2000x128 x0 shapeCasts_S2000x128_S2000x128 (ix2 p k) * x1 (ix2 k q) = _
    rw [shapeCast_self]
  have hb : broadcastTo S2000x128 (shapeCast S1x128 x2 shapeCasts_S1x128_S1x128) broadcasts_S1x128_S2000x128 (ix2 p q) = x2 (ix2 0 q) :=
    (broadcastTo_1b_ab_apply (shapeCast S1x128 x2 shapeCasts_S1x128_S1x128) broadcasts_S1x128_S2000x128 p q).trans
      (congrFun (shapeCast_self x2 shapeCasts_S1x128_S1x128) (ix2 0 q))
  have hzero : (Scalar.ofBits (F := Ideal) .f32 0x00000000#32 : Ideal .f32) = 0 := Ideal.ofBits_zero_f32
  calc k4_pay3 (F := Ideal) x0 x1 x2 (ix2 p q)
      = max (matmul dot_S2000x128_S128x128_S2000x128_1_0_0_1_n_n none
              (truncf .bf16 (shapeCast S2000x128 x0 shapeCasts_S2000x128_S2000x128) bitsLt_bf16_f32) (truncf .bf16 x1 bitsLt_bf16_f32)
              (constant (F := Ideal) S2000x128 .f32 0x00000000#32) (ix2 p q)
            + broadcastTo S2000x128 (shapeCast S1x128 x2 shapeCasts_S1x128_S1x128) broadcasts_S1x128_S2000x128 (ix2 p q))
          (Scalar.ofBits (F := Ideal) .f32 0x00000000#32) := rfl
    _ = _ := by rw [hmm, hb, hzero]

theorem pay4_3_eq_fcY (H : S100000x128.Idx → EReal) (W : S128x128.Idx → EReal) (Bv : S1x128.Idx → EReal)
    (x0 : Vec Ideal S2000x128 .f32) (x1 : Vec Ideal S128x128 .f32) (x2 : Vec Ideal S1x128 .f32)
    (j : S2000x128.Idx) (i : S100000x128.Idx)
    (h0 : ∀ k : Fin 128, x0 (ix2 (j 0) k) = H (ix2 (i 0) k)) (hq : (j 1).val = (i 1).val) (h1 : x1 = W) (h2 : x2 = Bv) :
    k4_pay3 (F := Ideal) x0 x1 x2 j = fcY4 H W Bv i := by
  subst h1 h2
  obtain ⟨p, q, rfl⟩ : ∃ (p : Fin 2000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q = q' := Fin.ext hq
  refine (pay4_3_apply x0 x1 x2 p q).trans ?_
  have hs : (∑ k : Fin 128, x0 (ix2 p k) * x1 (ix2 k q)) = ∑ k : Fin 128, H (ix2 r k) * x1 (ix2 k q) :=
    Finset.sum_congr rfl fun k _ => congrArg (· * x1 (ix2 k q)) (h0 k)
  rw [hs]
  rfl

section Region

variable (V : (c : Dev nD) → (b : Ref sig .tc) → Buf (Elt Ideal) ((c : Thread nD τ).loc b))

theorem hzz4 : (![0, 0] : Fin 2 → Nat) = fun _ => 0 := funext fun a => by fin_cases a <;> rfl

theorem idx_facts4 : ∀ t : Fin cfg4.N, win4_0.index t (0 : Fin 2) = t.val ∧ win4_0.index t (1 : Fin 2) = 0
    ∧ win4_3.index t (0 : Fin 2) = t.val ∧ win4_3.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

theorem iblk4_0_apply (c : Dev nD) (t : Fin cfg4.N) (x : S2000x128.Idx) (k : S100000x128.Idx)
    (hk0 : (k 0).val = 2000 * t.val + (x 0).val) (hk1 : (k 1).val = (x 1).val) :
    (iblk4 V c 0 t : Vec Ideal S2000x128 .f32) x = (V c main_v231 : S100000x128.Idx → EReal) k := by
  obtain ⟨h0, h1, -⟩ := idx_facts4 t
  unfold iblk4
  rw [View.read_apply]
  show V c main_v231 _ = V c main_v231 _
  refine congrArg (V c main_v231) ?_
  funext a
  apply Fin.ext
  match a with
  | ⟨0, _⟩ => show win4_0.index t (0 : Fin 2) * 2000 + 1 * (x 0).val = (k 0).val; rw [h0, hk0]; omega
  | ⟨1, _⟩ => show win4_0.index t (1 : Fin 2) * 128 + 1 * (x 1).val = (k 1).val; rw [h1, hk1]; omega

theorem iblk4_1_eq (c : Dev nD) (t : Fin cfg4.N) :
    (iblk4 V c 1 t : Vec Ideal S128x128 .f32) = (V c main_arg12 : S128x128.Idx → EReal) := by
  obtain ⟨-, -, -, -, h0, h1, -⟩ := idx_facts4 t
  funext x
  unfold iblk4
  rw [View.read_apply]
  show V c main_arg12 _ = V c main_arg12 _
  refine congrArg (V c main_arg12) ?_
  funext a
  apply Fin.ext
  match a with
  | ⟨0, _⟩ => show win4_1.index t (0 : Fin 2) * 128 + 1 * (x 0).val = (x 0).val; rw [h0]; omega
  | ⟨1, _⟩ => show win4_1.index t (1 : Fin 2) * 128 + 1 * (x 1).val = (x 1).val; rw [h1]; omega

theorem iblk4_2_eq (c : Dev nD) (t : Fin cfg4.N) :
    (iblk4 V c 2 t : Vec Ideal S1x128 .f32) = (V c main_v232 : S1x128.Idx → EReal) := by
  obtain ⟨-, -, -, -, -, -, h0, h1⟩ := idx_facts4 t
  funext x
  unfold iblk4
  rw [View.read_apply]
  show V c main_v232 _ = V c main_v232 _
  refine congrArg (V c main_v232) ?_
  funext a
  apply Fin.ext
  match a with
  | ⟨0, _⟩ => show win4_2.index t (0 : Fin 2) * 1 + 1 * (x 0).val = (x 0).val; rw [h0]; omega
  | ⟨1, _⟩ => show win4_2.index t (1 : Fin 2) * 128 + 1 * (x 1).val = (x 1).val; rw [h1]; omega

theorem out4_3_blk_apply (c : Dev nD) (t : Fin cfg4.N) (j : S2000x128.Idx) (i : S100000x128.Idx)
    (hi0 : (i 0).val = 2000 * t.val + (j 0).val) (hi1 : (i 1).val = (j 1).val) :
    out4_3 (F := Ideal) (iblk4 V c 0 t) (iblk4 V c 1 t) (iblk4 V c 2 t) j
      = fcY4 (V c main_v231) (V c main_arg12) (V c main_v232) i :=
  pay4_3_eq_fcY (V c main_v231) (V c main_arg12) (V c main_v232) (iblk4 V c 0 t) (iblk4 V c 1 t) (iblk4 V c 2 t) j i
    (fun k => iblk4_0_apply V c t (ix2 (j 0) k) (ix2 (i 0) k) hi0 rfl) hi1.symm (iblk4_1_eq V c t) (iblk4_2_eq V c t)

theorem out4_3_apply (c : Dev nD) (t : Fin cfg4.N) (r : Fin 2000) (q : Fin 128) (i : S100000x128.Idx)
    (hi0 : (i 0).val = 2000 * t.val + r.val) (hi1 : (i 1).val = q.val) :
    out4_3 (iblk4 (F := Ideal) V c 0 t) (iblk4 V c 1 t) (iblk4 V c 2 t) (ValueIdx.ix2 r q)
      = fcY4 (V c main_v231) (V c main_arg12) (V c main_v232) i :=
  out4_3_blk_apply V c t (ix2 r q) i hi0 hi1

theorem flushed4_3_eq (c : Dev nD) (t : Fin cfg4.N) :
    (dat4 (F := Ideal) V c).flushed 3 t = ((cfg4.win 3).blk t).view.read (Elt Ideal)
      (fcY4 (V c main_v231) (V c main_arg12) (V c main_v232)) := by
  show (cfg4.win 3).cut (grid4.coords t) ((dat4 V c).after 3 t) = _
  rw [after4_3]
  obtain ⟨-, -, e0, e1, -⟩ := idx_facts4 t
  funext j
  show out4_3 (F := Ideal) (iblk4 V c 0 t) (iblk4 V c 1 t) (iblk4 V c 2 t) j
    = fcY4 (V c main_v231) (V c main_arg12) (V c main_v232) (((cfg4.win 3).blk t).view.emb j)
  have hj0 : (j 0).val < 2000 := (j 0).isLt
  have hj1 : (j 1).val < 128 := (j 1).isLt
  have r0 : ((((cfg4.win 3).blk t).view.emb j) 0).val = 2000 * t.val + (j 0).val := by
    show win4_3.index t (0 : Fin 2) * 2000 + 1 * (j 0).val = _; rw [e0]; omega
  have r4 : ((((cfg4.win 3).blk t).view.emb j) 1).val = (j 1).val := by
    show win4_3.index t (1 : Fin 2) * 128 + 1 * (j 1).val = _; rw [e1]; omega
  exact out4_3_blk_apply V c t j (((cfg4.win 3).blk t).view.emb j) r0 r4

theorem mem_blk4_3 (t : Fin cfg4.N) (i : S100000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v233_0).slice (win4_3.rect t)).set ↔ _
  rw [View.set_slice_whole, Rect.mem_set_unit]
  exact Iff.rfl

theorem covered4_3 (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  have ht : (i 0).val / 2000 < cfg4.N := by rw [show cfg4.N = 50 from N_4]; omega
  obtain ⟨-, -, e0, e1, -⟩ := idx_facts4 ⟨(i 0).val / 2000, ht⟩
  have e0' : win4_3.index ⟨(i 0).val / 2000, ht⟩ (0 : Fin 2) = (i 0).val / 2000 := e0
  refine ⟨⟨(i 0).val / 2000, ht⟩, flush4_3 _, ?_⟩
  rw [mem_blk4_3]
  intro a
  match a with
  | ⟨0, _⟩ =>
    show win4_3.index ⟨(i 0).val / 2000, ht⟩ (0 : Fin 2) * 2000 ≤ (i 0).val ∧ (i 0).val < win4_3.index ⟨(i 0).val / 2000, ht⟩ (0 : Fin 2) * 2000 + 2000
    rw [e0']; omega
  | ⟨1, _⟩ =>
    show win4_3.index ⟨(i 0).val / 2000, ht⟩ (1 : Fin 2) * 128 ≤ (i 1).val ∧ (i 1).val < win4_3.index ⟨(i 0).val / 2000, ht⟩ (1 : Fin 2) * 128 + 128
    rw [e1]; omega

theorem arrAt4_3 (c : Dev nD) : (dat4 (F := Ideal) V c).arrAt 3 cfg4.N
    = fcY4 (V c main_v231) (V c main_arg12) (V c main_v232) :=
  (dat4 (F := Ideal) V c).arrAt_eq_of_cover 3 (fcY4 (V c main_v231) (V c main_arg12) (V c main_v232))
    (fun t _ => flushed4_3_eq V c t) covered4_3

end Region

end Cert.KernelIdeal.Hand

end
-- ==== Proof.KI.Val4Acc.lean ====
import proofs.«175263_j29738353557973_1_alg».proof.Proof.KI.Val4
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

theorem colsum2000_apply4 (y : FVec Ideal S2000x128 .f32) (q : Fin 128) :
    multiReduction .add [0] S128 y 0x00000000#32 reduces_S2000x128_S128 (.inl rfl) rfl (ix1 q) = ∑ r : Fin 2000, y (ix2 r q) :=
  (Ideal.multiReduction_add_single y 0x00000000#32 reduces_S2000x128_S128 (.inl rfl) rfl (ix1 q)).trans
    (Finset.sum_congr rfl fun r _ => congrArg y (funext fun a => by
      match a with
      | ⟨0, _⟩ => rfl
      | ⟨1, _⟩ => rfl))

theorem pay4_4_apply (x0 : Vec Ideal S2000x128 .f32) (x1 : Vec Ideal S128x128 .f32) (x2 : Vec Ideal S1x128 .f32) (p : Vec Ideal S1x128 .f32)
    (u : Fin 1) (q : Fin 128) :
    k4_pay4 (F := Ideal) x0 x1 x2 p (ix2 u q) = p (ix2 u q) + ∑ r : Fin 2000, k4_pay3 (F := Ideal) x0 x1 x2 (ix2 r q) := by
  have hp : shapeCast S1x128 p shapeCasts_S1x128_S1x128 (ix2 u q) = p (ix2 u q) :=
    congrFun (shapeCast_self p shapeCasts_S1x128_S1x128) (ix2 u q)
  have hs : shapeCast S1x128 (multiReduction .add [0] S128 (k4_pay3 (F := Ideal) x0 x1 x2) 0x00000000#32 reduces_S2000x128_S128 (.inl rfl) rfl) shapeCasts_S128_S1x128 (ix2 u q)
      = ∑ r : Fin 2000, k4_pay3 (F := Ideal) x0 x1 x2 (ix2 r q) :=
    (shapeCast_a_1a_apply _ shapeCasts_S128_S1x128 u q).trans (colsum2000_apply4 _ q)
  calc k4_pay4 (F := Ideal) x0 x1 x2 p (ix2 u q)
      = shapeCast S1x128 p shapeCasts_S1x128_S1x128 (ix2 u q)
          + shapeCast S1x128 (multiReduction .add [0] S128 (k4_pay3 (F := Ideal) x0 x1 x2) 0x00000000#32 reduces_S2000x128_S128 (.inl rfl) rfl) shapeCasts_S128_S1x128 (ix2 u q) := rfl
    _ = _ := by rw [hp, hs]

theorem pay4_5_apply (x0 : Vec Ideal S2000x128 .f32) (x1 : Vec Ideal S128x128 .f32) (x2 : Vec Ideal S1x128 .f32) (p : Vec Ideal S1x128 .f32)
    (u : Fin 1) (q : Fin 128) :
    k4_pay5 (F := Ideal) x0 x1 x2 p (ix2 u q)
      = p (ix2 u q) + ∑ r : Fin 2000, k4_pay3 (F := Ideal) x0 x1 x2 (ix2 r q) * k4_pay3 (F := Ideal) x0 x1 x2 (ix2 r q) := by
  have hp : shapeCast S1x128 p shapeCasts_S1x128_S1x128 (ix2 u q) = p (ix2 u q) :=
    congrFun (shapeCast_self p shapeCasts_S1x128_S1x128) (ix2 u q)
  have hs : shapeCast S1x128 (multiReduction .add [0] S128 (mulf (k4_pay3 (F := Ideal) x0 x1 x2) (k4_pay3 (F := Ideal) x0 x1 x2)) 0x00000000#32 reduces_S2000x128_S128 (.inl rfl) rfl) shapeCasts_S128_S1x128 (ix2 u q)
      = ∑ r : Fin 2000, k4_pay3 (F := Ideal) x0 x1 x2 (ix2 r q) * k4_pay3 (F := Ideal) x0 x1 x2 (ix2 r q) :=
    (shapeCast_a_1a_apply _ shapeCasts_S128_S1x128 u q).trans (colsum2000_apply4 _ q)
  calc k4_pay5 (F := Ideal) x0 x1 x2 p (ix2 u q)
      = shapeCast S1x128 p shapeCasts_S1x128_S1x128 (ix2 u q)
          + shapeCast S1x128 (multiReduction .add [0] S128 (mulf (k4_pay3 (F := Ideal) x0 x1 x2) (k4_pay3 (F := Ideal) x0 x1 x2)) 0x00000000#32 reduces_S2000x128_S128 (.inl rfl) rfl) shapeCasts_S128_S1x128 (ix2 u q) := rfl
    _ = _ := by rw [hp, hs]

def colSeq4 (Z : S100000x128.Idx → EReal) (q : Fin 128) (x : ℕ) : EReal :=
  if hx : x < 100000 then Z (ix2 ⟨x, hx⟩ q) else 0

theorem sum_block_eq4 (Z : S100000x128.Idx → EReal) (q : Fin 128) (b : ℕ) (f : Fin 2000 → EReal)
    (hf : ∀ r : Fin 2000, f r = colSeq4 Z q (b + r.val)) :
    ∑ r : Fin 2000, f r = ∑ x ∈ Finset.range 2000, colSeq4 Z q (b + x) := by
  rw [Finset.sum_range]
  exact Finset.sum_congr rfl fun r _ => hf r

theorem colSeq_mul4 (Z : S100000x128.Idx → EReal) (q : Fin 128) (x : ℕ) :
    colSeq4 Z q x * colSeq4 Z q x = colSeq4 (fun i => Z i * Z i) q x := by
  unfold colSeq4
  by_cases hx : x < 100000 <;> simp [hx]

theorem sum_all_eq4 (Z : S100000x128.Idx → EReal) (q : Fin 128) :
    ∑ x ∈ Finset.range 100000, colSeq4 Z q x = ∑ r : Fin 100000, Z (ix2 r q) := by
  rw [Finset.sum_range]
  exact Finset.sum_congr rfl fun r _ => by unfold colSeq4; rw [dif_pos r.isLt]

section Region

variable (V : (c : Dev nD) → (b : Ref sig .tc) → Buf (Elt Ideal) ((c : Thread nD τ).loc b))

abbrev Y4 (c : Dev nD) : S100000x128.Idx → EReal := fcY4 (V c main_v231) (V c main_arg12) (V c main_v232)

theorem out4_3_seq (c : Dev nD) (t : Fin cfg4.N) (r : Fin 2000) (q : Fin 128) :
    k4_pay3 (F := Ideal) (iblk4 V c 0 t) (iblk4 V c 1 t) (iblk4 V c 2 t) (ix2 r q) = colSeq4 (Y4 V c) q (2000 * t.val + r.val) := by
  have hlt : 2000 * t.val + r.val < 100000 := by
    have := lt_of_lt_of_eq t.isLt (show cfg4.N = 50 from N_4); have := r.isLt; omega
  unfold colSeq4
  rw [dif_pos hlt]
  exact out4_3_apply V c t r q (ix2 ⟨2000 * t.val + r.val, hlt⟩ q) rfl rfl

theorem acc4_4_eq (c : Dev nD) : ∀ (n : ℕ) (h : n < cfg4.N) (u : Fin 1) (q : Fin 128),
    acc4_4 (F := Ideal) V c n h (ix2 u q) = ∑ x ∈ Finset.range (2000 * (n + 1)), colSeq4 (Y4 V c) q x
  | 0, h, u, q => by
    refine (pay4_4_apply _ _ _ _ u q).trans ?_
    rw [pay4_1_apply, zero_add]
    refine (sum_block_eq4 (Y4 V c) q (2000 * 0) _ fun r => ?_).trans ?_
    · exact out4_3_seq V c ⟨0, h⟩ r q
    · exact Finset.sum_congr rfl fun x _ => by rw [Nat.mul_zero, Nat.zero_add]
  | n + 1, h, u, q => by
    refine (pay4_4_apply _ _ _ _ u q).trans ?_
    rw [acc4_4_eq c n (Nat.lt_of_succ_lt h) u q, show 2000 * (n + 1 + 1) = 2000 * (n + 1) + 2000 from by omega, Finset.sum_range_add]
    refine congrArg (_ + ·) ?_
    exact sum_block_eq4 (Y4 V c) q (2000 * (n + 1)) _ fun r => out4_3_seq V c ⟨n + 1, h⟩ r q

theorem acc4_5_eq (c : Dev nD) : ∀ (n : ℕ) (h : n < cfg4.N) (u : Fin 1) (q : Fin 128),
    acc4_5 (F := Ideal) V c n h (ix2 u q) = ∑ x ∈ Finset.range (2000 * (n + 1)), colSeq4 (fun i => Y4 V c i * Y4 V c i) q x
  | 0, h, u, q => by
    refine (pay4_5_apply _ _ _ _ u q).trans ?_
    rw [pay4_2_apply, zero_add]
    refine (sum_block_eq4 (fun i => Y4 V c i * Y4 V c i) q (2000 * 0) _ fun r => ?_).trans ?_
    · rw [out4_3_seq V c ⟨0, h⟩ r q]; exact colSeq_mul4 (Y4 V c) q _
    · exact Finset.sum_congr rfl fun x _ => by rw [Nat.mul_zero, Nat.zero_add]
  | n + 1, h, u, q => by
    refine (pay4_5_apply _ _ _ _ u q).trans ?_
    rw [acc4_5_eq c n (Nat.lt_of_succ_lt h) u q, show 2000 * (n + 1 + 1) = 2000 * (n + 1) + 2000 from by omega, Finset.sum_range_add]
    refine congrArg (_ + ·) ?_
    refine sum_block_eq4 (fun i => Y4 V c i * Y4 V c i) q (2000 * (n + 1)) _ fun r => ?_
    rw [out4_3_seq V c ⟨n + 1, h⟩ r q]; exact colSeq_mul4 (Y4 V c) q _

abbrev t4_last : Fin cfg4.N := ⟨49, by rw [show cfg4.N = 50 from N_4]; decide⟩

theorem acc4_4_last (c : Dev nD) : acc4_4 (F := Ideal) V c t4_last.val t4_last.isLt = colSum4 (Y4 V c) := by
  funext j
  obtain ⟨u, q, rfl⟩ : ∃ (u : Fin 1) (q : Fin 128), j = ix2 u q := ⟨j 0, j 1, eq_ix2 j⟩
  rw [acc4_4_eq V c 49 _ u q]
  exact sum_all_eq4 (Y4 V c) q

theorem acc4_5_last (c : Dev nD) : acc4_5 (F := Ideal) V c t4_last.val t4_last.isLt = colSum4 (fun i => Y4 V c i * Y4 V c i) := by
  funext j
  obtain ⟨u, q, rfl⟩ : ∃ (u : Fin 1) (q : Fin 128), j = ix2 u q := ⟨j 0, j 1, eq_ix2 j⟩
  rw [acc4_5_eq V c 49 _ u q]
  exact sum_all_eq4 (fun i => Y4 V c i * Y4 V c i) q

theorem flushed4_4_eq (c : Dev nD) (t : Fin cfg4.N) (hf : (cfg4.win 4).flush t = true) :
    (dat4 (F := Ideal) V c).flushed 4 t = ((cfg4.win 4).blk t).view.read (Elt Ideal) (colSum4 (Y4 V c)) := by
  have hN : cfg4.N = 50 := N_4
  have h49 : t.val = 49 := by have := (flush4_4 t).mp hf; have := t.isLt; omega
  obtain rfl : t = t4_last := Fin.ext h49
  show (cfg4.win 4).cut (grid4.coords t4_last) ((dat4 V c).after 4 t4_last) = _
  rw [after4_4, acc4_4_last]
  have hz' : (fun a => win4_4.index t4_last a * main_v233_1.ty.shape.size a) = fun _ => 0 := funext fun a => by fin_cases a <;> decide +kernel
  exact (Memref.read_access_unit_zero (Elt Ideal) main_v233_1 hz' (fun a => by rw [congrFun hz' a]; simp) (colSum4 (Y4 V c))).symm

theorem flushed4_5_eq (c : Dev nD) (t : Fin cfg4.N) (hf : (cfg4.win 5).flush t = true) :
    (dat4 (F := Ideal) V c).flushed 5 t = ((cfg4.win 5).blk t).view.read (Elt Ideal) (colSum4 (fun i => Y4 V c i * Y4 V c i)) := by
  have hN : cfg4.N = 50 := N_4
  have h49 : t.val = 49 := by have := (flush4_5 t).mp hf; have := t.isLt; omega
  obtain rfl : t = t4_last := Fin.ext h49
  show (cfg4.win 5).cut (grid4.coords t4_last) ((dat4 V c).after 5 t4_last) = _
  rw [after4_5, acc4_5_last]
  have hz' : (fun a => win4_5.index t4_last a * main_v233_2.ty.shape.size a) = fun _ => 0 := funext fun a => by fin_cases a <;> decide +kernel
  exact (Memref.read_access_unit_zero (Elt Ideal) main_v233_2 hz' (fun a => by rw [congrFun hz' a]; simp) (colSum4 (fun i => Y4 V c i * Y4 V c i))).symm

theorem arrAt4_4 (c : Dev nD) : (dat4 (F := Ideal) V c).arrAt 4 cfg4.N = colSum4 (fcY4 (V c main_v231) (V c main_arg12) (V c main_v232)) :=
  (dat4 (F := Ideal) V c).arrAt_eq_of_cover 4 (colSum4 (Y4 V c)) (flushed4_4_eq V c) fun i =>
    ⟨t4_last, (flush4_4 t4_last).mpr rfl, by
      show i ∈ ((View.whole main_v233_1).slice (win4_4.rect t4_last)).set
      rw [View.set_slice_whole, Rect.mem_set_unit]
      intro a
      have h0 : (i 0 : Nat) < 1 := (i 0).isLt
      have h1 : (i 1 : Nat) < 128 := (i 1).isLt
      match a with
      | ⟨0, _⟩ => show win4_4.index t4_last 0 * win4_4.size 0 ≤ (i 0 : Nat) ∧ (i 0 : Nat) < win4_4.index t4_last 0 * win4_4.size 0 + win4_4.xsize (grid4.coords t4_last) 0
                  rw [show win4_4.index t4_last 0 * win4_4.size 0 = 0 from by decide +kernel, show win4_4.xsize (grid4.coords t4_last) 0 = 1 from by decide +kernel]; omega
      | ⟨1, _⟩ => show win4_4.index t4_last 1 * win4_4.size 1 ≤ (i 1 : Nat) ∧ (i 1 : Nat) < win4_4.index t4_last 1 * win4_4.size 1 + win4_4.xsize (grid4.coords t4_last) 1
                  rw [show win4_4.index t4_last 1 * win4_4.size 1 = 0 from by decide +kernel, show win4_4.xsize (grid4.coords t4_last) 1 = 128 from by decide +kernel]; omega⟩

theorem arrAt4_5 (c : Dev nD) : (dat4 (F := Ideal) V c).arrAt 5 cfg4.N
    = colSum4 (fun i => fcY4 (V c main_v231) (V c main_arg12) (V c main_v232) i * fcY4 (V c main_v231) (V c main_arg12) (V c main_v232) i) :=
  (dat4 (F := Ideal) V c).arrAt_eq_of_cover 5 (colSum4 (fun i => Y4 V c i * Y4 V c i)) (flushed4_5_eq V c) fun i =>
    ⟨t4_last, (flush4_5 t4_last).mpr rfl, by
      show i ∈ ((View.whole main_v233_2).slice (win4_5.rect t4_last)).set
      rw [View.set_slice_whole, Rect.mem_set_unit]
      intro a
      have h0 : (i 0 : Nat) < 1 := (i 0).isLt
      have h1 : (i 1 : Nat) < 128 := (i 1).isLt
      match a with
      | ⟨0, _⟩ => show win4_5.index t4_last 0 * win4_5.size 0 ≤ (i 0 : Nat) ∧ (i 0 : Nat) < win4_5.index t4_last 0 * win4_5.size 0 + win4_5.xsize (grid4.coords t4_last) 0
                  rw [show win4_5.index t4_last 0 * win4_5.size 0 = 0 from by decide +kernel, show win4_5.xsize (grid4.coords t4_last) 0 = 1 from by decide +kernel]; omega
      | ⟨1, _⟩ => show win4_5.index t4_last 1 * win4_5.size 1 ≤ (i 1 : Nat) ∧ (i 1 : Nat) < win4_5.index t4_last 1 * win4_5.size 1 + win4_5.xsize (grid4.coords t4_last) 1
                  rw [show win4_5.index t4_last 1 * win4_5.size 1 = 0 from by decide +kernel, show win4_5.xsize (grid4.coords t4_last) 1 = 128 from by decide +kernel]; omega⟩

end Region

end Cert.KernelIdeal.Hand

end
-- ==== Proof.KI.Val5.lean ====
import proofs.«175263_j29738353557973_1_alg».proof.Proof.KI.Reg5
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

def bnOut5 (y : S100000x128.Idx → EReal) (mean var g beta : S1x128.Idx → EReal) : S100000x128.Idx → EReal :=
  fun i => (y i - mean (ix2 0 (i 1))) * Ideal.rsqrt (var (ix2 0 (i 1)) + Ideal.ofBits .f32 0x3727C5AC#32) * g (ix2 0 (i 1)) + beta (ix2 0 (i 1))

theorem pay5_apply (v0 : Vec Ideal S1x128 .f32) (v5 : Vec Ideal S2000x128 .f32) (v7 v13 v17 : Vec Ideal S1x128 .f32)
    (p : Fin 2000) (q : Fin 128) :
    k5_pay1 (F := Ideal) v0 v5 v7 v13 v17 (ix2 p q)
      = (v5 (ix2 p q) - v7 (ix2 0 q)) * Ideal.rsqrt (v0 (ix2 0 q) + Ideal.ofBits .f32 0x3727C5AC#32) * v13 (ix2 0 q) + v17 (ix2 0 q) := by
  have hy : shapeCast S2000x128 v5 shapeCasts_S2000x128_S2000x128 (ix2 p q) = v5 (ix2 p q) :=
    congrFun (shapeCast_self v5 shapeCasts_S2000x128_S2000x128) (ix2 p q)
  have hrow : ∀ (v : Vec Ideal S1x128 .f32),
      broadcastTo S2000x128 (shapeCast S1x128 v shapeCasts_S1x128_S1x128) broadcasts_S1x128_S2000x128 (ix2 p q) = v (ix2 0 q) := fun v =>
    (broadcastTo_1b_ab_apply (shapeCast S1x128 v shapeCasts_S1x128_S1x128) broadcasts_S1x128_S2000x128 p q).trans
      (congrFun (shapeCast_self v shapeCasts_S1x128_S1x128) (ix2 0 q))
  have hinv : broadcastTo S2000x128 (rsqrt (addf (shapeCast S1x128 v0 shapeCasts_S1x128_S1x128) (broadcast S1x128 (Scalar.ofBits (F := Ideal) .f32 0x3727C5AC#32)))) broadcasts_S1x128_S2000x128 (ix2 p q)
      = Ideal.rsqrt (v0 (ix2 0 q) + Ideal.ofBits .f32 0x3727C5AC#32) :=
    (broadcastTo_1b_ab_apply _ broadcasts_S1x128_S2000x128 p q).trans
      (congrArg (fun z : EReal => Ideal.rsqrt (z + Ideal.ofBits .f32 0x3727C5AC#32)) (congrFun (shapeCast_self v0 shapeCasts_S1x128_S1x128) (ix2 0 q)))
  calc k5_pay1 (F := Ideal) v0 v5 v7 v13 v17 (ix2 p q)
      = (shapeCast S2000x128 v5 shapeCasts_S2000x128_S2000x128 (ix2 p q)
            - broadcastTo S2000x128 (shapeCast S1x128 v7 shapeCasts_S1x128_S1x128) broadcasts_S1x128_S2000x128 (ix2 p q))
          * broadcastTo S2000x128 (rsqrt (addf (shapeCast S1x128 v0 shapeCasts_S1x128_S1x128) (broadcast S1x128 (Scalar.ofBits (F := Ideal) .f32 0x3727C5AC#32)))) broadcasts_S1x128_S2000x128 (ix2 p q)
          * broadcastTo S2000x128 (shapeCast S1x128 v13 shapeCasts_S1x128_S1x128) broadcasts_S1x128_S2000x128 (ix2 p q)
          + broadcastTo S2000x128 (shapeCast S1x128 v17 shapeCasts_S1x128_S1x128) broadcasts_S1x128_S2000x128 (ix2 p q) := rfl
    _ = _ := by rw [hy, hrow v7, hinv, hrow v13, hrow v17]

theorem pay5_eq_bnOut (Y : S100000x128.Idx → EReal) (M Vr G B : S1x128.Idx → EReal)
    (x0 : Vec Ideal S2000x128 .f32) (x1 x2 x3 x4 : Vec Ideal S1x128 .f32)
    (j : S2000x128.Idx) (i : S100000x128.Idx)
    (h0 : x0 j = Y i) (hq : (j 1).val = (i 1).val)
    (h1 : x1 = M) (h2 : x2 = Vr) (h3 : x3 = G) (h4 : x4 = B) :
    k5_pay1 (F := Ideal) x2 x0 x1 x3 x4 j = bnOut5 Y M Vr G B i := by
  subst h1 h2 h3 h4
  obtain ⟨p, q, rfl⟩ : ∃ (p : Fin 2000) (q : Fin 128), j = ix2 p q := ⟨j 0, j 1, eq_ix2 j⟩
  have e : (ix2 (0 : Fin 1) q : S1x128.Idx) = ix2 (0 : Fin 1) (i 1) := by
    funext a
    match a with
    | ⟨0, _⟩ => rfl
    | ⟨1, _⟩ => exact Fin.ext hq
  refine (pay5_apply x2 x0 x1 x3 x4 p q).trans ?_
  unfold bnOut5
  rw [h0, e]
  rfl

section Region

variable (V : (c : Dev nD) → (b : Ref sig .tc) → Buf (Elt Ideal) ((c : Thread nD τ).loc b))

theorem hz5 : (![0, 0] : Fin 2 → Nat) = fun _ => 0 := funext fun a => by fin_cases a <;> rfl

theorem idx_facts5 : ∀ t : Fin cfg5.N, win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

theorem iblk5_0_apply (c : Dev nD) (t : Fin cfg5.N) (x : S2000x128.Idx) (k : S100000x128.Idx)
    (hk0 : (k 0).val = 2000 * t.val + (x 0).val) (hk1 : (k 1).val = (x 1).val) :
    (iblk5 V c 0 t : Vec Ideal S2000x128 .f32) x = (V c main_v233_0 : S100000x128.Idx → EReal) k := by
  obtain ⟨h0, h1, -⟩ := idx_facts5 t
  unfold iblk5
  rw [View.read_apply]
  show V c main_v233_0 _ = V c main_v233_0 _
  refine congrArg (V c main_v233_0) ?_
  funext a
  apply Fin.ext
  match a with
  | ⟨0, _⟩ => show win5_0.index t (0 : Fin 2) * 2000 + 1 * (x 0).val = (k 0).val; rw [h0, hk0]; omega
  | ⟨1, _⟩ => show win5_0.index t (1 : Fin 2) * 128 + 1 * (x 1).val = (k 1).val; rw [h1, hk1]; omega

theorem iblk5_1_eq (c : Dev nD) (t : Fin cfg5.N) :
    (iblk5 V c 1 t : Vec Ideal S1x128 .f32) = (V c main_v242 : S1x128.Idx → EReal) := by
  obtain ⟨-, -, -, -, h0, h1, -⟩ := idx_facts5 t
  funext x
  unfold iblk5
  rw [View.read_apply]
  show V c main_v242 _ = V c main_v242 _
  refine congrArg (V c main_v242) ?_
  funext a
  apply Fin.ext
  match a with
  | ⟨0, _⟩ => show win5_1.index t (0 : Fin 2) * 1 + 1 * (x 0).val = (x 0).val; rw [h0]; omega
  | ⟨1, _⟩ => show win5_1.index t (1 : Fin 2) * 128 + 1 * (x 1).val = (x 1).val; rw [h1]; omega
theorem iblk5_2_eq (c : Dev nD) (t : Fin cfg5.N) :
    (iblk5 V c 2 t : Vec Ideal S1x128 .f32) = (V c main_v243 : S1x128.Idx → EReal) := by
  obtain ⟨-, -, -, -, -, -, h0, h1, -⟩ := idx_facts5 t
  funext x
  unfold iblk5
  rw [View.read_apply]
  show V c main_v243 _ = V c main_v243 _
  refine congrArg (V c main_v243) ?_
  funext a
  apply Fin.ext
  match a with
  | ⟨0, _⟩ => show win5_2.index t (0 : Fin 2) * 1 + 1 * (x 0).val = (x 0).val; rw [h0]; omega
  | ⟨1, _⟩ => show win5_2.index t (1 : Fin 2) * 128 + 1 * (x 1).val = (x 1).val; rw [h1]; omega
theorem iblk5_3_eq (c : Dev nD) (t : Fin cfg5.N) :
    (iblk5 V c 3 t : Vec Ideal S1x128 .f32) = (V c main_v244 : S1x128.Idx → EReal) := by
  obtain ⟨-, -, -, -, -, -, -, -, h0, h1, -⟩ := idx_facts5 t
  funext x
  unfold iblk5
  rw [View.read_apply]
  show V c main_v244 _ = V c main_v244 _
  refine congrArg (V c main_v244) ?_
  funext a
  apply Fin.ext
  match a with
  | ⟨0, _⟩ => show win5_3.index t (0 : Fin 2) * 1 + 1 * (x 0).val = (x 0).val; rw [h0]; omega
  | ⟨1, _⟩ => show win5_3.index t (1 : Fin 2) * 128 + 1 * (x 1).val = (x 1).val; rw [h1]; omega
theorem iblk5_4_eq (c : Dev nD) (t : Fin cfg5.N) :
    (iblk5 V c 4 t : Vec Ideal S1x128 .f32) = (V c main_v245 : S1x128.Idx → EReal) := by
  obtain ⟨-, -, -, -, -, -, -, -, -, -, h0, h1⟩ := idx_facts5 t
  funext x
  unfold iblk5
  rw [View.read_apply]
  show V c main_v245 _ = V c main_v245 _
  refine congrArg (V c main_v245) ?_
  funext a
  apply Fin.ext
  match a with
  | ⟨0, _⟩ => show win5_4.index t (0 : Fin 2) * 1 + 1 * (x 0).val = (x 0).val; rw [h0]; omega
  | ⟨1, _⟩ => show win5_4.index t (1 : Fin 2) * 128 + 1 * (x 1).val = (x 1).val; rw [h1]; omega

theorem flushed5_5_eq (c : Dev nD) (t : Fin cfg5.N) :
    (dat5 (F := Ideal) V c).flushed 5 t = ((cfg5.win 5).blk t).view.read (Elt Ideal)
      (bnOut5 (V c main_v233_0) (V c main_v242) (V c main_v243) (V c main_v244) (V c main_v245)) := by
  show (cfg5.win 5).cut (grid5.coords t) ((dat5 V c).after 5 t) = _
  rw [after5_5]
  unfold out5_5
  rw [View.canon_unit_zero hz5]
  simp only [View.ld_unit_zero (S := S2000x128) hz5, View.ld_unit_zero (S := S1x128) hz5]
  obtain ⟨-, -, e0, e1, -⟩ := idx_facts5 t
  funext j
  show k5_pay1 (F := Ideal) (iblk5 V c 2 t) (iblk5 V c 0 t) (iblk5 V c 1 t) (iblk5 V c 3 t) (iblk5 V c 4 t) j
    = bnOut5 (V c main_v233_0) (V c main_v242) (V c main_v243) (V c main_v244) (V c main_v245) (((cfg5.win 5).blk t).view.emb j)
  have hj0 : (j 0).val < 2000 := (j 0).isLt
  have hj1 : (j 1).val < 128 := (j 1).isLt
  have r0 : ((((cfg5.win 5).blk t).view.emb j) 0).val = 2000 * t.val + (j 0).val := by
    show win5_5.index t (0 : Fin 2) * 2000 + 1 * (j 0).val = _; rw [e0]; omega
  have r1 : ((((cfg5.win 5).blk t).view.emb j) 1).val = (j 1).val := by
    show win5_5.index t (1 : Fin 2) * 128 + 1 * (j 1).val = _; rw [e1]; omega
  exact pay5_eq_bnOut (V c main_v233_0) (V c main_v242) (V c main_v243) (V c main_v244) (V c main_v245)
    (iblk5 V c 0 t) (iblk5 V c 1 t) (iblk5 V c 2 t) (iblk5 V c 3 t) (iblk5 V c 4 t) j (((cfg5.win 5).blk t).view.emb j)
    (iblk5_0_apply V c t j _ r0 r1) r1.symm (iblk5_1_eq V c t) (iblk5_2_eq V c t) (iblk5_3_eq V c t) (iblk5_4_eq V c t)

theorem mem_blk5_5 (t : Fin cfg5.N) (i : S100000x128.Idx) :
    i ∈ ((cfg5.win 5).blk t).view.set ↔ ∀ a : Fin 2, win5_5.index t a * S2000x128.size a ≤ (i a).val ∧ (i a).val < win5_5.index t a * S2000x128.size a + S2000x128.size a := by
  show i ∈ ((View.whole main_v246).slice (win5_5.rect t)).set ↔ _
  rw [View.set_slice_whole, Rect.mem_set_unit]
  exact Iff.rfl

theorem covered5_5 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have ht : (i 0).val / 2000 < cfg5.N := by rw [show cfg5.N = 50 from N_5]; omega
  obtain ⟨-, -, e0, e1, -⟩ := idx_facts5 ⟨(i 0).val / 2000, ht⟩
  have e0' : win5_5.index ⟨(i 0).val / 2000, ht⟩ (0 : Fin 2) = (i 0).val / 2000 := e0
  refine ⟨⟨(i 0).val / 2000, ht⟩, flush5_5 _, ?_⟩
  rw [mem_blk5_5]
  intro a
  match a with
  | ⟨0, _⟩ =>
    show win5_5.index ⟨(i 0).val / 2000, ht⟩ (0 : Fin 2) * 2000 ≤ (i 0).val ∧ (i 0).val < win5_5.index ⟨(i 0).val / 2000, ht⟩ (0 : Fin 2) * 2000 + 2000
    rw [e0']; omega
  | ⟨1, _⟩ =>
    show win5_5.index ⟨(i 0).val / 2000, ht⟩ (1 : Fin 2) * 128 ≤ (i 1).val ∧ (i 1).val < win5_5.index ⟨(i 0).val / 2000, ht⟩ (1 : Fin 2) * 128 + 128
    rw [e1]; omega

theorem arrAt5_5 (c : Dev nD) : (dat5 (F := Ideal) V c).arrAt 5 cfg5.N
    = bnOut5 (V c main_v233_0) (V c main_v242) (V c main_v243) (V c main_v244) (V c main_v245) :=
  (dat5 (F := Ideal) V c).arrAt_eq_of_cover 5 (bnOut5 (V c main_v233_0) (V c main_v242) (V c main_v243) (V c main_v244) (V c main_v245))
    (fun t _ => flushed5_5_eq V c t) covered5_5

end Region

end Cert.KernelIdeal.Hand

end
-- ==== Proof.KI.KerBridge.lean ====
import proofs.«175263_j29738353557973_1_alg».proof.Proof.KI.Run
import proofs.«175263_j29738353557973_1_alg».proof.Proof.KI.HostVal
import proofs.«175263_j29738353557973_1_alg».proof.Proof.KI.KerArr
import proofs.«175263_j29738353557973_1_alg».proof.Proof.KI.Val0
import proofs.«175263_j29738353557973_1_alg».proof.Proof.KI.Val1
import proofs.«175263_j29738353557973_1_alg».proof.Proof.KI.Val1Acc
import proofs.«175263_j29738353557973_1_alg».proof.Proof.KI.Val2
import proofs.«175263_j29738353557973_1_alg».proof.Proof.KI.Val3
import proofs.«175263_j29738353557973_1_alg».proof.Proof.KI.Val4
import proofs.«175263_j29738353557973_1_alg».proof.Proof.KI.Val4Acc
import proofs.«175263_j29738353557973_1_alg».proof.Proof.KI.Val5

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg) (c : Dev nD)

set_option quotPrecheck false in

local notation "⟪" r "⟫" => m ((c : Thread nD τ).loc r)

local macro "carry" : tactic => `(tactic| repeat (first
  | (rw [W24_of]; rotate_left; decide) | (rw [W23_of]; rotate_left; decide)
  | (rw [W22_of]; rotate_left; decide) | (rw [W21_of]; rotate_left; decide)
  | (rw [W20_of]; rotate_left; decide) | (rw [W19_of]; rotate_left; decide)
  | (rw [W18_of]; rotate_left; decide) | (rw [W17_of]; rotate_left; decide)
  | (rw [W16_of]; rotate_left; decide) | (rw [W15_of]; rotate_left; decide)
  | (rw [W14_of]; rotate_left; decide) | (rw [W13_of]; rotate_left; decide)
  | (rw [W12_of]; rotate_left; decide) | (rw [W11_of]; rotate_left; decide)
  | (rw [W10_of]; rotate_left; decide) | (rw [W9_of]; rotate_left; decide)
  | (rw [W8_of]; rotate_left; decide) | (rw [W7_of]; rotate_left; decide)
  | (rw [W6_of]; rotate_left; decide) | (rw [W5_of]; rotate_left; decide)
  | (rw [W4_of]; rotate_left; decide) | (rw [W3_of]; rotate_left; decide)
  | (rw [W2_of]; rotate_left; decide) | (rw [W1_of]; rotate_left; decide)))

theorem W1_v3 : W1 m ρ c (Proc.devRef .tc main_v3) = dstIdx0 ⟪main_arg1⟫ := host0_main_v3 _
theorem W1_v4 : W1 m ρ c (Proc.devRef .tc main_v4) = ones0 := host0_main_v4 _
theorem W1_v7 : W1 m ρ c (Proc.devRef .tc main_v7) = degOf0 (srcIdx0 ⟪main_arg1⟫) ones0 := host0_main_v7 _
theorem W1_cst_1 : W1 m ρ c (Proc.devRef .tc main_cst_1) = oneS := host0_main_cst_1 _
theorem W2_v8 : W2 m ρ c (Proc.devRef .tc main_v8) = clampOne oneS (degOf0 (srcIdx0 ⟪main_arg1⟫) ones0) :=
  (host0_1_main_v8 _).trans (congrArg₂ clampOne (W1_cst_1 m ρ c) (W1_v7 m ρ c))
theorem W2_v3 : W2 m ρ c (Proc.devRef .tc main_v3) = dstIdx0 ⟪main_arg1⟫ := by carry; exact W1_v3 m ρ c
theorem W2_v4 : W2 m ρ c (Proc.devRef .tc main_v4) = ones0 := by carry; exact W1_v4 m ρ c
theorem W3_v11 : W3 m ρ c (Proc.devRef .tc main_v11) = degOf0 (dstIdx0 ⟪main_arg1⟫) ones0 :=
  (host0_2_main_v11 _).trans (congrArg₂ degOf0 (W2_v3 m ρ c) (W2_v4 m ρ c))
theorem W3_cst_3 : W3 m ρ c (Proc.devRef .tc main_cst_3) = oneS := host0_2_main_cst_3 _
theorem W4_v12 : W4 m ρ c (Proc.devRef .tc main_v12) = clampOne oneS (degOf0 (dstIdx0 ⟪main_arg1⟫) ones0) :=
  (host0_3_main_v12 _).trans (congrArg₂ clampOne (W3_cst_3 m ρ c) (W3_v11 m ρ c))
theorem W4_v8 : W4 m ρ c (Proc.devRef .tc main_v8) = clampOne oneS (degOf0 (srcIdx0 ⟪main_arg1⟫) ones0) := by
  carry; exact W2_v8 m ρ c
theorem W5_v14 : W5 m ρ c (Proc.devRef .tc main_v14) = dinvArr0_src ⟪main_arg1⟫ :=
  (host0_4_main_v14 _).trans (congrArg invSqrt (W4_v8 m ρ c))
theorem W5_v16 : W5 m ρ c (Proc.devRef .tc main_v16) = dinvArr0_dst ⟪main_arg1⟫ :=
  (host0_4_main_v16 _).trans (congrArg invSqrt (W4_v12 m ρ c))

theorem W4_arg2 : W4 m ρ c (Proc.devRef .tc main_arg2) = ⟪main_arg2⟫ := by carry <;> rfl
theorem W5_v20 : W5 m ρ c (Proc.devRef .tc main_v20) = dstIdx1 ⟪main_arg2⟫ :=
  (host0_4_main_v20 _).trans (congrArg dstIdx1 (W4_arg2 m ρ c))
theorem W5_v21 : W5 m ρ c (Proc.devRef .tc main_v21) = ones1 := host0_4_main_v21 _
theorem W5_v24 : W5 m ρ c (Proc.devRef .tc main_v24) = degOf1 (srcIdx1 ⟪main_arg2⟫) ones1 :=
  (host0_4_main_v24 _).trans (congrArg (fun e => degOf1 (srcIdx1 e) ones1) (W4_arg2 m ρ c))
theorem W5_cst_8 : W5 m ρ c (Proc.devRef .tc main_cst_8) = oneS := host0_4_main_cst_8 _
theorem W6_v25 : W6 m ρ c (Proc.devRef .tc main_v25) = clampOne oneS (degOf1 (srcIdx1 ⟪main_arg2⟫) ones1) :=
  (host0_5_main_v25 _).trans (congrArg₂ clampOne (W5_cst_8 m ρ c) (W5_v24 m ρ c))
theorem W6_v20 : W6 m ρ c (Proc.devRef .tc main_v20) = dstIdx1 ⟪main_arg2⟫ := by carry; exact W5_v20 m ρ c
theorem W6_v21 : W6 m ρ c (Proc.devRef .tc main_v21) = ones1 := by carry; exact W5_v21 m ρ c
theorem W7_v28 : W7 m ρ c (Proc.devRef .tc main_v28) = degOf1 (dstIdx1 ⟪main_arg2⟫) ones1 :=
  (host0_6_main_v28 _).trans (congrArg₂ degOf1 (W6_v20 m ρ c) (W6_v21 m ρ c))
theorem W7_cst_10 : W7 m ρ c (Proc.devRef .tc main_cst_10) = oneS := host0_6_main_cst_10 _
theorem W8_v29 : W8 m ρ c (Proc.devRef .tc main_v29) = clampOne oneS (degOf1 (dstIdx1 ⟪main_arg2⟫) ones1) :=
  (host0_7_main_v29 _).trans (congrArg₂ clampOne (W7_cst_10 m ρ c) (W7_v28 m ρ c))
theorem W8_v25 : W8 m ρ c (Proc.devRef .tc main_v25) = clampOne oneS (degOf1 (srcIdx1 ⟪main_arg2⟫) ones1) := by
  carry; exact W6_v25 m ρ c
theorem W9_v31 : W9 m ρ c (Proc.devRef .tc main_v31) = dinvArr1_src ⟪main_arg2⟫ :=
  (host0_8_main_v31 _).trans (congrArg invSqrt (W8_v25 m ρ c))
theorem W9_v33 : W9 m ρ c (Proc.devRef .tc main_v33) = dinvArr1_dst ⟪main_arg2⟫ :=
  (host0_8_main_v33 _).trans (congrArg invSqrt (W8_v29 m ρ c))

theorem W8_arg3 : W8 m ρ c (Proc.devRef .tc main_arg3) = ⟪main_arg3⟫ := by carry <;> rfl
theorem W9_v37 : W9 m ρ c (Proc.devRef .tc main_v37) = dstIdx2 ⟪main_arg3⟫ :=
  (host0_8_main_v37 _).trans (congrArg dstIdx2 (W8_arg3 m ρ c))
theorem W9_v38 : W9 m ρ c (Proc.devRef .tc main_v38) = ones2 := host0_8_main_v38 _
theorem W9_v41 : W9 m ρ c (Proc.devRef .tc main_v41) = degOf2 (srcIdx2 ⟪main_arg3⟫) ones2 :=
  (host0_8_main_v41 _).trans (congrArg (fun e => degOf2 (srcIdx2 e) ones2) (W8_arg3 m ρ c))
theorem W9_cst_15 : W9 m ρ c (Proc.devRef .tc main_cst_15) = oneS := host0_8_main_cst_15 _
theorem W10_v42 : W10 m ρ c (Proc.devRef .tc main_v42) = clampOne oneS (degOf2 (srcIdx2 ⟪main_arg3⟫) ones2) :=
  (host0_9_main_v42 _).trans (congrArg₂ clampOne (W9_cst_15 m ρ c) (W9_v41 m ρ c))
theorem W10_v37 : W10 m ρ c (Proc.devRef .tc main_v37) = dstIdx2 ⟪main_arg3⟫ := by carry; exact W9_v37 m ρ c
theorem W10_v38 : W10 m ρ c (Proc.devRef .tc main_v38) = ones2 := by carry; exact W9_v38 m ρ c
theorem W11_v45 : W11 m ρ c (Proc.devRef .tc main_v45) = degOf2 (dstIdx2 ⟪main_arg3⟫) ones2 :=
  (host0_10_main_v45 _).trans (congrArg₂ degOf2 (W10_v37 m ρ c) (W10_v38 m ρ c))
theorem W11_cst_17 : W11 m ρ c (Proc.devRef .tc main_cst_17) = oneS := host0_10_main_cst_17 _
theorem W12_v46 : W12 m ρ c (Proc.devRef .tc main_v46) = clampOne oneS (degOf2 (dstIdx2 ⟪main_arg3⟫) ones2) :=
  (host0_11_main_v46 _).trans (congrArg₂ clampOne (W11_cst_17 m ρ c) (W11_v45 m ρ c))

theorem W13_v50 : W13 m ρ c (Proc.devRef .tc main_v50) = dinvArr2_dst ⟪main_arg3⟫ :=
  (host0_12_main_v50 _).trans (congrArg invSqrt (W12_v46 m ρ c))
theorem W12_v14 : W12 m ρ c (Proc.devRef .tc main_v14) = dinvArr0_src ⟪main_arg1⟫ := by carry; exact W5_v14 m ρ c
theorem W12_v31 : W12 m ρ c (Proc.devRef .tc main_v31) = dinvArr1_src ⟪main_arg2⟫ := by carry; exact W9_v31 m ρ c
theorem W12_v42 : W12 m ρ c (Proc.devRef .tc main_v42) = clampOne oneS (degOf2 (srcIdx2 ⟪main_arg3⟫) ones2) := by
  carry; exact W10_v42 m ρ c
theorem W13_v54 : W13 m ρ c (Proc.devRef .tc main_v54) = srcScales ⟪main_arg1⟫ ⟪main_arg2⟫ ⟪main_arg3⟫ := by
  refine (host0_12_main_v54 _).trans ?_
  rw [W12_v14 m ρ c, W12_v31 m ρ c, W12_v42 m ρ c]
  rfl
theorem W12_arg4 : W12 m ρ c (Proc.devRef .tc main_arg4) = ⟪main_arg4⟫ := by carry <;> rfl
theorem W13_v61 : W13 m ρ c (Proc.devRef .tc main_v61) = catW0 ⟪main_arg4⟫ :=
  (host0_12_main_v61 _).trans (congrArg catW0 (W12_arg4 m ρ c))
theorem W13_arg0 : W13 m ρ c (Proc.devRef .tc main_arg0) = ⟪main_arg0⟫ := by carry <;> rfl

theorem W14_v62 : W14 m ρ c (Proc.devRef .tc main_v62)
    = projArr0 ⟪main_arg0⟫ (catW0 ⟪main_arg4⟫) (srcScales ⟪main_arg1⟫ ⟪main_arg2⟫ ⟪main_arg3⟫) := by
  refine ((W14_arr m ρ c 3).trans (arrAt0_3 (V13 m ρ) c)).trans ?_
  show projFull (W13 m ρ c (Proc.devRef .tc main_arg0)) (W13 m ρ c (Proc.devRef .tc main_v61)) (W13 m ρ c (Proc.devRef .tc main_v54)) = _
  rw [W13_arg0 m ρ c, W13_v61 m ρ c, W13_v54 m ρ c]
  rfl

theorem W14_arg1 : W14 m ρ c (Proc.devRef .tc main_arg1) = ⟪main_arg1⟫ := by carry <;> rfl
theorem W14_arg2 : W14 m ρ c (Proc.devRef .tc main_arg2) = ⟪main_arg2⟫ := by carry <;> rfl
theorem W14_arg3 : W14 m ρ c (Proc.devRef .tc main_arg3) = ⟪main_arg3⟫ := by carry <;> rfl
theorem W14_arg5 : W14 m ρ c (Proc.devRef .tc main_arg5) = ⟪main_arg5⟫ := by carry <;> rfl
theorem W14_arg7 : W14 m ρ c (Proc.devRef .tc main_arg7) = ⟪main_arg7⟫ := by carry <;> rfl
theorem W14_v16 : W14 m ρ c (Proc.devRef .tc main_v16) = dinvArr0_dst ⟪main_arg1⟫ := by carry; exact W5_v16 m ρ c
theorem W14_v33 : W14 m ρ c (Proc.devRef .tc main_v33) = dinvArr1_dst ⟪main_arg2⟫ := by carry; exact W9_v33 m ρ c
theorem W14_v50 : W14 m ρ c (Proc.devRef .tc main_v50) = dinvArr2_dst ⟪main_arg3⟫ := by carry; exact W13_v50 m ρ c

theorem W15_v135 : W15 m ρ c (Proc.devRef .tc main_v135)
    = sumRel (projArr0 ⟪main_arg0⟫ (catW0 ⟪main_arg4⟫) (srcScales ⟪main_arg1⟫ ⟪main_arg2⟫ ⟪main_arg3⟫)) ⟪main_arg1⟫ ⟪main_arg2⟫ ⟪main_arg3⟫
        (dinvArr0_dst ⟪main_arg1⟫) (dinvArr1_dst ⟪main_arg2⟫) (dinvArr2_dst ⟪main_arg3⟫) ⟪main_arg5⟫ := by
  refine (host1_main_v135 _).trans ?_
  rw [W14_v62 m ρ c, W14_arg1 m ρ c, W14_arg2 m ρ c, W14_arg3 m ρ c, W14_arg5 m ρ c, W14_v16 m ρ c, W14_v33 m ρ c, W14_v50 m ρ c]
theorem W15_v136 : W15 m ρ c (Proc.devRef .tc main_v136) = asRow ⟪main_arg7⟫ :=
  (host1_main_v136 _).trans (congrArg asRow (W14_arg7 m ρ c))

theorem W15_arg6 : W15 m ρ c (Proc.devRef .tc main_arg6) = ⟪main_arg6⟫ := by carry <;> rfl

abbrev kH0 : Vec Ideal S100000x128 .f32 :=
  sumRel (projArr0 ⟪main_arg0⟫ (catW0 ⟪main_arg4⟫) (srcScales ⟪main_arg1⟫ ⟪main_arg2⟫ ⟪main_arg3⟫)) ⟪main_arg1⟫ ⟪main_arg2⟫ ⟪main_arg3⟫
    (dinvArr0_dst ⟪main_arg1⟫) (dinvArr1_dst ⟪main_arg2⟫) (dinvArr2_dst ⟪main_arg3⟫) ⟪main_arg5⟫

abbrev kY0 : S100000x128.Idx → EReal := fcArr (kH0 m c) ⟪main_arg6⟫ (asRow ⟪main_arg7⟫)

theorem W16_v137_0 : W16 m ρ c (Proc.devRef .tc main_v137_0) = kY0 m c := by
  refine ((W16_arr m ρ c 3).trans (arrAt1_3 (V15 m ρ) c)).trans ?_
  show fcY (W15 m ρ c (Proc.devRef .tc main_v135)) (W15 m ρ c (Proc.devRef .tc main_arg6)) (W15 m ρ c (Proc.devRef .tc main_v136)) = _
  rw [W15_v135 m ρ c, W15_arg6 m ρ c, W15_v136 m ρ c]
  rfl
theorem W16_v137_1 : W16 m ρ c (Proc.devRef .tc main_v137_1) = colSumArr (kY0 m c) := by
  refine ((W16_arr m ρ c 4).trans (arrAt1_4 (V15 m ρ) c)).trans ?_
  show colSum (fcY (W15 m ρ c (Proc.devRef .tc main_v135)) (W15 m ρ c (Proc.devRef .tc main_arg6)) (W15 m ρ c (Proc.devRef .tc main_v136))) = _
  rw [W15_v135 m ρ c, W15_arg6 m ρ c, W15_v136 m ρ c]
  rfl
theorem W16_v137_2 : W16 m ρ c (Proc.devRef .tc main_v137_2) = colSumArr (fun i => kY0 m c i * kY0 m c i) := by
  refine ((W16_arr m ρ c 5).trans (arrAt1_5 (V15 m ρ) c)).trans ?_
  show colSum (fun i => fcY (W15 m ρ c (Proc.devRef .tc main_v135)) (W15 m ρ c (Proc.devRef .tc main_arg6)) (W15 m ρ c (Proc.devRef .tc main_v136)) i
      * fcY (W15 m ρ c (Proc.devRef .tc main_v135)) (W15 m ρ c (Proc.devRef .tc main_arg6)) (W15 m ρ c (Proc.devRef .tc main_v136)) i) = _
  rw [W15_v135 m ρ c, W15_arg6 m ρ c, W15_v136 m ρ c]
  rfl

theorem W16_arg8 : W16 m ρ c (Proc.devRef .tc main_arg8) = ⟪main_arg8⟫ := by carry <;> rfl
theorem W16_arg9 : W16 m ρ c (Proc.devRef .tc main_arg9) = ⟪main_arg9⟫ := by carry <;> rfl

theorem W17_v146 : W17 m ρ c (Proc.devRef .tc main_v146) = asRow (F := Ideal) (meanOf (F := Ideal) (colSumArr (kY0 m c))) :=
  (host2_main_v146 _).trans (congrArg (fun s => asRow (F := Ideal) (meanOf (F := Ideal) s)) (W16_v137_1 m ρ c))
theorem W17_v147 : W17 m ρ c (Proc.devRef .tc main_v147)
    = asRow (F := Ideal) (varOf (F := Ideal) (colSumArr (kY0 m c)) (colSumArr fun i => kY0 m c i * kY0 m c i)) :=
  (host2_main_v147 _).trans (congrArg₂ (fun s q => asRow (F := Ideal) (varOf (F := Ideal) s q)) (W16_v137_1 m ρ c) (W16_v137_2 m ρ c))
theorem W17_v148 : W17 m ρ c (Proc.devRef .tc main_v148) = asRow ⟪main_arg8⟫ :=
  (host2_main_v148 _).trans (congrArg asRow (W16_arg8 m ρ c))
theorem W17_v149 : W17 m ρ c (Proc.devRef .tc main_v149) = asRow ⟪main_arg9⟫ :=
  (host2_main_v149 _).trans (congrArg asRow (W16_arg9 m ρ c))
theorem W17_v137_0 : W17 m ρ c (Proc.devRef .tc main_v137_0) = kY0 m c := by carry; exact W16_v137_0 m ρ c

theorem W18_v150 : W18 m ρ c (Proc.devRef .tc main_v150)
    = kerArr0 ⟪main_arg0⟫ ⟪main_arg1⟫ ⟪main_arg2⟫ ⟪main_arg3⟫ ⟪main_arg4⟫ ⟪main_arg5⟫ ⟪main_arg6⟫ ⟪main_arg7⟫ ⟪main_arg8⟫ ⟪main_arg9⟫ := by
  refine ((W18_arr m ρ c 5).trans (arrAt2_5 (V17 m ρ) c)).trans ?_
  show bnOut (W17 m ρ c (Proc.devRef .tc main_v137_0)) (W17 m ρ c (Proc.devRef .tc main_v146)) (W17 m ρ c (Proc.devRef .tc main_v147))
      (W17 m ρ c (Proc.devRef .tc main_v148)) (W17 m ρ c (Proc.devRef .tc main_v149)) = _
  rw [W17_v137_0 m ρ c, W17_v146 m ρ c, W17_v147 m ρ c, W17_v148 m ρ c, W17_v149 m ρ c]
  rfl

abbrev kL0 : S100000x128.Idx → EReal :=
  kerArr0 ⟪main_arg0⟫ ⟪main_arg1⟫ ⟪main_arg2⟫ ⟪main_arg3⟫ ⟪main_arg4⟫ ⟪main_arg5⟫ ⟪main_arg6⟫ ⟪main_arg7⟫ ⟪main_arg8⟫ ⟪main_arg9⟫

theorem W18_arg10 : W18 m ρ c (Proc.devRef .tc main_arg10) = ⟪main_arg10⟫ := by carry <;> rfl
theorem W19_v157 : W19 m ρ c (Proc.devRef .tc main_v157) = catW1 ⟪main_arg10⟫ :=
  (host3_main_v157 _).trans (congrArg catW1 (W18_arg10 m ρ c))
theorem W19_v150 : W19 m ρ c (Proc.devRef .tc main_v150) = kL0 m c := by carry; exact W18_v150 m ρ c
theorem W19_v54 : W19 m ρ c (Proc.devRef .tc main_v54) = srcScales ⟪main_arg1⟫ ⟪main_arg2⟫ ⟪main_arg3⟫ := by
  carry; exact W13_v54 m ρ c

theorem W20_v158 : W20 m ρ c (Proc.devRef .tc main_v158)
    = projArr1 (kL0 m c) (catW1 ⟪main_arg10⟫) (srcScales ⟪main_arg1⟫ ⟪main_arg2⟫ ⟪main_arg3⟫) := by
  refine ((W20_arr m ρ c 3).trans (arrAt3_3 (V19 m ρ) c)).trans ?_
  show projFull3 (W19 m ρ c (Proc.devRef .tc main_v150)) (W19 m ρ c (Proc.devRef .tc main_v157)) (W19 m ρ c (Proc.devRef .tc main_v54)) = _
  rw [W19_v150 m ρ c, W19_v157 m ρ c, W19_v54 m ρ c]
  rfl

theorem W20_arg1 : W20 m ρ c (Proc.devRef .tc main_arg1) = ⟪main_arg1⟫ := by carry <;> rfl
theorem W20_arg2 : W20 m ρ c (Proc.devRef .tc main_arg2) = ⟪main_arg2⟫ := by carry <;> rfl
theorem W20_arg3 : W20 m ρ c (Proc.devRef .tc main_arg3) = ⟪main_arg3⟫ := by carry <;> rfl
theorem W20_arg11 : W20 m ρ c (Proc.devRef .tc main_arg11) = ⟪main_arg11⟫ := by carry <;> rfl
theorem W20_arg13 : W20 m ρ c (Proc.devRef .tc main_arg13) = ⟪main_arg13⟫ := by carry <;> rfl
theorem W20_v16 : W20 m ρ c (Proc.devRef .tc main_v16) = dinvArr0_dst ⟪main_arg1⟫ := by carry; exact W5_v16 m ρ c
theorem W20_v33 : W20 m ρ c (Proc.devRef .tc main_v33) = dinvArr1_dst ⟪main_arg2⟫ := by carry; exact W9_v33 m ρ c
theorem W20_v50 : W20 m ρ c (Proc.devRef .tc main_v50) = dinvArr2_dst ⟪main_arg3⟫ := by carry; exact W13_v50 m ρ c

abbrev kH1 : Vec Ideal S100000x128 .f32 :=
  sumRel (projArr1 (kL0 m c) (catW1 ⟪main_arg10⟫) (srcScales ⟪main_arg1⟫ ⟪main_arg2⟫ ⟪main_arg3⟫)) ⟪main_arg1⟫ ⟪main_arg2⟫ ⟪main_arg3⟫
    (dinvArr0_dst ⟪main_arg1⟫) (dinvArr1_dst ⟪main_arg2⟫) (dinvArr2_dst ⟪main_arg3⟫) ⟪main_arg11⟫

abbrev kY1 : S100000x128.Idx → EReal := fcArr (kH1 m c) ⟪main_arg12⟫ (asRow ⟪main_arg13⟫)

theorem W21_v231 : W21 m ρ c (Proc.devRef .tc main_v231) = kH1 m c := by
  refine (host4_main_v231 _).trans ?_
  rw [W20_v158 m ρ c, W20_arg1 m ρ c, W20_arg2 m ρ c, W20_arg3 m ρ c, W20_arg11 m ρ c, W20_v16 m ρ c, W20_v33 m ρ c, W20_v50 m ρ c]
theorem W21_v232 : W21 m ρ c (Proc.devRef .tc main_v232) = asRow ⟪main_arg13⟫ :=
  (host4_main_v232 _).trans (congrArg asRow (W20_arg13 m ρ c))
theorem W21_arg12 : W21 m ρ c (Proc.devRef .tc main_arg12) = ⟪main_arg12⟫ := by carry <;> rfl

theorem W22_v233_0 : W22 m ρ c (Proc.devRef .tc main_v233_0) = kY1 m c := by
  refine ((W22_arr m ρ c 3).trans (arrAt4_3 (V21 m ρ) c)).trans ?_
  show fcY4 (W21 m ρ c (Proc.devRef .tc main_v231)) (W21 m ρ c (Proc.devRef .tc main_arg12)) (W21 m ρ c (Proc.devRef .tc main_v232)) = _
  rw [W21_v231 m ρ c, W21_arg12 m ρ c, W21_v232 m ρ c]
  rfl
theorem W22_v233_1 : W22 m ρ c (Proc.devRef .tc main_v233_1) = colSumArr (kY1 m c) := by
  refine ((W22_arr m ρ c 4).trans (arrAt4_4 (V21 m ρ) c)).trans ?_
  show colSum4 (fcY4 (W21 m ρ c (Proc.devRef .tc main_v231)) (W21 m ρ c (Proc.devRef .tc main_arg12)) (W21 m ρ c (Proc.devRef .tc main_v232))) = _
  rw [W21_v231 m ρ c, W21_arg12 m ρ c, W21_v232 m ρ c]
  rfl
theorem W22_v233_2 : W22 m ρ c (Proc.devRef .tc main_v233_2) = colSumArr (fun i => kY1 m c i * kY1 m c i) := by
  refine ((W22_arr m ρ c 5).trans (arrAt4_5 (V21 m ρ) c)).trans ?_
  show colSum4 (fun i => fcY4 (W21 m ρ c (Proc.devRef .tc main_v231)) (W21 m ρ c (Proc.devRef .tc main_arg12)) (W21 m ρ c (Proc.devRef .tc main_v232)) i
      * fcY4 (W21 m ρ c (Proc.devRef .tc main_v231)) (W21 m ρ c (Proc.devRef .tc main_arg12)) (W21 m ρ c (Proc.devRef .tc main_v232)) i) = _
  rw [W21_v231 m ρ c, W21_arg12 m ρ c, W21_v232 m ρ c]
  rfl

theorem W22_arg14 : W22 m ρ c (Proc.devRef .tc main_arg14) = ⟪main_arg14⟫ := by carry <;> rfl
theorem W22_arg15 : W22 m ρ c (Proc.devRef .tc main_arg15) = ⟪main_arg15⟫ := by carry <;> rfl

theorem W23_v242 : W23 m ρ c (Proc.devRef .tc main_v242) = asRow (F := Ideal) (meanOf (F := Ideal) (colSumArr (kY1 m c))) :=
  (host5_main_v242 _).trans (congrArg (fun s => asRow (F := Ideal) (meanOf (F := Ideal) s)) (W22_v233_1 m ρ c))
theorem W23_v243 : W23 m ρ c (Proc.devRef .tc main_v243)
    = asRow (F := Ideal) (varOf (F := Ideal) (colSumArr (kY1 m c)) (colSumArr fun i => kY1 m c i * kY1 m c i)) :=
  (host5_main_v243 _).trans (congrArg₂ (fun s q => asRow (F := Ideal) (varOf (F := Ideal) s q)) (W22_v233_1 m ρ c) (W22_v233_2 m ρ c))
theorem W23_v244 : W23 m ρ c (Proc.devRef .tc main_v244) = asRow ⟪main_arg14⟫ :=
  (host5_main_v244 _).trans (congrArg asRow (W22_arg14 m ρ c))
theorem W23_v245 : W23 m ρ c (Proc.devRef .tc main_v245) = asRow ⟪main_arg15⟫ :=
  (host5_main_v245 _).trans (congrArg asRow (W22_arg15 m ρ c))
theorem W23_v233_0 : W23 m ρ c (Proc.devRef .tc main_v233_0) = kY1 m c := by carry; exact W22_v233_0 m ρ c

theorem W24_v246 : W24 m ρ c (Proc.devRef .tc main_v246)
    = kerArr1 (kerArr0 ⟪main_arg0⟫ ⟪main_arg1⟫ ⟪main_arg2⟫ ⟪main_arg3⟫ ⟪main_arg4⟫ ⟪main_arg5⟫ ⟪main_arg6⟫ ⟪main_arg7⟫ ⟪main_arg8⟫ ⟪main_arg9⟫)
        ⟪main_arg1⟫ ⟪main_arg2⟫ ⟪main_arg3⟫ ⟪main_arg10⟫ ⟪main_arg11⟫ ⟪main_arg12⟫ ⟪main_arg13⟫ ⟪main_arg14⟫ ⟪main_arg15⟫ := by
  refine ((W24_arr m ρ c 5).trans (arrAt5_5 (V23 m ρ) c)).trans ?_
  show bnOut5 (W23 m ρ c (Proc.devRef .tc main_v233_0)) (W23 m ρ c (Proc.devRef .tc main_v242)) (W23 m ρ c (Proc.devRef .tc main_v243))
      (W23 m ρ c (Proc.devRef .tc main_v244)) (W23 m ρ c (Proc.devRef .tc main_v245)) = _
  rw [W23_v233_0 m ρ c, W23_v242 m ρ c, W23_v243 m ρ c, W23_v244 m ρ c, W23_v245 m ρ c]
  rfl

end Cert.KernelIdeal.Hand

end
-- ==== Proof.KI.HostIdx.lean ====
import proofs.«175263_j29738353557973_1_alg».proof.Proof.KI.HostVal
import Idealize.ShloMosaic.Lib.ValueIdx
import Idealize.ShloMosaic.Lib.ValueLayout
import Idealize.ShloMosaic.PureOps.Ideal

noncomputable section

namespace Cert.KernelIdeal.Hand

open Cert.KernelIdeal Cert.KernelIdeal.Gen
open Idealize.ShloMosaic Idealize.ShloMosaic.TcCoe Idealize.ShloMosaic.StableHlo
open Idealize.ShloMosaic.ValueIdx

section Layout
variable {F : FTy → Type} [FloatOps F]

theorem asCol_apply (d : Vec F S100000 .f32) (i : Fin 100000) (u : Fin 1) : asCol d (ix2 i u) = d (ix1 i) :=
  broadcastInDim_apply _ _ d (ix2 i u) (ix1 i) fun a => by
    match a with
    | ⟨0, _⟩ => rfl

theorem asRow_apply (v : Vec F S128 .f32) (u : Fin 1) (j : Fin 128) : asRow v (ix2 u j) = v (ix1 j) :=
  broadcastInDim_apply _ _ v (ix2 u j) (ix1 j) fun a => by
    match a with
    | ⟨0, _⟩ => rfl

theorem rowScale_apply (d : Vec F S100000 .f32) (i : Fin 100000) (j : Fin 128) : rowScale d (ix2 i j) = d (ix1 i) :=
  (broadcastInDim_apply _ _ (asCol d) (ix2 i j) (ix2 i (0 : Fin 1)) fun a => by
    match a with
    | ⟨0, _⟩ => rfl
    | ⟨1, _⟩ => rfl).trans (asCol_apply d i 0)

theorem overNodes_apply (v : Vec F S128 .f32) (i : Fin 100000) (j : Fin 128) : overNodes v (ix2 i j) = v (ix1 j) :=
  (broadcastInDim_apply _ _ (asRow v) (ix2 i j) (ix2 (0 : Fin 1) j) fun a => by
    match a with
    | ⟨0, _⟩ => rfl
    | ⟨1, _⟩ => rfl).trans (asRow_apply v 0 j)

theorem scaleCols_apply (a b c : Vec F S100000 .f32) (i : Fin 100000) (k : Fin 3) :
    scaleCols a b c (ix2 i k) = (![a, b, c] k) (ix1 i) :=
  (concatenate_ofFn_apply (t := S100000x3) (s₁ := S100000x1) (1 : Fin S100000x3.rank)
      (fun n : Fin 3 => asCol ((![a, b, c] : Fin 3 → Vec F S100000 .f32) n))
      concatenates_S100000x1_S100000x1_S100000x1_S100000x3_d1 rfl 1 rfl (ix2 i k) k (Nat.div_one _)
      (ix2 i (0 : Fin 1)) (Nat.mod_one _).symm
      (fun b hb => by
        match b with
        | ⟨0, _⟩ => rfl
        | ⟨1, _⟩ => exact absurd (Fin.ext rfl) hb)).trans
    (asCol_apply _ i 0)

theorem scaleCols_apply0 (a b c : Vec F S100000 .f32) (i : Fin 100000) (k : Fin 3) (hk : k.val = 0) :
    scaleCols a b c (ix2 i k) = a (ix1 i) := by
  obtain rfl : k = 0 := Fin.ext hk
  exact scaleCols_apply a b c i 0

theorem scaleCols_apply1 (a b c : Vec F S100000 .f32) (i : Fin 100000) (k : Fin 3) (hk : k.val = 1) :
    scaleCols a b c (ix2 i k) = b (ix1 i) := by
  obtain rfl : k = 1 := Fin.ext hk
  exact scaleCols_apply a b c i 1

theorem scaleCols_apply2 (a b c : Vec F S100000 .f32) (i : Fin 100000) (k : Fin 3) (hk : k.val = 2) :
    scaleCols a b c (ix2 i k) = c (ix1 i) := by
  obtain rfl : k = 2 := Fin.ext hk
  exact scaleCols_apply a b c i 2

theorem stack_slice_apply {α : Type} {K : ℕ} (w : (⟨3, ![3, K, 128]⟩ : Shape).Idx → α) (r : Fin 3)
    (h : (⟨3, ![3, K, 128]⟩ : Shape).Slices ![r.val, 0, 0] ⟨3, ![1, K, 128]⟩)
    (hc : (⟨3, ![1, K, 128]⟩ : Shape).ShapeCasts ⟨2, ![K, 128]⟩) (k : Fin K) (j : Fin 128) :
    shapeCast ⟨2, ![K, 128]⟩ (extractStridedSlice ⟨3, ![1, K, 128]⟩ ![r.val, 0, 0] w h) hc (ix2 k j) = w (ix3 r k j) :=
  (shapeCast_1ab_ab_apply _ hc k j).trans
    (extractStridedSlice_apply _ w h (ix3 (0 : Fin 1) k j) (ix3 r k j) fun a => by
      match a with
      | ⟨0, _⟩ => rfl
      | ⟨1, _⟩ => exact (Nat.zero_add _).symm
      | ⟨2, _⟩ => exact (Nat.zero_add _).symm)

theorem slices_stack0 (n : Fin 3) : S3x1280x128.Slices ![n.val, 0, 0] S1x1280x128 := by revert n; decide

theorem slices_stack1 (n : Fin 3) : S3x128x128.Slices ![n.val, 0, 0] S1x128x128 := by revert n; decide

theorem catW0_apply (w : Vec F S3x1280x128 .f32) (k : Fin 1280) (j : Fin 384) :
    catW0 w (ix2 k j)
      = w (ix3 (⟨j.val / 128, by have := j.isLt; omega⟩ : Fin 3) k (⟨j.val % 128, Nat.mod_lt _ (by decide)⟩ : Fin 128)) :=
  (concatenate_ofFn_apply (t := S1280x384) (s₁ := S1280x128) (1 : Fin S1280x384.rank)
      (fun n : Fin 3 => shapeCast S1280x128
        (extractStridedSlice S1x1280x128 ![n.val, 0, 0] w (slices_stack0 n)) shapeCasts_S1x1280x128_S1280x128)
      concatenates_S1280x128_S1280x128_S1280x128_S1280x384_d1 rfl 128 rfl (ix2 k j)
      (⟨j.val / 128, by have := j.isLt; omega⟩ : Fin 3) rfl
      (ix2 k (⟨j.val % 128, Nat.mod_lt _ (by decide)⟩ : Fin 128)) rfl
      (fun b hb => by
        match b with
        | ⟨0, _⟩ => rfl
        | ⟨1, _⟩ => exact absurd (Fin.ext rfl) hb)).trans
    (stack_slice_apply w _ _ _ k _)

theorem catW0_apply_piece (w : Vec F S3x1280x128 .f32) (k : Fin 1280) (j : Fin 384) (r : Fin 3) (c : Fin 128)
    (hj : j.val = 128 * r.val + c.val) : catW0 w (ix2 k j) = w (ix3 r k c) :=
  (catW0_apply w k j).trans
    (congrArg₂ (fun (r' : Fin 3) (c' : Fin 128) => w (ix3 r' k c'))
      (Fin.ext (by show j.val / 128 = r.val; have := c.isLt; omega))
      (Fin.ext (by show j.val % 128 = c.val; have := c.isLt; omega)))

theorem catW1_apply (w : Vec F S3x128x128 .f32) (k : Fin 128) (j : Fin 384) :
    catW1 w (ix2 k j)
      = w (ix3 (⟨j.val / 128, by have := j.isLt; omega⟩ : Fin 3) k (⟨j.val % 128, Nat.mod_lt _ (by decide)⟩ : Fin 128)) :=
  (concatenate_ofFn_apply (t := S128x384) (s₁ := S128x128) (1 : Fin S128x384.rank)
      (fun n : Fin 3 => shapeCast S128x128
        (extractStridedSlice S1x128x128 ![n.val, 0, 0] w (slices_stack1 n)) shapeCasts_S1x128x128_S128x128)
      concatenates_S128x128_S128x128_S128x128_S128x384_d1 rfl 128 rfl (ix2 k j)
      (⟨j.val / 128, by have := j.isLt; omega⟩ : Fin 3) rfl
      (ix2 k (⟨j.val % 128, Nat.mod_lt _ (by decide)⟩ : Fin 128)) rfl
      (fun b hb => by
        match b with
        | ⟨0, _⟩ => rfl
        | ⟨1, _⟩ => exact absurd (Fin.ext rfl) hb)).trans
    (stack_slice_apply w _ _ _ k _)

theorem catW1_apply_piece (w : Vec F S3x128x128 .f32) (k : Fin 128) (j : Fin 384) (r : Fin 3) (c : Fin 128)
    (hj : j.val = 128 * r.val + c.val) : catW1 w (ix2 k j) = w (ix3 r k c) :=
  (catW1_apply w k j).trans
    (congrArg₂ (fun (r' : Fin 3) (c' : Fin 128) => w (ix3 r' k c'))
      (Fin.ext (by show j.val / 128 = r.val; have := c.isLt; omega))
      (Fin.ext (by show j.val % 128 = c.val; have := c.isLt; omega)))

theorem projSlice0_apply (p : Vec F S100000x384 .f32) (i : Fin 100000) (j : Fin 128) :
    projSlice0 p (ix2 i j) = p (ix2 i (⟨j.val, by have := j.isLt; omega⟩ : Fin 384)) :=
  slice2_axis1_apply 0 p _ i j ⟨j.val, by have := j.isLt; omega⟩ (Nat.zero_add _).symm

theorem projSlice1_apply (p : Vec F S100000x384 .f32) (i : Fin 100000) (j : Fin 128) :
    projSlice1 p (ix2 i j) = p (ix2 i (⟨128 + j.val, by have := j.isLt; omega⟩ : Fin 384)) :=
  slice2_axis1_apply 128 p _ i j ⟨128 + j.val, by have := j.isLt; omega⟩ rfl

theorem projSlice2_apply (p : Vec F S100000x384 .f32) (i : Fin 100000) (j : Fin 128) :
    projSlice2 p (ix2 i j) = p (ix2 i (⟨256 + j.val, by have := j.isLt; omega⟩ : Fin 384)) :=
  slice2_axis1_apply 256 p _ i j ⟨256 + j.val, by have := j.isLt; omega⟩ rfl

theorem biasVec0_apply (b : Vec F S3x128 .f32) (j : Fin 128) : biasVec0 b (ix1 j) = b (ix2 (0 : Fin 3) j) :=
  (shapeCast_1a_a_apply _ _ j).trans (slice2_axis0_apply 0 b _ (0 : Fin 1) j (0 : Fin 3) rfl)

theorem biasVec1_apply (b : Vec F S3x128 .f32) (j : Fin 128) : biasVec1 b (ix1 j) = b (ix2 (1 : Fin 3) j) :=
  (shapeCast_1a_a_apply _ _ j).trans (slice2_axis0_apply 1 b _ (0 : Fin 1) j (1 : Fin 3) rfl)

theorem biasVec2_apply (b : Vec F S3x128 .f32) (j : Fin 128) : biasVec2 b (ix1 j) = b (ix2 (2 : Fin 3) j) :=
  (shapeCast_1a_a_apply _ _ j).trans (slice2_axis0_apply 2 b _ (0 : Fin 1) j (2 : Fin 3) rfl)

end Layout

section AtIdeal

theorem ofBits_zero : Ideal.ofBits .f32 0x00000000#32 = 0 := by simp [Ideal.ofBits, Ideal.ieee]

theorem zerosNH_apply (x : S100000x128.Idx) : zerosNH (F := Ideal) x = 0 := ofBits_zero

theorem relTerm_apply (a : FVec Ideal S100000x128 .f32) (d : FVec Ideal S100000 .f32) (b : FVec Ideal S128 .f32)
    (i : Fin 100000) (j : Fin 128) : relTerm (F := Ideal) a d b (ix2 i j) = a (ix2 i j) * d (ix1 i) + b (ix1 j) := by
  show a (ix2 i j) * rowScale (F := Ideal) d (ix2 i j) + overNodes (F := Ideal) b (ix2 i j) = _
  rw [rowScale_apply, overNodes_apply]

theorem sumRel_apply (p : FVec Ideal S100000x384 .f32) (e0 : IVec S2x200000 32) (e1 : IVec S2x1000000 32)
    (e2 : IVec S2x1600000 32) (d0 d1 d2 : FVec Ideal S100000 .f32) (b : FVec Ideal S3x128 .f32)
    (i : Fin 100000) (j : Fin 128) :
    sumRel (F := Ideal) p e0 e1 e2 d0 d1 d2 b (ix2 i j)
      = ((0 + (aggArr0 (F := Ideal) e0 (projSlice0 (F := Ideal) p) (ix2 i j) * d0 (ix1 i) + b (ix2 (0 : Fin 3) j)))
          + (aggArr1 (F := Ideal) e1 (projSlice1 (F := Ideal) p) (ix2 i j) * d1 (ix1 i) + b (ix2 (1 : Fin 3) j)))
        + (aggArr2 (F := Ideal) e2 (projSlice2 (F := Ideal) p) (ix2 i j) * d2 (ix1 i) + b (ix2 (2 : Fin 3) j)) := by
  show ((zerosNH (F := Ideal) (ix2 i j)
            + relTerm (F := Ideal) (aggArr0 (F := Ideal) e0 (projSlice0 (F := Ideal) p)) d0 (biasVec0 (F := Ideal) b) (ix2 i j))
          + relTerm (F := Ideal) (aggArr1 (F := Ideal) e1 (projSlice1 (F := Ideal) p)) d1 (biasVec1 (F := Ideal) b) (ix2 i j))
        + relTerm (F := Ideal) (aggArr2 (F := Ideal) e2 (projSlice2 (F := Ideal) p)) d2 (biasVec2 (F := Ideal) b) (ix2 i j) = _
  rw [zerosNH_apply, relTerm_apply, relTerm_apply, relTerm_apply, biasVec0_apply, biasVec1_apply, biasVec2_apply]

theorem meanOf_apply (s : FVec Ideal S1x128 .f32) (j : Fin 128) :
    meanOf (F := Ideal) s (ix1 j) = Ideal.div (s (ix2 (0 : Fin 1) j)) (Ideal.ofBits .f32 0x47C35000#32) := by
  show Ideal.div (shapeCast S128 s shapeCasts_S1x128_S128 (ix1 j)) (Ideal.ofBits .f32 0x47C35000#32) = _
  rw [shapeCast_1a_a_apply]

theorem varOf_apply (s q : FVec Ideal S1x128 .f32) (j : Fin 128) :
    varOf (F := Ideal) s q (ix1 j)
      = Ideal.div (q (ix2 (0 : Fin 1) j)) (Ideal.ofBits .f32 0x47C35000#32)
        - Ideal.div (s (ix2 (0 : Fin 1) j)) (Ideal.ofBits .f32 0x47C35000#32)
          * Ideal.div (s (ix2 (0 : Fin 1) j)) (Ideal.ofBits .f32 0x47C35000#32) := by
  show meanOf (F := Ideal) q (ix1 j) - meanOf (F := Ideal) s (ix1 j) * meanOf (F := Ideal) s (ix1 j) = _
  rw [meanOf_apply, meanOf_apply]

theorem ofBits_nodeCount : Ideal.ofBits .f32 0x47C35000#32 = ((100000 : ℝ) : EReal) := by
  simp [Ideal.ofBits, Ideal.ieee, -EReal.coe_mul]; norm_num

end AtIdeal

end Cert.KernelIdeal.Hand

end
-- ==== Proof.Layer.lean ====
import Mathlib.Data.EReal.Inv
import Mathlib.Algebra.BigOperators.Group.Finset.Basic

noncomputable section

namespace Cert.Layer

open BigOperators

variable {n K H : ℕ}

def dense (h : Fin n → Fin H → EReal) (fcW : Fin H → Fin H → EReal) (fcb : Fin H → EReal) : Fin n → Fin H → EReal :=
  fun i j => max ((∑ k : Fin H, h i k * fcW k j) + fcb j) 0

def normalize (rs : EReal → EReal) (e : EReal) (y : Fin n → Fin H → EReal) (m v g beta : Fin H → EReal) : Fin n → Fin H → EReal :=
  fun i j => (y i j - m j) * rs (v j + e) * g j + beta j

def refLayer (so si : Fin 3 → Fin n → EReal) (A : Fin 3 → (Fin n → Fin H → EReal) → Fin n → Fin H → EReal)
    (dv rs : EReal → EReal) (e : EReal)
    (x : Fin n → Fin K → EReal) (W : Fin 3 → Fin K → Fin H → EReal) (b : Fin 3 → Fin H → EReal)
    (fcW : Fin H → Fin H → EReal) (fcb g beta : Fin H → EReal) : Fin n → Fin H → EReal :=
  let hr : Fin 3 → Fin n → Fin H → EReal := fun r i j =>
    A r (fun i j => ∑ k : Fin K, (x i k * so r i) * W r k j) i j * si r i + b r j
  let h : Fin n → Fin H → EReal := fun i j => (hr 0 i j + hr 1 i j) + hr 2 i j
  let y := dense h fcW fcb
  let m : Fin H → EReal := fun j => dv (0 + ∑ i : Fin n, y i j)
  let v : Fin H → EReal := fun j => dv (0 + ∑ i : Fin n, (y i j - m j) * (y i j - m j))
  normalize rs e y m v g beta

def kerLayer (so si : Fin 3 → Fin n → EReal) (A : Fin 3 → (Fin n → Fin H → EReal) → Fin n → Fin H → EReal)
    (dv rs : EReal → EReal) (e : EReal)
    (x : Fin n → Fin K → EReal) (W : Fin 3 → Fin K → Fin H → EReal) (b : Fin 3 → Fin H → EReal)
    (fcW : Fin H → Fin H → EReal) (fcb g beta : Fin H → EReal) : Fin n → Fin H → EReal :=
  let hr : Fin 3 → Fin n → Fin H → EReal := fun r i j =>
    A r (fun i j => (∑ k : Fin K, x i k * W r k j) * so r i) i j * si r i + b r j
  let h : Fin n → Fin H → EReal := fun i j => ((0 + hr 0 i j) + hr 1 i j) + hr 2 i j
  let y := dense h fcW fcb
  let m : Fin H → EReal := fun j => dv (∑ i : Fin n, y i j)
  let v : Fin H → EReal := fun j => dv (∑ i : Fin n, y i j * y i j) - m j * m j
  normalize rs e y m v g beta

def IsR (a : EReal) : Prop := ∃ r : ℝ, a = (r : EReal)

end Cert.Layer

end
-- ==== Proof.Spec.lean ====
import proofs.«175263_j29738353557973_1_alg».proof.Proof.Gen.KernelIdeal
import Idealize.ShloMosaic.Lib.ValueIdx
import Idealize.ShloMosaic.PureOps.Ideal.Laws
import proofs.«175263_j29738353557973_1_alg».proof.Proof.Layer

noncomputable section

namespace Cert.Spec

open Cert.KernelIdeal Cert.KernelIdeal.Gen
open Idealize.ShloMosaic
open Cert.Layer (IsR)
open scoped BigOperators

variable {F : FTy → Type} [FloatOps F]

def srcIdx0 (e : IVec S2x200000 32) : IVec S200000 32 :=
  shapeCast S200000 (extractStridedSlice S1x200000 ![0, 0] e slices_S2x200000_S1x200000_0_0) shapeCasts_S1x200000_S200000

def dstIdx0 (e : IVec S2x200000 32) : IVec S200000 32 :=
  shapeCast S200000 (extractStridedSlice S1x200000 ![1, 0] e slices_S2x200000_S1x200000_1_0) shapeCasts_S1x200000_S200000

def srcIdx1 (e : IVec S2x1000000 32) : IVec S1000000 32 :=
  shapeCast S1000000 (extractStridedSlice S1x1000000 ![0, 0] e slices_S2x1000000_S1x1000000_0_0) shapeCasts_S1x1000000_S1000000

def dstIdx1 (e : IVec S2x1000000 32) : IVec S1000000 32 :=
  shapeCast S1000000 (extractStridedSlice S1x1000000 ![1, 0] e slices_S2x1000000_S1x1000000_1_0) shapeCasts_S1x1000000_S1000000

def srcIdx2 (e : IVec S2x1600000 32) : IVec S1600000 32 :=
  shapeCast S1600000 (extractStridedSlice S1x1600000 ![0, 0] e slices_S2x1600000_S1x1600000_0_0) shapeCasts_S1x1600000_S1600000

def dstIdx2 (e : IVec S2x1600000 32) : IVec S1600000 32 :=
  shapeCast S1600000 (extractStridedSlice S1x1600000 ![1, 0] e slices_S2x1600000_S1x1600000_1_0) shapeCasts_S1x1600000_S1600000

def oneS : FVec F S_ .f32 := constant (F := F) S_ .f32 0x3F800000#32

def zerosN : FVec F S100000 .f32 := broadcastInDim S100000 ![] bcast_S_S100000 (constant (F := F) S_ .f32 0x00000000#32)

def ones0 : FVec F S200000 .f32 := broadcastInDim S200000 ![] bcast_S_S200000 (constant (F := F) S_ .f32 0x3F800000#32)

def ones1 : FVec F S1000000 .f32 := broadcastInDim S1000000 ![] bcast_S_S1000000 (constant (F := F) S_ .f32 0x3F800000#32)

def ones2 : FVec F S1600000 .f32 := broadcastInDim S1600000 ![] bcast_S_S1600000 (constant (F := F) S_ .f32 0x3F800000#32)

def degOf0 (idx : IVec S200000 32) (u : FVec F S200000 .f32) : FVec F S100000 .f32 :=
  Host.scatterAdd scatter_S100000_S200000x1_S200000_n_0_0_1 (zerosN (F := F)) (broadcastInDim S200000x1 ![0] bcast_S200000_S200000x1_0 idx) u

def degOf1 (idx : IVec S1000000 32) (u : FVec F S1000000 .f32) : FVec F S100000 .f32 :=
  Host.scatterAdd scatter_S100000_S1000000x1_S1000000_n_0_0_1 (zerosN (F := F)) (broadcastInDim S1000000x1 ![0] bcast_S1000000_S1000000x1_0 idx) u

def degOf2 (idx : IVec S1600000 32) (u : FVec F S1600000 .f32) : FVec F S100000 .f32 :=
  Host.scatterAdd scatter_S100000_S1600000x1_S1600000_n_0_0_1 (zerosN (F := F)) (broadcastInDim S1600000x1 ![0] bcast_S1600000_S1600000x1_0 idx) u

def clampOne (one : FVec F S_ .f32) (d : FVec F S100000 .f32) : FVec F S100000 .f32 :=
  maximumf (broadcastInDim S100000 ![] bcast_S_S100000 one) d

def invSqrt (d : FVec F S100000 .f32) : FVec F S100000 .f32 :=
  Host.powf d (broadcastInDim S100000 ![] bcast_S_S100000 (constant (F := F) S_ .f32 0xBF000000#32))

def dinvArr0_src (e : IVec S2x200000 32) : FVec F S100000 .f32 :=
  invSqrt (clampOne (oneS (F := F)) (degOf0 (srcIdx0 e) (ones0 (F := F))))

def dinvArr0_dst (e : IVec S2x200000 32) : FVec F S100000 .f32 :=
  invSqrt (clampOne (oneS (F := F)) (degOf0 (dstIdx0 e) (ones0 (F := F))))

def dinvArr1_src (e : IVec S2x1000000 32) : FVec F S100000 .f32 :=
  invSqrt (clampOne (oneS (F := F)) (degOf1 (srcIdx1 e) (ones1 (F := F))))

def dinvArr1_dst (e : IVec S2x1000000 32) : FVec F S100000 .f32 :=
  invSqrt (clampOne (oneS (F := F)) (degOf1 (dstIdx1 e) (ones1 (F := F))))

def dinvArr2_src (e : IVec S2x1600000 32) : FVec F S100000 .f32 :=
  invSqrt (clampOne (oneS (F := F)) (degOf2 (srcIdx2 e) (ones2 (F := F))))

def dinvArr2_dst (e : IVec S2x1600000 32) : FVec F S100000 .f32 :=
  invSqrt (clampOne (oneS (F := F)) (degOf2 (dstIdx2 e) (ones2 (F := F))))

def zerosNH : FVec F S100000x128 .f32 :=
  broadcastInDim S100000x128 ![] bcast_S_S100000x128 (constant (F := F) S_ .f32 0x00000000#32)

def wrapIdx0 (ix : IVec S200000 32) : IVec S200000 32 :=
  select (cmpi .slt ix (broadcastInDim S200000 ![] bcast_S_S200000 (constantI S_ 32 0#32)))
    (addi ix (broadcastInDim S200000 ![] bcast_S_S200000 (constantI S_ 32 100000#32))) ix

def gatherArr0 (e : IVec S2x200000 32) (h : FVec F S100000x128 .f32) : FVec F S200000x128 .f32 :=
  Host.gather gather_S100000x128_S200000x1_S200000x128_1_0_n_n_0_1_1128 h
    (broadcastInDim S200000x1 ![0] bcast_S200000_S200000x1_0 (wrapIdx0 (srcIdx0 e)))

def aggArr0 (e : IVec S2x200000 32) (h : FVec F S100000x128 .f32) : FVec F S100000x128 .f32 :=
  Host.scatterAdd scatter_S100000x128_S200000x1_S200000x128_1_0_0_1 (zerosNH (F := F))
    (broadcastInDim S200000x1 ![0] bcast_S200000_S200000x1_0 (dstIdx0 e)) (gatherArr0 e h)

def wrapIdx1 (ix : IVec S1000000 32) : IVec S1000000 32 :=
  select (cmpi .slt ix (broadcastInDim S1000000 ![] bcast_S_S1000000 (constantI S_ 32 0#32)))
    (addi ix (broadcastInDim S1000000 ![] bcast_S_S1000000 (constantI S_ 32 100000#32))) ix

def gatherArr1 (e : IVec S2x1000000 32) (h : FVec F S100000x128 .f32) : FVec F S1000000x128 .f32 :=
  Host.gather gather_S100000x128_S1000000x1_S1000000x128_1_0_n_n_0_1_1128 h
    (broadcastInDim S1000000x1 ![0] bcast_S1000000_S1000000x1_0 (wrapIdx1 (srcIdx1 e)))

def aggArr1 (e : IVec S2x1000000 32) (h : FVec F S100000x128 .f32) : FVec F S100000x128 .f32 :=
  Host.scatterAdd scatter_S100000x128_S1000000x1_S1000000x128_1_0_0_1 (zerosNH (F := F))
    (broadcastInDim S1000000x1 ![0] bcast_S1000000_S1000000x1_0 (dstIdx1 e)) (gatherArr1 e h)

def wrapIdx2 (ix : IVec S1600000 32) : IVec S1600000 32 :=
  select (cmpi .slt ix (broadcastInDim S1600000 ![] bcast_S_S1600000 (constantI S_ 32 0#32)))
    (addi ix (broadcastInDim S1600000 ![] bcast_S_S1600000 (constantI S_ 32 100000#32))) ix

def gatherArr2 (e : IVec S2x1600000 32) (h : FVec F S100000x128 .f32) : FVec F S1600000x128 .f32 :=
  Host.gather gather_S100000x128_S1600000x1_S1600000x128_1_0_n_n_0_1_1128 h
    (broadcastInDim S1600000x1 ![0] bcast_S1600000_S1600000x1_0 (wrapIdx2 (srcIdx2 e)))

def aggArr2 (e : IVec S2x1600000 32) (h : FVec F S100000x128 .f32) : FVec F S100000x128 .f32 :=
  Host.scatterAdd scatter_S100000x128_S1600000x1_S1600000x128_1_0_0_1 (zerosNH (F := F))
    (broadcastInDim S1600000x1 ![0] bcast_S1600000_S1600000x1_0 (dstIdx2 e)) (gatherArr2 e h)

def so (e1 : IVec S2x200000 32) (e2 : IVec S2x1000000 32) (e3 : IVec S2x1600000 32) : Fin 3 → Fin 100000 → EReal :=
  fun r i =>
    if r = 0 then dinvArr0_src (F := Ideal) e1 (ValueIdx.ix1 i)
    else if r = 1 then dinvArr1_src (F := Ideal) e2 (ValueIdx.ix1 i)
    else dinvArr2_src (F := Ideal) e3 (ValueIdx.ix1 i)

def si (e1 : IVec S2x200000 32) (e2 : IVec S2x1000000 32) (e3 : IVec S2x1600000 32) : Fin 3 → Fin 100000 → EReal :=
  fun r i =>
    if r = 0 then dinvArr0_dst (F := Ideal) e1 (ValueIdx.ix1 i)
    else if r = 1 then dinvArr1_dst (F := Ideal) e2 (ValueIdx.ix1 i)
    else dinvArr2_dst (F := Ideal) e3 (ValueIdx.ix1 i)

def A (e1 : IVec S2x200000 32) (e2 : IVec S2x1000000 32) (e3 : IVec S2x1600000 32) :
    Fin 3 → (Fin 100000 → Fin 128 → EReal) → Fin 100000 → Fin 128 → EReal :=
  fun r f i j =>
    if r = 0 then aggArr0 (F := Ideal) e1 (fun idx => f (idx 0) (idx 1)) (ValueIdx.ix2 i j)
    else if r = 1 then aggArr1 (F := Ideal) e2 (fun idx => f (idx 0) (idx 1)) (ValueIdx.ix2 i j)
    else aggArr2 (F := Ideal) e3 (fun idx => f (idx 0) (idx 1)) (ValueIdx.ix2 i j)

section Read
variable (e1 : IVec S2x200000 32) (e2 : IVec S2x1000000 32) (e3 : IVec S2x1600000 32)

theorem so_zero (i : Fin 100000) : so e1 e2 e3 0 i = dinvArr0_src (F := Ideal) e1 (ValueIdx.ix1 i) := by
  unfold so; rw [if_pos rfl]
theorem so_one (i : Fin 100000) : so e1 e2 e3 1 i = dinvArr1_src (F := Ideal) e2 (ValueIdx.ix1 i) := by
  unfold so; rw [if_neg (by decide), if_pos rfl]
theorem so_two (i : Fin 100000) : so e1 e2 e3 2 i = dinvArr2_src (F := Ideal) e3 (ValueIdx.ix1 i) := by
  unfold so; rw [if_neg (by decide), if_neg (by decide)]
theorem si_zero (i : Fin 100000) : si e1 e2 e3 0 i = dinvArr0_dst (F := Ideal) e1 (ValueIdx.ix1 i) := by
  unfold si; rw [if_pos rfl]
theorem si_one (i : Fin 100000) : si e1 e2 e3 1 i = dinvArr1_dst (F := Ideal) e2 (ValueIdx.ix1 i) := by
  unfold si; rw [if_neg (by decide), if_pos rfl]
theorem si_two (i : Fin 100000) : si e1 e2 e3 2 i = dinvArr2_dst (F := Ideal) e3 (ValueIdx.ix1 i) := by
  unfold si; rw [if_neg (by decide), if_neg (by decide)]
theorem A_zero (f : Fin 100000 → Fin 128 → EReal) (i : Fin 100000) (j : Fin 128) :
    A e1 e2 e3 0 f i j = aggArr0 (F := Ideal) e1 (fun idx => f (idx 0) (idx 1)) (ValueIdx.ix2 i j) := by
  unfold A; rw [if_pos rfl]
theorem A_one (f : Fin 100000 → Fin 128 → EReal) (i : Fin 100000) (j : Fin 128) :
    A e1 e2 e3 1 f i j = aggArr1 (F := Ideal) e2 (fun idx => f (idx 0) (idx 1)) (ValueIdx.ix2 i j) := by
  unfold A; rw [if_neg (by decide), if_pos rfl]
theorem A_two (f : Fin 100000 → Fin 128 → EReal) (i : Fin 100000) (j : Fin 128) :
    A e1 e2 e3 2 f i j = aggArr2 (F := Ideal) e3 (fun idx => f (idx 0) (idx 1)) (ValueIdx.ix2 i j) := by
  unfold A; rw [if_neg (by decide), if_neg (by decide)]

end Read

def IsNN (a : EReal) : Prop := ∃ r : ℝ, 0 ≤ r ∧ a = (r : EReal)

theorem IsNN.isR {a : EReal} (h : IsNN a) : IsR a := let ⟨r, _, e⟩ := h; ⟨r, e⟩

theorem isR_zero : IsR 0 := ⟨0, EReal.coe_zero.symm⟩
theorem isNN_zero : IsNN 0 := ⟨0, le_refl _, EReal.coe_zero.symm⟩
theorem isNN_one : IsNN 1 := ⟨1, zero_le_one, EReal.coe_one.symm⟩

theorem isR_add {a b : EReal} (ha : IsR a) (hb : IsR b) : IsR (a + b) := by
  obtain ⟨r, rfl⟩ := ha; obtain ⟨s, rfl⟩ := hb; exact ⟨r + s, (EReal.coe_add r s).symm⟩
theorem IsNN.add {a b : EReal} (ha : IsNN a) (hb : IsNN b) : IsNN (a + b) := by
  obtain ⟨r, hr, rfl⟩ := ha; obtain ⟨s, hs, rfl⟩ := hb; exact ⟨r + s, add_nonneg hr hs, (EReal.coe_add r s).symm⟩

theorem isR_sum {ι : Type} (S : Finset ι) (f : ι → EReal) (h : ∀ j ∈ S, IsR (f j)) : IsR (∑ j ∈ S, f j) := by
  classical
  induction S using Finset.induction_on with
  | empty => rw [Finset.sum_empty]; exact isR_zero
  | insert a S ha ih =>
    rw [Finset.sum_insert ha]
    exact isR_add (h a (Finset.mem_insert_self a S)) (ih fun j hj => h j (Finset.mem_insert_of_mem hj))

theorem IsNN.sum {ι : Type} (S : Finset ι) (f : ι → EReal) (h : ∀ j ∈ S, IsNN (f j)) : IsNN (∑ j ∈ S, f j) := by
  classical
  induction S using Finset.induction_on with
  | empty => rw [Finset.sum_empty]; exact isNN_zero
  | insert a S ha ih =>
    rw [Finset.sum_insert ha]
    exact (h a (Finset.mem_insert_self a S)).add (ih fun j hj => h j (Finset.mem_insert_of_mem hj))

theorem ofBits_one : Ideal.ofBits .f32 0x3F800000#32 = 1 := by
  rw [show (1 : EReal) = ((1 : ℝ) : EReal) by norm_cast]
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul, -EReal.coe_neg]; norm_num

theorem scatterAdd_isNN {s si su : Shape} {w : ℕ} (d : ScatterDims s si su) (x : FVec Ideal s .f32) (idx : IVec si w)
    (upd : FVec Ideal su .f32) (i : s.Idx) (hx : IsNN (x i)) (hu : ∀ j, IsNN (upd j)) :
    IsNN (Host.scatterAdd d x idx upd i) := by
  show IsNN (x i + ∑ j ∈ _, upd j)
  exact hx.add (IsNN.sum _ _ fun j _ => hu j)

theorem scatterAdd_isR {s si su : Shape} {w : ℕ} (d : ScatterDims s si su) (x : FVec Ideal s .f32) (idx : IVec si w)
    (upd : FVec Ideal su .f32) (i : s.Idx) (hx : IsR (x i)) (hu : ∀ j, IsR (upd j)) :
    IsR (Host.scatterAdd d x idx upd i) := by
  show IsR (x i + ∑ j ∈ _, upd j)
  exact isR_add hx (isR_sum _ _ fun j _ => hu j)

theorem zerosN_apply (i : S100000.Idx) : zerosN (F := Ideal) i = 0 := Ideal.ofBits_zero_f32
theorem zerosNH_apply (i : S100000x128.Idx) : zerosNH (F := Ideal) i = 0 := Ideal.ofBits_zero_f32

theorem deg_isNN {si su : Shape} (d : ScatterDims S100000 si su) (idx : IVec si 32) (u : FVec Ideal su .f32)
    (hu : ∀ j, u j = 1) (i : S100000.Idx) : IsNN (Host.scatterAdd d (zerosN (F := Ideal)) idx u i) :=
  scatterAdd_isNN d _ idx u i (by rw [zerosN_apply]; exact isNN_zero) fun j => by rw [hu j]; exact isNN_one

theorem invSqrt_clampOne_isNN (d : FVec Ideal S100000 .f32) (i : S100000.Idx) (hd : IsNN (d i)) :
    IsNN (invSqrt (clampOne (oneS (F := Ideal)) d) i) := by
  obtain ⟨r, hr, e⟩ := hd
  show IsNN (Ideal.pow (max (Ideal.ofBits .f32 0x3F800000#32) (d i)) (Ideal.ofBits .f32 0xBF000000#32))
  rw [ofBits_one, ofBits_neg_half, e, ← EReal.coe_one, ← EReal.coe_strictMono.monotone.map_max, Ideal.pow_coe_coe]
  exact ⟨_, Real.rpow_nonneg (le_max_of_le_left zero_le_one) _, rfl⟩

theorem dinvArr0_src_isNN (e : IVec S2x200000 32) (i : S100000.Idx) : IsNN (dinvArr0_src (F := Ideal) e i) :=
  invSqrt_clampOne_isNN _ i (deg_isNN _ _ _ (fun _ => ofBits_one) i)
theorem dinvArr0_dst_isNN (e : IVec S2x200000 32) (i : S100000.Idx) : IsNN (dinvArr0_dst (F := Ideal) e i) :=
  invSqrt_clampOne_isNN _ i (deg_isNN _ _ _ (fun _ => ofBits_one) i)

theorem aggArr0_isR (e : IVec S2x200000 32) (h : FVec Ideal S100000x128 .f32) (hh : ∀ i, IsR (h i)) (i : S100000x128.Idx) :
    IsR (aggArr0 (F := Ideal) e h i) :=
  scatterAdd_isR _ _ _ _ i (by rw [zerosNH_apply]; exact isR_zero) fun j => hh _
theorem dinvArr1_src_isNN (e : IVec S2x1000000 32) (i : S100000.Idx) : IsNN (dinvArr1_src (F := Ideal) e i) :=
  invSqrt_clampOne_isNN _ i (deg_isNN _ _ _ (fun _ => ofBits_one) i)
theorem dinvArr1_dst_isNN (e : IVec S2x1000000 32) (i : S100000.Idx) : IsNN (dinvArr1_dst (F := Ideal) e i) :=
  invSqrt_clampOne_isNN _ i (deg_isNN _ _ _ (fun _ => ofBits_one) i)

theorem aggArr1_isR (e : IVec S2x1000000 32) (h : FVec Ideal S100000x128 .f32) (hh : ∀ i, IsR (h i)) (i : S100000x128.Idx) :
    IsR (aggArr1 (F := Ideal) e h i) :=
  scatterAdd_isR _ _ _ _ i (by rw [zerosNH_apply]; exact isR_zero) fun j => hh _
theorem dinvArr2_src_isNN (e : IVec S2x1600000 32) (i : S100000.Idx) : IsNN (dinvArr2_src (F := Ideal) e i) :=
  invSqrt_clampOne_isNN _ i (deg_isNN _ _ _ (fun _ => ofBits_one) i)
theorem dinvArr2_dst_isNN (e : IVec S2x1600000 32) (i : S100000.Idx) : IsNN (dinvArr2_dst (F := Ideal) e i) :=
  invSqrt_clampOne_isNN _ i (deg_isNN _ _ _ (fun _ => ofBits_one) i)

theorem aggArr2_isR (e : IVec S2x1600000 32) (h : FVec Ideal S100000x128 .f32) (hh : ∀ i, IsR (h i)) (i : S100000x128.Idx) :
    IsR (aggArr2 (F := Ideal) e h i) :=
  scatterAdd_isR _ _ _ _ i (by rw [zerosNH_apply]; exact isR_zero) fun j => hh _

theorem so_nonneg_real (e1 : IVec S2x200000 32) (e2 : IVec S2x1000000 32) (e3 : IVec S2x1600000 32) :
    ∀ (r : Fin 3) (i : Fin 100000), ∃ s : ℝ, 0 ≤ s ∧ so e1 e2 e3 r i = (s : EReal) := by
  intro r i
  unfold so
  split_ifs
  · exact dinvArr0_src_isNN e1 _
  · exact dinvArr1_src_isNN e2 _
  · exact dinvArr2_src_isNN e3 _

theorem si_nonneg_real (e1 : IVec S2x200000 32) (e2 : IVec S2x1000000 32) (e3 : IVec S2x1600000 32) :
    ∀ (r : Fin 3) (i : Fin 100000), ∃ s : ℝ, 0 ≤ s ∧ si e1 e2 e3 r i = (s : EReal) := by
  intro r i
  unfold si
  split_ifs
  · exact dinvArr0_dst_isNN e1 _
  · exact dinvArr1_dst_isNN e2 _
  · exact dinvArr2_dst_isNN e3 _

theorem si_real (e1 : IVec S2x200000 32) (e2 : IVec S2x1000000 32) (e3 : IVec S2x1600000 32) :
    ∀ (r : Fin 3) (i : Fin 100000), IsR (si e1 e2 e3 r i) :=
  fun r i => IsNN.isR (si_nonneg_real e1 e2 e3 r i)

theorem A_real (e1 : IVec S2x200000 32) (e2 : IVec S2x1000000 32) (e3 : IVec S2x1600000 32) :
    ∀ (r : Fin 3) (f : Fin 100000 → Fin 128 → EReal), (∀ i j, IsR (f i j)) → ∀ i j, IsR (A e1 e2 e3 r f i j) := by
  intro r f hf i j
  unfold A
  split_ifs
  · exact aggArr0_isR e1 _ (fun idx => hf _ _) _
  · exact aggArr1_isR e2 _ (fun idx => hf _ _) _
  · exact aggArr2_isR e3 _ (fun idx => hf _ _) _

end Cert.Spec

end
-- ==== Proof.Math.lean ====
import proofs.«175263_j29738353557973_1_alg».proof.Proof.Layer
import Mathlib.Data.EReal.Basic
import Mathlib.Data.EReal.Operations
import Mathlib.Data.EReal.Inv
import Mathlib.Data.Fintype.BigOperators
import Mathlib.Logic.Equiv.Fin.Basic
import Mathlib.Analysis.SpecialFunctions.Pow.Real

noncomputable section

open BigOperators

namespace Cert.Math

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem zero_add_ereal (a : EReal) : (0 : EReal) + a = a := zero_add a

open Cert.Layer

variable {a b : EReal}

theorem isR_coe (r : ℝ) : IsR (r : EReal) := ⟨r, rfl⟩

theorem isR_zero : IsR 0 := ⟨0, rfl⟩

theorem isR_one : IsR 1 := ⟨1, rfl⟩

theorem isR_ne_top (h : IsR a) : a ≠ ⊤ := by
  obtain ⟨r, rfl⟩ := h; exact EReal.coe_ne_top r

theorem isR_ne_bot (h : IsR a) : a ≠ ⊥ := by
  obtain ⟨r, rfl⟩ := h; exact EReal.coe_ne_bot r

theorem isR_iff_ne : IsR a ↔ a ≠ ⊥ ∧ a ≠ ⊤ := by
  refine ⟨fun h => ⟨isR_ne_bot h, isR_ne_top h⟩, ?_⟩
  induction a using EReal.rec with
  | bot => exact fun h => absurd rfl h.1
  | coe r => exact fun _ => ⟨r, rfl⟩
  | top => exact fun h => absurd rfl h.2

theorem isR_add (ha : IsR a) (hb : IsR b) : IsR (a + b) := by
  obtain ⟨x, rfl⟩ := ha; obtain ⟨y, rfl⟩ := hb; exact ⟨x + y, (EReal.coe_add x y).symm⟩

theorem isR_neg (ha : IsR a) : IsR (-a) := by
  obtain ⟨x, rfl⟩ := ha; exact ⟨-x, (EReal.coe_neg x).symm⟩

theorem isR_sub (ha : IsR a) (hb : IsR b) : IsR (a - b) := by
  obtain ⟨x, rfl⟩ := ha; obtain ⟨y, rfl⟩ := hb; exact ⟨x - y, (EReal.coe_sub x y).symm⟩

theorem isR_mul (ha : IsR a) (hb : IsR b) : IsR (a * b) := by
  obtain ⟨x, rfl⟩ := ha; obtain ⟨y, rfl⟩ := hb; exact ⟨x * y, (EReal.coe_mul x y).symm⟩

theorem isR_max (ha : IsR a) (hb : IsR b) : IsR (Max.max a b) := by
  rcases max_choice a b with h | h <;> rw [h] <;> assumption

theorem isR_min (ha : IsR a) (hb : IsR b) : IsR (Min.min a b) := by
  rcases min_choice a b with h | h <;> rw [h] <;> assumption

theorem isR_inv (ha : IsR a) : IsR a⁻¹ := by
  obtain ⟨x, rfl⟩ := ha; exact ⟨x⁻¹, (EReal.coe_inv x).symm⟩

theorem isR_div (ha : IsR a) (hb : IsR b) : IsR (a / b) := by
  obtain ⟨x, rfl⟩ := ha; obtain ⟨y, rfl⟩ := hb; exact ⟨x / y, (EReal.coe_div x y).symm⟩

theorem isR_mul_one_div_coe (ha : IsR a) (y : ℝ) : IsR (a * ((1 / y : ℝ) : EReal)) :=
  isR_mul ha (isR_coe _)

theorem isR_div_corner (ha : IsR a) {y : ℝ} (hy : y ≠ 0) :
    IsR (if (y : EReal) = 0 then (if 0 < a then ⊤ else ⊥) else a * (y : EReal)⁻¹) := by
  rw [if_neg (by exact_mod_cast hy)]
  exact isR_mul ha (isR_inv (isR_coe y))

theorem isR_sum {ι : Type*} (s : Finset ι) {f : ι → EReal} (h : ∀ i ∈ s, IsR (f i)) :
    IsR (∑ i ∈ s, f i) := by
  classical
  induction s using Finset.induction_on with
  | empty => rw [Finset.sum_empty]; exact isR_zero
  | insert j s hj ih =>
    rw [Finset.sum_insert hj]
    exact isR_add (h j (Finset.mem_insert_self j s))
      (ih fun i hi => h i (Finset.mem_insert_of_mem hi))

theorem isR_sum_univ {ι : Type*} [Fintype ι] {f : ι → EReal} (h : ∀ i, IsR (f i)) :
    IsR (∑ i, f i) :=
  isR_sum Finset.univ fun i _ => h i

theorem isR_exists_fun {ι : Type*} {f : ι → EReal} (h : ∀ i, IsR (f i)) :
    ∃ g : ι → ℝ, ∀ i, f i = (g i : EReal) :=
  ⟨fun i => (h i).choose, fun i => (h i).choose_spec⟩

theorem isR_of_nonneg {a : EReal} (h : ∃ s : ℝ, 0 ≤ s ∧ a = (s : EReal)) : IsR a :=
  let ⟨s, _, hs⟩ := h; ⟨s, hs⟩

theorem div_corner_eq (a : EReal) {y : ℝ} (hy : y ≠ 0) :
    (if (y : EReal) = 0 then (if 0 < a then ⊤ else ⊥) else a * (y : EReal)⁻¹)
      = a * ((1 / y : ℝ) : EReal) := by
  rw [if_neg (by exact_mod_cast hy), one_div, EReal.coe_inv]

theorem rpow_pos_of_one_le {x : ℝ} (hx : 1 ≤ x) (p : ℝ) : 0 < Real.rpow x p :=
  Real.rpow_pos_of_pos (lt_of_lt_of_le one_pos hx) p

theorem rpow_nonneg_of_one_le {x : ℝ} (hx : 1 ≤ x) (p : ℝ) : 0 ≤ Real.rpow x p :=
  (rpow_pos_of_one_le hx p).le

theorem exists_pos_rpow {x : ℝ} (hx : 1 ≤ x) (p : ℝ) :
    ∃ r : ℝ, 0 < r ∧ ((Real.rpow x p : ℝ) : EReal) = (r : EReal) :=
  ⟨Real.rpow x p, rpow_pos_of_one_le hx p, rfl⟩

theorem rpow_of_isR_of_one_le {a : EReal} (ha : IsR a) (h1 : 1 ≤ a) (p : ℝ) :
    ∃ x : ℝ, a = (x : EReal) ∧ 0 < Real.rpow x p := by
  obtain ⟨x, rfl⟩ := ha
  exact ⟨x, rfl, rpow_pos_of_one_le (by exact_mod_cast h1) p⟩

theorem sum_mul_coe_of_nonneg {κ : Type*} (s : Finset κ) (a : κ → EReal) {r : ℝ} (hr : 0 ≤ r) :
    (∑ k ∈ s, a k) * (r : EReal) = ∑ k ∈ s, a k * (r : EReal) := by
  classical
  induction s using Finset.induction_on with
  | empty => simp
  | insert j s hj ih =>
    rw [Finset.sum_insert hj, Finset.sum_insert hj,
      EReal.right_distrib_of_nonneg_of_ne_top (EReal.coe_nonneg.2 hr) (EReal.coe_ne_top r), ih]

theorem coe_mul_sum_of_nonneg {κ : Type*} (s : Finset κ) (a : κ → EReal) {r : ℝ} (hr : 0 ≤ r) :
    (r : EReal) * (∑ k ∈ s, a k) = ∑ k ∈ s, (r : EReal) * a k := by
  rw [mul_comm, sum_mul_coe_of_nonneg s a hr]
  exact Finset.sum_congr rfl fun k _ => mul_comm _ _

theorem scale_sum {κ : Type*} [Fintype κ] (a : κ → EReal) {r : ℝ} (hr : 0 ≤ r) :
    (∑ k, a k) * (r : EReal) = ∑ k, a k * (r : EReal) :=
  sum_mul_coe_of_nonneg Finset.univ a hr

theorem scale_sum_mul {κ : Type*} [Fintype κ] (x w : κ → EReal) {r : ℝ} (hr : 0 ≤ r) :
    (∑ k, x k * w k) * (r : EReal) = ∑ k, (x k * (r : EReal)) * w k := by
  rw [scale_sum _ hr]
  exact Finset.sum_congr rfl fun k _ => mul_right_comm _ _ _

theorem scale_sum_of_nonneg {κ : Type*} [Fintype κ] (a : κ → EReal) {s : EReal}
    (hs : ∃ r : ℝ, 0 ≤ r ∧ s = (r : EReal)) : (∑ k, a k) * s = ∑ k, a k * s := by
  obtain ⟨r, hr, rfl⟩ := hs
  exact scale_sum a hr

theorem scale_sum_mul_of_nonneg {κ : Type*} [Fintype κ] (x w : κ → EReal) {s : EReal}
    (hs : ∃ r : ℝ, 0 ≤ r ∧ s = (r : EReal)) :
    (∑ k, x k * w k) * s = ∑ k, (x k * s) * w k := by
  obtain ⟨r, hr, rfl⟩ := hs
  exact scale_sum_mul x w hr

theorem sum_sq_dev {ι : Type*} [Fintype ι] (y : ι → ℝ) (m : ℝ) :
    ∑ i, (y i - m) * (y i - m)
      = (∑ i, y i * y i) - 2 * m * (∑ i, y i) + (Fintype.card ι : ℝ) * (m * m) := by
  have hexp : ∀ i, (y i - m) * (y i - m) = y i * y i - 2 * m * y i + m * m := fun i => by ring
  have h2 : ∑ i, 2 * m * y i = 2 * m * ∑ i, y i := (Finset.mul_sum _ _ _).symm
  have h3 : ∑ _i : ι, m * m = (Fintype.card ι : ℝ) * (m * m) := by
    rw [Finset.sum_const, Finset.card_univ, nsmul_eq_mul]
  simp only [hexp]
  rw [Finset.sum_add_distrib, Finset.sum_sub_distrib, h2, h3]

theorem var_identity_real {ι : Type*} [Fintype ι] (y : ι → ℝ) (N : ℝ) (hN : N ≠ 0)
    (hcard : N = (Fintype.card ι : ℝ)) :
    (∑ i, y i * y i) / N - ((∑ i, y i) / N) * ((∑ i, y i) / N)
      = (∑ i, (y i - (∑ j, y j) / N) * (y i - (∑ j, y j) / N)) / N := by
  rw [sum_sq_dev, ← hcard]
  field_simp
  ring

theorem var_nonneg_real {ι : Type*} [Fintype ι] (y : ι → ℝ) (m N : ℝ) (hN : 0 ≤ N) :
    0 ≤ (∑ i, (y i - m) * (y i - m)) / N :=
  div_nonneg (Finset.sum_nonneg fun i _ => mul_self_nonneg _) hN

theorem var_nonneg_real' {ι : Type*} [Fintype ι] (y : ι → ℝ) (N : ℝ) (hN : N ≠ 0)
    (hcard : N = (Fintype.card ι : ℝ)) :
    0 ≤ (∑ i, y i * y i) / N - ((∑ i, y i) / N) * ((∑ i, y i) / N) := by
  rw [var_identity_real y N hN hcard]
  exact var_nonneg_real y _ N (by rw [hcard]; exact Nat.cast_nonneg _)

theorem coe_sum_sq_dev {ι : Type*} [Fintype ι] (y : ι → ℝ) (N : ℝ) (dv : EReal → EReal)
    (hdv : ∀ r : ℝ, dv (r : EReal) = ((r / N : ℝ) : EReal)) :
    (∑ i, ((y i : EReal) - dv (∑ j, (y j : EReal))) * ((y i : EReal) - dv (∑ j, (y j : EReal))))
      = ((∑ i, (y i - (∑ j, y j) / N) * (y i - (∑ j, y j) / N) : ℝ) : EReal) := by
  have e2 : (∑ i, (y i : EReal)) = ((∑ i, y i : ℝ) : EReal) := (coe_sum _ _).symm
  rw [e2, hdv, coe_sum]
  exact Finset.sum_congr rfl fun i _ => by rw [← EReal.coe_sub, ← EReal.coe_mul]

theorem var_identity_of {ι : Type*} [Fintype ι] (y : ι → ℝ) (N : ℝ) (hN : N ≠ 0)
    (hcard : N = (Fintype.card ι : ℝ)) (dv : EReal → EReal)
    (hdv : ∀ r : ℝ, dv (r : EReal) = ((r / N : ℝ) : EReal)) :
    dv (∑ i, (y i : EReal) * (y i : EReal))
        - dv (∑ i, (y i : EReal)) * dv (∑ i, (y i : EReal))
      = dv (∑ i, ((y i : EReal) - dv (∑ j, (y j : EReal)))
                * ((y i : EReal) - dv (∑ j, (y j : EReal)))) := by
  have e1 : (∑ i, (y i : EReal) * (y i : EReal)) = ((∑ i, y i * y i : ℝ) : EReal) := by
    rw [coe_sum]; exact Finset.sum_congr rfl fun i _ => (EReal.coe_mul _ _).symm
  have e2 : (∑ i, (y i : EReal)) = ((∑ i, y i : ℝ) : EReal) := (coe_sum _ _).symm
  rw [coe_sum_sq_dev y N dv hdv, e1, e2, hdv, hdv, hdv, ← EReal.coe_mul, ← EReal.coe_sub]
  exact congrArg (fun r : ℝ => (r : EReal)) (var_identity_real y N hN hcard)

theorem var_exists_nonneg {ι : Type*} [Fintype ι] (y : ι → ℝ) (N : ℝ)
    (hcard : N = (Fintype.card ι : ℝ)) (dv : EReal → EReal)
    (hdv : ∀ r : ℝ, dv (r : EReal) = ((r / N : ℝ) : EReal)) :
    ∃ v : ℝ, 0 ≤ v ∧
      dv (∑ i, ((y i : EReal) - dv (∑ j, (y j : EReal)))
                * ((y i : EReal) - dv (∑ j, (y j : EReal)))) = (v : EReal) := by
  refine ⟨(∑ i, (y i - (∑ j, y j) / N) * (y i - (∑ j, y j) / N)) / N,
    var_nonneg_real y _ N (by rw [hcard]; exact Nat.cast_nonneg _), ?_⟩
  rw [coe_sum_sq_dev y N dv hdv, hdv]

theorem dv_div (N : ℝ) (r : ℝ) : (r : EReal) / (N : EReal) = ((r / N : ℝ) : EReal) :=
  (EReal.coe_div r N).symm

theorem dv_mul_one_div (N : ℝ) (r : ℝ) :
    (r : EReal) * ((1 / N : ℝ) : EReal) = ((r / N : ℝ) : EReal) := by
  rw [← EReal.coe_mul, mul_one_div]

theorem dv_corner {N : ℝ} (hN : N ≠ 0) (r : ℝ) :
    (if (N : EReal) = 0 then (if 0 < (r : EReal) then ⊤ else ⊥) else (r : EReal) * (N : EReal)⁻¹)
      = ((r / N : ℝ) : EReal) := by
  rw [div_corner_eq _ hN, dv_mul_one_div]

theorem var_identity {ι : Type*} [Fintype ι] (y : ι → ℝ) (N : ℝ) (hN : N ≠ 0)
    (hcard : N = (Fintype.card ι : ℝ)) :
    (∑ i, (y i : EReal) * (y i : EReal)) / (N : EReal)
        - ((∑ i, (y i : EReal)) / (N : EReal)) * ((∑ i, (y i : EReal)) / (N : EReal))
      = (∑ i, ((y i : EReal) - (∑ j, (y j : EReal)) / (N : EReal))
                * ((y i : EReal) - (∑ j, (y j : EReal)) / (N : EReal))) / (N : EReal) :=
  var_identity_of y N hN hcard (fun a => a / (N : EReal)) (dv_div N)

theorem var_identity_mul {ι : Type*} [Fintype ι] (y : ι → ℝ) (N : ℝ) (hN : N ≠ 0)
    (hcard : N = (Fintype.card ι : ℝ)) :
    (∑ i, (y i : EReal) * (y i : EReal)) * ((1 / N : ℝ) : EReal)
        - ((∑ i, (y i : EReal)) * ((1 / N : ℝ) : EReal))
          * ((∑ i, (y i : EReal)) * ((1 / N : ℝ) : EReal))
      = (∑ i, ((y i : EReal) - (∑ j, (y j : EReal)) * ((1 / N : ℝ) : EReal))
                * ((y i : EReal) - (∑ j, (y j : EReal)) * ((1 / N : ℝ) : EReal)))
          * ((1 / N : ℝ) : EReal) :=
  var_identity_of y N hN hcard (fun a => a * ((1 / N : ℝ) : EReal)) (dv_mul_one_div N)

theorem blk_lt {n b : ℕ} (t : Fin n) (q : Fin b) : t.val * b + q.val < n * b :=
  calc t.val * b + q.val < t.val * b + b := Nat.add_lt_add_left q.isLt _
    _ = (t.val + 1) * b := (Nat.succ_mul _ _).symm
    _ ≤ n * b := Nat.mul_le_mul_right _ t.isLt

theorem sum_blocks {M : Type*} [AddCommMonoid M] (n b : ℕ) (f : Fin (n * b) → M) :
    ∑ r : Fin (n * b), f r = ∑ t : Fin n, ∑ q : Fin b, f ⟨t.val * b + q.val, blk_lt t q⟩ := by
  calc ∑ r : Fin (n * b), f r
      = ∑ x : Fin n × Fin b, f (finProdFinEquiv x) := (finProdFinEquiv.sum_comp f).symm
    _ = ∑ x : Fin n × Fin b, f ⟨x.1.val * b + x.2.val, blk_lt x.1 x.2⟩ :=
        Finset.sum_congr rfl fun x _ => congrArg f (Fin.ext (by
          show x.2.val + b * x.1.val = x.1.val * b + x.2.val
          rw [Nat.mul_comm b, Nat.add_comm]))
    _ = ∑ t : Fin n, ∑ q : Fin b, f ⟨t.val * b + q.val, blk_lt t q⟩ :=
        Fintype.sum_prod_type' fun t q => f ⟨t.val * b + q.val, blk_lt t q⟩

theorem sum_blocks_of_eq {M : Type*} [AddCommMonoid M] {N : ℕ} (n b : ℕ) (h : N = n * b)
    (f : Fin N → M) :
    ∑ r : Fin N, f r
      = ∑ t : Fin n, ∑ q : Fin b, f ⟨t.val * b + q.val, lt_of_lt_of_eq (blk_lt t q) h.symm⟩ := by
  subst h
  exact sum_blocks n b f

variable {n K H : ℕ}

def refHr (so si : Fin 3 → Fin n → EReal)
    (A : Fin 3 → (Fin n → Fin H → EReal) → Fin n → Fin H → EReal)
    (x : Fin n → Fin K → EReal) (W : Fin 3 → Fin K → Fin H → EReal) (b : Fin 3 → Fin H → EReal) :
    Fin 3 → Fin n → Fin H → EReal :=
  fun r i j => A r (fun i j => ∑ k : Fin K, (x i k * so r i) * W r k j) i j * si r i + b r j

def kerHr (so si : Fin 3 → Fin n → EReal)
    (A : Fin 3 → (Fin n → Fin H → EReal) → Fin n → Fin H → EReal)
    (x : Fin n → Fin K → EReal) (W : Fin 3 → Fin K → Fin H → EReal) (b : Fin 3 → Fin H → EReal) :
    Fin 3 → Fin n → Fin H → EReal :=
  fun r i j => A r (fun i j => (∑ k : Fin K, x i k * W r k j) * so r i) i j * si r i + b r j

def refSum (hr : Fin 3 → Fin n → Fin H → EReal) : Fin n → Fin H → EReal :=
  fun i j => (hr 0 i j + hr 1 i j) + hr 2 i j

def kerSum (hr : Fin 3 → Fin n → Fin H → EReal) : Fin n → Fin H → EReal :=
  fun i j => ((0 + hr 0 i j) + hr 1 i j) + hr 2 i j

def refMean (dv : EReal → EReal) (y : Fin n → Fin H → EReal) : Fin H → EReal :=
  fun j => dv (0 + ∑ i : Fin n, y i j)

def refVar (dv : EReal → EReal) (y : Fin n → Fin H → EReal) : Fin H → EReal :=
  fun j => dv (0 + ∑ i : Fin n, (y i j - refMean dv y j) * (y i j - refMean dv y j))

def kerMean (dv : EReal → EReal) (y : Fin n → Fin H → EReal) : Fin H → EReal :=
  fun j => dv (∑ i : Fin n, y i j)

def kerVar (dv : EReal → EReal) (y : Fin n → Fin H → EReal) : Fin H → EReal :=
  fun j => dv (∑ i : Fin n, y i j * y i j) - kerMean dv y j * kerMean dv y j

theorem refLayer_stages (so si : Fin 3 → Fin n → EReal)
    (A : Fin 3 → (Fin n → Fin H → EReal) → Fin n → Fin H → EReal) (dv rs : EReal → EReal)
    (e : EReal) (x : Fin n → Fin K → EReal) (W : Fin 3 → Fin K → Fin H → EReal)
    (b : Fin 3 → Fin H → EReal) (fcW : Fin H → Fin H → EReal) (fcb g beta : Fin H → EReal) :
    refLayer so si A dv rs e x W b fcW fcb g beta
      = normalize rs e (dense (refSum (refHr so si A x W b)) fcW fcb)
          (refMean dv (dense (refSum (refHr so si A x W b)) fcW fcb))
          (refVar dv (dense (refSum (refHr so si A x W b)) fcW fcb)) g beta := rfl

theorem kerLayer_stages (so si : Fin 3 → Fin n → EReal)
    (A : Fin 3 → (Fin n → Fin H → EReal) → Fin n → Fin H → EReal) (dv rs : EReal → EReal)
    (e : EReal) (x : Fin n → Fin K → EReal) (W : Fin 3 → Fin K → Fin H → EReal)
    (b : Fin 3 → Fin H → EReal) (fcW : Fin H → Fin H → EReal) (fcb g beta : Fin H → EReal) :
    kerLayer so si A dv rs e x W b fcW fcb g beta
      = normalize rs e (dense (kerSum (kerHr so si A x W b)) fcW fcb)
          (kerMean dv (dense (kerSum (kerHr so si A x W b)) fcW fcb))
          (kerVar dv (dense (kerSum (kerHr so si A x W b)) fcW fcb)) g beta := rfl

theorem kerHr_eq_refHr (so si : Fin 3 → Fin n → EReal)
    (hso : ∀ r i, ∃ s : ℝ, 0 ≤ s ∧ so r i = (s : EReal))
    (A : Fin 3 → (Fin n → Fin H → EReal) → Fin n → Fin H → EReal)
    (x : Fin n → Fin K → EReal) (W : Fin 3 → Fin K → Fin H → EReal) (b : Fin 3 → Fin H → EReal) :
    kerHr so si A x W b = refHr so si A x W b := by
  funext r i j
  have hproj : (fun i j => (∑ k : Fin K, x i k * W r k j) * so r i)
      = (fun i j => ∑ k : Fin K, (x i k * so r i) * W r k j) :=
    funext fun i => funext fun j =>
      scale_sum_mul_of_nonneg (fun k => x i k) (fun k => W r k j) (hso r i)
  show A r (fun i j => (∑ k : Fin K, x i k * W r k j) * so r i) i j * si r i + b r j
    = A r (fun i j => ∑ k : Fin K, (x i k * so r i) * W r k j) i j * si r i + b r j
  rw [hproj]

theorem kerSum_eq_refSum (hr : Fin 3 → Fin n → Fin H → EReal) : kerSum hr = refSum hr := by
  funext i j
  show ((0 + hr 0 i j) + hr 1 i j) + hr 2 i j = (hr 0 i j + hr 1 i j) + hr 2 i j
  rw [zero_add]

theorem kerMean_eq_refMean (dv : EReal → EReal) (y : Fin n → Fin H → EReal) :
    kerMean dv y = refMean dv y := by
  funext j
  show dv (∑ i : Fin n, y i j) = dv (0 + ∑ i : Fin n, y i j)
  rw [zero_add]

theorem kerVar_eq_refVar {N : ℝ} (hN : N ≠ 0) (hcard : N = (Fintype.card (Fin n) : ℝ))
    (dv : EReal → EReal) (hdv : ∀ a : ℝ, dv (a : EReal) = ((a / N : ℝ) : EReal))
    (y : Fin n → Fin H → EReal) (hy : ∀ i j, IsR (y i j)) :
    kerVar dv y = refVar dv y := by
  have hy2 : ∀ i j, ∃ r : ℝ, y i j = (r : EReal) := hy
  choose y' hy' using hy2
  obtain rfl : y = fun i j => ((y' i j : ℝ) : EReal) := funext fun i => funext fun j => hy' i j
  funext j
  show dv (∑ i : Fin n, ((y' i j : ℝ) : EReal) * ((y' i j : ℝ) : EReal))
        - dv (∑ i : Fin n, ((y' i j : ℝ) : EReal)) * dv (∑ i : Fin n, ((y' i j : ℝ) : EReal))
      = dv (0 + ∑ i : Fin n, (((y' i j : ℝ) : EReal) - dv (0 + ∑ i : Fin n, ((y' i j : ℝ) : EReal)))
                * (((y' i j : ℝ) : EReal) - dv (0 + ∑ i : Fin n, ((y' i j : ℝ) : EReal))))
  simp only [zero_add]
  exact var_identity_of (fun i => y' i j) N hN hcard dv hdv

theorem isR_refHr {so si : Fin 3 → Fin n → EReal}
    {A : Fin 3 → (Fin n → Fin H → EReal) → Fin n → Fin H → EReal}
    {x : Fin n → Fin K → EReal} {W : Fin 3 → Fin K → Fin H → EReal} {b : Fin 3 → Fin H → EReal}
    (hso : ∀ r i, IsR (so r i)) (hsi : ∀ r i, IsR (si r i))
    (hA : ∀ r f, (∀ i j, IsR (f i j)) → ∀ i j, IsR (A r f i j))
    (hx : ∀ i k, IsR (x i k)) (hW : ∀ r k j, IsR (W r k j)) (hb : ∀ r j, IsR (b r j)) :
    ∀ r i j, IsR (refHr so si A x W b r i j) := by
  intro r i j
  show IsR (A r (fun i j => ∑ k : Fin K, (x i k * so r i) * W r k j) i j * si r i + b r j)
  exact isR_add (isR_mul (hA r _ (fun i j => isR_sum_univ fun k =>
    isR_mul (isR_mul (hx i k) (hso r i)) (hW r k j)) i j) (hsi r i)) (hb r j)

theorem isR_refSum {hr : Fin 3 → Fin n → Fin H → EReal} (h : ∀ r i j, IsR (hr r i j)) :
    ∀ i j, IsR (refSum hr i j) := by
  intro i j
  show IsR ((hr 0 i j + hr 1 i j) + hr 2 i j)
  exact isR_add (isR_add (h 0 i j) (h 1 i j)) (h 2 i j)

theorem isR_dense {h : Fin n → Fin H → EReal} {fcW : Fin H → Fin H → EReal} {fcb : Fin H → EReal}
    (hh : ∀ i j, IsR (h i j)) (hfcW : ∀ k j, IsR (fcW k j)) (hfcb : ∀ j, IsR (fcb j)) :
    ∀ i j, IsR (dense h fcW fcb i j) := by
  intro i j
  show IsR (Max.max ((∑ k : Fin H, h i k * fcW k j) + fcb j) 0)
  exact isR_max (isR_add (isR_sum_univ fun k => isR_mul (hh i k) (hfcW k j)) (hfcb j)) isR_zero

theorem isR_refMean {N : ℝ} (dv : EReal → EReal)
    (hdv : ∀ a : ℝ, dv (a : EReal) = ((a / N : ℝ) : EReal))
    {y : Fin n → Fin H → EReal} (hy : ∀ i j, IsR (y i j)) : ∀ j, IsR (refMean dv y j) := by
  intro j
  obtain ⟨s, hs⟩ := isR_sum_univ (fun i => hy i j)
  show IsR (dv (0 + ∑ i : Fin n, y i j))
  rw [zero_add, hs, hdv]
  exact isR_coe _

theorem refVar_nonneg {N : ℝ} (hcard : N = (Fintype.card (Fin n) : ℝ)) (dv : EReal → EReal)
    (hdv : ∀ a : ℝ, dv (a : EReal) = ((a / N : ℝ) : EReal))
    {y : Fin n → Fin H → EReal} (hy : ∀ i j, IsR (y i j)) :
    ∀ j, ∃ v : ℝ, 0 ≤ v ∧ refVar dv y j = (v : EReal) := by
  have hy2 : ∀ i j, ∃ r : ℝ, y i j = (r : EReal) := hy
  choose y' hy' using hy2
  obtain rfl : y = fun i j => ((y' i j : ℝ) : EReal) := funext fun i => funext fun j => hy' i j
  intro j
  show ∃ v : ℝ, 0 ≤ v ∧
    dv (0 + ∑ i : Fin n, (((y' i j : ℝ) : EReal) - dv (0 + ∑ i : Fin n, ((y' i j : ℝ) : EReal)))
              * (((y' i j : ℝ) : EReal) - dv (0 + ∑ i : Fin n, ((y' i j : ℝ) : EReal)))) = (v : EReal)
  simp only [zero_add]
  exact var_exists_nonneg (fun i => y' i j) N hcard dv hdv

theorem isR_normalize {rs : EReal → EReal} {ε : ℝ} (hε : 0 < ε)
    (hrs : ∀ a : ℝ, 0 < a → IsR (rs (a : EReal)))
    {y : Fin n → Fin H → EReal} {m v g beta : Fin H → EReal}
    (hy : ∀ i j, IsR (y i j)) (hm : ∀ j, IsR (m j))
    (hv : ∀ j, ∃ v' : ℝ, 0 ≤ v' ∧ v j = (v' : EReal))
    (hg : ∀ j, IsR (g j)) (hbeta : ∀ j, IsR (beta j)) :
    ∀ i j, IsR (normalize rs (ε : EReal) y m v g beta i j) := by
  intro i j
  obtain ⟨v', hv0, hv'⟩ := hv j
  show IsR ((y i j - m j) * rs (v j + (ε : EReal)) * g j + beta j)
  rw [hv', ← EReal.coe_add]
  exact isR_add (isR_mul (isR_mul (isR_sub (hy i j) (hm j))
    (hrs _ (add_pos_of_nonneg_of_pos hv0 hε))) (hg j)) (hbeta j)

theorem layer_eq (so si : Fin 3 → Fin n → EReal)
    (hso : ∀ r i, ∃ s : ℝ, 0 ≤ s ∧ so r i = (s : EReal)) (hsi : ∀ r i, IsR (si r i))
    (A : Fin 3 → (Fin n → Fin H → EReal) → Fin n → Fin H → EReal)
    (hA : ∀ r f, (∀ i j, IsR (f i j)) → ∀ i j, IsR (A r f i j))
    (dv rs : EReal → EReal) (N : ℝ) (hN : N = (n : ℝ)) (hn : 0 < n)
    (hdv : ∀ a : ℝ, dv (a : EReal) = ((a / N : ℝ) : EReal))
    (ε : ℝ) (hε : 0 < ε) (hrs : ∀ a : ℝ, 0 < a → IsR (rs (a : EReal)))
    (x : Fin n → Fin K → EReal) (hx : ∀ i k, IsR (x i k))
    (W : Fin 3 → Fin K → Fin H → EReal) (hW : ∀ r k j, IsR (W r k j))
    (b : Fin 3 → Fin H → EReal) (hb : ∀ r j, IsR (b r j))
    (fcW : Fin H → Fin H → EReal) (hfcW : ∀ k j, IsR (fcW k j))
    (fcb g beta : Fin H → EReal) (hfcb : ∀ j, IsR (fcb j)) (hg : ∀ j, IsR (g j))
    (hbeta : ∀ j, IsR (beta j)) :
    kerLayer so si A dv rs (ε : EReal) x W b fcW fcb g beta
        = refLayer so si A dv rs (ε : EReal) x W b fcW fcb g beta
      ∧ ∀ i j, IsR (refLayer so si A dv rs (ε : EReal) x W b fcW fcb g beta i j) := by
  have hN0 : N ≠ 0 := by rw [hN]; exact_mod_cast hn.ne'
  have hcard : N = (Fintype.card (Fin n) : ℝ) := by rw [Fintype.card_fin]; exact hN
  have hy : ∀ i j, IsR (dense (refSum (refHr so si A x W b)) fcW fcb i j) :=
    isR_dense (isR_refSum (isR_refHr (fun r i => isR_of_nonneg (hso r i)) hsi hA hx hW hb))
      hfcW hfcb
  refine ⟨?_, ?_⟩
  · rw [kerLayer_stages, refLayer_stages, kerHr_eq_refHr so si hso, kerSum_eq_refSum,
      kerMean_eq_refMean, kerVar_eq_refVar hN0 hcard dv hdv _ hy]
  · rw [refLayer_stages]
    exact isR_normalize hε hrs hy (isR_refMean dv hdv hy) (refVar_nonneg hcard dv hdv hy) hg hbeta

end Cert.Math

end
-- ==== Proof.Consts.lean ====
import Idealize.ShloMosaic.PureOps.Ideal
import proofs.«175263_j29738353557973_1_alg».proof.Proof.Layer

noncomputable section

namespace Cert.Consts

open Idealize.ShloMosaic Cert.Layer

def dvN (a : EReal) : EReal := Ideal.div a (Ideal.ofBits .f32 0x47C35000#32)

def rsq (a : EReal) : EReal := Ideal.rsqrt a

def eps : EReal := Ideal.ofBits .f32 0x3727C5AC#32

theorem ofBits_nodes : Ideal.ofBits .f32 0x47C35000#32 = ((100000 : ℝ) : EReal) := by
  simp [Ideal.ofBits, Ideal.ieee, -EReal.coe_mul]; norm_num

theorem dvN_coe (a : ℝ) : dvN (a : EReal) = ((a / 100000 : ℝ) : EReal) := by
  unfold dvN
  rw [ofBits_nodes, Ideal.div_coe (by norm_num), ← EReal.coe_mul]
  congr 1
  ring

theorem eps_pos : ∃ ε : ℝ, 0 < ε ∧ eps = (ε : EReal) := by
  refine ⟨10995116 * (2 : ℝ) ^ (-40 : ℤ), by positivity, ?_⟩
  unfold eps
  simp [Ideal.ofBits, Ideal.ieee, -EReal.coe_mul]

theorem rsq_pos (a : ℝ) (ha : 0 < a) : IsR (rsq (a : EReal)) := by
  refine ⟨(Real.sqrt a)⁻¹, ?_⟩
  unfold rsq
  rw [Ideal.rsqrt_coe, if_neg (not_lt.mpr ha.le), if_neg ha.ne']

end Cert.Consts

end
-- ==== Proof.KI.KerIdx.lean ====
import proofs.«175263_j29738353557973_1_alg».proof.Proof.KI.KerArr
import proofs.«175263_j29738353557973_1_alg».proof.Proof.KI.HostIdx
import proofs.«175263_j29738353557973_1_alg».proof.Proof.Spec
import proofs.«175263_j29738353557973_1_alg».proof.Proof.Math
import proofs.«175263_j29738353557973_1_alg».proof.Proof.Consts

noncomputable section

namespace Cert.KernelIdeal.Hand

open Cert.KernelIdeal Cert.KernelIdeal.Gen
open Idealize.ShloMosaic Idealize.ShloMosaic.ValueIdx
open scoped BigOperators
open Cert.Layer (kerLayer dense normalize)
open Cert.Math (kerHr kerSum kerMean kerVar kerLayer_stages)
open Cert.Consts (dvN rsq eps)

section Bridge
variable {F : FTy → Type} [FloatOps F]

theorem hand_dinvArr0_src_eq_spec (e : Vec F S2x200000 .i32) : dinvArr0_src (F := F) e = Spec.dinvArr0_src (F := F) e := rfl
theorem hand_dinvArr1_src_eq_spec (e : Vec F S2x1000000 .i32) : dinvArr1_src (F := F) e = Spec.dinvArr1_src (F := F) e := rfl
theorem hand_dinvArr2_src_eq_spec (e : Vec F S2x1600000 .i32) : dinvArr2_src (F := F) e = Spec.dinvArr2_src (F := F) e := rfl
theorem hand_dinvArr0_dst_eq_spec (e : Vec F S2x200000 .i32) : dinvArr0_dst (F := F) e = Spec.dinvArr0_dst (F := F) e := rfl
theorem hand_dinvArr1_dst_eq_spec (e : Vec F S2x1000000 .i32) : dinvArr1_dst (F := F) e = Spec.dinvArr1_dst (F := F) e := rfl
theorem hand_dinvArr2_dst_eq_spec (e : Vec F S2x1600000 .i32) : dinvArr2_dst (F := F) e = Spec.dinvArr2_dst (F := F) e := rfl
theorem hand_aggArr0_eq_spec (e : Vec F S2x200000 .i32) (h : Vec F S100000x128 .f32) :
    aggArr0 (F := F) e h = Spec.aggArr0 (F := F) e h := rfl
theorem hand_aggArr1_eq_spec (e : Vec F S2x1000000 .i32) (h : Vec F S100000x128 .f32) :
    aggArr1 (F := F) e h = Spec.aggArr1 (F := F) e h := rfl
theorem hand_aggArr2_eq_spec (e : Vec F S2x1600000 .i32) (h : Vec F S100000x128 .f32) :
    aggArr2 (F := F) e h = Spec.aggArr2 (F := F) e h := rfl

end Bridge

theorem projArr0_at (x : S100000x1280.Idx → EReal) (w : Vec Ideal S3x1280x128 .f32) (s : S100000x3.Idx → EReal)
    (i : Fin 100000) (J : Fin 384) (r : Fin 3) (c : Fin 128) (hJ : J.val = 128 * r.val + c.val) :
    projArr0 x (catW0 (F := Ideal) w) s (ix2 i J) = (∑ k : Fin 1280, x (ix2 i k) * w (ix3 r k c)) * s (ix2 i r) := by
  have hb : J.val / 128 < 3 := by have := J.isLt; omega
  show (∑ k : Fin 1280, x (ix2 i k) * catW0 (F := Ideal) w (ix2 k J)) * s (ix2 i ⟨J.val / 128, hb⟩) = _
  have hr : (⟨J.val / 128, hb⟩ : Fin 3) = r := Fin.ext (by show J.val / 128 = r.val; have := c.isLt; omega)
  rw [hr]
  exact congrArg (fun z => z * s (ix2 i r))
    (Finset.sum_congr rfl fun k _ => by rw [catW0_apply_piece w k J r c hJ])

theorem projArr1_at (x : S100000x128.Idx → EReal) (w : Vec Ideal S3x128x128 .f32) (s : S100000x3.Idx → EReal)
    (i : Fin 100000) (J : Fin 384) (r : Fin 3) (c : Fin 128) (hJ : J.val = 128 * r.val + c.val) :
    projArr1 x (catW1 (F := Ideal) w) s (ix2 i J) = (∑ k : Fin 128, x (ix2 i k) * w (ix3 r k c)) * s (ix2 i r) := by
  have hb : J.val / 128 < 3 := by have := J.isLt; omega
  show (∑ k : Fin 128, x (ix2 i k) * catW1 (F := Ideal) w (ix2 k J)) * s (ix2 i ⟨J.val / 128, hb⟩) = _
  have hr : (⟨J.val / 128, hb⟩ : Fin 3) = r := Fin.ext (by show J.val / 128 = r.val; have := c.isLt; omega)
  rw [hr]
  exact congrArg (fun z => z * s (ix2 i r))
    (Finset.sum_congr rfl fun k _ => by rw [catW1_apply_piece w k J r c hJ])

theorem srcScales_at (e1 : Vec Ideal S2x200000 .i32) (e2 : Vec Ideal S2x1000000 .i32) (e3 : Vec Ideal S2x1600000 .i32)
    (i : Fin 100000) (r : Fin 3) : srcScales e1 e2 e3 (ix2 i r) = Spec.so e1 e2 e3 r i := by
  have h3 : r = 0 ∨ r = 1 ∨ r = 2 := by revert r; decide
  show scaleCols (F := Ideal) (dinvArr0_src e1) (dinvArr1_src e2) (dinvArr2_src e3) (ix2 i r) = _
  rcases h3 with rfl | rfl | rfl
  · rw [Spec.so_zero, scaleCols_apply0 _ _ _ i 0 rfl, hand_dinvArr0_src_eq_spec]
  · rw [Spec.so_one, scaleCols_apply1 _ _ _ i 1 rfl, hand_dinvArr1_src_eq_spec]
  · rw [Spec.so_two, scaleCols_apply2 _ _ _ i 2 rfl, hand_dinvArr2_src_eq_spec]

section Tail

variable {K : ℕ} (e1 : Vec Ideal S2x200000 .i32) (e2 : Vec Ideal S2x1000000 .i32) (e3 : Vec Ideal S2x1600000 .i32)
  (p : Vec Ideal S100000x384 .f32) (X : Fin 100000 → Fin K → EReal) (W : Fin 3 → Fin K → Fin 128 → EReal)
  (hp : ∀ (i : Fin 100000) (J : Fin 384) (r : Fin 3) (c : Fin 128), J.val = 128 * r.val + c.val →
    p (ix2 i J) = (∑ k : Fin K, X i k * W r k c) * Spec.so e1 e2 e3 r i)

include hp

theorem slice0_fun : projSlice0 (F := Ideal) p
    = fun idx => (fun i c => (∑ k : Fin K, X i k * W 0 k c) * Spec.so e1 e2 e3 0 i) (idx 0) (idx 1) := by
  funext idx
  obtain ⟨i, c, rfl⟩ : ∃ (i : Fin 100000) (c : Fin 128), idx = ix2 i c := ⟨idx 0, idx 1, eq_ix2 idx⟩
  exact (projSlice0_apply p i c).trans (hp i _ 0 c (by show c.val = 128 * 0 + c.val; omega))

theorem slice1_fun : projSlice1 (F := Ideal) p
    = fun idx => (fun i c => (∑ k : Fin K, X i k * W 1 k c) * Spec.so e1 e2 e3 1 i) (idx 0) (idx 1) := by
  funext idx
  obtain ⟨i, c, rfl⟩ : ∃ (i : Fin 100000) (c : Fin 128), idx = ix2 i c := ⟨idx 0, idx 1, eq_ix2 idx⟩
  exact (projSlice1_apply p i c).trans (hp i _ 1 c (by show 128 + c.val = 128 * 1 + c.val; omega))

theorem slice2_fun : projSlice2 (F := Ideal) p
    = fun idx => (fun i c => (∑ k : Fin K, X i k * W 2 k c) * Spec.so e1 e2 e3 2 i) (idx 0) (idx 1) := by
  funext idx
  obtain ⟨i, c, rfl⟩ : ∃ (i : Fin 100000) (c : Fin 128), idx = ix2 i c := ⟨idx 0, idx 1, eq_ix2 idx⟩
  exact (projSlice2_apply p i c).trans (hp i _ 2 c (by show 256 + c.val = 128 * 2 + c.val; omega))

variable (b : Vec Ideal S3x128 .f32)

theorem sumRel_at (i : Fin 100000) (j : Fin 128) :
    sumRel (F := Ideal) p e1 e2 e3 (dinvArr0_dst e1) (dinvArr1_dst e2) (dinvArr2_dst e3) b (ix2 i j)
      = kerSum (kerHr (Spec.so e1 e2 e3) (Spec.si e1 e2 e3) (Spec.A e1 e2 e3) X W (fun r j => b (ix2 r j))) i j := by
  rw [sumRel_apply, slice0_fun e1 e2 e3 p X W hp, slice1_fun e1 e2 e3 p X W hp, slice2_fun e1 e2 e3 p X W hp]
  show _ = ((0 + (Spec.A e1 e2 e3 0 (fun i j => (∑ k : Fin K, X i k * W 0 k j) * Spec.so e1 e2 e3 0 i) i j
                * Spec.si e1 e2 e3 0 i + b (ix2 (0 : Fin 3) j)))
            + (Spec.A e1 e2 e3 1 (fun i j => (∑ k : Fin K, X i k * W 1 k j) * Spec.so e1 e2 e3 1 i) i j
                * Spec.si e1 e2 e3 1 i + b (ix2 (1 : Fin 3) j)))
          + (Spec.A e1 e2 e3 2 (fun i j => (∑ k : Fin K, X i k * W 2 k j) * Spec.so e1 e2 e3 2 i) i j
                * Spec.si e1 e2 e3 2 i + b (ix2 (2 : Fin 3) j))
  rw [Spec.A_zero, Spec.A_one, Spec.A_two, Spec.si_zero, Spec.si_one, Spec.si_two,
    hand_aggArr0_eq_spec, hand_aggArr1_eq_spec, hand_aggArr2_eq_spec,
    hand_dinvArr0_dst_eq_spec, hand_dinvArr1_dst_eq_spec, hand_dinvArr2_dst_eq_spec]

variable (fcw : Vec Ideal S128x128 .f32) (fcb g beta : Vec Ideal S128 .f32)

theorem fc_at (i : Fin 100000) (j : Fin 128) :
    fcArr (sumRel (F := Ideal) p e1 e2 e3 (dinvArr0_dst e1) (dinvArr1_dst e2) (dinvArr2_dst e3) b) fcw
        (asRow (F := Ideal) fcb) (ix2 i j)
      = dense (kerSum (kerHr (Spec.so e1 e2 e3) (Spec.si e1 e2 e3) (Spec.A e1 e2 e3) X W (fun r j => b (ix2 r j))))
          (fun k j => fcw (ix2 k j)) (fun j => fcb (ix1 j)) i j := by
  show max ((∑ k : Fin 128,
        sumRel (F := Ideal) p e1 e2 e3 (dinvArr0_dst e1) (dinvArr1_dst e2) (dinvArr2_dst e3) b (ix2 i k) * fcw (ix2 k j))
      + asRow (F := Ideal) fcb (ix2 (0 : Fin 1) j)) 0
    = max ((∑ k : Fin 128,
        kerSum (kerHr (Spec.so e1 e2 e3) (Spec.si e1 e2 e3) (Spec.A e1 e2 e3) X W (fun r j => b (ix2 r j))) i k
          * fcw (ix2 k j)) + fcb (ix1 j)) 0
  rw [asRow_apply]
  exact congrArg (fun z => max (z + fcb (ix1 j)) 0)
    (Finset.sum_congr rfl fun k _ => by rw [sumRel_at e1 e2 e3 p X W hp b i k])

theorem layerTail_at (i : Fin 100000) (j : Fin 128) :
    layerTail p e1 e2 e3 b fcw fcb g beta (ix2 i j)
      = kerLayer (Spec.so e1 e2 e3) (Spec.si e1 e2 e3) (Spec.A e1 e2 e3) dvN rsq eps X W (fun r j => b (ix2 r j))
          (fun k j => fcw (ix2 k j)) (fun j => fcb (ix1 j)) (fun j => g (ix1 j)) (fun j => beta (ix1 j)) i j := by

  have hy : ∀ (i : Fin 100000) (j : Fin 128),
      fcArr (sumRel (F := Ideal) p e1 e2 e3 (dinvArr0_dst e1) (dinvArr1_dst e2) (dinvArr2_dst e3) b) fcw
          (asRow (F := Ideal) fcb) (ix2 i j)
        = dense (kerSum (kerHr (Spec.so e1 e2 e3) (Spec.si e1 e2 e3) (Spec.A e1 e2 e3) X W (fun r j => b (ix2 r j))))
            (fun k j => fcw (ix2 k j)) (fun j => fcb (ix1 j)) i j :=
    fc_at e1 e2 e3 p X W hp b fcw fcb
  rw [kerLayer_stages]
  generalize dense (kerSum (kerHr (Spec.so e1 e2 e3) (Spec.si e1 e2 e3) (Spec.A e1 e2 e3) X W (fun r j => b (ix2 r j))))
      (fun k j => fcw (ix2 k j)) (fun j => fcb (ix1 j)) = Y at hy ⊢
  show bnArr _ _ _ _ _ (ix2 i j) = _
  generalize fcArr (sumRel (F := Ideal) p e1 e2 e3 (dinvArr0_dst e1) (dinvArr1_dst e2) (dinvArr2_dst e3) b) fcw
      (asRow (F := Ideal) fcb) = y at hy ⊢

  have hs : ∀ j : Fin 128, colSumArr y (ix2 (0 : Fin 1) j) = ∑ r : Fin 100000, Y r j := fun j =>
    Finset.sum_congr rfl fun r _ => hy r j
  have hq : ∀ j : Fin 128, colSumArr (fun i => y i * y i) (ix2 (0 : Fin 1) j) = ∑ r : Fin 100000, Y r j * Y r j :=
    fun j => Finset.sum_congr rfl fun r _ => by show y (ix2 r j) * y (ix2 r j) = _; rw [hy r j]
  show (y (ix2 i j) - asRow (F := Ideal) (meanOf (F := Ideal) (colSumArr y)) (ix2 (0 : Fin 1) j))
        * Ideal.rsqrt (asRow (F := Ideal) (varOf (F := Ideal) (colSumArr y) (colSumArr fun i => y i * y i)) (ix2 (0 : Fin 1) j)
            + Ideal.ofBits .f32 0x3727C5AC#32)
        * asRow (F := Ideal) g (ix2 (0 : Fin 1) j) + asRow (F := Ideal) beta (ix2 (0 : Fin 1) j)
      = (Y i j - dvN (∑ r : Fin 100000, Y r j))
        * rsq ((dvN (∑ r : Fin 100000, Y r j * Y r j)
              - dvN (∑ r : Fin 100000, Y r j) * dvN (∑ r : Fin 100000, Y r j)) + eps)
        * g (ix1 j) + beta (ix1 j)
  rw [asRow_apply, asRow_apply, asRow_apply, asRow_apply, meanOf_apply, varOf_apply, hs, hq, hy]
  unfold Cert.Consts.dvN Cert.Consts.rsq Cert.Consts.eps
  rfl

end Tail

theorem kerArr0_ix (x : Vec Ideal S100000x1280 .f32) (e1 : Vec Ideal S2x200000 .i32) (e2 : Vec Ideal S2x1000000 .i32)
    (e3 : Vec Ideal S2x1600000 .i32) (w : Vec Ideal S3x1280x128 .f32) (b : Vec Ideal S3x128 .f32)
    (fcw : Vec Ideal S128x128 .f32) (fcb g beta : Vec Ideal S128 .f32) (i : Fin 100000) (j : Fin 128) :
    kerArr0 x e1 e2 e3 w b fcw fcb g beta (ix2 i j)
      = kerLayer (Spec.so e1 e2 e3) (Spec.si e1 e2 e3) (Spec.A e1 e2 e3) dvN rsq eps
          (fun i k => x (ix2 i k)) (fun r k j => w (ix3 r k j)) (fun r j => b (ix2 r j))
          (fun k j => fcw (ix2 k j)) (fun j => fcb (ix1 j)) (fun j => g (ix1 j)) (fun j => beta (ix1 j)) i j :=
  layerTail_at e1 e2 e3 (projArr0 x (catW0 (F := Ideal) w) (srcScales e1 e2 e3))
    (fun i k => x (ix2 i k)) (fun r k j => w (ix3 r k j))
    (fun i J r c hJ => (projArr0_at x w _ i J r c hJ).trans (by rw [srcScales_at]))
    b fcw fcb g beta i j

theorem kerArr1_ix (x : Vec Ideal S100000x128 .f32) (e1 : Vec Ideal S2x200000 .i32) (e2 : Vec Ideal S2x1000000 .i32)
    (e3 : Vec Ideal S2x1600000 .i32) (w : Vec Ideal S3x128x128 .f32) (b : Vec Ideal S3x128 .f32)
    (fcw : Vec Ideal S128x128 .f32) (fcb g beta : Vec Ideal S128 .f32) (i : Fin 100000) (j : Fin 128) :
    kerArr1 x e1 e2 e3 w b fcw fcb g beta (ix2 i j)
      = kerLayer (Spec.so e1 e2 e3) (Spec.si e1 e2 e3) (Spec.A e1 e2 e3) dvN rsq eps
          (fun i k => x (ix2 i k)) (fun r k j => w (ix3 r k j)) (fun r j => b (ix2 r j))
          (fun k j => fcw (ix2 k j)) (fun j => fcb (ix1 j)) (fun j => g (ix1 j)) (fun j => beta (ix1 j)) i j :=
  layerTail_at e1 e2 e3 (projArr1 x (catW1 (F := Ideal) w) (srcScales e1 e2 e3))
    (fun i k => x (ix2 i k)) (fun r k j => w (ix3 r k j))
    (fun i J r c hJ => (projArr1_at x w _ i J r c hJ).trans (by rw [srcScales_at]))
    b fcw fcb g beta i j

end Cert.KernelIdeal.Hand

end
-- ==== Proof.RefBridge.lean ====
import proofs.«175263_j29738353557973_1_alg».proof.Proof.RefRead
import proofs.«175263_j29738353557973_1_alg».proof.Proof.Spec
import proofs.«175263_j29738353557973_1_alg».proof.Proof.Layer
import proofs.«175263_j29738353557973_1_alg».proof.Proof.Consts

noncomputable section

namespace Cert.RefBridge

open Cert.ReferenceIdeal Cert.ReferenceIdeal.ReadP Idealize.ShloMosaic Idealize.ShloMosaic.ValueIdx Cert.Layer Cert.Consts
open scoped BigOperators

variable (x0 : (⟨S100000x1280, .f32⟩ : BufTy).Contents (Elt Ideal)) (x1 : (⟨S2x200000, .i32⟩ : BufTy).Contents (Elt Ideal))
  (x2 : (⟨S2x1000000, .i32⟩ : BufTy).Contents (Elt Ideal)) (x3 : (⟨S2x1600000, .i32⟩ : BufTy).Contents (Elt Ideal))
  (x4 : (⟨S3x1280x128, .f32⟩ : BufTy).Contents (Elt Ideal)) (x5 : (⟨S3x128, .f32⟩ : BufTy).Contents (Elt Ideal))
  (x6 : (⟨S128x128, .f32⟩ : BufTy).Contents (Elt Ideal)) (x7 x8 x9 : (⟨S128, .f32⟩ : BufTy).Contents (Elt Ideal))
  (x10 : (⟨S3x128x128, .f32⟩ : BufTy).Contents (Elt Ideal)) (x11 : (⟨S3x128, .f32⟩ : BufTy).Contents (Elt Ideal))
  (x12 : (⟨S128x128, .f32⟩ : BufTy).Contents (Elt Ideal)) (x13 x14 x15 : (⟨S128, .f32⟩ : BufTy).Contents (Elt Ideal))

theorem refLayer_of_stages {n K H : ℕ} (so si : Fin 3 → Fin n → EReal)
    (A : Fin 3 → (Fin n → Fin H → EReal) → Fin n → Fin H → EReal) (dv rs : EReal → EReal) (e : EReal)
    (x : Fin n → Fin K → EReal) (W : Fin 3 → Fin K → Fin H → EReal) (b : Fin 3 → Fin H → EReal)
    (fcW : Fin H → Fin H → EReal) (fcb g beta : Fin H → EReal)
    (P0 P1 P2 G0 G1 G2 T0 T1 T2 S Y out : Fin n → Fin H → EReal) (M V : Fin H → EReal)
    (hP0 : ∀ i j, P0 i j = ∑ k : Fin K, (x i k * so 0 i) * W 0 k j)
    (hP1 : ∀ i j, P1 i j = ∑ k : Fin K, (x i k * so 1 i) * W 1 k j)
    (hP2 : ∀ i j, P2 i j = ∑ k : Fin K, (x i k * so 2 i) * W 2 k j)
    (hG0 : G0 = A 0 P0) (hG1 : G1 = A 1 P1) (hG2 : G2 = A 2 P2)
    (hT0 : ∀ i j, T0 i j = G0 i j * si 0 i + b 0 j)
    (hT1 : ∀ i j, T1 i j = G1 i j * si 1 i + b 1 j)
    (hT2 : ∀ i j, T2 i j = G2 i j * si 2 i + b 2 j)
    (hS : ∀ i j, S i j = (T0 i j + T1 i j) + T2 i j)
    (hY : ∀ i j, Y i j = max ((∑ k : Fin H, S i k * fcW k j) + fcb j) 0)
    (hM : ∀ j, M j = dv (0 + ∑ i : Fin n, Y i j))
    (hV : ∀ j, V j = dv (0 + ∑ i : Fin n, (Y i j - M j) * (Y i j - M j)))
    (hO : ∀ i j, out i j = (Y i j - M j) * rs (V j + e) * g j + beta j) :
    out = refLayer so si A dv rs e x W b fcW fcb g beta := by
  obtain rfl : P0 = fun i j => ∑ k : Fin K, (x i k * so 0 i) * W 0 k j := funext fun i => funext fun j => hP0 i j
  obtain rfl : P1 = fun i j => ∑ k : Fin K, (x i k * so 1 i) * W 1 k j := funext fun i => funext fun j => hP1 i j
  obtain rfl : P2 = fun i j => ∑ k : Fin K, (x i k * so 2 i) * W 2 k j := funext fun i => funext fun j => hP2 i j
  subst hG0 hG1 hG2
  obtain rfl : T0 = _ := funext fun i => funext fun j => hT0 i j
  obtain rfl : T1 = _ := funext fun i => funext fun j => hT1 i j
  obtain rfl : T2 = _ := funext fun i => funext fun j => hT2 i j
  obtain rfl : S = _ := funext fun i => funext fun j => hS i j
  obtain rfl : Y = dense _ fcW fcb := funext fun i => funext fun j => hY i j
  obtain rfl : M = _ := funext hM
  obtain rfl : V = _ := funext hV
  funext i j
  rw [hO]
  rfl

theorem curry_uncurry (f : S100000x128.Idx → EReal) : (fun idx : S100000x128.Idx => f (ix2 (idx 0) (idx 1))) = f :=
  funext fun idx => congrArg f (eq_ix2 idx).symm

theorem A_0 (f : S100000x128.Idx → EReal) :
    Spec.A x1 x2 x3 0 (fun i j => f (ix2 i j)) = fun i j => Spec.aggArr0 (F := Ideal) x1 f (ix2 i j) := by
  funext i j
  rw [Spec.A_zero]
  exact congrArg (fun h => Spec.aggArr0 (F := Ideal) x1 h (ix2 i j)) (curry_uncurry f)
theorem A_1 (f : S100000x128.Idx → EReal) :
    Spec.A x1 x2 x3 1 (fun i j => f (ix2 i j)) = fun i j => Spec.aggArr1 (F := Ideal) x2 f (ix2 i j) := by
  funext i j
  rw [Spec.A_one]
  exact congrArg (fun h => Spec.aggArr1 (F := Ideal) x2 h (ix2 i j)) (curry_uncurry f)
theorem A_2 (f : S100000x128.Idx → EReal) :
    Spec.A x1 x2 x3 2 (fun i j => f (ix2 i j)) = fun i j => Spec.aggArr2 (F := Ideal) x3 f (ix2 i j) := by
  funext i j
  rw [Spec.A_two]
  exact congrArg (fun h => Spec.aggArr2 (F := Ideal) x3 h (ix2 i j)) (curry_uncurry f)

theorem l0_sum (i : Fin 100000) (j : Fin 128) :
    val_main_v124 (F := Ideal) x0 x1 x2 x3 x4 x5 (ix2 i j)
      = (val_main_v40 (F := Ideal) x0 x1 x4 x5 (ix2 i j) + val_main_v81 (F := Ideal) x0 x2 x4 x5 (ix2 i j))
          + val_main_v123 (F := Ideal) x0 x3 x4 x5 (ix2 i j) := by
  rw [val_main_v124_apply, val_main_v82_apply]
  rfl

theorem l0_rel0 (i : Fin 100000) (j : Fin 128) :
    val_main_v40 (F := Ideal) x0 x1 x4 x5 (ix2 i j)
      = val_main_v32 (F := Ideal) x0 x1 x4 (ix2 i j) * val_main_v34 (F := Ideal) x1 (ix1 i) + x5 (ix2 0 j) := by
  rw [val_main_v40_apply, val_main_v37_apply, val_main_v36_apply, val_main_v35_apply, val_main_v39_apply,
    val_main_v38_apply, val_main_v7_apply, val_main_v6_apply]
  have e1 : idx_bcast_S100000_S100000x1_0 (idx_bcast_S100000x1_S100000x128_0_1 (ix2 i j)) = ix1 i := funext fun a => by match a with | ⟨0, _⟩ => rfl
  have e2 : idx_main_v6 (idx_shapeCasts_S1x128_S128 (idx_bcast_S128_S1x128_1 (idx_bcast_S1x128_S100000x128_0_1 (ix2 i j)))) = ix2 0 j := funext fun a => by
    match a with
    | ⟨0, _⟩ => rfl
    | ⟨1, _⟩ => exact Fin.ext (Nat.mod_eq_of_lt j.isLt)
  rw [e1, e2]
  rfl

theorem l0_rel1 (i : Fin 100000) (j : Fin 128) :
    val_main_v81 (F := Ideal) x0 x2 x4 x5 (ix2 i j)
      = val_main_v73 (F := Ideal) x0 x2 x4 (ix2 i j) * val_main_v75 (F := Ideal) x2 (ix1 i) + x5 (ix2 1 j) := by
  rw [val_main_v81_apply, val_main_v78_apply, val_main_v77_apply, val_main_v76_apply, val_main_v80_apply,
    val_main_v79_apply, val_main_v48_apply, val_main_v47_apply]
  have e1 : idx_bcast_S100000_S100000x1_0 (idx_bcast_S100000x1_S100000x128_0_1 (ix2 i j)) = ix1 i := funext fun a => by match a with | ⟨0, _⟩ => rfl
  have e2 : idx_main_v47 (idx_shapeCasts_S1x128_S128 (idx_bcast_S128_S1x128_1 (idx_bcast_S1x128_S100000x128_0_1 (ix2 i j)))) = ix2 1 j := funext fun a => by
    match a with
    | ⟨0, _⟩ => rfl
    | ⟨1, _⟩ => exact Fin.ext (Nat.mod_eq_of_lt j.isLt)
  rw [e1, e2]
  rfl

theorem l0_rel2 (i : Fin 100000) (j : Fin 128) :
    val_main_v123 (F := Ideal) x0 x3 x4 x5 (ix2 i j)
      = val_main_v115 (F := Ideal) x0 x3 x4 (ix2 i j) * val_main_v117 (F := Ideal) x3 (ix1 i) + x5 (ix2 2 j) := by
  rw [val_main_v123_apply, val_main_v120_apply, val_main_v119_apply, val_main_v118_apply, val_main_v122_apply,
    val_main_v121_apply, val_main_v90_apply, val_main_v89_apply]
  have e1 : idx_bcast_S100000_S100000x1_0 (idx_bcast_S100000x1_S100000x128_0_1 (ix2 i j)) = ix1 i := funext fun a => by match a with | ⟨0, _⟩ => rfl
  have e2 : idx_main_v89 (idx_shapeCasts_S1x128_S128 (idx_bcast_S128_S1x128_1 (idx_bcast_S1x128_S100000x128_0_1 (ix2 i j)))) = ix2 2 j := funext fun a => by
    match a with
    | ⟨0, _⟩ => rfl
    | ⟨1, _⟩ => exact Fin.ext (Nat.mod_eq_of_lt j.isLt)
  rw [e1, e2]
  rfl

theorem l0_proj0 (i : Fin 100000) (j : Fin 128) :
    val_main_v22 (F := Ideal) x0 x1 x4 (ix2 i j)
      = ∑ k : Fin 1280, (x0 (ix2 i k) * val_main_v18 (F := Ideal) x1 (ix1 i)) * x4 (ix3 0 k j) := by
  rw [val_main_v22_apply]
  refine Finset.sum_congr rfl fun k _ => ?_
  rw [val_main_v21_apply, val_main_v20_apply, val_main_v19_apply, val_main_v5_apply, val_main_v4_apply]
  have e1 : lidx_d1280 (ix2 i j) k = ix2 i k := funext fun a => by match a with | ⟨0, _⟩ => rfl | ⟨1, _⟩ => rfl
  have e2 : idx_bcast_S100000_S100000x1_0 (idx_bcast_S100000x1_S100000x1280_0_1 (lidx_d1280 (ix2 i j) k)) = ix1 i := funext fun a => by match a with | ⟨0, _⟩ => rfl
  have e3 : idx_main_v4 (idx_shapeCasts_S1x1280x128_S1280x128 (ridx_d1280 (ix2 i j) k)) = ix3 0 k j := funext fun a => by
    have hk := k.isLt
    have hj := j.isLt
    match a with
    | ⟨0, _⟩ => rfl
    | ⟨1, _⟩ => exact Fin.ext (by show (k.val * 128 + j.val) / 128 % 1280 = k.val; omega)
    | ⟨2, _⟩ => exact Fin.ext (by show (k.val * 128 + j.val) % 128 = j.val; omega)
  rw [e2, e3, e1]
  rfl

theorem l0_proj1 (i : Fin 100000) (j : Fin 128) :
    val_main_v63 (F := Ideal) x0 x2 x4 (ix2 i j)
      = ∑ k : Fin 1280, (x0 (ix2 i k) * val_main_v59 (F := Ideal) x2 (ix1 i)) * x4 (ix3 1 k j) := by
  rw [val_main_v63_apply]
  refine Finset.sum_congr rfl fun k _ => ?_
  rw [val_main_v62_apply, val_main_v61_apply, val_main_v60_apply, val_main_v46_apply, val_main_v45_apply]
  have e1 : lidx_d1280 (ix2 i j) k = ix2 i k := funext fun a => by match a with | ⟨0, _⟩ => rfl | ⟨1, _⟩ => rfl
  have e2 : idx_bcast_S100000_S100000x1_0 (idx_bcast_S100000x1_S100000x1280_0_1 (lidx_d1280 (ix2 i j) k)) = ix1 i := funext fun a => by match a with | ⟨0, _⟩ => rfl
  have e3 : idx_main_v45 (idx_shapeCasts_S1x1280x128_S1280x128 (ridx_d1280 (ix2 i j) k)) = ix3 1 k j := funext fun a => by
    have hk := k.isLt
    have hj := j.isLt
    match a with
    | ⟨0, _⟩ => rfl
    | ⟨1, _⟩ => exact Fin.ext (by show (k.val * 128 + j.val) / 128 % 1280 = k.val; omega)
    | ⟨2, _⟩ => exact Fin.ext (by show (k.val * 128 + j.val) % 128 = j.val; omega)
  rw [e2, e3, e1]
  rfl

theorem l0_proj2 (i : Fin 100000) (j : Fin 128) :
    val_main_v105 (F := Ideal) x0 x3 x4 (ix2 i j)
      = ∑ k : Fin 1280, (x0 (ix2 i k) * val_main_v101 (F := Ideal) x3 (ix1 i)) * x4 (ix3 2 k j) := by
  rw [val_main_v105_apply]
  refine Finset.sum_congr rfl fun k _ => ?_
  rw [val_main_v104_apply, val_main_v103_apply, val_main_v102_apply, val_main_v88_apply, val_main_v87_apply]
  have e1 : lidx_d1280 (ix2 i j) k = ix2 i k := funext fun a => by match a with | ⟨0, _⟩ => rfl | ⟨1, _⟩ => rfl
  have e2 : idx_bcast_S100000_S100000x1_0 (idx_bcast_S100000x1_S100000x1280_0_1 (lidx_d1280 (ix2 i j) k)) = ix1 i := funext fun a => by match a with | ⟨0, _⟩ => rfl
  have e3 : idx_main_v87 (idx_shapeCasts_S1x1280x128_S1280x128 (ridx_d1280 (ix2 i j) k)) = ix3 2 k j := funext fun a => by
    have hk := k.isLt
    have hj := j.isLt
    match a with
    | ⟨0, _⟩ => rfl
    | ⟨1, _⟩ => exact Fin.ext (by show (k.val * 128 + j.val) / 128 % 1280 = k.val; omega)
    | ⟨2, _⟩ => exact Fin.ext (by show (k.val * 128 + j.val) % 128 = j.val; omega)
  rw [e2, e3, e1]
  rfl

theorem l0_so0 : val_main_v18 (F := Ideal) x1 = Spec.dinvArr0_src (F := Ideal) x1 := rfl
theorem l0_si0 : val_main_v34 (F := Ideal) x1 = Spec.dinvArr0_dst (F := Ideal) x1 := rfl
theorem l0_agg0 : val_main_v32 (F := Ideal) x0 x1 x4 = Spec.aggArr0 (F := Ideal) x1 (val_main_v22 (F := Ideal) x0 x1 x4) := rfl
theorem l0_so1 : val_main_v59 (F := Ideal) x2 = Spec.dinvArr1_src (F := Ideal) x2 := rfl
theorem l0_si1 : val_main_v75 (F := Ideal) x2 = Spec.dinvArr1_dst (F := Ideal) x2 := rfl
theorem l0_agg1 : val_main_v73 (F := Ideal) x0 x2 x4 = Spec.aggArr1 (F := Ideal) x2 (val_main_v63 (F := Ideal) x0 x2 x4) := rfl
theorem l0_so2 : val_main_v101 (F := Ideal) x3 = Spec.dinvArr2_src (F := Ideal) x3 := rfl
theorem l0_si2 : val_main_v117 (F := Ideal) x3 = Spec.dinvArr2_dst (F := Ideal) x3 := rfl
theorem l0_agg2 : val_main_v115 (F := Ideal) x0 x3 x4 = Spec.aggArr2 (F := Ideal) x3 (val_main_v105 (F := Ideal) x0 x3 x4) := rfl

theorem l0_P0 (i : Fin 100000) (j : Fin 128) :
    val_main_v22 (F := Ideal) x0 x1 x4 (ix2 i j)
      = ∑ k : Fin 1280, (x0 (ix2 i k) * Spec.so x1 x2 x3 0 i) * x4 (ix3 0 k j) := by
  rw [l0_proj0, Spec.so_zero, l0_so0]
theorem l0_P1 (i : Fin 100000) (j : Fin 128) :
    val_main_v63 (F := Ideal) x0 x2 x4 (ix2 i j)
      = ∑ k : Fin 1280, (x0 (ix2 i k) * Spec.so x1 x2 x3 1 i) * x4 (ix3 1 k j) := by
  rw [l0_proj1, Spec.so_one, l0_so1]
theorem l0_P2 (i : Fin 100000) (j : Fin 128) :
    val_main_v105 (F := Ideal) x0 x3 x4 (ix2 i j)
      = ∑ k : Fin 1280, (x0 (ix2 i k) * Spec.so x1 x2 x3 2 i) * x4 (ix3 2 k j) := by
  rw [l0_proj2, Spec.so_two, l0_so2]

theorem l0_G0 : (fun (i : Fin 100000) (j : Fin 128) => val_main_v32 (F := Ideal) x0 x1 x4 (ix2 i j))
    = Spec.A x1 x2 x3 0 (fun i j => val_main_v22 (F := Ideal) x0 x1 x4 (ix2 i j)) := by
  rw [A_0 x1 x2 x3 (val_main_v22 (F := Ideal) x0 x1 x4), l0_agg0]
theorem l0_G1 : (fun (i : Fin 100000) (j : Fin 128) => val_main_v73 (F := Ideal) x0 x2 x4 (ix2 i j))
    = Spec.A x1 x2 x3 1 (fun i j => val_main_v63 (F := Ideal) x0 x2 x4 (ix2 i j)) := by
  rw [A_1 x1 x2 x3 (val_main_v63 (F := Ideal) x0 x2 x4), l0_agg1]
theorem l0_G2 : (fun (i : Fin 100000) (j : Fin 128) => val_main_v115 (F := Ideal) x0 x3 x4 (ix2 i j))
    = Spec.A x1 x2 x3 2 (fun i j => val_main_v105 (F := Ideal) x0 x3 x4 (ix2 i j)) := by
  rw [A_2 x1 x2 x3 (val_main_v105 (F := Ideal) x0 x3 x4), l0_agg2]

theorem l0_T0 (i : Fin 100000) (j : Fin 128) :
    val_main_v40 (F := Ideal) x0 x1 x4 x5 (ix2 i j)
      = val_main_v32 (F := Ideal) x0 x1 x4 (ix2 i j) * Spec.si x1 x2 x3 0 i + x5 (ix2 0 j) := by
  rw [l0_rel0, Spec.si_zero, l0_si0]
theorem l0_T1 (i : Fin 100000) (j : Fin 128) :
    val_main_v81 (F := Ideal) x0 x2 x4 x5 (ix2 i j)
      = val_main_v73 (F := Ideal) x0 x2 x4 (ix2 i j) * Spec.si x1 x2 x3 1 i + x5 (ix2 1 j) := by
  rw [l0_rel1, Spec.si_one, l0_si1]
theorem l0_T2 (i : Fin 100000) (j : Fin 128) :
    val_main_v123 (F := Ideal) x0 x3 x4 x5 (ix2 i j)
      = val_main_v115 (F := Ideal) x0 x3 x4 (ix2 i j) * Spec.si x1 x2 x3 2 i + x5 (ix2 2 j) := by
  rw [l0_rel2, Spec.si_two, l0_si2]

theorem l0_dense (i : Fin 100000) (j : Fin 128) :
    val_main_v129 (F := Ideal) x0 x1 x2 x3 x4 x5 x6 x7 (ix2 i j)
      = max ((∑ k : Fin 128, val_main_v124 (F := Ideal) x0 x1 x2 x3 x4 x5 (ix2 i k) * x6 (ix2 k j)) + x7 (ix1 j)) 0 := by
  rw [val_main_v129_apply, val_main_v128_apply, val_main_v125_apply, val_main_v127_apply, val_main_v126_apply,
    val_main_call6_v0_apply, val_main_call6_cst_apply]
  have e1 : ∀ k : Fin 128, lidx_d128 (ix2 i j) k = ix2 i k := fun k => funext fun a => by
    match a with | ⟨0, _⟩ => rfl | ⟨1, _⟩ => rfl
  have e2 : ∀ k : Fin 128, ridx_d128 (ix2 i j) k = ix2 k j := fun k => funext fun a => by
    match a with | ⟨0, _⟩ => rfl | ⟨1, _⟩ => rfl
  have e3 : idx_bcast_S128_S1x128_1 (idx_bcast_S1x128_S100000x128_0_1 (ix2 i j)) = ix1 j := funext fun a => by
    match a with | ⟨0, _⟩ => rfl
  simp only [e1, e2, e3, Ideal.maximumf_def, Ideal.addf_def, Ideal.ofBits_def, Ideal.ofBits_zero_f32]

theorem l0_mean (j : Fin 128) :
    val_main_v132 (F := Ideal) x0 x1 x2 x3 x4 x5 x6 x7 (ix1 j)
      = dvN (0 + ∑ i : Fin 100000, val_main_v129 (F := Ideal) x0 x1 x2 x3 x4 x5 x6 x7 (ix2 i j)) := by
  rw [val_main_v132_apply, val_main_v130_apply, val_main_v131_apply, val_main_cst_28_apply, val_main_cst_29_apply]
  have e1 : ∀ k : Fin 100000, idx_reducesTo_S100000x128_S128_d0 (ix1 j) k = ix2 k j := fun k => funext fun a => by
    match a with | ⟨0, _⟩ => rfl | ⟨1, _⟩ => rfl
  simp only [e1, Ideal.hostDivf_def, Ideal.ofBits_def, Ideal.ofBits_zero_f32]
  rfl

theorem l0_var (j : Fin 128) :
    val_main_v139 (F := Ideal) x0 x1 x2 x3 x4 x5 x6 x7 (ix1 j)
      = dvN (0 + ∑ i : Fin 100000,
          (val_main_v129 (F := Ideal) x0 x1 x2 x3 x4 x5 x6 x7 (ix2 i j) - val_main_v132 (F := Ideal) x0 x1 x2 x3 x4 x5 x6 x7 (ix1 j))
            * (val_main_v129 (F := Ideal) x0 x1 x2 x3 x4 x5 x6 x7 (ix2 i j) - val_main_v132 (F := Ideal) x0 x1 x2 x3 x4 x5 x6 x7 (ix1 j))) := by
  rw [val_main_v139_apply, val_main_v137_apply, val_main_v138_apply, val_main_cst_30_apply, val_main_cst_31_apply]
  have e1 : ∀ k : Fin 100000, idx_reducesTo_S100000x128_S128_d0 (ix1 j) k = ix2 k j := fun k => funext fun a => by
    match a with | ⟨0, _⟩ => rfl | ⟨1, _⟩ => rfl
  have e2 : ∀ k : Fin 100000, idx_bcast_S128_S1x128_1 (idx_bcast_S1x128_S100000x128_0_1 (ix2 k j)) = ix1 j := fun k => funext fun a => by
    match a with | ⟨0, _⟩ => rfl
  simp only [e1, val_main_v136_apply, val_main_v135_apply, val_main_v134_apply, val_main_v133_apply, e2,
    Ideal.hostDivf_def, Ideal.mulf_def, Ideal.subf_def, Ideal.ofBits_def, Ideal.ofBits_zero_f32]
  rfl

theorem l0_out (i : Fin 100000) (j : Fin 128) :
    val_main_v154 (F := Ideal) x0 x1 x2 x3 x4 x5 x6 x7 x8 x9 (ix2 i j)
      = (val_main_v129 (F := Ideal) x0 x1 x2 x3 x4 x5 x6 x7 (ix2 i j) - val_main_v132 (F := Ideal) x0 x1 x2 x3 x4 x5 x6 x7 (ix1 j))
          * rsq (val_main_v139 (F := Ideal) x0 x1 x2 x3 x4 x5 x6 x7 (ix1 j) + eps) * x8 (ix1 j) + x9 (ix1 j) := by
  rw [val_main_v154_apply, val_main_v151_apply, val_main_v148_apply, val_main_v142_apply, val_main_v141_apply,
    val_main_v140_apply, val_main_v147_apply, val_main_v146_apply, val_main_v145_apply, val_main_v144_apply,
    val_main_v143_apply, val_main_cst_32_apply, val_main_v150_apply, val_main_v149_apply, val_main_v153_apply,
    val_main_v152_apply]
  have e1 : idx_bcast_S128_S1x128_1 (idx_bcast_S1x128_S100000x128_0_1 (ix2 i j)) = ix1 j := funext fun a => by match a with | ⟨0, _⟩ => rfl
  have e2 : idx_bcast_S128_S1x128_1 (idx_bcast_S1x128_S100000x128_0_1 (ix2 i j)) = ix1 j := funext fun a => by match a with | ⟨0, _⟩ => rfl
  have e3 : idx_bcast_S128_S1x128_1 (idx_bcast_S1x128_S100000x128_0_1 (ix2 i j)) = ix1 j := funext fun a => by match a with | ⟨0, _⟩ => rfl
  have e4 : idx_bcast_S128_S1x128_1 (idx_bcast_S1x128_S100000x128_0_1 (ix2 i j)) = ix1 j := funext fun a => by match a with | ⟨0, _⟩ => rfl
  simp only [e1, e2, e3, e4, Ideal.addf_def, Ideal.mulf_def, Ideal.subf_def, Ideal.hostUnary_rsqrt_def, Ideal.ofBits_def]
  rfl

theorem layer0 :
    (fun (i : Fin 100000) (j : Fin 128) => val_main_v154 (F := Ideal) x0 x1 x2 x3 x4 x5 x6 x7 x8 x9 (ix2 i j))
      = refLayer (Spec.so x1 x2 x3) (Spec.si x1 x2 x3) (Spec.A x1 x2 x3) dvN rsq eps
          (fun i k => x0 (ix2 i k)) (fun r k j => x4 (ix3 r k j)) (fun r j => x5 (ix2 r j))
          (fun k j => x6 (ix2 k j)) (fun j => x7 (ix1 j)) (fun j => x8 (ix1 j)) (fun j => x9 (ix1 j)) :=
  refLayer_of_stages (Spec.so x1 x2 x3) (Spec.si x1 x2 x3) (Spec.A x1 x2 x3) dvN rsq eps
    (fun i k => x0 (ix2 i k)) (fun r k j => x4 (ix3 r k j)) (fun r j => x5 (ix2 r j))
    (fun k j => x6 (ix2 k j)) (fun j => x7 (ix1 j)) (fun j => x8 (ix1 j)) (fun j => x9 (ix1 j))
    (fun i j => val_main_v22 (F := Ideal) x0 x1 x4 (ix2 i j))
    (fun i j => val_main_v63 (F := Ideal) x0 x2 x4 (ix2 i j))
    (fun i j => val_main_v105 (F := Ideal) x0 x3 x4 (ix2 i j))
    (fun i j => val_main_v32 (F := Ideal) x0 x1 x4 (ix2 i j))
    (fun i j => val_main_v73 (F := Ideal) x0 x2 x4 (ix2 i j))
    (fun i j => val_main_v115 (F := Ideal) x0 x3 x4 (ix2 i j))
    (fun i j => val_main_v40 (F := Ideal) x0 x1 x4 x5 (ix2 i j))
    (fun i j => val_main_v81 (F := Ideal) x0 x2 x4 x5 (ix2 i j))
    (fun i j => val_main_v123 (F := Ideal) x0 x3 x4 x5 (ix2 i j))
    (fun i j => val_main_v124 (F := Ideal) x0 x1 x2 x3 x4 x5 (ix2 i j))
    (fun i j => val_main_v129 (F := Ideal) x0 x1 x2 x3 x4 x5 x6 x7 (ix2 i j))
    (fun i j => val_main_v154 (F := Ideal) x0 x1 x2 x3 x4 x5 x6 x7 x8 x9 (ix2 i j))
    (fun j => val_main_v132 (F := Ideal) x0 x1 x2 x3 x4 x5 x6 x7 (ix1 j))
    (fun j => val_main_v139 (F := Ideal) x0 x1 x2 x3 x4 x5 x6 x7 (ix1 j))
    (fun i j => l0_P0 x0 x1 x2 x3 x4 i j) (fun i j => l0_P1 x0 x1 x2 x3 x4 i j) (fun i j => l0_P2 x0 x1 x2 x3 x4 i j)
    (l0_G0 x0 x1 x2 x3 x4) (l0_G1 x0 x1 x2 x3 x4) (l0_G2 x0 x1 x2 x3 x4)
    (fun i j => l0_T0 x0 x1 x2 x3 x4 x5 i j) (fun i j => l0_T1 x0 x1 x2 x3 x4 x5 i j) (fun i j => l0_T2 x0 x1 x2 x3 x4 x5 i j)
    (fun i j => l0_sum x0 x1 x2 x3 x4 x5 i j)
    (fun i j => l0_dense x0 x1 x2 x3 x4 x5 x6 x7 i j)
    (fun j => l0_mean x0 x1 x2 x3 x4 x5 x6 x7 j)
    (fun j => l0_var x0 x1 x2 x3 x4 x5 x6 x7 j)
    (fun i j => l0_out x0 x1 x2 x3 x4 x5 x6 x7 x8 x9 i j)

theorem l1_sum (i : Fin 100000) (j : Fin 128) :
    val_main_v279 (F := Ideal) x0 x1 x2 x3 x4 x5 x6 x7 x8 x9 x10 x11 (ix2 i j)
      = (val_main_v195 (F := Ideal) x0 x1 x2 x3 x4 x5 x6 x7 x8 x9 x10 x11 (ix2 i j)
          + val_main_v236 (F := Ideal) x0 x1 x2 x3 x4 x5 x6 x7 x8 x9 x10 x11 (ix2 i j))
          + val_main_v278 (F := Ideal) x0 x1 x2 x3 x4 x5 x6 x7 x8 x9 x10 x11 (ix2 i j) := by
  rw [val_main_v279_apply, val_main_v237_apply]
  rfl

theorem l1_rel0 (i : Fin 100000) (j : Fin 128) :
    val_main_v195 (F := Ideal) x0 x1 x2 x3 x4 x5 x6 x7 x8 x9 x10 x11 (ix2 i j)
      = val_main_v187 (F := Ideal) x0 x1 x2 x3 x4 x5 x6 x7 x8 x9 x10 (ix2 i j) * val_main_v189 (F := Ideal) x1 (ix1 i)
          + x11 (ix2 0 j) := by
  rw [val_main_v195_apply, val_main_v192_apply, val_main_v191_apply, val_main_v190_apply, val_main_v194_apply,
    val_main_v193_apply, val_main_v162_apply, val_main_v161_apply]
  have e1 : idx_bcast_S100000_S100000x1_0 (idx_bcast_S100000x1_S100000x128_0_1 (ix2 i j)) = ix1 i := funext fun a => by match a with | ⟨0, _⟩ => rfl
  have e2 : idx_main_v161 (idx_shapeCasts_S1x128_S128 (idx_bcast_S128_S1x128_1 (idx_bcast_S1x128_S100000x128_0_1 (ix2 i j)))) = ix2 0 j := funext fun a => by
    match a with
    | ⟨0, _⟩ => rfl
    | ⟨1, _⟩ => exact Fin.ext (Nat.mod_eq_of_lt j.isLt)
  rw [e1, e2]
  rfl

theorem l1_rel1 (i : Fin 100000) (j : Fin 128) :
    val_main_v236 (F := Ideal) x0 x1 x2 x3 x4 x5 x6 x7 x8 x9 x10 x11 (ix2 i j)
      = val_main_v228 (F := Ideal) x0 x1 x2 x3 x4 x5 x6 x7 x8 x9 x10 (ix2 i j) * val_main_v230 (F := Ideal) x2 (ix1 i)
          + x11 (ix2 1 j) := by
  rw [val_main_v236_apply, val_main_v233_apply, val_main_v232_apply, val_main_v231_apply, val_main_v235_apply,
    val_main_v234_apply, val_main_v203_apply, val_main_v202_apply]
  have e1 : idx_bcast_S100000_S100000x1_0 (idx_bcast_S100000x1_S100000x128_0_1 (ix2 i j)) = ix1 i := funext fun a => by match a with | ⟨0, _⟩ => rfl
  have e2 : idx_main_v202 (idx_shapeCasts_S1x128_S128 (idx_bcast_S128_S1x128_1 (idx_bcast_S1x128_S100000x128_0_1 (ix2 i j)))) = ix2 1 j := funext fun a => by
    match a with
    | ⟨0, _⟩ => rfl
    | ⟨1, _⟩ => exact Fin.ext (Nat.mod_eq_of_lt j.isLt)
  rw [e1, e2]
  rfl

theorem l1_rel2 (i : Fin 100000) (j : Fin 128) :
    val_main_v278 (F := Ideal) x0 x1 x2 x3 x4 x5 x6 x7 x8 x9 x10 x11 (ix2 i j)
      = val_main_v270 (F := Ideal) x0 x1 x2 x3 x4 x5 x6 x7 x8 x9 x10 (ix2 i j) * val_main_v272 (F := Ideal) x3 (ix1 i)
          + x11 (ix2 2 j) := by
  rw [val_main_v278_apply, val_main_v275_apply, val_main_v274_apply, val_main_v273_apply, val_main_v277_apply,
    val_main_v276_apply, val_main_v245_apply, val_main_v244_apply]
  have e1 : idx_bcast_S100000_S100000x1_0 (idx_bcast_S100000x1_S100000x128_0_1 (ix2 i j)) = ix1 i := funext fun a => by match a with | ⟨0, _⟩ => rfl
  have e2 : idx_main_v244 (idx_shapeCasts_S1x128_S128 (idx_bcast_S128_S1x128_1 (idx_bcast_S1x128_S100000x128_0_1 (ix2 i j)))) = ix2 2 j := funext fun a => by
    match a with
    | ⟨0, _⟩ => rfl
    | ⟨1, _⟩ => exact Fin.ext (Nat.mod_eq_of_lt j.isLt)
  rw [e1, e2]
  rfl

theorem l1_proj0 (i : Fin 100000) (j : Fin 128) :
    val_main_v177 (F := Ideal) x0 x1 x2 x3 x4 x5 x6 x7 x8 x9 x10 (ix2 i j)
      = ∑ k : Fin 128, (val_main_v154 (F := Ideal) x0 x1 x2 x3 x4 x5 x6 x7 x8 x9 (ix2 i k) * val_main_v173 (F := Ideal) x1 (ix1 i))
          * x10 (ix3 0 k j) := by
  rw [val_main_v177_apply]
  refine Finset.sum_congr rfl fun k _ => ?_
  rw [val_main_v176_apply, val_main_v175_apply, val_main_v174_apply, val_main_v160_apply, val_main_v159_apply]
  have e1 : lidx_d128 (ix2 i j) k = ix2 i k := funext fun a => by match a with | ⟨0, _⟩ => rfl | ⟨1, _⟩ => rfl
  have e2 : idx_bcast_S100000_S100000x1_0 (idx_bcast_S100000x1_S100000x128_0_1 (lidx_d128 (ix2 i j) k)) = ix1 i := funext fun a => by match a with | ⟨0, _⟩ => rfl
  have e3 : idx_main_v159 (idx_shapeCasts_S1x128x128_S128x128 (ridx_d128 (ix2 i j) k)) = ix3 0 k j := funext fun a => by
    have hk := k.isLt
    have hj := j.isLt
    match a with
    | ⟨0, _⟩ => rfl
    | ⟨1, _⟩ => exact Fin.ext (by show (k.val * 128 + j.val) / 128 % 128 = k.val; omega)
    | ⟨2, _⟩ => exact Fin.ext (by show (k.val * 128 + j.val) % 128 = j.val; omega)
  rw [e2, e3, e1]
  rfl

theorem l1_proj1 (i : Fin 100000) (j : Fin 128) :
    val_main_v218 (F := Ideal) x0 x1 x2 x3 x4 x5 x6 x7 x8 x9 x10 (ix2 i j)
      = ∑ k : Fin 128, (val_main_v154 (F := Ideal) x0 x1 x2 x3 x4 x5 x6 x7 x8 x9 (ix2 i k) * val_main_v214 (F := Ideal) x2 (ix1 i))
          * x10 (ix3 1 k j) := by
  rw [val_main_v218_apply]
  refine Finset.sum_congr rfl fun k _ => ?_
  rw [val_main_v217_apply, val_main_v216_apply, val_main_v215_apply, val_main_v201_apply, val_main_v200_apply]
  have e1 : lidx_d128 (ix2 i j) k = ix2 i k := funext fun a => by match a with | ⟨0, _⟩ => rfl | ⟨1, _⟩ => rfl
  have e2 : idx_bcast_S100000_S100000x1_0 (idx_bcast_S100000x1_S100000x128_0_1 (lidx_d128 (ix2 i j) k)) = ix1 i := funext fun a => by match a with | ⟨0, _⟩ => rfl
  have e3 : idx_main_v200 (idx_shapeCasts_S1x128x128_S128x128 (ridx_d128 (ix2 i j) k)) = ix3 1 k j := funext fun a => by
    have hk := k.isLt
    have hj := j.isLt
    match a with
    | ⟨0, _⟩ => rfl
    | ⟨1, _⟩ => exact Fin.ext (by show (k.val * 128 + j.val) / 128 % 128 = k.val; omega)
    | ⟨2, _⟩ => exact Fin.ext (by show (k.val * 128 + j.val) % 128 = j.val; omega)
  rw [e2, e3, e1]
  rfl

theorem l1_proj2 (i : Fin 100000) (j : Fin 128) :
    val_main_v260 (F := Ideal) x0 x1 x2 x3 x4 x5 x6 x7 x8 x9 x10 (ix2 i j)
      = ∑ k : Fin 128, (val_main_v154 (F := Ideal) x0 x1 x2 x3 x4 x5 x6 x7 x8 x9 (ix2 i k) * val_main_v256 (F := Ideal) x3 (ix1 i))
          * x10 (ix3 2 k j) := by
  rw [val_main_v260_apply]
  refine Finset.sum_congr rfl fun k _ => ?_
  rw [val_main_v259_apply, val_main_v258_apply, val_main_v257_apply, val_main_v243_apply, val_main_v242_apply]
  have e1 : lidx_d128 (ix2 i j) k = ix2 i k := funext fun a => by match a with | ⟨0, _⟩ => rfl | ⟨1, _⟩ => rfl
  have e2 : idx_bcast_S100000_S100000x1_0 (idx_bcast_S100000x1_S100000x128_0_1 (lidx_d128 (ix2 i j) k)) = ix1 i := funext fun a => by match a with | ⟨0, _⟩ => rfl
  have e3 : idx_main_v242 (idx_shapeCasts_S1x128x128_S128x128 (ridx_d128 (ix2 i j) k)) = ix3 2 k j := funext fun a => by
    have hk := k.isLt
    have hj := j.isLt
    match a with
    | ⟨0, _⟩ => rfl
    | ⟨1, _⟩ => exact Fin.ext (by show (k.val * 128 + j.val) / 128 % 128 = k.val; omega)
    | ⟨2, _⟩ => exact Fin.ext (by show (k.val * 128 + j.val) % 128 = j.val; omega)
  rw [e2, e3, e1]
  rfl

theorem l1_so0 : val_main_v173 (F := Ideal) x1 = Spec.dinvArr0_src (F := Ideal) x1 := rfl
theorem l1_si0 : val_main_v189 (F := Ideal) x1 = Spec.dinvArr0_dst (F := Ideal) x1 := rfl
theorem l1_agg0 : val_main_v187 (F := Ideal) x0 x1 x2 x3 x4 x5 x6 x7 x8 x9 x10
    = Spec.aggArr0 (F := Ideal) x1 (val_main_v177 (F := Ideal) x0 x1 x2 x3 x4 x5 x6 x7 x8 x9 x10) := rfl
theorem l1_so1 : val_main_v214 (F := Ideal) x2 = Spec.dinvArr1_src (F := Ideal) x2 := rfl
theorem l1_si1 : val_main_v230 (F := Ideal) x2 = Spec.dinvArr1_dst (F := Ideal) x2 := rfl
theorem l1_agg1 : val_main_v228 (F := Ideal) x0 x1 x2 x3 x4 x5 x6 x7 x8 x9 x10
    = Spec.aggArr1 (F := Ideal) x2 (val_main_v218 (F := Ideal) x0 x1 x2 x3 x4 x5 x6 x7 x8 x9 x10) := rfl
theorem l1_so2 : val_main_v256 (F := Ideal) x3 = Spec.dinvArr2_src (F := Ideal) x3 := rfl
theorem l1_si2 : val_main_v272 (F := Ideal) x3 = Spec.dinvArr2_dst (F := Ideal) x3 := rfl
theorem l1_agg2 : val_main_v270 (F := Ideal) x0 x1 x2 x3 x4 x5 x6 x7 x8 x9 x10
    = Spec.aggArr2 (F := Ideal) x3 (val_main_v260 (F := Ideal) x0 x1 x2 x3 x4 x5 x6 x7 x8 x9 x10) := rfl

theorem l1_P0 (i : Fin 100000) (j : Fin 128) :
    val_main_v177 (F := Ideal) x0 x1 x2 x3 x4 x5 x6 x7 x8 x9 x10 (ix2 i j)
      = ∑ k : Fin 128, (val_main_v154 (F := Ideal) x0 x1 x2 x3 x4 x5 x6 x7 x8 x9 (ix2 i k) * Spec.so x1 x2 x3 0 i)
          * x10 (ix3 0 k j) := by
  rw [l1_proj0, Spec.so_zero, l1_so0]
theorem l1_P1 (i : Fin 100000) (j : Fin 128) :
    val_main_v218 (F := Ideal) x0 x1 x2 x3 x4 x5 x6 x7 x8 x9 x10 (ix2 i j)
      = ∑ k : Fin 128, (val_main_v154 (F := Ideal) x0 x1 x2 x3 x4 x5 x6 x7 x8 x9 (ix2 i k) * Spec.so x1 x2 x3 1 i)
          * x10 (ix3 1 k j) := by
  rw [l1_proj1, Spec.so_one, l1_so1]
theorem l1_P2 (i : Fin 100000) (j : Fin 128) :
    val_main_v260 (F := Ideal) x0 x1 x2 x3 x4 x5 x6 x7 x8 x9 x10 (ix2 i j)
      = ∑ k : Fin 128, (val_main_v154 (F := Ideal) x0 x1 x2 x3 x4 x5 x6 x7 x8 x9 (ix2 i k) * Spec.so x1 x2 x3 2 i)
          * x10 (ix3 2 k j) := by
  rw [l1_proj2, Spec.so_two, l1_so2]

theorem l1_G0 :
    (fun (i : Fin 100000) (j : Fin 128) => val_main_v187 (F := Ideal) x0 x1 x2 x3 x4 x5 x6 x7 x8 x9 x10 (ix2 i j))
      = Spec.A x1 x2 x3 0 (fun i j => val_main_v177 (F := Ideal) x0 x1 x2 x3 x4 x5 x6 x7 x8 x9 x10 (ix2 i j)) := by
  rw [A_0 x1 x2 x3 (val_main_v177 (F := Ideal) x0 x1 x2 x3 x4 x5 x6 x7 x8 x9 x10), l1_agg0]
theorem l1_G1 :
    (fun (i : Fin 100000) (j : Fin 128) => val_main_v228 (F := Ideal) x0 x1 x2 x3 x4 x5 x6 x7 x8 x9 x10 (ix2 i j))
      = Spec.A x1 x2 x3 1 (fun i j => val_main_v218 (F := Ideal) x0 x1 x2 x3 x4 x5 x6 x7 x8 x9 x10 (ix2 i j)) := by
  rw [A_1 x1 x2 x3 (val_main_v218 (F := Ideal) x0 x1 x2 x3 x4 x5 x6 x7 x8 x9 x10), l1_agg1]
theorem l1_G2 :
    (fun (i : Fin 100000) (j : Fin 128) => val_main_v270 (F := Ideal) x0 x1 x2 x3 x4 x5 x6 x7 x8 x9 x10 (ix2 i j))
      = Spec.A x1 x2 x3 2 (fun i j => val_main_v260 (F := Ideal) x0 x1 x2 x3 x4 x5 x6 x7 x8 x9 x10 (ix2 i j)) := by
  rw [A_2 x1 x2 x3 (val_main_v260 (F := Ideal) x0 x1 x2 x3 x4 x5 x6 x7 x8 x9 x10), l1_agg2]

theorem l1_T0 (i : Fin 100000) (j : Fin 128) :
    val_main_v195 (F := Ideal) x0 x1 x2 x3 x4 x5 x6 x7 x8 x9 x10 x11 (ix2 i j)
      = val_main_v187 (F := Ideal) x0 x1 x2 x3 x4 x5 x6 x7 x8 x9 x10 (ix2 i j) * Spec.si x1 x2 x3 0 i + x11 (ix2 0 j) := by
  rw [l1_rel0, Spec.si_zero, l1_si0]
theorem l1_T1 (i : Fin 100000) (j : Fin 128) :
    val_main_v236 (F := Ideal) x0 x1 x2 x3 x4 x5 x6 x7 x8 x9 x10 x11 (ix2 i j)
      = val_main_v228 (F := Ideal) x0 x1 x2 x3 x4 x5 x6 x7 x8 x9 x10 (ix2 i j) * Spec.si x1 x2 x3 1 i + x11 (ix2 1 j) := by
  rw [l1_rel1, Spec.si_one, l1_si1]
theorem l1_T2 (i : Fin 100000) (j : Fin 128) :
    val_main_v278 (F := Ideal) x0 x1 x2 x3 x4 x5 x6 x7 x8 x9 x10 x11 (ix2 i j)
      = val_main_v270 (F := Ideal) x0 x1 x2 x3 x4 x5 x6 x7 x8 x9 x10 (ix2 i j) * Spec.si x1 x2 x3 2 i + x11 (ix2 2 j) := by
  rw [l1_rel2, Spec.si_two, l1_si2]

theorem l1_dense (i : Fin 100000) (j : Fin 128) :
    val_main_v284 (F := Ideal) x0 x1 x2 x3 x4 x5 x6 x7 x8 x9 x10 x11 x12 x13 (ix2 i j)
      = max ((∑ k : Fin 128, val_main_v279 (F := Ideal) x0 x1 x2 x3 x4 x5 x6 x7 x8 x9 x10 x11 (ix2 i k) * x12 (ix2 k j))
          + x13 (ix1 j)) 0 := by
  rw [val_main_v284_apply, val_main_v283_apply, val_main_v280_apply, val_main_v282_apply, val_main_v281_apply,
    val_main_call13_v0_apply, val_main_call13_cst_apply]
  have e1 : ∀ k : Fin 128, lidx_d128 (ix2 i j) k = ix2 i k := fun k => funext fun a => by
    match a with | ⟨0, _⟩ => rfl | ⟨1, _⟩ => rfl
  have e2 : ∀ k : Fin 128, ridx_d128 (ix2 i j) k = ix2 k j := fun k => funext fun a => by
    match a with | ⟨0, _⟩ => rfl | ⟨1, _⟩ => rfl
  have e3 : idx_bcast_S128_S1x128_1 (idx_bcast_S1x128_S100000x128_0_1 (ix2 i j)) = ix1 j := funext fun a => by
    match a with | ⟨0, _⟩ => rfl
  simp only [e1, e2, e3, Ideal.maximumf_def, Ideal.addf_def, Ideal.ofBits_def, Ideal.ofBits_zero_f32]

theorem l1_mean (j : Fin 128) :
    val_main_v287 (F := Ideal) x0 x1 x2 x3 x4 x5 x6 x7 x8 x9 x10 x11 x12 x13 (ix1 j)
      = dvN (0 + ∑ i : Fin 100000, val_main_v284 (F := Ideal) x0 x1 x2 x3 x4 x5 x6 x7 x8 x9 x10 x11 x12 x13 (ix2 i j)) := by
  rw [val_main_v287_apply, val_main_v285_apply, val_main_v286_apply, val_main_cst_63_apply, val_main_cst_64_apply]
  have e1 : ∀ k : Fin 100000, idx_reducesTo_S100000x128_S128_d0 (ix1 j) k = ix2 k j := fun k => funext fun a => by
    match a with | ⟨0, _⟩ => rfl | ⟨1, _⟩ => rfl
  simp only [e1, Ideal.hostDivf_def, Ideal.ofBits_def, Ideal.ofBits_zero_f32]
  rfl

theorem l1_var (j : Fin 128) :
    val_main_v294 (F := Ideal) x0 x1 x2 x3 x4 x5 x6 x7 x8 x9 x10 x11 x12 x13 (ix1 j)
      = dvN (0 + ∑ i : Fin 100000,
          (val_main_v284 (F := Ideal) x0 x1 x2 x3 x4 x5 x6 x7 x8 x9 x10 x11 x12 x13 (ix2 i j)
              - val_main_v287 (F := Ideal) x0 x1 x2 x3 x4 x5 x6 x7 x8 x9 x10 x11 x12 x13 (ix1 j))
            * (val_main_v284 (F := Ideal) x0 x1 x2 x3 x4 x5 x6 x7 x8 x9 x10 x11 x12 x13 (ix2 i j)
              - val_main_v287 (F := Ideal) x0 x1 x2 x3 x4 x5 x6 x7 x8 x9 x10 x11 x12 x13 (ix1 j))) := by
  rw [val_main_v294_apply, val_main_v292_apply, val_main_v293_apply, val_main_cst_65_apply, val_main_cst_66_apply]
  have e1 : ∀ k : Fin 100000, idx_reducesTo_S100000x128_S128_d0 (ix1 j) k = ix2 k j := fun k => funext fun a => by
    match a with | ⟨0, _⟩ => rfl | ⟨1, _⟩ => rfl
  have e2 : ∀ k : Fin 100000, idx_bcast_S128_S1x128_1 (idx_bcast_S1x128_S100000x128_0_1 (ix2 k j)) = ix1 j := fun k => funext fun a => by
    match a with | ⟨0, _⟩ => rfl
  simp only [e1, val_main_v291_apply, val_main_v290_apply, val_main_v289_apply, val_main_v288_apply, e2,
    Ideal.hostDivf_def, Ideal.mulf_def, Ideal.subf_def, Ideal.ofBits_def, Ideal.ofBits_zero_f32]
  rfl

theorem l1_out (i : Fin 100000) (j : Fin 128) :
    val_main_v309 (F := Ideal) x0 x1 x2 x3 x4 x5 x6 x7 x8 x9 x10 x11 x12 x13 x14 x15 (ix2 i j)
      = (val_main_v284 (F := Ideal) x0 x1 x2 x3 x4 x5 x6 x7 x8 x9 x10 x11 x12 x13 (ix2 i j)
            - val_main_v287 (F := Ideal) x0 x1 x2 x3 x4 x5 x6 x7 x8 x9 x10 x11 x12 x13 (ix1 j))
          * rsq (val_main_v294 (F := Ideal) x0 x1 x2 x3 x4 x5 x6 x7 x8 x9 x10 x11 x12 x13 (ix1 j) + eps) * x14 (ix1 j)
          + x15 (ix1 j) := by
  rw [val_main_v309_apply, val_main_v306_apply, val_main_v303_apply, val_main_v297_apply, val_main_v296_apply,
    val_main_v295_apply, val_main_v302_apply, val_main_v301_apply, val_main_v300_apply, val_main_v299_apply,
    val_main_v298_apply, val_main_cst_67_apply, val_main_v305_apply, val_main_v304_apply, val_main_v308_apply,
    val_main_v307_apply]
  have e1 : idx_bcast_S128_S1x128_1 (idx_bcast_S1x128_S100000x128_0_1 (ix2 i j)) = ix1 j := funext fun a => by match a with | ⟨0, _⟩ => rfl
  have e2 : idx_bcast_S128_S1x128_1 (idx_bcast_S1x128_S100000x128_0_1 (ix2 i j)) = ix1 j := funext fun a => by match a with | ⟨0, _⟩ => rfl
  have e3 : idx_bcast_S128_S1x128_1 (idx_bcast_S1x128_S100000x128_0_1 (ix2 i j)) = ix1 j := funext fun a => by match a with | ⟨0, _⟩ => rfl
  have e4 : idx_bcast_S128_S1x128_1 (idx_bcast_S1x128_S100000x128_0_1 (ix2 i j)) = ix1 j := funext fun a => by match a with | ⟨0, _⟩ => rfl
  simp only [e1, e2, e3, e4, Ideal.addf_def, Ideal.mulf_def, Ideal.subf_def, Ideal.hostUnary_rsqrt_def, Ideal.ofBits_def]
  rfl

theorem layer1 :
    (fun (i : Fin 100000) (j : Fin 128) =>
        val_main_v309 (F := Ideal) x0 x1 x2 x3 x4 x5 x6 x7 x8 x9 x10 x11 x12 x13 x14 x15 (ix2 i j))
      = refLayer (Spec.so x1 x2 x3) (Spec.si x1 x2 x3) (Spec.A x1 x2 x3) dvN rsq eps
          (fun i k => val_main_v154 (F := Ideal) x0 x1 x2 x3 x4 x5 x6 x7 x8 x9 (ix2 i k))
          (fun r k j => x10 (ix3 r k j)) (fun r j => x11 (ix2 r j))
          (fun k j => x12 (ix2 k j)) (fun j => x13 (ix1 j)) (fun j => x14 (ix1 j)) (fun j => x15 (ix1 j)) :=
  refLayer_of_stages (Spec.so x1 x2 x3) (Spec.si x1 x2 x3) (Spec.A x1 x2 x3) dvN rsq eps
    (fun i k => val_main_v154 (F := Ideal) x0 x1 x2 x3 x4 x5 x6 x7 x8 x9 (ix2 i k))
    (fun r k j => x10 (ix3 r k j)) (fun r j => x11 (ix2 r j))
    (fun k j => x12 (ix2 k j)) (fun j => x13 (ix1 j)) (fun j => x14 (ix1 j)) (fun j => x15 (ix1 j))
    (fun i j => val_main_v177 (F := Ideal) x0 x1 x2 x3 x4 x5 x6 x7 x8 x9 x10 (ix2 i j))
    (fun i j => val_main_v218 (F := Ideal) x0 x1 x2 x3 x4 x5 x6 x7 x8 x9 x10 (ix2 i j))
    (fun i j => val_main_v260 (F := Ideal) x0 x1 x2 x3 x4 x5 x6 x7 x8 x9 x10 (ix2 i j))
    (fun i j => val_main_v187 (F := Ideal) x0 x1 x2 x3 x4 x5 x6 x7 x8 x9 x10 (ix2 i j))
    (fun i j => val_main_v228 (F := Ideal) x0 x1 x2 x3 x4 x5 x6 x7 x8 x9 x10 (ix2 i j))
    (fun i j => val_main_v270 (F := Ideal) x0 x1 x2 x3 x4 x5 x6 x7 x8 x9 x10 (ix2 i j))
    (fun i j => val_main_v195 (F := Ideal) x0 x1 x2 x3 x4 x5 x6 x7 x8 x9 x10 x11 (ix2 i j))
    (fun i j => val_main_v236 (F := Ideal) x0 x1 x2 x3 x4 x5 x6 x7 x8 x9 x10 x11 (ix2 i j))
    (fun i j => val_main_v278 (F := Ideal) x0 x1 x2 x3 x4 x5 x6 x7 x8 x9 x10 x11 (ix2 i j))
    (fun i j => val_main_v279 (F := Ideal) x0 x1 x2 x3 x4 x5 x6 x7 x8 x9 x10 x11 (ix2 i j))
    (fun i j => val_main_v284 (F := Ideal) x0 x1 x2 x3 x4 x5 x6 x7 x8 x9 x10 x11 x12 x13 (ix2 i j))
    (fun i j => val_main_v309 (F := Ideal) x0 x1 x2 x3 x4 x5 x6 x7 x8 x9 x10 x11 x12 x13 x14 x15 (ix2 i j))
    (fun j => val_main_v287 (F := Ideal) x0 x1 x2 x3 x4 x5 x6 x7 x8 x9 x10 x11 x12 x13 (ix1 j))
    (fun j => val_main_v294 (F := Ideal) x0 x1 x2 x3 x4 x5 x6 x7 x8 x9 x10 x11 x12 x13 (ix1 j))
    (fun i j => l1_P0 x0 x1 x2 x3 x4 x5 x6 x7 x8 x9 x10 i j) (fun i j => l1_P1 x0 x1 x2 x3 x4 x5 x6 x7 x8 x9 x10 i j)
    (fun i j => l1_P2 x0 x1 x2 x3 x4 x5 x6 x7 x8 x9 x10 i j)
    (l1_G0 x0 x1 x2 x3 x4 x5 x6 x7 x8 x9 x10) (l1_G1 x0 x1 x2 x3 x4 x5 x6 x7 x8 x9 x10)
    (l1_G2 x0 x1 x2 x3 x4 x5 x6 x7 x8 x9 x10)
    (fun i j => l1_T0 x0 x1 x2 x3 x4 x5 x6 x7 x8 x9 x10 x11 i j) (fun i j => l1_T1 x0 x1 x2 x3 x4 x5 x6 x7 x8 x9 x10 x11 i j)
    (fun i j => l1_T2 x0 x1 x2 x3 x4 x5 x6 x7 x8 x9 x10 x11 i j)
    (fun i j => l1_sum x0 x1 x2 x3 x4 x5 x6 x7 x8 x9 x10 x11 i j)
    (fun i j => l1_dense x0 x1 x2 x3 x4 x5 x6 x7 x8 x9 x10 x11 x12 x13 i j)
    (fun j => l1_mean x0 x1 x2 x3 x4 x5 x6 x7 x8 x9 x10 x11 x12 x13 j)
    (fun j => l1_var x0 x1 x2 x3 x4 x5 x6 x7 x8 x9 x10 x11 x12 x13 j)
    (fun i j => l1_out x0 x1 x2 x3 x4 x5 x6 x7 x8 x9 x10 x11 x12 x13 x14 x15 i j)

theorem two_layers :
    (fun (i : Fin 100000) (j : Fin 128) =>
        val_main_v309 (F := Ideal) x0 x1 x2 x3 x4 x5 x6 x7 x8 x9 x10 x11 x12 x13 x14 x15 (ix2 i j))
      = refLayer (Spec.so x1 x2 x3) (Spec.si x1 x2 x3) (Spec.A x1 x2 x3) dvN rsq eps
          (refLayer (Spec.so x1 x2 x3) (Spec.si x1 x2 x3) (Spec.A x1 x2 x3) dvN rsq eps
            (fun i k => x0 (ix2 i k)) (fun r k j => x4 (ix3 r k j)) (fun r j => x5 (ix2 r j))
            (fun k j => x6 (ix2 k j)) (fun j => x7 (ix1 j)) (fun j => x8 (ix1 j)) (fun j => x9 (ix1 j)))
          (fun r k j => x10 (ix3 r k j)) (fun r j => x11 (ix2 r j))
          (fun k j => x12 (ix2 k j)) (fun j => x13 (ix1 j)) (fun j => x14 (ix1 j)) (fun j => x15 (ix1 j)) := by
  rw [layer1, layer0]

end Cert.RefBridge

end
-- ==== Proof.Join.lean ====
import proofs.«175263_j29738353557973_1_alg».proof.Proof.Math

noncomputable section

namespace Cert.Math

open BigOperators Cert.Layer

variable {n K0 H : ℕ}

theorem two_layers_both (so si : Fin 3 → Fin n → EReal)
    (hso : ∀ r i, ∃ s : ℝ, 0 ≤ s ∧ so r i = (s : EReal)) (hsi : ∀ r i, IsR (si r i))
    (A : Fin 3 → (Fin n → Fin H → EReal) → Fin n → Fin H → EReal)
    (hA : ∀ r f, (∀ i j, IsR (f i j)) → ∀ i j, IsR (A r f i j))
    (dv rs : EReal → EReal) (N : ℝ) (hN : N = (n : ℝ)) (hn : 0 < n)
    (hdv : ∀ a : ℝ, dv (a : EReal) = ((a / N : ℝ) : EReal))
    (ε : ℝ) (hε : 0 < ε) (hrs : ∀ a : ℝ, 0 < a → IsR (rs (a : EReal)))
    (x : Fin n → Fin K0 → EReal) (hx : ∀ i k, IsR (x i k))
    (W0 : Fin 3 → Fin K0 → Fin H → EReal) (hW0 : ∀ r k j, IsR (W0 r k j))
    (b0 : Fin 3 → Fin H → EReal) (hb0 : ∀ r j, IsR (b0 r j))
    (fcW0 : Fin H → Fin H → EReal) (hfcW0 : ∀ k j, IsR (fcW0 k j))
    (fcb0 g0 beta0 : Fin H → EReal) (hfcb0 : ∀ j, IsR (fcb0 j)) (hg0 : ∀ j, IsR (g0 j))
    (hbeta0 : ∀ j, IsR (beta0 j))
    (W1 : Fin 3 → Fin H → Fin H → EReal) (hW1 : ∀ r k j, IsR (W1 r k j))
    (b1 : Fin 3 → Fin H → EReal) (hb1 : ∀ r j, IsR (b1 r j))
    (fcW1 : Fin H → Fin H → EReal) (hfcW1 : ∀ k j, IsR (fcW1 k j))
    (fcb1 g1 beta1 : Fin H → EReal) (hfcb1 : ∀ j, IsR (fcb1 j)) (hg1 : ∀ j, IsR (g1 j))
    (hbeta1 : ∀ j, IsR (beta1 j)) :
    kerLayer so si A dv rs (ε : EReal)
        (kerLayer so si A dv rs (ε : EReal) x W0 b0 fcW0 fcb0 g0 beta0) W1 b1 fcW1 fcb1 g1 beta1
      = refLayer so si A dv rs (ε : EReal)
          (refLayer so si A dv rs (ε : EReal) x W0 b0 fcW0 fcb0 g0 beta0) W1 b1 fcW1 fcb1 g1 beta1
    ∧ ∀ i j, IsR (refLayer so si A dv rs (ε : EReal)
          (refLayer so si A dv rs (ε : EReal) x W0 b0 fcW0 fcb0 g0 beta0)
          W1 b1 fcW1 fcb1 g1 beta1 i j) := by
  obtain ⟨h0, hr0⟩ := layer_eq so si hso hsi A hA dv rs N hN hn hdv ε hε hrs x hx W0 hW0 b0 hb0
    fcW0 hfcW0 fcb0 g0 beta0 hfcb0 hg0 hbeta0
  rw [h0]
  exact layer_eq so si hso hsi A hA dv rs N hN hn hdv ε hε hrs _ hr0 W1 hW1 b1 hb1
    fcW1 hfcW1 fcb1 g1 beta1 hfcb1 hg1 hbeta1

theorem two_layers (so si : Fin 3 → Fin n → EReal)
    (hso : ∀ r i, ∃ s : ℝ, 0 ≤ s ∧ so r i = (s : EReal)) (hsi : ∀ r i, IsR (si r i))
    (A : Fin 3 → (Fin n → Fin H → EReal) → Fin n → Fin H → EReal)
    (hA : ∀ r f, (∀ i j, IsR (f i j)) → ∀ i j, IsR (A r f i j))
    (dv rs : EReal → EReal) (N : ℝ) (hN : N = (n : ℝ)) (hn : 0 < n)
    (hdv : ∀ a : ℝ, dv (a : EReal) = ((a / N : ℝ) : EReal))
    (ε : ℝ) (hε : 0 < ε) (hrs : ∀ a : ℝ, 0 < a → IsR (rs (a : EReal)))
    (x : Fin n → Fin K0 → EReal) (hx : ∀ i k, IsR (x i k))
    (W0 : Fin 3 → Fin K0 → Fin H → EReal) (hW0 : ∀ r k j, IsR (W0 r k j))
    (b0 : Fin 3 → Fin H → EReal) (hb0 : ∀ r j, IsR (b0 r j))
    (fcW0 : Fin H → Fin H → EReal) (hfcW0 : ∀ k j, IsR (fcW0 k j))
    (fcb0 g0 beta0 : Fin H → EReal) (hfcb0 : ∀ j, IsR (fcb0 j)) (hg0 : ∀ j, IsR (g0 j))
    (hbeta0 : ∀ j, IsR (beta0 j))
    (W1 : Fin 3 → Fin H → Fin H → EReal) (hW1 : ∀ r k j, IsR (W1 r k j))
    (b1 : Fin 3 → Fin H → EReal) (hb1 : ∀ r j, IsR (b1 r j))
    (fcW1 : Fin H → Fin H → EReal) (hfcW1 : ∀ k j, IsR (fcW1 k j))
    (fcb1 g1 beta1 : Fin H → EReal) (hfcb1 : ∀ j, IsR (fcb1 j)) (hg1 : ∀ j, IsR (g1 j))
    (hbeta1 : ∀ j, IsR (beta1 j)) :
    kerLayer so si A dv rs (ε : EReal)
        (kerLayer so si A dv rs (ε : EReal) x W0 b0 fcW0 fcb0 g0 beta0) W1 b1 fcW1 fcb1 g1 beta1
      = refLayer so si A dv rs (ε : EReal)
          (refLayer so si A dv rs (ε : EReal) x W0 b0 fcW0 fcb0 g0 beta0)
          W1 b1 fcW1 fcb1 g1 beta1 :=
  (two_layers_both so si hso hsi A hA dv rs N hN hn hdv ε hε hrs x hx W0 hW0 b0 hb0 fcW0 hfcW0
    fcb0 g0 beta0 hfcb0 hg0 hbeta0 W1 hW1 b1 hb1 fcW1 hfcW1 fcb1 g1 beta1 hfcb1 hg1 hbeta1).1

end Cert.Math

end
-- ==== Proof.Fin.lean ====
import proofs.«175263_j29738353557973_1_alg».proof.Pre_finite_inputs
import proofs.«175263_j29738353557973_1_alg».proof.Proof.Gen.Pre_finite_inputs
import Idealize.ShloMosaic.Lib.ReduceAll
import Idealize.ShloMosaic.Lib.ValueIdx
import Idealize.ShloMosaic.PureOps.Ideal

noncomputable section

namespace Cert.Fin

open Idealize.ShloMosaic Cert.Pre_finite_inputs

instance : Subsingleton S_.Idx := ⟨fun a b => funext fun d => d.elim0⟩

theorem real_of_abs_lt_inf (x : EReal)
    (h : FloatOps.cmpf (F := Ideal) (φ := .f32) .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => simp [Ideal.cmp] at h
  | coe r => exact ⟨r, rfl⟩
  | top => simp [Ideal.cmp] at h

theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf a) (broadcastInDim s ![] hb (constant S_ .f32 0x7F800000#32))) init hr hu ValueIdx.ix0 = 1#1)
    (i : s.Idx) : ∃ r : ℝ, a i = (r : EReal) :=
  real_of_abs_lt_inf (a i) (Host.reduce_andi_all _ init hr hu ValueIdx.ix0 e i)

variable [Facts]
variable {a0 : FVec Ideal S100000x1280 .f32} {a1 : IVec S2x200000 32} {a2 : IVec S2x1000000 32}
  {a3 : IVec S2x1600000 32} {a4 : FVec Ideal S3x1280x128 .f32} {a5 : FVec Ideal S3x128 .f32}
  {a6 : FVec Ideal S128x128 .f32} {a7 a8 a9 : FVec Ideal S128 .f32} {a10 : FVec Ideal S3x128x128 .f32}
  {a11 : FVec Ideal S3x128 .f32} {a12 : FVec Ideal S128x128 .f32} {a13 a14 a15 : FVec Ideal S128 .f32}

theorem all_real (h : fn (F := Ideal) a0 a1 a2 a3 a4 a5 a6 a7 a8 a9 a10 a11 a12 a13 a14 a15 = fun _ => 1#1) :
    (∀ i : S100000x1280.Idx, ∃ r : ℝ, a0 i = (r : EReal))
      ∧ (∀ i : S3x1280x128.Idx, ∃ r : ℝ, a4 i = (r : EReal))
      ∧ (∀ i : S3x128.Idx, ∃ r : ℝ, a5 i = (r : EReal))
      ∧ (∀ i : S128x128.Idx, ∃ r : ℝ, a6 i = (r : EReal))
      ∧ (∀ i : S128.Idx, ∃ r : ℝ, a7 i = (r : EReal))
      ∧ (∀ i : S128.Idx, ∃ r : ℝ, a8 i = (r : EReal))
      ∧ (∀ i : S128.Idx, ∃ r : ℝ, a9 i = (r : EReal))
      ∧ (∀ i : S3x128x128.Idx, ∃ r : ℝ, a10 i = (r : EReal))
      ∧ (∀ i : S3x128.Idx, ∃ r : ℝ, a11 i = (r : EReal))
      ∧ (∀ i : S128x128.Idx, ∃ r : ℝ, a12 i = (r : EReal))
      ∧ (∀ i : S128.Idx, ∃ r : ℝ, a13 i = (r : EReal))
      ∧ (∀ i : S128.Idx, ∃ r : ℝ, a14 i = (r : EReal))
      ∧ (∀ i : S128.Idx, ∃ r : ℝ, a15 i = (r : EReal)) := by
  have h0 := congrFun h ValueIdx.ix0
  simp only [fn, fn_part1, fn_part2, fn_part3, Idealize.ShloMosaic.andi, IntOp.andi_eq_one] at h0
  obtain ⟨⟨⟨⟨⟨⟨⟨⟨⟨⟨⟨⟨e0, e4⟩, e5⟩, e6⟩, e7⟩, e8⟩, e9⟩, e10⟩, e11⟩, e12⟩, e13⟩, e14⟩, e15⟩ := h0
  exact ⟨real_of_all a0 _ _ _ _ e0,
    real_of_all a4 _ _ _ _ e4,
    real_of_all a5 _ _ _ _ e5,
    real_of_all a6 _ _ _ _ e6,
    real_of_all a7 _ _ _ _ e7,
    real_of_all a8 _ _ _ _ e8,
    real_of_all a9 _ _ _ _ e9,
    real_of_all a10 _ _ _ _ e10,
    real_of_all a11 _ _ _ _ e11,
    real_of_all a12 _ _ _ _ e12,
    real_of_all a13 _ _ _ _ e13,
    real_of_all a14 _ _ _ _ e14,
    real_of_all a15 _ _ _ _ e15⟩

theorem real_arg0 (h : fn (F := Ideal) a0 a1 a2 a3 a4 a5 a6 a7 a8 a9 a10 a11 a12 a13 a14 a15 = fun _ => 1#1) (i : S100000x1280.Idx) :
    ∃ r : ℝ, a0 i = (r : EReal) := (all_real h).1 i

theorem real_arg4 (h : fn (F := Ideal) a0 a1 a2 a3 a4 a5 a6 a7 a8 a9 a10 a11 a12 a13 a14 a15 = fun _ => 1#1) (i : S3x1280x128.Idx) :
    ∃ r : ℝ, a4 i = (r : EReal) := (all_real h).2.1 i

theorem real_arg5 (h : fn (F := Ideal) a0 a1 a2 a3 a4 a5 a6 a7 a8 a9 a10 a11 a12 a13 a14 a15 = fun _ => 1#1) (i : S3x128.Idx) :
    ∃ r : ℝ, a5 i = (r : EReal) := (all_real h).2.2.1 i

theorem real_arg6 (h : fn (F := Ideal) a0 a1 a2 a3 a4 a5 a6 a7 a8 a9 a10 a11 a12 a13 a14 a15 = fun _ => 1#1) (i : S128x128.Idx) :
    ∃ r : ℝ, a6 i = (r : EReal) := (all_real h).2.2.2.1 i

theorem real_arg7 (h : fn (F := Ideal) a0 a1 a2 a3 a4 a5 a6 a7 a8 a9 a10 a11 a12 a13 a14 a15 = fun _ => 1#1) (i : S128.Idx) :
    ∃ r : ℝ, a7 i = (r : EReal) := (all_real h).2.2.2.2.1 i

theorem real_arg8 (h : fn (F := Ideal) a0 a1 a2 a3 a4 a5 a6 a7 a8 a9 a10 a11 a12 a13 a14 a15 = fun _ => 1#1) (i : S128.Idx) :
    ∃ r : ℝ, a8 i = (r : EReal) := (all_real h).2.2.2.2.2.1 i

theorem real_arg9 (h : fn (F := Ideal) a0 a1 a2 a3 a4 a5 a6 a7 a8 a9 a10 a11 a12 a13 a14 a15 = fun _ => 1#1) (i : S128.Idx) :
    ∃ r : ℝ, a9 i = (r : EReal) := (all_real h).2.2.2.2.2.2.1 i

theorem real_arg10 (h : fn (F := Ideal) a0 a1 a2 a3 a4 a5 a6 a7 a8 a9 a10 a11 a12 a13 a14 a15 = fun _ => 1#1) (i : S3x128x128.Idx) :
    ∃ r : ℝ, a10 i = (r : EReal) := (all_real h).2.2.2.2.2.2.2.1 i

theorem real_arg11 (h : fn (F := Ideal) a0 a1 a2 a3 a4 a5 a6 a7 a8 a9 a10 a11 a12 a13 a14 a15 = fun _ => 1#1) (i : S3x128.Idx) :
    ∃ r : ℝ, a11 i = (r : EReal) := (all_real h).2.2.2.2.2.2.2.2.1 i

theorem real_arg12 (h : fn (F := Ideal) a0 a1 a2 a3 a4 a5 a6 a7 a8 a9 a10 a11 a12 a13 a14 a15 = fun _ => 1#1) (i : S128x128.Idx) :
    ∃ r : ℝ, a12 i = (r : EReal) := (all_real h).2.2.2.2.2.2.2.2.2.1 i

theorem real_arg13 (h : fn (F := Ideal) a0 a1 a2 a3 a4 a5 a6 a7 a8 a9 a10 a11 a12 a13 a14 a15 = fun _ => 1#1) (i : S128.Idx) :
    ∃ r : ℝ, a13 i = (r : EReal) := (all_real h).2.2.2.2.2.2.2.2.2.2.1 i

theorem real_arg14 (h : fn (F := Ideal) a0 a1 a2 a3 a4 a5 a6 a7 a8 a9 a10 a11 a12 a13 a14 a15 = fun _ => 1#1) (i : S128.Idx) :
    ∃ r : ℝ, a14 i = (r : EReal) := (all_real h).2.2.2.2.2.2.2.2.2.2.2.1 i

theorem real_arg15 (h : fn (F := Ideal) a0 a1 a2 a3 a4 a5 a6 a7 a8 a9 a10 a11 a12 a13 a14 a15 = fun _ => 1#1) (i : S128.Idx) :
    ∃ r : ℝ, a15 i = (r : EReal) := (all_real h).2.2.2.2.2.2.2.2.2.2.2.2 i

end Cert.Fin

end
-- ==== Proof.Meet.lean ====
import proofs.«175263_j29738353557973_1_alg».proof.Proof.KI.KerIdx
import proofs.«175263_j29738353557973_1_alg».proof.Proof.RefBridge
import proofs.«175263_j29738353557973_1_alg».proof.Proof.Join
import proofs.«175263_j29738353557973_1_alg».proof.Proof.Consts
import proofs.«175263_j29738353557973_1_alg».proof.Proof.Spec
import proofs.«175263_j29738353557973_1_alg».proof.Proof.Fin

noncomputable section

namespace Cert.Meet

open Cert.ReferenceIdeal Idealize.ShloMosaic Idealize.ShloMosaic.ValueIdx Cert.Layer Cert.Consts
open scoped BigOperators

variable (x0 : (⟨S100000x1280, .f32⟩ : BufTy).Contents (Elt Ideal)) (x1 : (⟨S2x200000, .i32⟩ : BufTy).Contents (Elt Ideal))
  (x2 : (⟨S2x1000000, .i32⟩ : BufTy).Contents (Elt Ideal)) (x3 : (⟨S2x1600000, .i32⟩ : BufTy).Contents (Elt Ideal))
  (x4 : (⟨S3x1280x128, .f32⟩ : BufTy).Contents (Elt Ideal)) (x5 : (⟨S3x128, .f32⟩ : BufTy).Contents (Elt Ideal))
  (x6 : (⟨S128x128, .f32⟩ : BufTy).Contents (Elt Ideal)) (x7 x8 x9 : (⟨S128, .f32⟩ : BufTy).Contents (Elt Ideal))
  (x10 : (⟨S3x128x128, .f32⟩ : BufTy).Contents (Elt Ideal)) (x11 : (⟨S3x128, .f32⟩ : BufTy).Contents (Elt Ideal))
  (x12 : (⟨S128x128, .f32⟩ : BufTy).Contents (Elt Ideal)) (x13 x14 x15 : (⟨S128, .f32⟩ : BufTy).Contents (Elt Ideal))

theorem ker_two_layers (i : Fin 100000) (j : Fin 128) :
    Cert.KernelIdeal.Hand.kerArr1 (Cert.KernelIdeal.Hand.kerArr0 x0 x1 x2 x3 x4 x5 x6 x7 x8 x9)
        x1 x2 x3 x10 x11 x12 x13 x14 x15 (ix2 i j)
      = kerLayer (Spec.so x1 x2 x3) (Spec.si x1 x2 x3) (Spec.A x1 x2 x3) dvN rsq eps
          (kerLayer (Spec.so x1 x2 x3) (Spec.si x1 x2 x3) (Spec.A x1 x2 x3) dvN rsq eps
            (fun i k => x0 (ix2 i k)) (fun r k j => x4 (ix3 r k j)) (fun r j => x5 (ix2 r j))
            (fun k j => x6 (ix2 k j)) (fun j => x7 (ix1 j)) (fun j => x8 (ix1 j)) (fun j => x9 (ix1 j)))
          (fun r k j => x10 (ix3 r k j)) (fun r j => x11 (ix2 r j))
          (fun k j => x12 (ix2 k j)) (fun j => x13 (ix1 j)) (fun j => x14 (ix1 j)) (fun j => x15 (ix1 j)) i j := by
  have h0 : (fun (i : Fin 100000) (k : Fin 128) => Cert.KernelIdeal.Hand.kerArr0 x0 x1 x2 x3 x4 x5 x6 x7 x8 x9 (ix2 i k))
      = kerLayer (Spec.so x1 x2 x3) (Spec.si x1 x2 x3) (Spec.A x1 x2 x3) dvN rsq eps
          (fun i k => x0 (ix2 i k)) (fun r k j => x4 (ix3 r k j)) (fun r j => x5 (ix2 r j))
          (fun k j => x6 (ix2 k j)) (fun j => x7 (ix1 j)) (fun j => x8 (ix1 j)) (fun j => x9 (ix1 j)) :=
    funext fun i => funext fun k => Cert.KernelIdeal.Hand.kerArr0_ix x0 x1 x2 x3 x4 x5 x6 x7 x8 x9 i k
  refine (Cert.KernelIdeal.Hand.kerArr1_ix (Cert.KernelIdeal.Hand.kerArr0 x0 x1 x2 x3 x4 x5 x6 x7 x8 x9)
    x1 x2 x3 x10 x11 x12 x13 x14 x15 i j).trans ?_
  exact congrArg (fun X : Fin 100000 → Fin 128 → EReal =>
    kerLayer (Spec.so x1 x2 x3) (Spec.si x1 x2 x3) (Spec.A x1 x2 x3) dvN rsq eps X
      (fun r k j => x10 (ix3 r k j)) (fun r j => x11 (ix2 r j))
      (fun k j => x12 (ix2 k j)) (fun j => x13 (ix1 j)) (fun j => x14 (ix1 j)) (fun j => x15 (ix1 j)) i j) h0

theorem layers_agree (hpre : Cert.Pre_finite_inputs.fn (F := Ideal) x0 x1 x2 x3 x4 x5 x6 x7 x8 x9 x10 x11 x12 x13 x14 x15 = fun _ => 1#1) :
    kerLayer (Spec.so x1 x2 x3) (Spec.si x1 x2 x3) (Spec.A x1 x2 x3) dvN rsq eps
        (kerLayer (Spec.so x1 x2 x3) (Spec.si x1 x2 x3) (Spec.A x1 x2 x3) dvN rsq eps
          (fun i k => x0 (ix2 i k)) (fun r k j => x4 (ix3 r k j)) (fun r j => x5 (ix2 r j))
          (fun k j => x6 (ix2 k j)) (fun j => x7 (ix1 j)) (fun j => x8 (ix1 j)) (fun j => x9 (ix1 j)))
        (fun r k j => x10 (ix3 r k j)) (fun r j => x11 (ix2 r j))
        (fun k j => x12 (ix2 k j)) (fun j => x13 (ix1 j)) (fun j => x14 (ix1 j)) (fun j => x15 (ix1 j))
      = refLayer (Spec.so x1 x2 x3) (Spec.si x1 x2 x3) (Spec.A x1 x2 x3) dvN rsq eps
          (refLayer (Spec.so x1 x2 x3) (Spec.si x1 x2 x3) (Spec.A x1 x2 x3) dvN rsq eps
            (fun i k => x0 (ix2 i k)) (fun r k j => x4 (ix3 r k j)) (fun r j => x5 (ix2 r j))
            (fun k j => x6 (ix2 k j)) (fun j => x7 (ix1 j)) (fun j => x8 (ix1 j)) (fun j => x9 (ix1 j)))
          (fun r k j => x10 (ix3 r k j)) (fun r j => x11 (ix2 r j))
          (fun k j => x12 (ix2 k j)) (fun j => x13 (ix1 j)) (fun j => x14 (ix1 j)) (fun j => x15 (ix1 j)) := by
  obtain ⟨ε, hε, he⟩ := eps_pos
  rw [he]
  exact Cert.Math.two_layers (Spec.so x1 x2 x3) (Spec.si x1 x2 x3) (Spec.so_nonneg_real x1 x2 x3) (Spec.si_real x1 x2 x3)
    (Spec.A x1 x2 x3) (Spec.A_real x1 x2 x3) dvN rsq (100000 : ℝ) (by norm_num) (by norm_num) dvN_coe ε hε rsq_pos
    (fun i k => x0 (ix2 i k)) (fun i k => Cert.Fin.real_arg0 hpre (ix2 i k))
    (fun r k j => x4 (ix3 r k j)) (fun r k j => Cert.Fin.real_arg4 hpre (ix3 r k j))
    (fun r j => x5 (ix2 r j)) (fun r j => Cert.Fin.real_arg5 hpre (ix2 r j))
    (fun k j => x6 (ix2 k j)) (fun k j => Cert.Fin.real_arg6 hpre (ix2 k j))
    (fun j => x7 (ix1 j)) (fun j => x8 (ix1 j)) (fun j => x9 (ix1 j))
    (fun j => Cert.Fin.real_arg7 hpre (ix1 j)) (fun j => Cert.Fin.real_arg8 hpre (ix1 j)) (fun j => Cert.Fin.real_arg9 hpre (ix1 j))
    (fun r k j => x10 (ix3 r k j)) (fun r k j => Cert.Fin.real_arg10 hpre (ix3 r k j))
    (fun r j => x11 (ix2 r j)) (fun r j => Cert.Fin.real_arg11 hpre (ix2 r j))
    (fun k j => x12 (ix2 k j)) (fun k j => Cert.Fin.real_arg12 hpre (ix2 k j))
    (fun j => x13 (ix1 j)) (fun j => x14 (ix1 j)) (fun j => x15 (ix1 j))
    (fun j => Cert.Fin.real_arg13 hpre (ix1 j)) (fun j => Cert.Fin.real_arg14 hpre (ix1 j)) (fun j => Cert.Fin.real_arg15 hpre (ix1 j))

theorem meet (hpre : Cert.Pre_finite_inputs.fn (F := Ideal) x0 x1 x2 x3 x4 x5 x6 x7 x8 x9 x10 x11 x12 x13 x14 x15 = fun _ => 1#1) :
    Cert.KernelIdeal.Hand.kerArr1 (Cert.KernelIdeal.Hand.kerArr0 x0 x1 x2 x3 x4 x5 x6 x7 x8 x9)
        x1 x2 x3 x10 x11 x12 x13 x14 x15
      = Cert.ReferenceIdeal.ReadP.val_main_v309 (F := Ideal) x0 x1 x2 x3 x4 x5 x6 x7 x8 x9 x10 x11 x12 x13 x14 x15 := by
  funext idx
  obtain ⟨i, j, rfl⟩ : ∃ (i : Fin 100000) (j : Fin 128), idx = ix2 i j := ⟨idx 0, idx 1, eq_ix2 idx⟩
  exact (ker_two_layers x0 x1 x2 x3 x4 x5 x6 x7 x8 x9 x10 x11 x12 x13 x14 x15 i j).trans
    ((congrFun (congrFun (layers_agree x0 x1 x2 x3 x4 x5 x6 x7 x8 x9 x10 x11 x12 x13 x14 x15 hpre) i) j).trans
      (congrFun (congrFun (Cert.RefBridge.two_layers x0 x1 x2 x3 x4 x5 x6 x7 x8 x9 x10 x11 x12 x13 x14 x15) i) j).symm)

end Cert.Meet

end
-- ==== Proof.lean ====
import proofs.«175263_j29738353557973_1_alg».proof.Defs
import proofs.«175263_j29738353557973_1_alg».proof.Proof.Gen.Kernel
import proofs.«175263_j29738353557973_1_alg».proof.Proof.Gen.Kernel.Skeleton
import proofs.«175263_j29738353557973_1_alg».proof.Proof.Gen.Kernel.Launch
import proofs.«175263_j29738353557973_1_alg».proof.Proof.Gen.Kernel.Regions
import proofs.«175263_j29738353557973_1_alg».proof.Proof.Gen.Kernel.Points
import proofs.«175263_j29738353557973_1_alg».proof.Proof.Gen.KernelIdeal
import proofs.«175263_j29738353557973_1_alg».proof.Proof.Gen.KernelIdeal.Skeleton
import proofs.«175263_j29738353557973_1_alg».proof.Proof.Gen.KernelIdeal.Launch
import proofs.«175263_j29738353557973_1_alg».proof.Proof.Gen.KernelIdeal.Regions
import proofs.«175263_j29738353557973_1_alg».proof.Proof.Gen.KernelIdeal.Points
import proofs.«175263_j29738353557973_1_alg».proof.Proof.Gen.ReferenceIdeal
import proofs.«175263_j29738353557973_1_alg».proof.Proof.Gen.Pre_finite_inputs
import Idealize.ShloMosaic.Adequacy
import Idealize.ShloMosaic.Init
import proofs.«175263_j29738353557973_1_alg».proof.Proof.K.Run
import proofs.«175263_j29738353557973_1_alg».proof.Proof.KI.Run
import proofs.«175263_j29738353557973_1_alg».proof.Proof.RefRun
import proofs.«175263_j29738353557973_1_alg».proof.Proof.KI.KerBridge
import proofs.«175263_j29738353557973_1_alg».proof.Proof.Meet

set_option maxRecDepth 16384

noncomputable section

namespace Cert.Proof

open Idealize.ShloMosaic Idealize.SL.Sem Cert.KernelIdeal

theorem frame_Kernel : Cert.frame_Kernel := fun m ρ _ => Cert.Kernel.Hand.frame (F := Bits) m ρ

theorem frame_KernelIdeal : Cert.frame_KernelIdeal := fun m ρ _ => Hand.frame (F := Ideal) m ρ

/-- The reference's run names its result and keeps its arguments; the frame is that post without the result. -/
theorem frame_ReferenceIdeal : Cert.frame_ReferenceIdeal := fun m ρ _ =>
  (θ_run Cert.ReferenceIdeal.defs _ _).mono (fun _ h c => (h c).2) (Cert.ReferenceIdeal.HandRun.run (F := Ideal) m ρ)

/-- Both results are one term of the arguments: the kernel program's two layers, which the reference's last stage equals at finite arguments. -/
theorem algebraic : Cert.algebraic_KernelIdeal_ReferenceIdeal := by
  intro m ρ m' ρ' hpre hagree
  refine ⟨fun c => Hand.W24 (F := Ideal) m ρ c (Proc.devRef .tc main_v246), ?_, ?_⟩
  · exact Hand.run_of (F := Ideal) m ρ fun s h c =>
      ⟨h c _ (Hand.mem_uc main_v246 (by decide)), Hand.args_kept m ρ c s (h c)⟩
  · refine (θ_run Cert.ReferenceIdeal.defs _ _).mono (fun _ h c => ?_) (Cert.ReferenceIdeal.HandRun.run (F := Ideal) m' ρ')
    obtain ⟨e0, e1, e2, e3, e4, e5, e6, e7, e8, e9, e10, e11, e12, e13, e14, e15⟩ := hagree c
    refine ⟨(h c).1.trans ?_, (h c).2⟩
    rw [e0, e1, e2, e3, e4, e5, e6, e7, e8, e9, e10, e11, e12, e13, e14, e15]
    exact ((Hand.W24_v246 m ρ c).trans (Cert.Meet.meet _ _ _ _ _ _ _ _ _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, trivial, algebraic⟩

end Cert.Proof

end
